-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.truncf_extf.Statement Cert.KernelIdeal.S256x8192 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v272)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_v273)) (v3 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v272) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_v273) = v2 c
          ∧ r.2.mem ((c.tc : Thread Cert.KernelIdeal.nD Cert.KernelIdeal.τ).loc Cert.KernelIdeal.main_v108) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v335) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_v336) = v2 c
          ∧ r.2.mem ((c.tc : Thread Cert.ReferenceIdeal.nD Cert.ReferenceIdeal.τ).loc Cert.ReferenceIdeal.main_v168) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S262144 : Shape := ⟨1, ![262144]⟩
abbrev S8192x8192 : Shape := ⟨2, ![8192, 8192]⟩
abbrev S8192 : Shape := ⟨1, ![8192]⟩
abbrev S512x16 : Shape := ⟨2, ![512, 16]⟩
abbrev S16 : Shape := ⟨1, ![16]⟩
abbrev S16x10 : Shape := ⟨2, ![16, 10]⟩
abbrev S10 : Shape := ⟨1, ![10]⟩
abbrev S512x100 : Shape := ⟨2, ![512, 100]⟩
abbrev S100 : Shape := ⟨1, ![100]⟩
abbrev S16x100 : Shape := ⟨2, ![16, 100]⟩
abbrev S110x10 : Shape := ⟨2, ![110, 10]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S8192x8192 : S_.BroadcastsInDim S8192x8192 (![] : Fin 0 → Fin S8192x8192.rank)
  reducesTo_S8192x8192_S_d0_1 : S8192x8192.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_
  bcast_S_S512x100 : S_.BroadcastsInDim S512x100 (![] : Fin 0 → Fin S512x100.rank)
  reducesTo_S512x100_S_d0_1 : S512x100.ReducesTo [0, 1] S_
  bcast_S_S100 : S_.BroadcastsInDim S100 (![] : Fin 0 → Fin S100.rank)
  reducesTo_S100_S_d0 : S100.ReducesTo [0] S_
  bcast_S_S16x100 : S_.BroadcastsInDim S16x100 (![] : Fin 0 → Fin S16x100.rank)
  reducesTo_S16x100_S_d0_1 : S16x100.ReducesTo [0, 1] S_
  bcast_S_S110x10 : S_.BroadcastsInDim S110x10 (![] : Fin 0 → Fin S110x10.rank)
  reducesTo_S110x10_S_d0_1 : S110x10.ReducesTo [0, 1] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S16x100 .f32) (main_arg14 : FVec F S100 .f32) (main_arg15 : FVec F S110x10 .f32) (main_arg16 : FVec F S10 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x100 .f32 := Host.absf main_arg13
  let main_cst_20 : FVec F S_ .f32 := constant S_ .f32 0x7F800000#32
  let main_v55 : FVec F S16x100 .f32 := broadcastInDim S16x100 ![] bcast_S_S16x100 main_cst_20
  let main_v56 : IVec S16x100 1 := cmpf .olt main_v54 main_v55
  let main_c_21 : IVec S_ 1 := constantI S_ 1 1#1
  let main_v57 : IVec S_ 1 := (fun x v => Host.reduce IntOp.andi x v reducesTo_S16x100_S_d0_1 h_S_) main_v56 main_c_21
  let main_v58 : IVec S_ 1 := andi main_v53 main_v57
  let main_v59 : FVec F S100 .f32 := Host.absf main_arg14
  let main_cst_22 : FVec F S_ .f32 := constant S_ .f32 0x7F800000#32
  let main_v60 : FVec F S100 .f32 := broadcastInDim S100 ![] bcast_S_S100 main_cst_22
  let main_v61 : IVec S100 1 := cmpf .olt main_v59 main_v60
  let main_c_23 : IVec S_ 1 := constantI S_ 1 1#1
  let main_v62 : IVec S_ 1 := (fun x v => Host.reduce IntOp.andi x v reducesTo_S100_S_d0 h_S_) main_v61 main_c_23
  let main_v63 : IVec S_ 1 := andi main_v58 main_v62
  let main_v64 : FVec F S110x10 .f32 := Host.absf main_arg15
  let main_cst_24 : FVec F S_ .f32 := constant S_ .f32 0x7F800000#32
  let main_v65 : FVec F S110x10 .f32 := broadcastInDim S110x10 ![] bcast_S_S110x10 main_cst_24
  let main_v66 : IVec S110x10 1 := cmpf .olt main_v64 main_v65
  let main_c_25 : IVec S_ 1 := constantI S_ 1 1#1
  let main_v67 : IVec S_ 1 := (fun x v => Host.reduce IntOp.andi x v reducesTo_S110x10_S_d0_1 h_S_) main_v66 main_c_25
  fn_part4 (F := F) main_arg16 main_v63 main_v67

def fn_part2 {F : FTy → Type} [FloatOps F] (main_arg9 : FVec F S512x100 .f32) (main_arg10 : FVec F S100 .f32) (main_arg11 : FVec F S512x16 .f32) (main_arg12 : FVec F S16 .f32) (main_arg13 : FVec F S16x100 .f32) (main_arg14 : FVec F S100 .f32) (main_arg15 : FVec F S110x10 .f32) (main_arg16 : FVec F S10 .f32) (main_v33 : IVec S_ 1) : IVec S_ 1 :=
  let main_v34 : FVec F S512x100 .f32 := Host.absf main_arg9
  let main_cst_12 : FVec F S_ .f32 := constant S_ .f32 0x7F800000#32
  let main_v35 : FVec F S512x100 .f32 := broadcastInDim S512x100 ![] bcast_S_S512x100 main_cst_12
  let main_v36 : IVec S512x100 1 := cmpf .olt main_v34 main_v35
  let main_c_13 : IVec S_ 1 := constantI S_ 1 1#1
  let main_v37 : IVec S_ 1 := (fun x v => Host.reduce IntOp.andi x v reducesTo_S512x100_S_d0_1 h_S_) main_v36 main_c_13
  let main_v38 : IVec S_ 1 := andi main_v33 main_v37
  let main_v39 : FVec F S100 .f32 := Host.absf main_arg10
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S512x16 .f32 := Host.absf main_arg11
  let main_cst_16 : FVec F S_ .f32 := constant S_ .f32 0x7F800000#32
  let main_v45 : FVec F S512x16 .f32 := broadcastInDim S512x16 ![] bcast_S_S512x16 main_cst_16
  let main_v46 : IVec S512x16 1 := cmpf .olt main_v44 main_v45
  let main_c_17 : IVec S_ 1 := constantI S_ 1 1#1
  let main_v47 : IVec S_ 1 := (fun x v => Host.reduce IntOp.andi x v reducesTo_S512x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg13 main_arg14 main_arg15 main_arg16 main_v48 main_v49 main_v50

def fn_part1 {F : FTy → Type} [FloatOps F] (main_arg6 : FVec F S16 .f32) (main_arg7 : FVec F S16x10 .f32) (main_arg8 : FVec F S10 .f32) (main_arg9 : FVec F S512x100 .f32) (main_arg10 : FVec F S100 .f32) (main_arg11 : FVec F S512x16 .f32) (main_arg12 : FVec F S16 .f32) (main_arg13 : FVec F S16x100 .f32) (main_arg14 : FVec F S100 .f32) (main_arg15 : FVec F S110x10 .f32) (main_arg16 : FVec F S10 .f32) (main_v13 : IVec S_ 1) (main_v16 : IVec S512x16 1) : IVec S_ 1 :=
  let main_c_5 : IVec S_ 1 := constantI S_ 1 1#1
  let main_v17 : IVec S_ 1 := (fun x v => Host.reduce IntOp.andi x v reducesTo_S512x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x10 .f32 := Host.absf main_arg7
  let main_cst_8 : FVec F S_ .f32 := constant S_ .f32 0x7F800000#32
  let main_v25 : FVec F S16x10 .f32 := broadcastInDim S16x10 ![] bcast_S_S16x10 main_cst_8
  let main_v26 : IVec S16x10 1 := cmpf .olt main_v24 main_v25
  let main_c_9 : IVec S_ 1 := constantI S_ 1 1#1
  let main_v27 : IVec S_ 1 := (fun x v => Host.reduce IntOp.andi x v reducesTo_S16x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S8192x512 .f32) (main_arg1 : IVec S2x262144 32) (main_arg2 : FVec F S262144 .f32) (main_arg3 : FVec F S8192x8192 .f32) (main_arg4 : IVec S8192 1) (main_arg5 : FVec F S512x16 .f32) (main_arg6 : FVec F S16 .f32) (main_arg7 : FVec F S16x10 .f32) (main_arg8 : FVec F S10 .f32) (main_arg9 : FVec F S512x100 .f32) (main_arg10 : FVec F S100 .f32) (main_arg11 : FVec F S512x16 .f32) (main_arg12 : FVec F S16 .f32) (main_arg13 : FVec F S16x100 .f32) (main_arg14 : FVec F S100 .f32) (main_arg15 : FVec F S110x10 .f32) (main_arg16 : FVec F S10 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S8192x8192 .f32 := Host.absf main_arg3
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S512x16 .f32 := Host.absf main_arg5
  let main_cst_4 : FVec F S_ .f32 := constant S_ .f32 0x7F800000#32
  let main_v15 : FVec F S512x16 .f32 := broadcastInDim S512x16 ![] bcast_S_S512x16 main_cst_4
  let main_v16 : IVec S512x16 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S8192x512 : Shape := ⟨2, ![8192, 512]⟩
abbrev S2x262144 : Shape := ⟨2, ![2, 262144]⟩
abbrev S262144 : Shape := ⟨1, ![262144]⟩
abbrev S8192x8192 : Shape := ⟨2, ![8192, 8192]⟩
abbrev S8192 : Shape := ⟨1, ![8192]⟩
abbrev S512x16 : Shape := ⟨2, ![512, 16]⟩
abbrev S16 : Shape := ⟨1, ![16]⟩
abbrev S16x10 : Shape := ⟨2, ![16, 10]⟩
abbrev S10 : Shape := ⟨1, ![10]⟩
abbrev S512x100 : Shape := ⟨2, ![512, 100]⟩
abbrev S100 : Shape := ⟨1, ![100]⟩
abbrev S16x100 : Shape := ⟨2, ![16, 100]⟩
abbrev S110x10 : Shape := ⟨2, ![110, 10]⟩
abbrev S1x262144 : Shape := ⟨2, ![1, 262144]⟩
abbrev S270336 : Shape := ⟨1, ![270336]⟩
abbrev S_ : Shape := ⟨0, ![]⟩
abbrev S270336x1 : Shape := ⟨2, ![270336, 1]⟩
abbrev S512x116 : Shape := ⟨2, ![512, 116]⟩
abbrev S116 : Shape := ⟨1, ![116]⟩
abbrev S8192x116 : Shape := ⟨2, ![8192, 116]⟩
abbrev S270336x116 : Shape := ⟨2, ![270336, 116]⟩
abbrev S1x116 : Shape := ⟨2, ![1, 116]⟩
abbrev S8192x16 : Shape := ⟨2, ![8192, 16]⟩
abbrev S8192x100 : Shape := ⟨2, ![8192, 100]⟩
abbrev S8192x10 : Shape := ⟨2, ![8192, 10]⟩
abbrev S270336x10 : Shape := ⟨2, ![270336, 10]⟩
abbrev S1x10 : Shape := ⟨2, ![1, 10]⟩
abbrev S8192x1 : Shape := ⟨2, ![8192, 1]⟩
abbrev S8192x128 : Shape := ⟨2, ![8192, 128]⟩
abbrev S2x128x128 : Shape := ⟨3, ![2, 128, 128]⟩
abbrev S2x8x128 : Shape := ⟨3, ![2, 8, 128]⟩
abbrev S2x128x512 : Shape := ⟨3, ![2, 128, 512]⟩
abbrev S256x8192 : Shape := ⟨2, ![256, 8192]⟩
abbrev S256x128 : Shape := ⟨2, ![256, 128]⟩
abbrev S256x512 : Shape := ⟨2, ![256, 512]⟩
abbrev S1x128x128 : Shape := ⟨3, ![1, 128, 128]⟩
abbrev S1x8x128 : Shape := ⟨3, ![1, 8, 128]⟩
abbrev S1x128x512 : Shape := ⟨3, ![1, 128, 512]⟩
abbrev S128x128 : Shape := ⟨2, ![128, 128]⟩
abbrev S8x128 : Shape := ⟨2, ![8, 128]⟩
abbrev S128x512 : Shape := ⟨2, ![128, 512]⟩
abbrev S1x256x8192 : Shape := ⟨3, ![1, 256, 8192]⟩
abbrev S1 : Shape := ⟨1, ![1]⟩
abbrev S1x1x1 : Shape := ⟨3, ![1, 1, 1]⟩
abbrev S1x1 : Shape := ⟨2, ![1, 1]⟩
abbrev S2x1x1 : Shape := ⟨3, ![2, 1, 1]⟩
abbrev S2 : Shape := ⟨1, ![2]⟩
abbrev S100x100 : Shape := ⟨2, ![100, 100]⟩
abbrev S100x512 : Shape := ⟨2, ![100, 512]⟩
abbrev S100x8192 : Shape := ⟨2, ![100, 8192]⟩
abbrev S100x1 : Shape := ⟨2, ![100, 1]⟩
abbrev S100x2 : Shape := ⟨2, ![100, 2]⟩
abbrev S1x100 : Shape := ⟨2, ![1, 100]⟩
abbrev S100x16 : Shape := ⟨2, ![100, 16]⟩
abbrev S1x16 : Shape := ⟨2, ![1, 16]⟩
abbrev S8192x110 : Shape := ⟨2, ![8192, 110]⟩

abbrev nBuf : Space → Nat
  | .hbm => 407
  | .vmem => 14
  | .smem => 0
  | _ => 0

abbrev hbmTy0_0 (i : Nat) : BufTy := match i % 128 with
  | 0 => ⟨S8192x512, .f32⟩
  | 1 => ⟨S2x262144, .i32⟩
  | 2 => ⟨S262144, .f32⟩
  | 3 => ⟨S8192x8192, .f32⟩
  | 4 => ⟨S8192, .i1⟩
  | 5 => ⟨S512x16, .f32⟩
  | 6 => ⟨S16, .f32⟩
  | 7 => ⟨S16x10, .f32⟩
  | 8 => ⟨S10, .f32⟩
  | 9 => ⟨S512x100, .f32⟩
  | 10 => ⟨S100, .f32⟩
  | 11 => ⟨S512x16, .f32⟩
  | 12 => ⟨S16, .f32⟩
  | 13 => ⟨S16x100, .f32⟩
  | 14 => ⟨S100, .f32⟩
  | 15 => ⟨S110x10, .f32⟩
  | 16 => ⟨S10, .f32⟩
  | 17 => ⟨S1x262144, .i32⟩
  | 18 => ⟨S262144, .i32⟩
  | 19 => ⟨S1x262144, .i32⟩
  | 20 => ⟨S262144, .i32⟩
  | 21 => ⟨S8192, .i32⟩
  | 22 => ⟨S270336, .i32⟩
  | 23 => ⟨S270336, .i32⟩
  | 24 => ⟨S_, .f32⟩
  | 25 => ⟨S8192, .f32⟩
  | 26 => ⟨S270336, .f32⟩
  | 27 => ⟨S_, .f32⟩
  | 28 => ⟨S8192, .f32⟩
  | 29 => ⟨S270336x1, .i32⟩
  | 30 => ⟨S8192, .f32⟩
  | 31 => ⟨S_, .f32⟩
  | 32 => ⟨S8192, .f32⟩
  | 33 => ⟨S8192, .i1⟩
  | 34 => ⟨S_, .f32⟩
  | 35 => ⟨S8192, .f32⟩
  | 36 => ⟨S8192, .f32⟩
  | 37 => ⟨S8192, .f32⟩
  | 38 => ⟨S_, .f32⟩
  | 39 => ⟨S_, .f32⟩
  | 40 => ⟨S8192, .f32⟩
  | 41 => ⟨S8192, .f32⟩
  | 42 => ⟨S_, .i32⟩
  | 43 => ⟨S270336, .i32⟩
  | 44 => ⟨S270336, .i1⟩
  | 45 => ⟨S_, .i32⟩
  | 46 => ⟨S270336, .i32⟩
  | 47 => ⟨S270336, .i32⟩
  | 48 => ⟨S270336, .i32⟩
  | 49 => ⟨S270336x1, .i32⟩
  | 50 => ⟨S270336, .f32⟩
  | 51 => ⟨S270336, .f32⟩
  | 52 => ⟨S_, .i32⟩
  | 53 => ⟨S270336, .i32⟩
  | 54 => ⟨S270336, .i1⟩
  | 55 => ⟨S_, .i32⟩
  | 56 => ⟨S270336, .i32⟩
  | 57 => ⟨S270336, .i32⟩
  | 58 => ⟨S270336, .i32⟩
  | 59 => ⟨S270336x1, .i32⟩
  | 60 => ⟨S270336, .f32⟩
  | 61 => ⟨S270336, .f32⟩
  | 62 => ⟨S512x116, .f32⟩
  | 63 => ⟨S116, .f32⟩
  | 64 => ⟨S8192x116, .f32⟩
  | 65 => ⟨S270336x1, .f32⟩
  | 66 => ⟨S_, .i32⟩
  | 67 => ⟨S270336, .i32⟩
  | 68 => ⟨S270336, .i1⟩
  | 69 => ⟨S_, .i32⟩
  | 70 => ⟨S270336, .i32⟩
  | 71 => ⟨S270336, .i32⟩
  | 72 => ⟨S270336, .i32⟩
  | 73 => ⟨S270336x1, .i32⟩
  | 74 => ⟨S270336x116, .f32⟩
  | 75 => ⟨S270336x116, .f32⟩
  | 76 => ⟨S270336x116, .f32⟩
  | 77 => ⟨S_, .f32⟩
  | 78 => ⟨S8192x116, .f32⟩
  | 79 => ⟨S270336x1, .i32⟩
  | 80 => ⟨S8192x116, .f32⟩
  | 81 => ⟨S1x116, .f32⟩
  | 82 => ⟨S8192x116, .f32⟩
  | 83 => ⟨S8192x116, .f32⟩
  | 84 => ⟨S8192x16, .f32⟩
  | 85 => ⟨S_, .f32⟩
  | 86 => ⟨S8192x16, .f32⟩
  | 87 => ⟨S8192x16, .f32⟩
  | 88 => ⟨S8192x100, .f32⟩
  | 89 => ⟨S_, .f32⟩
  | 90 => ⟨S8192x100, .f32⟩
  | 91 => ⟨S8192x100, .f32⟩
  | 92 => ⟨S8192x10, .f32⟩
  | 93 => ⟨S270336x1, .f32⟩
  | 94 => ⟨S_, .i32⟩
  | 95 => ⟨S270336, .i32⟩
  | 96 => ⟨S270336, .i1⟩
  | 97 => ⟨S_, .i32⟩
  | 98 => ⟨S270336, .i32⟩
  | 99 => ⟨S270336, .i32⟩
  | 100 => ⟨S270336, .i32⟩
  | 101 => ⟨S270336x1, .i32⟩
  | 102 => ⟨S270336x10, .f32⟩
  | 103 => ⟨S270336x10, .f32⟩
  | 104 => ⟨S270336x10, .f32⟩
  | 105 => ⟨S_, .f32⟩
  | 106 => ⟨S8192x10, .f32⟩
  | 107 => ⟨S270336x1, .i32⟩
  | 108 => ⟨S8192x10, .f32⟩
  | 109 => ⟨S1x10, .f32⟩
  | 110 => ⟨S8192x10, .f32⟩
  | 111 => ⟨S8192x10, .f32⟩
  | 112 => ⟨S_, .f32⟩
  | 113 => ⟨S8192, .f32⟩
  | 114 => ⟨S_, .f32⟩
  | 115 => ⟨S8192, .f32⟩
  | 116 => ⟨S8192, .f32⟩
  | 117 => ⟨S8192x1, .f32⟩
  | 118 => ⟨S8192x100, .f32⟩
  | 119 => ⟨S8192x100, .f32⟩
  | 120 => ⟨S8192x100, .f32⟩
  | 121 => ⟨S_, .f32⟩
  | 122 => ⟨S8192, .f32⟩
  | 123 => ⟨S8192x1, .f32⟩
  | 124 => ⟨S8192x100, .f32⟩
  | 125 => ⟨S8192x100, .f32⟩
  | 126 => ⟨S8192, .f32⟩
  | 127 => ⟨S8192x1, .f32⟩
  | _ => ⟨S8192x512, .f32⟩

abbrev hbmTy0_1 (i : Nat) : BufTy := match i % 128 with
  | 0 => ⟨S8192x100, .f32⟩
  | 1 => ⟨S8192x100, .f32⟩
  | 2 => ⟨S8192x100, .f32⟩
  | 3 => ⟨S_, .f32⟩
  | 4 => ⟨S8192x100, .f32⟩
  | 5 => ⟨S8192x100, .f32⟩
  | 6 => ⟨S8192x100, .f32⟩
  | 7 => ⟨S8192x100, .f32⟩
  | 8 => ⟨S_, .f32⟩
  | 9 => ⟨S8192, .f32⟩
  | 10 => ⟨S_, .f32⟩
  | 11 => ⟨S_, .f32⟩
  | 12 => ⟨S_, .f32⟩
  | 13 => ⟨S_, .f32⟩
  | 14 => ⟨S_, .i32⟩
  | 15 => ⟨S_, .f32⟩
  | 16 => ⟨S8192x128, .f32⟩
  | 17 => ⟨S8192x128, .bf16⟩
  | 18 => ⟨S8192x128, .f32⟩
  | 19 => ⟨S8192x128, .f32⟩
  | 20 => ⟨S8192x128, .bf16⟩
  | 21 => ⟨S2x128x128, .f32⟩
  | 22 => ⟨S2x8x128, .f32⟩
  | 23 => ⟨S2x128x512, .f32⟩
  | 24 => ⟨S_, .f32⟩
  | 25 => ⟨S128x128, .f32⟩
  | 26 => ⟨S2x1x1, .f32⟩
  | 27 => ⟨S2, .f32⟩
  | 28 => ⟨S_, .f32⟩
  | 29 => ⟨S_, .f32⟩
  | 30 => ⟨S_, .f32⟩
  | 31 => ⟨S128x512, .f32⟩
  | 32 => ⟨S100x100, .f32⟩
  | 33 => ⟨S100x512, .f32⟩
  | 34 => ⟨S100x8192, .f32⟩
  | 35 => ⟨S100x100, .f32⟩
  | 36 => ⟨S100x100, .f32⟩
  | 37 => ⟨S_, .f32⟩
  | 38 => ⟨S_, .f32⟩
  | 39 => ⟨S128x128, .i32⟩
  | 40 => ⟨S128x128, .i32⟩
  | 41 => ⟨S_, .i32⟩
  | 42 => ⟨S128x128, .i32⟩
  | 43 => ⟨S128x128, .i32⟩
  | 44 => ⟨S128x128, .i1⟩
  | 45 => ⟨S_, .f32⟩
  | 46 => ⟨S128x128, .f32⟩
  | 47 => ⟨S128x128, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S100, .i32⟩
  | 60 => ⟨S_, .i32⟩
  | 61 => ⟨S100, .i32⟩
  | 62 => ⟨S100, .i1⟩
  | 63 => ⟨S_, .i32⟩
  | 64 => ⟨S100, .i32⟩
  | 65 => ⟨S100, .i32⟩
  | 66 => ⟨S100, .i32⟩
  | 67 => ⟨S_, .i32⟩
  | 68 => ⟨S100, .i32⟩
  | 69 => ⟨S100, .i1⟩
  | 70 => ⟨S_, .i32⟩
  | 71 => ⟨S100, .i32⟩
  | 72 => ⟨S100, .i32⟩
  | 73 => ⟨S100, .i32⟩
  | 74 => ⟨S100x1, .i32⟩
  | 75 => ⟨S100x1, .i32⟩
  | 76 => ⟨S100x2, .i32⟩
  | 77 => ⟨S100, .f32⟩
  | 78 => ⟨S_, .f32⟩
  | 79 => ⟨S100, .f32⟩
  | 80 => ⟨S100, .i1⟩
  | 81 => ⟨S_, .f32⟩
  | 82 => ⟨S_, .f32⟩
  | 83 => ⟨S100, .f32⟩
  | 84 => ⟨S100, .f32⟩
  | 85 => ⟨S_, .i32⟩
  | 86 => ⟨S100, .i32⟩
  | 87 => ⟨S100, .i1⟩
  | 88 => ⟨S_, .i32⟩
  | 89 => ⟨S100, .i32⟩
  | 90 => ⟨S100, .i32⟩
  | 91 => ⟨S100, .i32⟩
  | 92 => ⟨S_, .i32⟩
  | 93 => ⟨S100, .i32⟩
  | 94 => ⟨S100, .i1⟩
  | 95 => ⟨S_, .i32⟩
  | 96 => ⟨S100, .i32⟩
  | 97 => ⟨S100, .i32⟩
  | 98 => ⟨S100, .i32⟩
  | 99 => ⟨S100x1, .i32⟩
  | 100 => ⟨S100x1, .i32⟩
  | 101 => ⟨S100x2, .i32⟩
  | 102 => ⟨S100x100, .f32⟩
  | 103 => ⟨S_, .f32⟩
  | 104 => ⟨S100, .f32⟩
  | 105 => ⟨S_, .f32⟩
  | 106 => ⟨S100, .f32⟩
  | 107 => ⟨S100, .i1⟩
  | 108 => ⟨S_, .f32⟩
  | 109 => ⟨S100, .f32⟩
  | 110 => ⟨S100, .f32⟩
  | 111 => ⟨S100, .f32⟩
  | 112 => ⟨S_, .f32⟩
  | 113 => ⟨S_, .f32⟩
  | 114 => ⟨S100, .f32⟩
  | 115 => ⟨S100, .f32⟩
  | 116 => ⟨S100x1, .f32⟩
  | 117 => ⟨S100x100, .f32⟩
  | 118 => ⟨S100x100, .f32⟩
  | 119 => ⟨S1x100, .f32⟩
  | 120 => ⟨S100x100, .f32⟩
  | 121 => ⟨S100x100, .f32⟩
  | 122 => ⟨S100x16, .f32⟩
  | 123 => ⟨S100x16, .f32⟩
  | 124 => ⟨S1x16, .f32⟩
  | 125 => ⟨S100x16, .f32⟩
  | 126 => ⟨S100x16, .f32⟩
  | 127 => ⟨S_, .f32⟩
  | _ => ⟨S8192x512, .f32⟩

abbrev hbmTy0_2 (i : Nat) : BufTy := match i % 128 with
  | 0 => ⟨S100x16, .f32⟩
  | 1 => ⟨S100x16, .f32⟩
  | 2 => ⟨S100, .i32⟩
  | 3 => ⟨S_, .i32⟩
  | 4 => ⟨S100, .i32⟩
  | 5 => ⟨S100, .i1⟩
  | 6 => ⟨S_, .i32⟩
  | 7 => ⟨S100, .i32⟩
  | 8 => ⟨S100, .i32⟩
  | 9 => ⟨S100, .i32⟩
  | 10 => ⟨S_, .i32⟩
  | 11 => ⟨S100, .i32⟩
  | 12 => ⟨S100, .i1⟩
  | 13 => ⟨S_, .i32⟩
  | 14 => ⟨S100, .i32⟩
  | 15 => ⟨S100, .i32⟩
  | 16 => ⟨S100, .i32⟩
  | 17 => ⟨S100x1, .i32⟩
  | 18 => ⟨S100x1, .i32⟩
  | 19 => ⟨S100x2, .i32⟩
  | 20 => ⟨S100, .f32⟩
  | 21 => ⟨S_, .f32⟩
  | 22 => ⟨S100, .f32⟩
  | 23 => ⟨S100, .i1⟩
  | 24 => ⟨S_, .f32⟩
  | 25 => ⟨S_, .f32⟩
  | 26 => ⟨S100, .f32⟩
  | 27 => ⟨S100, .f32⟩
  | 28 => ⟨S_, .i32⟩
  | 29 => ⟨S100, .i32⟩
  | 30 => ⟨S100, .i1⟩
  | 31 => ⟨S_, .i32⟩
  | 32 => ⟨S100, .i32⟩
  | 33 => ⟨S100, .i32⟩
  | 34 => ⟨S100, .i32⟩
  | 35 => ⟨S_, .i32⟩
  | 36 => ⟨S100, .i32⟩
  | 37 => ⟨S100, .i1⟩
  | 38 => ⟨S_, .i32⟩
  | 39 => ⟨S100, .i32⟩
  | 40 => ⟨S100, .i32⟩
  | 41 => ⟨S100, .i32⟩
  | 42 => ⟨S100x1, .i32⟩
  | 43 => ⟨S100x1, .i32⟩
  | 44 => ⟨S100x2, .i32⟩
  | 45 => ⟨S100x100, .f32⟩
  | 46 => ⟨S_, .f32⟩
  | 47 => ⟨S100, .f32⟩
  | 48 => ⟨S_, .f32⟩
  | 49 => ⟨S100, .f32⟩
  | 50 => ⟨S100, .i1⟩
  | 51 => ⟨S_, .f32⟩
  | 52 => ⟨S100, .f32⟩
  | 53 => ⟨S100, .f32⟩
  | 54 => ⟨S100, .f32⟩
  | 55 => ⟨S_, .f32⟩
  | 56 => ⟨S_, .f32⟩
  | 57 => ⟨S100, .f32⟩
  | 58 => ⟨S100, .f32⟩
  | 59 => ⟨S100x1, .f32⟩
  | 60 => ⟨S100x100, .f32⟩
  | 61 => ⟨S100x100, .f32⟩
  | 62 => ⟨S1x100, .f32⟩
  | 63 => ⟨S100x100, .f32⟩
  | 64 => ⟨S100x100, .f32⟩
  | 65 => ⟨S100x100, .f32⟩
  | 66 => ⟨S100x100, .f32⟩
  | 67 => ⟨S1x100, .f32⟩
  | 68 => ⟨S100x100, .f32⟩
  | 69 => ⟨S100x100, .f32⟩
  | 70 => ⟨S8192x100, .f32⟩
  | 71 => ⟨S8192x110, .f32⟩
  | 72 => ⟨S_, .f32⟩
  | 73 => ⟨S262144, .f32⟩
  | 74 => ⟨S8192, .i32⟩
  | 75 => ⟨S270336, .i32⟩
  | 76 => ⟨S270336, .i32⟩
  | 77 => ⟨S_, .f32⟩
  | 78 => ⟨S8192, .f32⟩
  | 79 => ⟨S270336, .f32⟩
  | 80 => ⟨S_, .f32⟩
  | 81 => ⟨S8192, .f32⟩
  | 82 => ⟨S270336x1, .i32⟩
  | 83 => ⟨S8192, .f32⟩
  | 84 => ⟨S_, .f32⟩
  | 85 => ⟨S8192, .f32⟩
  | 86 => ⟨S8192, .i1⟩
  | 87 => ⟨S_, .f32⟩
  | 88 => ⟨S8192, .f32⟩
  | 89 => ⟨S8192, .f32⟩
  | 90 => ⟨S8192, .f32⟩
  | 91 => ⟨S_, .f32⟩
  | 92 => ⟨S_, .f32⟩
  | 93 => ⟨S8192, .f32⟩
  | 94 => ⟨S8192, .f32⟩
  | 95 => ⟨S_, .i32⟩
  | 96 => ⟨S270336, .i32⟩
  | 97 => ⟨S270336, .i1⟩
  | 98 => ⟨S_, .i32⟩
  | 99 => ⟨S270336, .i32⟩
  | 100 => ⟨S270336, .i32⟩
  | 101 => ⟨S270336, .i32⟩
  | 102 => ⟨S270336x1, .i32⟩
  | 103 => ⟨S270336, .f32⟩
  | 104 => ⟨S270336, .f32⟩
  | 105 => ⟨S_, .i32⟩
  | 106 => ⟨S270336, .i32⟩
  | 107 => ⟨S270336, .i1⟩
  | 108 => ⟨S_, .i32⟩
  | 109 => ⟨S270336, .i32⟩
  | 110 => ⟨S270336, .i32⟩
  | 111 => ⟨S270336, .i32⟩
  | 112 => ⟨S270336x1, .i32⟩
  | 113 => ⟨S270336, .f32⟩
  | 114 => ⟨S270336, .f32⟩
  | 115 => ⟨S8192x10, .f32⟩
  | 116 => ⟨S270336x1, .f32⟩
  | 117 => ⟨S_, .i32⟩
  | 118 => ⟨S270336, .i32⟩
  | 119 => ⟨S270336, .i1⟩
  | 120 => ⟨S_, .i32⟩
  | 121 => ⟨S270336, .i32⟩
  | 122 => ⟨S270336, .i32⟩
  | 123 => ⟨S270336, .i32⟩
  | 124 => ⟨S270336x1, .i32⟩
  | 125 => ⟨S270336x10, .f32⟩
  | 126 => ⟨S270336x10, .f32⟩
  | 127 => ⟨S270336x10, .f32⟩
  | _ => ⟨S8192x512, .f32⟩

abbrev hbmTy0_3 (i : Nat) : BufTy := match i % 128 with
  | 0 => ⟨S_, .f32⟩
  | 1 => ⟨S8192x10, .f32⟩
  | 2 => ⟨S270336x1, .i32⟩
  | 3 => ⟨S8192x10, .f32⟩
  | 4 => ⟨S1x10, .f32⟩
  | 5 => ⟨S8192x10, .f32⟩
  | 6 => ⟨S8192x10, .f32⟩
  | 7 => ⟨S_, .f32⟩
  | 8 => ⟨S8192, .f32⟩
  | 9 => ⟨S_, .f32⟩
  | 10 => ⟨S8192, .f32⟩
  | 11 => ⟨S8192, .f32⟩
  | 12 => ⟨S8192x1, .f32⟩
  | 13 => ⟨S8192x10, .f32⟩
  | 14 => ⟨S8192x10, .f32⟩
  | 15 => ⟨S8192x10, .f32⟩
  | 16 => ⟨S_, .f32⟩
  | 17 => ⟨S8192, .f32⟩
  | 18 => ⟨S8192x1, .f32⟩
  | 19 => ⟨S8192x1, .f32⟩
  | 20 => ⟨S8192x10, .f32⟩
  | 21 => ⟨S8192x10, .f32⟩
  | 22 => ⟨S_, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | _ => ⟨S8192x512, .f32⟩

abbrev bufTy : (tb : Table) → Fin (tcTables nBuf tb) → BufTy
  | .hbm, ⟨i, _⟩ => hbmTy i
  | .local _ .vmem, ⟨0, _⟩ => ⟨S256x8192, .f32⟩
  | .local _ .vmem, ⟨1, _⟩ => ⟨S256x8192, .f32⟩
  | .local _ .vmem, ⟨2, _⟩ => ⟨S256x128, .f32⟩
  | .local _ .vmem, ⟨3, _⟩ => ⟨S256x128, .f32⟩
  | .local _ .vmem, ⟨4, _⟩ => ⟨S8192x128, .bf16⟩
  | .local _ .vmem, ⟨5, _⟩ => ⟨S8192x128, .bf16⟩
  | .local _ .vmem, ⟨6, _⟩ => ⟨S256x512, .f32⟩
  | .local _ .vmem, ⟨7, _⟩ => ⟨S256x512, .f32⟩
  | .local _ .vmem, ⟨8, _⟩ => ⟨S1x128x128, .f32⟩
  | .local _ .vmem, ⟨9, _⟩ => ⟨S1x128x128, .f32⟩
  | .local _ .vmem, ⟨10, _⟩ => ⟨S1x8x128, .f32⟩
  | .local _ .vmem, ⟨11, _⟩ => ⟨S1x8x128, .f32⟩
  | .local _ .vmem, ⟨12, _⟩ => ⟨S1x128x512, .f32⟩
  | .local _ .vmem, ⟨13, _⟩ => ⟨S1x128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_7 : Ref sig .tc := ⟨.hbm, 66, rfl⟩
abbrev main_v38 : Ref sig .tc := ⟨.hbm, 67, rfl⟩
abbrev main_v39 : Ref sig .tc := ⟨.hbm, 68, rfl⟩
abbrev main_c_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call1_cst : Ref sig .tc := ⟨.hbm, 85, rfl⟩
abbrev main_call1_v0 : Ref sig .tc := ⟨.hbm, 86, rfl⟩
abbrev main_v54 : Ref sig .tc := ⟨.hbm, 87, rfl⟩
abbrev main_v55 : Ref sig .tc := ⟨.hbm, 88, rfl⟩
abbrev main_call2_cst : Ref sig .tc := ⟨.hbm, 89, rfl⟩
abbrev main_call2_v0 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_10 : Ref sig .tc := ⟨.hbm, 94, rfl⟩
abbrev main_v59 : Ref sig .tc := ⟨.hbm, 95, rfl⟩
abbrev main_v60 : Ref sig .tc := ⟨.hbm, 96, rfl⟩
abbrev main_c_11 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_13 : Ref sig .tc := ⟨.hbm, 112, rfl⟩
abbrev main_v74 : Ref sig .tc := ⟨.hbm, 113, rfl⟩
abbrev main_cst_14 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_15 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_16 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_17 : Ref sig .tc := ⟨.hbm, 136, rfl⟩
abbrev main_v94 : Ref sig .tc := ⟨.hbm, 137, rfl⟩
abbrev main_cst_18 : Ref sig .tc := ⟨.hbm, 138, rfl⟩
abbrev main_v95 : Ref sig .tc := ⟨.hbm, 139, rfl⟩
abbrev main_cst_19 : Ref sig .tc := ⟨.hbm, 140, rfl⟩
abbrev main_v96 : Ref sig .tc := ⟨.hbm, 141, rfl⟩
abbrev main_c_20 : Ref sig .tc := ⟨.hbm, 142, rfl⟩
abbrev main_call3_v0 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102_0 : Ref sig .tc := ⟨.hbm, 149, rfl⟩
abbrev main_v102_1 : Ref sig .tc := ⟨.hbm, 150, rfl⟩
abbrev main_v102_2 : Ref sig .tc := ⟨.hbm, 151, rfl⟩
abbrev main_cst_21 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_22 : Ref sig .tc := ⟨.hbm, 156, rfl⟩
abbrev main_v106 : Ref sig .tc := ⟨.hbm, 157, rfl⟩
abbrev main_cst_23 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_24 : Ref sig .tc := ⟨.hbm, 165, rfl⟩
abbrev main_v113 : Ref sig .tc := ⟨.hbm, 166, rfl⟩
abbrev main_call4_v0 : Ref sig .tc := ⟨.hbm, 167, rfl⟩
abbrev main_call4_v1 : Ref sig .tc := ⟨.hbm, 168, rfl⟩
abbrev main_call4_c : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_cst : Ref sig .tc := ⟨.hbm, 173, rfl⟩
abbrev main_call4_v5 : Ref sig .tc := ⟨.hbm, 174, rfl⟩
abbrev main_call4_v6 : Ref sig .tc := ⟨.hbm, 175, rfl⟩
abbrev main_call4_cst_0 : Ref sig .tc := ⟨.hbm, 176, rfl⟩
abbrev main_v114 : Ref sig .tc := ⟨.hbm, 177, rfl⟩
abbrev main_cst_25 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_26 : Ref sig .tc := ⟨.hbm, 182, rfl⟩
abbrev main_v118 : Ref sig .tc := ⟨.hbm, 183, rfl⟩
abbrev main_v119 : Ref sig .tc := ⟨.hbm, 184, rfl⟩
abbrev main_cst_27 : Ref sig .tc := ⟨.hbm, 185, rfl⟩
abbrev main_v120 : Ref sig .tc := ⟨.hbm, 186, rfl⟩
abbrev main_v121 : Ref sig .tc := ⟨.hbm, 187, rfl⟩
abbrev main_c_28 : Ref sig .tc := ⟨.hbm, 188, rfl⟩
abbrev main_v122 : Ref sig .tc := ⟨.hbm, 189, rfl⟩
abbrev main_v123 : Ref sig .tc := ⟨.hbm, 190, rfl⟩
abbrev main_c_29 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_c_30 : Ref sig .tc := ⟨.hbm, 195, rfl⟩
abbrev main_v127 : Ref sig .tc := ⟨.hbm, 196, rfl⟩
abbrev main_v128 : Ref sig .tc := ⟨.hbm, 197, rfl⟩
abbrev main_c_31 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_cst_32 : Ref sig .tc := ⟨.hbm, 206, rfl⟩
abbrev main_v136 : Ref sig .tc := ⟨.hbm, 207, rfl⟩
abbrev main_v137 : Ref sig .tc := ⟨.hbm, 208, rfl⟩
abbrev main_cst_33 : Ref sig .tc := ⟨.hbm, 209, rfl⟩
abbrev main_call5_v0 : Ref sig .tc := ⟨.hbm, 210, rfl⟩
abbrev main_call5_v1 : Ref sig .tc := ⟨.hbm, 211, rfl⟩
abbrev main_v138 : Ref sig .tc := ⟨.hbm, 212, rfl⟩
abbrev main_c_34 : Ref sig .tc := ⟨.hbm, 213, rfl⟩
abbrev main_v139 : Ref sig .tc := ⟨.hbm, 214, rfl⟩
abbrev main_v140 : Ref sig .tc := ⟨.hbm, 215, rfl⟩
abbrev main_c_35 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_c_36 : Ref sig .tc := ⟨.hbm, 220, rfl⟩
abbrev main_v144 : Ref sig .tc := ⟨.hbm, 221, rfl⟩
abbrev main_v145 : Ref sig .tc := ⟨.hbm, 222, rfl⟩
abbrev main_c_37 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_cst_38 : Ref sig .tc := ⟨.hbm, 231, rfl⟩
abbrev main_v153 : Ref sig .tc := ⟨.hbm, 232, rfl⟩
abbrev main_cst_39 : Ref sig .tc := ⟨.hbm, 233, rfl⟩
abbrev main_v154 : Ref sig .tc := ⟨.hbm, 234, rfl⟩
abbrev main_v155 : Ref sig .tc := ⟨.hbm, 235, rfl⟩
abbrev main_cst_40 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_cst_41 : Ref sig .tc := ⟨.hbm, 240, rfl⟩
abbrev main_call6_v0 : Ref sig .tc := ⟨.hbm, 241, rfl⟩
abbrev main_call6_v1 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_call7_cst : Ref sig .tc := ⟨.hbm, 255, rfl⟩
abbrev main_call7_v0 : Ref sig .tc := ⟨.hbm, 256, rfl⟩
abbrev main_v171 : Ref sig .tc := ⟨.hbm, 257, rfl⟩
abbrev main_v172 : Ref sig .tc := ⟨.hbm, 258, rfl⟩
abbrev main_c_42 : Ref sig .tc := ⟨.hbm, 259, rfl⟩
abbrev main_v173 : Ref sig .tc := ⟨.hbm, 260, rfl⟩
abbrev main_v174 : Ref sig .tc := ⟨.hbm, 261, rfl⟩
abbrev main_c_43 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_c_44 : Ref sig .tc := ⟨.hbm, 266, rfl⟩
abbrev main_v178 : Ref sig .tc := ⟨.hbm, 267, rfl⟩
abbrev main_v179 : Ref sig .tc := ⟨.hbm, 268, rfl⟩
abbrev main_c_45 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_cst_46 : Ref sig .tc := ⟨.hbm, 277, rfl⟩
abbrev main_v187 : Ref sig .tc := ⟨.hbm, 278, rfl⟩
abbrev main_v188 : Ref sig .tc := ⟨.hbm, 279, rfl⟩
abbrev main_cst_47 : Ref sig .tc := ⟨.hbm, 280, rfl⟩
abbrev main_call8_v0 : Ref sig .tc := ⟨.hbm, 281, rfl⟩
abbrev main_call8_v1 : Ref sig .tc := ⟨.hbm, 282, rfl⟩
abbrev main_v189 : Ref sig .tc := ⟨.hbm, 283, rfl⟩
abbrev main_c_48 : Ref sig .tc := ⟨.hbm, 284, rfl⟩
abbrev main_v190 : Ref sig .tc := ⟨.hbm, 285, rfl⟩
abbrev main_v191 : Ref sig .tc := ⟨.hbm, 286, rfl⟩
abbrev main_c_49 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_c_50 : Ref sig .tc := ⟨.hbm, 291, rfl⟩
abbrev main_v195 : Ref sig .tc := ⟨.hbm, 292, rfl⟩
abbrev main_v196 : Ref sig .tc := ⟨.hbm, 293, rfl⟩
abbrev main_c_51 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_cst_52 : Ref sig .tc := ⟨.hbm, 302, rfl⟩
abbrev main_v204 : Ref sig .tc := ⟨.hbm, 303, rfl⟩
abbrev main_cst_53 : Ref sig .tc := ⟨.hbm, 304, rfl⟩
abbrev main_v205 : Ref sig .tc := ⟨.hbm, 305, rfl⟩
abbrev main_v206 : Ref sig .tc := ⟨.hbm, 306, rfl⟩
abbrev main_cst_54 : Ref sig .tc := ⟨.hbm, 307, rfl⟩
abbrev main_v207 : Ref sig .tc := ⟨.hbm, 308, rfl⟩
abbrev main_v208 : Ref sig .tc := ⟨.hbm, 309, rfl⟩
abbrev main_v209 : Ref sig .tc := ⟨.hbm, 310, rfl⟩
abbrev main_cst_55 : Ref sig .tc := ⟨.hbm, 311, rfl⟩
abbrev main_call9_v0 : Ref sig .tc := ⟨.hbm, 312, rfl⟩
abbrev main_call9_v1 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_cst_56 : Ref sig .tc := ⟨.hbm, 328, rfl⟩
abbrev main_v224 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_cst_57 : Ref sig .tc := ⟨.hbm, 333, rfl⟩
abbrev main_v228 : Ref sig .tc := ⟨.hbm, 334, rfl⟩
abbrev main_v229 : Ref sig .tc := ⟨.hbm, 335, rfl⟩
abbrev main_cst_58 : Ref sig .tc := ⟨.hbm, 336, rfl⟩
abbrev main_v230 : Ref sig .tc := ⟨.hbm, 337, rfl⟩
abbrev main_v231 : Ref sig .tc := ⟨.hbm, 338, rfl⟩
abbrev main_v232 : Ref sig .tc := ⟨.hbm, 339, rfl⟩
abbrev main_cst_59 : Ref sig .tc := ⟨.hbm, 340, rfl⟩
abbrev main_v233 : Ref sig .tc := ⟨.hbm, 341, rfl⟩
abbrev main_v234 : Ref sig .tc := ⟨.hbm, 342, rfl⟩
abbrev main_cst_60 : Ref sig .tc := ⟨.hbm, 343, rfl⟩
abbrev main_v235 : Ref sig .tc := ⟨.hbm, 344, rfl⟩
abbrev main_v236 : Ref sig .tc := ⟨.hbm, 345, rfl⟩
abbrev main_v237 : Ref sig .tc := ⟨.hbm, 346, rfl⟩
abbrev main_cst_61 : Ref sig .tc := ⟨.hbm, 347, rfl⟩
abbrev main_call10_v0 : Ref sig .tc := ⟨.hbm, 348, rfl⟩
abbrev main_call10_v1 : Ref sig .tc := ⟨.hbm, 349, rfl⟩
abbrev main_v238 : Ref sig .tc := ⟨.hbm, 350, rfl⟩
abbrev main_c_62 : Ref sig .tc := ⟨.hbm, 351, rfl⟩
abbrev main_v239 : Ref sig .tc := ⟨.hbm, 352, rfl⟩
abbrev main_v240 : Ref sig .tc := ⟨.hbm, 353, rfl⟩
abbrev main_c_63 : Ref sig .tc := ⟨.hbm, 354, rfl⟩
abbrev main_v241 : Ref sig .tc := ⟨.hbm, 355, rfl⟩
abbrev main_v242 : Ref sig .tc := ⟨.hbm, 356, rfl⟩
abbrev main_v243 : Ref sig .tc := ⟨.hbm, 357, rfl⟩
abbrev main_v244 : Ref sig .tc := ⟨.hbm, 358, rfl⟩
abbrev main_v245 : Ref sig .tc := ⟨.hbm, 359, rfl⟩
abbrev main_v246 : Ref sig .tc := ⟨.hbm, 360, rfl⟩
abbrev main_c_64 : Ref sig .tc := ⟨.hbm, 361, rfl⟩
abbrev main_v247 : Ref sig .tc := ⟨.hbm, 362, rfl⟩
abbrev main_v248 : Ref sig .tc := ⟨.hbm, 363, rfl⟩
abbrev main_c_65 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_c_66 : Ref sig .tc := ⟨.hbm, 373, rfl⟩
abbrev main_v257 : Ref sig .tc := ⟨.hbm, 374, rfl⟩
abbrev main_v258 : Ref sig .tc := ⟨.hbm, 375, rfl⟩
abbrev main_c_67 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_v264 : Ref sig .tc := ⟨.hbm, 382, rfl⟩
abbrev main_v265 : Ref sig .tc := ⟨.hbm, 383, rfl⟩
abbrev main_cst_68 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_call11_cst : Ref sig .tc := ⟨.hbm, 391, rfl⟩
abbrev main_call11_v0 : Ref sig .tc := ⟨.hbm, 392, rfl⟩
abbrev main_call11_cst_0 : Ref sig .tc := ⟨.hbm, 393, rfl⟩
abbrev main_call11_v1 : Ref sig .tc := ⟨.hbm, 394, rfl⟩
abbrev main_call11_v2 : Ref sig .tc := ⟨.hbm, 395, rfl⟩
abbrev main_call11_v3 : Ref sig .tc := ⟨.hbm, 396, rfl⟩
abbrev main_call11_v4 : Ref sig .tc := ⟨.hbm, 397, rfl⟩
abbrev main_call11_v5 : Ref sig .tc := ⟨.hbm, 398, rfl⟩
abbrev main_call11_v6 : Ref sig .tc := ⟨.hbm, 399, rfl⟩
abbrev main_call11_cst_1 : Ref sig .tc := ⟨.hbm, 400, rfl⟩
abbrev main_call11_v7 : Ref sig .tc := ⟨.hbm, 401, rfl⟩
abbrev main_call11_v8 : Ref sig .tc := ⟨.hbm, 402, rfl⟩
abbrev main_call11_v9 : Ref sig .tc := ⟨.hbm, 403, rfl⟩
abbrev main_call11_v10 : Ref sig .tc := ⟨.hbm, 404, rfl⟩
abbrev main_v272 : Ref sig .tc := ⟨.hbm, 405, rfl⟩
abbrev main_v273 : Ref sig .tc := ⟨.hbm, 406, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S8192 : S_.BroadcastsInDim S8192 (![] : Fin 0 → Fin S8192.rank)
  bcast_S270336_S270336x1_0 : S270336.BroadcastsInDim S270336x1 (![0] : Fin 1 → Fin S270336x1.rank)
  bcast_S_S270336 : S_.BroadcastsInDim S270336 (![] : Fin 0 → Fin S270336.rank)
  concatenates_S512x16_S512x100_S512x116_d1 : Shape.Concatenates [S512x16, S512x100] S512x116 1
  concatenates_S16_S100_S116_d0 : Shape.Concatenates [S16, S100] S116 0
  bcast_S270336x1_S270336x116_0_1 : S270336x1.BroadcastsInDim S270336x116 (![0, 1] : Fin 2 → Fin S270336x116.rank)
  bcast_S_S8192x116 : S_.BroadcastsInDim S8192x116 (![] : Fin 0 → Fin S8192x116.rank)
  bcast_S116_S1x116_1 : S116.BroadcastsInDim S1x116 (![1] : Fin 1 → Fin S1x116.rank)
  bcast_S1x116_S8192x116_0_1 : S1x116.BroadcastsInDim S8192x116 (![0, 1] : Fin 2 → Fin S8192x116.rank)
  slices_S8192x116_S8192x16_0_0 : S8192x116.Slices ![0, 0] S8192x16
  bcast_S_S8192x16 : S_.BroadcastsInDim S8192x16 (![] : Fin 0 → Fin S8192x16.rank)
  slices_S8192x116_S8192x100_0_16 : S8192x116.Slices ![0, 16] S8192x100
  bcast_S_S8192x100 : S_.BroadcastsInDim S8192x100 (![] : Fin 0 → Fin S8192x100.rank)
  bcast_S270336x1_S270336x10_0_1 : S270336x1.BroadcastsInDim S270336x10 (![0, 1] : Fin 2 → Fin S270336x10.rank)
  bcast_S_S8192x10 : S_.BroadcastsInDim S8192x10 (![] : Fin 0 → Fin S8192x10.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  reducesTo_S8192x100_S8192_d1 : S8192x100.ReducesTo [1] S8192
  h_S_ : 0 < S_.numel
  bcast_S8192_S8192x1_0 : S8192.BroadcastsInDim S8192x1 (![0] : Fin 1 → Fin S8192x1.rank)
  bcast_S8192x1_S8192x100_0_1 : S8192x1.BroadcastsInDim S8192x100 (![0, 1] : Fin 2 → Fin S8192x100.rank)
  reducesTo_S8192_S_d0 : S8192.ReducesTo [0] S_
  pads_S8192x100_S8192x128_000_0280 : S8192x100.Pads (![0, 0] : Fin 2 → Nat) ![0, 28] ![0, 0] S8192x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  inb_S256x8192_S256x8192_0_0 : ∀ a, (![0, 0] : Fin 2 → Nat) a + S256x8192.size a ≤ S256x8192.size a
  h_S256x8192 : 0 < S256x8192.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x512_S256x512_0_0 : ∀ a, (![0, 0] : Fin 2 → Nat) a + S256x512.size a ≤ S256x512.size a
  h_S256x512 : 0 < S256x512.numel
  shapeCasts_S256x8192_S1x256x8192 : S256x8192.ShapeCasts S1x256x8192
  reduces_S1x256x8192_S1 : S1x256x8192.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  broadcasts_S1x1_S8x128 : S1x1.Broadcasts S8x128
  reducesTo_S2x128x128_S128x128_d0 : S2x128x128.ReducesTo [0] S128x128
  slices_S2x8x128_S2x1x1_0_0_0 : S2x8x128.Slices ![0, 0, 0] S2x1x1
  shapeCasts_S2x1x1_S2 : S2x1x1.ShapeCasts S2
  reducesTo_S2_S_d0 : S2.ReducesTo [0] S_
  reducesTo_S2x128x512_S128x512_d0 : S2x128x512.ReducesTo [0] S128x512
  slices_S128x128_S100x100_0_0 : S128x128.Slices ![0, 0] S100x100
  slices_S128x512_S100x512_0_0 : S128x512.Slices ![0, 0] S100x512
  transposes_S8192x100_S100x8192_1_0 : S8192x100.Transposes [1, 0] S100x8192
  reducesTo_S100x100_S_d0_1 : S100x100.ReducesTo [0, 1] S_
  bcast_S_S128x128 : S_.BroadcastsInDim S128x128 (![] : Fin 0 → Fin S128x128.rank)
  reducesTo_S128x128_S_d0_1 : S128x128.ReducesTo [0, 1] S_
  bcast_S_S100 : S_.BroadcastsInDim S100 (![] : Fin 0 → Fin S100.rank)
  bcast_S100_S100x1_0 : S100.BroadcastsInDim S100x1 (![0] : Fin 1 → Fin S100x1.rank)
  concatenates_S100x1_S100x1_S100x2_d1 : Shape.Concatenates [S100x1, S100x1] S100x2 1
  reducesTo_S100x100_S100_d1 : S100x100.ReducesTo [1] S100
  bcast_S100x1_S100x100_0_1 : S100x1.BroadcastsInDim S100x100 (![0, 1] : Fin 2 → Fin S100x100.rank)
  bcast_S100_S1x100_1 : S100.BroadcastsInDim S1x100 (![1] : Fin 1 → Fin S1x100.rank)
  bcast_S1x100_S100x100_0_1 : S1x100.BroadcastsInDim S100x100 (![0, 1] : Fin 2 → Fin S100x100.rank)
  bcast_S16_S1x16_1 : S16.BroadcastsInDim S1x16 (![1] : Fin 1 → Fin S1x16.rank)
  bcast_S1x16_S100x16_0_1 : S1x16.BroadcastsInDim S100x16 (![0, 1] : Fin 2 → Fin S100x16.rank)
  bcast_S_S100x16 : S_.BroadcastsInDim S100x16 (![] : Fin 0 → Fin S100x16.rank)
  concatenates_S8192x10_S8192x100_S8192x110_d1 : Shape.Concatenates [S8192x10, S8192x100] S8192x110 1
  bcast_S_S262144 : S_.BroadcastsInDim S262144 (![] : Fin 0 → Fin S262144.rank)
  reducesTo_S8192x10_S8192_d1 : S8192x10.ReducesTo [1] S8192
  bcast_S8192x1_S8192x10_0_1 : S8192x1.BroadcastsInDim S8192x10 (![0, 1] : Fin 2 → Fin S8192x10.rank)
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x512_S512x116_S8192x116_1_0_0_1_n_n_wf : DotDims.WF S8192x512 S512x116 S8192x116 [1] [0] [0] [1] [] []
  gather_S8192x116_S270336x1_S270336x116_1_0_n_n_0_1_1116_wf : GatherDims.WF S8192x116 S270336x1 S270336x116 [1] [0] [] [0] [] 1 ![1, 116]
  scatter_S8192x116_S270336x1_S270336x116_1_0_0_1_wf : ScatterDims.WF S8192x116 S270336x1 S270336x116 [1] [0] [0] 1
  dot_S8192x16_S16x10_S8192x10_1_0_0_1_n_n_wf : DotDims.WF S8192x16 S16x10 S8192x10 [1] [0] [0] [1] [] []
  gather_S8192x10_S270336x1_S270336x10_1_0_n_n_0_1_110_wf : GatherDims.WF S8192x10 S270336x1 S270336x10 [1] [0] [] [0] [] 1 ![1, 10]
  scatter_S8192x10_S270336x1_S270336x10_1_0_0_1_wf : ScatterDims.WF S8192x10 S270336x1 S270336x10 [1] [0] [0] 1
  dot_S256x8192_S8192x128_S256x128_1_0_0_1_n_n_wf : DotDims.WF S256x8192 S8192x128 S256x128 [1] [0] [0] [1] [] []
  dot_S256x128_S256x128_S128x128_0_0_1_1_n_n_wf : DotDims.WF S256x128 S256x128 S128x128 [0] [0] [1] [1] [] []
  dot_S256x128_S256x512_S128x512_0_0_1_1_n_n_wf : DotDims.WF S256x128 S256x512 S128x512 [0] [0] [1] [1] [] []
  dot_S100x8192_S8192x100_S100x100_1_0_0_1_n_n_wf : DotDims.WF S100x8192 S8192x100 S100x100 [1] [0] [0] [1] [] []
  gather_S100x100_S100x2_S100_n_01_n_n_01_1_11_wf : GatherDims.WF S100x100 S100x2 S100 [] [0, 1] [] [0, 1] [] 1 ![1, 1]
  scatter_S100x100_S100x2_S100_n_01_01_1_wf : ScatterDims.WF S100x100 S100x2 S100 [] [0, 1] [0, 1] 1
  dot_S100x512_S512x16_S100x16_1_0_0_1_n_n_wf : DotDims.WF S100x512 S512x16 S100x16 [1] [0] [0] [1] [] []
  dot_S100x100_S100x16_S100x16_1_0_0_1_n_n_wf : DotDims.WF S100x100 S100x16 S100x16 [1] [0] [0] [1] [] []
  dot_S100x16_S16x100_S100x100_1_0_0_1_n_n_wf : DotDims.WF S100x16 S16x100 S100x100 [1] [0] [0] [1] [] []
  dot_S100x100_S100x100_S100x100_1_0_0_1_n_n_wf : DotDims.WF S100x100 S100x100 S100x100 [1] [0] [0] [1] [] []
  dot_S8192x100_S100x100_S8192x100_1_0_0_1_n_n_wf : DotDims.WF S8192x100 S100x100 S8192x100 [1] [0] [0] [1] [] []
  dot_S8192x110_S110x10_S8192x10_1_0_0_1_n_n_wf : DotDims.WF S8192x110 S110x10 S8192x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x128.size a
  hwx0_1 : ∀ i : grid0.Coords, EltTy.bits .f32 = 32 ∨ (Rect.block (s := S8192x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .bf16 = 32 ∨ (Rect.block (s := S8192x128) S8192x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .bf16 = 32 ∨ (Rect.block (s := S8192x128) S8192x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S8192x512.size a
  hwx0_4 : ∀ i : grid0.Coords, EltTy.bits .f32 = 32 ∨ (Rect.block (s := S8192x512) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x128.size a ≤ S2x128x128.size a
  hwx0_5 : ∀ i : grid0.Coords, EltTy.bits .f32 = 32 ∨ (Rect.block (s := S2x128x128) S1x128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x512.size a ≤ S2x128x512.size a
  hwx0_7 : ∀ i : grid0.Coords, EltTy.bits .f32 = 32 ∨ (Rect.block (s := S2x128x512) S1x128x512.size (cc0_transform_7 i) (hinb0_7 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x512_S512x116_S8192x116_1_0_0_1_n_n : DotDims S8192x512 S512x116 S8192x116 where
  lhsContracting := [1]
  rhsContracting := [0]
  lhsNonContracting := [0]
  rhsNonContracting := [1]
  lhsBatch := []
  rhsBatch := []
  wf := dot_S8192x512_S512x116_S8192x116_1_0_0_1_n_n_wf
def gather_S8192x116_S270336x1_S270336x116_1_0_n_n_0_1_1116 : GatherDims S8192x116 S270336x1 S270336x116 where
  offsetDims := [1]
  collapsedSliceDims := [0]
  operandBatchingDims := []
  startIndicesBatchingDims := []
  startIndexMap := [0]
  indexVectorDim := 1
  sliceSizes := ![1, 116]
  wf := gather_S8192x116_S270336x1_S270336x116_1_0_n_n_0_1_1116_wf
def scatter_S8192x116_S270336x1_S270336x116_1_0_0_1 : ScatterDims S8192x116 S270336x1 S270336x116 where
  updateWindowDims := [1]
  insertedWindowDims := [0]
  scatterDimsToOperandDims := [0]
  indexVectorDim := 1
  wf := scatter_S8192x116_S270336x1_S270336x116_1_0_0_1_wf
def dot_S8192x16_S16x10_S8192x10_1_0_0_1_n_n : DotDims S8192x16 S16x10 S8192x10 where
  lhsContracting := [1]
  rhsContracting := [0]
  lhsNonContracting := [0]
  rhsNonContracting := [1]
  lhsBatch := []
  rhsBatch := []
  wf := dot_S8192x16_S16x10_S8192x10_1_0_0_1_n_n_wf
def gather_S8192x10_S270336x1_S270336x10_1_0_n_n_0_1_110 : GatherDims S8192x10 S270336x1 S270336x10 where
  offsetDims := [1]
  collapsedSliceDims := [0]
  operandBatchingDims := []
  startIndicesBatchingDims := []
  startIndexMap := [0]
  indexVectorDim := 1
  sliceSizes := ![1, 10]
  wf := gather_S8192x10_S270336x1_S270336x10_1_0_n_n_0_1_110_wf
def scatter_S8192x10_S270336x1_S270336x10_1_0_0_1 : ScatterDims S8192x10 S270336x1 S270336x10 where
  updateWindowDims := [1]
  insertedWindowDims := [0]
  scatterDimsToOperandDims := [0]
  indexVectorDim := 1
  wf := scatter_S8192x10_S270336x1_S270336x10_1_0_0_1_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S256x128_S128x128_0_0_1_1_n_n : DotDims S256x128 S256x128 S128x128 where
  lhsContracting := [0]
  rhsContracting := [0]
  lhsNonContracting := [1]
  rhsNonContracting := [1]
  lhsBatch := []
  rhsBatch := []
  wf := dot_S256x128_S256x128_S128x128_0_0_1_1_n_n_wf
def dot_S256x128_S256x512_S128x512_0_0_1_1_n_n : DotDims S256x128 S256x512 S128x512 where
  lhsContracting := [0]
  rhsContracting := [0]
  lhsNonContracting := [1]
  rhsNonContracting := [1]
  lhsBatch := []
  rhsBatch := []
  wf := dot_S256x128_S256x512_S128x512_0_0_1_1_n_n_wf
def dot_S100x8192_S8192x100_S100x100_1_0_0_1_n_n : DotDims S100x8192 S8192x100 S100x100 where
  lhsContracting := [1]
  rhsContracting := [0]
  lhsNonContracting := [0]
  rhsNonContracting := [1]
  lhsBatch := []
  rhsBatch := []
  wf := dot_S100x8192_S8192x100_S100x100_1_0_0_1_n_n_wf
def gather_S100x100_S100x2_S100_n_01_n_n_01_1_11 : GatherDims S100x100 S100x2 S100 where
  offsetDims := []
  collapsedSliceDims := [0, 1]
  operandBatchingDims := []
  startIndicesBatchingDims := []
  startIndexMap := [0, 1]
  indexVectorDim := 1
  sliceSizes := ![1, 1]
  wf := gather_S100x100_S100x2_S100_n_01_n_n_01_1_11_wf
def scatter_S100x100_S100x2_S100_n_01_01_1 : ScatterDims S100x100 S100x2 S100 where
  updateWindowDims := []
  insertedWindowDims := [0, 1]
  scatterDimsToOperandDims := [0, 1]
  indexVectorDim := 1
  wf := scatter_S100x100_S100x2_S100_n_01_01_1_wf
def dot_S100x512_S512x16_S100x16_1_0_0_1_n_n : DotDims S100x512 S512x16 S100x16 where
  lhsContracting := [1]
  rhsContracting := [0]
  lhsNonContracting := [0]
  rhsNonContracting := [1]
  lhsBatch := []
  rhsBatch := []
  wf := dot_S100x512_S512x16_S100x16_1_0_0_1_n_n_wf
def dot_S100x100_S100x16_S100x16_1_0_0_1_n_n : DotDims S100x100 S100x16 S100x16 where
  lhsContracting := [1]
  rhsContracting := [0]
  lhsNonContracting := [0]
  rhsNonContracting := [1]
  lhsBatch := []
  rhsBatch := []
  wf := dot_S100x100_S100x16_S100x16_1_0_0_1_n_n_wf
def dot_S100x16_S16x100_S100x100_1_0_0_1_n_n : DotDims S100x16 S16x100 S100x100 where
  lhsContracting := [1]
  rhsContracting := [0]
  lhsNonContracting := [0]
  rhsNonContracting := [1]
  lhsBatch := []
  rhsBatch := []
  wf := dot_S100x16_S16x100_S100x100_1_0_0_1_n_n_wf
def dot_S100x100_S100x100_S100x100_1_0_0_1_n_n : DotDims S100x100 S100x100 S100x100 where
  lhsContracting := [1]
  rhsContracting := [0]
  lhsNonContracting := [0]
  rhsNonContracting := [1]
  lhsBatch := []
  rhsBatch := []
  wf := dot_S100x100_S100x100_S100x100_1_0_0_1_n_n_wf
def dot_S8192x100_S100x100_S8192x100_1_0_0_1_n_n : DotDims S8192x100 S100x100 S8192x100 where
  lhsContracting := [1]
  rhsContracting := [0]
  lhsNonContracting := [0]
  rhsNonContracting := [1]
  lhsBatch := []
  rhsBatch := []
  wf := dot_S8192x100_S100x100_S8192x100_1_0_0_1_n_n_wf
def dot_S8192x110_S110x10_S8192x10_1_0_0_1_n_n : DotDims S8192x110 S110x10 S8192x10 where
  lhsContracting := [1]
  rhsContracting := [0]
  lhsNonContracting := [0]
  rhsNonContracting := [1]
  lhsBatch := []
  rhsBatch := []
  wf := dot_S8192x110_S110x10_S8192x10_1_0_0_1_n_n_wf

abbrev win0_0 : Pipeline.Window sig grid0 :=
  Pipeline.Window.ofSpec (Memref.whole main_arg3) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v97) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v98) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v101) S8192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v102_0) S1x128x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v102_1) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v102_2) S1x128x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x512 : Shape := ⟨2, ![8192, 512]⟩
abbrev S2x262144 : Shape := ⟨2, ![2, 262144]⟩
abbrev S262144 : Shape := ⟨1, ![262144]⟩
abbrev S8192x8192 : Shape := ⟨2, ![8192, 8192]⟩
abbrev S8192 : Shape := ⟨1, ![8192]⟩
abbrev S512x16 : Shape := ⟨2, ![512, 16]⟩
abbrev S16 : Shape := ⟨1, ![16]⟩
abbrev S16x10 : Shape := ⟨2, ![16, 10]⟩
abbrev S10 : Shape := ⟨1, ![10]⟩
abbrev S512x100 : Shape := ⟨2, ![512, 100]⟩
abbrev S100 : Shape := ⟨1, ![100]⟩
abbrev S16x100 : Shape := ⟨2, ![16, 100]⟩
abbrev S110x10 : Shape := ⟨2, ![110, 10]⟩
abbrev S1x262144 : Shape := ⟨2, ![1, 262144]⟩
abbrev S270336 : Shape := ⟨1, ![270336]⟩
abbrev S_ : Shape := ⟨0, ![]⟩
abbrev S270336x1 : Shape := ⟨2, ![270336, 1]⟩
abbrev S8192x16 : Shape := ⟨2, ![8192, 16]⟩
abbrev S270336x16 : Shape := ⟨2, ![270336, 16]⟩
abbrev S1x16 : Shape := ⟨2, ![1, 16]⟩
abbrev S8192x10 : Shape := ⟨2, ![8192, 10]⟩
abbrev S270336x10 : Shape := ⟨2, ![270336, 10]⟩
abbrev S1x10 : Shape := ⟨2, ![1, 10]⟩
abbrev S8192x100 : Shape := ⟨2, ![8192, 100]⟩
abbrev S270336x100 : Shape := ⟨2, ![270336, 100]⟩
abbrev S1x100 : Shape := ⟨2, ![1, 100]⟩
abbrev S8192x1 : Shape := ⟨2, ![8192, 1]⟩
abbrev S100x8192 : Shape := ⟨2, ![100, 8192]⟩
abbrev S100x512 : Shape := ⟨2, ![100, 512]⟩
abbrev S100x100 : Shape := ⟨2, ![100, 100]⟩
abbrev S100x1 : Shape := ⟨2, ![100, 1]⟩
abbrev S100x2 : Shape := ⟨2, ![100, 2]⟩
abbrev S100x16 : Shape := ⟨2, ![100, 16]⟩
abbrev S8192x110 : Shape := ⟨2, ![8192, 110]⟩

abbrev nBuf : Space → Nat
  | .hbm => 476
  | .vmem => 0
  | .smem => 0
  | _ => 0

abbrev hbmTy0_0 (i : Nat) : BufTy := match i % 128 with
  | 0 => ⟨S8192x512, .f32⟩
  | 1 => ⟨S2x262144, .i32⟩
  | 2 => ⟨S262144, .f32⟩
  | 3 => ⟨S8192x8192, .f32⟩
  | 4 => ⟨S8192, .i1⟩
  | 5 => ⟨S512x16, .f32⟩
  | 6 => ⟨S16, .f32⟩
  | 7 => ⟨S16x10, .f32⟩
  | 8 => ⟨S10, .f32⟩
  | 9 => ⟨S512x100, .f32⟩
  | 10 => ⟨S100, .f32⟩
  | 11 => ⟨S512x16, .f32⟩
  | 12 => ⟨S16, .f32⟩
  | 13 => ⟨S16x100, .f32⟩
  | 14 => ⟨S100, .f32⟩
  | 15 => ⟨S110x10, .f32⟩
  | 16 => ⟨S10, .f32⟩
  | 17 => ⟨S1x262144, .i32⟩
  | 18 => ⟨S262144, .i32⟩
  | 19 => ⟨S1x262144, .i32⟩
  | 20 => ⟨S262144, .i32⟩
  | 21 => ⟨S8192, .i32⟩
  | 22 => ⟨S270336, .i32⟩
  | 23 => ⟨S270336, .i32⟩
  | 24 => ⟨S_, .f32⟩
  | 25 => ⟨S8192, .f32⟩
  | 26 => ⟨S270336, .f32⟩
  | 27 => ⟨S_, .f32⟩
  | 28 => ⟨S8192, .f32⟩
  | 29 => ⟨S270336x1, .i32⟩
  | 30 => ⟨S8192, .f32⟩
  | 31 => ⟨S_, .f32⟩
  | 32 => ⟨S8192, .f32⟩
  | 33 => ⟨S8192, .i1⟩
  | 34 => ⟨S_, .f32⟩
  | 35 => ⟨S8192, .f32⟩
  | 36 => ⟨S8192, .f32⟩
  | 37 => ⟨S8192, .f32⟩
  | 38 => ⟨S_, .f32⟩
  | 39 => ⟨S_, .f32⟩
  | 40 => ⟨S8192, .f32⟩
  | 41 => ⟨S8192, .f32⟩
  | 42 => ⟨S_, .i32⟩
  | 43 => ⟨S270336, .i32⟩
  | 44 => ⟨S270336, .i1⟩
  | 45 => ⟨S_, .i32⟩
  | 46 => ⟨S270336, .i32⟩
  | 47 => ⟨S270336, .i32⟩
  | 48 => ⟨S270336, .i32⟩
  | 49 => ⟨S270336x1, .i32⟩
  | 50 => ⟨S270336, .f32⟩
  | 51 => ⟨S270336, .f32⟩
  | 52 => ⟨S_, .i32⟩
  | 53 => ⟨S270336, .i32⟩
  | 54 => ⟨S270336, .i1⟩
  | 55 => ⟨S_, .i32⟩
  | 56 => ⟨S270336, .i32⟩
  | 57 => ⟨S270336, .i32⟩
  | 58 => ⟨S270336, .i32⟩
  | 59 => ⟨S270336x1, .i32⟩
  | 60 => ⟨S270336, .f32⟩
  | 61 => ⟨S270336, .f32⟩
  | 62 => ⟨S8192x16, .f32⟩
  | 63 => ⟨S270336x1, .f32⟩
  | 64 => ⟨S_, .i32⟩
  | 65 => ⟨S270336, .i32⟩
  | 66 => ⟨S270336, .i1⟩
  | 67 => ⟨S_, .i32⟩
  | 68 => ⟨S270336, .i32⟩
  | 69 => ⟨S270336, .i32⟩
  | 70 => ⟨S270336, .i32⟩
  | 71 => ⟨S270336x1, .i32⟩
  | 72 => ⟨S270336x16, .f32⟩
  | 73 => ⟨S270336x16, .f32⟩
  | 74 => ⟨S270336x16, .f32⟩
  | 75 => ⟨S_, .f32⟩
  | 76 => ⟨S8192x16, .f32⟩
  | 77 => ⟨S270336x1, .i32⟩
  | 78 => ⟨S8192x16, .f32⟩
  | 79 => ⟨S1x16, .f32⟩
  | 80 => ⟨S8192x16, .f32⟩
  | 81 => ⟨S8192x16, .f32⟩
  | 82 => ⟨S_, .f32⟩
  | 83 => ⟨S8192x16, .f32⟩
  | 84 => ⟨S8192x16, .f32⟩
  | 85 => ⟨S8192, .i32⟩
  | 86 => ⟨S270336, .i32⟩
  | 87 => ⟨S270336, .i32⟩
  | 88 => ⟨S_, .f32⟩
  | 89 => ⟨S8192, .f32⟩
  | 90 => ⟨S270336, .f32⟩
  | 91 => ⟨S_, .f32⟩
  | 92 => ⟨S8192, .f32⟩
  | 93 => ⟨S270336x1, .i32⟩
  | 94 => ⟨S8192, .f32⟩
  | 95 => ⟨S_, .f32⟩
  | 96 => ⟨S8192, .f32⟩
  | 97 => ⟨S8192, .i1⟩
  | 98 => ⟨S_, .f32⟩
  | 99 => ⟨S8192, .f32⟩
  | 100 => ⟨S8192, .f32⟩
  | 101 => ⟨S8192, .f32⟩
  | 102 => ⟨S_, .f32⟩
  | 103 => ⟨S_, .f32⟩
  | 104 => ⟨S8192, .f32⟩
  | 105 => ⟨S8192, .f32⟩
  | 106 => ⟨S_, .i32⟩
  | 107 => ⟨S270336, .i32⟩
  | 108 => ⟨S270336, .i1⟩
  | 109 => ⟨S_, .i32⟩
  | 110 => ⟨S270336, .i32⟩
  | 111 => ⟨S270336, .i32⟩
  | 112 => ⟨S270336, .i32⟩
  | 113 => ⟨S270336x1, .i32⟩
  | 114 => ⟨S270336, .f32⟩
  | 115 => ⟨S270336, .f32⟩
  | 116 => ⟨S_, .i32⟩
  | 117 => ⟨S270336, .i32⟩
  | 118 => ⟨S270336, .i1⟩
  | 119 => ⟨S_, .i32⟩
  | 120 => ⟨S270336, .i32⟩
  | 121 => ⟨S270336, .i32⟩
  | 122 => ⟨S270336, .i32⟩
  | 123 => ⟨S270336x1, .i32⟩
  | 124 => ⟨S270336, .f32⟩
  | 125 => ⟨S270336, .f32⟩
  | 126 => ⟨S8192x10, .f32⟩
  | 127 => ⟨S270336x1, .f32⟩
  | _ => ⟨S8192x512, .f32⟩

abbrev hbmTy0_1 (i : Nat) : BufTy := match i % 128 with
  | 0 => ⟨S_, .i32⟩
  | 1 => ⟨S270336, .i32⟩
  | 2 => ⟨S270336, .i1⟩
  | 3 => ⟨S_, .i32⟩
  | 4 => ⟨S270336, .i32⟩
  | 5 => ⟨S270336, .i32⟩
  | 6 => ⟨S270336, .i32⟩
  | 7 => ⟨S270336x1, .i32⟩
  | 8 => ⟨S270336x10, .f32⟩
  | 9 => ⟨S270336x10, .f32⟩
  | 10 => ⟨S270336x10, .f32⟩
  | 11 => ⟨S_, .f32⟩
  | 12 => ⟨S8192x10, .f32⟩
  | 13 => ⟨S270336x1, .i32⟩
  | 14 => ⟨S8192x10, .f32⟩
  | 15 => ⟨S1x10, .f32⟩
  | 16 => ⟨S8192x10, .f32⟩
  | 17 => ⟨S8192x10, .f32⟩
  | 18 => ⟨S8192, .i32⟩
  | 19 => ⟨S270336, .i32⟩
  | 20 => ⟨S270336, .i32⟩
  | 21 => ⟨S_, .f32⟩
  | 22 => ⟨S8192, .f32⟩
  | 23 => ⟨S270336, .f32⟩
  | 24 => ⟨S_, .f32⟩
  | 25 => ⟨S8192, .f32⟩
  | 26 => ⟨S270336x1, .i32⟩
  | 27 => ⟨S8192, .f32⟩
  | 28 => ⟨S_, .f32⟩
  | 29 => ⟨S8192, .f32⟩
  | 30 => ⟨S8192, .i1⟩
  | 31 => ⟨S_, .f32⟩
  | 32 => ⟨S8192, .f32⟩
  | 33 => ⟨S8192, .f32⟩
  | 34 => ⟨S8192, .f32⟩
  | 35 => ⟨S_, .f32⟩
  | 36 => ⟨S_, .f32⟩
  | 37 => ⟨S8192, .f32⟩
  | 38 => ⟨S8192, .f32⟩
  | 39 => ⟨S_, .i32⟩
  | 40 => ⟨S270336, .i32⟩
  | 41 => ⟨S270336, .i1⟩
  | 42 => ⟨S_, .i32⟩
  | 43 => ⟨S270336, .i32⟩
  | 44 => ⟨S270336, .i32⟩
  | 45 => ⟨S270336, .i32⟩
  | 46 => ⟨S270336x1, .i32⟩
  | 47 => ⟨S270336, .f32⟩
  | 48 => ⟨S270336, .f32⟩
  | 49 => ⟨S_, .i32⟩
  | 50 => ⟨S270336, .i32⟩
  | 51 => ⟨S270336, .i1⟩
  | 52 => ⟨S_, .i32⟩
  | 53 => ⟨S270336, .i32⟩
  | 54 => ⟨S270336, .i32⟩
  | 55 => ⟨S270336, .i32⟩
  | 56 => ⟨S270336x1, .i32⟩
  | 57 => ⟨S270336, .f32⟩
  | 58 => ⟨S270336, .f32⟩
  | 59 => ⟨S8192x100, .f32⟩
  | 60 => ⟨S270336x1, .f32⟩
  | 61 => ⟨S_, .i32⟩
  | 62 => ⟨S270336, .i32⟩
  | 63 => ⟨S270336, .i1⟩
  | 64 => ⟨S_, .i32⟩
  | 65 => ⟨S270336, .i32⟩
  | 66 => ⟨S270336, .i32⟩
  | 67 => ⟨S270336, .i32⟩
  | 68 => ⟨S270336x1, .i32⟩
  | 69 => ⟨S270336x100, .f32⟩
  | 70 => ⟨S270336x100, .f32⟩
  | 71 => ⟨S270336x100, .f32⟩
  | 72 => ⟨S_, .f32⟩
  | 73 => ⟨S8192x100, .f32⟩
  | 74 => ⟨S270336x1, .i32⟩
  | 75 => ⟨S8192x100, .f32⟩
  | 76 => ⟨S1x100, .f32⟩
  | 77 => ⟨S8192x100, .f32⟩
  | 78 => ⟨S8192x100, .f32⟩
  | 79 => ⟨S_, .f32⟩
  | 80 => ⟨S8192x100, .f32⟩
  | 81 => ⟨S8192x100, .f32⟩
  | 82 => ⟨S_, .f32⟩
  | 83 => ⟨S8192, .f32⟩
  | 84 => ⟨S_, .f32⟩
  | 85 => ⟨S8192, .f32⟩
  | 86 => ⟨S8192, .f32⟩
  | 87 => ⟨S8192x1, .f32⟩
  | 88 => ⟨S8192x100, .f32⟩
  | 89 => ⟨S8192x100, .f32⟩
  | 90 => ⟨S8192x100, .f32⟩
  | 91 => ⟨S_, .f32⟩
  | 92 => ⟨S8192, .f32⟩
  | 93 => ⟨S8192x1, .f32⟩
  | 94 => ⟨S8192x100, .f32⟩
  | 95 => ⟨S8192x100, .f32⟩
  | 96 => ⟨S8192, .f32⟩
  | 97 => ⟨S8192x1, .f32⟩
  | 98 => ⟨S8192x512, .f32⟩
  | 99 => ⟨S8192x512, .f32⟩
  | 100 => ⟨S8192x100, .f32⟩
  | 101 => ⟨S8192x100, .f32⟩
  | 102 => ⟨S100x8192, .f32⟩
  | 103 => ⟨S100x512, .f32⟩
  | 104 => ⟨S100x8192, .f32⟩
  | 105 => ⟨S100x8192, .f32⟩
  | 106 => ⟨S100x100, .f32⟩
  | 107 => ⟨S100x8192, .f32⟩
  | 108 => ⟨S8192x8192, .f32⟩
  | 109 => ⟨S8192x8192, .f32⟩
  | 110 => ⟨S8192x8192, .f32⟩
  | 111 => ⟨S_, .f32⟩
  | 112 => ⟨S_, .f32⟩
  | 113 => ⟨S_, .f32⟩
  | 114 => ⟨S_, .f32⟩
  | 115 => ⟨S_, .f32⟩
  | 116 => ⟨S8192x100, .f32⟩
  | 117 => ⟨S_, .f32⟩
  | 118 => ⟨S8192x100, .f32⟩
  | 119 => ⟨S8192x100, .f32⟩
  | 120 => ⟨S8192x100, .f32⟩
  | 121 => ⟨S8192x100, .f32⟩
  | 122 => ⟨S_, .f32⟩
  | 123 => ⟨S8192, .f32⟩
  | 124 => ⟨S_, .f32⟩
  | 125 => ⟨S_, .f32⟩
  | 126 => ⟨S_, .f32⟩
  | 127 => ⟨S_, .f32⟩
  | _ => ⟨S8192x512, .f32⟩

abbrev hbmTy0_2 (i : Nat) : BufTy := match i % 128 with
  | 0 => ⟨S100, .i32⟩
  | 1 => ⟨S_, .i32⟩
  | 2 => ⟨S100, .i32⟩
  | 3 => ⟨S100, .i1⟩
  | 4 => ⟨S_, .i32⟩
  | 5 => ⟨S100, .i32⟩
  | 6 => ⟨S100, .i32⟩
  | 7 => ⟨S100, .i32⟩
  | 8 => ⟨S_, .i32⟩
  | 9 => ⟨S100, .i32⟩
  | 10 => ⟨S100, .i1⟩
  | 11 => ⟨S_, .i32⟩
  | 12 => ⟨S100, .i32⟩
  | 13 => ⟨S100, .i32⟩
  | 14 => ⟨S100, .i32⟩
  | 15 => ⟨S100x1, .i32⟩
  | 16 => ⟨S100x1, .i32⟩
  | 17 => ⟨S100x2, .i32⟩
  | 18 => ⟨S100, .f32⟩
  | 19 => ⟨S_, .f32⟩
  | 20 => ⟨S100, .f32⟩
  | 21 => ⟨S100, .i1⟩
  | 22 => ⟨S_, .f32⟩
  | 23 => ⟨S_, .f32⟩
  | 24 => ⟨S100, .f32⟩
  | 25 => ⟨S100, .f32⟩
  | 26 => ⟨S_, .i32⟩
  | 27 => ⟨S100, .i32⟩
  | 28 => ⟨S100, .i1⟩
  | 29 => ⟨S_, .i32⟩
  | 30 => ⟨S100, .i32⟩
  | 31 => ⟨S100, .i32⟩
  | 32 => ⟨S100, .i32⟩
  | 33 => ⟨S_, .i32⟩
  | 34 => ⟨S100, .i32⟩
  | 35 => ⟨S100, .i1⟩
  | 36 => ⟨S_, .i32⟩
  | 37 => ⟨S100, .i32⟩
  | 38 => ⟨S100, .i32⟩
  | 39 => ⟨S100, .i32⟩
  | 40 => ⟨S100x1, .i32⟩
  | 41 => ⟨S100x1, .i32⟩
  | 42 => ⟨S100x2, .i32⟩
  | 43 => ⟨S100x100, .f32⟩
  | 44 => ⟨S_, .f32⟩
  | 45 => ⟨S100, .f32⟩
  | 46 => ⟨S_, .f32⟩
  | 47 => ⟨S100, .f32⟩
  | 48 => ⟨S100, .i1⟩
  | 49 => ⟨S_, .f32⟩
  | 50 => ⟨S100, .f32⟩
  | 51 => ⟨S100, .f32⟩
  | 52 => ⟨S100, .f32⟩
  | 53 => ⟨S_, .f32⟩
  | 54 => ⟨S_, .f32⟩
  | 55 => ⟨S100, .f32⟩
  | 56 => ⟨S100, .f32⟩
  | 57 => ⟨S100x1, .f32⟩
  | 58 => ⟨S100x100, .f32⟩
  | 59 => ⟨S100x100, .f32⟩
  | 60 => ⟨S1x100, .f32⟩
  | 61 => ⟨S100x100, .f32⟩
  | 62 => ⟨S100x100, .f32⟩
  | 63 => ⟨S100x16, .f32⟩
  | 64 => ⟨S100x16, .f32⟩
  | 65 => ⟨S1x16, .f32⟩
  | 66 => ⟨S100x16, .f32⟩
  | 67 => ⟨S100x16, .f32⟩
  | 68 => ⟨S_, .f32⟩
  | 69 => ⟨S100x16, .f32⟩
  | 70 => ⟨S100x16, .f32⟩
  | 71 => ⟨S100, .i32⟩
  | 72 => ⟨S_, .i32⟩
  | 73 => ⟨S100, .i32⟩
  | 74 => ⟨S100, .i1⟩
  | 75 => ⟨S_, .i32⟩
  | 76 => ⟨S100, .i32⟩
  | 77 => ⟨S100, .i32⟩
  | 78 => ⟨S100, .i32⟩
  | 79 => ⟨S_, .i32⟩
  | 80 => ⟨S100, .i32⟩
  | 81 => ⟨S100, .i1⟩
  | 82 => ⟨S_, .i32⟩
  | 83 => ⟨S100, .i32⟩
  | 84 => ⟨S100, .i32⟩
  | 85 => ⟨S100, .i32⟩
  | 86 => ⟨S100x1, .i32⟩
  | 87 => ⟨S100x1, .i32⟩
  | 88 => ⟨S100x2, .i32⟩
  | 89 => ⟨S100, .f32⟩
  | 90 => ⟨S_, .f32⟩
  | 91 => ⟨S100, .f32⟩
  | 92 => ⟨S100, .i1⟩
  | 93 => ⟨S_, .f32⟩
  | 94 => ⟨S_, .f32⟩
  | 95 => ⟨S100, .f32⟩
  | 96 => ⟨S100, .f32⟩
  | 97 => ⟨S_, .i32⟩
  | 98 => ⟨S100, .i32⟩
  | 99 => ⟨S100, .i1⟩
  | 100 => ⟨S_, .i32⟩
  | 101 => ⟨S100, .i32⟩
  | 102 => ⟨S100, .i32⟩
  | 103 => ⟨S100, .i32⟩
  | 104 => ⟨S_, .i32⟩
  | 105 => ⟨S100, .i32⟩
  | 106 => ⟨S100, .i1⟩
  | 107 => ⟨S_, .i32⟩
  | 108 => ⟨S100, .i32⟩
  | 109 => ⟨S100, .i32⟩
  | 110 => ⟨S100, .i32⟩
  | 111 => ⟨S100x1, .i32⟩
  | 112 => ⟨S100x1, .i32⟩
  | 113 => ⟨S100x2, .i32⟩
  | 114 => ⟨S100x100, .f32⟩
  | 115 => ⟨S_, .f32⟩
  | 116 => ⟨S100, .f32⟩
  | 117 => ⟨S_, .f32⟩
  | 118 => ⟨S100, .f32⟩
  | 119 => ⟨S100, .i1⟩
  | 120 => ⟨S_, .f32⟩
  | 121 => ⟨S100, .f32⟩
  | 122 => ⟨S100, .f32⟩
  | 123 => ⟨S100, .f32⟩
  | 124 => ⟨S_, .f32⟩
  | 125 => ⟨S_, .f32⟩
  | 126 => ⟨S100, .f32⟩
  | 127 => ⟨S100, .f32⟩
  | _ => ⟨S8192x512, .f32⟩

abbrev hbmTy0_3 (i : Nat) : BufTy := match i % 128 with
  | 0 => ⟨S100x1, .f32⟩
  | 1 => ⟨S100x100, .f32⟩
  | 2 => ⟨S100x100, .f32⟩
  | 3 => ⟨S1x100, .f32⟩
  | 4 => ⟨S100x100, .f32⟩
  | 5 => ⟨S100x100, .f32⟩
  | 6 => ⟨S100x100, .f32⟩
  | 7 => ⟨S100x100, .f32⟩
  | 8 => ⟨S1x100, .f32⟩
  | 9 => ⟨S100x100, .f32⟩
  | 10 => ⟨S100x100, .f32⟩
  | 11 => ⟨S8192x100, .f32⟩
  | 12 => ⟨S8192x110, .f32⟩
  | 13 => ⟨S_, .f32⟩
  | 14 => ⟨S262144, .f32⟩
  | 15 => ⟨S8192, .i32⟩
  | 16 => ⟨S270336, .i32⟩
  | 17 => ⟨S270336, .i32⟩
  | 18 => ⟨S_, .f32⟩
  | 19 => ⟨S8192, .f32⟩
  | 20 => ⟨S270336, .f32⟩
  | 21 => ⟨S_, .f32⟩
  | 22 => ⟨S8192, .f32⟩
  | 23 => ⟨S270336x1, .i32⟩
  | 24 => ⟨S8192, .f32⟩
  | 25 => ⟨S_, .f32⟩
  | 26 => ⟨S8192, .f32⟩
  | 27 => ⟨S8192, .i1⟩
  | 28 => ⟨S_, .f32⟩
  | 29 => ⟨S8192, .f32⟩
  | 30 => ⟨S8192, .f32⟩
  | 31 => ⟨S8192, .f32⟩
  | 32 => ⟨S_, .f32⟩
  | 33 => ⟨S_, .f32⟩
  | 34 => ⟨S8192, .f32⟩
  | 35 => ⟨S8192, .f32⟩
  | 36 => ⟨S_, .i32⟩
  | 37 => ⟨S270336, .i32⟩
  | 38 => ⟨S270336, .i1⟩
  | 39 => ⟨S_, .i32⟩
  | 40 => ⟨S270336, .i32⟩
  | 41 => ⟨S270336, .i32⟩
  | 42 => ⟨S270336, .i32⟩
  | 43 => ⟨S270336x1, .i32⟩
  | 44 => ⟨S270336, .f32⟩
  | 45 => ⟨S270336, .f32⟩
  | 46 => ⟨S_, .i32⟩
  | 47 => ⟨S270336, .i32⟩
  | 48 => ⟨S270336, .i1⟩
  | 49 => ⟨S_, .i32⟩
  | 50 => ⟨S270336, .i32⟩
  | 51 => ⟨S270336, .i32⟩
  | 52 => ⟨S270336, .i32⟩
  | 53 => ⟨S270336x1, .i32⟩
  | 54 => ⟨S270336, .f32⟩
  | 55 => ⟨S270336, .f32⟩
  | 56 => ⟨S8192x10, .f32⟩
  | 57 => ⟨S270336x1, .f32⟩
  | 58 => ⟨S_, .i32⟩
  | 59 => ⟨S270336, .i32⟩
  | 60 => ⟨S270336, .i1⟩
  | 61 => ⟨S_, .i32⟩
  | 62 => ⟨S270336, .i32⟩
  | 63 => ⟨S270336, .i32⟩
  | 64 => ⟨S270336, .i32⟩
  | 65 => ⟨S270336x1, .i32⟩
  | 66 => ⟨S270336x10, .f32⟩
  | 67 => ⟨S270336x10, .f32⟩
  | 68 => ⟨S270336x10, .f32⟩
  | 69 => ⟨S_, .f32⟩
  | 70 => ⟨S8192x10, .f32⟩
  | 71 => ⟨S270336x1, .i32⟩
  | 72 => ⟨S8192x10, .f32⟩
  | 73 => ⟨S1x10, .f32⟩
  | 74 => ⟨S8192x10, .f32⟩
  | 75 => ⟨S8192x10, .f32⟩
  | 76 => ⟨S_, .f32⟩
  | 77 => ⟨S8192, .f32⟩
  | 78 => ⟨S_, .f32⟩
  | 79 => ⟨S8192, .f32⟩
  | 80 => ⟨S8192, .f32⟩
  | 81 => ⟨S8192x1, .f32⟩
  | 82 => ⟨S8192x10, .f32⟩
  | 83 => ⟨S8192x10, .f32⟩
  | 84 => ⟨S8192x10, .f32⟩
  | 85 => ⟨S_, .f32⟩
  | 86 => ⟨S8192, .f32⟩
  | 87 => ⟨S8192x1, .f32⟩
  | 88 => ⟨S8192x1, .f32⟩
  | 89 => ⟨S8192x10, .f32⟩
  | 90 => ⟨S8192x10, .f32⟩
  | 91 => ⟨S_, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_7 : Ref sig .tc := ⟨.hbm, 64, rfl⟩
abbrev main_v36 : Ref sig .tc := ⟨.hbm, 65, rfl⟩
abbrev main_v37 : Ref sig .tc := ⟨.hbm, 66, rfl⟩
abbrev main_c_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call1_cst : Ref sig .tc := ⟨.hbm, 82, rfl⟩
abbrev main_call1_v0 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_cst_11 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_12 : Ref sig .tc := ⟨.hbm, 95, rfl⟩
abbrev main_v60 : Ref sig .tc := ⟨.hbm, 96, rfl⟩
abbrev main_v61 : Ref sig .tc := ⟨.hbm, 97, rfl⟩
abbrev main_cst_13 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_call2_v0 : Ref sig .tc := ⟨.hbm, 103, rfl⟩
abbrev main_call2_v1 : Ref sig .tc := ⟨.hbm, 104, rfl⟩
abbrev main_v65 : Ref sig .tc := ⟨.hbm, 105, rfl⟩
abbrev main_c_15 : Ref sig .tc := ⟨.hbm, 106, rfl⟩
abbrev main_v66 : Ref sig .tc := ⟨.hbm, 107, rfl⟩
abbrev main_v67 : Ref sig .tc := ⟨.hbm, 108, rfl⟩
abbrev main_c_16 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_17 : Ref sig .tc := ⟨.hbm, 116, rfl⟩
abbrev main_v74 : Ref sig .tc := ⟨.hbm, 117, rfl⟩
abbrev main_v75 : Ref sig .tc := ⟨.hbm, 118, rfl⟩
abbrev main_c_18 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_19 : Ref sig .tc := ⟨.hbm, 128, rfl⟩
abbrev main_v84 : Ref sig .tc := ⟨.hbm, 129, rfl⟩
abbrev main_v85 : Ref sig .tc := ⟨.hbm, 130, rfl⟩
abbrev main_c_20 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_21 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_22 : Ref sig .tc := ⟨.hbm, 149, rfl⟩
abbrev main_v102 : Ref sig .tc := ⟨.hbm, 150, rfl⟩
abbrev main_v103 : Ref sig .tc := ⟨.hbm, 151, rfl⟩
abbrev main_cst_23 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_24 : Ref sig .tc := ⟨.hbm, 156, rfl⟩
abbrev main_v107 : Ref sig .tc := ⟨.hbm, 157, rfl⟩
abbrev main_v108 : Ref sig .tc := ⟨.hbm, 158, rfl⟩
abbrev main_cst_25 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_26 : Ref sig .tc := ⟨.hbm, 163, rfl⟩
abbrev main_call3_v0 : Ref sig .tc := ⟨.hbm, 164, rfl⟩
abbrev main_call3_v1 : Ref sig .tc := ⟨.hbm, 165, rfl⟩
abbrev main_v112 : Ref sig .tc := ⟨.hbm, 166, rfl⟩
abbrev main_c_27 : Ref sig .tc := ⟨.hbm, 167, rfl⟩
abbrev main_v113 : Ref sig .tc := ⟨.hbm, 168, rfl⟩
abbrev main_v114 : Ref sig .tc := ⟨.hbm, 169, rfl⟩
abbrev main_c_28 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_c_29 : Ref sig .tc := ⟨.hbm, 177, rfl⟩
abbrev main_v121 : Ref sig .tc := ⟨.hbm, 178, rfl⟩
abbrev main_v122 : Ref sig .tc := ⟨.hbm, 179, rfl⟩
abbrev main_c_30 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_c_31 : Ref sig .tc := ⟨.hbm, 189, rfl⟩
abbrev main_v131 : Ref sig .tc := ⟨.hbm, 190, rfl⟩
abbrev main_v132 : Ref sig .tc := ⟨.hbm, 191, rfl⟩
abbrev main_c_32 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_cst_33 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_call4_cst : Ref sig .tc := ⟨.hbm, 207, rfl⟩
abbrev main_call4_v0 : Ref sig .tc := ⟨.hbm, 208, rfl⟩
abbrev main_v146 : Ref sig .tc := ⟨.hbm, 209, rfl⟩
abbrev main_cst_34 : Ref sig .tc := ⟨.hbm, 210, rfl⟩
abbrev main_v147 : Ref sig .tc := ⟨.hbm, 211, rfl⟩
abbrev main_cst_35 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_cst_36 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_cst_37 : Ref sig .tc := ⟨.hbm, 239, rfl⟩
abbrev main_v173 : Ref sig .tc := ⟨.hbm, 240, rfl⟩
abbrev main_v174 : Ref sig .tc := ⟨.hbm, 241, rfl⟩
abbrev main_cst_38 : Ref sig .tc := ⟨.hbm, 242, rfl⟩
abbrev main_v175 : Ref sig .tc := ⟨.hbm, 243, rfl⟩
abbrev main_v176 : Ref sig .tc := ⟨.hbm, 244, rfl⟩
abbrev main_cst_39 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_cst_40 : Ref sig .tc := ⟨.hbm, 250, rfl⟩
abbrev main_v181 : Ref sig .tc := ⟨.hbm, 251, rfl⟩
abbrev main_cst_41 : Ref sig .tc := ⟨.hbm, 252, rfl⟩
abbrev main_v182 : Ref sig .tc := ⟨.hbm, 253, rfl⟩
abbrev main_cst_42 : Ref sig .tc := ⟨.hbm, 254, rfl⟩
abbrev main_v183 : Ref sig .tc := ⟨.hbm, 255, rfl⟩
abbrev main_v184 : Ref sig .tc := ⟨.hbm, 256, rfl⟩
abbrev main_c_43 : Ref sig .tc := ⟨.hbm, 257, rfl⟩
abbrev main_v185 : Ref sig .tc := ⟨.hbm, 258, rfl⟩
abbrev main_v186 : Ref sig .tc := ⟨.hbm, 259, rfl⟩
abbrev main_c_44 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_c_45 : Ref sig .tc := ⟨.hbm, 264, rfl⟩
abbrev main_v190 : Ref sig .tc := ⟨.hbm, 265, rfl⟩
abbrev main_v191 : Ref sig .tc := ⟨.hbm, 266, rfl⟩
abbrev main_c_46 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_cst_47 : Ref sig .tc := ⟨.hbm, 275, rfl⟩
abbrev main_v199 : Ref sig .tc := ⟨.hbm, 276, rfl⟩
abbrev main_v200 : Ref sig .tc := ⟨.hbm, 277, rfl⟩
abbrev main_cst_48 : Ref sig .tc := ⟨.hbm, 278, rfl⟩
abbrev main_call5_v0 : Ref sig .tc := ⟨.hbm, 279, rfl⟩
abbrev main_call5_v1 : Ref sig .tc := ⟨.hbm, 280, rfl⟩
abbrev main_v201 : Ref sig .tc := ⟨.hbm, 281, rfl⟩
abbrev main_c_49 : Ref sig .tc := ⟨.hbm, 282, rfl⟩
abbrev main_v202 : Ref sig .tc := ⟨.hbm, 283, rfl⟩
abbrev main_v203 : Ref sig .tc := ⟨.hbm, 284, rfl⟩
abbrev main_c_50 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_c_51 : Ref sig .tc := ⟨.hbm, 289, rfl⟩
abbrev main_v207 : Ref sig .tc := ⟨.hbm, 290, rfl⟩
abbrev main_v208 : Ref sig .tc := ⟨.hbm, 291, rfl⟩
abbrev main_c_52 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_cst_53 : Ref sig .tc := ⟨.hbm, 300, rfl⟩
abbrev main_v216 : Ref sig .tc := ⟨.hbm, 301, rfl⟩
abbrev main_cst_54 : Ref sig .tc := ⟨.hbm, 302, rfl⟩
abbrev main_v217 : Ref sig .tc := ⟨.hbm, 303, rfl⟩
abbrev main_v218 : Ref sig .tc := ⟨.hbm, 304, rfl⟩
abbrev main_cst_55 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_cst_56 : Ref sig .tc := ⟨.hbm, 309, rfl⟩
abbrev main_call6_v0 : Ref sig .tc := ⟨.hbm, 310, rfl⟩
abbrev main_call6_v1 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_call7_cst : Ref sig .tc := ⟨.hbm, 324, rfl⟩
abbrev main_call7_v0 : Ref sig .tc := ⟨.hbm, 325, rfl⟩
abbrev main_v234 : Ref sig .tc := ⟨.hbm, 326, rfl⟩
abbrev main_v235 : Ref sig .tc := ⟨.hbm, 327, rfl⟩
abbrev main_c_57 : Ref sig .tc := ⟨.hbm, 328, rfl⟩
abbrev main_v236 : Ref sig .tc := ⟨.hbm, 329, rfl⟩
abbrev main_v237 : Ref sig .tc := ⟨.hbm, 330, rfl⟩
abbrev main_c_58 : Ref sig .tc := ⟨.hbm, 331, rfl⟩
abbrev main_v238 : Ref sig .tc := ⟨.hbm, 332, rfl⟩
abbrev main_v239 : Ref sig .tc := ⟨.hbm, 333, rfl⟩
abbrev main_v240 : Ref sig .tc := ⟨.hbm, 334, rfl⟩
abbrev main_c_59 : Ref sig .tc := ⟨.hbm, 335, rfl⟩
abbrev main_v241 : Ref sig .tc := ⟨.hbm, 336, rfl⟩
abbrev main_v242 : Ref sig .tc := ⟨.hbm, 337, rfl⟩
abbrev main_c_60 : Ref sig .tc := ⟨.hbm, 338, rfl⟩
abbrev main_v243 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩
abbrev main_v247 : Ref sig .tc := ⟨.hbm, 343, rfl⟩
abbrev main_v248 : Ref sig .tc := ⟨.hbm, 344, rfl⟩
abbrev main_v249 : Ref sig .tc := ⟨.hbm, 345, rfl⟩
abbrev main_cst_61 : Ref sig .tc := ⟨.hbm, 346, rfl⟩
abbrev main_v250 : Ref sig .tc := ⟨.hbm, 347, rfl⟩
abbrev main_v251 : Ref sig .tc := ⟨.hbm, 348, rfl⟩
abbrev main_cst_62 : Ref sig .tc := ⟨.hbm, 349, rfl⟩
abbrev main_call8_v0 : Ref sig .tc := ⟨.hbm, 350, rfl⟩
abbrev main_call8_v1 : Ref sig .tc := ⟨.hbm, 351, rfl⟩
abbrev main_v252 : Ref sig .tc := ⟨.hbm, 352, rfl⟩
abbrev main_c_63 : Ref sig .tc := ⟨.hbm, 353, rfl⟩
abbrev main_v253 : Ref sig .tc := ⟨.hbm, 354, rfl⟩
abbrev main_v254 : Ref sig .tc := ⟨.hbm, 355, rfl⟩
abbrev main_c_64 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_c_65 : Ref sig .tc := ⟨.hbm, 360, rfl⟩
abbrev main_v258 : Ref sig .tc := ⟨.hbm, 361, rfl⟩
abbrev main_v259 : Ref sig .tc := ⟨.hbm, 362, rfl⟩
abbrev main_c_66 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_v263 : Ref sig .tc := ⟨.hbm, 367, rfl⟩
abbrev main_v264 : Ref sig .tc := ⟨.hbm, 368, rfl⟩
abbrev main_v265 : Ref sig .tc := ⟨.hbm, 369, rfl⟩
abbrev main_v266 : Ref sig .tc := ⟨.hbm, 370, rfl⟩
abbrev main_cst_67 : Ref sig .tc := ⟨.hbm, 371, rfl⟩
abbrev main_v267 : Ref sig .tc := ⟨.hbm, 372, rfl⟩
abbrev main_cst_68 : Ref sig .tc := ⟨.hbm, 373, rfl⟩
abbrev main_v268 : Ref sig .tc := ⟨.hbm, 374, rfl⟩
abbrev main_v269 : Ref sig .tc := ⟨.hbm, 375, rfl⟩
abbrev main_cst_69 : Ref sig .tc := ⟨.hbm, 376, rfl⟩
abbrev main_v270 : Ref sig .tc := ⟨.hbm, 377, rfl⟩
abbrev main_v271 : Ref sig .tc := ⟨.hbm, 378, rfl⟩
abbrev main_v272 : Ref sig .tc := ⟨.hbm, 379, rfl⟩
abbrev main_cst_70 : Ref sig .tc := ⟨.hbm, 380, rfl⟩
abbrev main_call9_v0 : Ref sig .tc := ⟨.hbm, 381, rfl⟩
abbrev main_call9_v1 : Ref sig .tc := ⟨.hbm, 382, rfl⟩
abbrev main_v273 : Ref sig .tc := ⟨.hbm, 383, rfl⟩
abbrev main_v274 : Ref sig .tc := ⟨.hbm, 384, rfl⟩
abbrev main_v275 : Ref sig .tc := ⟨.hbm, 385, rfl⟩
abbrev main_v276 : Ref sig .tc := ⟨.hbm, 386, rfl⟩
abbrev main_v277 : Ref sig .tc := ⟨.hbm, 387, rfl⟩
abbrev main_v278 : Ref sig .tc := ⟨.hbm, 388, rfl⟩
abbrev main_v279 : Ref sig .tc := ⟨.hbm, 389, rfl⟩
abbrev main_v280 : Ref sig .tc := ⟨.hbm, 390, rfl⟩
abbrev main_v281 : Ref sig .tc := ⟨.hbm, 391, rfl⟩
abbrev main_v282 : Ref sig .tc := ⟨.hbm, 392, rfl⟩
abbrev main_v283 : Ref sig .tc := ⟨.hbm, 393, rfl⟩
abbrev main_v284 : Ref sig .tc := ⟨.hbm, 394, rfl⟩
abbrev main_v285 : Ref sig .tc := ⟨.hbm, 395, rfl⟩
abbrev main_v286 : Ref sig .tc := ⟨.hbm, 396, rfl⟩
abbrev main_cst_71 : Ref sig .tc := ⟨.hbm, 397, rfl⟩
abbrev main_v287 : Ref sig .tc := ⟨.hbm, 398, rfl⟩
abbrev main_v288 : Ref sig .tc := ⟨.hbm, 399, rfl⟩
abbrev main_v289 : Ref sig .tc := ⟨.hbm, 400, rfl⟩
abbrev main_v290 : Ref sig .tc := ⟨.hbm, 401, rfl⟩
abbrev main_cst_72 : Ref sig .tc := ⟨.hbm, 402, rfl⟩
abbrev main_v291 : Ref sig .tc := ⟨.hbm, 403, rfl⟩
abbrev main_v292 : Ref sig .tc := ⟨.hbm, 404, rfl⟩
abbrev main_cst_73 : Ref sig .tc := ⟨.hbm, 405, rfl⟩
abbrev main_v293 : Ref sig .tc := ⟨.hbm, 406, rfl⟩
abbrev main_v294 : Ref sig .tc := ⟨.hbm, 407, rfl⟩
abbrev main_v295 : Ref sig .tc := ⟨.hbm, 408, rfl⟩
abbrev main_cst_74 : Ref sig .tc := ⟨.hbm, 409, rfl⟩
abbrev main_v296 : Ref sig .tc := ⟨.hbm, 410, rfl⟩
abbrev main_v297 : Ref sig .tc := ⟨.hbm, 411, rfl⟩
abbrev main_cst_75 : Ref sig .tc := ⟨.hbm, 412, rfl⟩
abbrev main_v298 : Ref sig .tc := ⟨.hbm, 413, rfl⟩
abbrev main_v299 : Ref sig .tc := ⟨.hbm, 414, rfl⟩
abbrev main_v300 : Ref sig .tc := ⟨.hbm, 415, rfl⟩
abbrev main_cst_76 : Ref sig .tc := ⟨.hbm, 416, rfl⟩
abbrev main_call10_v0 : Ref sig .tc := ⟨.hbm, 417, rfl⟩
abbrev main_call10_v1 : Ref sig .tc := ⟨.hbm, 418, rfl⟩
abbrev main_v301 : Ref sig .tc := ⟨.hbm, 419, rfl⟩
abbrev main_c_77 : Ref sig .tc := ⟨.hbm, 420, rfl⟩
abbrev main_v302 : Ref sig .tc := ⟨.hbm, 421, rfl⟩
abbrev main_v303 : Ref sig .tc := ⟨.hbm, 422, rfl⟩
abbrev main_c_78 : Ref sig .tc := ⟨.hbm, 423, rfl⟩
abbrev main_v304 : Ref sig .tc := ⟨.hbm, 424, rfl⟩
abbrev main_v305 : Ref sig .tc := ⟨.hbm, 425, rfl⟩
abbrev main_v306 : Ref sig .tc := ⟨.hbm, 426, rfl⟩
abbrev main_v307 : Ref sig .tc := ⟨.hbm, 427, rfl⟩
abbrev main_v308 : Ref sig .tc := ⟨.hbm, 428, rfl⟩
abbrev main_v309 : Ref sig .tc := ⟨.hbm, 429, rfl⟩
abbrev main_c_79 : Ref sig .tc := ⟨.hbm, 430, rfl⟩
abbrev main_v310 : Ref sig .tc := ⟨.hbm, 431, rfl⟩
abbrev main_v311 : Ref sig .tc := ⟨.hbm, 432, rfl⟩
abbrev main_c_80 : Ref sig .tc := ⟨.hbm, 433, rfl⟩
abbrev main_v312 : Ref sig .tc := ⟨.hbm, 434, rfl⟩
abbrev main_v313 : Ref sig .tc := ⟨.hbm, 435, rfl⟩
abbrev main_v314 : Ref sig .tc := ⟨.hbm, 436, rfl⟩
abbrev main_v315 : Ref sig .tc := ⟨.hbm, 437, rfl⟩
abbrev main_v316 : Ref sig .tc := ⟨.hbm, 438, rfl⟩
abbrev main_v317 : Ref sig .tc := ⟨.hbm, 439, rfl⟩
abbrev main_v318 : Ref sig .tc := ⟨.hbm, 440, rfl⟩
abbrev main_v319 : Ref sig .tc := ⟨.hbm, 441, rfl⟩
abbrev main_c_81 : Ref sig .tc := ⟨.hbm, 442, rfl⟩
abbrev main_v320 : Ref sig .tc := ⟨.hbm, 443, rfl⟩
abbrev main_v321 : Ref sig .tc := ⟨.hbm, 444, rfl⟩
abbrev main_c_82 : Ref sig .tc := ⟨.hbm, 445, rfl⟩
abbrev main_v322 : Ref sig .tc := ⟨.hbm, 446, rfl⟩
abbrev main_v323 : Ref sig .tc := ⟨.hbm, 447, rfl⟩
abbrev main_v324 : Ref sig .tc := ⟨.hbm, 448, rfl⟩
abbrev main_v325 : Ref sig .tc := ⟨.hbm, 449, rfl⟩
abbrev main_v326 : Ref sig .tc := ⟨.hbm, 450, rfl⟩
abbrev main_v327 : Ref sig .tc := ⟨.hbm, 451, rfl⟩
abbrev main_v328 : Ref sig .tc := ⟨.hbm, 452, rfl⟩
abbrev main_cst_83 : Ref sig .tc := ⟨.hbm, 453, rfl⟩
abbrev main_v329 : Ref sig .tc := ⟨.hbm, 454, rfl⟩
abbrev main_v330 : Ref sig .tc := ⟨.hbm, 455, rfl⟩
abbrev main_v331 : Ref sig .tc := ⟨.hbm, 456, rfl⟩
abbrev main_v332 : Ref sig .tc := ⟨.hbm, 457, rfl⟩
abbrev main_v333 : Ref sig .tc := ⟨.hbm, 458, rfl⟩
abbrev main_v334 : Ref sig .tc := ⟨.hbm, 459, rfl⟩
abbrev main_call11_cst : Ref sig .tc := ⟨.hbm, 460, rfl⟩
abbrev main_call11_v0 : Ref sig .tc := ⟨.hbm, 461, rfl⟩
abbrev main_call11_cst_0 : Ref sig .tc := ⟨.hbm, 462, rfl⟩
abbrev main_call11_v1 : Ref sig .tc := ⟨.hbm, 463, rfl⟩
abbrev main_call11_v2 : Ref sig .tc := ⟨.hbm, 464, rfl⟩
abbrev main_call11_v3 : Ref sig .tc := ⟨.hbm, 465, rfl⟩
abbrev main_call11_v4 : Ref sig .tc := ⟨.hbm, 466, rfl⟩
abbrev main_call11_v5 : Ref sig .tc := ⟨.hbm, 467, rfl⟩
abbrev main_call11_v6 : Ref sig .tc := ⟨.hbm, 468, rfl⟩
abbrev main_call11_cst_1 : Ref sig .tc := ⟨.hbm, 469, rfl⟩
abbrev main_call11_v7 : Ref sig .tc := ⟨.hbm, 470, rfl⟩
abbrev main_call11_v8 : Ref sig .tc := ⟨.hbm, 471, rfl⟩
abbrev main_call11_v9 : Ref sig .tc := ⟨.hbm, 472, rfl⟩
abbrev main_call11_v10 : Ref sig .tc := ⟨.hbm, 473, rfl⟩
abbrev main_v335 : Ref sig .tc := ⟨.hbm, 474, rfl⟩
abbrev main_v336 : Ref sig .tc := ⟨.hbm, 475, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S8192 : S_.BroadcastsInDim S8192 (![] : Fin 0 → Fin S8192.rank)
  bcast_S270336_S270336x1_0 : S270336.BroadcastsInDim S270336x1 (![0] : Fin 1 → Fin S270336x1.rank)
  bcast_S_S270336 : S_.BroadcastsInDim S270336 (![] : Fin 0 → Fin S270336.rank)
  bcast_S270336x1_S270336x16_0_1 : S270336x1.BroadcastsInDim S270336x16 (![0, 1] : Fin 2 → Fin S270336x16.rank)
  bcast_S_S8192x16 : S_.BroadcastsInDim S8192x16 (![] : Fin 0 → Fin S8192x16.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S270336x1_S270336x10_0_1 : S270336x1.BroadcastsInDim S270336x10 (![0, 1] : Fin 2 → Fin S270336x10.rank)
  bcast_S_S8192x10 : S_.BroadcastsInDim S8192x10 (![] : Fin 0 → Fin S8192x10.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  bcast_S270336x1_S270336x100_0_1 : S270336x1.BroadcastsInDim S270336x100 (![0, 1] : Fin 2 → Fin S270336x100.rank)
  bcast_S_S8192x100 : S_.BroadcastsInDim S8192x100 (![] : Fin 0 → Fin S8192x100.rank)
  bcast_S100_S1x100_1 : S100.BroadcastsInDim S1x100 (![1] : Fin 1 → Fin S1x100.rank)
  bcast_S1x100_S8192x100_0_1 : S1x100.BroadcastsInDim S8192x100 (![0, 1] : Fin 2 → Fin S8192x100.rank)
  reducesTo_S8192x100_S8192_d1 : S8192x100.ReducesTo [1] S8192
  h_S_ : 0 < S_.numel
  bcast_S8192_S8192x1_0 : S8192.BroadcastsInDim S8192x1 (![0] : Fin 1 → Fin S8192x1.rank)
  bcast_S8192x1_S8192x100_0_1 : S8192x1.BroadcastsInDim S8192x100 (![0, 1] : Fin 2 → Fin S8192x100.rank)
  bcast_S8192x1_S8192x512_0_1 : S8192x1.BroadcastsInDim S8192x512 (![0, 1] : Fin 2 → Fin S8192x512.rank)
  transposes_S8192x100_S100x8192_1_0 : S8192x100.Transposes [1, 0] S100x8192
  reducesTo_S8192x8192_S_d0_1 : S8192x8192.ReducesTo [0, 1] S_
  reducesTo_S8192_S_d0 : S8192.ReducesTo [0] S_
  bcast_S_S100 : S_.BroadcastsInDim S100 (![] : Fin 0 → Fin S100.rank)
  bcast_S100_S100x1_0 : S100.BroadcastsInDim S100x1 (![0] : Fin 1 → Fin S100x1.rank)
  concatenates_S100x1_S100x1_S100x2_d1 : Shape.Concatenates [S100x1, S100x1] S100x2 1
  reducesTo_S100x100_S100_d1 : S100x100.ReducesTo [1] S100
  bcast_S100x1_S100x100_0_1 : S100x1.BroadcastsInDim S100x100 (![0, 1] : Fin 2 → Fin S100x100.rank)
  bcast_S1x100_S100x100_0_1 : S1x100.BroadcastsInDim S100x100 (![0, 1] : Fin 2 → Fin S100x100.rank)
  bcast_S1x16_S100x16_0_1 : S1x16.BroadcastsInDim S100x16 (![0, 1] : Fin 2 → Fin S100x16.rank)
  bcast_S_S100x16 : S_.BroadcastsInDim S100x16 (![] : Fin 0 → Fin S100x16.rank)
  concatenates_S8192x10_S8192x100_S8192x110_d1 : Shape.Concatenates [S8192x10, S8192x100] S8192x110 1
  bcast_S_S262144 : S_.BroadcastsInDim S262144 (![] : Fin 0 → Fin S262144.rank)
  reducesTo_S8192x10_S8192_d1 : S8192x10.ReducesTo [1] S8192
  bcast_S8192x1_S8192x10_0_1 : S8192x1.BroadcastsInDim S8192x10 (![0, 1] : Fin 2 → Fin S8192x10.rank)
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x512_S512x16_S8192x16_1_0_0_1_n_n_wf : DotDims.WF S8192x512 S512x16 S8192x16 [1] [0] [0] [1] [] []
  gather_S8192x16_S270336x1_S270336x16_1_0_n_n_0_1_116_wf : GatherDims.WF S8192x16 S270336x1 S270336x16 [1] [0] [] [0] [] 1 ![1, 16]
  scatter_S8192x16_S270336x1_S270336x16_1_0_0_1_wf : ScatterDims.WF S8192x16 S270336x1 S270336x16 [1] [0] [0] 1
  dot_S8192x16_S16x10_S8192x10_1_0_0_1_n_n_wf : DotDims.WF S8192x16 S16x10 S8192x10 [1] [0] [0] [1] [] []
  gather_S8192x10_S270336x1_S270336x10_1_0_n_n_0_1_110_wf : GatherDims.WF S8192x10 S270336x1 S270336x10 [1] [0] [] [0] [] 1 ![1, 10]
  scatter_S8192x10_S270336x1_S270336x10_1_0_0_1_wf : ScatterDims.WF S8192x10 S270336x1 S270336x10 [1] [0] [0] 1
  dot_S8192x512_S512x100_S8192x100_1_0_0_1_n_n_wf : DotDims.WF S8192x512 S512x100 S8192x100 [1] [0] [0] [1] [] []
  gather_S8192x100_S270336x1_S270336x100_1_0_n_n_0_1_1100_wf : GatherDims.WF S8192x100 S270336x1 S270336x100 [1] [0] [] [0] [] 1 ![1, 100]
  scatter_S8192x100_S270336x1_S270336x100_1_0_0_1_wf : ScatterDims.WF S8192x100 S270336x1 S270336x100 [1] [0] [0] 1
  dot_S100x8192_S8192x512_S100x512_1_0_0_1_n_n_wf : DotDims.WF S100x8192 S8192x512 S100x512 [1] [0] [0] [1] [] []
  dot_S100x8192_S8192x8192_S100x8192_1_0_0_1_n_n_wf : DotDims.WF S100x8192 S8192x8192 S100x8192 [1] [0] [0] [1] [] []
  dot_S100x8192_S8192x100_S100x100_1_0_0_1_n_n_wf : DotDims.WF S100x8192 S8192x100 S100x100 [1] [0] [0] [1] [] []
  dot_S8192x100_S100x8192_S8192x8192_1_0_0_1_n_n_wf : DotDims.WF S8192x100 S100x8192 S8192x8192 [1] [0] [0] [1] [] []
  gather_S100x100_S100x2_S100_n_01_n_n_01_1_11_wf : GatherDims.WF S100x100 S100x2 S100 [] [0, 1] [] [0, 1] [] 1 ![1, 1]
  scatter_S100x100_S100x2_S100_n_01_01_1_wf : ScatterDims.WF S100x100 S100x2 S100 [] [0, 1] [0, 1] 1
  dot_S100x512_S512x16_S100x16_1_0_0_1_n_n_wf : DotDims.WF S100x512 S512x16 S100x16 [1] [0] [0] [1] [] []
  dot_S100x100_S100x16_S100x16_1_0_0_1_n_n_wf : DotDims.WF S100x100 S100x16 S100x16 [1] [0] [0] [1] [] []
  dot_S100x16_S16x100_S100x100_1_0_0_1_n_n_wf : DotDims.WF S100x16 S16x100 S100x100 [1] [0] [0] [1] [] []
  dot_S100x100_S100x100_S100x100_1_0_0_1_n_n_wf : DotDims.WF S100x100 S100x100 S100x100 [1] [0] [0] [1] [] []
  dot_S8192x100_S100x100_S8192x100_1_0_0_1_n_n_wf : DotDims.WF S8192x100 S100x100 S8192x100 [1] [0] [0] [1] [] []
  dot_S8192x110_S110x10_S8192x10_1_0_0_1_n_n_wf : DotDims.WF S8192x110 S110x10 S8192x10 [1] [0] [0] [1] [] []

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x512_S512x16_S8192x16_1_0_0_1_n_n : DotDims S8192x512 S512x16 S8192x16 where
  lhsContracting := [1]
  rhsContracting := [0]
  lhsNonContracting := [0]
  rhsNonContracting := [1]
  lhsBatch := []
  rhsBatch := []
  wf := dot_S8192x512_S512x16_S8192x16_1_0_0_1_n_n_wf
def gather_S8192x16_S270336x1_S270336x16_1_0_n_n_0_1_116 : GatherDims S8192x16 S270336x1 S270336x16 where
  offsetDims := [1]
  collapsedSliceDims := [0]
  operandBatchingDims := []
  startIndicesBatchingDims := []
  startIndexMap := [0]
  indexVectorDim := 1
  sliceSizes := ![1, 16]
  wf := gather_S8192x16_S270336x1_S270336x16_1_0_n_n_0_1_116_wf
def scatter_S8192x16_S270336x1_S270336x16_1_0_0_1 : ScatterDims S8192x16 S270336x1 S270336x16 where
  updateWindowDims := [1]
  insertedWindowDims := [0]
  scatterDimsToOperandDims := [0]
  indexVectorDim := 1
  wf := scatter_S8192x16_S270336x1_S270336x16_1_0_0_1_wf
def dot_S8192x16_S16x10_S8192x10_1_0_0_1_n_n : DotDims S8192x16 S16x10 S8192x10 where
  lhsContracting := [1]
  rhsContracting := [0]
  lhsNonContracting := [0]
  rhsNonContracting := [1]
  lhsBatch := []
  rhsBatch := []
  wf := dot_S8192x16_S16x10_S8192x10_1_0_0_1_n_n_wf
def gather_S8192x10_S270336x1_S270336x10_1_0_n_n_0_1_110 : GatherDims S8192x10 S270336x1 S270336x10 where
  offsetDims := [1]
  collapsedSliceDims := [0]
  operandBatchingDims := []
  startIndicesBatchingDims := []
  startIndexMap := [0]
  indexVectorDim := 1
  sliceSizes := ![1, 10]
  wf := gather_S8192x10_S270336x1_S270336x10_1_0_n_n_0_1_110_wf
def scatter_S8192x10_S270336x1_S270336x10_1_0_0_1 : ScatterDims S8192x10 S270336x1 S270336x10 where
  updateWindowDims := [1]
  insertedWindowDims := [0]
  scatterDimsToOperandDims := [0]
  indexVectorDim := 1
  wf := scatter_S8192x10_S270336x1_S270336x10_1_0_0_1_wf
def dot_S8192x512_S512x100_S8192x100_1_0_0_1_n_n : DotDims S8192x512 S512x100 S8192x100 where
  lhsContracting := [1]
  rhsContracting := [0]
  lhsNonContracting := [0]
  rhsNonContracting := [1]
  lhsBatch := []
  rhsBatch := []
  wf := dot_S8192x512_S512x100_S8192x100_1_0_0_1_n_n_wf
def gather_S8192x100_S270336x1_S270336x100_1_0_n_n_0_1_1100 : GatherDims S8192x100 S270336x1 S270336x100 where
  offsetDims := [1]
  collapsedSliceDims := [0]
  operandBatchingDims := []
  startIndicesBatchingDims := []
  startIndexMap := [0]
  indexVectorDim := 1
  sliceSizes := ![1, 100]
  wf := gather_S8192x100_S270336x1_S270336x100_1_0_n_n_0_1_1100_wf
def scatter_S8192x100_S270336x1_S270336x100_1_0_0_1 : ScatterDims S8192x100 S270336x1 S270336x100 where
  updateWindowDims := [1]
  insertedWindowDims := [0]
  scatterDimsToOperandDims := [0]
  indexVectorDim := 1
  wf := scatter_S8192x100_S270336x1_S270336x100_1_0_0_1_wf
def dot_S100x8192_S8192x512_S100x512_1_0_0_1_n_n : DotDims S100x8192 S8192x512 S100x512 where
  lhsContracting := [1]
  rhsContracting := [0]
  lhsNonContracting := [0]
  rhsNonContracting := [1]
  lhsBatch := []
  rhsBatch := []
  wf := dot_S100x8192_S8192x512_S100x512_1_0_0_1_n_n_wf
def dot_S100x8192_S8192x8192_S100x8192_1_0_0_1_n_n : DotDims S100x8192 S8192x8192 S100x8192 where
  lhsContracting := [1]
  rhsContracting := [0]
  lhsNonContracting := [0]
  rhsNonContracting := [1]
  lhsBatch := []
  rhsBatch := []
  wf := dot_S100x8192_S8192x8192_S100x8192_1_0_0_1_n_n_wf
def dot_S100x8192_S8192x100_S100x100_1_0_0_1_n_n : DotDims S100x8192 S8192x100 S100x100 where
  lhsContracting := [1]
  rhsContracting := [0]
  lhsNonContracting := [0]
  rhsNonContracting := [1]
  lhsBatch := []
  rhsBatch := []
  wf := dot_S100x8192_S8192x100_S100x100_1_0_0_1_n_n_wf
def dot_S8192x100_S100x8192_S8192x8192_1_0_0_1_n_n : DotDims S8192x100 S100x8192 S8192x8192 where
  lhsContracting := [1]
  rhsContracting := [0]
  lhsNonContracting := [0]
  rhsNonContracting := [1]
  lhsBatch := []
  rhsBatch := []
  wf := dot_S8192x100_S100x8192_S8192x8192_1_0_0_1_n_n_wf
def gather_S100x100_S100x2_S100_n_01_n_n_01_1_11 : GatherDims S100x100 S100x2 S100 where
  offsetDims := []
  collapsedSliceDims := [0, 1]
  operandBatchingDims := []
  startIndicesBatchingDims := []
  startIndexMap := [0, 1]
  indexVectorDim := 1
  sliceSizes := ![1, 1]
  wf := gather_S100x100_S100x2_S100_n_01_n_n_01_1_11_wf
def scatter_S100x100_S100x2_S100_n_01_01_1 : ScatterDims S100x100 S100x2 S100 where
  updateWindowDims := []
  insertedWindowDims := [0, 1]
  scatterDimsToOperandDims := [0, 1]
  indexVectorDim := 1
  wf := scatter_S100x100_S100x2_S100_n_01_01_1_wf
def dot_S100x512_S512x16_S100x16_1_0_0_1_n_n : DotDims S100x512 S512x16 S100x16 where
  lhsContracting := [1]
  rhsContracting := [0]
  lhsNonContracting := [0]
  rhsNonContracting := [1]
  lhsBatch := []
  rhsBatch := []
  wf := dot_S100x512_S512x16_S100x16_1_0_0_1_n_n_wf
def dot_S100x100_S100x16_S100x16_1_0_0_1_n_n : DotDims S100x100 S100x16 S100x16 where
  lhsContracting := [1]
  rhsContracting := [0]
  lhsNonContracting := [0]
  rhsNonContracting := [1]
  lhsBatch := []
  rhsBatch := []
  wf := dot_S100x100_S100x16_S100x16_1_0_0_1_n_n_wf
def dot_S100x16_S16x100_S100x100_1_0_0_1_n_n : DotDims S100x16 S16x100 S100x100 where
  lhsContracting := [1]
  rhsContracting := [0]
  lhsNonContracting := [0]
  rhsNonContracting := [1]
  lhsBatch := []
  rhsBatch := []
  wf := dot_S100x16_S16x100_S100x100_1_0_0_1_n_n_wf
def dot_S100x100_S100x100_S100x100_1_0_0_1_n_n : DotDims S100x100 S100x100 S100x100 where
  lhsContracting := [1]
  rhsContracting := [0]
  lhsNonContracting := [0]
  rhsNonContracting := [1]
  lhsBatch := []
  rhsBatch := []
  wf := dot_S100x100_S100x100_S100x100_1_0_0_1_n_n_wf
def dot_S8192x100_S100x100_S8192x100_1_0_0_1_n_n : DotDims S8192x100 S100x100 S8192x100 where
  lhsContracting := [1]
  rhsContracting := [0]
  lhsNonContracting := [0]
  rhsNonContracting := [1]
  lhsBatch := []
  rhsBatch := []
  wf := dot_S8192x100_S100x100_S8192x100_1_0_0_1_n_n_wf
def dot_S8192x110_S110x10_S8192x10_1_0_0_1_n_n : DotDims S8192x110 S110x10 S8192x10 where
  lhsContracting := [1]
  rhsContracting := [0]
  lhsNonContracting := [0]
  rhsNonContracting := [1]
  lhsBatch := []
  rhsBatch := []
  wf := dot_S8192x110_S110x10_S8192x10_1_0_0_1_n_n_wf

class Facts : Prop extends Facts₀ where

variable [Facts]
-- ==== Proof.KI.Data.lean ====
import proofs.«401602_j3728031613303_3_alg».proof.Proof.Gen.KernelIdeal.Launch
import proofs.«401602_j3728031613303_3_alg».proof.Proof.Gen.KernelIdeal.Skeleton
import proofs.«401602_j3728031613303_3_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev preOpss : List (List (HloOp τ sig (Elt F))) :=
  [hostOps0, hostOps0_1, hostOps0_2, hostOps0_3, hostOps0_4, hostOps0_5, hostOps0_6, hostOps0_7, hostOps0_8]

abbrev tailOpss : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16]

abbrev V0 (c : Dev nD) : Valuation τ sig (Elt F) := StableHlo.after (List.flatten preOpss) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev Outs (F : FTy → Type) [FloatOps F] : Type := Vec F S1x128x128 .f32 × Vec F S1x8x128 .f32 × Vec F S1x128x512 .f32

def resetOut : Outs F := (k0_pay3 (F := F), k0_pay4 (F := F), k0_pay5 (F := F))

def stepOut (x0 : Vec F S256x8192 .f32) (x1 : Vec F S256x128 .f32) (x2 x3 : Vec F S8192x128 .bf16) (x4 : Vec F S256x512 .f32)
    (o : Outs F) : Outs F :=
  (k0_pay7 x0 x1 x2 x3 o.1, k0_pay2 x0 o.2.1, k0_pay1 (k0_pay8 o.2.2) (k0_pay9 x1 x4))

def outsAt (c : Dev nD) : (n : ℕ) → n < cfg0.N → Outs F
  | 0, hn => stepOut (iblk m c 0 ⟨0, hn⟩) (iblk m c 1 ⟨0, hn⟩) (iblk m c 2 ⟨0, hn⟩) (iblk m c 3 ⟨0, hn⟩) (iblk m c 4 ⟨0, hn⟩) resetOut
  | n + 1, hn =>
    stepOut (iblk m c 0 ⟨n + 1, hn⟩) (iblk m c 1 ⟨n + 1, hn⟩) (iblk m c 2 ⟨n + 1, hn⟩) (iblk m c 3 ⟨n + 1, hn⟩) (iblk m c 4 ⟨n + 1, hn⟩)
      (if (n + 1) % 16 = 0 then resetOut else outsAt c n (Nat.lt_of_succ_lt hn))

theorem outsAt_first (c : Dev nD) (t : Fin cfg0.N) (h0 : t.val % 16 = 0) :
    outsAt m c t.val t.isLt = stepOut (iblk m c 0 t) (iblk m c 1 t) (iblk m c 2 t) (iblk m c 3 t) (iblk m c 4 t) resetOut := by
  obtain ⟨n, hn⟩ := t
  cases n with
  | zero => rfl
  | succ n => exact congrArg (stepOut _ _ _ _ _) (if_pos h0)

theorem outsAt_later (c : Dev nD) (t : Fin cfg0.N) (h0 : ¬t.val % 16 = 0) :
    outsAt m c t.val t.isLt = stepOut (iblk m c 0 t) (iblk m c 1 t) (iblk m c 2 t) (iblk m c 3 t) (iblk m c 4 t)
      (outsAt m c (t.val - 1) (Nat.lt_of_le_of_lt (Nat.sub_le _ _) t.isLt)) := by
  obtain ⟨n, hn⟩ := t
  cases n with
  | zero => exact absurd (Nat.zero_mod _) h0
  | succ n => exact congrArg (stepOut _ _ _ _ _) (if_neg h0)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
    | ⟨7, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t.val t.isLt).1 := by dsimp only [dats]
theorem after0_6 (c : Dev nD) (t : Fin cfg0.N) : (dats m 0 c).after 6 t = (outsAt m c t.val t.isLt).2.1 := by dsimp only [dats]
theorem after0_7 (c : Dev nD) (t : Fin cfg0.N) : (dats m 0 c).after 7 t = (outsAt m c t.val t.isLt).2.2 := by dsimp only [dats]

end Cert.KernelIdeal.Hand

end
-- ==== Proof.KI.Writes.lean ====
import proofs.«401602_j3728031613303_3_alg».proof.Proof.KI.Data
import Idealize.ShloMosaic.Lib.StableHlo.Run

set_option maxRecDepth 16384

noncomputable section

namespace Cert.KernelIdeal.Hand

open Idealize.ShloMosaic
open Cert.KernelIdeal Cert.KernelIdeal.Gen

variable {F : FTy → Type} [FloatOps F]

-- A line whose operations write, one each and in order, the references of `W` writes no reference outside `W`.
theorem not_writes {ops : List (HloOp τ sig (Elt F))} {W : List (Ref sig .tc)}
    (h : ops.map (·.writes) = W.map fun y => {Proc.devRef (τ := τ) .tc y}) {r : Ref sig .tc} (hr : r ∉ W) :
    ∀ op ∈ ops, Proc.devRef (τ := τ) .tc r ∉ op.writes := fun op hop hb => by
  have := List.mem_map_of_mem (f := (·.writes)) hop
  rw [h, List.mem_map] at this
  obtain ⟨y, hy, e⟩ := this
  rw [← e, Finset.mem_singleton] at hb
  exact hr (Proc.devRef_injective _ hb.symm ▸ hy)

-- Stretches none of whose operations allocates, read off the stretches laid end to end.
theorem fresh_of {opss : List (List (HloOp τ sig (Elt F)))} (h : opss.flatten.map (·.fresh) = opss.flatten.map fun _ => ∅) :
    ∀ ops ∈ opss, ∀ op ∈ ops, op.fresh = ∅ :=
  fun _ ho op hop => List.map_inj_left.mp h op (List.mem_flatten_of_mem ho hop)

-- References are numbered in program order: a list numbered `a, a + 1, …` holds only references numbered in `[a, a + n)`.
theorem idx_mem {W : List (Ref sig .tc)} {a n : ℕ} (h : W.map (·.idx.val) = List.range' a n) {r : Ref sig .tc} (hm : r ∈ W) :
    a ≤ r.idx.val ∧ r.idx.val < a + n := by
  have := List.mem_map_of_mem (f := (·.idx.val)) hm
  rwa [h, List.mem_range'_1] at this

theorem not_mem_of_lt {W : List (Ref sig .tc)} {a n : ℕ} (h : W.map (·.idx.val) = List.range' a n) {r : Ref sig .tc}
    (hr : r.idx.val < a) : r ∉ W := fun hm => Nat.not_le.2 hr (idx_mem h hm).1

noncomputable def wrPre : List (Ref sig .tc) :=
  [main_v0, main_v1, main_v2, main_v3, main_v4, main_v5, main_v6, main_cst, main_v7, main_v8, main_cst_0, main_v9,
   main_v10, main_v11, main_cst_1, main_v12, main_v13, main_cst_2, main_v14, main_v15, main_v16, main_cst_3, main_call0_v0, main_call0_v1,
   main_v17, main_c, main_v18, main_v19, main_c_4, main_v20, main_v21, main_v22, main_v23, main_v24, main_v25, main_c_5,
   main_v26, main_v27, main_c_6, main_v28, main_v29, main_v30, main_v31, main_v32, main_v33, main_v34, main_v35, main_v36,
   main_v37, main_c_7, main_v38, main_v39, main_c_8, main_v40, main_v41, main_v42, main_v43, main_v44, main_v45, main_v46,
   main_cst_9, main_v47, main_v48, main_v49, main_v50, main_v51, main_v52, main_v53, main_call1_cst, main_call1_v0, main_v54, main_v55,
   main_call2_cst, main_call2_v0, main_v56, main_v57, main_v58, main_c_10, main_v59, main_v60, main_c_11, main_v61, main_v62, main_v63,
   main_v64, main_v65, main_v66, main_v67, main_cst_12, main_v68, main_v69, main_v70, main_v71, main_v72, main_v73, main_cst_13,
   main_v74, main_cst_14, main_v75, main_v76, main_v77, main_v78, main_v79, main_v80, main_cst_15, main_v81, main_v82, main_v83,
   main_v84, main_v85, main_v86, main_v87, main_v88, main_v89, main_cst_16, main_v90, main_v91, main_v92, main_v93, main_cst_17,
   main_v94, main_cst_18, main_v95, main_cst_19, main_v96, main_c_20, main_call3_v0, main_v97, main_v98, main_v99, main_v100, main_v101]

noncomputable def wrTail : List (Ref sig .tc) :=
  [main_cst_21, main_v103, main_v104, main_v105, main_cst_22, main_v106, main_cst_23, main_v107, main_v108, main_v109, main_v110, main_v111,
   main_v112, main_cst_24, main_v113, main_call4_v0, main_call4_v1, main_call4_c, main_call4_v2, main_call4_v3, main_call4_v4, main_call4_cst, main_call4_v5, main_call4_v6,
   main_call4_cst_0, main_v114, main_cst_25, main_v115, main_v116, main_v117, main_cst_26, main_v118, main_v119, main_cst_27, main_v120, main_v121,
   main_c_28, main_v122, main_v123, main_c_29, main_v124, main_v125, main_v126, main_c_30, main_v127, main_v128, main_c_31, main_v129,
   main_v130, main_v131, main_v132, main_v133, main_v134, main_v135, main_cst_32, main_v136, main_v137, main_cst_33, main_call5_v0, main_call5_v1,
   main_v138, main_c_34, main_v139, main_v140, main_c_35, main_v141, main_v142, main_v143, main_c_36, main_v144, main_v145, main_c_37,
   main_v146, main_v147, main_v148, main_v149, main_v150, main_v151, main_v152, main_cst_38, main_v153, main_cst_39, main_v154, main_v155,
   main_cst_40, main_v156, main_v157, main_v158, main_cst_41, main_call6_v0, main_call6_v1, main_v159, main_v160, main_v161, main_v162, main_v163,
   main_v164, main_v165, main_v166, main_v167, main_v168, main_v169, main_v170, main_call7_cst, main_call7_v0, main_v171, main_v172, main_c_42,
   main_v173, main_v174, main_c_43, main_v175, main_v176, main_v177, main_c_44, main_v178, main_v179, main_c_45, main_v180, main_v181,
   main_v182, main_v183, main_v184, main_v185, main_v186, main_cst_46, main_v187, main_v188, main_cst_47, main_call8_v0, main_call8_v1, main_v189,
   main_c_48, main_v190, main_v191, main_c_49, main_v192, main_v193, main_v194, main_c_50, main_v195, main_v196, main_c_51, main_v197,
   main_v198, main_v199, main_v200, main_v201, main_v202, main_v203, main_cst_52, main_v204, main_cst_53, main_v205, main_v206, main_cst_54,
   main_v207, main_v208, main_v209, main_cst_55, main_call9_v0, main_call9_v1, main_v210, main_v211, main_v212, main_v213, main_v214, main_v215,
   main_v216, main_v217, main_v218, main_v219, main_v220, main_v221, main_v222, main_v223, main_cst_56, main_v224, main_v225, main_v226,
   main_v227, main_cst_57, main_v228, main_v229, main_cst_58, main_v230, main_v231, main_v232, main_cst_59, main_v233, main_v234, main_cst_60,
   main_v235, main_v236, main_v237, main_cst_61, main_call10_v0, main_call10_v1, main_v238, main_c_62, main_v239, main_v240, main_c_63, main_v241,
   main_v242, main_v243, main_v244, main_v245, main_v246, main_c_64, main_v247, main_v248, main_c_65, main_v249, main_v250, main_v251,
   main_v252, main_v253, main_v254, main_v255, main_v256, main_c_66, main_v257, main_v258, main_c_67, main_v259, main_v260, main_v261,
   main_v262, main_v263, main_v264, main_v265, main_cst_68, main_v266, main_v267, main_v268, main_v269, main_v270, main_v271, main_call11_cst,
   main_call11_v0, main_call11_cst_0, main_call11_v1, main_call11_v2, main_call11_v3, main_call11_v4, main_call11_v5, main_call11_v6, main_call11_cst_1, main_call11_v7, main_call11_v8, main_call11_v9,
   main_call11_v10, main_v272, main_v273]

theorem wrPre_eq : (preOpss (F := F)).flatten.map (·.writes) = wrPre.map fun y => {Proc.devRef (τ := τ) .tc y} := rfl

theorem wrTail_eq : (tailOpss (F := F)).flatten.map (·.writes) = wrTail.map fun y => {Proc.devRef (τ := τ) .tc y} := rfl

theorem keepPre (X : Valuation τ sig (Elt F)) (r : Ref sig .tc) (hr : r ∉ wrPre) :
    StableHlo.after (List.flatten (preOpss : List (List (HloOp τ sig (Elt F))))) X (Proc.devRef .tc r) = X (Proc.devRef .tc r) :=
  StableHlo.after_of_forall_not_mem _ X (not_writes wrPre_eq hr)

theorem keepTail (X : Valuation τ sig (Elt F)) (r : Ref sig .tc) (hr : r ∉ wrTail) :
    StableHlo.after (List.flatten (tailOpss : List (List (HloOp τ sig (Elt F))))) X (Proc.devRef .tc r) = X (Proc.devRef .tc r) :=
  StableHlo.after_of_forall_not_mem _ X (not_writes wrTail_eq hr)

theorem wrPre_idx : wrPre.map (·.idx.val) = List.range' 17 132 := rfl
theorem wrTail_idx : wrTail.map (·.idx.val) = List.range' 152 255 := rfl

theorem wrTail_arr (w : Fin 8) : Pipeline.arrRef spec0 w ∉ wrTail :=
  not_mem_of_lt wrTail_idx ((by decide +kernel : ∀ w : Fin 8, (Pipeline.arrRef spec0 w).idx.val < 152) w)

noncomputable def argRefs : List (Ref sig .tc) :=
  [main_arg0, main_arg1, main_arg2, main_arg3, main_arg4, main_arg5, main_arg6, main_arg7, main_arg8, main_arg9, main_arg10, main_arg11, main_arg12, main_arg13, main_arg14, main_arg15, main_arg16]

theorem args_idx : argRefs.map (·.idx.val) = List.range' 0 17 := rfl

theorem wrPre_args : ∀ r ∈ argRefs, r ∉ wrPre := fun r hr => not_mem_of_lt wrPre_idx (idx_mem args_idx hr).2
theorem wrTail_args : ∀ r ∈ argRefs, r ∉ wrTail := fun r hr => not_mem_of_lt wrTail_idx ((idx_mem args_idx hr).2.trans (by decide))

theorem sfx_keeps : ∀ ops ∈ (tailOpss : List (List (HloOp τ sig (Elt F)))), ∀ op ∈ ops,
    ∀ w, Proc.devRef .tc (Pipeline.arrRef spec0 w) ∉ op.writes :=
  fun _ ho op hop w => not_writes wrTail_eq (wrTail_arr w) op (List.mem_flatten_of_mem ho hop)

theorem sfx_fresh : ∀ ops ∈ (tailOpss : List (List (HloOp τ sig (Elt F)))), ∀ op ∈ ops, op.fresh = ∅ :=
  fresh_of rfl

theorem pre_fresh : (preOpss : List (List (HloOp τ sig (Elt F)))).Forall fun ops => ops.Forall fun op => op.fresh = ∅ :=
  List.forall_iff_forall_mem.mpr fun ops ho => List.forall_iff_forall_mem.mpr (fresh_of (opss := preOpss) rfl ops ho)

theorem pre_sub : (preOpss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

end Cert.KernelIdeal.Hand

end
-- ==== Proof.KI.Kit.lean ====
import proofs.«401602_j3728031613303_3_alg».proof.Proof.KI.Data
import proofs.«401602_j3728031613303_3_alg».proof.Proof.KI.Writes

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main preOpss tailOpss pre_sub pre_fresh (fun c => by rw [main_chain c]; rfl)

theorem tail_tc : ∀ ops ∈ (tailOpss : List (List (HloOp τ sig (Elt F)))), ops.Forall fun op => op.bufs ⊆ StableHlo.tcRefs τ sig := by
  intro ops hops
  simp only [List.mem_cons, List.mem_nil_iff, or_false] at hops
  rcases hops with rfl | rfl | rfl | rfl | rfl | rfl | rfl | rfl | rfl | rfl | rfl | rfl | rfl | rfl | rfl | rfl | rfl
  exacts [hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub]

theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_tc ops hops)) op hop)

theorem V_kept (c : Dev nD) (b : Ref sig .tc) (hp : b ∉ wrPre) : V m c b = m ((c.tc : Thread nD τ).loc b) :=
  keepPre (fun b => m (c, b)) b hp

theorem kept_rest (c : Dev nD) (b : Ref sig .tc) (hp : b ∉ wrPre) (ht : b ∉ wrTail) (hw : ∀ w, Pipeline.arrRef spec0 w ≠ b) :
    Pipeline.afterTail₀ cfgs (dats m) 0 (V0 m) tailOpss c b = m ((c.tc : Thread nD τ).loc b) :=
  (keepTail _ b ht).trans ((Pipeline.withArrays_of_ne spec0 c (V0 m c) _ b hw).trans (keepPre (fun b => m (c, b)) b hp))

theorem kept_in (c : Dev nD) (w : Fin cfg0.W) (hin : (cfg0.win w).isOut = false) (hp : Pipeline.arrRef spec0 w ∉ wrPre) :
    (dats m 0 c).arrAt w cfg0.N = m ((c.tc : Thread nD τ).loc (Pipeline.arrRef spec0 w)) :=
  ((dats m 0 c).arrAt_in w hin _).trans ((A_eq m c w).trans (V_kept m c _ hp))

abbrev restArgs : List (Ref sig .tc) :=
  [main_arg1, main_arg2, main_arg4, main_arg5, main_arg6, main_arg7, main_arg8, main_arg9, main_arg10, main_arg11, main_arg12, main_arg13, main_arg14, main_arg15, main_arg16]

theorem restArgs_unscoped : ∀ b ∈ restArgs, b.isScoped = false := by decide
theorem restArgs_arr : ∀ b ∈ restArgs, ∀ w : Fin 8, Pipeline.arrRef spec0 w ≠ b := by decide
theorem restArgs_args : ∀ b ∈ restArgs, b ∈ argRefs := by decide

theorem kept_arg (c : Dev nD) (r : PUnit × MemSt nD τ sig (Elt F))
    (h : Pipeline.FramePost cfgs (dats m) 0 (Pipeline.afterTail₀ cfgs (dats m) 0 (V0 m) tailOpss) r)
    (b : Ref sig .tc) (hb : b ∈ restArgs) : r.2.mem ((c.tc : Thread nD τ).loc b) = m ((c.tc : Thread nD τ).loc b) :=
  ((h c).2 b (Pipeline.mem_restRefs_of b (restArgs_unscoped b hb) (restArgs_arr b hb))).trans
    (kept_rest m c b (wrPre_args b (restArgs_args b hb)) (wrTail_args b (restArgs_args b hb)) (restArgs_arr b hb))

/-- In the state `r` the seventeen arguments hold what the launch memory `m` holds. -/
abbrev ArgsKept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)

theorem args_of_post (r : PUnit × MemSt nD τ sig (Elt F))
    (h : Pipeline.FramePost cfgs (dats m) 0 (Pipeline.afterTail₀ cfgs (dats m) 0 (V0 m) tailOpss) r) : ArgsKept m r :=
  fun c => ⟨
    ((h c).1 4).trans (kept_in m c 4 rfl (wrPre_args _ (by decide))),
    kept_arg m c r h main_arg1 (by decide),
    kept_arg m c r h main_arg2 (by decide),
    ((h c).1 0).trans (kept_in m c 0 rfl (wrPre_args _ (by decide))),
    kept_arg m c r h main_arg4 (by decide),
    kept_arg m c r h main_arg5 (by decide),
    kept_arg m c r h main_arg6 (by decide),
    kept_arg m c r h main_arg7 (by decide),
    kept_arg m c r h main_arg8 (by decide),
    kept_arg m c r h main_arg9 (by decide),
    kept_arg m c r h main_arg10 (by decide),
    kept_arg m c r h main_arg11 (by decide),
    kept_arg m c r h main_arg12 (by decide),
    kept_arg m c r h main_arg13 (by decide),
    kept_arg m c r h main_arg14 (by decide),
    kept_arg m c r h main_arg15 (by decide),
    kept_arg m c r h main_arg16 (by decide)⟩

theorem rest_of_post (r : PUnit × MemSt nD τ sig (Elt F))
    (h : Pipeline.FramePost cfgs (dats m) 0 (Pipeline.afterTail₀ cfgs (dats m) 0 (V0 m) tailOpss) r)
    (c : Dev nD) (b : Ref sig .tc) (hb : b ∈ Pipeline.restRefs sig (cfgs 0).spec) :
    r.2.mem ((c.tc : Thread nD τ).loc b) = Pipeline.afterTail₀ cfgs (dats m) 0 (V0 m) tailOpss c b :=
  (h c).2 b hb

theorem main_v272_rest : main_v272 ∈ Pipeline.restRefs sig (cfgs 0).spec := Pipeline.mem_restRefs_of main_v272 rfl (by decide)
theorem main_v56_rest : main_v56 ∈ Pipeline.restRefs sig (cfgs 0).spec := Pipeline.mem_restRefs_of main_v56 rfl (by decide)
theorem main_v273_rest : main_v273 ∈ Pipeline.restRefs sig (cfgs 0).spec := Pipeline.mem_restRefs_of main_v273 rfl (by decide)
theorem main_v108_rest : main_v108 ∈ Pipeline.restRefs sig (cfgs 0).spec := Pipeline.mem_restRefs_of main_v108 rfl (by decide)

end Cert.KernelIdeal.Hand

end
-- ==== Proof.KI.Runs.lean ====
import proofs.«401602_j3728031613303_3_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop :=
  (Scalar.cmpi .ne (Scalar.extui (Scalar.cmpi .eq (BitVec.ofNat 32 (i 1).val) 0#32)) 0#32) = 1#1

theorem hcond0_0 : ∀ t : Fin cfg0.N, cond0_0 (grid0.coords t) ↔ t.val % 16 = 0 :=
  (by decide +kernel : ∀ t : Fin grid0.N, cond0_0 (grid0.coords t) ↔ t.val % 16 = 0)

abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x512 .f32 := win0_7.stage (cfg0.slots t 7)
abbrev hs0_7 (t : Fin cfg0.N) : (ms0_7 t).IsWhole := hstage0_7 ((cfg0.slots t 7).cast nbuf0_7)

end Cert.KernelIdeal.Hand

end
-- ==== Proof.KI.RunA.lean ====
import proofs.«401602_j3728031613303_3_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .f32) (harg6 : arg6.IsWhole) (arg7 : Memref sig .tc .vmem S1x128x128 .f32) (harg7 : arg7.IsWhole) (arg8 : Memref sig .tc .vmem S1x8x128 .f32) (harg8 : arg8.IsWhole) (arg9 : Memref sig .tc .vmem S1x128x512 .f32) (harg9 : arg9.IsWhole) (hc0 : cond0_0 i)
    (x0 : Vec F S256x8192 .f32) (x1 : Vec F S256x128 .f32) (x2 x3 : Vec F S8192x128 .bf16) (x4 : Vec F S256x512 .f32) :
    { L : List (View.Piece (Elt F) S1x128x128 .f32) × List (View.Piece (Elt F) S1x8x128 .f32) × List (View.Piece (Elt F) S1x128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0__diffpool_kernel i arg2 harg2 arg3 harg3 arg4 harg4 arg5 harg5 arg6 harg6 arg7 harg7 arg8 harg8 arg9 harg9) K } := by
  refine ⟨⟨?_, ?_, ?_⟩, fun E K => ?run⟩
  case run =>
    simp only [cc0__diffpool_kernel_eq_skeleton]; unfold cc0__diffpool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    iexists _; iexact H7

end Cert.KernelIdeal.Hand

end
-- ==== Proof.KI.RunB.lean ====
import proofs.«401602_j3728031613303_3_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .f32) (harg6 : arg6.IsWhole) (arg7 : Memref sig .tc .vmem S1x128x128 .f32) (harg7 : arg7.IsWhole) (arg8 : Memref sig .tc .vmem S1x8x128 .f32) (harg8 : arg8.IsWhole) (arg9 : Memref sig .tc .vmem S1x128x512 .f32) (harg9 : arg9.IsWhole) (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) :
    { L : List (View.Piece (Elt F) S1x128x128 .f32) × List (View.Piece (Elt F) S1x8x128 .f32) × List (View.Piece (Elt F) S1x128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xo5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0__diffpool_kernel i arg2 harg2 arg3 harg3 arg4 harg4 arg5 harg5 arg6 harg6 arg7 harg7 arg8 harg8 arg9 harg9) K } := by
  refine ⟨⟨?_, ?_, ?_⟩, fun E K => ?run⟩
  case run =>
    simp only [cc0__diffpool_kernel_eq_skeleton]; unfold cc0__diffpool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    iexists _; iexact H7

end Cert.KernelIdeal.Hand

end
-- ==== Proof.KI.Body.lean ====
import proofs.«401602_j3728031613303_3_alg».proof.Proof.KI.RunB
import Idealize.ShloMosaic.Lib.Ring
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .f32) (harg6 : arg6.IsWhole) (arg7 : Memref sig .tc .vmem S1x128x128 .f32) (harg7 : arg7.IsWhole) (arg8 : Memref sig .tc .vmem S1x8x128 .f32) (harg8 : arg8.IsWhole) (arg9 : Memref sig .tc .vmem S1x128x512 .f32) (harg9 : arg9.IsWhole)

theorem cover0_A_5 (hc0 : cond0_0 i)
    (x0 : Vec F S256x8192 .f32) (x1 : Vec F S256x128 .f32) (x2 x3 : Vec F S8192x128 .bf16) (x4 : Vec F S256x512 .f32) (y : S1x128x128.Idx) :
    ∃ pc ∈ (kernelRun0_A c i arg2 harg2 arg3 harg3 arg4 harg4 arg5 harg5 arg6 harg6 arg7 harg7 arg8 harg8 arg9 harg9 hc0 x0 x1 x2 x3 x4).1.1, y ∈ pc.1.set :=
  View.cover_of_tiledL (kernelRun0_A c i arg2 harg2 arg3 harg3 arg4 harg4 arg5 harg5 arg6 harg6 arg7 harg7 arg8 harg8 arg9 harg9 hc0 x0 x1 x2 x3 x4).1.1 S1x128x128.size (by sl_kernel_rfl) y

theorem cover0_B_5 (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) (y : S1x128x128.Idx) :
    ∃ pc ∈ (kernelRun0_B c i arg2 harg2 arg3 harg3 arg4 harg4 arg5 harg5 arg6 harg6 arg7 harg7 arg8 harg8 arg9 harg9 hc0 x0 x1 x2 x3 x4 xo5 xo6 xo7).1.1, y ∈ pc.1.set :=
  View.cover_of_tiledL (kernelRun0_B c i arg2 harg2 arg3 harg3 arg4 harg4 arg5 harg5 arg6 harg6 arg7 harg7 arg8 harg8 arg9 harg9 hc0 x0 x1 x2 x3 x4 xo5 xo6 xo7).1.1 S1x128x128.size (by sl_kernel_rfl) y

theorem cover0_A_6 (hc0 : cond0_0 i)
    (x0 : Vec F S256x8192 .f32) (x1 : Vec F S256x128 .f32) (x2 x3 : Vec F S8192x128 .bf16) (x4 : Vec F S256x512 .f32) (y : S1x8x128.Idx) :
    ∃ pc ∈ (kernelRun0_A c i arg2 harg2 arg3 harg3 arg4 harg4 arg5 harg5 arg6 harg6 arg7 harg7 arg8 harg8 arg9 harg9 hc0 x0 x1 x2 x3 x4).1.2.1, y ∈ pc.1.set :=
  View.cover_of_tiledL (kernelRun0_A c i arg2 harg2 arg3 harg3 arg4 harg4 arg5 harg5 arg6 harg6 arg7 harg7 arg8 harg8 arg9 harg9 hc0 x0 x1 x2 x3 x4).1.2.1 S1x8x128.size (by sl_kernel_rfl) y

theorem cover0_B_6 (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) (y : S1x8x128.Idx) :
    ∃ pc ∈ (kernelRun0_B c i arg2 harg2 arg3 harg3 arg4 harg4 arg5 harg5 arg6 harg6 arg7 harg7 arg8 harg8 arg9 harg9 hc0 x0 x1 x2 x3 x4 xo5 xo6 xo7).1.2.1, y ∈ pc.1.set :=
  View.cover_of_tiledL (kernelRun0_B c i arg2 harg2 arg3 harg3 arg4 harg4 arg5 harg5 arg6 harg6 arg7 harg7 arg8 harg8 arg9 harg9 hc0 x0 x1 x2 x3 x4 xo5 xo6 xo7).1.2.1 S1x8x128.size (by sl_kernel_rfl) y

theorem cover0_A_7 (hc0 : cond0_0 i)
    (x0 : Vec F S256x8192 .f32) (x1 : Vec F S256x128 .f32) (x2 x3 : Vec F S8192x128 .bf16) (x4 : Vec F S256x512 .f32) (y : S1x128x512.Idx) :
    ∃ pc ∈ (kernelRun0_A c i arg2 harg2 arg3 harg3 arg4 harg4 arg5 harg5 arg6 harg6 arg7 harg7 arg8 harg8 arg9 harg9 hc0 x0 x1 x2 x3 x4).1.2.2, y ∈ pc.1.set :=
  View.cover_of_tiledL (kernelRun0_A c i arg2 harg2 arg3 harg3 arg4 harg4 arg5 harg5 arg6 harg6 arg7 harg7 arg8 harg8 arg9 harg9 hc0 x0 x1 x2 x3 x4).1.2.2 S1x128x512.size (by sl_kernel_rfl) y

theorem cover0_B_7 (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) (y : S1x128x512.Idx) :
    ∃ pc ∈ (kernelRun0_B c i arg2 harg2 arg3 harg3 arg4 harg4 arg5 harg5 arg6 harg6 arg7 harg7 arg8 harg8 arg9 harg9 hc0 x0 x1 x2 x3 x4 xo5 xo6 xo7).1.2.2, y ∈ pc.1.set :=
  View.cover_of_tiledL (kernelRun0_B c i arg2 harg2 arg3 harg3 arg4 harg4 arg5 harg5 arg6 harg6 arg7 harg7 arg8 harg8 arg9 harg9 hc0 x0 x1 x2 x3 x4 xo5 xo6 xo7).1.2.2 S1x128x512.size (by sl_kernel_rfl) y

theorem out0_A_5 (hc0 : cond0_0 i)
    (x0 : Vec F S256x8192 .f32) (x1 : Vec F S256x128 .f32) (x2 x3 : Vec F S8192x128 .bf16) (x4 : Vec F S256x512 .f32) {sig' : RefSig} {κ' : Kind} {sp' : Space} (v : View sig' κ' sp' S1x128x128 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 x0 x1 x2 x3 x4).1.1) = k0_pay7 x0 x1 x2 x3 (k0_pay3 (F := F)) := by
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x128x128) hz3, View.readCov_unit_zero (S := S1x128x128) _ hz3]
  simp only [View.readAt_eq_ld, harg2.read_unread, harg3.read_unread, harg4.read_unread, harg5.read_unread, harg6.read_unread, View.ld_unit_zero (S := S256x8192) hz2, View.ld_unit_zero (S := S256x128) hz2, View.ld_unit_zero (S := S8192x128) hz2, View.ld_unit_zero (S := S256x512) hz2]

theorem out0_B_5 (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) {sig' : RefSig} {κ' : Kind} {sp' : Space} (v : View sig' κ' sp' S1x128x128 .f32) (f : v.ty.Contents (Elt F)) :
    v.read (Elt F) (v.writes (Elt F) f (kernelRun0_B c i arg2 harg2 arg3 harg3 arg4 harg4 arg5 harg5 arg6 harg6 arg7 harg7 arg8 harg8 arg9 harg9 hc0 x0 x1 x2 x3 x4 xo5 xo6 xo7).1.1) = k0_pay7 x0 x1 x2 x3 xo5 := by
  rw [View.read_writes_eq_canon _ _ _ (cover0_B_5 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero (S := S1x128x128) hz3]
  simp only [View.readAt_eq_ld, harg2.read_unread, harg3.read_unread, harg4.read_unread, harg5.read_unread, harg6.read_unread, View.ld_unit_zero (S := S256x8192) hz2, View.ld_unit_zero (S := S256x128) hz2, View.ld_unit_zero (S := S8192x128) hz2, View.ld_unit_zero (S := S256x512) hz2, harg7.read_unread, harg8.read_unread, harg9.read_unread, View.ld_unit_zero (S := S1x128x128) hz3, View.ld_unit_zero (S := S1x8x128) hz3, View.ld_unit_zero (S := S1x128x512) hz3]

theorem out0_A_6 (hc0 : cond0_0 i)
    (x0 : Vec F S256x8192 .f32) (x1 : Vec F S256x128 .f32) (x2 x3 : Vec F S8192x128 .bf16) (x4 : Vec F S256x512 .f32) {sig' : RefSig} {κ' : Kind} {sp' : Space} (v : View sig' κ' sp' S1x8x128 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 x0 x1 x2 x3 x4).1.2.1) = k0_pay2 x0 (k0_pay4 (F := F)) := by
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, View.ld_unit_zero (S := S256x8192) hz2, View.ld_unit_zero (S := S256x128) hz2, View.ld_unit_zero (S := S8192x128) hz2, View.ld_unit_zero (S := S256x512) hz2]

theorem out0_B_6 (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) {sig' : RefSig} {κ' : Kind} {sp' : Space} (v : View sig' κ' sp' S1x8x128 .f32) (f : v.ty.Contents (Elt F)) :
    v.read (Elt F) (v.writes (Elt F) f (kernelRun0_B c i arg2 harg2 arg3 harg3 arg4 harg4 arg5 harg5 arg6 harg6 arg7 harg7 arg8 harg8 arg9 harg9 hc0 x0 x1 x2 x3 x4 xo5 xo6 xo7).1.2.1) = k0_pay2 x0 xo6 := by
  rw [View.read_writes_eq_canon _ _ _ (cover0_B_6 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero (S := S1x8x128) hz3]
  simp only [View.readAt_eq_ld, harg2.read_unread, harg3.read_unread, harg4.read_unread, harg5.read_unread, harg6.read_unread, View.ld_unit_zero (S := S256x8192) hz2, View.ld_unit_zero (S := S256x128) hz2, View.ld_unit_zero (S := S8192x128) hz2, View.ld_unit_zero (S := S256x512) hz2, harg7.read_unread, harg8.read_unread, harg9.read_unread, View.ld_unit_zero (S := S1x128x128) hz3, View.ld_unit_zero (S := S1x8x128) hz3, View.ld_unit_zero (S := S1x128x512) hz3]

theorem out0_A_7 (hc0 : cond0_0 i)
    (x0 : Vec F S256x8192 .f32) (x1 : Vec F S256x128 .f32) (x2 x3 : Vec F S8192x128 .bf16) (x4 : Vec F S256x512 .f32) {sig' : RefSig} {κ' : Kind} {sp' : Space} (v : View sig' κ' sp' S1x128x512 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 x0 x1 x2 x3 x4).1.2.2) = k0_pay1 (k0_pay8 (k0_pay5 (F := F))) (k0_pay9 x1 x4) := by
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x128x512) hz3, View.readCov_unit_zero (S := S1x128x512) _ hz3]
  simp only [View.readAt_eq_ld, harg2.read_unread, harg3.read_unread, harg4.read_unread, harg5.read_unread, harg6.read_unread, View.ld_unit_zero (S := S256x8192) hz2, View.ld_unit_zero (S := S256x128) hz2, View.ld_unit_zero (S := S8192x128) hz2, View.ld_unit_zero (S := S256x512) hz2]

theorem out0_B_7 (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) {sig' : RefSig} {κ' : Kind} {sp' : Space} (v : View sig' κ' sp' S1x128x512 .f32) (f : v.ty.Contents (Elt F)) :
    v.read (Elt F) (v.writes (Elt F) f (kernelRun0_B c i arg2 harg2 arg3 harg3 arg4 harg4 arg5 harg5 arg6 harg6 arg7 harg7 arg8 harg8 arg9 harg9 hc0 x0 x1 x2 x3 x4 xo5 xo6 xo7).1.2.2) = k0_pay1 (k0_pay8 xo7) (k0_pay9 x1 x4) := by
  rw [View.read_writes_eq_canon _ _ _ (cover0_B_7 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero (S := S1x128x512) hz3]
  simp only [View.readAt_eq_ld, harg2.read_unread, harg3.read_unread, harg4.read_unread, harg5.read_unread, harg6.read_unread, View.ld_unit_zero (S := S256x8192) hz2, View.ld_unit_zero (S := S256x128) hz2, View.ld_unit_zero (S := S8192x128) hz2, View.ld_unit_zero (S := S256x512) hz2, harg7.read_unread, harg8.read_unread, harg9.read_unread, View.ld_unit_zero (S := S1x128x128) hz3, View.ld_unit_zero (S := S1x8x128) hz3, View.ld_unit_zero (S := S1x128x512) hz3]

end

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

theorem before0_5_B (c : Dev nD) (t : Fin cfg0.N) (h0 : ¬t.val % 16 = 0) (d) :
    (dats m 0 c).before 5 t d = (outsAt m c (t.val - 1) (Nat.lt_of_le_of_lt (Nat.sub_le _ _) t.isLt)).1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  exact after0_5 m c _

theorem before0_6_B (c : Dev nD) (t : Fin cfg0.N) (h0 : ¬t.val % 16 = 0) (d) :
    (dats m 0 c).before 6 t d = (outsAt m c (t.val - 1) (Nat.lt_of_le_of_lt (Nat.sub_le _ _) t.isLt)).2.1 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  exact after0_6 m c _

theorem before0_7_B (c : Dev nD) (t : Fin cfg0.N) (h0 : ¬t.val % 16 = 0) (d) :
    (dats m 0 c).before 7 t d = (outsAt m c (t.val - 1) (Nat.lt_of_le_of_lt (Nat.sub_le _ _) t.isLt)).2.2 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  exact after0_7 m c _

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  by_cases h0 : t.val % 16 = 0
  · rw [outsAt_first m c t h0]
    unfold stepOut resetOut
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns
    isplitl [H5]
    · iexists _; isplitr
      swap; · iexact H5
      ipureintro; exact out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) _ _
    isplitl [H6]
    · iexists _; isplitr
      swap; · iexact H6
      ipureintro; exact out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) _ _
    iexists _; isplitr
    swap; · iexact H7
    ipureintro; exact out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) _ _
  · rw [outsAt_later m c t h0]
    simp only [before0_5_B m c t h0, before0_6_B m c t h0, before0_7_B m c t h0]
    unfold stepOut
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns
    isplitl [H5]
    · iexists _; isplitr
      swap; · iexact H5
      ipureintro; exact out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2 _ _
    isplitl [H6]
    · iexists _; isplitr
      swap; · iexact H6
      ipureintro; exact out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2 _ _
    iexists _; isplitr
    swap; · iexact H7
    ipureintro; exact out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2 _ _

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Frame.lean ====
import proofs.«401602_j3728031613303_3_alg».proof.Proof.KI.Kit
import proofs.«401602_j3728031613303_3_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (ArgsKept m) :=
  (θ_run defs _ _).mono (fun r h => args_of_post m r h) (run_main m ρ)

end Cert.KernelIdeal.Hand

end
-- ==== Proof.K.Data.lean ====
import proofs.«401602_j3728031613303_3_alg».proof.Proof.Gen.Kernel.Launch
import proofs.«401602_j3728031613303_3_alg».proof.Proof.Gen.Kernel.Skeleton
import proofs.«401602_j3728031613303_3_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev preOpss : List (List (HloOp τ sig (Elt F))) :=
  [hostOps0, hostOps0_1, hostOps0_2, hostOps0_3, hostOps0_4, hostOps0_5, hostOps0_6, hostOps0_7, hostOps0_8]

abbrev tailOpss : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16]

abbrev V0 (c : Dev nD) : Valuation τ sig (Elt F) := StableHlo.after (List.flatten preOpss) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev Outs (F : FTy → Type) [FloatOps F] : Type := Vec F S1x128x128 .f32 × Vec F S1x8x128 .f32 × Vec F S1x128x512 .f32

def resetOut : Outs F := (k0_pay3 (F := F), k0_pay4 (F := F), k0_pay5 (F := F))

def stepOut (x0 : Vec F S256x8192 .f32) (x1 : Vec F S256x128 .f32) (x2 x3 : Vec F S8192x128 .bf16) (x4 : Vec F S256x512 .f32)
    (o : Outs F) : Outs F :=
  (k0_pay7 x0 x1 x2 x3 o.1, k0_pay2 x0 o.2.1, k0_pay1 (k0_pay8 o.2.2) (k0_pay9 x1 x4))

def outsAt (c : Dev nD) : (n : ℕ) → n < cfg0.N → Outs F
  | 0, hn => stepOut (iblk m c 0 ⟨0, hn⟩) (iblk m c 1 ⟨0, hn⟩) (iblk m c 2 ⟨0, hn⟩) (iblk m c 3 ⟨0, hn⟩) (iblk m c 4 ⟨0, hn⟩) resetOut
  | n + 1, hn =>
    stepOut (iblk m c 0 ⟨n + 1, hn⟩) (iblk m c 1 ⟨n + 1, hn⟩) (iblk m c 2 ⟨n + 1, hn⟩) (iblk m c 3 ⟨n + 1, hn⟩) (iblk m c 4 ⟨n + 1, hn⟩)
      (if (n + 1) % 16 = 0 then resetOut else outsAt c n (Nat.lt_of_succ_lt hn))

theorem outsAt_first (c : Dev nD) (t : Fin cfg0.N) (h0 : t.val % 16 = 0) :
    outsAt m c t.val t.isLt = stepOut (iblk m c 0 t) (iblk m c 1 t) (iblk m c 2 t) (iblk m c 3 t) (iblk m c 4 t) resetOut := by
  obtain ⟨n, hn⟩ := t
  cases n with
  | zero => rfl
  | succ n => exact congrArg (stepOut _ _ _ _ _) (if_pos h0)

theorem outsAt_later (c : Dev nD) (t : Fin cfg0.N) (h0 : ¬t.val % 16 = 0) :
    outsAt m c t.val t.isLt = stepOut (iblk m c 0 t) (iblk m c 1 t) (iblk m c 2 t) (iblk m c 3 t) (iblk m c 4 t)
      (outsAt m c (t.val - 1) (Nat.lt_of_le_of_lt (Nat.sub_le _ _) t.isLt)) := by
  obtain ⟨n, hn⟩ := t
  cases n with
  | zero => exact absurd (Nat.zero_mod _) h0
  | succ n => exact congrArg (stepOut _ _ _ _ _) (if_neg h0)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
    | ⟨7, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t.val t.isLt).1 := by dsimp only [dats]
theorem after0_6 (c : Dev nD) (t : Fin cfg0.N) : (dats m 0 c).after 6 t = (outsAt m c t.val t.isLt).2.1 := by dsimp only [dats]
theorem after0_7 (c : Dev nD) (t : Fin cfg0.N) : (dats m 0 c).after 7 t = (outsAt m c t.val t.isLt).2.2 := by dsimp only [dats]

end Cert.Kernel.Hand

end
-- ==== Proof.K.Writes.lean ====
import proofs.«401602_j3728031613303_3_alg».proof.Proof.K.Data
import Idealize.ShloMosaic.Lib.StableHlo.Run

set_option maxRecDepth 16384

noncomputable section

namespace Cert.Kernel.Hand

open Idealize.ShloMosaic
open Cert.Kernel Cert.Kernel.Gen

variable {F : FTy → Type} [FloatOps F]

-- A line whose operations write, one each and in order, the references of `W` writes no reference outside `W`.
theorem not_writes {ops : List (HloOp τ sig (Elt F))} {W : List (Ref sig .tc)}
    (h : ops.map (·.writes) = W.map fun y => {Proc.devRef (τ := τ) .tc y}) {r : Ref sig .tc} (hr : r ∉ W) :
    ∀ op ∈ ops, Proc.devRef (τ := τ) .tc r ∉ op.writes := fun op hop hb => by
  have := List.mem_map_of_mem (f := (·.writes)) hop
  rw [h, List.mem_map] at this
  obtain ⟨y, hy, e⟩ := this
  rw [← e, Finset.mem_singleton] at hb
  exact hr (Proc.devRef_injective _ hb.symm ▸ hy)

-- Stretches none of whose operations allocates, read off the stretches laid end to end.
theorem fresh_of {opss : List (List (HloOp τ sig (Elt F)))} (h : opss.flatten.map (·.fresh) = opss.flatten.map fun _ => ∅) :
    ∀ ops ∈ opss, ∀ op ∈ ops, op.fresh = ∅ :=
  fun _ ho op hop => List.map_inj_left.mp h op (List.mem_flatten_of_mem ho hop)

-- References are numbered in program order: a list numbered `a, a + 1, …` holds only references numbered in `[a, a + n)`.
theorem idx_mem {W : List (Ref sig .tc)} {a n : ℕ} (h : W.map (·.idx.val) = List.range' a n) {r : Ref sig .tc} (hm : r ∈ W) :
    a ≤ r.idx.val ∧ r.idx.val < a + n := by
  have := List.mem_map_of_mem (f := (·.idx.val)) hm
  rwa [h, List.mem_range'_1] at this

theorem not_mem_of_lt {W : List (Ref sig .tc)} {a n : ℕ} (h : W.map (·.idx.val) = List.range' a n) {r : Ref sig .tc}
    (hr : r.idx.val < a) : r ∉ W := fun hm => Nat.not_le.2 hr (idx_mem h hm).1

noncomputable def wrPre : List (Ref sig .tc) :=
  [main_v0, main_v1, main_v2, main_v3, main_v4, main_v5, main_v6, main_cst, main_v7, main_v8, main_cst_0, main_v9,
   main_v10, main_v11, main_cst_1, main_v12, main_v13, main_cst_2, main_v14, main_v15, main_v16, main_cst_3, main_call0_v0, main_call0_v1,
   main_v17, main_c, main_v18, main_v19, main_c_4, main_v20, main_v21, main_v22, main_v23, main_v24, main_v25, main_c_5,
   main_v26, main_v27, main_c_6, main_v28, main_v29, main_v30, main_v31, main_v32, main_v33, main_v34, main_v35, main_v36,
   main_v37, main_c_7, main_v38, main_v39, main_c_8, main_v40, main_v41, main_v42, main_v43, main_v44, main_v45, main_v46,
   main_cst_9, main_v47, main_v48, main_v49, main_v50, main_v51, main_v52, main_v53, main_call1_cst, main_call1_v0, main_v54, main_v55,
   main_call2_cst, main_call2_v0, main_v56, main_v57, main_v58, main_c_10, main_v59, main_v60, main_c_11, main_v61, main_v62, main_v63,
   main_v64, main_v65, main_v66, main_v67, main_cst_12, main_v68, main_v69, main_v70, main_v71, main_v72, main_v73, main_cst_13,
   main_v74, main_cst_14, main_v75, main_v76, main_v77, main_v78, main_v79, main_v80, main_cst_15, main_v81, main_v82, main_v83,
   main_v84, main_v85, main_v86, main_v87, main_v88, main_v89, main_cst_16, main_v90, main_v91, main_v92, main_v93, main_cst_17,
   main_v94, main_cst_18, main_v95, main_cst_19, main_v96, main_c_20, main_call3_v0, main_v97, main_v98, main_v99, main_v100, main_v101]

noncomputable def wrTail : List (Ref sig .tc) :=
  [main_cst_21, main_v103, main_v104, main_v105, main_cst_22, main_v106, main_cst_23, main_v107, main_v108, main_v109, main_v110, main_v111,
   main_v112, main_cst_24, main_v113, main_call4_v0, main_call4_v1, main_call4_c, main_call4_v2, main_call4_v3, main_call4_v4, main_call4_cst, main_call4_v5, main_call4_v6,
   main_call4_cst_0, main_v114, main_cst_25, main_v115, main_v116, main_v117, main_cst_26, main_v118, main_v119, main_cst_27, main_v120, main_v121,
   main_c_28, main_v122, main_v123, main_c_29, main_v124, main_v125, main_v126, main_c_30, main_v127, main_v128, main_c_31, main_v129,
   main_v130, main_v131, main_v132, main_v133, main_v134, main_v135, main_cst_32, main_v136, main_v137, main_cst_33, main_call5_v0, main_call5_v1,
   main_v138, main_c_34, main_v139, main_v140, main_c_35, main_v141, main_v142, main_v143, main_c_36, main_v144, main_v145, main_c_37,
   main_v146, main_v147, main_v148, main_v149, main_v150, main_v151, main_v152, main_cst_38, main_v153, main_cst_39, main_v154, main_v155,
   main_cst_40, main_v156, main_v157, main_v158, main_cst_41, main_call6_v0, main_call6_v1, main_v159, main_v160, main_v161, main_v162, main_v163,
   main_v164, main_v165, main_v166, main_v167, main_v168, main_v169, main_v170, main_call7_cst, main_call7_v0, main_v171, main_v172, main_c_42,
   main_v173, main_v174, main_c_43, main_v175, main_v176, main_v177, main_c_44, main_v178, main_v179, main_c_45, main_v180, main_v181,
   main_v182, main_v183, main_v184, main_v185, main_v186, main_cst_46, main_v187, main_v188, main_cst_47, main_call8_v0, main_call8_v1, main_v189,
   main_c_48, main_v190, main_v191, main_c_49, main_v192, main_v193, main_v194, main_c_50, main_v195, main_v196, main_c_51, main_v197,
   main_v198, main_v199, main_v200, main_v201, main_v202, main_v203, main_cst_52, main_v204, main_cst_53, main_v205, main_v206, main_cst_54,
   main_v207, main_v208, main_v209, main_cst_55, main_call9_v0, main_call9_v1, main_v210, main_v211, main_v212, main_v213, main_v214, main_v215,
   main_v216, main_v217, main_v218, main_v219, main_v220, main_v221, main_v222, main_v223, main_cst_56, main_v224, main_v225, main_v226,
   main_v227, main_cst_57, main_v228, main_v229, main_cst_58, main_v230, main_v231, main_v232, main_cst_59, main_v233, main_v234, main_cst_60,
   main_v235, main_v236, main_v237, main_cst_61, main_call10_v0, main_call10_v1, main_v238, main_c_62, main_v239, main_v240, main_c_63, main_v241,
   main_v242, main_v243, main_v244, main_v245, main_v246, main_c_64, main_v247, main_v248, main_c_65, main_v249, main_v250, main_v251,
   main_v252, main_v253, main_v254, main_v255, main_v256, main_c_66, main_v257, main_v258, main_c_67, main_v259, main_v260, main_v261,
   main_v262, main_v263, main_v264, main_v265, main_cst_68, main_v266, main_v267, main_v268, main_v269, main_v270, main_v271, main_call11_cst,
   main_call11_v0, main_call11_cst_0, main_call11_v1, main_call11_v2, main_call11_v3, main_call11_v4, main_call11_v5, main_call11_v6, main_call11_cst_1, main_call11_v7, main_call11_v8, main_call11_v9,
   main_call11_v10, main_v272, main_v273]

theorem wrPre_eq : (preOpss (F := F)).flatten.map (·.writes) = wrPre.map fun y => {Proc.devRef (τ := τ) .tc y} := rfl

theorem wrTail_eq : (tailOpss (F := F)).flatten.map (·.writes) = wrTail.map fun y => {Proc.devRef (τ := τ) .tc y} := rfl

theorem keepPre (X : Valuation τ sig (Elt F)) (r : Ref sig .tc) (hr : r ∉ wrPre) :
    StableHlo.after (List.flatten (preOpss : List (List (HloOp τ sig (Elt F))))) X (Proc.devRef .tc r) = X (Proc.devRef .tc r) :=
  StableHlo.after_of_forall_not_mem _ X (not_writes wrPre_eq hr)

theorem keepTail (X : Valuation τ sig (Elt F)) (r : Ref sig .tc) (hr : r ∉ wrTail) :
    StableHlo.after (List.flatten (tailOpss : List (List (HloOp τ sig (Elt F))))) X (Proc.devRef .tc r) = X (Proc.devRef .tc r) :=
  StableHlo.after_of_forall_not_mem _ X (not_writes wrTail_eq hr)

theorem wrPre_idx : wrPre.map (·.idx.val) = List.range' 17 132 := rfl
theorem wrTail_idx : wrTail.map (·.idx.val) = List.range' 152 255 := rfl

theorem wrTail_arr (w : Fin 8) : Pipeline.arrRef spec0 w ∉ wrTail :=
  not_mem_of_lt wrTail_idx ((by decide +kernel : ∀ w : Fin 8, (Pipeline.arrRef spec0 w).idx.val < 152) w)

noncomputable def argRefs : List (Ref sig .tc) :=
  [main_arg0, main_arg1, main_arg2, main_arg3, main_arg4, main_arg5, main_arg6, main_arg7, main_arg8, main_arg9, main_arg10, main_arg11, main_arg12, main_arg13, main_arg14, main_arg15, main_arg16]

theorem args_idx : argRefs.map (·.idx.val) = List.range' 0 17 := rfl

theorem wrPre_args : ∀ r ∈ argRefs, r ∉ wrPre := fun r hr => not_mem_of_lt wrPre_idx (idx_mem args_idx hr).2
theorem wrTail_args : ∀ r ∈ argRefs, r ∉ wrTail := fun r hr => not_mem_of_lt wrTail_idx ((idx_mem args_idx hr).2.trans (by decide))

theorem sfx_keeps : ∀ ops ∈ (tailOpss : List (List (HloOp τ sig (Elt F)))), ∀ op ∈ ops,
    ∀ w, Proc.devRef .tc (Pipeline.arrRef spec0 w) ∉ op.writes :=
  fun _ ho op hop w => not_writes wrTail_eq (wrTail_arr w) op (List.mem_flatten_of_mem ho hop)

theorem sfx_fresh : ∀ ops ∈ (tailOpss : List (List (HloOp τ sig (Elt F)))), ∀ op ∈ ops, op.fresh = ∅ :=
  fresh_of rfl

theorem pre_fresh : (preOpss : List (List (HloOp τ sig (Elt F)))).Forall fun ops => ops.Forall fun op => op.fresh = ∅ :=
  List.forall_iff_forall_mem.mpr fun ops ho => List.forall_iff_forall_mem.mpr (fresh_of (opss := preOpss) rfl ops ho)

theorem pre_sub : (preOpss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

end Cert.Kernel.Hand

end
-- ==== Proof.K.Kit.lean ====
import proofs.«401602_j3728031613303_3_alg».proof.Proof.K.Data
import proofs.«401602_j3728031613303_3_alg».proof.Proof.K.Writes

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main preOpss tailOpss pre_sub pre_fresh (fun c => by rw [main_chain c]; rfl)

theorem tail_tc : ∀ ops ∈ (tailOpss : List (List (HloOp τ sig (Elt F)))), ops.Forall fun op => op.bufs ⊆ StableHlo.tcRefs τ sig := by
  intro ops hops
  simp only [List.mem_cons, List.mem_nil_iff, or_false] at hops
  rcases hops with rfl | rfl | rfl | rfl | rfl | rfl | rfl | rfl | rfl | rfl | rfl | rfl | rfl | rfl | rfl | rfl | rfl
  exacts [hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub]

theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_tc ops hops)) op hop)

theorem V_kept (c : Dev nD) (b : Ref sig .tc) (hp : b ∉ wrPre) : V m c b = m ((c.tc : Thread nD τ).loc b) :=
  keepPre (fun b => m (c, b)) b hp

theorem kept_rest (c : Dev nD) (b : Ref sig .tc) (hp : b ∉ wrPre) (ht : b ∉ wrTail) (hw : ∀ w, Pipeline.arrRef spec0 w ≠ b) :
    Pipeline.afterTail₀ cfgs (dats m) 0 (V0 m) tailOpss c b = m ((c.tc : Thread nD τ).loc b) :=
  (keepTail _ b ht).trans ((Pipeline.withArrays_of_ne spec0 c (V0 m c) _ b hw).trans (keepPre (fun b => m (c, b)) b hp))

theorem kept_in (c : Dev nD) (w : Fin cfg0.W) (hin : (cfg0.win w).isOut = false) (hp : Pipeline.arrRef spec0 w ∉ wrPre) :
    (dats m 0 c).arrAt w cfg0.N = m ((c.tc : Thread nD τ).loc (Pipeline.arrRef spec0 w)) :=
  ((dats m 0 c).arrAt_in w hin _).trans ((A_eq m c w).trans (V_kept m c _ hp))

abbrev restArgs : List (Ref sig .tc) :=
  [main_arg1, main_arg2, main_arg4, main_arg5, main_arg6, main_arg7, main_arg8, main_arg9, main_arg10, main_arg11, main_arg12, main_arg13, main_arg14, main_arg15, main_arg16]

theorem restArgs_unscoped : ∀ b ∈ restArgs, b.isScoped = false := by decide
theorem restArgs_arr : ∀ b ∈ restArgs, ∀ w : Fin 8, Pipeline.arrRef spec0 w ≠ b := by decide
theorem restArgs_args : ∀ b ∈ restArgs, b ∈ argRefs := by decide

theorem kept_arg (c : Dev nD) (r : PUnit × MemSt nD τ sig (Elt F))
    (h : Pipeline.FramePost cfgs (dats m) 0 (Pipeline.afterTail₀ cfgs (dats m) 0 (V0 m) tailOpss) r)
    (b : Ref sig .tc) (hb : b ∈ restArgs) : r.2.mem ((c.tc : Thread nD τ).loc b) = m ((c.tc : Thread nD τ).loc b) :=
  ((h c).2 b (Pipeline.mem_restRefs_of b (restArgs_unscoped b hb) (restArgs_arr b hb))).trans
    (kept_rest m c b (wrPre_args b (restArgs_args b hb)) (wrTail_args b (restArgs_args b hb)) (restArgs_arr b hb))

/-- In the state `r` the seventeen arguments hold what the launch memory `m` holds. -/
abbrev ArgsKept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)

theorem args_of_post (r : PUnit × MemSt nD τ sig (Elt F))
    (h : Pipeline.FramePost cfgs (dats m) 0 (Pipeline.afterTail₀ cfgs (dats m) 0 (V0 m) tailOpss) r) : ArgsKept m r :=
  fun c => ⟨
    ((h c).1 4).trans (kept_in m c 4 rfl (wrPre_args _ (by decide))),
    kept_arg m c r h main_arg1 (by decide),
    kept_arg m c r h main_arg2 (by decide),
    ((h c).1 0).trans (kept_in m c 0 rfl (wrPre_args _ (by decide))),
    kept_arg m c r h main_arg4 (by decide),
    kept_arg m c r h main_arg5 (by decide),
    kept_arg m c r h main_arg6 (by decide),
    kept_arg m c r h main_arg7 (by decide),
    kept_arg m c r h main_arg8 (by decide),
    kept_arg m c r h main_arg9 (by decide),
    kept_arg m c r h main_arg10 (by decide),
    kept_arg m c r h main_arg11 (by decide),
    kept_arg m c r h main_arg12 (by decide),
    kept_arg m c r h main_arg13 (by decide),
    kept_arg m c r h main_arg14 (by decide),
    kept_arg m c r h main_arg15 (by decide),
    kept_arg m c r h main_arg16 (by decide)⟩

theorem rest_of_post (r : PUnit × MemSt nD τ sig (Elt F))
    (h : Pipeline.FramePost cfgs (dats m) 0 (Pipeline.afterTail₀ cfgs (dats m) 0 (V0 m) tailOpss) r)
    (c : Dev nD) (b : Ref sig .tc) (hb : b ∈ Pipeline.restRefs sig (cfgs 0).spec) :
    r.2.mem ((c.tc : Thread nD τ).loc b) = Pipeline.afterTail₀ cfgs (dats m) 0 (V0 m) tailOpss c b :=
  (h c).2 b hb

theorem main_v272_rest : main_v272 ∈ Pipeline.restRefs sig (cfgs 0).spec := Pipeline.mem_restRefs_of main_v272 rfl (by decide)
theorem main_v56_rest : main_v56 ∈ Pipeline.restRefs sig (cfgs 0).spec := Pipeline.mem_restRefs_of main_v56 rfl (by decide)
theorem main_v273_rest : main_v273 ∈ Pipeline.restRefs sig (cfgs 0).spec := Pipeline.mem_restRefs_of main_v273 rfl (by decide)
theorem main_v108_rest : main_v108 ∈ Pipeline.restRefs sig (cfgs 0).spec := Pipeline.mem_restRefs_of main_v108 rfl (by decide)

end Cert.Kernel.Hand

end
-- ==== Proof.K.Runs.lean ====
import proofs.«401602_j3728031613303_3_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop :=
  (Scalar.cmpi .ne (Scalar.extui (Scalar.cmpi .eq (BitVec.ofNat 32 (i 1).val) 0#32)) 0#32) = 1#1

theorem hcond0_0 : ∀ t : Fin cfg0.N, cond0_0 (grid0.coords t) ↔ t.val % 16 = 0 :=
  (by decide +kernel : ∀ t : Fin grid0.N, cond0_0 (grid0.coords t) ↔ t.val % 16 = 0)

abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x512 .f32 := win0_7.stage (cfg0.slots t 7)
abbrev hs0_7 (t : Fin cfg0.N) : (ms0_7 t).IsWhole := hstage0_7 ((cfg0.slots t 7).cast nbuf0_7)

end Cert.Kernel.Hand

end
-- ==== Proof.K.RunA.lean ====
import proofs.«401602_j3728031613303_3_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .f32) (harg6 : arg6.IsWhole) (arg7 : Memref sig .tc .vmem S1x128x128 .f32) (harg7 : arg7.IsWhole) (arg8 : Memref sig .tc .vmem S1x8x128 .f32) (harg8 : arg8.IsWhole) (arg9 : Memref sig .tc .vmem S1x128x512 .f32) (harg9 : arg9.IsWhole) (hc0 : cond0_0 i)
    (x0 : Vec F S256x8192 .f32) (x1 : Vec F S256x128 .f32) (x2 x3 : Vec F S8192x128 .bf16) (x4 : Vec F S256x512 .f32) :
    { L : List (View.Piece (Elt F) S1x128x128 .f32) × List (View.Piece (Elt F) S1x8x128 .f32) × List (View.Piece (Elt F) S1x128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0__diffpool_kernel i arg2 harg2 arg3 harg3 arg4 harg4 arg5 harg5 arg6 harg6 arg7 harg7 arg8 harg8 arg9 harg9) K } := by
  refine ⟨⟨?_, ?_, ?_⟩, fun E K => ?run⟩
  case run =>
    simp only [cc0__diffpool_kernel_eq_skeleton]; unfold cc0__diffpool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    iexists _; iexact H7

end Cert.Kernel.Hand

end
-- ==== Proof.K.RunB.lean ====
import proofs.«401602_j3728031613303_3_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .f32) (harg6 : arg6.IsWhole) (arg7 : Memref sig .tc .vmem S1x128x128 .f32) (harg7 : arg7.IsWhole) (arg8 : Memref sig .tc .vmem S1x8x128 .f32) (harg8 : arg8.IsWhole) (arg9 : Memref sig .tc .vmem S1x128x512 .f32) (harg9 : arg9.IsWhole) (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) :
    { L : List (View.Piece (Elt F) S1x128x128 .f32) × List (View.Piece (Elt F) S1x8x128 .f32) × List (View.Piece (Elt F) S1x128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xo5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0__diffpool_kernel i arg2 harg2 arg3 harg3 arg4 harg4 arg5 harg5 arg6 harg6 arg7 harg7 arg8 harg8 arg9 harg9) K } := by
  refine ⟨⟨?_, ?_, ?_⟩, fun E K => ?run⟩
  case run =>
    simp only [cc0__diffpool_kernel_eq_skeleton]; unfold cc0__diffpool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    iexists _; iexact H7

end Cert.Kernel.Hand

end
-- ==== Proof.K.Body.lean ====
import proofs.«401602_j3728031613303_3_alg».proof.Proof.K.RunB
import Idealize.ShloMosaic.Lib.Ring
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x512 .f32) (harg6 : arg6.IsWhole) (arg7 : Memref sig .tc .vmem S1x128x128 .f32) (harg7 : arg7.IsWhole) (arg8 : Memref sig .tc .vmem S1x8x128 .f32) (harg8 : arg8.IsWhole) (arg9 : Memref sig .tc .vmem S1x128x512 .f32) (harg9 : arg9.IsWhole)

theorem cover0_A_5 (hc0 : cond0_0 i)
    (x0 : Vec F S256x8192 .f32) (x1 : Vec F S256x128 .f32) (x2 x3 : Vec F S8192x128 .bf16) (x4 : Vec F S256x512 .f32) (y : S1x128x128.Idx) :
    ∃ pc ∈ (kernelRun0_A c i arg2 harg2 arg3 harg3 arg4 harg4 arg5 harg5 arg6 harg6 arg7 harg7 arg8 harg8 arg9 harg9 hc0 x0 x1 x2 x3 x4).1.1, y ∈ pc.1.set :=
  View.cover_of_tiledL (kernelRun0_A c i arg2 harg2 arg3 harg3 arg4 harg4 arg5 harg5 arg6 harg6 arg7 harg7 arg8 harg8 arg9 harg9 hc0 x0 x1 x2 x3 x4).1.1 S1x128x128.size (by sl_kernel_rfl) y

theorem cover0_B_5 (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) (y : S1x128x128.Idx) :
    ∃ pc ∈ (kernelRun0_B c i arg2 harg2 arg3 harg3 arg4 harg4 arg5 harg5 arg6 harg6 arg7 harg7 arg8 harg8 arg9 harg9 hc0 x0 x1 x2 x3 x4 xo5 xo6 xo7).1.1, y ∈ pc.1.set :=
  View.cover_of_tiledL (kernelRun0_B c i arg2 harg2 arg3 harg3 arg4 harg4 arg5 harg5 arg6 harg6 arg7 harg7 arg8 harg8 arg9 harg9 hc0 x0 x1 x2 x3 x4 xo5 xo6 xo7).1.1 S1x128x128.size (by sl_kernel_rfl) y

theorem cover0_A_6 (hc0 : cond0_0 i)
    (x0 : Vec F S256x8192 .f32) (x1 : Vec F S256x128 .f32) (x2 x3 : Vec F S8192x128 .bf16) (x4 : Vec F S256x512 .f32) (y : S1x8x128.Idx) :
    ∃ pc ∈ (kernelRun0_A c i arg2 harg2 arg3 harg3 arg4 harg4 arg5 harg5 arg6 harg6 arg7 harg7 arg8 harg8 arg9 harg9 hc0 x0 x1 x2 x3 x4).1.2.1, y ∈ pc.1.set :=
  View.cover_of_tiledL (kernelRun0_A c i arg2 harg2 arg3 harg3 arg4 harg4 arg5 harg5 arg6 harg6 arg7 harg7 arg8 harg8 arg9 harg9 hc0 x0 x1 x2 x3 x4).1.2.1 S1x8x128.size (by sl_kernel_rfl) y

theorem cover0_B_6 (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) (y : S1x8x128.Idx) :
    ∃ pc ∈ (kernelRun0_B c i arg2 harg2 arg3 harg3 arg4 harg4 arg5 harg5 arg6 harg6 arg7 harg7 arg8 harg8 arg9 harg9 hc0 x0 x1 x2 x3 x4 xo5 xo6 xo7).1.2.1, y ∈ pc.1.set :=
  View.cover_of_tiledL (kernelRun0_B c i arg2 harg2 arg3 harg3 arg4 harg4 arg5 harg5 arg6 harg6 arg7 harg7 arg8 harg8 arg9 harg9 hc0 x0 x1 x2 x3 x4 xo5 xo6 xo7).1.2.1 S1x8x128.size (by sl_kernel_rfl) y

theorem cover0_A_7 (hc0 : cond0_0 i)
    (x0 : Vec F S256x8192 .f32) (x1 : Vec F S256x128 .f32) (x2 x3 : Vec F S8192x128 .bf16) (x4 : Vec F S256x512 .f32) (y : S1x128x512.Idx) :
    ∃ pc ∈ (kernelRun0_A c i arg2 harg2 arg3 harg3 arg4 harg4 arg5 harg5 arg6 harg6 arg7 harg7 arg8 harg8 arg9 harg9 hc0 x0 x1 x2 x3 x4).1.2.2, y ∈ pc.1.set :=
  View.cover_of_tiledL (kernelRun0_A c i arg2 harg2 arg3 harg3 arg4 harg4 arg5 harg5 arg6 harg6 arg7 harg7 arg8 harg8 arg9 harg9 hc0 x0 x1 x2 x3 x4).1.2.2 S1x128x512.size (by sl_kernel_rfl) y

theorem cover0_B_7 (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) (y : S1x128x512.Idx) :
    ∃ pc ∈ (kernelRun0_B c i arg2 harg2 arg3 harg3 arg4 harg4 arg5 harg5 arg6 harg6 arg7 harg7 arg8 harg8 arg9 harg9 hc0 x0 x1 x2 x3 x4 xo5 xo6 xo7).1.2.2, y ∈ pc.1.set :=
  View.cover_of_tiledL (kernelRun0_B c i arg2 harg2 arg3 harg3 arg4 harg4 arg5 harg5 arg6 harg6 arg7 harg7 arg8 harg8 arg9 harg9 hc0 x0 x1 x2 x3 x4 xo5 xo6 xo7).1.2.2 S1x128x512.size (by sl_kernel_rfl) y

theorem out0_A_5 (hc0 : cond0_0 i)
    (x0 : Vec F S256x8192 .f32) (x1 : Vec F S256x128 .f32) (x2 x3 : Vec F S8192x128 .bf16) (x4 : Vec F S256x512 .f32) {sig' : RefSig} {κ' : Kind} {sp' : Space} (v : View sig' κ' sp' S1x128x128 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 x0 x1 x2 x3 x4).1.1) = k0_pay7 x0 x1 x2 x3 (k0_pay3 (F := F)) := by
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x128x128) hz3, View.readCov_unit_zero (S := S1x128x128) _ hz3]
  simp only [View.readAt_eq_ld, harg2.read_unread, harg3.read_unread, harg4.read_unread, harg5.read_unread, harg6.read_unread, View.ld_unit_zero (S := S256x8192) hz2, View.ld_unit_zero (S := S256x128) hz2, View.ld_unit_zero (S := S8192x128) hz2, View.ld_unit_zero (S := S256x512) hz2]

theorem out0_B_5 (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) {sig' : RefSig} {κ' : Kind} {sp' : Space} (v : View sig' κ' sp' S1x128x128 .f32) (f : v.ty.Contents (Elt F)) :
    v.read (Elt F) (v.writes (Elt F) f (kernelRun0_B c i arg2 harg2 arg3 harg3 arg4 harg4 arg5 harg5 arg6 harg6 arg7 harg7 arg8 harg8 arg9 harg9 hc0 x0 x1 x2 x3 x4 xo5 xo6 xo7).1.1) = k0_pay7 x0 x1 x2 x3 xo5 := by
  rw [View.read_writes_eq_canon _ _ _ (cover0_B_5 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero (S := S1x128x128) hz3]
  simp only [View.readAt_eq_ld, harg2.read_unread, harg3.read_unread, harg4.read_unread, harg5.read_unread, harg6.read_unread, View.ld_unit_zero (S := S256x8192) hz2, View.ld_unit_zero (S := S256x128) hz2, View.ld_unit_zero (S := S8192x128) hz2, View.ld_unit_zero (S := S256x512) hz2, harg7.read_unread, harg8.read_unread, harg9.read_unread, View.ld_unit_zero (S := S1x128x128) hz3, View.ld_unit_zero (S := S1x8x128) hz3, View.ld_unit_zero (S := S1x128x512) hz3]

theorem out0_A_6 (hc0 : cond0_0 i)
    (x0 : Vec F S256x8192 .f32) (x1 : Vec F S256x128 .f32) (x2 x3 : Vec F S8192x128 .bf16) (x4 : Vec F S256x512 .f32) {sig' : RefSig} {κ' : Kind} {sp' : Space} (v : View sig' κ' sp' S1x8x128 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 x0 x1 x2 x3 x4).1.2.1) = k0_pay2 x0 (k0_pay4 (F := F)) := by
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, View.ld_unit_zero (S := S256x8192) hz2, View.ld_unit_zero (S := S256x128) hz2, View.ld_unit_zero (S := S8192x128) hz2, View.ld_unit_zero (S := S256x512) hz2]

theorem out0_B_6 (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) {sig' : RefSig} {κ' : Kind} {sp' : Space} (v : View sig' κ' sp' S1x8x128 .f32) (f : v.ty.Contents (Elt F)) :
    v.read (Elt F) (v.writes (Elt F) f (kernelRun0_B c i arg2 harg2 arg3 harg3 arg4 harg4 arg5 harg5 arg6 harg6 arg7 harg7 arg8 harg8 arg9 harg9 hc0 x0 x1 x2 x3 x4 xo5 xo6 xo7).1.2.1) = k0_pay2 x0 xo6 := by
  rw [View.read_writes_eq_canon _ _ _ (cover0_B_6 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero (S := S1x8x128) hz3]
  simp only [View.readAt_eq_ld, harg2.read_unread, harg3.read_unread, harg4.read_unread, harg5.read_unread, harg6.read_unread, View.ld_unit_zero (S := S256x8192) hz2, View.ld_unit_zero (S := S256x128) hz2, View.ld_unit_zero (S := S8192x128) hz2, View.ld_unit_zero (S := S256x512) hz2, harg7.read_unread, harg8.read_unread, harg9.read_unread, View.ld_unit_zero (S := S1x128x128) hz3, View.ld_unit_zero (S := S1x8x128) hz3, View.ld_unit_zero (S := S1x128x512) hz3]

theorem out0_A_7 (hc0 : cond0_0 i)
    (x0 : Vec F S256x8192 .f32) (x1 : Vec F S256x128 .f32) (x2 x3 : Vec F S8192x128 .bf16) (x4 : Vec F S256x512 .f32) {sig' : RefSig} {κ' : Kind} {sp' : Space} (v : View sig' κ' sp' S1x128x512 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 x0 x1 x2 x3 x4).1.2.2) = k0_pay1 (k0_pay8 (k0_pay5 (F := F))) (k0_pay9 x1 x4) := by
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x128x512) hz3, View.readCov_unit_zero (S := S1x128x512) _ hz3]
  simp only [View.readAt_eq_ld, harg2.read_unread, harg3.read_unread, harg4.read_unread, harg5.read_unread, harg6.read_unread, View.ld_unit_zero (S := S256x8192) hz2, View.ld_unit_zero (S := S256x128) hz2, View.ld_unit_zero (S := S8192x128) hz2, View.ld_unit_zero (S := S256x512) hz2]

theorem out0_B_7 (hc0 : ¬cond0_0 i)
    (x0 : Vec F S256x8192 .f32) (x1 : Vec F S256x128 .f32) (x2 x3 : Vec F S8192x128 .bf16) (x4 : Vec F S256x512 .f32)
    (xo5 : Vec F S1x128x128 .f32) (xo6 : Vec F S1x8x128 .f32) (xo7 : Vec F S1x128x512 .f32) {sig' : RefSig} {κ' : Kind} {sp' : Space} (v : View sig' κ' sp' S1x128x512 .f32) (f : v.ty.Contents (Elt F)) :
    v.read (Elt F) (v.writes (Elt F) f (kernelRun0_B c i arg2 harg2 arg3 harg3 arg4 harg4 arg5 harg5 arg6 harg6 arg7 harg7 arg8 harg8 arg9 harg9 hc0 x0 x1 x2 x3 x4 xo5 xo6 xo7).1.2.2) = k0_pay1 (k0_pay8 xo7) (k0_pay9 x1 x4) := by
  rw [View.read_writes_eq_canon _ _ _ (cover0_B_7 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero (S := S1x128x512) hz3]
  simp only [View.readAt_eq_ld, harg2.read_unread, harg3.read_unread, harg4.read_unread, harg5.read_unread, harg6.read_unread, View.ld_unit_zero (S := S256x8192) hz2, View.ld_unit_zero (S := S256x128) hz2, View.ld_unit_zero (S := S8192x128) hz2, View.ld_unit_zero (S := S256x512) hz2, harg7.read_unread, harg8.read_unread, harg9.read_unread, View.ld_unit_zero (S := S1x128x128) hz3, View.ld_unit_zero (S := S1x8x128) hz3, View.ld_unit_zero (S := S1x128x512) hz3]

end

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

theorem before0_5_B (c : Dev nD) (t : Fin cfg0.N) (h0 : ¬t.val % 16 = 0) (d) :
    (dats m 0 c).before 5 t d = (outsAt m c (t.val - 1) (Nat.lt_of_le_of_lt (Nat.sub_le _ _) t.isLt)).1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  exact after0_5 m c _

theorem before0_6_B (c : Dev nD) (t : Fin cfg0.N) (h0 : ¬t.val % 16 = 0) (d) :
    (dats m 0 c).before 6 t d = (outsAt m c (t.val - 1) (Nat.lt_of_le_of_lt (Nat.sub_le _ _) t.isLt)).2.1 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  exact after0_6 m c _

theorem before0_7_B (c : Dev nD) (t : Fin cfg0.N) (h0 : ¬t.val % 16 = 0) (d) :
    (dats m 0 c).before 7 t d = (outsAt m c (t.val - 1) (Nat.lt_of_le_of_lt (Nat.sub_le _ _) t.isLt)).2.2 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  exact after0_7 m c _

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  by_cases h0 : t.val % 16 = 0
  · rw [outsAt_first m c t h0]
    unfold stepOut resetOut
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns
    isplitl [H5]
    · iexists _; isplitr
      swap; · iexact H5
      ipureintro; exact out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) _ _
    isplitl [H6]
    · iexists _; isplitr
      swap; · iexact H6
      ipureintro; exact out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) _ _
    iexists _; isplitr
    swap; · iexact H7
    ipureintro; exact out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) _ _
  · rw [outsAt_later m c t h0]
    simp only [before0_5_B m c t h0, before0_6_B m c t h0, before0_7_B m c t h0]
    unfold stepOut
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns
    isplitl [H5]
    · iexists _; isplitr
      swap; · iexact H5
      ipureintro; exact out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2 _ _
    isplitl [H6]
    · iexists _; isplitr
      swap; · iexact H6
      ipureintro; exact out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2 _ _
    iexists _; isplitr
    swap; · iexact H7
    ipureintro; exact out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2 _ _

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Frame.lean ====
import proofs.«401602_j3728031613303_3_alg».proof.Proof.K.Kit
import proofs.«401602_j3728031613303_3_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (ArgsKept m) :=
  (θ_run defs _ _).mono (fun r h => args_of_post m r h) (run_main m ρ)

end Cert.Kernel.Hand

end
-- ==== Proof.RI.Ops.lean ====
/- The program's host operations, in order, cut into stretches that each end where a value the comparison of the two
   programs names is complete; the lists of stretches; and for each stretch the references its operations write
   (every operation writes exactly one reference, each reference once). -/
import proofs.«401602_j3728031613303_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch rops0: operations 0 to 9 of this side of @main. -/
noncomputable abbrev rops0 : List (HloOp τ sig (Elt F)) :=
  [ unary main_arg1 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg1 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    nullary main_v4 (iotaInDim S8192 32 0),
    binary main_v1 main_v4 main_v5 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v4 main_v6 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst (constant S_ .f32 0x3F800000#32),
    unary main_cst main_v7 (broadcastInDim S8192 ![] bcast_S_S8192 : (⟨S_, .f32⟩ : BufTy).Contents (Elt F) → (⟨S8192, .f32⟩ : BufTy).Contents (Elt F)),
    binary main_arg2 main_v7 main_v8 ((fun a b => concatenate S270336 0 [⟨S262144, a⟩, ⟨S8192, b⟩] concatenates_S262144_S8192_S270336_d0) : (⟨S262144, .f32⟩ : BufTy).Contents (Elt F) → (⟨S8192, .f32⟩ : BufTy).Contents (Elt F) → (⟨S270336, .f32⟩ : BufTy).Contents (Elt F)) ]
/-- The references it writes, in order. -/
noncomputable def rwr0 : List (Ref sig .tc) := [main_v0, main_v1, main_v2, main_v3, main_v4, main_v5, main_v6, main_cst, main_v7, main_v8]

/-- Stretch rops1: operations 10 to 24 of this side of @main. -/
noncomputable abbrev rops1 : List (HloOp τ sig (Elt F)) :=
  [ nullary main_cst_0 (constant S_ .f32 0x00000000#32),
    unary main_cst_0 main_v9 (broadcastInDim S8192 ![] bcast_S_S8192 : (⟨S_, .f32⟩ : BufTy).Contents (Elt F) → (⟨S8192, .f32⟩ : BufTy).Contents (Elt F)),
    unary main_v6 main_v10 (broadcastInDim S270336x1 ![0] bcast_S270336_S270336x1_0 : (⟨S270336, .i32⟩ : BufTy).Contents (Elt F) → (⟨S270336x1, .i32⟩ : BufTy).Contents (Elt F)),
    ternary main_v9 main_v10 main_v8 main_v11 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_1 (constant S_ .f32 0x00000000#32),
    unary main_cst_1 main_v12 (broadcastInDim S8192 ![] bcast_S_S8192 : (⟨S_, .f32⟩ : BufTy).Contents (Elt F) → (⟨S8192, .f32⟩ : BufTy).Contents (Elt F)),
    binary main_v11 main_v12 main_v13 (cmpf .ogt : (⟨S8192, .f32⟩ : BufTy).Contents (Elt F) → (⟨S8192, .f32⟩ : BufTy).Contents (Elt F) → (⟨S8192, .i1⟩ : BufTy).Contents (Elt F)),
    nullary main_cst_2 (constant S_ .f32 0x2B8CBCCC#32),
    unary main_cst_2 main_v14 (broadcastInDim S8192 ![] bcast_S_S8192 : (⟨S_, .f32⟩ : BufTy).Contents (Elt F) → (⟨S8192, .f32⟩ : BufTy).Contents (Elt F)),
    binary main_v11 main_v14 main_v15 (maximumf : (⟨S8192, .f32⟩ : BufTy).Contents (Elt F) → (⟨S8192, .f32⟩ : BufTy).Contents (Elt F) → (⟨S8192, .f32⟩ : BufTy).Contents (Elt F)),
    unary main_v15 main_v16 (Host.rsqrt : (⟨S8192, .f32⟩ : BufTy).Contents (Elt F) → (⟨S8192, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v13) (TRef.of (T := ⟨S8192, .f32⟩) main_v16) (TRef.of (T := ⟨S8192, .f32⟩) main_call0_v1) (TRef.of (T := ⟨S8192, .f32⟩) main_v17) select ]
/-- The references it writes, in order. -/
noncomputable def rwr1 : List (Ref sig .tc) := [main_cst_0, main_v9, main_v10, main_v11, main_cst_1, main_v12, main_v13, main_cst_2, main_v14, main_v15, main_v16, main_cst_3, main_call0_v0, main_call0_v1, main_v17]

/-- Stretch rops2: operations 25 to 44 of this side of @main. -/
noncomputable abbrev rops2 : List (HloOp τ sig (Elt F)) :=
  [ nullary main_c (constantI S_ 32 0#32),
    unary main_c main_v18 (broadcastInDim S270336 ![] bcast_S_S270336 : (⟨S_, .i32⟩ : BufTy).Contents (Elt F) → (⟨S270336, .i32⟩ : BufTy).Contents (Elt F)),
    binary main_v5 main_v18 main_v19 (cmpi .slt : (⟨S270336, .i32⟩ : BufTy).Contents (Elt F) → (⟨S270336, .i32⟩ : BufTy).Contents (Elt F) → (⟨S270336, .i1⟩ : BufTy).Contents (Elt F)),
    nullary main_c_4 (constantI S_ 32 8192#32),
    unary main_c_4 main_v20 (broadcastInDim S270336 ![] bcast_S_S270336 : (⟨S_, .i32⟩ : BufTy).Contents (Elt F) → (⟨S270336, .i32⟩ : BufTy).Contents (Elt F)),
    binary main_v5 main_v20 main_v21 (addi : (⟨S270336, .i32⟩ : BufTy).Contents (Elt F) → (⟨S270336, .i32⟩ : BufTy).Contents (Elt F) → (⟨S270336, .i32⟩ : BufTy).Contents (Elt F)),
    ternary main_v19 main_v21 main_v5 main_v22 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v22 main_v23 (broadcastInDim S270336x1 ![0] bcast_S270336_S270336x1_0 : (⟨S270336, .i32⟩ : BufTy).Contents (Elt F) → (⟨S270336x1, .i32⟩ : BufTy).Contents (Elt F)),
    binary main_v17 main_v23 main_v24 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v24 main_v8 main_v25 (mulf : (⟨S270336, .f32⟩ : BufTy).Contents (Elt F) → (⟨S270336, .f32⟩ : BufTy).Contents (Elt F) → (⟨S270336, .f32⟩ : BufTy).Contents (Elt F)),
    nullary main_c_5 (constantI S_ 32 0#32),
    unary main_c_5 main_v26 (broadcastInDim S270336 ![] bcast_S_S270336 : (⟨S_, .i32⟩ : BufTy).Contents (Elt F) → (⟨S270336, .i32⟩ : BufTy).Contents (Elt F)),
    binary main_v6 main_v26 main_v27 (cmpi .slt : (⟨S270336, .i32⟩ : BufTy).Contents (Elt F) → (⟨S270336, .i32⟩ : BufTy).Contents (Elt F) → (⟨S270336, .i1⟩ : BufTy).Contents (Elt F)),
    nullary main_c_6 (constantI S_ 32 8192#32),
    unary main_c_6 main_v28 (broadcastInDim S270336 ![] bcast_S_S270336 : (⟨S_, .i32⟩ : BufTy).Contents (Elt F) → (⟨S270336, .i32⟩ : BufTy).Contents (Elt F)),
    binary main_v6 main_v28 main_v29 (addi : (⟨S270336, .i32⟩ : BufTy).Contents (Elt F) → (⟨S270336, .i32⟩ : BufTy).Contents (Elt F) → (⟨S270336, .i32⟩ : BufTy).Contents (Elt F)),
    ternary main_v27 main_v29 main_v6 main_v30 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v30 main_v31 (broadcastInDim S270336x1 ![0] bcast_S270336_S270336x1_0 : (⟨S270336, .i32⟩ : BufTy).Contents (Elt F) → (⟨S270336x1, .i32⟩ : BufTy).Contents (Elt F)),
    binary main_v17 main_v31 main_v32 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v25 main_v32 main_v33 (mulf : (⟨S270336, .f32⟩ : BufTy).Contents (Elt F) → (⟨S270336, .f32⟩ : BufTy).Contents (Elt F) → (⟨S270336, .f32⟩ : BufTy).Contents (Elt F)) ]
/-- The references it writes, in order. -/
noncomputable def rwr2 : List (Ref sig .tc) := [main_c, main_v18, main_v19, main_c_4, main_v20, main_v21, main_v22, main_v23, main_v24, main_v25, main_c_5, main_v26, main_v27, main_c_6, main_v28, main_v29, main_v30, main_v31, main_v32, main_v33]

/-- Stretch rops3: operations 45 to 64 of this side of @main. -/
noncomputable abbrev rops3 : List (HloOp τ sig (Elt F)) :=
  [ binary main_arg0 main_arg5 main_v34 ((fun l r => Host.dotGeneral dot_S8192x512_S512x16_S8192x16_1_0_0_1_n_n none l r) : (⟨S8192x512, .f32⟩ : BufTy).Contents (Elt F) → (⟨S512x16, .f32⟩ : BufTy).Contents (Elt F) → (⟨S8192x16, .f32⟩ : BufTy).Contents (Elt F)),
    unary main_v33 main_v35 (broadcastInDim S270336x1 ![0] bcast_S270336_S270336x1_0 : (⟨S270336, .f32⟩ : BufTy).Contents (Elt F) → (⟨S270336x1, .f32⟩ : BufTy).Contents (Elt F)),
    nullary main_c_7 (constantI S_ 32 0#32),
    unary main_c_7 main_v36 (broadcastInDim S270336 ![] bcast_S_S270336 : (⟨S_, .i32⟩ : BufTy).Contents (Elt F) → (⟨S270336, .i32⟩ : BufTy).Contents (Elt F)),
    binary main_v5 main_v36 main_v37 (cmpi .slt : (⟨S270336, .i32⟩ : BufTy).Contents (Elt F) → (⟨S270336, .i32⟩ : BufTy).Contents (Elt F) → (⟨S270336, .i1⟩ : BufTy).Contents (Elt F)),
    nullary main_c_8 (constantI S_ 32 8192#32),
    unary main_c_8 main_v38 (broadcastInDim S270336 ![] bcast_S_S270336 : (⟨S_, .i32⟩ : BufTy).Contents (Elt F) → (⟨S270336, .i32⟩ : BufTy).Contents (Elt F)),
    binary main_v5 main_v38 main_v39 (addi : (⟨S270336, .i32⟩ : BufTy).Contents (Elt F) → (⟨S270336, .i32⟩ : BufTy).Contents (Elt F) → (⟨S270336, .i32⟩ : BufTy).Contents (Elt F)),
    ternary main_v37 main_v39 main_v5 main_v40 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v40 main_v41 (broadcastInDim S270336x1 ![0] bcast_S270336_S270336x1_0 : (⟨S270336, .i32⟩ : BufTy).Contents (Elt F) → (⟨S270336x1, .i32⟩ : BufTy).Contents (Elt F)),
    binary main_v34 main_v41 main_v42 ((fun x i => Host.gather gather_S8192x16_S270336x1_S270336x16_1_0_n_n_0_1_116 x i) : (⟨S8192x16, .f32⟩ : BufTy).Contents (Elt F) → (⟨S270336x1, .i32⟩ : BufTy).Contents (Elt F) → (⟨S270336x16, .f32⟩ : BufTy).Contents (Elt F)),
    unary main_v35 main_v43 (broadcastInDim S270336x16 ![0, 1] bcast_S270336x1_S270336x16_0_1 : (⟨S270336x1, .f32⟩ : BufTy).Contents (Elt F) → (⟨S270336x16, .f32⟩ : BufTy).Contents (Elt F)),
    binary main_v43 main_v42 main_v44 (mulf : (⟨S270336x16, .f32⟩ : BufTy).Contents (Elt F) → (⟨S270336x16, .f32⟩ : BufTy).Contents (Elt F) → (⟨S270336x16, .f32⟩ : BufTy).Contents (Elt F)),
    nullary main_cst_9 (constant S_ .f32 0x00000000#32),
    unary main_cst_9 main_v45 (broadcastInDim S8192x16 ![] bcast_S_S8192x16 : (⟨S_, .f32⟩ : BufTy).Contents (Elt F) → (⟨S8192x16, .f32⟩ : BufTy).Contents (Elt F)),
    unary main_v6 main_v46 (broadcastInDim S270336x1 ![0] bcast_S270336_S270336x1_0 : (⟨S270336, .i32⟩ : BufTy).Contents (Elt F) → (⟨S270336x1, .i32⟩ : BufTy).Contents (Elt F)),
    ternary main_v45 main_v46 main_v44 main_v47 ((fun x i u => Host.scatterAdd scatter_S8192x16_S270336x1_S270336x16_1_0_0_1 x i u) : (⟨S8192x16, .f32⟩ : BufTy).Contents (Elt F) → (⟨S270336x1, .i32⟩ : BufTy).Contents (Elt F) → (⟨S270336x16, .f32⟩ : BufTy).Contents (Elt F) → (⟨S8192x16, .f32⟩ : BufTy).Contents (Elt F)),
    unary main_arg6 main_v48 (broadcastInDim S1x16 ![1] bcast_S16_S1x16_1 : (⟨S16, .f32⟩ : BufTy).Contents (Elt F) → (⟨S1x16, .f32⟩ : BufTy).Contents (Elt F)),
    unary main_v48 main_v49 (broadcastInDim S8192x16 ![0, 1] bcast_S1x16_S8192x16_0_1 : (⟨S1x16, .f32⟩ : BufTy).Contents (Elt F) → (⟨S8192x16, .f32⟩ : BufTy).Contents (Elt F)),
    binary main_v47 main_v49 main_v50 (addf : (⟨S8192x16, .f32⟩ : BufTy).Contents (Elt F) → (⟨S8192x16, .f32⟩ : BufTy).Contents (Elt F) → (⟨S8192x16, .f32⟩ : BufTy).Contents (Elt F)) ]
/-- The references it writes, in order. -/
noncomputable def rwr3 : List (Ref sig .tc) := [main_v34, main_v35, main_c_7, main_v36, main_v37, main_c_8, main_v38, main_v39, main_v40, main_v41, main_v42, main_v43, main_v44, main_cst_9, main_v45, main_v46, main_v47, main_v48, main_v49, main_v50]

/-- Stretch rops4: operations 65 to 67 of this side of @main. -/
noncomputable abbrev rops4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S8192x16, .f32⟩) main_call1_v0) (broadcastInDim S8192x16 ![] bcast_S_S8192x16),
    TRef.binary (TRef.of (T := ⟨S8192x16, .f32⟩) main_v50) (TRef.of (T := ⟨S8192x16, .f32⟩) main_call1_v0) (TRef.of (T := ⟨S8192x16, .f32⟩) main_v51) maximumf ]
/-- The references it writes, in order. -/
noncomputable def rwr4 : List (Ref sig .tc) := [main_call1_cst, main_call1_v0, main_v51]

/-- Stretch rops5: operations 68 to 73 of this side of @main. -/
noncomputable abbrev rops5 : List (HloOp τ sig (Elt F)) :=
  [ nullary main_v52 (iotaInDim S8192 32 0),
    binary main_v1 main_v52 main_v53 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v52 main_v54 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_10 (constant S_ .f32 0x3F800000#32),
    unary main_cst_10 main_v55 (broadcastInDim S8192 ![] bcast_S_S8192 : (⟨S_, .f32⟩ : BufTy).Contents (Elt F) → (⟨S8192, .f32⟩ : BufTy).Contents (Elt F)),
    binary main_arg2 main_v55 main_v56 ((fun a b => concatenate S270336 0 [⟨S262144, a⟩, ⟨S8192, b⟩] concatenates_S262144_S8192_S270336_d0) : (⟨S262144, .f32⟩ : BufTy).Contents (Elt F) → (⟨S8192, .f32⟩ : BufTy).Contents (Elt F) → (⟨S270336, .f32⟩ : BufTy).Contents (Elt F)) ]
/-- The references it writes, in order. -/
noncomputable def rwr5 : List (Ref sig .tc) := [main_v52, main_v53, main_v54, main_cst_10, main_v55, main_v56]

/-- Stretch rops6: operations 74 to 88 of this side of @main. -/
noncomputable abbrev rops6 : List (HloOp τ sig (Elt F)) :=
  [ nullary main_cst_11 (constant S_ .f32 0x00000000#32),
    unary main_cst_11 main_v57 (broadcastInDim S8192 ![] bcast_S_S8192 : (⟨S_, .f32⟩ : BufTy).Contents (Elt F) → (⟨S8192, .f32⟩ : BufTy).Contents (Elt F)),
    unary main_v54 main_v58 (broadcastInDim S270336x1 ![0] bcast_S270336_S270336x1_0 : (⟨S270336, .i32⟩ : BufTy).Contents (Elt F) → (⟨S270336x1, .i32⟩ : BufTy).Contents (Elt F)),
    ternary main_v57 main_v58 main_v56 main_v59 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_12 (constant S_ .f32 0x00000000#32),
    unary main_cst_12 main_v60 (broadcastInDim S8192 ![] bcast_S_S8192 : (⟨S_, .f32⟩ : BufTy).Contents (Elt F) → (⟨S8192, .f32⟩ : BufTy).Contents (Elt F)),
    binary main_v59 main_v60 main_v61 (cmpf .ogt : (⟨S8192, .f32⟩ : BufTy).Contents (Elt F) → (⟨S8192, .f32⟩ : BufTy).Contents (Elt F) → (⟨S8192, .i1⟩ : BufTy).Contents (Elt F)),
    nullary main_cst_13 (constant S_ .f32 0x2B8CBCCC#32),
    unary main_cst_13 main_v62 (broadcastInDim S8192 ![] bcast_S_S8192 : (⟨S_, .f32⟩ : BufTy).Contents (Elt F) → (⟨S8192, .f32⟩ : BufTy).Contents (Elt F)),
    binary main_v59 main_v62 main_v63 (maximumf : (⟨S8192, .f32⟩ : BufTy).Contents (Elt F) → (⟨S8192, .f32⟩ : BufTy).Contents (Elt F) → (⟨S8192, .f32⟩ : BufTy).Contents (Elt F)),
    unary main_v63 main_v64 (Host.rsqrt : (⟨S8192, .f32⟩ : BufTy).Contents (Elt F) → (⟨S8192, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S8192, .f32⟩) main_call2_v1) (broadcastInDim S8192 ![] bcast_S_S8192),
    TRef.ternary (TRef.of (T := ⟨S8192, .i1⟩) main_v61) (TRef.of (T := ⟨S8192, .f32⟩) main_v64) (TRef.of (T := ⟨S8192, .f32⟩) main_call2_v1) (TRef.of (T := ⟨S8192, .f32⟩) main_v65) select ]
/-- The references it writes, in order. -/
noncomputable def rwr6 : List (Ref sig .tc) := [main_cst_11, main_v57, main_v58, main_v59, main_cst_12, main_v60, main_v61, main_cst_13, main_v62, main_v63, main_v64, main_cst_14, main_call2_v0, main_call2_v1, main_v65]

/-- Stretch rops7: operations 89 to 108 of this side of @main. -/
noncomputable abbrev rops7 : List (HloOp τ sig (Elt F)) :=
  [ nullary main_c_15 (constantI S_ 32 0#32),
    unary main_c_15 main_v66 (broadcastInDim S270336 ![] bcast_S_S270336 : (⟨S_, .i32⟩ : BufTy).Contents (Elt F) → (⟨S270336, .i32⟩ : BufTy).Contents (Elt F)),
    binary main_v53 main_v66 main_v67 (cmpi .slt : (⟨S270336, .i32⟩ : BufTy).Contents (Elt F) → (⟨S270336, .i32⟩ : BufTy).Contents (Elt F) → (⟨S270336, .i1⟩ : BufTy).Contents (Elt F)),
    nullary main_c_16 (constantI S_ 32 8192#32),
    unary main_c_16 main_v68 (broadcastInDim S270336 ![] bcast_S_S270336 : (⟨S_, .i32⟩ : BufTy).Contents (Elt F) → (⟨S270336, .i32⟩ : BufTy).Contents (Elt F)),
    binary main_v53 main_v68 main_v69 (addi : (⟨S270336, .i32⟩ : BufTy).Contents (Elt F) → (⟨S270336, .i32⟩ : BufTy).Contents (Elt F) → (⟨S270336, .i32⟩ : BufTy).Contents (Elt F)),
    ternary main_v67 main_v69 main_v53 main_v70 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v70 main_v71 (broadcastInDim S270336x1 ![0] bcast_S270336_S270336x1_0 : (⟨S270336, .i32⟩ : BufTy).Contents (Elt F) → (⟨S270336x1, .i32⟩ : BufTy).Contents (Elt F)),
    binary main_v65 main_v71 main_v72 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v72 main_v56 main_v73 (mulf : (⟨S270336, .f32⟩ : BufTy).Contents (Elt F) → (⟨S270336, .f32⟩ : BufTy).Contents (Elt F) → (⟨S270336, .f32⟩ : BufTy).Contents (Elt F)),
    nullary main_c_17 (constantI S_ 32 0#32),
    unary main_c_17 main_v74 (broadcastInDim S270336 ![] bcast_S_S270336 : (⟨S_, .i32⟩ : BufTy).Contents (Elt F) → (⟨S270336, .i32⟩ : BufTy).Contents (Elt F)),
    binary main_v54 main_v74 main_v75 (cmpi .slt : (⟨S270336, .i32⟩ : BufTy).Contents (Elt F) → (⟨S270336, .i32⟩ : BufTy).Contents (Elt F) → (⟨S270336, .i1⟩ : BufTy).Contents (Elt F)),
    nullary main_c_18 (constantI S_ 32 8192#32),
    unary main_c_18 main_v76 (broadcastInDim S270336 ![] bcast_S_S270336 : (⟨S_, .i32⟩ : BufTy).Contents (Elt F) → (⟨S270336, .i32⟩ : BufTy).Contents (Elt F)),
    binary main_v54 main_v76 main_v77 (addi : (⟨S270336, .i32⟩ : BufTy).Contents (Elt F) → (⟨S270336, .i32⟩ : BufTy).Contents (Elt F) → (⟨S270336, .i32⟩ : BufTy).Contents (Elt F)),
    ternary main_v75 main_v77 main_v54 main_v78 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v78 main_v79 (broadcastInDim S270336x1 ![0] bcast_S270336_S270336x1_0 : (⟨S270336, .i32⟩ : BufTy).Contents (Elt F) → (⟨S270336x1, .i32⟩ : BufTy).Contents (Elt F)),
    binary main_v65 main_v79 main_v80 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v73 main_v80 main_v81 (mulf : (⟨S270336, .f32⟩ : BufTy).Contents (Elt F) → (⟨S270336, .f32⟩ : BufTy).Contents (Elt F) → (⟨S270336, .f32⟩ : BufTy).Contents (Elt F)) ]
/-- The references it writes, in order. -/
noncomputable def rwr7 : List (Ref sig .tc) := [main_c_15, main_v66, main_v67, main_c_16, main_v68, main_v69, main_v70, main_v71, main_v72, main_v73, main_c_17, main_v74, main_v75, main_c_18, main_v76, main_v77, main_v78, main_v79, main_v80, main_v81]

/-- Stretch rops8: operations 109 to 128 of this side of @main. -/
noncomputable abbrev rops8 : List (HloOp τ sig (Elt F)) :=
  [ binary main_v51 main_arg7 main_v82 ((fun l r => Host.dotGeneral dot_S8192x16_S16x10_S8192x10_1_0_0_1_n_n none l r) : (⟨S8192x16, .f32⟩ : BufTy).Contents (Elt F) → (⟨S16x10, .f32⟩ : BufTy).Contents (Elt F) → (⟨S8192x10, .f32⟩ : BufTy).Contents (Elt F)),
    unary main_v81 main_v83 (broadcastInDim S270336x1 ![0] bcast_S270336_S270336x1_0 : (⟨S270336, .f32⟩ : BufTy).Contents (Elt F) → (⟨S270336x1, .f32⟩ : BufTy).Contents (Elt F)),
    nullary main_c_19 (constantI S_ 32 0#32),
    unary main_c_19 main_v84 (broadcastInDim S270336 ![] bcast_S_S270336 : (⟨S_, .i32⟩ : BufTy).Contents (Elt F) → (⟨S270336, .i32⟩ : BufTy).Contents (Elt F)),
    binary main_v53 main_v84 main_v85 (cmpi .slt : (⟨S270336, .i32⟩ : BufTy).Contents (Elt F) → (⟨S270336, .i32⟩ : BufTy).Contents (Elt F) → (⟨S270336, .i1⟩ : BufTy).Contents (Elt F)),
    nullary main_c_20 (constantI S_ 32 8192#32),
    unary main_c_20 main_v86 (broadcastInDim S270336 ![] bcast_S_S270336 : (⟨S_, .i32⟩ : BufTy).Contents (Elt F) → (⟨S270336, .i32⟩ : BufTy).Contents (Elt F)),
    binary main_v53 main_v86 main_v87 (addi : (⟨S270336, .i32⟩ : BufTy).Contents (Elt F) → (⟨S270336, .i32⟩ : BufTy).Contents (Elt F) → (⟨S270336, .i32⟩ : BufTy).Contents (Elt F)),
    ternary main_v85 main_v87 main_v53 main_v88 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v88 main_v89 (broadcastInDim S270336x1 ![0] bcast_S270336_S270336x1_0 : (⟨S270336, .i32⟩ : BufTy).Contents (Elt F) → (⟨S270336x1, .i32⟩ : BufTy).Contents (Elt F)),
    binary main_v82 main_v89 main_v90 ((fun x i => Host.gather gather_S8192x10_S270336x1_S270336x10_1_0_n_n_0_1_110 x i) : (⟨S8192x10, .f32⟩ : BufTy).Contents (Elt F) → (⟨S270336x1, .i32⟩ : BufTy).Contents (Elt F) → (⟨S270336x10, .f32⟩ : BufTy).Contents (Elt F)),
    unary main_v83 main_v91 (broadcastInDim S270336x10 ![0, 1] bcast_S270336x1_S270336x10_0_1 : (⟨S270336x1, .f32⟩ : BufTy).Contents (Elt F) → (⟨S270336x10, .f32⟩ : BufTy).Contents (Elt F)),
    binary main_v91 main_v90 main_v92 (mulf : (⟨S270336x10, .f32⟩ : BufTy).Contents (Elt F) → (⟨S270336x10, .f32⟩ : BufTy).Contents (Elt F) → (⟨S270336x10, .f32⟩ : BufTy).Contents (Elt F)),
    nullary main_cst_21 (constant S_ .f32 0x00000000#32),
    unary main_cst_21 main_v93 (broadcastInDim S8192x10 ![] bcast_S_S8192x10 : (⟨S_, .f32⟩ : BufTy).Contents (Elt F) → (⟨S8192x10, .f32⟩ : BufTy).Contents (Elt F)),
    unary main_v54 main_v94 (broadcastInDim S270336x1 ![0] bcast_S270336_S270336x1_0 : (⟨S270336, .i32⟩ : BufTy).Contents (Elt F) → (⟨S270336x1, .i32⟩ : BufTy).Contents (Elt F)),
    ternary main_v93 main_v94 main_v92 main_v95 ((fun x i u => Host.scatterAdd scatter_S8192x10_S270336x1_S270336x10_1_0_0_1 x i u) : (⟨S8192x10, .f32⟩ : BufTy).Contents (Elt F) → (⟨S270336x1, .i32⟩ : BufTy).Contents (Elt F) → (⟨S270336x10, .f32⟩ : BufTy).Contents (Elt F) → (⟨S8192x10, .f32⟩ : BufTy).Contents (Elt F)),
    unary main_arg8 main_v96 (broadcastInDim S1x10 ![1] bcast_S10_S1x10_1 : (⟨S10, .f32⟩ : BufTy).Contents (Elt F) → (⟨S1x10, .f32⟩ : BufTy).Contents (Elt F)),
    unary main_v96 main_v97 (broadcastInDim S8192x10 ![0, 1] bcast_S1x10_S8192x10_0_1 : (⟨S1x10, .f32⟩ : BufTy).Contents (Elt F) → (⟨S8192x10, .f32⟩ : BufTy).Contents (Elt F)),
    binary main_v95 main_v97 main_v98 (addf : (⟨S8192x10, .f32⟩ : BufTy).Contents (Elt F) → (⟨S8192x10, .f32⟩ : BufTy).Contents (Elt F) → (⟨S8192x10, .f32⟩ : BufTy).Contents (Elt F)) ]
/-- The references it writes, in order. -/
noncomputable def rwr8 : List (Ref sig .tc) := [main_v82, main_v83, main_c_19, main_v84, main_v85, main_c_20, main_v86, main_v87, main_v88, main_v89, main_v90, main_v91, main_v92, main_cst_21, main_v93, main_v94, main_v95, main_v96, main_v97, main_v98]

/-- Stretch rops9: operations 129 to 134 of this side of @main. -/
noncomputable abbrev rops9 : List (HloOp τ sig (Elt F)) :=
  [ nullary main_v99 (iotaInDim S8192 32 0),
    binary main_v1 main_v99 main_v100 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v99 main_v101 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_22 (constant S_ .f32 0x3F800000#32),
    unary main_cst_22 main_v102 (broadcastInDim S8192 ![] bcast_S_S8192 : (⟨S_, .f32⟩ : BufTy).Contents (Elt F) → (⟨S8192, .f32⟩ : BufTy).Contents (Elt F)),
    binary main_arg2 main_v102 main_v103 ((fun a b => concatenate S270336 0 [⟨S262144, a⟩, ⟨S8192, b⟩] concatenates_S262144_S8192_S270336_d0) : (⟨S262144, .f32⟩ : BufTy).Contents (Elt F) → (⟨S8192, .f32⟩ : BufTy).Contents (Elt F) → (⟨S270336, .f32⟩ : BufTy).Contents (Elt F)) ]
/-- The references it writes, in order. -/
noncomputable def rwr9 : List (Ref sig .tc) := [main_v99, main_v100, main_v101, main_cst_22, main_v102, main_v103]

/-- Stretch rops10: operations 135 to 149 of this side of @main. -/
noncomputable abbrev rops10 : List (HloOp τ sig (Elt F)) :=
  [ nullary main_cst_23 (constant S_ .f32 0x00000000#32),
    unary main_cst_23 main_v104 (broadcastInDim S8192 ![] bcast_S_S8192 : (⟨S_, .f32⟩ : BufTy).Contents (Elt F) → (⟨S8192, .f32⟩ : BufTy).Contents (Elt F)),
    unary main_v101 main_v105 (broadcastInDim S270336x1 ![0] bcast_S270336_S270336x1_0 : (⟨S270336, .i32⟩ : BufTy).Contents (Elt F) → (⟨S270336x1, .i32⟩ : BufTy).Contents (Elt F)),
    ternary main_v104 main_v105 main_v103 main_v106 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_24 (constant S_ .f32 0x00000000#32),
    unary main_cst_24 main_v107 (broadcastInDim S8192 ![] bcast_S_S8192 : (⟨S_, .f32⟩ : BufTy).Contents (Elt F) → (⟨S8192, .f32⟩ : BufTy).Contents (Elt F)),
    binary main_v106 main_v107 main_v108 (cmpf .ogt : (⟨S8192, .f32⟩ : BufTy).Contents (Elt F) → (⟨S8192, .f32⟩ : BufTy).Contents (Elt F) → (⟨S8192, .i1⟩ : BufTy).Contents (Elt F)),
    nullary main_cst_25 (constant S_ .f32 0x2B8CBCCC#32),
    unary main_cst_25 main_v109 (broadcastInDim S8192 ![] bcast_S_S8192 : (⟨S_, .f32⟩ : BufTy).Contents (Elt F) → (⟨S8192, .f32⟩ : BufTy).Contents (Elt F)),
    binary main_v106 main_v109 main_v110 (maximumf : (⟨S8192, .f32⟩ : BufTy).Contents (Elt F) → (⟨S8192, .f32⟩ : BufTy).Contents (Elt F) → (⟨S8192, .f32⟩ : BufTy).Contents (Elt F)),
    unary main_v110 main_v111 (Host.rsqrt : (⟨S8192, .f32⟩ : BufTy).Contents (Elt F) → (⟨S8192, .f32⟩ : BufTy).Contents (Elt F)),
    nullary main_cst_26 (constant S_ .f32 0x00000000#32),
    TRef.unary (TRef.of (T := ⟨S_, .f32⟩) main_cst_26) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v108) (TRef.of (T := ⟨S8192, .f32⟩) main_v111) (TRef.of (T := ⟨S8192, .f32⟩) main_call3_v1) (TRef.of (T := ⟨S8192, .f32⟩) main_v112) select ]
/-- The references it writes, in order. -/
noncomputable def rwr10 : List (Ref sig .tc) := [main_cst_23, main_v104, main_v105, main_v106, main_cst_24, main_v107, main_v108, main_cst_25, main_v109, main_v110, main_v111, main_cst_26, main_call3_v0, main_call3_v1, main_v112]

/-- Stretch rops11: operations 150 to 169 of this side of @main. -/
noncomputable abbrev rops11 : List (HloOp τ sig (Elt F)) :=
  [ nullary main_c_27 (constantI S_ 32 0#32),
    unary main_c_27 main_v113 (broadcastInDim S270336 ![] bcast_S_S270336 : (⟨S_, .i32⟩ : BufTy).Contents (Elt F) → (⟨S270336, .i32⟩ : BufTy).Contents (Elt F)),
    binary main_v100 main_v113 main_v114 (cmpi .slt : (⟨S270336, .i32⟩ : BufTy).Contents (Elt F) → (⟨S270336, .i32⟩ : BufTy).Contents (Elt F) → (⟨S270336, .i1⟩ : BufTy).Contents (Elt F)),
    nullary main_c_28 (constantI S_ 32 8192#32),
    unary main_c_28 main_v115 (broadcastInDim S270336 ![] bcast_S_S270336 : (⟨S_, .i32⟩ : BufTy).Contents (Elt F) → (⟨S270336, .i32⟩ : BufTy).Contents (Elt F)),
    binary main_v100 main_v115 main_v116 (addi : (⟨S270336, .i32⟩ : BufTy).Contents (Elt F) → (⟨S270336, .i32⟩ : BufTy).Contents (Elt F) → (⟨S270336, .i32⟩ : BufTy).Contents (Elt F)),
    ternary main_v114 main_v116 main_v100 main_v117 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v117 main_v118 (broadcastInDim S270336x1 ![0] bcast_S270336_S270336x1_0 : (⟨S270336, .i32⟩ : BufTy).Contents (Elt F) → (⟨S270336x1, .i32⟩ : BufTy).Contents (Elt F)),
    binary main_v112 main_v118 main_v119 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v119 main_v103 main_v120 (mulf : (⟨S270336, .f32⟩ : BufTy).Contents (Elt F) → (⟨S270336, .f32⟩ : BufTy).Contents (Elt F) → (⟨S270336, .f32⟩ : BufTy).Contents (Elt F)),
    nullary main_c_29 (constantI S_ 32 0#32),
    unary main_c_29 main_v121 (broadcastInDim S270336 ![] bcast_S_S270336 : (⟨S_, .i32⟩ : BufTy).Contents (Elt F) → (⟨S270336, .i32⟩ : BufTy).Contents (Elt F)),
    binary main_v101 main_v121 main_v122 (cmpi .slt : (⟨S270336, .i32⟩ : BufTy).Contents (Elt F) → (⟨S270336, .i32⟩ : BufTy).Contents (Elt F) → (⟨S270336, .i1⟩ : BufTy).Contents (Elt F)),
    nullary main_c_30 (constantI S_ 32 8192#32),
    unary main_c_30 main_v123 (broadcastInDim S270336 ![] bcast_S_S270336 : (⟨S_, .i32⟩ : BufTy).Contents (Elt F) → (⟨S270336, .i32⟩ : BufTy).Contents (Elt F)),
    binary main_v101 main_v123 main_v124 (addi : (⟨S270336, .i32⟩ : BufTy).Contents (Elt F) → (⟨S270336, .i32⟩ : BufTy).Contents (Elt F) → (⟨S270336, .i32⟩ : BufTy).Contents (Elt F)),
    ternary main_v122 main_v124 main_v101 main_v125 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v125 main_v126 (broadcastInDim S270336x1 ![0] bcast_S270336_S270336x1_0 : (⟨S270336, .i32⟩ : BufTy).Contents (Elt F) → (⟨S270336x1, .i32⟩ : BufTy).Contents (Elt F)),
    binary main_v112 main_v126 main_v127 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v120 main_v127 main_v128 (mulf : (⟨S270336, .f32⟩ : BufTy).Contents (Elt F) → (⟨S270336, .f32⟩ : BufTy).Contents (Elt F) → (⟨S270336, .f32⟩ : BufTy).Contents (Elt F)) ]
/-- The references it writes, in order. -/
noncomputable def rwr11 : List (Ref sig .tc) := [main_c_27, main_v113, main_v114, main_c_28, main_v115, main_v116, main_v117, main_v118, main_v119, main_v120, main_c_29, main_v121, main_v122, main_c_30, main_v123, main_v124, main_v125, main_v126, main_v127, main_v128]

/-- Stretch rops12: operations 170 to 189 of this side of @main. -/
noncomputable abbrev rops12 : List (HloOp τ sig (Elt F)) :=
  [ binary main_arg0 main_arg9 main_v129 ((fun l r => Host.dotGeneral dot_S8192x512_S512x100_S8192x100_1_0_0_1_n_n none l r) : (⟨S8192x512, .f32⟩ : BufTy).Contents (Elt F) → (⟨S512x100, .f32⟩ : BufTy).Contents (Elt F) → (⟨S8192x100, .f32⟩ : BufTy).Contents (Elt F)),
    unary main_v128 main_v130 (broadcastInDim S270336x1 ![0] bcast_S270336_S270336x1_0 : (⟨S270336, .f32⟩ : BufTy).Contents (Elt F) → (⟨S270336x1, .f32⟩ : BufTy).Contents (Elt F)),
    nullary main_c_31 (constantI S_ 32 0#32),
    unary main_c_31 main_v131 (broadcastInDim S270336 ![] bcast_S_S270336 : (⟨S_, .i32⟩ : BufTy).Contents (Elt F) → (⟨S270336, .i32⟩ : BufTy).Contents (Elt F)),
    binary main_v100 main_v131 main_v132 (cmpi .slt : (⟨S270336, .i32⟩ : BufTy).Contents (Elt F) → (⟨S270336, .i32⟩ : BufTy).Contents (Elt F) → (⟨S270336, .i1⟩ : BufTy).Contents (Elt F)),
    nullary main_c_32 (constantI S_ 32 8192#32),
    unary main_c_32 main_v133 (broadcastInDim S270336 ![] bcast_S_S270336 : (⟨S_, .i32⟩ : BufTy).Contents (Elt F) → (⟨S270336, .i32⟩ : BufTy).Contents (Elt F)),
    binary main_v100 main_v133 main_v134 (addi : (⟨S270336, .i32⟩ : BufTy).Contents (Elt F) → (⟨S270336, .i32⟩ : BufTy).Contents (Elt F) → (⟨S270336, .i32⟩ : BufTy).Contents (Elt F)),
    ternary main_v132 main_v134 main_v100 main_v135 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v135 main_v136 (broadcastInDim S270336x1 ![0] bcast_S270336_S270336x1_0 : (⟨S270336, .i32⟩ : BufTy).Contents (Elt F) → (⟨S270336x1, .i32⟩ : BufTy).Contents (Elt F)),
    binary main_v129 main_v136 main_v137 ((fun x i => Host.gather gather_S8192x100_S270336x1_S270336x100_1_0_n_n_0_1_1100 x i) : (⟨S8192x100, .f32⟩ : BufTy).Contents (Elt F) → (⟨S270336x1, .i32⟩ : BufTy).Contents (Elt F) → (⟨S270336x100, .f32⟩ : BufTy).Contents (Elt F)),
    unary main_v130 main_v138 (broadcastInDim S270336x100 ![0, 1] bcast_S270336x1_S270336x100_0_1 : (⟨S270336x1, .f32⟩ : BufTy).Contents (Elt F) → (⟨S270336x100, .f32⟩ : BufTy).Contents (Elt F)),
    binary main_v138 main_v137 main_v139 (mulf : (⟨S270336x100, .f32⟩ : BufTy).Contents (Elt F) → (⟨S270336x100, .f32⟩ : BufTy).Contents (Elt F) → (⟨S270336x100, .f32⟩ : BufTy).Contents (Elt F)),
    nullary main_cst_33 (constant S_ .f32 0x00000000#32),
    unary main_cst_33 main_v140 (broadcastInDim S8192x100 ![] bcast_S_S8192x100 : (⟨S_, .f32⟩ : BufTy).Contents (Elt F) → (⟨S8192x100, .f32⟩ : BufTy).Contents (Elt F)),
    unary main_v101 main_v141 (broadcastInDim S270336x1 ![0] bcast_S270336_S270336x1_0 : (⟨S270336, .i32⟩ : BufTy).Contents (Elt F) → (⟨S270336x1, .i32⟩ : BufTy).Contents (Elt F)),
    ternary main_v140 main_v141 main_v139 main_v142 ((fun x i u => Host.scatterAdd scatter_S8192x100_S270336x1_S270336x100_1_0_0_1 x i u) : (⟨S8192x100, .f32⟩ : BufTy).Contents (Elt F) → (⟨S270336x1, .i32⟩ : BufTy).Contents (Elt F) → (⟨S270336x100, .f32⟩ : BufTy).Contents (Elt F) → (⟨S8192x100, .f32⟩ : BufTy).Contents (Elt F)),
    unary main_arg10 main_v143 (broadcastInDim S1x100 ![1] bcast_S100_S1x100_1 : (⟨S100, .f32⟩ : BufTy).Contents (Elt F) → (⟨S1x100, .f32⟩ : BufTy).Contents (Elt F)),
    unary main_v143 main_v144 (broadcastInDim S8192x100 ![0, 1] bcast_S1x100_S8192x100_0_1 : (⟨S1x100, .f32⟩ : BufTy).Contents (Elt F) → (⟨S8192x100, .f32⟩ : BufTy).Contents (Elt F)),
    binary main_v142 main_v144 main_v145 (addf : (⟨S8192x100, .f32⟩ : BufTy).Contents (Elt F) → (⟨S8192x100, .f32⟩ : BufTy).Contents (Elt F) → (⟨S8192x100, .f32⟩ : BufTy).Contents (Elt F)) ]
/-- The references it writes, in order. -/
noncomputable def rwr12 : List (Ref sig .tc) := [main_v129, main_v130, main_c_31, main_v131, main_v132, main_c_32, main_v133, main_v134, main_v135, main_v136, main_v137, main_v138, main_v139, main_cst_33, main_v140, main_v141, main_v142, main_v143, main_v144, main_v145]

/-- Stretch rops13: operations 190 to 192 of this side of @main. -/
noncomputable abbrev rops13 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S8192x100, .f32⟩) main_call4_v0) (broadcastInDim S8192x100 ![] bcast_S_S8192x100),
    TRef.binary (TRef.of (T := ⟨S8192x100, .f32⟩) main_v145) (TRef.of (T := ⟨S8192x100, .f32⟩) main_call4_v0) (TRef.of (T := ⟨S8192x100, .f32⟩) main_v146) maximumf ]
/-- The references it writes, in order. -/
noncomputable def rwr13 : List (Ref sig .tc) := [main_call4_cst, main_call4_v0, main_v146]

/-- Stretch rops14: operations 193 to 212 of this side of @main. -/
noncomputable abbrev rops14 : List (HloOp τ sig (Elt F)) :=
  [ nullary main_cst_34 (constant S_ .f32 0xFF800000#32),
    binary main_v146 main_cst_34 main_v147 ((fun x v => Host.reduce FloatOps.maximumf x v reducesTo_S8192x100_S8192_d1 h_S_) : (⟨S8192x100, .f32⟩ : BufTy).Contents (Elt F) → (⟨S_, .f32⟩ : BufTy).Contents (Elt F) → (⟨S8192, .f32⟩ : BufTy).Contents (Elt F)),
    nullary main_cst_35 (constant S_ .f32 0xFF800000#32),
    unary main_cst_35 main_v148 (broadcastInDim S8192 ![] bcast_S_S8192 : (⟨S_, .f32⟩ : BufTy).Contents (Elt F) → (⟨S8192, .f32⟩ : BufTy).Contents (Elt F)),
    binary main_v148 main_v147 main_v149 (maximumf : (⟨S8192, .f32⟩ : BufTy).Contents (Elt F) → (⟨S8192, .f32⟩ : BufTy).Contents (Elt F) → (⟨S8192, .f32⟩ : BufTy).Contents (Elt F)),
    unary main_v149 main_v150 (broadcastInDim S8192x1 ![0] bcast_S8192_S8192x1_0 : (⟨S8192, .f32⟩ : BufTy).Contents (Elt F) → (⟨S8192x1, .f32⟩ : BufTy).Contents (Elt F)),
    unary main_v150 main_v151 (broadcastInDim S8192x100 ![0, 1] bcast_S8192x1_S8192x100_0_1 : (⟨S8192x1, .f32⟩ : BufTy).Contents (Elt F) → (⟨S8192x100, .f32⟩ : BufTy).Contents (Elt F)),
    binary main_v146 main_v151 main_v152 (subf : (⟨S8192x100, .f32⟩ : BufTy).Contents (Elt F) → (⟨S8192x100, .f32⟩ : BufTy).Contents (Elt F) → (⟨S8192x100, .f32⟩ : BufTy).Contents (Elt F)),
    unary main_v152 main_v153 (Host.exp : (⟨S8192x100, .f32⟩ : BufTy).Contents (Elt F) → (⟨S8192x100, .f32⟩ : BufTy).Contents (Elt F)),
    nullary main_cst_36 (constant S_ .f32 0x00000000#32),
    binary main_v153 main_cst_36 main_v154 ((fun x v => Host.reduceAdd x v reducesTo_S8192x100_S8192_d1 h_S_) : (⟨S8192x100, .f32⟩ : BufTy).Contents (Elt F) → (⟨S_, .f32⟩ : BufTy).Contents (Elt F) → (⟨S8192, .f32⟩ : BufTy).Contents (Elt F)),
    unary main_v154 main_v155 (broadcastInDim S8192x1 ![0] bcast_S8192_S8192x1_0 : (⟨S8192, .f32⟩ : BufTy).Contents (Elt F) → (⟨S8192x1, .f32⟩ : BufTy).Contents (Elt F)),
    unary main_v155 main_v156 (broadcastInDim S8192x100 ![0, 1] bcast_S8192x1_S8192x100_0_1 : (⟨S8192x1, .f32⟩ : BufTy).Contents (Elt F) → (⟨S8192x100, .f32⟩ : BufTy).Contents (Elt F)),
    binary main_v153 main_v156 main_v157 (Host.divf : (⟨S8192x100, .f32⟩ : BufTy).Contents (Elt F) → (⟨S8192x100, .f32⟩ : BufTy).Contents (Elt F) → (⟨S8192x100, .f32⟩ : BufTy).Contents (Elt F)),
    unary main_arg4 main_v158 (uitofp .f32 : (⟨S8192, .i1⟩ : BufTy).Contents (Elt F) → (⟨S8192, .f32⟩ : BufTy).Contents (Elt F)),
    unary main_v158 main_v159 (broadcastInDim S8192x1 ![0] bcast_S8192_S8192x1_0 : (⟨S8192, .f32⟩ : BufTy).Contents (Elt F) → (⟨S8192x1, .f32⟩ : BufTy).Contents (Elt F)),
    unary main_v159 main_v160 (broadcastInDim S8192x512 ![0, 1] bcast_S8192x1_S8192x512_0_1 : (⟨S8192x1, .f32⟩ : BufTy).Contents (Elt F) → (⟨S8192x512, .f32⟩ : BufTy).Contents (Elt F)),
    binary main_arg0 main_v160 main_v161 (mulf : (⟨S8192x512, .f32⟩ : BufTy).Contents (Elt F) → (⟨S8192x512, .f32⟩ : BufTy).Contents (Elt F) → (⟨S8192x512, .f32⟩ : BufTy).Contents (Elt F)),
    unary main_v159 main_v162 (broadcastInDim S8192x100 ![0, 1] bcast_S8192x1_S8192x100_0_1 : (⟨S8192x1, .f32⟩ : BufTy).Contents (Elt F) → (⟨S8192x100, .f32⟩ : BufTy).Contents (Elt F)),
    binary main_v157 main_v162 main_v163 (mulf : (⟨S8192x100, .f32⟩ : BufTy).Contents (Elt F) → (⟨S8192x100, .f32⟩ : BufTy).Contents (Elt F) → (⟨S8192x100, .f32⟩ : BufTy).Contents (Elt F)) ]
/-- The references it writes, in order. -/
noncomputable def rwr14 : List (Ref sig .tc) := [main_cst_34, main_v147, main_cst_35, main_v148, main_v149, main_v150, main_v151, main_v152, main_v153, main_cst_36, main_v154, main_v155, main_v156, main_v157, main_v158, main_v159, main_v160, main_v161, main_v162, main_v163]

/-- Stretch rops15: operations 213 to 214 of this side of @main. -/
noncomputable abbrev rops15 : List (HloOp τ sig (Elt F)) :=
  [ unary main_v163 main_v164 ((transpose S100x8192 [1, 0] · transposes_S8192x100_S100x8192_1_0) : (⟨S8192x100, .f32⟩ : BufTy).Contents (Elt F) → (⟨S100x8192, .f32⟩ : BufTy).Contents (Elt F)),
    binary main_v164 main_v161 main_v165 ((fun l r => Host.dotGeneral dot_S100x8192_S8192x512_S100x512_1_0_0_1_n_n none l r) : (⟨S100x8192, .f32⟩ : BufTy).Contents (Elt F) → (⟨S8192x512, .f32⟩ : BufTy).Contents (Elt F) → (⟨S100x512, .f32⟩ : BufTy).Contents (Elt F)) ]
/-- The references it writes, in order. -/
noncomputable def rwr15 : List (Ref sig .tc) := [main_v164, main_v165]

/-- Stretch rops16: operations 215 to 217 of this side of @main. -/
noncomputable abbrev rops16 : List (HloOp τ sig (Elt F)) :=
  [ unary main_v163 main_v166 ((transpose S100x8192 [1, 0] · transposes_S8192x100_S100x8192_1_0) : (⟨S8192x100, .f32⟩ : BufTy).Contents (Elt F) → (⟨S100x8192, .f32⟩ : BufTy).Contents (Elt F)),
    binary main_v166 main_arg3 main_v167 ((fun l r => Host.dotGeneral dot_S100x8192_S8192x8192_S100x8192_1_0_0_1_n_n none l r) : (⟨S100x8192, .f32⟩ : BufTy).Contents (Elt F) → (⟨S8192x8192, .f32⟩ : BufTy).Contents (Elt F) → (⟨S100x8192, .f32⟩ : BufTy).Contents (Elt F)),
    binary main_v167 main_v163 main_v168 ((fun l r => Host.dotGeneral dot_S100x8192_S8192x100_S100x100_1_0_0_1_n_n none l r) : (⟨S100x8192, .f32⟩ : BufTy).Contents (Elt F) → (⟨S8192x100, .f32⟩ : BufTy).Contents (Elt F) → (⟨S100x100, .f32⟩ : BufTy).Contents (Elt F)) ]
/-- The references it writes, in order. -/
noncomputable def rwr16 : List (Ref sig .tc) := [main_v166, main_v167, main_v168]

/-- Stretch rops17: operations 218 to 226 of this side of @main. -/
noncomputable abbrev rops17 : List (HloOp τ sig (Elt F)) :=
  [ unary main_v163 main_v169 ((transpose S100x8192 [1, 0] · transposes_S8192x100_S100x8192_1_0) : (⟨S8192x100, .f32⟩ : BufTy).Contents (Elt F) → (⟨S100x8192, .f32⟩ : BufTy).Contents (Elt F)),
    binary main_v163 main_v169 main_v170 ((fun l r => Host.dotGeneral dot_S8192x100_S100x8192_S8192x8192_1_0_0_1_n_n none l r) : (⟨S8192x100, .f32⟩ : BufTy).Contents (Elt F) → (⟨S100x8192, .f32⟩ : BufTy).Contents (Elt F) → (⟨S8192x8192, .f32⟩ : BufTy).Contents (Elt F)),
    binary main_arg3 main_v170 main_v171 (subf : (⟨S8192x8192, .f32⟩ : BufTy).Contents (Elt F) → (⟨S8192x8192, .f32⟩ : BufTy).Contents (Elt F) → (⟨S8192x8192, .f32⟩ : BufTy).Contents (Elt F)),
    binary main_v171 main_v171 main_v172 (mulf : (⟨S8192x8192, .f32⟩ : BufTy).Contents (Elt F) → (⟨S8192x8192, .f32⟩ : BufTy).Contents (Elt F) → (⟨S8192x8192, .f32⟩ : BufTy).Contents (Elt F)),
    nullary main_cst_37 (constant S_ .f32 0x00000000#32),
    binary main_v172 main_cst_37 main_v173 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    unary main_v173 main_v174 (Host.sqrt : (⟨S_, .f32⟩ : BufTy).Contents (Elt F) → (⟨S_, .f32⟩ : BufTy).Contents (Elt F)),
    nullary main_cst_38 (constant S_ .f32 0x4C800000#32),
    binary main_v174 main_cst_38 main_v175 (Host.divf : (⟨S_, .f32⟩ : BufTy).Contents (Elt F) → (⟨S_, .f32⟩ : BufTy).Contents (Elt F) → (⟨S_, .f32⟩ : BufTy).Contents (Elt F)) ]
/-- The references it writes, in order. -/
noncomputable def rwr17 : List (Ref sig .tc) := [main_v169, main_v170, main_v171, main_v172, main_cst_37, main_v173, main_v174, main_cst_38, main_v175]

/-- Stretch rops18: operations 227 to 238 of this side of @main. -/
noncomputable abbrev rops18 : List (HloOp τ sig (Elt F)) :=
  [ unary main_v163 main_v176 (Host.negf : (⟨S8192x100, .f32⟩ : BufTy).Contents (Elt F) → (⟨S8192x100, .f32⟩ : BufTy).Contents (Elt F)),
    nullary main_cst_39 (constant S_ .f32 0x26901D7D#32),
    unary main_cst_39 main_v177 (broadcastInDim S8192x100 ![] bcast_S_S8192x100 : (⟨S_, .f32⟩ : BufTy).Contents (Elt F) → (⟨S8192x100, .f32⟩ : BufTy).Contents (Elt F)),
    binary main_v163 main_v177 main_v178 (addf : (⟨S8192x100, .f32⟩ : BufTy).Contents (Elt F) → (⟨S8192x100, .f32⟩ : BufTy).Contents (Elt F) → (⟨S8192x100, .f32⟩ : BufTy).Contents (Elt F)),
    unary main_v178 main_v179 (Host.log : (⟨S8192x100, .f32⟩ : BufTy).Contents (Elt F) → (⟨S8192x100, .f32⟩ : BufTy).Contents (Elt F)),
    binary main_v176 main_v179 main_v180 (mulf : (⟨S8192x100, .f32⟩ : BufTy).Contents (Elt F) → (⟨S8192x100, .f32⟩ : BufTy).Contents (Elt F) → (⟨S8192x100, .f32⟩ : BufTy).Contents (Elt F)),
    nullary main_cst_40 (constant S_ .f32 0x00000000#32),
    binary main_v180 main_cst_40 main_v181 ((fun x v => Host.reduceAdd x v reducesTo_S8192x100_S8192_d1 h_S_) : (⟨S8192x100, .f32⟩ : BufTy).Contents (Elt F) → (⟨S_, .f32⟩ : BufTy).Contents (Elt F) → (⟨S8192, .f32⟩ : BufTy).Contents (Elt F)),
    nullary main_cst_41 (constant S_ .f32 0x00000000#32),
    binary main_v181 main_cst_41 main_v182 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_42 (constant S_ .f32 0x46000000#32),
    binary main_v182 main_cst_42 main_v183 (Host.divf : (⟨S_, .f32⟩ : BufTy).Contents (Elt F) → (⟨S_, .f32⟩ : BufTy).Contents (Elt F) → (⟨S_, .f32⟩ : BufTy).Contents (Elt F)) ]
/-- The references it writes, in order. -/
noncomputable def rwr18 : List (Ref sig .tc) := [main_v176, main_cst_39, main_v177, main_v178, main_v179, main_v180, main_cst_40, main_v181, main_cst_41, main_v182, main_cst_42, main_v183]

/-- Stretch rops19: operations 239 to 264 of this side of @main. -/
noncomputable abbrev rops19 : List (HloOp τ sig (Elt F)) :=
  [ nullary main_v184 (iotaInDim S100 32 0),
    nullary main_c_43 (constantI S_ 32 0#32),
    unary main_c_43 main_v185 (broadcastInDim S100 ![] bcast_S_S100 : (⟨S_, .i32⟩ : BufTy).Contents (Elt F) → (⟨S100, .i32⟩ : BufTy).Contents (Elt F)),
    binary main_v184 main_v185 main_v186 (cmpi .slt : (⟨S100, .i32⟩ : BufTy).Contents (Elt F) → (⟨S100, .i32⟩ : BufTy).Contents (Elt F) → (⟨S100, .i1⟩ : BufTy).Contents (Elt F)),
    nullary main_c_44 (constantI S_ 32 100#32),
    unary main_c_44 main_v187 (broadcastInDim S100 ![] bcast_S_S100 : (⟨S_, .i32⟩ : BufTy).Contents (Elt F) → (⟨S100, .i32⟩ : BufTy).Contents (Elt F)),
    binary main_v184 main_v187 main_v188 (addi : (⟨S100, .i32⟩ : BufTy).Contents (Elt F) → (⟨S100, .i32⟩ : BufTy).Contents (Elt F) → (⟨S100, .i32⟩ : BufTy).Contents (Elt F)),
    ternary main_v186 main_v188 main_v184 main_v189 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    nullary main_c_45 (constantI S_ 32 0#32),
    unary main_c_45 main_v190 (broadcastInDim S100 ![] bcast_S_S100 : (⟨S_, .i32⟩ : BufTy).Contents (Elt F) → (⟨S100, .i32⟩ : BufTy).Contents (Elt F)),
    binary main_v184 main_v190 main_v191 (cmpi .slt : (⟨S100, .i32⟩ : BufTy).Contents (Elt F) → (⟨S100, .i32⟩ : BufTy).Contents (Elt F) → (⟨S100, .i1⟩ : BufTy).Contents (Elt F)),
    nullary main_c_46 (constantI S_ 32 100#32),
    unary main_c_46 main_v192 (broadcastInDim S100 ![] bcast_S_S100 : (⟨S_, .i32⟩ : BufTy).Contents (Elt F) → (⟨S100, .i32⟩ : BufTy).Contents (Elt F)),
    binary main_v184 main_v192 main_v193 (addi : (⟨S100, .i32⟩ : BufTy).Contents (Elt F) → (⟨S100, .i32⟩ : BufTy).Contents (Elt F) → (⟨S100, .i32⟩ : BufTy).Contents (Elt F)),
    ternary main_v191 main_v193 main_v184 main_v194 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    unary main_v189 main_v195 (broadcastInDim S100x1 ![0] bcast_S100_S100x1_0 : (⟨S100, .i32⟩ : BufTy).Contents (Elt F) → (⟨S100x1, .i32⟩ : BufTy).Contents (Elt F)),
    unary main_v194 main_v196 (broadcastInDim S100x1 ![0] bcast_S100_S100x1_0 : (⟨S100, .i32⟩ : BufTy).Contents (Elt F) → (⟨S100x1, .i32⟩ : BufTy).Contents (Elt F)),
    binary main_v195 main_v196 main_v197 ((fun a b => concatenate S100x2 1 [⟨S100x1, a⟩, ⟨S100x1, b⟩] concatenates_S100x1_S100x1_S100x2_d1) : (⟨S100x1, .i32⟩ : BufTy).Contents (Elt F) → (⟨S100x1, .i32⟩ : BufTy).Contents (Elt F) → (⟨S100x2, .i32⟩ : BufTy).Contents (Elt F)),
    binary main_v168 main_v197 main_v198 ((fun x i => Host.gather gather_S100x100_S100x2_S100_n_01_n_n_01_1_11 x i) : (⟨S100x100, .f32⟩ : BufTy).Contents (Elt F) → (⟨S100x2, .i32⟩ : BufTy).Contents (Elt F) → (⟨S100, .f32⟩ : BufTy).Contents (Elt F)),
    nullary main_cst_47 (constant S_ .f32 0x00000000#32),
    unary main_cst_47 main_v199 (broadcastInDim S100 ![] bcast_S_S100 : (⟨S_, .f32⟩ : BufTy).Contents (Elt F) → (⟨S100, .f32⟩ : BufTy).Contents (Elt F)),
    binary main_v198 main_v199 main_v200 (cmpf .oeq : (⟨S100, .f32⟩ : BufTy).Contents (Elt F) → (⟨S100, .f32⟩ : BufTy).Contents (Elt F) → (⟨S100, .i1⟩ : BufTy).Contents (Elt F)),
    nullary main_cst_48 (constant S_ .f32 0x3F800000#32),
    TRef.unary (TRef.of (T := ⟨S_, .f32⟩) main_cst_48) (TRef.of (T := ⟨S_, .f32⟩) main_call5_v0) id,
    TRef.unary (TRef.of (T := ⟨S_, .f32⟩) main_call5_v0) (TRef.of (T := ⟨S100, .f32⟩) main_call5_v1) (broadcastInDim S100 ![] bcast_S_S100),
    TRef.ternary (TRef.of (T := ⟨S100, .i1⟩) main_v200) (TRef.of (T := ⟨S100, .f32⟩) main_call5_v1) (TRef.of (T := ⟨S100, .f32⟩) main_v198) (TRef.of (T := ⟨S100, .f32⟩) main_v201) select ]
/-- The references it writes, in order. -/
noncomputable def rwr19 : List (Ref sig .tc) := [main_v184, main_c_43, main_v185, main_v186, main_c_44, main_v187, main_v188, main_v189, main_c_45, main_v190, main_v191, main_c_46, main_v192, main_v193, main_v194, main_v195, main_v196, main_v197, main_v198, main_cst_47, main_v199, main_v200, main_cst_48, main_call5_v0, main_call5_v1, main_v201]

/-- Stretch rops20: operations 265 to 282 of this side of @main. -/
noncomputable abbrev rops20 : List (HloOp τ sig (Elt F)) :=
  [ nullary main_c_49 (constantI S_ 32 0#32),
    unary main_c_49 main_v202 (broadcastInDim S100 ![] bcast_S_S100 : (⟨S_, .i32⟩ : BufTy).Contents (Elt F) → (⟨S100, .i32⟩ : BufTy).Contents (Elt F)),
    binary main_v184 main_v202 main_v203 (cmpi .slt : (⟨S100, .i32⟩ : BufTy).Contents (Elt F) → (⟨S100, .i32⟩ : BufTy).Contents (Elt F) → (⟨S100, .i1⟩ : BufTy).Contents (Elt F)),
    nullary main_c_50 (constantI S_ 32 100#32),
    unary main_c_50 main_v204 (broadcastInDim S100 ![] bcast_S_S100 : (⟨S_, .i32⟩ : BufTy).Contents (Elt F) → (⟨S100, .i32⟩ : BufTy).Contents (Elt F)),
    binary main_v184 main_v204 main_v205 (addi : (⟨S100, .i32⟩ : BufTy).Contents (Elt F) → (⟨S100, .i32⟩ : BufTy).Contents (Elt F) → (⟨S100, .i32⟩ : BufTy).Contents (Elt F)),
    ternary main_v203 main_v205 main_v184 main_v206 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    nullary main_c_51 (constantI S_ 32 0#32),
    unary main_c_51 main_v207 (broadcastInDim S100 ![] bcast_S_S100 : (⟨S_, .i32⟩ : BufTy).Contents (Elt F) → (⟨S100, .i32⟩ : BufTy).Contents (Elt F)),
    binary main_v184 main_v207 main_v208 (cmpi .slt : (⟨S100, .i32⟩ : BufTy).Contents (Elt F) → (⟨S100, .i32⟩ : BufTy).Contents (Elt F) → (⟨S100, .i1⟩ : BufTy).Contents (Elt F)),
    nullary main_c_52 (constantI S_ 32 100#32),
    unary main_c_52 main_v209 (broadcastInDim S100 ![] bcast_S_S100 : (⟨S_, .i32⟩ : BufTy).Contents (Elt F) → (⟨S100, .i32⟩ : BufTy).Contents (Elt F)),
    binary main_v184 main_v209 main_v210 (addi : (⟨S100, .i32⟩ : BufTy).Contents (Elt F) → (⟨S100, .i32⟩ : BufTy).Contents (Elt F) → (⟨S100, .i32⟩ : BufTy).Contents (Elt F)),
    ternary main_v208 main_v210 main_v184 main_v211 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    unary main_v206 main_v212 (broadcastInDim S100x1 ![0] bcast_S100_S100x1_0 : (⟨S100, .i32⟩ : BufTy).Contents (Elt F) → (⟨S100x1, .i32⟩ : BufTy).Contents (Elt F)),
    unary main_v211 main_v213 (broadcastInDim S100x1 ![0] bcast_S100_S100x1_0 : (⟨S100, .i32⟩ : BufTy).Contents (Elt F) → (⟨S100x1, .i32⟩ : BufTy).Contents (Elt F)),
    binary main_v212 main_v213 main_v214 ((fun a b => concatenate S100x2 1 [⟨S100x1, a⟩, ⟨S100x1, b⟩] concatenates_S100x1_S100x1_S100x2_d1) : (⟨S100x1, .i32⟩ : BufTy).Contents (Elt F) → (⟨S100x1, .i32⟩ : BufTy).Contents (Elt F) → (⟨S100x2, .i32⟩ : BufTy).Contents (Elt F)),
    ternary main_v168 main_v214 main_v201 main_v215 ((fun x i u => Host.scatter scatter_S100x100_S100x2_S100_n_01_01_1 (fun _ b => b) x i u) : (⟨S100x100, .f32⟩ : BufTy).Contents (Elt F) → (⟨S100x2, .i32⟩ : BufTy).Contents (Elt F) → (⟨S100, .f32⟩ : BufTy).Contents (Elt F) → (⟨S100x100, .f32⟩ : BufTy).Contents (Elt F)) ]
/-- The references it writes, in order. -/
noncomputable def rwr20 : List (Ref sig .tc) := [main_c_49, main_v202, main_v203, main_c_50, main_v204, main_v205, main_v206, main_c_51, main_v207, main_v208, main_c_52, main_v209, main_v210, main_v211, main_v212, main_v213, main_v214, main_v215]

/-- Stretch rops21: operations 283 to 295 of this side of @main. -/
noncomputable abbrev rops21 : List (HloOp τ sig (Elt F)) :=
  [ nullary main_cst_53 (constant S_ .f32 0x00000000#32),
    binary main_v215 main_cst_53 main_v216 ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)),
    nullary main_cst_54 (constant S_ .f32 0x00000000#32),
    unary main_cst_54 main_v217 (broadcastInDim S100 ![] bcast_S_S100 : (⟨S_, .f32⟩ : BufTy).Contents (Elt F) → (⟨S100, .f32⟩ : BufTy).Contents (Elt F)),
    binary main_v216 main_v217 main_v218 (cmpf .ogt : (⟨S100, .f32⟩ : BufTy).Contents (Elt F) → (⟨S100, .f32⟩ : BufTy).Contents (Elt F) → (⟨S100, .i1⟩ : BufTy).Contents (Elt F)),
    nullary main_cst_55 (constant S_ .f32 0x2B8CBCCC#32),
    unary main_cst_55 main_v219 (broadcastInDim S100 ![] bcast_S_S100 : (⟨S_, .f32⟩ : BufTy).Contents (Elt F) → (⟨S100, .f32⟩ : BufTy).Contents (Elt F)),
    binary main_v216 main_v219 main_v220 (maximumf : (⟨S100, .f32⟩ : BufTy).Contents (Elt F) → (⟨S100, .f32⟩ : BufTy).Contents (Elt F) → (⟨S100, .f32⟩ : BufTy).Contents (Elt F)),
    unary main_v220 main_v221 (Host.rsqrt : (⟨S100, .f32⟩ : BufTy).Contents (Elt F) → (⟨S100, .f32⟩ : BufTy).Contents (Elt F)),
    nullary main_cst_56 (constant S_ .f32 0x00000000#32),
    TRef.unary (TRef.of (T := ⟨S_, .f32⟩) main_cst_56) (TRef.of (T := ⟨S_, .f32⟩) main_call6_v0) id,
    TRef.unary (TRef.of (T := ⟨S_, .f32⟩) main_call6_v0) (TRef.of (T := ⟨S100, .f32⟩) main_call6_v1) (broadcastInDim S100 ![] bcast_S_S100),
    TRef.ternary (TRef.of (T := ⟨S100, .i1⟩) main_v218) (TRef.of (T := ⟨S100, .f32⟩) main_v221) (TRef.of (T := ⟨S100, .f32⟩) main_call6_v1) (TRef.of (T := ⟨S100, .f32⟩) main_v222) select ]
/-- The references it writes, in order. -/
noncomputable def rwr21 : List (Ref sig .tc) := [main_cst_53, main_v216, main_cst_54, main_v217, main_v218, main_cst_55, main_v219, main_v220, main_v221, main_cst_56, main_call6_v0, main_call6_v1, main_v222]

/-- Stretch rops22: operations 296 to 309 of this side of @main. -/
noncomputable abbrev rops22 : List (HloOp τ sig (Elt F)) :=
  [ unary main_v222 main_v223 (broadcastInDim S100x1 ![0] bcast_S100_S100x1_0 : (⟨S100, .f32⟩ : BufTy).Contents (Elt F) → (⟨S100x1, .f32⟩ : BufTy).Contents (Elt F)),
    unary main_v223 main_v224 (broadcastInDim S100x100 ![0, 1] bcast_S100x1_S100x100_0_1 : (⟨S100x1, .f32⟩ : BufTy).Contents (Elt F) → (⟨S100x100, .f32⟩ : BufTy).Contents (Elt F)),
    binary main_v224 main_v215 main_v225 (mulf : (⟨S100x100, .f32⟩ : BufTy).Contents (Elt F) → (⟨S100x100, .f32⟩ : BufTy).Contents (Elt F) → (⟨S100x100, .f32⟩ : BufTy).Contents (Elt F)),
    unary main_v222 main_v226 (broadcastInDim S1x100 ![1] bcast_S100_S1x100_1 : (⟨S100, .f32⟩ : BufTy).Contents (Elt F) → (⟨S1x100, .f32⟩ : BufTy).Contents (Elt F)),
    unary main_v226 main_v227 (broadcastInDim S100x100 ![0, 1] bcast_S1x100_S100x100_0_1 : (⟨S1x100, .f32⟩ : BufTy).Contents (Elt F) → (⟨S100x100, .f32⟩ : BufTy).Contents (Elt F)),
    binary main_v225 main_v227 main_v228 (mulf : (⟨S100x100, .f32⟩ : BufTy).Contents (Elt F) → (⟨S100x100, .f32⟩ : BufTy).Contents (Elt F) → (⟨S100x100, .f32⟩ : BufTy).Contents (Elt F)),
    binary main_v165 main_arg11 main_v229 ((fun l r => Host.dotGeneral dot_S100x512_S512x16_S100x16_1_0_0_1_n_n none l r) : (⟨S100x512, .f32⟩ : BufTy).Contents (Elt F) → (⟨S512x16, .f32⟩ : BufTy).Contents (Elt F) → (⟨S100x16, .f32⟩ : BufTy).Contents (Elt F)),
    binary main_v228 main_v229 main_v230 ((fun l r => Host.dotGeneral dot_S100x100_S100x16_S100x16_1_0_0_1_n_n none l r) : (⟨S100x100, .f32⟩ : BufTy).Contents (Elt F) → (⟨S100x16, .f32⟩ : BufTy).Contents (Elt F) → (⟨S100x16, .f32⟩ : BufTy).Contents (Elt F)),
    unary main_arg12 main_v231 (broadcastInDim S1x16 ![1] bcast_S16_S1x16_1 : (⟨S16, .f32⟩ : BufTy).Contents (Elt F) → (⟨S1x16, .f32⟩ : BufTy).Contents (Elt F)),
    unary main_v231 main_v232 (broadcastInDim S100x16 ![0, 1] bcast_S1x16_S100x16_0_1 : (⟨S1x16, .f32⟩ : BufTy).Contents (Elt F) → (⟨S100x16, .f32⟩ : BufTy).Contents (Elt F)),
    binary main_v230 main_v232 main_v233 (addf : (⟨S100x16, .f32⟩ : BufTy).Contents (Elt F) → (⟨S100x16, .f32⟩ : BufTy).Contents (Elt F) → (⟨S100x16, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100x16, .f32⟩) main_call7_v0) (broadcastInDim S100x16 ![] bcast_S_S100x16),
    TRef.binary (TRef.of (T := ⟨S100x16, .f32⟩) main_v233) (TRef.of (T := ⟨S100x16, .f32⟩) main_call7_v0) (TRef.of (T := ⟨S100x16, .f32⟩) main_v234) maximumf ]
/-- The references it writes, in order. -/
noncomputable def rwr22 : List (Ref sig .tc) := [main_v223, main_v224, main_v225, main_v226, main_v227, main_v228, main_v229, main_v230, main_v231, main_v232, main_v233, main_call7_cst, main_call7_v0, main_v234]

/-- Stretch rops23: operations 310 to 335 of this side of @main. -/
noncomputable abbrev rops23 : List (HloOp τ sig (Elt F)) :=
  [ nullary main_v235 (iotaInDim S100 32 0),
    nullary main_c_57 (constantI S_ 32 0#32),
    unary main_c_57 main_v236 (broadcastInDim S100 ![] bcast_S_S100 : (⟨S_, .i32⟩ : BufTy).Contents (Elt F) → (⟨S100, .i32⟩ : BufTy).Contents (Elt F)),
    binary main_v235 main_v236 main_v237 (cmpi .slt : (⟨S100, .i32⟩ : BufTy).Contents (Elt F) → (⟨S100, .i32⟩ : BufTy).Contents (Elt F) → (⟨S100, .i1⟩ : BufTy).Contents (Elt F)),
    nullary main_c_58 (constantI S_ 32 100#32),
    unary main_c_58 main_v238 (broadcastInDim S100 ![] bcast_S_S100 : (⟨S_, .i32⟩ : BufTy).Contents (Elt F) → (⟨S100, .i32⟩ : BufTy).Contents (Elt F)),
    binary main_v235 main_v238 main_v239 (addi : (⟨S100, .i32⟩ : BufTy).Contents (Elt F) → (⟨S100, .i32⟩ : BufTy).Contents (Elt F) → (⟨S100, .i32⟩ : BufTy).Contents (Elt F)),
    ternary main_v237 main_v239 main_v235 main_v240 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    nullary main_c_59 (constantI S_ 32 0#32),
    unary main_c_59 main_v241 (broadcastInDim S100 ![] bcast_S_S100 : (⟨S_, .i32⟩ : BufTy).Contents (Elt F) → (⟨S100, .i32⟩ : BufTy).Contents (Elt F)),
    binary main_v235 main_v241 main_v242 (cmpi .slt : (⟨S100, .i32⟩ : BufTy).Contents (Elt F) → (⟨S100, .i32⟩ : BufTy).Contents (Elt F) → (⟨S100, .i1⟩ : BufTy).Contents (Elt F)),
    nullary main_c_60 (constantI S_ 32 100#32),
    unary main_c_60 main_v243 (broadcastInDim S100 ![] bcast_S_S100 : (⟨S_, .i32⟩ : BufTy).Contents (Elt F) → (⟨S100, .i32⟩ : BufTy).Contents (Elt F)),
    binary main_v235 main_v243 main_v244 (addi : (⟨S100, .i32⟩ : BufTy).Contents (Elt F) → (⟨S100, .i32⟩ : BufTy).Contents (Elt F) → (⟨S100, .i32⟩ : BufTy).Contents (Elt F)),
    ternary main_v242 main_v244 main_v235 main_v245 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    unary main_v240 main_v246 (broadcastInDim S100x1 ![0] bcast_S100_S100x1_0 : (⟨S100, .i32⟩ : BufTy).Contents (Elt F) → (⟨S100x1, .i32⟩ : BufTy).Contents (Elt F)),
    unary main_v245 main_v247 (broadcastInDim S100x1 ![0] bcast_S100_S100x1_0 : (⟨S100, .i32⟩ : BufTy).Contents (Elt F) → (⟨S100x1, .i32⟩ : BufTy).Contents (Elt F)),
    binary main_v246 main_v247 main_v248 ((fun a b => concatenate S100x2 1 [⟨S100x1, a⟩, ⟨S100x1, b⟩] concatenates_S100x1_S100x1_S100x2_d1) : (⟨S100x1, .i32⟩ : BufTy).Contents (Elt F) → (⟨S100x1, .i32⟩ : BufTy).Contents (Elt F) → (⟨S100x2, .i32⟩ : BufTy).Contents (Elt F)),
    binary main_v168 main_v248 main_v249 ((fun x i => Host.gather gather_S100x100_S100x2_S100_n_01_n_n_01_1_11 x i) : (⟨S100x100, .f32⟩ : BufTy).Contents (Elt F) → (⟨S100x2, .i32⟩ : BufTy).Contents (Elt F) → (⟨S100, .f32⟩ : BufTy).Contents (Elt F)),
    nullary main_cst_61 (constant S_ .f32 0x00000000#32),
    unary main_cst_61 main_v250 (broadcastInDim S100 ![] bcast_S_S100 : (⟨S_, .f32⟩ : BufTy).Contents (Elt F) → (⟨S100, .f32⟩ : BufTy).Contents (Elt F)),
    binary main_v249 main_v250 main_v251 (cmpf .oeq : (⟨S100, .f32⟩ : BufTy).Contents (Elt F) → (⟨S100, .f32⟩ : BufTy).Contents (Elt F) → (⟨S100, .i1⟩ : BufTy).Contents (Elt F)),
    nullary main_cst_62 (constant S_ .f32 0x3F800000#32),
    TRef.unary (TRef.of (T := ⟨S_, .f32⟩) main_cst_62) (TRef.of (T := ⟨S_, .f32⟩) main_call8_v0) id,
    TRef.unary (TRef.of (T := ⟨S_, .f32⟩) main_call8_v0) (TRef.of (T := ⟨S100, .f32⟩) main_call8_v1) (broadcastInDim S100 ![] bcast_S_S100),
    TRef.ternary (TRef.of (T := ⟨S100, .i1⟩) main_v251) (TRef.of (T := ⟨S100, .f32⟩) main_call8_v1) (TRef.of (T := ⟨S100, .f32⟩) main_v249) (TRef.of (T := ⟨S100, .f32⟩) main_v252) select ]
/-- The references it writes, in order. -/
noncomputable def rwr23 : List (Ref sig .tc) := [main_v235, main_c_57, main_v236, main_v237, main_c_58, main_v238, main_v239, main_v240, main_c_59, main_v241, main_v242, main_c_60, main_v243, main_v244, main_v245, main_v246, main_v247, main_v248, main_v249, main_cst_61, main_v250, main_v251, main_cst_62, main_call8_v0, main_call8_v1, main_v252]

/-- Stretch rops24: operations 336 to 353 of this side of @main. -/
noncomputable abbrev rops24 : List (HloOp τ sig (Elt F)) :=
  [ nullary main_c_63 (constantI S_ 32 0#32),
    unary main_c_63 main_v253 (broadcastInDim S100 ![] bcast_S_S100 : (⟨S_, .i32⟩ : BufTy).Contents (Elt F) → (⟨S100, .i32⟩ : BufTy).Contents (Elt F)),
    binary main_v235 main_v253 main_v254 (cmpi .slt : (⟨S100, .i32⟩ : BufTy).Contents (Elt F) → (⟨S100, .i32⟩ : BufTy).Contents (Elt F) → (⟨S100, .i1⟩ : BufTy).Contents (Elt F)),
    nullary main_c_64 (constantI S_ 32 100#32),
    unary main_c_64 main_v255 (broadcastInDim S100 ![] bcast_S_S100 : (⟨S_, .i32⟩ : BufTy).Contents (Elt F) → (⟨S100, .i32⟩ : BufTy).Contents (Elt F)),
    binary main_v235 main_v255 main_v256 (addi : (⟨S100, .i32⟩ : BufTy).Contents (Elt F) → (⟨S100, .i32⟩ : BufTy).Contents (Elt F) → (⟨S100, .i32⟩ : BufTy).Contents (Elt F)),
    ternary main_v254 main_v256 main_v235 main_v257 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    nullary main_c_65 (constantI S_ 32 0#32),
    unary main_c_65 main_v258 (broadcastInDim S100 ![] bcast_S_S100 : (⟨S_, .i32⟩ : BufTy).Contents (Elt F) → (⟨S100, .i32⟩ : BufTy).Contents (Elt F)),
    binary main_v235 main_v258 main_v259 (cmpi .slt : (⟨S100, .i32⟩ : BufTy).Contents (Elt F) → (⟨S100, .i32⟩ : BufTy).Contents (Elt F) → (⟨S100, .i1⟩ : BufTy).Contents (Elt F)),
    nullary main_c_66 (constantI S_ 32 100#32),
    unary main_c_66 main_v260 (broadcastInDim S100 ![] bcast_S_S100 : (⟨S_, .i32⟩ : BufTy).Contents (Elt F) → (⟨S100, .i32⟩ : BufTy).Contents (Elt F)),
    binary main_v235 main_v260 main_v261 (addi : (⟨S100, .i32⟩ : BufTy).Contents (Elt F) → (⟨S100, .i32⟩ : BufTy).Contents (Elt F) → (⟨S100, .i32⟩ : BufTy).Contents (Elt F)),
    ternary main_v259 main_v261 main_v235 main_v262 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    unary main_v257 main_v263 (broadcastInDim S100x1 ![0] bcast_S100_S100x1_0 : (⟨S100, .i32⟩ : BufTy).Contents (Elt F) → (⟨S100x1, .i32⟩ : BufTy).Contents (Elt F)),
    unary main_v262 main_v264 (broadcastInDim S100x1 ![0] bcast_S100_S100x1_0 : (⟨S100, .i32⟩ : BufTy).Contents (Elt F) → (⟨S100x1, .i32⟩ : BufTy).Contents (Elt F)),
    binary main_v263 main_v264 main_v265 ((fun a b => concatenate S100x2 1 [⟨S100x1, a⟩, ⟨S100x1, b⟩] concatenates_S100x1_S100x1_S100x2_d1) : (⟨S100x1, .i32⟩ : BufTy).Contents (Elt F) → (⟨S100x1, .i32⟩ : BufTy).Contents (Elt F) → (⟨S100x2, .i32⟩ : BufTy).Contents (Elt F)),
    ternary main_v168 main_v265 main_v252 main_v266 ((fun x i u => Host.scatter scatter_S100x100_S100x2_S100_n_01_01_1 (fun _ b => b) x i u) : (⟨S100x100, .f32⟩ : BufTy).Contents (Elt F) → (⟨S100x2, .i32⟩ : BufTy).Contents (Elt F) → (⟨S100, .f32⟩ : BufTy).Contents (Elt F) → (⟨S100x100, .f32⟩ : BufTy).Contents (Elt F)) ]
/-- The references it writes, in order. -/
noncomputable def rwr24 : List (Ref sig .tc) := [main_c_63, main_v253, main_v254, main_c_64, main_v255, main_v256, main_v257, main_c_65, main_v258, main_v259, main_c_66, main_v260, main_v261, main_v262, main_v263, main_v264, main_v265, main_v266]

/-- Stretch rops25: operations 354 to 366 of this side of @main. -/
noncomputable abbrev rops25 : List (HloOp τ sig (Elt F)) :=
  [ nullary main_cst_67 (constant S_ .f32 0x00000000#32),
    binary main_v266 main_cst_67 main_v267 ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)),
    nullary main_cst_68 (constant S_ .f32 0x00000000#32),
    unary main_cst_68 main_v268 (broadcastInDim S100 ![] bcast_S_S100 : (⟨S_, .f32⟩ : BufTy).Contents (Elt F) → (⟨S100, .f32⟩ : BufTy).Contents (Elt F)),
    binary main_v267 main_v268 main_v269 (cmpf .ogt : (⟨S100, .f32⟩ : BufTy).Contents (Elt F) → (⟨S100, .f32⟩ : BufTy).Contents (Elt F) → (⟨S100, .i1⟩ : BufTy).Contents (Elt F)),
    nullary main_cst_69 (constant S_ .f32 0x2B8CBCCC#32),
    unary main_cst_69 main_v270 (broadcastInDim S100 ![] bcast_S_S100 : (⟨S_, .f32⟩ : BufTy).Contents (Elt F) → (⟨S100, .f32⟩ : BufTy).Contents (Elt F)),
    binary main_v267 main_v270 main_v271 (maximumf : (⟨S100, .f32⟩ : BufTy).Contents (Elt F) → (⟨S100, .f32⟩ : BufTy).Contents (Elt F) → (⟨S100, .f32⟩ : BufTy).Contents (Elt F)),
    unary main_v271 main_v272 (Host.rsqrt : (⟨S100, .f32⟩ : BufTy).Contents (Elt F) → (⟨S100, .f32⟩ : BufTy).Contents (Elt F)),
    nullary main_cst_70 (constant S_ .f32 0x00000000#32),
    TRef.unary (TRef.of (T := ⟨S_, .f32⟩) main_cst_70) (TRef.of (T := ⟨S_, .f32⟩) main_call9_v0) id,
    TRef.unary (TRef.of (T := ⟨S_, .f32⟩) main_call9_v0) (TRef.of (T := ⟨S100, .f32⟩) main_call9_v1) (broadcastInDim S100 ![] bcast_S_S100),
    TRef.ternary (TRef.of (T := ⟨S100, .i1⟩) main_v269) (TRef.of (T := ⟨S100, .f32⟩) main_v272) (TRef.of (T := ⟨S100, .f32⟩) main_call9_v1) (TRef.of (T := ⟨S100, .f32⟩) main_v273) select ]
/-- The references it writes, in order. -/
noncomputable def rwr25 : List (Ref sig .tc) := [main_cst_67, main_v267, main_cst_68, main_v268, main_v269, main_cst_69, main_v270, main_v271, main_v272, main_cst_70, main_call9_v0, main_call9_v1, main_v273]

/-- Stretch rops26: operations 367 to 377 of this side of @main. -/
noncomputable abbrev rops26 : List (HloOp τ sig (Elt F)) :=
  [ unary main_v273 main_v274 (broadcastInDim S100x1 ![0] bcast_S100_S100x1_0 : (⟨S100, .f32⟩ : BufTy).Contents (Elt F) → (⟨S100x1, .f32⟩ : BufTy).Contents (Elt F)),
    unary main_v274 main_v275 (broadcastInDim S100x100 ![0, 1] bcast_S100x1_S100x100_0_1 : (⟨S100x1, .f32⟩ : BufTy).Contents (Elt F) → (⟨S100x100, .f32⟩ : BufTy).Contents (Elt F)),
    binary main_v275 main_v266 main_v276 (mulf : (⟨S100x100, .f32⟩ : BufTy).Contents (Elt F) → (⟨S100x100, .f32⟩ : BufTy).Contents (Elt F) → (⟨S100x100, .f32⟩ : BufTy).Contents (Elt F)),
    unary main_v273 main_v277 (broadcastInDim S1x100 ![1] bcast_S100_S1x100_1 : (⟨S100, .f32⟩ : BufTy).Contents (Elt F) → (⟨S1x100, .f32⟩ : BufTy).Contents (Elt F)),
    unary main_v277 main_v278 (broadcastInDim S100x100 ![0, 1] bcast_S1x100_S100x100_0_1 : (⟨S1x100, .f32⟩ : BufTy).Contents (Elt F) → (⟨S100x100, .f32⟩ : BufTy).Contents (Elt F)),
    binary main_v276 main_v278 main_v279 (mulf : (⟨S100x100, .f32⟩ : BufTy).Contents (Elt F) → (⟨S100x100, .f32⟩ : BufTy).Contents (Elt F) → (⟨S100x100, .f32⟩ : BufTy).Contents (Elt F)),
    binary main_v234 main_arg13 main_v280 ((fun l r => Host.dotGeneral dot_S100x16_S16x100_S100x100_1_0_0_1_n_n none l r) : (⟨S100x16, .f32⟩ : BufTy).Contents (Elt F) → (⟨S16x100, .f32⟩ : BufTy).Contents (Elt F) → (⟨S100x100, .f32⟩ : BufTy).Contents (Elt F)),
    binary main_v279 main_v280 main_v281 ((fun l r => Host.dotGeneral dot_S100x100_S100x100_S100x100_1_0_0_1_n_n none l r) : (⟨S100x100, .f32⟩ : BufTy).Contents (Elt F) → (⟨S100x100, .f32⟩ : BufTy).Contents (Elt F) → (⟨S100x100, .f32⟩ : BufTy).Contents (Elt F)),
    unary main_arg14 main_v282 (broadcastInDim S1x100 ![1] bcast_S100_S1x100_1 : (⟨S100, .f32⟩ : BufTy).Contents (Elt F) → (⟨S1x100, .f32⟩ : BufTy).Contents (Elt F)),
    unary main_v282 main_v283 (broadcastInDim S100x100 ![0, 1] bcast_S1x100_S100x100_0_1 : (⟨S1x100, .f32⟩ : BufTy).Contents (Elt F) → (⟨S100x100, .f32⟩ : BufTy).Contents (Elt F)),
    binary main_v281 main_v283 main_v284 (addf : (⟨S100x100, .f32⟩ : BufTy).Contents (Elt F) → (⟨S100x100, .f32⟩ : BufTy).Contents (Elt F) → (⟨S100x100, .f32⟩ : BufTy).Contents (Elt F)) ]
/-- The references it writes, in order. -/
noncomputable def rwr26 : List (Ref sig .tc) := [main_v274, main_v275, main_v276, main_v277, main_v278, main_v279, main_v280, main_v281, main_v282, main_v283, main_v284]

/-- Stretch rops27: operations 378 to 379 of this side of @main. -/
noncomputable abbrev rops27 : List (HloOp τ sig (Elt F)) :=
  [ binary main_v146 main_v284 main_v285 ((fun l r => Host.dotGeneral dot_S8192x100_S100x100_S8192x100_1_0_0_1_n_n none l r) : (⟨S8192x100, .f32⟩ : BufTy).Contents (Elt F) → (⟨S100x100, .f32⟩ : BufTy).Contents (Elt F) → (⟨S8192x100, .f32⟩ : BufTy).Contents (Elt F)),
    binary main_v98 main_v285 main_v286 ((fun a b => concatenate S8192x110 1 [⟨S8192x10, a⟩, ⟨S8192x100, b⟩] concatenates_S8192x10_S8192x100_S8192x110_d1) : (⟨S8192x10, .f32⟩ : BufTy).Contents (Elt F) → (⟨S8192x100, .f32⟩ : BufTy).Contents (Elt F) → (⟨S8192x110, .f32⟩ : BufTy).Contents (Elt F)) ]
/-- The references it writes, in order. -/
noncomputable def rwr27 : List (Ref sig .tc) := [main_v285, main_v286]

/-- Stretch rops28: operations 380 to 387 of this side of @main. -/
noncomputable abbrev rops28 : List (HloOp τ sig (Elt F)) :=
  [ nullary main_cst_71 (constant S_ .f32 0x3F800000#32),
    unary main_cst_71 main_v287 (broadcastInDim S262144 ![] bcast_S_S262144 : (⟨S_, .f32⟩ : BufTy).Contents (Elt F) → (⟨S262144, .f32⟩ : BufTy).Contents (Elt F)),
    nullary main_v288 (iotaInDim S8192 32 0),
    binary main_v1 main_v288 main_v289 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v288 main_v290 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_72 (constant S_ .f32 0x3F800000#32),
    unary main_cst_72 main_v291 (broadcastInDim S8192 ![] bcast_S_S8192 : (⟨S_, .f32⟩ : BufTy).Contents (Elt F) → (⟨S8192, .f32⟩ : BufTy).Contents (Elt F)),
    binary main_v287 main_v291 main_v292 ((fun a b => concatenate S270336 0 [⟨S262144, a⟩, ⟨S8192, b⟩] concatenates_S262144_S8192_S270336_d0) : (⟨S262144, .f32⟩ : BufTy).Contents (Elt F) → (⟨S8192, .f32⟩ : BufTy).Contents (Elt F) → (⟨S270336, .f32⟩ : BufTy).Contents (Elt F)) ]
/-- The references it writes, in order. -/
noncomputable def rwr28 : List (Ref sig .tc) := [main_cst_71, main_v287, main_v288, main_v289, main_v290, main_cst_72, main_v291, main_v292]

/-- Stretch rops29: operations 388 to 402 of this side of @main. -/
noncomputable abbrev rops29 : List (HloOp τ sig (Elt F)) :=
  [ nullary main_cst_73 (constant S_ .f32 0x00000000#32),
    unary main_cst_73 main_v293 (broadcastInDim S8192 ![] bcast_S_S8192 : (⟨S_, .f32⟩ : BufTy).Contents (Elt F) → (⟨S8192, .f32⟩ : BufTy).Contents (Elt F)),
    unary main_v290 main_v294 (broadcastInDim S270336x1 ![0] bcast_S270336_S270336x1_0 : (⟨S270336, .i32⟩ : BufTy).Contents (Elt F) → (⟨S270336x1, .i32⟩ : BufTy).Contents (Elt F)),
    ternary main_v293 main_v294 main_v292 main_v295 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_74 (constant S_ .f32 0x00000000#32),
    unary main_cst_74 main_v296 (broadcastInDim S8192 ![] bcast_S_S8192 : (⟨S_, .f32⟩ : BufTy).Contents (Elt F) → (⟨S8192, .f32⟩ : BufTy).Contents (Elt F)),
    binary main_v295 main_v296 main_v297 (cmpf .ogt : (⟨S8192, .f32⟩ : BufTy).Contents (Elt F) → (⟨S8192, .f32⟩ : BufTy).Contents (Elt F) → (⟨S8192, .i1⟩ : BufTy).Contents (Elt F)),
    nullary main_cst_75 (constant S_ .f32 0x2B8CBCCC#32),
    unary main_cst_75 main_v298 (broadcastInDim S8192 ![] bcast_S_S8192 : (⟨S_, .f32⟩ : BufTy).Contents (Elt F) → (⟨S8192, .f32⟩ : BufTy).Contents (Elt F)),
    binary main_v295 main_v298 main_v299 (maximumf : (⟨S8192, .f32⟩ : BufTy).Contents (Elt F) → (⟨S8192, .f32⟩ : BufTy).Contents (Elt F) → (⟨S8192, .f32⟩ : BufTy).Contents (Elt F)),
    unary main_v299 main_v300 (Host.rsqrt : (⟨S8192, .f32⟩ : BufTy).Contents (Elt F) → (⟨S8192, .f32⟩ : BufTy).Contents (Elt F)),
    nullary main_cst_76 (constant S_ .f32 0x00000000#32),
    TRef.unary (TRef.of (T := ⟨S_, .f32⟩) main_cst_76) (TRef.of (T := ⟨S_, .f32⟩) main_call10_v0) id,
    TRef.unary (TRef.of (T := ⟨S_, .f32⟩) main_call10_v0) (TRef.of (T := ⟨S8192, .f32⟩) main_call10_v1) (broadcastInDim S8192 ![] bcast_S_S8192),
    TRef.ternary (TRef.of (T := ⟨S8192, .i1⟩) main_v297) (TRef.of (T := ⟨S8192, .f32⟩) main_v300) (TRef.of (T := ⟨S8192, .f32⟩) main_call10_v1) (TRef.of (T := ⟨S8192, .f32⟩) main_v301) select ]
/-- The references it writes, in order. -/
noncomputable def rwr29 : List (Ref sig .tc) := [main_cst_73, main_v293, main_v294, main_v295, main_cst_74, main_v296, main_v297, main_cst_75, main_v298, main_v299, main_v300, main_cst_76, main_call10_v0, main_call10_v1, main_v301]

/-- Stretch rops30: operations 403 to 422 of this side of @main. -/
noncomputable abbrev rops30 : List (HloOp τ sig (Elt F)) :=
  [ nullary main_c_77 (constantI S_ 32 0#32),
    unary main_c_77 main_v302 (broadcastInDim S270336 ![] bcast_S_S270336 : (⟨S_, .i32⟩ : BufTy).Contents (Elt F) → (⟨S270336, .i32⟩ : BufTy).Contents (Elt F)),
    binary main_v289 main_v302 main_v303 (cmpi .slt : (⟨S270336, .i32⟩ : BufTy).Contents (Elt F) → (⟨S270336, .i32⟩ : BufTy).Contents (Elt F) → (⟨S270336, .i1⟩ : BufTy).Contents (Elt F)),
    nullary main_c_78 (constantI S_ 32 8192#32),
    unary main_c_78 main_v304 (broadcastInDim S270336 ![] bcast_S_S270336 : (⟨S_, .i32⟩ : BufTy).Contents (Elt F) → (⟨S270336, .i32⟩ : BufTy).Contents (Elt F)),
    binary main_v289 main_v304 main_v305 (addi : (⟨S270336, .i32⟩ : BufTy).Contents (Elt F) → (⟨S270336, .i32⟩ : BufTy).Contents (Elt F) → (⟨S270336, .i32⟩ : BufTy).Contents (Elt F)),
    ternary main_v303 main_v305 main_v289 main_v306 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v306 main_v307 (broadcastInDim S270336x1 ![0] bcast_S270336_S270336x1_0 : (⟨S270336, .i32⟩ : BufTy).Contents (Elt F) → (⟨S270336x1, .i32⟩ : BufTy).Contents (Elt F)),
    binary main_v301 main_v307 main_v308 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v308 main_v292 main_v309 (mulf : (⟨S270336, .f32⟩ : BufTy).Contents (Elt F) → (⟨S270336, .f32⟩ : BufTy).Contents (Elt F) → (⟨S270336, .f32⟩ : BufTy).Contents (Elt F)),
    nullary main_c_79 (constantI S_ 32 0#32),
    unary main_c_79 main_v310 (broadcastInDim S270336 ![] bcast_S_S270336 : (⟨S_, .i32⟩ : BufTy).Contents (Elt F) → (⟨S270336, .i32⟩ : BufTy).Contents (Elt F)),
    binary main_v290 main_v310 main_v311 (cmpi .slt : (⟨S270336, .i32⟩ : BufTy).Contents (Elt F) → (⟨S270336, .i32⟩ : BufTy).Contents (Elt F) → (⟨S270336, .i1⟩ : BufTy).Contents (Elt F)),
    nullary main_c_80 (constantI S_ 32 8192#32),
    unary main_c_80 main_v312 (broadcastInDim S270336 ![] bcast_S_S270336 : (⟨S_, .i32⟩ : BufTy).Contents (Elt F) → (⟨S270336, .i32⟩ : BufTy).Contents (Elt F)),
    binary main_v290 main_v312 main_v313 (addi : (⟨S270336, .i32⟩ : BufTy).Contents (Elt F) → (⟨S270336, .i32⟩ : BufTy).Contents (Elt F) → (⟨S270336, .i32⟩ : BufTy).Contents (Elt F)),
    ternary main_v311 main_v313 main_v290 main_v314 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v314 main_v315 (broadcastInDim S270336x1 ![0] bcast_S270336_S270336x1_0 : (⟨S270336, .i32⟩ : BufTy).Contents (Elt F) → (⟨S270336x1, .i32⟩ : BufTy).Contents (Elt F)),
    binary main_v301 main_v315 main_v316 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v309 main_v316 main_v317 (mulf : (⟨S270336, .f32⟩ : BufTy).Contents (Elt F) → (⟨S270336, .f32⟩ : BufTy).Contents (Elt F) → (⟨S270336, .f32⟩ : BufTy).Contents (Elt F)) ]
/-- The references it writes, in order. -/
noncomputable def rwr30 : List (Ref sig .tc) := [main_c_77, main_v302, main_v303, main_c_78, main_v304, main_v305, main_v306, main_v307, main_v308, main_v309, main_c_79, main_v310, main_v311, main_c_80, main_v312, main_v313, main_v314, main_v315, main_v316, main_v317]

/-- Stretch rops31: operations 423 to 442 of this side of @main. -/
noncomputable abbrev rops31 : List (HloOp τ sig (Elt F)) :=
  [ binary main_v286 main_arg15 main_v318 ((fun l r => Host.dotGeneral dot_S8192x110_S110x10_S8192x10_1_0_0_1_n_n none l r) : (⟨S8192x110, .f32⟩ : BufTy).Contents (Elt F) → (⟨S110x10, .f32⟩ : BufTy).Contents (Elt F) → (⟨S8192x10, .f32⟩ : BufTy).Contents (Elt F)),
    unary main_v317 main_v319 (broadcastInDim S270336x1 ![0] bcast_S270336_S270336x1_0 : (⟨S270336, .f32⟩ : BufTy).Contents (Elt F) → (⟨S270336x1, .f32⟩ : BufTy).Contents (Elt F)),
    nullary main_c_81 (constantI S_ 32 0#32),
    unary main_c_81 main_v320 (broadcastInDim S270336 ![] bcast_S_S270336 : (⟨S_, .i32⟩ : BufTy).Contents (Elt F) → (⟨S270336, .i32⟩ : BufTy).Contents (Elt F)),
    binary main_v289 main_v320 main_v321 (cmpi .slt : (⟨S270336, .i32⟩ : BufTy).Contents (Elt F) → (⟨S270336, .i32⟩ : BufTy).Contents (Elt F) → (⟨S270336, .i1⟩ : BufTy).Contents (Elt F)),
    nullary main_c_82 (constantI S_ 32 8192#32),
    unary main_c_82 main_v322 (broadcastInDim S270336 ![] bcast_S_S270336 : (⟨S_, .i32⟩ : BufTy).Contents (Elt F) → (⟨S270336, .i32⟩ : BufTy).Contents (Elt F)),
    binary main_v289 main_v322 main_v323 (addi : (⟨S270336, .i32⟩ : BufTy).Contents (Elt F) → (⟨S270336, .i32⟩ : BufTy).Contents (Elt F) → (⟨S270336, .i32⟩ : BufTy).Contents (Elt F)),
    ternary main_v321 main_v323 main_v289 main_v324 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v324 main_v325 (broadcastInDim S270336x1 ![0] bcast_S270336_S270336x1_0 : (⟨S270336, .i32⟩ : BufTy).Contents (Elt F) → (⟨S270336x1, .i32⟩ : BufTy).Contents (Elt F)),
    binary main_v318 main_v325 main_v326 ((fun x i => Host.gather gather_S8192x10_S270336x1_S270336x10_1_0_n_n_0_1_110 x i) : (⟨S8192x10, .f32⟩ : BufTy).Contents (Elt F) → (⟨S270336x1, .i32⟩ : BufTy).Contents (Elt F) → (⟨S270336x10, .f32⟩ : BufTy).Contents (Elt F)),
    unary main_v319 main_v327 (broadcastInDim S270336x10 ![0, 1] bcast_S270336x1_S270336x10_0_1 : (⟨S270336x1, .f32⟩ : BufTy).Contents (Elt F) → (⟨S270336x10, .f32⟩ : BufTy).Contents (Elt F)),
    binary main_v327 main_v326 main_v328 (mulf : (⟨S270336x10, .f32⟩ : BufTy).Contents (Elt F) → (⟨S270336x10, .f32⟩ : BufTy).Contents (Elt F) → (⟨S270336x10, .f32⟩ : BufTy).Contents (Elt F)),
    nullary main_cst_83 (constant S_ .f32 0x00000000#32),
    unary main_cst_83 main_v329 (broadcastInDim S8192x10 ![] bcast_S_S8192x10 : (⟨S_, .f32⟩ : BufTy).Contents (Elt F) → (⟨S8192x10, .f32⟩ : BufTy).Contents (Elt F)),
    unary main_v290 main_v330 (broadcastInDim S270336x1 ![0] bcast_S270336_S270336x1_0 : (⟨S270336, .i32⟩ : BufTy).Contents (Elt F) → (⟨S270336x1, .i32⟩ : BufTy).Contents (Elt F)),
    ternary main_v329 main_v330 main_v328 main_v331 ((fun x i u => Host.scatterAdd scatter_S8192x10_S270336x1_S270336x10_1_0_0_1 x i u) : (⟨S8192x10, .f32⟩ : BufTy).Contents (Elt F) → (⟨S270336x1, .i32⟩ : BufTy).Contents (Elt F) → (⟨S270336x10, .f32⟩ : BufTy).Contents (Elt F) → (⟨S8192x10, .f32⟩ : BufTy).Contents (Elt F)),
    unary main_arg16 main_v332 (broadcastInDim S1x10 ![1] bcast_S10_S1x10_1 : (⟨S10, .f32⟩ : BufTy).Contents (Elt F) → (⟨S1x10, .f32⟩ : BufTy).Contents (Elt F)),
    unary main_v332 main_v333 (broadcastInDim S8192x10 ![0, 1] bcast_S1x10_S8192x10_0_1 : (⟨S1x10, .f32⟩ : BufTy).Contents (Elt F) → (⟨S8192x10, .f32⟩ : BufTy).Contents (Elt F)),
    binary main_v331 main_v333 main_v334 (addf : (⟨S8192x10, .f32⟩ : BufTy).Contents (Elt F) → (⟨S8192x10, .f32⟩ : BufTy).Contents (Elt F) → (⟨S8192x10, .f32⟩ : BufTy).Contents (Elt F)) ]
/-- The references it writes, in order. -/
noncomputable def rwr31 : List (Ref sig .tc) := [main_v318, main_v319, main_c_81, main_v320, main_v321, main_c_82, main_v322, main_v323, main_v324, main_v325, main_v326, main_v327, main_v328, main_cst_83, main_v329, main_v330, main_v331, main_v332, main_v333, main_v334]

/-- Stretch rops32: operations 443 to 457 of this side of @main. -/
noncomputable abbrev rops32 : List (HloOp τ sig (Elt F)) :=
  [ TRef.nullary (TRef.of (T := ⟨S_, .f32⟩) main_call11_cst) (constant S_ .f32 0xFF800000#32),
    TRef.binary (TRef.of (T := ⟨S8192x10, .f32⟩) main_v334) (TRef.of (T := ⟨S_, .f32⟩) main_call11_cst) (TRef.of (T := ⟨S8192, .f32⟩) main_call11_v0) (fun x v => Host.reduce FloatOps.maximumf x v reducesTo_S8192x10_S8192_d1 h_S_),
    TRef.nullary (TRef.of (T := ⟨S_, .f32⟩) main_call11_cst_0) (constant S_ .f32 0xFF800000#32),
    TRef.unary (TRef.of (T := ⟨S_, .f32⟩) main_call11_cst_0) (TRef.of (T := ⟨S8192, .f32⟩) main_call11_v1) (broadcastInDim S8192 ![] bcast_S_S8192),
    TRef.binary (TRef.of (T := ⟨S8192, .f32⟩) main_call11_v1) (TRef.of (T := ⟨S8192, .f32⟩) main_call11_v0) (TRef.of (T := ⟨S8192, .f32⟩) main_call11_v2) maximumf,
    TRef.unary (TRef.of (T := ⟨S8192, .f32⟩) main_call11_v2) (TRef.of (T := ⟨S8192x1, .f32⟩) main_call11_v3) (broadcastInDim S8192x1 ![0] bcast_S8192_S8192x1_0),
    TRef.unary (TRef.of (T := ⟨S8192x1, .f32⟩) main_call11_v3) (TRef.of (T := ⟨S8192x10, .f32⟩) main_call11_v4) (broadcastInDim S8192x10 ![0, 1] bcast_S8192x1_S8192x10_0_1),
    TRef.binary (TRef.of (T := ⟨S8192x10, .f32⟩) main_v334) (TRef.of (T := ⟨S8192x10, .f32⟩) main_call11_v4) (TRef.of (T := ⟨S8192x10, .f32⟩) main_call11_v5) subf,
    TRef.unary (TRef.of (T := ⟨S8192x10, .f32⟩) main_call11_v5) (TRef.of (T := ⟨S8192x10, .f32⟩) main_call11_v6) Host.exp,
    TRef.nullary (TRef.of (T := ⟨S_, .f32⟩) main_call11_cst_1) (constant S_ .f32 0x00000000#32),
    TRef.binary (TRef.of (T := ⟨S8192x10, .f32⟩) main_call11_v6) (TRef.of (T := ⟨S_, .f32⟩) main_call11_cst_1) (TRef.of (T := ⟨S8192, .f32⟩) main_call11_v7) (fun x v => Host.reduceAdd x v reducesTo_S8192x10_S8192_d1 h_S_),
    TRef.unary (TRef.of (T := ⟨S8192, .f32⟩) main_call11_v7) (TRef.of (T := ⟨S8192x1, .f32⟩) main_call11_v8) (broadcastInDim S8192x1 ![0] bcast_S8192_S8192x1_0),
    TRef.unary (TRef.of (T := ⟨S8192x1, .f32⟩) main_call11_v8) (TRef.of (T := ⟨S8192x1, .f32⟩) main_call11_v9) Host.log,
    TRef.unary (TRef.of (T := ⟨S8192x1, .f32⟩) main_call11_v9) (TRef.of (T := ⟨S8192x10, .f32⟩) main_call11_v10) (broadcastInDim S8192x10 ![0, 1] bcast_S8192x1_S8192x10_0_1),
    TRef.binary (TRef.of (T := ⟨S8192x10, .f32⟩) main_call11_v5) (TRef.of (T := ⟨S8192x10, .f32⟩) main_call11_v10) (TRef.of (T := ⟨S8192x10, .f32⟩) main_v335) subf ]
/-- The references it writes, in order. -/
noncomputable def rwr32 : List (Ref sig .tc) := [main_call11_cst, main_call11_v0, main_call11_cst_0, main_call11_v1, main_call11_v2, main_call11_v3, main_call11_v4, main_call11_v5, main_call11_v6, main_call11_cst_1, main_call11_v7, main_call11_v8, main_call11_v9, main_call11_v10, main_v335]

/-- Stretch rops33: operations 458 to 458 of this side of @main. -/
noncomputable abbrev rops33 : List (HloOp τ sig (Elt F)) :=
  [ binary main_v175 main_v183 main_v336 (addf : (⟨S_, .f32⟩ : BufTy).Contents (Elt F) → (⟨S_, .f32⟩ : BufTy).Contents (Elt F) → (⟨S_, .f32⟩ : BufTy).Contents (Elt F)) ]
/-- The references it writes, in order. -/
noncomputable def rwr33 : List (Ref sig .tc) := [main_v336]

/-- The stretches, in order. -/
noncomputable abbrev ropss : List (List (HloOp τ sig (Elt F))) := [rops0, rops1, rops2, rops3, rops4, rops5, rops6, rops7, rops8, rops9, rops10, rops11, rops12, rops13, rops14, rops15, rops16, rops17, rops18, rops19, rops20, rops21, rops22, rops23, rops24, rops25, rops26, rops27, rops28, rops29, rops30, rops31, rops32, rops33]

end Cert.ReferenceIdeal.Hand

end
-- ==== Proof.RI.MainEq.lean ====
import proofs.«401602_j3728031613303_3_alg».proof.Proof.RI.Ops
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem seq_split {Λ : Labels} (n : Nat) (l : List (HloOp τ sig (Elt F))) :
    (StableHlo.seq l : Prog (TpuEff nD τ sig (Elt F) Λ .tc) PUnit)
      = StableHlo.seq (l.take n) >>= fun _ => StableHlo.seq (l.drop n) := by
  rw [← StableHlo.seq_append, List.take_append_drop]

set_option maxRecDepth 8192 in
set_option maxHeartbeats 4000000 in
theorem part0_eq (c : Dev nD) : main_part0 (F := F) c = StableHlo.seq ((List.flatten ropss : List (HloOp τ sig (Elt F))).take 62) := rfl

set_option maxRecDepth 8192 in
set_option maxHeartbeats 4000000 in
theorem part1_eq (c : Dev nD) : main_part1 (F := F) c = StableHlo.seq (((List.flatten ropss : List (HloOp τ sig (Elt F))).drop 62).take 64) := rfl

set_option maxRecDepth 8192 in
set_option maxHeartbeats 4000000 in
theorem part2_eq (c : Dev nD) : main_part2 (F := F) c = StableHlo.seq ((((List.flatten ropss : List (HloOp τ sig (Elt F))).drop 62).drop 64).take 62) := rfl

set_option maxRecDepth 8192 in
set_option maxHeartbeats 4000000 in
theorem part3_eq (c : Dev nD) : main_part3 (F := F) c = StableHlo.seq (((((List.flatten ropss : List (HloOp τ sig (Elt F))).drop 62).drop 64).drop 62).take 62) := rfl

set_option maxRecDepth 8192 in
set_option maxHeartbeats 4000000 in
theorem part4_eq (c : Dev nD) : main_part4 (F := F) c = StableHlo.seq ((((((List.flatten ropss : List (HloOp τ sig (Elt F))).drop 62).drop 64).drop 62).drop 62).take 66) := rfl

set_option maxRecDepth 8192 in
set_option maxHeartbeats 4000000 in
theorem part5_eq (c : Dev nD) : main_part5 (F := F) c = StableHlo.seq (((((((List.flatten ropss : List (HloOp τ sig (Elt F))).drop 62).drop 64).drop 62).drop 62).drop 66).take 64) := rfl

set_option maxRecDepth 8192 in
set_option maxHeartbeats 4000000 in
theorem part6_eq (c : Dev nD) : main_part6 (F := F) c = StableHlo.seq ((((((((List.flatten ropss : List (HloOp τ sig (Elt F))).drop 62).drop 64).drop 62).drop 62).drop 66).drop 64).take 62) := rfl

set_option maxRecDepth 8192 in
set_option maxHeartbeats 4000000 in
theorem part7_eq (c : Dev nD) : main_part7 (F := F) c = StableHlo.seq ((((((((List.flatten ropss : List (HloOp τ sig (Elt F))).drop 62).drop 64).drop 62).drop 62).drop 66).drop 64).drop 62) := rfl

set_option maxRecDepth 8192 in
theorem main_eq (c : Dev nD) : main (F := F) c = StableHlo.seq (List.flatten ropss) := by
  rw [seq_split 62 (List.flatten ropss : List (HloOp τ sig (Elt F))),
    seq_split 64 ((List.flatten ropss : List (HloOp τ sig (Elt F))).drop 62),
    seq_split 62 (((List.flatten ropss : List (HloOp τ sig (Elt F))).drop 62).drop 64),
    seq_split 62 ((((List.flatten ropss : List (HloOp τ sig (Elt F))).drop 62).drop 64).drop 62),
    seq_split 66 (((((List.flatten ropss : List (HloOp τ sig (Elt F))).drop 62).drop 64).drop 62).drop 62),
    seq_split 64 ((((((List.flatten ropss : List (HloOp τ sig (Elt F))).drop 62).drop 64).drop 62).drop 62).drop 66),
    seq_split 62 (((((((List.flatten ropss : List (HloOp τ sig (Elt F))).drop 62).drop 64).drop 62).drop 62).drop 66).drop 64),
    ← part0_eq c, ← part1_eq c, ← part2_eq c, ← part3_eq c, ← part4_eq c, ← part5_eq c, ← part6_eq c, ← part7_eq c]
  rfl

end Cert.ReferenceIdeal.Hand

end
-- ==== Proof.RI.Subs.lean ====
/-
  Two facts about every host operation of the reference program, stated stretch by stretch and then for the
  whole line (the concatenation of the stretches): each operation touches TensorCore references only, and none
  leaves a written buffer undetermined (no operation allocates). Both are read off the operations' builders:
  a builder's touched set is a literal set of TensorCore references, and its undetermined set is empty.
-/
import proofs.«401602_j3728031613303_3_alg».proof.Proof.RI.Ops
import Idealize.ShloMosaic.Lib.StableHlo.Run
import Mathlib.Data.List.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A property of every element of every list of a list of lists holds of every element of their concatenation. -/
theorem forall_flatten {α : Type} {p : α → Prop} {ls : List (List α)} (h : ls.Forall fun l => l.Forall p) :
    ls.flatten.Forall p :=
  List.forall_iff_forall_mem.mpr fun a ha => by
    obtain ⟨l, hl, hal⟩ := List.mem_flatten.mp ha
    exact List.forall_iff_forall_mem.mp (List.forall_iff_forall_mem.mp h l hl) a hal

/-! ## Every operation touches TensorCore references only -/

/-- Stretch 0: each of its 10 operations touches TensorCore references only. -/
theorem rops0_sub : (rops0 : List (HloOp τ sig (Elt F))).Forall fun op => op.bufs ⊆ StableHlo.tcRefs τ sig :=
  ⟨unary_bufs_sub .., reshape_bufs_sub .., unary_bufs_sub .., reshape_bufs_sub .., nullary_bufs_sub .., binary_bufs_sub ..,
   binary_bufs_sub .., nullary_bufs_sub .., unary_bufs_sub .., binary_bufs_sub ..⟩

/-- Stretch 1: each of its 15 operations touches TensorCore references only. -/
theorem rops1_sub : (rops1 : List (HloOp τ sig (Elt F))).Forall fun op => op.bufs ⊆ StableHlo.tcRefs τ sig :=
  ⟨nullary_bufs_sub .., unary_bufs_sub .., unary_bufs_sub .., ternary_bufs_sub .., nullary_bufs_sub .., unary_bufs_sub ..,
   binary_bufs_sub .., nullary_bufs_sub .., unary_bufs_sub .., binary_bufs_sub .., unary_bufs_sub .., nullary_bufs_sub ..,
   unary_bufs_sub .., unary_bufs_sub .., ternary_bufs_sub ..⟩

/-- Stretch 2: each of its 20 operations touches TensorCore references only. -/
theorem rops2_sub : (rops2 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub ..,
   ternary_bufs_sub .., unary_bufs_sub .., binary_bufs_sub .., binary_bufs_sub .., nullary_bufs_sub .., unary_bufs_sub ..,
   binary_bufs_sub .., nullary_bufs_sub .., unary_bufs_sub .., binary_bufs_sub .., ternary_bufs_sub .., unary_bufs_sub ..,
   binary_bufs_sub .., binary_bufs_sub ..⟩

/-- Stretch 3: each of its 20 operations touches TensorCore references only. -/
theorem rops3_sub : (rops3 : List (HloOp τ sig (Elt F))).Forall fun op => op.bufs ⊆ StableHlo.tcRefs τ sig :=
  ⟨binary_bufs_sub .., unary_bufs_sub .., nullary_bufs_sub .., unary_bufs_sub .., binary_bufs_sub .., nullary_bufs_sub ..,
   unary_bufs_sub .., binary_bufs_sub .., ternary_bufs_sub .., unary_bufs_sub .., binary_bufs_sub .., unary_bufs_sub ..,
   binary_bufs_sub .., nullary_bufs_sub .., unary_bufs_sub .., unary_bufs_sub .., ternary_bufs_sub .., unary_bufs_sub ..,
   unary_bufs_sub .., binary_bufs_sub ..⟩

/-- Stretch 4: each of its 3 operations touches TensorCore references only. -/
theorem rops4_sub : (rops4 : List (HloOp τ sig (Elt F))).Forall fun op => op.bufs ⊆ StableHlo.tcRefs τ sig :=
  ⟨nullary_bufs_sub .., unary_bufs_sub .., binary_bufs_sub ..⟩

/-- Stretch 5: each of its 6 operations touches TensorCore references only. -/
theorem rops5_sub : (rops5 : List (HloOp τ sig (Elt F))).Forall fun op => op.bufs ⊆ StableHlo.tcRefs τ sig :=
  ⟨nullary_bufs_sub .., binary_bufs_sub .., binary_bufs_sub .., nullary_bufs_sub .., unary_bufs_sub .., binary_bufs_sub ..⟩

/-- Stretch 6: each of its 15 operations touches TensorCore references only. -/
theorem rops6_sub : (rops6 : List (HloOp τ sig (Elt F))).Forall fun op => op.bufs ⊆ StableHlo.tcRefs τ sig :=
  ⟨nullary_bufs_sub .., unary_bufs_sub .., unary_bufs_sub .., ternary_bufs_sub .., nullary_bufs_sub .., unary_bufs_sub ..,
   binary_bufs_sub .., nullary_bufs_sub .., unary_bufs_sub .., binary_bufs_sub .., unary_bufs_sub .., nullary_bufs_sub ..,
   unary_bufs_sub .., unary_bufs_sub .., ternary_bufs_sub ..⟩

/-- Stretch 7: each of its 20 operations touches TensorCore references only. -/
theorem rops7_sub : (rops7 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub ..,
   ternary_bufs_sub .., unary_bufs_sub .., binary_bufs_sub .., binary_bufs_sub .., nullary_bufs_sub .., unary_bufs_sub ..,
   binary_bufs_sub .., nullary_bufs_sub .., unary_bufs_sub .., binary_bufs_sub .., ternary_bufs_sub .., unary_bufs_sub ..,
   binary_bufs_sub .., binary_bufs_sub ..⟩

/-- Stretch 8: each of its 20 operations touches TensorCore references only. -/
theorem rops8_sub : (rops8 : List (HloOp τ sig (Elt F))).Forall fun op => op.bufs ⊆ StableHlo.tcRefs τ sig :=
  ⟨binary_bufs_sub .., unary_bufs_sub .., nullary_bufs_sub .., unary_bufs_sub .., binary_bufs_sub .., nullary_bufs_sub ..,
   unary_bufs_sub .., binary_bufs_sub .., ternary_bufs_sub .., unary_bufs_sub .., binary_bufs_sub .., unary_bufs_sub ..,
   binary_bufs_sub .., nullary_bufs_sub .., unary_bufs_sub .., unary_bufs_sub .., ternary_bufs_sub .., unary_bufs_sub ..,
   unary_bufs_sub .., binary_bufs_sub ..⟩

/-- Stretch 9: each of its 6 operations touches TensorCore references only. -/
theorem rops9_sub : (rops9 : List (HloOp τ sig (Elt F))).Forall fun op => op.bufs ⊆ StableHlo.tcRefs τ sig :=
  ⟨nullary_bufs_sub .., binary_bufs_sub .., binary_bufs_sub .., nullary_bufs_sub .., unary_bufs_sub .., binary_bufs_sub ..⟩

/-- Stretch 10: each of its 15 operations touches TensorCore references only. -/
theorem rops10_sub : (rops10 : List (HloOp τ sig (Elt F))).Forall fun op => op.bufs ⊆ StableHlo.tcRefs τ sig :=
  ⟨nullary_bufs_sub .., unary_bufs_sub .., unary_bufs_sub .., ternary_bufs_sub .., nullary_bufs_sub .., unary_bufs_sub ..,
   binary_bufs_sub .., nullary_bufs_sub .., unary_bufs_sub .., binary_bufs_sub .., unary_bufs_sub .., nullary_bufs_sub ..,
   unary_bufs_sub .., unary_bufs_sub .., ternary_bufs_sub ..⟩

/-- Stretch 11: each of its 20 operations touches TensorCore references only. -/
theorem rops11_sub : (rops11 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub ..,
   ternary_bufs_sub .., unary_bufs_sub .., binary_bufs_sub .., binary_bufs_sub .., nullary_bufs_sub .., unary_bufs_sub ..,
   binary_bufs_sub .., nullary_bufs_sub .., unary_bufs_sub .., binary_bufs_sub .., ternary_bufs_sub .., unary_bufs_sub ..,
   binary_bufs_sub .., binary_bufs_sub ..⟩

/-- Stretch 12: each of its 20 operations touches TensorCore references only. -/
theorem rops12_sub : (rops12 : List (HloOp τ sig (Elt F))).Forall fun op => op.bufs ⊆ StableHlo.tcRefs τ sig :=
  ⟨binary_bufs_sub .., unary_bufs_sub .., nullary_bufs_sub .., unary_bufs_sub .., binary_bufs_sub .., nullary_bufs_sub ..,
   unary_bufs_sub .., binary_bufs_sub .., ternary_bufs_sub .., unary_bufs_sub .., binary_bufs_sub .., unary_bufs_sub ..,
   binary_bufs_sub .., nullary_bufs_sub .., unary_bufs_sub .., unary_bufs_sub .., ternary_bufs_sub .., unary_bufs_sub ..,
   unary_bufs_sub .., binary_bufs_sub ..⟩

/-- Stretch 13: each of its 3 operations touches TensorCore references only. -/
theorem rops13_sub : (rops13 : List (HloOp τ sig (Elt F))).Forall fun op => op.bufs ⊆ StableHlo.tcRefs τ sig :=
  ⟨nullary_bufs_sub .., unary_bufs_sub .., binary_bufs_sub ..⟩

/-- Stretch 14: each of its 20 operations touches TensorCore references only. -/
theorem rops14_sub : (rops14 : List (HloOp τ sig (Elt F))).Forall fun op => op.bufs ⊆ StableHlo.tcRefs τ sig :=
  ⟨nullary_bufs_sub .., binary_bufs_sub .., nullary_bufs_sub .., unary_bufs_sub .., binary_bufs_sub .., unary_bufs_sub ..,
   unary_bufs_sub .., binary_bufs_sub .., unary_bufs_sub .., nullary_bufs_sub .., binary_bufs_sub .., unary_bufs_sub ..,
   unary_bufs_sub .., binary_bufs_sub .., unary_bufs_sub .., unary_bufs_sub .., unary_bufs_sub .., binary_bufs_sub ..,
   unary_bufs_sub .., binary_bufs_sub ..⟩

/-- Stretch 15: each of its 2 operations touches TensorCore references only. -/
theorem rops15_sub : (rops15 : List (HloOp τ sig (Elt F))).Forall fun op => op.bufs ⊆ StableHlo.tcRefs τ sig :=
  ⟨unary_bufs_sub .., binary_bufs_sub ..⟩

/-- Stretch 16: each of its 3 operations touches TensorCore references only. -/
theorem rops16_sub : (rops16 : List (HloOp τ sig (Elt F))).Forall fun op => op.bufs ⊆ StableHlo.tcRefs τ sig :=
  ⟨unary_bufs_sub .., binary_bufs_sub .., binary_bufs_sub ..⟩

/-- Stretch 17: each of its 9 operations touches TensorCore references only. -/
theorem rops17_sub : (rops17 : List (HloOp τ sig (Elt F))).Forall fun op => op.bufs ⊆ StableHlo.tcRefs τ sig :=
  ⟨unary_bufs_sub .., binary_bufs_sub .., binary_bufs_sub .., binary_bufs_sub .., nullary_bufs_sub .., binary_bufs_sub ..,
   unary_bufs_sub .., nullary_bufs_sub .., binary_bufs_sub ..⟩

/-- Stretch 18: each of its 12 operations touches TensorCore references only. -/
theorem rops18_sub : (rops18 : List (HloOp τ sig (Elt F))).Forall fun op => op.bufs ⊆ StableHlo.tcRefs τ sig :=
  ⟨unary_bufs_sub .., nullary_bufs_sub .., unary_bufs_sub .., binary_bufs_sub .., unary_bufs_sub .., binary_bufs_sub ..,
   nullary_bufs_sub .., binary_bufs_sub .., nullary_bufs_sub .., binary_bufs_sub .., nullary_bufs_sub .., binary_bufs_sub ..⟩

/-- Stretch 19: each of its 26 operations touches TensorCore references only. -/
theorem rops19_sub : (rops19 : List (HloOp τ sig (Elt F))).Forall fun op => op.bufs ⊆ StableHlo.tcRefs τ sig :=
  ⟨nullary_bufs_sub .., nullary_bufs_sub .., unary_bufs_sub .., binary_bufs_sub .., nullary_bufs_sub .., unary_bufs_sub ..,
   binary_bufs_sub .., ternary_bufs_sub .., nullary_bufs_sub .., unary_bufs_sub .., binary_bufs_sub .., nullary_bufs_sub ..,
   unary_bufs_sub .., binary_bufs_sub .., ternary_bufs_sub .., unary_bufs_sub .., unary_bufs_sub .., binary_bufs_sub ..,
   binary_bufs_sub .., nullary_bufs_sub .., unary_bufs_sub .., binary_bufs_sub .., nullary_bufs_sub .., unary_bufs_sub ..,
   unary_bufs_sub .., ternary_bufs_sub ..⟩

/-- Stretch 20: each of its 18 operations touches TensorCore references only. -/
theorem rops20_sub : (rops20 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub ..,
   ternary_bufs_sub .., nullary_bufs_sub .., unary_bufs_sub .., binary_bufs_sub .., nullary_bufs_sub .., unary_bufs_sub ..,
   binary_bufs_sub .., ternary_bufs_sub .., unary_bufs_sub .., unary_bufs_sub .., binary_bufs_sub .., ternary_bufs_sub ..⟩

/-- Stretch 21: each of its 13 operations touches TensorCore references only. -/
theorem rops21_sub : (rops21 : List (HloOp τ sig (Elt F))).Forall fun op => op.bufs ⊆ StableHlo.tcRefs τ sig :=
  ⟨nullary_bufs_sub .., binary_bufs_sub .., nullary_bufs_sub .., unary_bufs_sub .., binary_bufs_sub .., nullary_bufs_sub ..,
   unary_bufs_sub .., binary_bufs_sub .., unary_bufs_sub .., nullary_bufs_sub .., unary_bufs_sub .., unary_bufs_sub ..,
   ternary_bufs_sub ..⟩

/-- Stretch 22: each of its 14 operations touches TensorCore references only. -/
theorem rops22_sub : (rops22 : List (HloOp τ sig (Elt F))).Forall fun op => op.bufs ⊆ StableHlo.tcRefs τ sig :=
  ⟨unary_bufs_sub .., unary_bufs_sub .., binary_bufs_sub .., unary_bufs_sub .., unary_bufs_sub .., binary_bufs_sub ..,
   binary_bufs_sub .., binary_bufs_sub .., unary_bufs_sub .., unary_bufs_sub .., binary_bufs_sub .., nullary_bufs_sub ..,
   unary_bufs_sub .., binary_bufs_sub ..⟩

/-- Stretch 23: each of its 26 operations touches TensorCore references only. -/
theorem rops23_sub : (rops23 : List (HloOp τ sig (Elt F))).Forall fun op => op.bufs ⊆ StableHlo.tcRefs τ sig :=
  ⟨nullary_bufs_sub .., nullary_bufs_sub .., unary_bufs_sub .., binary_bufs_sub .., nullary_bufs_sub .., unary_bufs_sub ..,
   binary_bufs_sub .., ternary_bufs_sub .., nullary_bufs_sub .., unary_bufs_sub .., binary_bufs_sub .., nullary_bufs_sub ..,
   unary_bufs_sub .., binary_bufs_sub .., ternary_bufs_sub .., unary_bufs_sub .., unary_bufs_sub .., binary_bufs_sub ..,
   binary_bufs_sub .., nullary_bufs_sub .., unary_bufs_sub .., binary_bufs_sub .., nullary_bufs_sub .., unary_bufs_sub ..,
   unary_bufs_sub .., ternary_bufs_sub ..⟩

/-- Stretch 24: each of its 18 operations touches TensorCore references only. -/
theorem rops24_sub : (rops24 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub ..,
   ternary_bufs_sub .., nullary_bufs_sub .., unary_bufs_sub .., binary_bufs_sub .., nullary_bufs_sub .., unary_bufs_sub ..,
   binary_bufs_sub .., ternary_bufs_sub .., unary_bufs_sub .., unary_bufs_sub .., binary_bufs_sub .., ternary_bufs_sub ..⟩

/-- Stretch 25: each of its 13 operations touches TensorCore references only. -/
theorem rops25_sub : (rops25 : List (HloOp τ sig (Elt F))).Forall fun op => op.bufs ⊆ StableHlo.tcRefs τ sig :=
  ⟨nullary_bufs_sub .., binary_bufs_sub .., nullary_bufs_sub .., unary_bufs_sub .., binary_bufs_sub .., nullary_bufs_sub ..,
   unary_bufs_sub .., binary_bufs_sub .., unary_bufs_sub .., nullary_bufs_sub .., unary_bufs_sub .., unary_bufs_sub ..,
   ternary_bufs_sub ..⟩

/-- Stretch 26: each of its 11 operations touches TensorCore references only. -/
theorem rops26_sub : (rops26 : List (HloOp τ sig (Elt F))).Forall fun op => op.bufs ⊆ StableHlo.tcRefs τ sig :=
  ⟨unary_bufs_sub .., unary_bufs_sub .., binary_bufs_sub .., unary_bufs_sub .., unary_bufs_sub .., binary_bufs_sub ..,
   binary_bufs_sub .., binary_bufs_sub .., unary_bufs_sub .., unary_bufs_sub .., binary_bufs_sub ..⟩

/-- Stretch 27: each of its 2 operations touches TensorCore references only. -/
theorem rops27_sub : (rops27 : List (HloOp τ sig (Elt F))).Forall fun op => op.bufs ⊆ StableHlo.tcRefs τ sig :=
  ⟨binary_bufs_sub .., binary_bufs_sub ..⟩

/-- Stretch 28: each of its 8 operations touches TensorCore references only. -/
theorem rops28_sub : (rops28 : List (HloOp τ sig (Elt F))).Forall fun op => op.bufs ⊆ StableHlo.tcRefs τ sig :=
  ⟨nullary_bufs_sub .., unary_bufs_sub .., nullary_bufs_sub .., binary_bufs_sub .., binary_bufs_sub .., nullary_bufs_sub ..,
   unary_bufs_sub .., binary_bufs_sub ..⟩

/-- Stretch 29: each of its 15 operations touches TensorCore references only. -/
theorem rops29_sub : (rops29 : List (HloOp τ sig (Elt F))).Forall fun op => op.bufs ⊆ StableHlo.tcRefs τ sig :=
  ⟨nullary_bufs_sub .., unary_bufs_sub .., unary_bufs_sub .., ternary_bufs_sub .., nullary_bufs_sub .., unary_bufs_sub ..,
   binary_bufs_sub .., nullary_bufs_sub .., unary_bufs_sub .., binary_bufs_sub .., unary_bufs_sub .., nullary_bufs_sub ..,
   unary_bufs_sub .., unary_bufs_sub .., ternary_bufs_sub ..⟩

/-- Stretch 30: each of its 20 operations touches TensorCore references only. -/
theorem rops30_sub : (rops30 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub ..,
   ternary_bufs_sub .., unary_bufs_sub .., binary_bufs_sub .., binary_bufs_sub .., nullary_bufs_sub .., unary_bufs_sub ..,
   binary_bufs_sub .., nullary_bufs_sub .., unary_bufs_sub .., binary_bufs_sub .., ternary_bufs_sub .., unary_bufs_sub ..,
   binary_bufs_sub .., binary_bufs_sub ..⟩

/-- Stretch 31: each of its 20 operations touches TensorCore references only. -/
theorem rops31_sub : (rops31 : List (HloOp τ sig (Elt F))).Forall fun op => op.bufs ⊆ StableHlo.tcRefs τ sig :=
  ⟨binary_bufs_sub .., unary_bufs_sub .., nullary_bufs_sub .., unary_bufs_sub .., binary_bufs_sub .., nullary_bufs_sub ..,
   unary_bufs_sub .., binary_bufs_sub .., ternary_bufs_sub .., unary_bufs_sub .., binary_bufs_sub .., unary_bufs_sub ..,
   binary_bufs_sub .., nullary_bufs_sub .., unary_bufs_sub .., unary_bufs_sub .., ternary_bufs_sub .., unary_bufs_sub ..,
   unary_bufs_sub .., binary_bufs_sub ..⟩

/-- Stretch 32: each of its 15 operations touches TensorCore references only. -/
theorem rops32_sub : (rops32 : List (HloOp τ sig (Elt F))).Forall fun op => op.bufs ⊆ StableHlo.tcRefs τ sig :=
  ⟨nullary_bufs_sub .., binary_bufs_sub .., nullary_bufs_sub .., unary_bufs_sub .., binary_bufs_sub .., unary_bufs_sub ..,
   unary_bufs_sub .., binary_bufs_sub .., unary_bufs_sub .., nullary_bufs_sub .., binary_bufs_sub .., unary_bufs_sub ..,
   unary_bufs_sub .., unary_bufs_sub .., binary_bufs_sub ..⟩

/-- Stretch 33: each of its 1 operation touches TensorCore references only. -/
theorem rops33_sub : (rops33 : List (HloOp τ sig (Elt F))).Forall fun op => op.bufs ⊆ StableHlo.tcRefs τ sig :=
  binary_bufs_sub ..

/-- Every operation of the whole line touches TensorCore references only. -/
theorem ropss_sub : (List.flatten ropss : List (HloOp τ sig (Elt F))).Forall fun op => op.bufs ⊆ StableHlo.tcRefs τ sig :=
  forall_flatten (ls := ropss)
    ⟨rops0_sub, rops1_sub, rops2_sub, rops3_sub, rops4_sub, rops5_sub, rops6_sub, rops7_sub, rops8_sub, rops9_sub,
     rops10_sub, rops11_sub, rops12_sub, rops13_sub, rops14_sub, rops15_sub, rops16_sub, rops17_sub, rops18_sub, rops19_sub,
     rops20_sub, rops21_sub, rops22_sub, rops23_sub, rops24_sub, rops25_sub, rops26_sub, rops27_sub, rops28_sub, rops29_sub,
     rops30_sub, rops31_sub, rops32_sub, rops33_sub⟩

/-! ## No operation leaves a written buffer undetermined -/

/-- Stretch 0: each of its operations determines everything it writes. -/
theorem rops0_fresh : (rops0 : List (HloOp τ sig (Elt F))).Forall fun op => op.fresh = ∅ :=
  ⟨rfl, rfl, rfl, rfl, rfl, rfl, rfl, rfl, rfl, rfl⟩

/-- Stretch 1: each of its operations determines everything it writes. -/
theorem rops1_fresh : (rops1 : List (HloOp τ sig (Elt F))).Forall fun op => op.fresh = ∅ :=
  ⟨rfl, rfl, rfl, rfl, rfl, rfl, rfl, rfl, rfl, rfl, rfl, rfl, rfl, rfl, rfl⟩

/-- Stretch 2: each of its operations determines everything it writes. -/
theorem rops2_fresh : (rops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Stretch 3: each of its operations determines everything it writes. -/
theorem rops3_fresh : (rops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Stretch 4: each of its operations determines everything it writes. -/
theorem rops4_fresh : (rops4 : List (HloOp τ sig (Elt F))).Forall fun op => op.fresh = ∅ :=
  ⟨rfl, rfl, rfl⟩

/-- Stretch 5: each of its operations determines everything it writes. -/
theorem rops5_fresh : (rops5 : List (HloOp τ sig (Elt F))).Forall fun op => op.fresh = ∅ :=
  ⟨rfl, rfl, rfl, rfl, rfl, rfl⟩

/-- Stretch 6: each of its operations determines everything it writes. -/
theorem rops6_fresh : (rops6 : List (HloOp τ sig (Elt F))).Forall fun op => op.fresh = ∅ :=
  ⟨rfl, rfl, rfl, rfl, rfl, rfl, rfl, rfl, rfl, rfl, rfl, rfl, rfl, rfl, rfl⟩

/-- Stretch 7: each of its operations determines everything it writes. -/
theorem rops7_fresh : (rops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Stretch 8: each of its operations determines everything it writes. -/
theorem rops8_fresh : (rops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Stretch 9: each of its operations determines everything it writes. -/
theorem rops9_fresh : (rops9 : List (HloOp τ sig (Elt F))).Forall fun op => op.fresh = ∅ :=
  ⟨rfl, rfl, rfl, rfl, rfl, rfl⟩

/-- Stretch 10: each of its operations determines everything it writes. -/
theorem rops10_fresh : (rops10 : List (HloOp τ sig (Elt F))).Forall fun op => op.fresh = ∅ :=
  ⟨rfl, rfl, rfl, rfl, rfl, rfl, rfl, rfl, rfl, rfl, rfl, rfl, rfl, rfl, rfl⟩

/-- Stretch 11: each of its operations determines everything it writes. -/
theorem rops11_fresh : (rops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Stretch 12: each of its operations determines everything it writes. -/
theorem rops12_fresh : (rops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Stretch 13: each of its operations determines everything it writes. -/
theorem rops13_fresh : (rops13 : List (HloOp τ sig (Elt F))).Forall fun op => op.fresh = ∅ :=
  ⟨rfl, rfl, rfl⟩

/-- Stretch 14: each of its operations determines everything it writes. -/
theorem rops14_fresh : (rops14 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Stretch 15: each of its operations determines everything it writes. -/
theorem rops15_fresh : (rops15 : List (HloOp τ sig (Elt F))).Forall fun op => op.fresh = ∅ :=
  ⟨rfl, rfl⟩

/-- Stretch 16: each of its operations determines everything it writes. -/
theorem rops16_fresh : (rops16 : List (HloOp τ sig (Elt F))).Forall fun op => op.fresh = ∅ :=
  ⟨rfl, rfl, rfl⟩

/-- Stretch 17: each of its operations determines everything it writes. -/
theorem rops17_fresh : (rops17 : List (HloOp τ sig (Elt F))).Forall fun op => op.fresh = ∅ :=
  ⟨rfl, rfl, rfl, rfl, rfl, rfl, rfl, rfl, rfl⟩

/-- Stretch 18: each of its operations determines everything it writes. -/
theorem rops18_fresh : (rops18 : List (HloOp τ sig (Elt F))).Forall fun op => op.fresh = ∅ :=
  ⟨rfl, rfl, rfl, rfl, rfl, rfl, rfl, rfl, rfl, rfl, rfl, rfl⟩

/-- Stretch 19: each of its operations determines everything it writes. -/
theorem rops19_fresh : (rops19 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl⟩

/-- Stretch 20: each of its operations determines everything it writes. -/
theorem rops20_fresh : (rops20 : List (HloOp τ sig (Elt F))).Forall fun op => op.fresh = ∅ :=
  ⟨rfl, rfl, rfl, rfl, rfl, rfl, rfl, rfl, rfl, rfl, rfl, rfl, rfl, rfl, rfl, rfl, rfl, rfl⟩

/-- Stretch 21: each of its operations determines everything it writes. -/
theorem rops21_fresh : (rops21 : List (HloOp τ sig (Elt F))).Forall fun op => op.fresh = ∅ :=
  ⟨rfl, rfl, rfl, rfl, rfl, rfl, rfl, rfl, rfl, rfl, rfl, rfl, rfl⟩

/-- Stretch 22: each of its operations determines everything it writes. -/
theorem rops22_fresh : (rops22 : List (HloOp τ sig (Elt F))).Forall fun op => op.fresh = ∅ :=
  ⟨rfl, rfl, rfl, rfl, rfl, rfl, rfl, rfl, rfl, rfl, rfl, rfl, rfl, rfl⟩

/-- Stretch 23: each of its operations determines everything it writes. -/
theorem rops23_fresh : (rops23 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl⟩

/-- Stretch 24: each of its operations determines everything it writes. -/
theorem rops24_fresh : (rops24 : List (HloOp τ sig (Elt F))).Forall fun op => op.fresh = ∅ :=
  ⟨rfl, rfl, rfl, rfl, rfl, rfl, rfl, rfl, rfl, rfl, rfl, rfl, rfl, rfl, rfl, rfl, rfl, rfl⟩

/-- Stretch 25: each of its operations determines everything it writes. -/
theorem rops25_fresh : (rops25 : List (HloOp τ sig (Elt F))).Forall fun op => op.fresh = ∅ :=
  ⟨rfl, rfl, rfl, rfl, rfl, rfl, rfl, rfl, rfl, rfl, rfl, rfl, rfl⟩

/-- Stretch 26: each of its operations determines everything it writes. -/
theorem rops26_fresh : (rops26 : List (HloOp τ sig (Elt F))).Forall fun op => op.fresh = ∅ :=
  ⟨rfl, rfl, rfl, rfl, rfl, rfl, rfl, rfl, rfl, rfl, rfl⟩

/-- Stretch 27: each of its operations determines everything it writes. -/
theorem rops27_fresh : (rops27 : List (HloOp τ sig (Elt F))).Forall fun op => op.fresh = ∅ :=
  ⟨rfl, rfl⟩

/-- Stretch 28: each of its operations determines everything it writes. -/
theorem rops28_fresh : (rops28 : List (HloOp τ sig (Elt F))).Forall fun op => op.fresh = ∅ :=
  ⟨rfl, rfl, rfl, rfl, rfl, rfl, rfl, rfl⟩

/-- Stretch 29: each of its operations determines everything it writes. -/
theorem rops29_fresh : (rops29 : List (HloOp τ sig (Elt F))).Forall fun op => op.fresh = ∅ :=
  ⟨rfl, rfl, rfl, rfl, rfl, rfl, rfl, rfl, rfl, rfl, rfl, rfl, rfl, rfl, rfl⟩

/-- Stretch 30: each of its operations determines everything it writes. -/
theorem rops30_fresh : (rops30 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Stretch 31: each of its operations determines everything it writes. -/
theorem rops31_fresh : (rops31 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Stretch 32: each of its operations determines everything it writes. -/
theorem rops32_fresh : (rops32 : List (HloOp τ sig (Elt F))).Forall fun op => op.fresh = ∅ :=
  ⟨rfl, rfl, rfl, rfl, rfl, rfl, rfl, rfl, rfl, rfl, rfl, rfl, rfl, rfl, rfl⟩

/-- Stretch 33: each of its operations determines everything it writes. -/
theorem rops33_fresh : (rops33 : List (HloOp τ sig (Elt F))).Forall fun op => op.fresh = ∅ :=
  rfl

/-- Every operation of the whole line determines everything it writes. -/
theorem ropss_fresh : ∀ op ∈ (List.flatten ropss : List (HloOp τ sig (Elt F))), op.fresh = ∅ :=
  List.forall_iff_forall_mem.mp (forall_flatten (ls := ropss)
    ⟨rops0_fresh, rops1_fresh, rops2_fresh, rops3_fresh, rops4_fresh, rops5_fresh, rops6_fresh, rops7_fresh, rops8_fresh, rops9_fresh,
     rops10_fresh, rops11_fresh, rops12_fresh, rops13_fresh, rops14_fresh, rops15_fresh, rops16_fresh, rops17_fresh, rops18_fresh, rops19_fresh,
     rops20_fresh, rops21_fresh, rops22_fresh, rops23_fresh, rops24_fresh, rops25_fresh, rops26_fresh, rops27_fresh, rops28_fresh, rops29_fresh,
     rops30_fresh, rops31_fresh, rops32_fresh, rops33_fresh⟩)

end Cert.ReferenceIdeal.Hand

end
-- ==== Proof.RI.Run.lean ====
import proofs.«401602_j3728031613303_3_alg».proof.Proof.RI.MainEq
import proofs.«401602_j3728031613303_3_alg».proof.Proof.RI.Subs
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- The contents of a core's buffers after the whole line of host operations, from the contents at launch. -/
def RFin (m : (ℓ : Loc nD τ sig) → Buf (Elt F) ℓ) (c : Dev nD) : Valuation τ sig (Elt F) :=
  StableHlo.after (List.flatten ropss) (fun b => m (c, b))

/-- The program is one straight line of host operations: it runs to their fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = RFin m c (Proc.devRef .tc b) :=
  StableHlo.run_seq scopedRefs_eq scopedSems_eq defs main (fun _ => List.flatten ropss) main_eq (fun _ => ropss_sub) m ρ
    (fun _ => ropss_fresh)

end Cert.ReferenceIdeal.Hand

end
-- ==== Proof.KI.Ops.lean ====
/- The program's host operations, in order, cut into stretches that each end where a value the comparison of the two
   programs names is complete; the lists of stretches; and for each stretch the references its operations write
   (every operation writes exactly one reference, each reference once). -/
import proofs.«401602_j3728031613303_3_alg».proof.Proof.Gen.KernelIdeal.Launch

noncomputable section

namespace Cert.KernelIdeal.Hand

open Idealize.ShloMosaic Idealize.ShloMosaic.TcCoe Idealize.SL.Sem
open Cert.KernelIdeal Cert.KernelIdeal.Gen

variable {F : FTy → Type} [FloatOps F]

/-- Stretch kpre0: operations 0 to 9 of this side of @main. -/
noncomputable abbrev kpre0 : List (HloOp τ sig (Elt F)) :=
  [ StableHlo.unary main_arg1 main_v0 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v0 main_v1 rfl shapeCasts_S1x262144_S262144,
    StableHlo.unary main_arg1 main_v2 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v2 main_v3 rfl shapeCasts_S1x262144_S262144,
    StableHlo.nullary main_v4 (iotaInDim S8192 32 0),
    StableHlo.binary main_v1 main_v4 main_v5 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.binary main_v3 main_v4 main_v6 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.nullary main_cst (constant S_ .f32 0x3F800000#32),
    StableHlo.unary main_cst main_v7 (broadcastInDim S8192 ![] bcast_S_S8192 : (⟨S_, .f32⟩ : BufTy).Contents (Elt F) → (⟨S8192, .f32⟩ : BufTy).Contents (Elt F)),
    StableHlo.binary main_arg2 main_v7 main_v8 ((fun a b => concatenate S270336 0 [⟨S262144, a⟩, ⟨S8192, b⟩] concatenates_S262144_S8192_S270336_d0) : (⟨S262144, .f32⟩ : BufTy).Contents (Elt F) → (⟨S8192, .f32⟩ : BufTy).Contents (Elt F) → (⟨S270336, .f32⟩ : BufTy).Contents (Elt F)) ]
/-- The references it writes, in order. -/
noncomputable def kwpre0 : List (Ref sig .tc) := [main_v0, main_v1, main_v2, main_v3, main_v4, main_v5, main_v6, main_cst, main_v7, main_v8]

/-- Stretch kpre1: operations 10 to 24 of this side of @main. -/
noncomputable abbrev kpre1 : List (HloOp τ sig (Elt F)) :=
  [ StableHlo.nullary main_cst_0 (constant S_ .f32 0x00000000#32),
    StableHlo.unary main_cst_0 main_v9 (broadcastInDim S8192 ![] bcast_S_S8192 : (⟨S_, .f32⟩ : BufTy).Contents (Elt F) → (⟨S8192, .f32⟩ : BufTy).Contents (Elt F)),
    StableHlo.unary main_v6 main_v10 (broadcastInDim S270336x1 ![0] bcast_S270336_S270336x1_0 : (⟨S270336, .i32⟩ : BufTy).Contents (Elt F) → (⟨S270336x1, .i32⟩ : BufTy).Contents (Elt F)),
    StableHlo.ternary main_v9 main_v10 main_v8 main_v11 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    StableHlo.nullary main_cst_1 (constant S_ .f32 0x00000000#32),
    StableHlo.unary main_cst_1 main_v12 (broadcastInDim S8192 ![] bcast_S_S8192 : (⟨S_, .f32⟩ : BufTy).Contents (Elt F) → (⟨S8192, .f32⟩ : BufTy).Contents (Elt F)),
    StableHlo.binary main_v11 main_v12 main_v13 (cmpf .ogt : (⟨S8192, .f32⟩ : BufTy).Contents (Elt F) → (⟨S8192, .f32⟩ : BufTy).Contents (Elt F) → (⟨S8192, .i1⟩ : BufTy).Contents (Elt F)),
    StableHlo.nullary main_cst_2 (constant S_ .f32 0x2B8CBCCC#32),
    StableHlo.unary main_cst_2 main_v14 (broadcastInDim S8192 ![] bcast_S_S8192 : (⟨S_, .f32⟩ : BufTy).Contents (Elt F) → (⟨S8192, .f32⟩ : BufTy).Contents (Elt F)),
    StableHlo.binary main_v11 main_v14 main_v15 (maximumf : (⟨S8192, .f32⟩ : BufTy).Contents (Elt F) → (⟨S8192, .f32⟩ : BufTy).Contents (Elt F) → (⟨S8192, .f32⟩ : BufTy).Contents (Elt F)),
    StableHlo.unary main_v15 main_v16 (Host.rsqrt : (⟨S8192, .f32⟩ : BufTy).Contents (Elt F) → (⟨S8192, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S8192, .f32⟩) (broadcastInDim S8192 ![] bcast_S_S8192),
    StableHlo.TRef.ternary (.of main_v13 : StableHlo.TRef sig ⟨S8192, .i1⟩) (.of main_v16 : StableHlo.TRef sig ⟨S8192, .f32⟩) (.of main_call0_v1 : StableHlo.TRef sig ⟨S8192, .f32⟩) (.of main_v17 : StableHlo.TRef sig ⟨S8192, .f32⟩) select ]
/-- The references it writes, in order. -/
noncomputable def kwpre1 : List (Ref sig .tc) := [main_cst_0, main_v9, main_v10, main_v11, main_cst_1, main_v12, main_v13, main_cst_2, main_v14, main_v15, main_v16, main_cst_3, main_call0_v0, main_call0_v1, main_v17]

/-- Stretch kpre2: operations 25 to 44 of this side of @main. -/
noncomputable abbrev kpre2 : List (HloOp τ sig (Elt F)) :=
  [ StableHlo.nullary main_c (constantI S_ 32 0#32),
    StableHlo.unary main_c main_v18 (broadcastInDim S270336 ![] bcast_S_S270336 : (⟨S_, .i32⟩ : BufTy).Contents (Elt F) → (⟨S270336, .i32⟩ : BufTy).Contents (Elt F)),
    StableHlo.binary main_v5 main_v18 main_v19 (cmpi .slt : (⟨S270336, .i32⟩ : BufTy).Contents (Elt F) → (⟨S270336, .i32⟩ : BufTy).Contents (Elt F) → (⟨S270336, .i1⟩ : BufTy).Contents (Elt F)),
    StableHlo.nullary main_c_4 (constantI S_ 32 8192#32),
    StableHlo.unary main_c_4 main_v20 (broadcastInDim S270336 ![] bcast_S_S270336 : (⟨S_, .i32⟩ : BufTy).Contents (Elt F) → (⟨S270336, .i32⟩ : BufTy).Contents (Elt F)),
    StableHlo.binary main_v5 main_v20 main_v21 (addi : (⟨S270336, .i32⟩ : BufTy).Contents (Elt F) → (⟨S270336, .i32⟩ : BufTy).Contents (Elt F) → (⟨S270336, .i32⟩ : BufTy).Contents (Elt F)),
    StableHlo.ternary main_v19 main_v21 main_v5 main_v22 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v22 main_v23 (broadcastInDim S270336x1 ![0] bcast_S270336_S270336x1_0 : (⟨S270336, .i32⟩ : BufTy).Contents (Elt F) → (⟨S270336x1, .i32⟩ : BufTy).Contents (Elt F)),
    StableHlo.binary main_v17 main_v23 main_v24 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.binary main_v24 main_v8 main_v25 (mulf : (⟨S270336, .f32⟩ : BufTy).Contents (Elt F) → (⟨S270336, .f32⟩ : BufTy).Contents (Elt F) → (⟨S270336, .f32⟩ : BufTy).Contents (Elt F)),
    StableHlo.nullary main_c_5 (constantI S_ 32 0#32),
    StableHlo.unary main_c_5 main_v26 (broadcastInDim S270336 ![] bcast_S_S270336 : (⟨S_, .i32⟩ : BufTy).Contents (Elt F) → (⟨S270336, .i32⟩ : BufTy).Contents (Elt F)),
    StableHlo.binary main_v6 main_v26 main_v27 (cmpi .slt : (⟨S270336, .i32⟩ : BufTy).Contents (Elt F) → (⟨S270336, .i32⟩ : BufTy).Contents (Elt F) → (⟨S270336, .i1⟩ : BufTy).Contents (Elt F)),
    StableHlo.nullary main_c_6 (constantI S_ 32 8192#32),
    StableHlo.unary main_c_6 main_v28 (broadcastInDim S270336 ![] bcast_S_S270336 : (⟨S_, .i32⟩ : BufTy).Contents (Elt F) → (⟨S270336, .i32⟩ : BufTy).Contents (Elt F)),
    StableHlo.binary main_v6 main_v28 main_v29 (addi : (⟨S270336, .i32⟩ : BufTy).Contents (Elt F) → (⟨S270336, .i32⟩ : BufTy).Contents (Elt F) → (⟨S270336, .i32⟩ : BufTy).Contents (Elt F)),
    StableHlo.ternary main_v27 main_v29 main_v6 main_v30 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v30 main_v31 (broadcastInDim S270336x1 ![0] bcast_S270336_S270336x1_0 : (⟨S270336, .i32⟩ : BufTy).Contents (Elt F) → (⟨S270336x1, .i32⟩ : BufTy).Contents (Elt F)),
    StableHlo.binary main_v17 main_v31 main_v32 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.binary main_v25 main_v32 main_v33 (mulf : (⟨S270336, .f32⟩ : BufTy).Contents (Elt F) → (⟨S270336, .f32⟩ : BufTy).Contents (Elt F) → (⟨S270336, .f32⟩ : BufTy).Contents (Elt F)) ]
/-- The references it writes, in order. -/
noncomputable def kwpre2 : List (Ref sig .tc) := [main_c, main_v18, main_v19, main_c_4, main_v20, main_v21, main_v22, main_v23, main_v24, main_v25, main_c_5, main_v26, main_v27, main_c_6, main_v28, main_v29, main_v30, main_v31, main_v32, main_v33]

/-- Stretch kpre3: operations 45 to 67 of this side of @main. -/
noncomputable abbrev kpre3 : List (HloOp τ sig (Elt F)) :=
  [ StableHlo.binary main_arg5 main_arg9 main_v34 ((fun a b => concatenate S512x116 1 [⟨S512x16, a⟩, ⟨S512x100, b⟩] concatenates_S512x16_S512x100_S512x116_d1) : (⟨S512x16, .f32⟩ : BufTy).Contents (Elt F) → (⟨S512x100, .f32⟩ : BufTy).Contents (Elt F) → (⟨S512x116, .f32⟩ : BufTy).Contents (Elt F)),
    StableHlo.binary main_arg6 main_arg10 main_v35 ((fun a b => concatenate S116 0 [⟨S16, a⟩, ⟨S100, b⟩] concatenates_S16_S100_S116_d0) : (⟨S16, .f32⟩ : BufTy).Contents (Elt F) → (⟨S100, .f32⟩ : BufTy).Contents (Elt F) → (⟨S116, .f32⟩ : BufTy).Contents (Elt F)),
    StableHlo.binary main_arg0 main_v34 main_v36 ((fun l r => Host.dotGeneral dot_S8192x512_S512x116_S8192x116_1_0_0_1_n_n none l r) : (⟨S8192x512, .f32⟩ : BufTy).Contents (Elt F) → (⟨S512x116, .f32⟩ : BufTy).Contents (Elt F) → (⟨S8192x116, .f32⟩ : BufTy).Contents (Elt F)),
    StableHlo.unary main_v33 main_v37 (broadcastInDim S270336x1 ![0] bcast_S270336_S270336x1_0 : (⟨S270336, .f32⟩ : BufTy).Contents (Elt F) → (⟨S270336x1, .f32⟩ : BufTy).Contents (Elt F)),
    StableHlo.nullary main_c_7 (constantI S_ 32 0#32),
    StableHlo.unary main_c_7 main_v38 (broadcastInDim S270336 ![] bcast_S_S270336 : (⟨S_, .i32⟩ : BufTy).Contents (Elt F) → (⟨S270336, .i32⟩ : BufTy).Contents (Elt F)),
    StableHlo.binary main_v5 main_v38 main_v39 (cmpi .slt : (⟨S270336, .i32⟩ : BufTy).Contents (Elt F) → (⟨S270336, .i32⟩ : BufTy).Contents (Elt F) → (⟨S270336, .i1⟩ : BufTy).Contents (Elt F)),
    StableHlo.nullary main_c_8 (constantI S_ 32 8192#32),
    StableHlo.unary main_c_8 main_v40 (broadcastInDim S270336 ![] bcast_S_S270336 : (⟨S_, .i32⟩ : BufTy).Contents (Elt F) → (⟨S270336, .i32⟩ : BufTy).Contents (Elt F)),
    StableHlo.binary main_v5 main_v40 main_v41 (addi : (⟨S270336, .i32⟩ : BufTy).Contents (Elt F) → (⟨S270336, .i32⟩ : BufTy).Contents (Elt F) → (⟨S270336, .i32⟩ : BufTy).Contents (Elt F)),
    StableHlo.ternary main_v39 main_v41 main_v5 main_v42 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v42 main_v43 (broadcastInDim S270336x1 ![0] bcast_S270336_S270336x1_0 : (⟨S270336, .i32⟩ : BufTy).Contents (Elt F) → (⟨S270336x1, .i32⟩ : BufTy).Contents (Elt F)),
    StableHlo.binary main_v36 main_v43 main_v44 ((fun x i => Host.gather gather_S8192x116_S270336x1_S270336x116_1_0_n_n_0_1_1116 x i) : (⟨S8192x116, .f32⟩ : BufTy).Contents (Elt F) → (⟨S270336x1, .i32⟩ : BufTy).Contents (Elt F) → (⟨S270336x116, .f32⟩ : BufTy).Contents (Elt F)),
    StableHlo.unary main_v37 main_v45 (broadcastInDim S270336x116 ![0, 1] bcast_S270336x1_S270336x116_0_1 : (⟨S270336x1, .f32⟩ : BufTy).Contents (Elt F) → (⟨S270336x116, .f32⟩ : BufTy).Contents (Elt F)),
    StableHlo.binary main_v45 main_v44 main_v46 (mulf : (⟨S270336x116, .f32⟩ : BufTy).Contents (Elt F) → (⟨S270336x116, .f32⟩ : BufTy).Contents (Elt F) → (⟨S270336x116, .f32⟩ : BufTy).Contents (Elt F)),
    StableHlo.nullary main_cst_9 (constant S_ .f32 0x00000000#32),
    StableHlo.unary main_cst_9 main_v47 (broadcastInDim S8192x116 ![] bcast_S_S8192x116 : (⟨S_, .f32⟩ : BufTy).Contents (Elt F) → (⟨S8192x116, .f32⟩ : BufTy).Contents (Elt F)),
    StableHlo.unary main_v6 main_v48 (broadcastInDim S270336x1 ![0] bcast_S270336_S270336x1_0 : (⟨S270336, .i32⟩ : BufTy).Contents (Elt F) → (⟨S270336x1, .i32⟩ : BufTy).Contents (Elt F)),
    StableHlo.ternary main_v47 main_v48 main_v46 main_v49 ((fun x i u => Host.scatterAdd scatter_S8192x116_S270336x1_S270336x116_1_0_0_1 x i u) : (⟨S8192x116, .f32⟩ : BufTy).Contents (Elt F) → (⟨S270336x1, .i32⟩ : BufTy).Contents (Elt F) → (⟨S270336x116, .f32⟩ : BufTy).Contents (Elt F) → (⟨S8192x116, .f32⟩ : BufTy).Contents (Elt F)),
    StableHlo.unary main_v35 main_v50 (broadcastInDim S1x116 ![1] bcast_S116_S1x116_1 : (⟨S116, .f32⟩ : BufTy).Contents (Elt F) → (⟨S1x116, .f32⟩ : BufTy).Contents (Elt F)),
    StableHlo.unary main_v50 main_v51 (broadcastInDim S8192x116 ![0, 1] bcast_S1x116_S8192x116_0_1 : (⟨S1x116, .f32⟩ : BufTy).Contents (Elt F) → (⟨S8192x116, .f32⟩ : BufTy).Contents (Elt F)),
    StableHlo.binary main_v49 main_v51 main_v52 (addf : (⟨S8192x116, .f32⟩ : BufTy).Contents (Elt F) → (⟨S8192x116, .f32⟩ : BufTy).Contents (Elt F) → (⟨S8192x116, .f32⟩ : BufTy).Contents (Elt F)),
    StableHlo.unary main_v52 main_v53 ((extractStridedSlice S8192x16 ![0, 0] · slices_S8192x116_S8192x16_0_0) : (⟨S8192x116, .f32⟩ : BufTy).Contents (Elt F) → (⟨S8192x16, .f32⟩ : BufTy).Contents (Elt F)) ]
/-- The references it writes, in order. -/
noncomputable def kwpre3 : List (Ref sig .tc) := [main_v34, main_v35, main_v36, main_v37, main_c_7, main_v38, main_v39, main_c_8, main_v40, main_v41, main_v42, main_v43, main_v44, main_v45, main_v46, main_cst_9, main_v47, main_v48, main_v49, main_v50, main_v51, main_v52, main_v53]

/-- Stretch kpre4: operations 68 to 70 of this side of @main. -/
noncomputable abbrev kpre4 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8192x16, .f32⟩) (broadcastInDim S8192x16 ![] bcast_S_S8192x16),
    StableHlo.TRef.binary (.of main_v53 : StableHlo.TRef sig ⟨S8192x16, .f32⟩) (.of main_call1_v0 : StableHlo.TRef sig ⟨S8192x16, .f32⟩) (.of main_v54 : StableHlo.TRef sig ⟨S8192x16, .f32⟩) maximumf ]
/-- The references it writes, in order. -/
noncomputable def kwpre4 : List (Ref sig .tc) := [main_call1_cst, main_call1_v0, main_v54]

/-- Stretch kpre5: operations 71 to 71 of this side of @main. -/
noncomputable abbrev kpre5 : List (HloOp τ sig (Elt F)) :=
  [ StableHlo.unary main_v52 main_v55 ((extractStridedSlice S8192x100 ![0, 16] · slices_S8192x116_S8192x100_0_16) : (⟨S8192x116, .f32⟩ : BufTy).Contents (Elt F) → (⟨S8192x100, .f32⟩ : BufTy).Contents (Elt F)) ]
/-- The references it writes, in order. -/
noncomputable def kwpre5 : List (Ref sig .tc) := [main_v55]

/-- Stretch kpre6: operations 72 to 74 of this side of @main. -/
noncomputable abbrev kpre6 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S8192x100, .f32⟩) (broadcastInDim S8192x100 ![] bcast_S_S8192x100),
    StableHlo.TRef.binary (.of main_v55 : StableHlo.TRef sig ⟨S8192x100, .f32⟩) (.of main_call2_v0 : StableHlo.TRef sig ⟨S8192x100, .f32⟩) (.of main_v56 : StableHlo.TRef sig ⟨S8192x100, .f32⟩) maximumf ]
/-- The references it writes, in order. -/
noncomputable def kwpre6 : List (Ref sig .tc) := [main_call2_cst, main_call2_v0, main_v56]

/-- Stretch kpre7: operations 75 to 94 of this side of @main. -/
noncomputable abbrev kpre7 : List (HloOp τ sig (Elt F)) :=
  [ StableHlo.binary main_v54 main_arg7 main_v57 ((fun l r => Host.dotGeneral dot_S8192x16_S16x10_S8192x10_1_0_0_1_n_n none l r) : (⟨S8192x16, .f32⟩ : BufTy).Contents (Elt F) → (⟨S16x10, .f32⟩ : BufTy).Contents (Elt F) → (⟨S8192x10, .f32⟩ : BufTy).Contents (Elt F)),
    StableHlo.unary main_v33 main_v58 (broadcastInDim S270336x1 ![0] bcast_S270336_S270336x1_0 : (⟨S270336, .f32⟩ : BufTy).Contents (Elt F) → (⟨S270336x1, .f32⟩ : BufTy).Contents (Elt F)),
    StableHlo.nullary main_c_10 (constantI S_ 32 0#32),
    StableHlo.unary main_c_10 main_v59 (broadcastInDim S270336 ![] bcast_S_S270336 : (⟨S_, .i32⟩ : BufTy).Contents (Elt F) → (⟨S270336, .i32⟩ : BufTy).Contents (Elt F)),
    StableHlo.binary main_v5 main_v59 main_v60 (cmpi .slt : (⟨S270336, .i32⟩ : BufTy).Contents (Elt F) → (⟨S270336, .i32⟩ : BufTy).Contents (Elt F) → (⟨S270336, .i1⟩ : BufTy).Contents (Elt F)),
    StableHlo.nullary main_c_11 (constantI S_ 32 8192#32),
    StableHlo.unary main_c_11 main_v61 (broadcastInDim S270336 ![] bcast_S_S270336 : (⟨S_, .i32⟩ : BufTy).Contents (Elt F) → (⟨S270336, .i32⟩ : BufTy).Contents (Elt F)),
    StableHlo.binary main_v5 main_v61 main_v62 (addi : (⟨S270336, .i32⟩ : BufTy).Contents (Elt F) → (⟨S270336, .i32⟩ : BufTy).Contents (Elt F) → (⟨S270336, .i32⟩ : BufTy).Contents (Elt F)),
    StableHlo.ternary main_v60 main_v62 main_v5 main_v63 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v63 main_v64 (broadcastInDim S270336x1 ![0] bcast_S270336_S270336x1_0 : (⟨S270336, .i32⟩ : BufTy).Contents (Elt F) → (⟨S270336x1, .i32⟩ : BufTy).Contents (Elt F)),
    StableHlo.binary main_v57 main_v64 main_v65 ((fun x i => Host.gather gather_S8192x10_S270336x1_S270336x10_1_0_n_n_0_1_110 x i) : (⟨S8192x10, .f32⟩ : BufTy).Contents (Elt F) → (⟨S270336x1, .i32⟩ : BufTy).Contents (Elt F) → (⟨S270336x10, .f32⟩ : BufTy).Contents (Elt F)),
    StableHlo.unary main_v58 main_v66 (broadcastInDim S270336x10 ![0, 1] bcast_S270336x1_S270336x10_0_1 : (⟨S270336x1, .f32⟩ : BufTy).Contents (Elt F) → (⟨S270336x10, .f32⟩ : BufTy).Contents (Elt F)),
    StableHlo.binary main_v66 main_v65 main_v67 (mulf : (⟨S270336x10, .f32⟩ : BufTy).Contents (Elt F) → (⟨S270336x10, .f32⟩ : BufTy).Contents (Elt F) → (⟨S270336x10, .f32⟩ : BufTy).Contents (Elt F)),
    StableHlo.nullary main_cst_12 (constant S_ .f32 0x00000000#32),
    StableHlo.unary main_cst_12 main_v68 (broadcastInDim S8192x10 ![] bcast_S_S8192x10 : (⟨S_, .f32⟩ : BufTy).Contents (Elt F) → (⟨S8192x10, .f32⟩ : BufTy).Contents (Elt F)),
    StableHlo.unary main_v6 main_v69 (broadcastInDim S270336x1 ![0] bcast_S270336_S270336x1_0 : (⟨S270336, .i32⟩ : BufTy).Contents (Elt F) → (⟨S270336x1, .i32⟩ : BufTy).Contents (Elt F)),
    StableHlo.ternary main_v68 main_v69 main_v67 main_v70 ((fun x i u => Host.scatterAdd scatter_S8192x10_S270336x1_S270336x10_1_0_0_1 x i u) : (⟨S8192x10, .f32⟩ : BufTy).Contents (Elt F) → (⟨S270336x1, .i32⟩ : BufTy).Contents (Elt F) → (⟨S270336x10, .f32⟩ : BufTy).Contents (Elt F) → (⟨S8192x10, .f32⟩ : BufTy).Contents (Elt F)),
    StableHlo.unary main_arg8 main_v71 (broadcastInDim S1x10 ![1] bcast_S10_S1x10_1 : (⟨S10, .f32⟩ : BufTy).Contents (Elt F) → (⟨S1x10, .f32⟩ : BufTy).Contents (Elt F)),
    StableHlo.unary main_v71 main_v72 (broadcastInDim S8192x10 ![0, 1] bcast_S1x10_S8192x10_0_1 : (⟨S1x10, .f32⟩ : BufTy).Contents (Elt F) → (⟨S8192x10, .f32⟩ : BufTy).Contents (Elt F)),
    StableHlo.binary main_v70 main_v72 main_v73 (addf : (⟨S8192x10, .f32⟩ : BufTy).Contents (Elt F) → (⟨S8192x10, .f32⟩ : BufTy).Contents (Elt F) → (⟨S8192x10, .f32⟩ : BufTy).Contents (Elt F)) ]
/-- The references it writes, in order. -/
noncomputable def kwpre7 : List (Ref sig .tc) := [main_v57, main_v58, main_c_10, main_v59, main_v60, main_c_11, main_v61, main_v62, main_v63, main_v64, main_v65, main_v66, main_v67, main_cst_12, main_v68, main_v69, main_v70, main_v71, main_v72, main_v73]

/-- Stretch kpre8: operations 95 to 112 of this side of @main. -/
noncomputable abbrev kpre8 : List (HloOp τ sig (Elt F)) :=
  [ StableHlo.nullary main_cst_13 (constant S_ .f32 0xFF800000#32),
    StableHlo.binary main_v56 main_cst_13 main_v74 ((fun x v => Host.reduce FloatOps.maximumf x v reducesTo_S8192x100_S8192_d1 h_S_) : (⟨S8192x100, .f32⟩ : BufTy).Contents (Elt F) → (⟨S_, .f32⟩ : BufTy).Contents (Elt F) → (⟨S8192, .f32⟩ : BufTy).Contents (Elt F)),
    StableHlo.nullary main_cst_14 (constant S_ .f32 0xFF800000#32),
    StableHlo.unary main_cst_14 main_v75 (broadcastInDim S8192 ![] bcast_S_S8192 : (⟨S_, .f32⟩ : BufTy).Contents (Elt F) → (⟨S8192, .f32⟩ : BufTy).Contents (Elt F)),
    StableHlo.binary main_v75 main_v74 main_v76 (maximumf : (⟨S8192, .f32⟩ : BufTy).Contents (Elt F) → (⟨S8192, .f32⟩ : BufTy).Contents (Elt F) → (⟨S8192, .f32⟩ : BufTy).Contents (Elt F)),
    StableHlo.unary main_v76 main_v77 (broadcastInDim S8192x1 ![0] bcast_S8192_S8192x1_0 : (⟨S8192, .f32⟩ : BufTy).Contents (Elt F) → (⟨S8192x1, .f32⟩ : BufTy).Contents (Elt F)),
    StableHlo.unary main_v77 main_v78 (broadcastInDim S8192x100 ![0, 1] bcast_S8192x1_S8192x100_0_1 : (⟨S8192x1, .f32⟩ : BufTy).Contents (Elt F) → (⟨S8192x100, .f32⟩ : BufTy).Contents (Elt F)),
    StableHlo.binary main_v56 main_v78 main_v79 (subf : (⟨S8192x100, .f32⟩ : BufTy).Contents (Elt F) → (⟨S8192x100, .f32⟩ : BufTy).Contents (Elt F) → (⟨S8192x100, .f32⟩ : BufTy).Contents (Elt F)),
    StableHlo.unary main_v79 main_v80 (Host.exp : (⟨S8192x100, .f32⟩ : BufTy).Contents (Elt F) → (⟨S8192x100, .f32⟩ : BufTy).Contents (Elt F)),
    StableHlo.nullary main_cst_15 (constant S_ .f32 0x00000000#32),
    StableHlo.binary main_v80 main_cst_15 main_v81 ((fun x v => Host.reduceAdd x v reducesTo_S8192x100_S8192_d1 h_S_) : (⟨S8192x100, .f32⟩ : BufTy).Contents (Elt F) → (⟨S_, .f32⟩ : BufTy).Contents (Elt F) → (⟨S8192, .f32⟩ : BufTy).Contents (Elt F)),
    StableHlo.unary main_v81 main_v82 (broadcastInDim S8192x1 ![0] bcast_S8192_S8192x1_0 : (⟨S8192, .f32⟩ : BufTy).Contents (Elt F) → (⟨S8192x1, .f32⟩ : BufTy).Contents (Elt F)),
    StableHlo.unary main_v82 main_v83 (broadcastInDim S8192x100 ![0, 1] bcast_S8192x1_S8192x100_0_1 : (⟨S8192x1, .f32⟩ : BufTy).Contents (Elt F) → (⟨S8192x100, .f32⟩ : BufTy).Contents (Elt F)),
    StableHlo.binary main_v80 main_v83 main_v84 (Host.divf : (⟨S8192x100, .f32⟩ : BufTy).Contents (Elt F) → (⟨S8192x100, .f32⟩ : BufTy).Contents (Elt F) → (⟨S8192x100, .f32⟩ : BufTy).Contents (Elt F)),
    StableHlo.unary main_arg4 main_v85 (uitofp .f32 : (⟨S8192, .i1⟩ : BufTy).Contents (Elt F) → (⟨S8192, .f32⟩ : BufTy).Contents (Elt F)),
    StableHlo.unary main_v85 main_v86 (broadcastInDim S8192x1 ![0] bcast_S8192_S8192x1_0 : (⟨S8192, .f32⟩ : BufTy).Contents (Elt F) → (⟨S8192x1, .f32⟩ : BufTy).Contents (Elt F)),
    StableHlo.unary main_v86 main_v87 (broadcastInDim S8192x100 ![0, 1] bcast_S8192x1_S8192x100_0_1 : (⟨S8192x1, .f32⟩ : BufTy).Contents (Elt F) → (⟨S8192x100, .f32⟩ : BufTy).Contents (Elt F)),
    StableHlo.binary main_v84 main_v87 main_v88 (mulf : (⟨S8192x100, .f32⟩ : BufTy).Contents (Elt F) → (⟨S8192x100, .f32⟩ : BufTy).Contents (Elt F) → (⟨S8192x100, .f32⟩ : BufTy).Contents (Elt F)) ]
/-- The references it writes, in order. -/
noncomputable def kwpre8 : List (Ref sig .tc) := [main_cst_13, main_v74, main_cst_14, main_v75, main_v76, main_v77, main_v78, main_v79, main_v80, main_cst_15, main_v81, main_v82, main_v83, main_v84, main_v85, main_v86, main_v87, main_v88]

/-- Stretch kpre9: operations 113 to 124 of this side of @main. -/
noncomputable abbrev kpre9 : List (HloOp τ sig (Elt F)) :=
  [ StableHlo.unary main_v88 main_v89 (Host.negf : (⟨S8192x100, .f32⟩ : BufTy).Contents (Elt F) → (⟨S8192x100, .f32⟩ : BufTy).Contents (Elt F)),
    StableHlo.nullary main_cst_16 (constant S_ .f32 0x26901D7D#32),
    StableHlo.unary main_cst_16 main_v90 (broadcastInDim S8192x100 ![] bcast_S_S8192x100 : (⟨S_, .f32⟩ : BufTy).Contents (Elt F) → (⟨S8192x100, .f32⟩ : BufTy).Contents (Elt F)),
    StableHlo.binary main_v88 main_v90 main_v91 (addf : (⟨S8192x100, .f32⟩ : BufTy).Contents (Elt F) → (⟨S8192x100, .f32⟩ : BufTy).Contents (Elt F) → (⟨S8192x100, .f32⟩ : BufTy).Contents (Elt F)),
    StableHlo.unary main_v91 main_v92 (Host.log : (⟨S8192x100, .f32⟩ : BufTy).Contents (Elt F) → (⟨S8192x100, .f32⟩ : BufTy).Contents (Elt F)),
    StableHlo.binary main_v89 main_v92 main_v93 (mulf : (⟨S8192x100, .f32⟩ : BufTy).Contents (Elt F) → (⟨S8192x100, .f32⟩ : BufTy).Contents (Elt F) → (⟨S8192x100, .f32⟩ : BufTy).Contents (Elt F)),
    StableHlo.nullary main_cst_17 (constant S_ .f32 0x00000000#32),
    StableHlo.binary main_v93 main_cst_17 main_v94 ((fun x v => Host.reduceAdd x v reducesTo_S8192x100_S8192_d1 h_S_) : (⟨S8192x100, .f32⟩ : BufTy).Contents (Elt F) → (⟨S_, .f32⟩ : BufTy).Contents (Elt F) → (⟨S8192, .f32⟩ : BufTy).Contents (Elt F)),
    StableHlo.nullary main_cst_18 (constant S_ .f32 0x00000000#32),
    StableHlo.binary main_v94 main_cst_18 main_v95 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_19 (constant S_ .f32 0x46000000#32),
    StableHlo.binary main_v95 main_cst_19 main_v96 (Host.divf : (⟨S_, .f32⟩ : BufTy).Contents (Elt F) → (⟨S_, .f32⟩ : BufTy).Contents (Elt F) → (⟨S_, .f32⟩ : BufTy).Contents (Elt F)) ]
/-- The references it writes, in order. -/
noncomputable def kwpre9 : List (Ref sig .tc) := [main_v89, main_cst_16, main_v90, main_v91, main_v92, main_v93, main_cst_17, main_v94, main_cst_18, main_v95, main_cst_19, main_v96]

/-- Stretch kpre10: operations 125 to 131 of this side of @main. -/
noncomputable abbrev kpre10 : List (HloOp τ sig (Elt F)) :=
  [ StableHlo.nullary main_c_20 (constantI S_ 32 0#32),
    StableHlo.TRef.unary (.of main_c_20 : StableHlo.TRef sig ⟨S_, .i32⟩) (.of main_call3_v0 : StableHlo.TRef sig ⟨S_, .f32⟩) (sitofp .f32),
    StableHlo.TRef.binary (.of main_v88 : StableHlo.TRef sig ⟨S8192x100, .f32⟩) (.of main_call3_v0 : StableHlo.TRef sig ⟨S_, .f32⟩) (.of main_v97 : StableHlo.TRef sig ⟨S8192x128, .f32⟩) (fun x v => pad S8192x128 ![0, 0] ![0, 28] ![0, 0] x v pads_S8192x100_S8192x128_000_0280 h_S_),
    StableHlo.unary main_v97 main_v98 ((truncf .bf16 · bitsLt_bf16_f32) : (⟨S8192x128, .f32⟩ : BufTy).Contents (Elt F) → (⟨S8192x128, .bf16⟩ : BufTy).Contents (Elt F)),
    StableHlo.unary main_v98 main_v99 ((extf .f32 · bitsLt_bf16_f32) : (⟨S8192x128, .bf16⟩ : BufTy).Contents (Elt F) → (⟨S8192x128, .f32⟩ : BufTy).Contents (Elt F)),
    StableHlo.binary main_v97 main_v99 main_v100 (subf : (⟨S8192x128, .f32⟩ : BufTy).Contents (Elt F) → (⟨S8192x128, .f32⟩ : BufTy).Contents (Elt F) → (⟨S8192x128, .f32⟩ : BufTy).Contents (Elt F)),
    StableHlo.unary main_v100 main_v101 ((truncf .bf16 · bitsLt_bf16_f32) : (⟨S8192x128, .f32⟩ : BufTy).Contents (Elt F) → (⟨S8192x128, .bf16⟩ : BufTy).Contents (Elt F)) ]
/-- The references it writes, in order. -/
noncomputable def kwpre10 : List (Ref sig .tc) := [main_c_20, main_call3_v0, main_v97, main_v98, main_v99, main_v100, main_v101]

/-- The stretches, in order. -/
noncomputable abbrev kpreOpss : List (List (HloOp τ sig (Elt F))) := [kpre0, kpre1, kpre2, kpre3, kpre4, kpre5, kpre6, kpre7, kpre8, kpre9, kpre10]

/-- Stretch ktail0: operations 0 to 9 of this side of @main. -/
noncomputable abbrev ktail0 : List (HloOp τ sig (Elt F)) :=
  [ StableHlo.nullary main_cst_21 (constant S_ .f32 0x00000000#32),
    StableHlo.binary main_v102_0 main_cst_21 main_v103 ((fun x v => Host.reduceAdd x v reducesTo_S2x128x128_S128x128_d0 h_S_) : (⟨S2x128x128, .f32⟩ : BufTy).Contents (Elt F) → (⟨S_, .f32⟩ : BufTy).Contents (Elt F) → (⟨S128x128, .f32⟩ : BufTy).Contents (Elt F)),
    StableHlo.unary main_v102_1 main_v104 ((extractStridedSlice S2x1x1 ![0, 0, 0] · slices_S2x8x128_S2x1x1_0_0_0) : (⟨S2x8x128, .f32⟩ : BufTy).Contents (Elt F) → (⟨S2x1x1, .f32⟩ : BufTy).Contents (Elt F)),
    StableHlo.reshape main_v104 main_v105 rfl shapeCasts_S2x1x1_S2,
    StableHlo.nullary main_cst_22 (constant S_ .f32 0x00000000#32),
    StableHlo.binary main_v105 main_cst_22 main_v106 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_23 (constant S_ .f32 0x00000000#32),
    StableHlo.binary main_v102_2 main_cst_23 main_v107 ((fun x v => Host.reduceAdd x v reducesTo_S2x128x512_S128x512_d0 h_S_) : (⟨S2x128x512, .f32⟩ : BufTy).Contents (Elt F) → (⟨S_, .f32⟩ : BufTy).Contents (Elt F) → (⟨S128x512, .f32⟩ : BufTy).Contents (Elt F)),
    StableHlo.unary main_v103 main_v108 ((extractStridedSlice S100x100 ![0, 0] · slices_S128x128_S100x100_0_0) : (⟨S128x128, .f32⟩ : BufTy).Contents (Elt F) → (⟨S100x100, .f32⟩ : BufTy).Contents (Elt F)),
    StableHlo.unary main_v107 main_v109 ((extractStridedSlice S100x512 ![0, 0] · slices_S128x512_S100x512_0_0) : (⟨S128x512, .f32⟩ : BufTy).Contents (Elt F) → (⟨S100x512, .f32⟩ : BufTy).Contents (Elt F)) ]
/-- The references it writes, in order. -/
noncomputable def kwtail0 : List (Ref sig .tc) := [main_cst_21, main_v103, main_v104, main_v105, main_cst_22, main_v106, main_cst_23, main_v107, main_v108, main_v109]

/-- Stretch ktail1: operations 10 to 34 of this side of @main. -/
noncomputable abbrev ktail1 : List (HloOp τ sig (Elt F)) :=
  [ StableHlo.unary main_v88 main_v110 ((transpose S100x8192 [1, 0] · transposes_S8192x100_S100x8192_1_0) : (⟨S8192x100, .f32⟩ : BufTy).Contents (Elt F) → (⟨S100x8192, .f32⟩ : BufTy).Contents (Elt F)),
    StableHlo.binary main_v110 main_v88 main_v111 ((fun l r => Host.dotGeneral dot_S100x8192_S8192x100_S100x100_1_0_0_1_n_n none l r) : (⟨S100x8192, .f32⟩ : BufTy).Contents (Elt F) → (⟨S8192x100, .f32⟩ : BufTy).Contents (Elt F) → (⟨S100x100, .f32⟩ : BufTy).Contents (Elt F)),
    StableHlo.binary main_v111 main_v111 main_v112 (mulf : (⟨S100x100, .f32⟩ : BufTy).Contents (Elt F) → (⟨S100x100, .f32⟩ : BufTy).Contents (Elt F) → (⟨S100x100, .f32⟩ : BufTy).Contents (Elt F)),
    StableHlo.nullary main_cst_24 (constant S_ .f32 0x00000000#32),
    StableHlo.binary main_v112 main_cst_24 main_v113 ((fun x v => Host.reduceAdd x v reducesTo_S100x100_S_d0_1 h_S_) : (⟨S100x100, .f32⟩ : BufTy).Contents (Elt F) → (⟨S_, .f32⟩ : BufTy).Contents (Elt F) → (⟨S_, .f32⟩ : BufTy).Contents (Elt F)),
    StableHlo.TRef.nullary (.of main_call4_v0 : StableHlo.TRef sig ⟨S128x128, .i32⟩) (iotaInDim S128x128 32 0),
    StableHlo.TRef.nullary (.of main_call4_v1 : StableHlo.TRef sig ⟨S128x128, .i32⟩) (iotaInDim S128x128 32 1),
    StableHlo.TRef.nullary (.of main_call4_c : StableHlo.TRef sig ⟨S_, .i32⟩) (constantI S_ 32 0#32),
    StableHlo.TRef.unary (.of main_call4_c : StableHlo.TRef sig ⟨S_, .i32⟩) (.of main_call4_v2 : StableHlo.TRef sig ⟨S128x128, .i32⟩) (broadcastInDim S128x128 ![] bcast_S_S128x128),
    StableHlo.TRef.binary (.of main_call4_v0 : StableHlo.TRef sig ⟨S128x128, .i32⟩) (.of main_call4_v2 : StableHlo.TRef sig ⟨S128x128, .i32⟩) (.of main_call4_v3 : StableHlo.TRef sig ⟨S128x128, .i32⟩) addi,
    StableHlo.TRef.binary (.of main_call4_v3 : StableHlo.TRef sig ⟨S128x128, .i32⟩) (.of main_call4_v1 : StableHlo.TRef sig ⟨S128x128, .i32⟩) (.of main_call4_v4 : StableHlo.TRef sig ⟨S128x128, .i1⟩) (cmpi .eq),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v5 : StableHlo.TRef sig ⟨S128x128, .f32⟩) (broadcastInDim S128x128 ![] bcast_S_S128x128),
    StableHlo.TRef.ternary (.of main_call4_v4 : StableHlo.TRef sig ⟨S128x128, .i1⟩) (.of main_v103 : StableHlo.TRef sig ⟨S128x128, .f32⟩) (.of main_call4_v5 : StableHlo.TRef sig ⟨S128x128, .f32⟩) (.of main_call4_v6 : StableHlo.TRef sig ⟨S128x128, .f32⟩) select,
    StableHlo.TRef.nullary (.of main_call4_cst_0 : StableHlo.TRef sig ⟨S_, .f32⟩) (constant S_ .f32 0x00000000#32),
    StableHlo.TRef.binary main_call4_call0.v0 (.of main_call4_cst_0 : StableHlo.TRef sig ⟨S_, .f32⟩) (.of main_v114 : StableHlo.TRef sig ⟨S_, .f32⟩) (fun x v => Host.reduceAdd x v reducesTo_S128x128_S_d0_1 h_S_),
    StableHlo.nullary main_cst_25 (constant S_ .f32 0x40000000#32),
    StableHlo.binary main_cst_25 main_v114 main_v115 (mulf : (⟨S_, .f32⟩ : BufTy).Contents (Elt F) → (⟨S_, .f32⟩ : BufTy).Contents (Elt F) → (⟨S_, .f32⟩ : BufTy).Contents (Elt F)),
    StableHlo.binary main_v106 main_v115 main_v116 (subf : (⟨S_, .f32⟩ : BufTy).Contents (Elt F) → (⟨S_, .f32⟩ : BufTy).Contents (Elt F) → (⟨S_, .f32⟩ : BufTy).Contents (Elt F)),
    StableHlo.binary main_v116 main_v113 main_v117 (addf : (⟨S_, .f32⟩ : BufTy).Contents (Elt F) → (⟨S_, .f32⟩ : BufTy).Contents (Elt F) → (⟨S_, .f32⟩ : BufTy).Contents (Elt F)),
    StableHlo.nullary main_cst_26 (constant S_ .f32 0x00000000#32),
    StableHlo.binary main_v117 main_cst_26 main_v118 (maximumf : (⟨S_, .f32⟩ : BufTy).Contents (Elt F) → (⟨S_, .f32⟩ : BufTy).Contents (Elt F) → (⟨S_, .f32⟩ : BufTy).Contents (Elt F)),
    StableHlo.unary main_v118 main_v119 (Host.sqrt : (⟨S_, .f32⟩ : BufTy).Contents (Elt F) → (⟨S_, .f32⟩ : BufTy).Contents (Elt F)),
    StableHlo.nullary main_cst_27 (constant S_ .f32 0x4C800000#32),
    StableHlo.binary main_v119 main_cst_27 main_v120 (Host.divf : (⟨S_, .f32⟩ : BufTy).Contents (Elt F) → (⟨S_, .f32⟩ : BufTy).Contents (Elt F) → (⟨S_, .f32⟩ : BufTy).Contents (Elt F)) ]
/-- The references it writes, in order. -/
noncomputable def kwtail1 : List (Ref sig .tc) := [main_v110, main_v111, main_v112, main_cst_24, main_v113, main_call4_v0, main_call4_v1, main_call4_c, main_call4_v2, main_call4_v3, main_call4_v4, main_call4_cst, main_call4_v5, main_call4_v6, main_call4_cst_0, main_v114, main_cst_25, main_v115, main_v116, main_v117, main_cst_26, main_v118, main_v119, main_cst_27, main_v120]

/-- Stretch ktail2: operations 35 to 60 of this side of @main. -/
noncomputable abbrev ktail2 : List (HloOp τ sig (Elt F)) :=
  [ StableHlo.nullary main_v121 (iotaInDim S100 32 0),
    StableHlo.nullary main_c_28 (constantI S_ 32 0#32),
    StableHlo.unary main_c_28 main_v122 (broadcastInDim S100 ![] bcast_S_S100 : (⟨S_, .i32⟩ : BufTy).Contents (Elt F) → (⟨S100, .i32⟩ : BufTy).Contents (Elt F)),
    StableHlo.binary main_v121 main_v122 main_v123 (cmpi .slt : (⟨S100, .i32⟩ : BufTy).Contents (Elt F) → (⟨S100, .i32⟩ : BufTy).Contents (Elt F) → (⟨S100, .i1⟩ : BufTy).Contents (Elt F)),
    StableHlo.nullary main_c_29 (constantI S_ 32 100#32),
    StableHlo.unary main_c_29 main_v124 (broadcastInDim S100 ![] bcast_S_S100 : (⟨S_, .i32⟩ : BufTy).Contents (Elt F) → (⟨S100, .i32⟩ : BufTy).Contents (Elt F)),
    StableHlo.binary main_v121 main_v124 main_v125 (addi : (⟨S100, .i32⟩ : BufTy).Contents (Elt F) → (⟨S100, .i32⟩ : BufTy).Contents (Elt F) → (⟨S100, .i32⟩ : BufTy).Contents (Elt F)),
    StableHlo.ternary main_v123 main_v125 main_v121 main_v126 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.nullary main_c_30 (constantI S_ 32 0#32),
    StableHlo.unary main_c_30 main_v127 (broadcastInDim S100 ![] bcast_S_S100 : (⟨S_, .i32⟩ : BufTy).Contents (Elt F) → (⟨S100, .i32⟩ : BufTy).Contents (Elt F)),
    StableHlo.binary main_v121 main_v127 main_v128 (cmpi .slt : (⟨S100, .i32⟩ : BufTy).Contents (Elt F) → (⟨S100, .i32⟩ : BufTy).Contents (Elt F) → (⟨S100, .i1⟩ : BufTy).Contents (Elt F)),
    StableHlo.nullary main_c_31 (constantI S_ 32 100#32),
    StableHlo.unary main_c_31 main_v129 (broadcastInDim S100 ![] bcast_S_S100 : (⟨S_, .i32⟩ : BufTy).Contents (Elt F) → (⟨S100, .i32⟩ : BufTy).Contents (Elt F)),
    StableHlo.binary main_v121 main_v129 main_v130 (addi : (⟨S100, .i32⟩ : BufTy).Contents (Elt F) → (⟨S100, .i32⟩ : BufTy).Contents (Elt F) → (⟨S100, .i32⟩ : BufTy).Contents (Elt F)),
    StableHlo.ternary main_v128 main_v130 main_v121 main_v131 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v126 main_v132 (broadcastInDim S100x1 ![0] bcast_S100_S100x1_0 : (⟨S100, .i32⟩ : BufTy).Contents (Elt F) → (⟨S100x1, .i32⟩ : BufTy).Contents (Elt F)),
    StableHlo.unary main_v131 main_v133 (broadcastInDim S100x1 ![0] bcast_S100_S100x1_0 : (⟨S100, .i32⟩ : BufTy).Contents (Elt F) → (⟨S100x1, .i32⟩ : BufTy).Contents (Elt F)),
    StableHlo.binary main_v132 main_v133 main_v134 ((fun a b => concatenate S100x2 1 [⟨S100x1, a⟩, ⟨S100x1, b⟩] concatenates_S100x1_S100x1_S100x2_d1) : (⟨S100x1, .i32⟩ : BufTy).Contents (Elt F) → (⟨S100x1, .i32⟩ : BufTy).Contents (Elt F) → (⟨S100x2, .i32⟩ : BufTy).Contents (Elt F)),
    StableHlo.binary main_v108 main_v134 main_v135 ((fun x i => Host.gather gather_S100x100_S100x2_S100_n_01_n_n_01_1_11 x i) : (⟨S100x100, .f32⟩ : BufTy).Contents (Elt F) → (⟨S100x2, .i32⟩ : BufTy).Contents (Elt F) → (⟨S100, .f32⟩ : BufTy).Contents (Elt F)),
    StableHlo.nullary main_cst_32 (constant S_ .f32 0x00000000#32),
    StableHlo.unary main_cst_32 main_v136 (broadcastInDim S100 ![] bcast_S_S100 : (⟨S_, .f32⟩ : BufTy).Contents (Elt F) → (⟨S100, .f32⟩ : BufTy).Contents (Elt F)),
    StableHlo.binary main_v135 main_v136 main_v137 (cmpf .oeq : (⟨S100, .f32⟩ : BufTy).Contents (Elt F) → (⟨S100, .f32⟩ : BufTy).Contents (Elt F) → (⟨S100, .i1⟩ : BufTy).Contents (Elt F)),
    StableHlo.nullary main_cst_33 (constant S_ .f32 0x3F800000#32),
    StableHlo.TRef.unary (.of main_cst_33 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S100, .f32⟩) (broadcastInDim S100 ![] bcast_S_S100),
    StableHlo.TRef.ternary (.of main_v137 : StableHlo.TRef sig ⟨S100, .i1⟩) (.of main_call5_v1 : StableHlo.TRef sig ⟨S100, .f32⟩) (.of main_v135 : StableHlo.TRef sig ⟨S100, .f32⟩) (.of main_v138 : StableHlo.TRef sig ⟨S100, .f32⟩) select ]
/-- The references it writes, in order. -/
noncomputable def kwtail2 : List (Ref sig .tc) := [main_v121, main_c_28, main_v122, main_v123, main_c_29, main_v124, main_v125, main_v126, main_c_30, main_v127, main_v128, main_c_31, main_v129, main_v130, main_v131, main_v132, main_v133, main_v134, main_v135, main_cst_32, main_v136, main_v137, main_cst_33, main_call5_v0, main_call5_v1, main_v138]

/-- Stretch ktail3: operations 61 to 78 of this side of @main. -/
noncomputable abbrev ktail3 : List (HloOp τ sig (Elt F)) :=
  [ StableHlo.nullary main_c_34 (constantI S_ 32 0#32),
    StableHlo.unary main_c_34 main_v139 (broadcastInDim S100 ![] bcast_S_S100 : (⟨S_, .i32⟩ : BufTy).Contents (Elt F) → (⟨S100, .i32⟩ : BufTy).Contents (Elt F)),
    StableHlo.binary main_v121 main_v139 main_v140 (cmpi .slt : (⟨S100, .i32⟩ : BufTy).Contents (Elt F) → (⟨S100, .i32⟩ : BufTy).Contents (Elt F) → (⟨S100, .i1⟩ : BufTy).Contents (Elt F)),
    StableHlo.nullary main_c_35 (constantI S_ 32 100#32),
    StableHlo.unary main_c_35 main_v141 (broadcastInDim S100 ![] bcast_S_S100 : (⟨S_, .i32⟩ : BufTy).Contents (Elt F) → (⟨S100, .i32⟩ : BufTy).Contents (Elt F)),
    StableHlo.binary main_v121 main_v141 main_v142 (addi : (⟨S100, .i32⟩ : BufTy).Contents (Elt F) → (⟨S100, .i32⟩ : BufTy).Contents (Elt F) → (⟨S100, .i32⟩ : BufTy).Contents (Elt F)),
    StableHlo.ternary main_v140 main_v142 main_v121 main_v143 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.nullary main_c_36 (constantI S_ 32 0#32),
    StableHlo.unary main_c_36 main_v144 (broadcastInDim S100 ![] bcast_S_S100 : (⟨S_, .i32⟩ : BufTy).Contents (Elt F) → (⟨S100, .i32⟩ : BufTy).Contents (Elt F)),
    StableHlo.binary main_v121 main_v144 main_v145 (cmpi .slt : (⟨S100, .i32⟩ : BufTy).Contents (Elt F) → (⟨S100, .i32⟩ : BufTy).Contents (Elt F) → (⟨S100, .i1⟩ : BufTy).Contents (Elt F)),
    StableHlo.nullary main_c_37 (constantI S_ 32 100#32),
    StableHlo.unary main_c_37 main_v146 (broadcastInDim S100 ![] bcast_S_S100 : (⟨S_, .i32⟩ : BufTy).Contents (Elt F) → (⟨S100, .i32⟩ : BufTy).Contents (Elt F)),
    StableHlo.binary main_v121 main_v146 main_v147 (addi : (⟨S100, .i32⟩ : BufTy).Contents (Elt F) → (⟨S100, .i32⟩ : BufTy).Contents (Elt F) → (⟨S100, .i32⟩ : BufTy).Contents (Elt F)),
    StableHlo.ternary main_v145 main_v147 main_v121 main_v148 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v143 main_v149 (broadcastInDim S100x1 ![0] bcast_S100_S100x1_0 : (⟨S100, .i32⟩ : BufTy).Contents (Elt F) → (⟨S100x1, .i32⟩ : BufTy).Contents (Elt F)),
    StableHlo.unary main_v148 main_v150 (broadcastInDim S100x1 ![0] bcast_S100_S100x1_0 : (⟨S100, .i32⟩ : BufTy).Contents (Elt F) → (⟨S100x1, .i32⟩ : BufTy).Contents (Elt F)),
    StableHlo.binary main_v149 main_v150 main_v151 ((fun a b => concatenate S100x2 1 [⟨S100x1, a⟩, ⟨S100x1, b⟩] concatenates_S100x1_S100x1_S100x2_d1) : (⟨S100x1, .i32⟩ : BufTy).Contents (Elt F) → (⟨S100x1, .i32⟩ : BufTy).Contents (Elt F) → (⟨S100x2, .i32⟩ : BufTy).Contents (Elt F)),
    StableHlo.ternary main_v108 main_v151 main_v138 main_v152 ((fun x i u => Host.scatter scatter_S100x100_S100x2_S100_n_01_01_1 (fun _ b => b) x i u) : (⟨S100x100, .f32⟩ : BufTy).Contents (Elt F) → (⟨S100x2, .i32⟩ : BufTy).Contents (Elt F) → (⟨S100, .f32⟩ : BufTy).Contents (Elt F) → (⟨S100x100, .f32⟩ : BufTy).Contents (Elt F)) ]
/-- The references it writes, in order. -/
noncomputable def kwtail3 : List (Ref sig .tc) := [main_c_34, main_v139, main_v140, main_c_35, main_v141, main_v142, main_v143, main_c_36, main_v144, main_v145, main_c_37, main_v146, main_v147, main_v148, main_v149, main_v150, main_v151, main_v152]

/-- Stretch ktail4: operations 79 to 91 of this side of @main. -/
noncomputable abbrev ktail4 : List (HloOp τ sig (Elt F)) :=
  [ StableHlo.nullary main_cst_38 (constant S_ .f32 0x00000000#32),
    StableHlo.binary main_v152 main_cst_38 main_v153 ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)),
    StableHlo.nullary main_cst_39 (constant S_ .f32 0x00000000#32),
    StableHlo.unary main_cst_39 main_v154 (broadcastInDim S100 ![] bcast_S_S100 : (⟨S_, .f32⟩ : BufTy).Contents (Elt F) → (⟨S100, .f32⟩ : BufTy).Contents (Elt F)),
    StableHlo.binary main_v153 main_v154 main_v155 (cmpf .ogt : (⟨S100, .f32⟩ : BufTy).Contents (Elt F) → (⟨S100, .f32⟩ : BufTy).Contents (Elt F) → (⟨S100, .i1⟩ : BufTy).Contents (Elt F)),
    StableHlo.nullary main_cst_40 (constant S_ .f32 0x2B8CBCCC#32),
    StableHlo.unary main_cst_40 main_v156 (broadcastInDim S100 ![] bcast_S_S100 : (⟨S_, .f32⟩ : BufTy).Contents (Elt F) → (⟨S100, .f32⟩ : BufTy).Contents (Elt F)),
    StableHlo.binary main_v153 main_v156 main_v157 (maximumf : (⟨S100, .f32⟩ : BufTy).Contents (Elt F) → (⟨S100, .f32⟩ : BufTy).Contents (Elt F) → (⟨S100, .f32⟩ : BufTy).Contents (Elt F)),
    StableHlo.unary main_v157 main_v158 (Host.rsqrt : (⟨S100, .f32⟩ : BufTy).Contents (Elt F) → (⟨S100, .f32⟩ : BufTy).Contents (Elt F)),
    StableHlo.nullary main_cst_41 (constant S_ .f32 0x00000000#32),
    StableHlo.TRef.unary (.of main_cst_41 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S100, .f32⟩) (broadcastInDim S100 ![] bcast_S_S100),
    StableHlo.TRef.ternary (.of main_v155 : StableHlo.TRef sig ⟨S100, .i1⟩) (.of main_v158 : StableHlo.TRef sig ⟨S100, .f32⟩) (.of main_call6_v1 : StableHlo.TRef sig ⟨S100, .f32⟩) (.of main_v159 : StableHlo.TRef sig ⟨S100, .f32⟩) select ]
/-- The references it writes, in order. -/
noncomputable def kwtail4 : List (Ref sig .tc) := [main_cst_38, main_v153, main_cst_39, main_v154, main_v155, main_cst_40, main_v156, main_v157, main_v158, main_cst_41, main_call6_v0, main_call6_v1, main_v159]

/-- Stretch ktail5: operations 92 to 105 of this side of @main. -/
noncomputable abbrev ktail5 : List (HloOp τ sig (Elt F)) :=
  [ StableHlo.unary main_v159 main_v160 (broadcastInDim S100x1 ![0] bcast_S100_S100x1_0 : (⟨S100, .f32⟩ : BufTy).Contents (Elt F) → (⟨S100x1, .f32⟩ : BufTy).Contents (Elt F)),
    StableHlo.unary main_v160 main_v161 (broadcastInDim S100x100 ![0, 1] bcast_S100x1_S100x100_0_1 : (⟨S100x1, .f32⟩ : BufTy).Contents (Elt F) → (⟨S100x100, .f32⟩ : BufTy).Contents (Elt F)),
    StableHlo.binary main_v161 main_v152 main_v162 (mulf : (⟨S100x100, .f32⟩ : BufTy).Contents (Elt F) → (⟨S100x100, .f32⟩ : BufTy).Contents (Elt F) → (⟨S100x100, .f32⟩ : BufTy).Contents (Elt F)),
    StableHlo.unary main_v159 main_v163 (broadcastInDim S1x100 ![1] bcast_S100_S1x100_1 : (⟨S100, .f32⟩ : BufTy).Contents (Elt F) → (⟨S1x100, .f32⟩ : BufTy).Contents (Elt F)),
    StableHlo.unary main_v163 main_v164 (broadcastInDim S100x100 ![0, 1] bcast_S1x100_S100x100_0_1 : (⟨S1x100, .f32⟩ : BufTy).Contents (Elt F) → (⟨S100x100, .f32⟩ : BufTy).Contents (Elt F)),
    StableHlo.binary main_v162 main_v164 main_v165 (mulf : (⟨S100x100, .f32⟩ : BufTy).Contents (Elt F) → (⟨S100x100, .f32⟩ : BufTy).Contents (Elt F) → (⟨S100x100, .f32⟩ : BufTy).Contents (Elt F)),
    StableHlo.binary main_v109 main_arg11 main_v166 ((fun l r => Host.dotGeneral dot_S100x512_S512x16_S100x16_1_0_0_1_n_n none l r) : (⟨S100x512, .f32⟩ : BufTy).Contents (Elt F) → (⟨S512x16, .f32⟩ : BufTy).Contents (Elt F) → (⟨S100x16, .f32⟩ : BufTy).Contents (Elt F)),
    StableHlo.binary main_v165 main_v166 main_v167 ((fun l r => Host.dotGeneral dot_S100x100_S100x16_S100x16_1_0_0_1_n_n none l r) : (⟨S100x100, .f32⟩ : BufTy).Contents (Elt F) → (⟨S100x16, .f32⟩ : BufTy).Contents (Elt F) → (⟨S100x16, .f32⟩ : BufTy).Contents (Elt F)),
    StableHlo.unary main_arg12 main_v168 (broadcastInDim S1x16 ![1] bcast_S16_S1x16_1 : (⟨S16, .f32⟩ : BufTy).Contents (Elt F) → (⟨S1x16, .f32⟩ : BufTy).Contents (Elt F)),
    StableHlo.unary main_v168 main_v169 (broadcastInDim S100x16 ![0, 1] bcast_S1x16_S100x16_0_1 : (⟨S1x16, .f32⟩ : BufTy).Contents (Elt F) → (⟨S100x16, .f32⟩ : BufTy).Contents (Elt F)),
    StableHlo.binary main_v167 main_v169 main_v170 (addf : (⟨S100x16, .f32⟩ : BufTy).Contents (Elt F) → (⟨S100x16, .f32⟩ : BufTy).Contents (Elt F) → (⟨S100x16, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S100x16, .f32⟩) (broadcastInDim S100x16 ![] bcast_S_S100x16),
    StableHlo.TRef.binary (.of main_v170 : StableHlo.TRef sig ⟨S100x16, .f32⟩) (.of main_call7_v0 : StableHlo.TRef sig ⟨S100x16, .f32⟩) (.of main_v171 : StableHlo.TRef sig ⟨S100x16, .f32⟩) maximumf ]
/-- The references it writes, in order. -/
noncomputable def kwtail5 : List (Ref sig .tc) := [main_v160, main_v161, main_v162, main_v163, main_v164, main_v165, main_v166, main_v167, main_v168, main_v169, main_v170, main_call7_cst, main_call7_v0, main_v171]

/-- Stretch ktail6: operations 106 to 131 of this side of @main. -/
noncomputable abbrev ktail6 : List (HloOp τ sig (Elt F)) :=
  [ StableHlo.nullary main_v172 (iotaInDim S100 32 0),
    StableHlo.nullary main_c_42 (constantI S_ 32 0#32),
    StableHlo.unary main_c_42 main_v173 (broadcastInDim S100 ![] bcast_S_S100 : (⟨S_, .i32⟩ : BufTy).Contents (Elt F) → (⟨S100, .i32⟩ : BufTy).Contents (Elt F)),
    StableHlo.binary main_v172 main_v173 main_v174 (cmpi .slt : (⟨S100, .i32⟩ : BufTy).Contents (Elt F) → (⟨S100, .i32⟩ : BufTy).Contents (Elt F) → (⟨S100, .i1⟩ : BufTy).Contents (Elt F)),
    StableHlo.nullary main_c_43 (constantI S_ 32 100#32),
    StableHlo.unary main_c_43 main_v175 (broadcastInDim S100 ![] bcast_S_S100 : (⟨S_, .i32⟩ : BufTy).Contents (Elt F) → (⟨S100, .i32⟩ : BufTy).Contents (Elt F)),
    StableHlo.binary main_v172 main_v175 main_v176 (addi : (⟨S100, .i32⟩ : BufTy).Contents (Elt F) → (⟨S100, .i32⟩ : BufTy).Contents (Elt F) → (⟨S100, .i32⟩ : BufTy).Contents (Elt F)),
    StableHlo.ternary main_v174 main_v176 main_v172 main_v177 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.nullary main_c_44 (constantI S_ 32 0#32),
    StableHlo.unary main_c_44 main_v178 (broadcastInDim S100 ![] bcast_S_S100 : (⟨S_, .i32⟩ : BufTy).Contents (Elt F) → (⟨S100, .i32⟩ : BufTy).Contents (Elt F)),
    StableHlo.binary main_v172 main_v178 main_v179 (cmpi .slt : (⟨S100, .i32⟩ : BufTy).Contents (Elt F) → (⟨S100, .i32⟩ : BufTy).Contents (Elt F) → (⟨S100, .i1⟩ : BufTy).Contents (Elt F)),
    StableHlo.nullary main_c_45 (constantI S_ 32 100#32),
    StableHlo.unary main_c_45 main_v180 (broadcastInDim S100 ![] bcast_S_S100 : (⟨S_, .i32⟩ : BufTy).Contents (Elt F) → (⟨S100, .i32⟩ : BufTy).Contents (Elt F)),
    StableHlo.binary main_v172 main_v180 main_v181 (addi : (⟨S100, .i32⟩ : BufTy).Contents (Elt F) → (⟨S100, .i32⟩ : BufTy).Contents (Elt F) → (⟨S100, .i32⟩ : BufTy).Contents (Elt F)),
    StableHlo.ternary main_v179 main_v181 main_v172 main_v182 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v177 main_v183 (broadcastInDim S100x1 ![0] bcast_S100_S100x1_0 : (⟨S100, .i32⟩ : BufTy).Contents (Elt F) → (⟨S100x1, .i32⟩ : BufTy).Contents (Elt F)),
    StableHlo.unary main_v182 main_v184 (broadcastInDim S100x1 ![0] bcast_S100_S100x1_0 : (⟨S100, .i32⟩ : BufTy).Contents (Elt F) → (⟨S100x1, .i32⟩ : BufTy).Contents (Elt F)),
    StableHlo.binary main_v183 main_v184 main_v185 ((fun a b => concatenate S100x2 1 [⟨S100x1, a⟩, ⟨S100x1, b⟩] concatenates_S100x1_S100x1_S100x2_d1) : (⟨S100x1, .i32⟩ : BufTy).Contents (Elt F) → (⟨S100x1, .i32⟩ : BufTy).Contents (Elt F) → (⟨S100x2, .i32⟩ : BufTy).Contents (Elt F)),
    StableHlo.binary main_v108 main_v185 main_v186 ((fun x i => Host.gather gather_S100x100_S100x2_S100_n_01_n_n_01_1_11 x i) : (⟨S100x100, .f32⟩ : BufTy).Contents (Elt F) → (⟨S100x2, .i32⟩ : BufTy).Contents (Elt F) → (⟨S100, .f32⟩ : BufTy).Contents (Elt F)),
    StableHlo.nullary main_cst_46 (constant S_ .f32 0x00000000#32),
    StableHlo.unary main_cst_46 main_v187 (broadcastInDim S100 ![] bcast_S_S100 : (⟨S_, .f32⟩ : BufTy).Contents (Elt F) → (⟨S100, .f32⟩ : BufTy).Contents (Elt F)),
    StableHlo.binary main_v186 main_v187 main_v188 (cmpf .oeq : (⟨S100, .f32⟩ : BufTy).Contents (Elt F) → (⟨S100, .f32⟩ : BufTy).Contents (Elt F) → (⟨S100, .i1⟩ : BufTy).Contents (Elt F)),
    StableHlo.nullary main_cst_47 (constant S_ .f32 0x3F800000#32),
    StableHlo.TRef.unary (.of main_cst_47 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S100, .f32⟩) (broadcastInDim S100 ![] bcast_S_S100),
    StableHlo.TRef.ternary (.of main_v188 : StableHlo.TRef sig ⟨S100, .i1⟩) (.of main_call8_v1 : StableHlo.TRef sig ⟨S100, .f32⟩) (.of main_v186 : StableHlo.TRef sig ⟨S100, .f32⟩) (.of main_v189 : StableHlo.TRef sig ⟨S100, .f32⟩) select ]
/-- The references it writes, in order. -/
noncomputable def kwtail6 : List (Ref sig .tc) := [main_v172, main_c_42, main_v173, main_v174, main_c_43, main_v175, main_v176, main_v177, main_c_44, main_v178, main_v179, main_c_45, main_v180, main_v181, main_v182, main_v183, main_v184, main_v185, main_v186, main_cst_46, main_v187, main_v188, main_cst_47, main_call8_v0, main_call8_v1, main_v189]

/-- Stretch ktail7: operations 132 to 149 of this side of @main. -/
noncomputable abbrev ktail7 : List (HloOp τ sig (Elt F)) :=
  [ StableHlo.nullary main_c_48 (constantI S_ 32 0#32),
    StableHlo.unary main_c_48 main_v190 (broadcastInDim S100 ![] bcast_S_S100 : (⟨S_, .i32⟩ : BufTy).Contents (Elt F) → (⟨S100, .i32⟩ : BufTy).Contents (Elt F)),
    StableHlo.binary main_v172 main_v190 main_v191 (cmpi .slt : (⟨S100, .i32⟩ : BufTy).Contents (Elt F) → (⟨S100, .i32⟩ : BufTy).Contents (Elt F) → (⟨S100, .i1⟩ : BufTy).Contents (Elt F)),
    StableHlo.nullary main_c_49 (constantI S_ 32 100#32),
    StableHlo.unary main_c_49 main_v192 (broadcastInDim S100 ![] bcast_S_S100 : (⟨S_, .i32⟩ : BufTy).Contents (Elt F) → (⟨S100, .i32⟩ : BufTy).Contents (Elt F)),
    StableHlo.binary main_v172 main_v192 main_v193 (addi : (⟨S100, .i32⟩ : BufTy).Contents (Elt F) → (⟨S100, .i32⟩ : BufTy).Contents (Elt F) → (⟨S100, .i32⟩ : BufTy).Contents (Elt F)),
    StableHlo.ternary main_v191 main_v193 main_v172 main_v194 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.nullary main_c_50 (constantI S_ 32 0#32),
    StableHlo.unary main_c_50 main_v195 (broadcastInDim S100 ![] bcast_S_S100 : (⟨S_, .i32⟩ : BufTy).Contents (Elt F) → (⟨S100, .i32⟩ : BufTy).Contents (Elt F)),
    StableHlo.binary main_v172 main_v195 main_v196 (cmpi .slt : (⟨S100, .i32⟩ : BufTy).Contents (Elt F) → (⟨S100, .i32⟩ : BufTy).Contents (Elt F) → (⟨S100, .i1⟩ : BufTy).Contents (Elt F)),
    StableHlo.nullary main_c_51 (constantI S_ 32 100#32),
    StableHlo.unary main_c_51 main_v197 (broadcastInDim S100 ![] bcast_S_S100 : (⟨S_, .i32⟩ : BufTy).Contents (Elt F) → (⟨S100, .i32⟩ : BufTy).Contents (Elt F)),
    StableHlo.binary main_v172 main_v197 main_v198 (addi : (⟨S100, .i32⟩ : BufTy).Contents (Elt F) → (⟨S100, .i32⟩ : BufTy).Contents (Elt F) → (⟨S100, .i32⟩ : BufTy).Contents (Elt F)),
    StableHlo.ternary main_v196 main_v198 main_v172 main_v199 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v194 main_v200 (broadcastInDim S100x1 ![0] bcast_S100_S100x1_0 : (⟨S100, .i32⟩ : BufTy).Contents (Elt F) → (⟨S100x1, .i32⟩ : BufTy).Contents (Elt F)),
    StableHlo.unary main_v199 main_v201 (broadcastInDim S100x1 ![0] bcast_S100_S100x1_0 : (⟨S100, .i32⟩ : BufTy).Contents (Elt F) → (⟨S100x1, .i32⟩ : BufTy).Contents (Elt F)),
    StableHlo.binary main_v200 main_v201 main_v202 ((fun a b => concatenate S100x2 1 [⟨S100x1, a⟩, ⟨S100x1, b⟩] concatenates_S100x1_S100x1_S100x2_d1) : (⟨S100x1, .i32⟩ : BufTy).Contents (Elt F) → (⟨S100x1, .i32⟩ : BufTy).Contents (Elt F) → (⟨S100x2, .i32⟩ : BufTy).Contents (Elt F)),
    StableHlo.ternary main_v108 main_v202 main_v189 main_v203 ((fun x i u => Host.scatter scatter_S100x100_S100x2_S100_n_01_01_1 (fun _ b => b) x i u) : (⟨S100x100, .f32⟩ : BufTy).Contents (Elt F) → (⟨S100x2, .i32⟩ : BufTy).Contents (Elt F) → (⟨S100, .f32⟩ : BufTy).Contents (Elt F) → (⟨S100x100, .f32⟩ : BufTy).Contents (Elt F)) ]
/-- The references it writes, in order. -/
noncomputable def kwtail7 : List (Ref sig .tc) := [main_c_48, main_v190, main_v191, main_c_49, main_v192, main_v193, main_v194, main_c_50, main_v195, main_v196, main_c_51, main_v197, main_v198, main_v199, main_v200, main_v201, main_v202, main_v203]

/-- Stretch ktail8: operations 150 to 162 of this side of @main. -/
noncomputable abbrev ktail8 : List (HloOp τ sig (Elt F)) :=
  [ StableHlo.nullary main_cst_52 (constant S_ .f32 0x00000000#32),
    StableHlo.binary main_v203 main_cst_52 main_v204 ((fun x v => Host.reduceAdd x v reducesTo_S100x100_S100_d1 h_S_) : (⟨S100x100, .f32⟩ : BufTy).Contents (Elt F) → (⟨S_, .f32⟩ : BufTy).Contents (Elt F) → (⟨S100, .f32⟩ : BufTy).Contents (Elt F)),
    StableHlo.nullary main_cst_53 (constant S_ .f32 0x00000000#32),
    StableHlo.unary main_cst_53 main_v205 (broadcastInDim S100 ![] bcast_S_S100 : (⟨S_, .f32⟩ : BufTy).Contents (Elt F) → (⟨S100, .f32⟩ : BufTy).Contents (Elt F)),
    StableHlo.binary main_v204 main_v205 main_v206 (cmpf .ogt : (⟨S100, .f32⟩ : BufTy).Contents (Elt F) → (⟨S100, .f32⟩ : BufTy).Contents (Elt F) → (⟨S100, .i1⟩ : BufTy).Contents (Elt F)),
    StableHlo.nullary main_cst_54 (constant S_ .f32 0x2B8CBCCC#32),
    StableHlo.unary main_cst_54 main_v207 (broadcastInDim S100 ![] bcast_S_S100 : (⟨S_, .f32⟩ : BufTy).Contents (Elt F) → (⟨S100, .f32⟩ : BufTy).Contents (Elt F)),
    StableHlo.binary main_v204 main_v207 main_v208 (maximumf : (⟨S100, .f32⟩ : BufTy).Contents (Elt F) → (⟨S100, .f32⟩ : BufTy).Contents (Elt F) → (⟨S100, .f32⟩ : BufTy).Contents (Elt F)),
    StableHlo.unary main_v208 main_v209 (Host.rsqrt : (⟨S100, .f32⟩ : BufTy).Contents (Elt F) → (⟨S100, .f32⟩ : BufTy).Contents (Elt F)),
    StableHlo.nullary main_cst_55 (constant S_ .f32 0x00000000#32),
    StableHlo.TRef.unary (.of main_cst_55 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S100, .f32⟩) (broadcastInDim S100 ![] bcast_S_S100),
    StableHlo.TRef.ternary (.of main_v206 : StableHlo.TRef sig ⟨S100, .i1⟩) (.of main_v209 : StableHlo.TRef sig ⟨S100, .f32⟩) (.of main_call9_v1 : StableHlo.TRef sig ⟨S100, .f32⟩) (.of main_v210 : StableHlo.TRef sig ⟨S100, .f32⟩) select ]
/-- The references it writes, in order. -/
noncomputable def kwtail8 : List (Ref sig .tc) := [main_cst_52, main_v204, main_cst_53, main_v205, main_v206, main_cst_54, main_v207, main_v208, main_v209, main_cst_55, main_call9_v0, main_call9_v1, main_v210]

/-- Stretch ktail9: operations 163 to 173 of this side of @main. -/
noncomputable abbrev ktail9 : List (HloOp τ sig (Elt F)) :=
  [ StableHlo.unary main_v210 main_v211 (broadcastInDim S100x1 ![0] bcast_S100_S100x1_0 : (⟨S100, .f32⟩ : BufTy).Contents (Elt F) → (⟨S100x1, .f32⟩ : BufTy).Contents (Elt F)),
    StableHlo.unary main_v211 main_v212 (broadcastInDim S100x100 ![0, 1] bcast_S100x1_S100x100_0_1 : (⟨S100x1, .f32⟩ : BufTy).Contents (Elt F) → (⟨S100x100, .f32⟩ : BufTy).Contents (Elt F)),
    StableHlo.binary main_v212 main_v203 main_v213 (mulf : (⟨S100x100, .f32⟩ : BufTy).Contents (Elt F) → (⟨S100x100, .f32⟩ : BufTy).Contents (Elt F) → (⟨S100x100, .f32⟩ : BufTy).Contents (Elt F)),
    StableHlo.unary main_v210 main_v214 (broadcastInDim S1x100 ![1] bcast_S100_S1x100_1 : (⟨S100, .f32⟩ : BufTy).Contents (Elt F) → (⟨S1x100, .f32⟩ : BufTy).Contents (Elt F)),
    StableHlo.unary main_v214 main_v215 (broadcastInDim S100x100 ![0, 1] bcast_S1x100_S100x100_0_1 : (⟨S1x100, .f32⟩ : BufTy).Contents (Elt F) → (⟨S100x100, .f32⟩ : BufTy).Contents (Elt F)),
    StableHlo.binary main_v213 main_v215 main_v216 (mulf : (⟨S100x100, .f32⟩ : BufTy).Contents (Elt F) → (⟨S100x100, .f32⟩ : BufTy).Contents (Elt F) → (⟨S100x100, .f32⟩ : BufTy).Contents (Elt F)),
    StableHlo.binary main_v171 main_arg13 main_v217 ((fun l r => Host.dotGeneral dot_S100x16_S16x100_S100x100_1_0_0_1_n_n none l r) : (⟨S100x16, .f32⟩ : BufTy).Contents (Elt F) → (⟨S16x100, .f32⟩ : BufTy).Contents (Elt F) → (⟨S100x100, .f32⟩ : BufTy).Contents (Elt F)),
    StableHlo.binary main_v216 main_v217 main_v218 ((fun l r => Host.dotGeneral dot_S100x100_S100x100_S100x100_1_0_0_1_n_n none l r) : (⟨S100x100, .f32⟩ : BufTy).Contents (Elt F) → (⟨S100x100, .f32⟩ : BufTy).Contents (Elt F) → (⟨S100x100, .f32⟩ : BufTy).Contents (Elt F)),
    StableHlo.unary main_arg14 main_v219 (broadcastInDim S1x100 ![1] bcast_S100_S1x100_1 : (⟨S100, .f32⟩ : BufTy).Contents (Elt F) → (⟨S1x100, .f32⟩ : BufTy).Contents (Elt F)),
    StableHlo.unary main_v219 main_v220 (broadcastInDim S100x100 ![0, 1] bcast_S1x100_S100x100_0_1 : (⟨S1x100, .f32⟩ : BufTy).Contents (Elt F) → (⟨S100x100, .f32⟩ : BufTy).Contents (Elt F)),
    StableHlo.binary main_v218 main_v220 main_v221 (addf : (⟨S100x100, .f32⟩ : BufTy).Contents (Elt F) → (⟨S100x100, .f32⟩ : BufTy).Contents (Elt F) → (⟨S100x100, .f32⟩ : BufTy).Contents (Elt F)) ]
/-- The references it writes, in order. -/
noncomputable def kwtail9 : List (Ref sig .tc) := [main_v211, main_v212, main_v213, main_v214, main_v215, main_v216, main_v217, main_v218, main_v219, main_v220, main_v221]

/-- Stretch ktail10: operations 174 to 175 of this side of @main. -/
noncomputable abbrev ktail10 : List (HloOp τ sig (Elt F)) :=
  [ StableHlo.binary main_v56 main_v221 main_v222 ((fun l r => Host.dotGeneral dot_S8192x100_S100x100_S8192x100_1_0_0_1_n_n none l r) : (⟨S8192x100, .f32⟩ : BufTy).Contents (Elt F) → (⟨S100x100, .f32⟩ : BufTy).Contents (Elt F) → (⟨S8192x100, .f32⟩ : BufTy).Contents (Elt F)),
    StableHlo.binary main_v73 main_v222 main_v223 ((fun a b => concatenate S8192x110 1 [⟨S8192x10, a⟩, ⟨S8192x100, b⟩] concatenates_S8192x10_S8192x100_S8192x110_d1) : (⟨S8192x10, .f32⟩ : BufTy).Contents (Elt F) → (⟨S8192x100, .f32⟩ : BufTy).Contents (Elt F) → (⟨S8192x110, .f32⟩ : BufTy).Contents (Elt F)) ]
/-- The references it writes, in order. -/
noncomputable def kwtail10 : List (Ref sig .tc) := [main_v222, main_v223]

/-- Stretch ktail11: operations 176 to 183 of this side of @main. -/
noncomputable abbrev ktail11 : List (HloOp τ sig (Elt F)) :=
  [ StableHlo.nullary main_cst_56 (constant S_ .f32 0x3F800000#32),
    StableHlo.unary main_cst_56 main_v224 (broadcastInDim S262144 ![] bcast_S_S262144 : (⟨S_, .f32⟩ : BufTy).Contents (Elt F) → (⟨S262144, .f32⟩ : BufTy).Contents (Elt F)),
    StableHlo.nullary main_v225 (iotaInDim S8192 32 0),
    StableHlo.binary main_v1 main_v225 main_v226 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.binary main_v3 main_v225 main_v227 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.nullary main_cst_57 (constant S_ .f32 0x3F800000#32),
    StableHlo.unary main_cst_57 main_v228 (broadcastInDim S8192 ![] bcast_S_S8192 : (⟨S_, .f32⟩ : BufTy).Contents (Elt F) → (⟨S8192, .f32⟩ : BufTy).Contents (Elt F)),
    StableHlo.binary main_v224 main_v228 main_v229 ((fun a b => concatenate S270336 0 [⟨S262144, a⟩, ⟨S8192, b⟩] concatenates_S262144_S8192_S270336_d0) : (⟨S262144, .f32⟩ : BufTy).Contents (Elt F) → (⟨S8192, .f32⟩ : BufTy).Contents (Elt F) → (⟨S270336, .f32⟩ : BufTy).Contents (Elt F)) ]
/-- The references it writes, in order. -/
noncomputable def kwtail11 : List (Ref sig .tc) := [main_cst_56, main_v224, main_v225, main_v226, main_v227, main_cst_57, main_v228, main_v229]

/-- Stretch ktail12: operations 184 to 198 of this side of @main. -/
noncomputable abbrev ktail12 : List (HloOp τ sig (Elt F)) :=
  [ StableHlo.nullary main_cst_58 (constant S_ .f32 0x00000000#32),
    StableHlo.unary main_cst_58 main_v230 (broadcastInDim S8192 ![] bcast_S_S8192 : (⟨S_, .f32⟩ : BufTy).Contents (Elt F) → (⟨S8192, .f32⟩ : BufTy).Contents (Elt F)),
    StableHlo.unary main_v227 main_v231 (broadcastInDim S270336x1 ![0] bcast_S270336_S270336x1_0 : (⟨S270336, .i32⟩ : BufTy).Contents (Elt F) → (⟨S270336x1, .i32⟩ : BufTy).Contents (Elt F)),
    StableHlo.ternary main_v230 main_v231 main_v229 main_v232 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    StableHlo.nullary main_cst_59 (constant S_ .f32 0x00000000#32),
    StableHlo.unary main_cst_59 main_v233 (broadcastInDim S8192 ![] bcast_S_S8192 : (⟨S_, .f32⟩ : BufTy).Contents (Elt F) → (⟨S8192, .f32⟩ : BufTy).Contents (Elt F)),
    StableHlo.binary main_v232 main_v233 main_v234 (cmpf .ogt : (⟨S8192, .f32⟩ : BufTy).Contents (Elt F) → (⟨S8192, .f32⟩ : BufTy).Contents (Elt F) → (⟨S8192, .i1⟩ : BufTy).Contents (Elt F)),
    StableHlo.nullary main_cst_60 (constant S_ .f32 0x2B8CBCCC#32),
    StableHlo.unary main_cst_60 main_v235 (broadcastInDim S8192 ![] bcast_S_S8192 : (⟨S_, .f32⟩ : BufTy).Contents (Elt F) → (⟨S8192, .f32⟩ : BufTy).Contents (Elt F)),
    StableHlo.binary main_v232 main_v235 main_v236 (maximumf : (⟨S8192, .f32⟩ : BufTy).Contents (Elt F) → (⟨S8192, .f32⟩ : BufTy).Contents (Elt F) → (⟨S8192, .f32⟩ : BufTy).Contents (Elt F)),
    StableHlo.unary main_v236 main_v237 (Host.rsqrt : (⟨S8192, .f32⟩ : BufTy).Contents (Elt F) → (⟨S8192, .f32⟩ : BufTy).Contents (Elt F)),
    StableHlo.nullary main_cst_61 (constant S_ .f32 0x00000000#32),
    StableHlo.TRef.unary (.of main_cst_61 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S8192, .f32⟩) (broadcastInDim S8192 ![] bcast_S_S8192),
    StableHlo.TRef.ternary (.of main_v234 : StableHlo.TRef sig ⟨S8192, .i1⟩) (.of main_v237 : StableHlo.TRef sig ⟨S8192, .f32⟩) (.of main_call10_v1 : StableHlo.TRef sig ⟨S8192, .f32⟩) (.of main_v238 : StableHlo.TRef sig ⟨S8192, .f32⟩) select ]
/-- The references it writes, in order. -/
noncomputable def kwtail12 : List (Ref sig .tc) := [main_cst_58, main_v230, main_v231, main_v232, main_cst_59, main_v233, main_v234, main_cst_60, main_v235, main_v236, main_v237, main_cst_61, main_call10_v0, main_call10_v1, main_v238]

/-- Stretch ktail13: operations 199 to 218 of this side of @main. -/
noncomputable abbrev ktail13 : List (HloOp τ sig (Elt F)) :=
  [ StableHlo.nullary main_c_62 (constantI S_ 32 0#32),
    StableHlo.unary main_c_62 main_v239 (broadcastInDim S270336 ![] bcast_S_S270336 : (⟨S_, .i32⟩ : BufTy).Contents (Elt F) → (⟨S270336, .i32⟩ : BufTy).Contents (Elt F)),
    StableHlo.binary main_v226 main_v239 main_v240 (cmpi .slt : (⟨S270336, .i32⟩ : BufTy).Contents (Elt F) → (⟨S270336, .i32⟩ : BufTy).Contents (Elt F) → (⟨S270336, .i1⟩ : BufTy).Contents (Elt F)),
    StableHlo.nullary main_c_63 (constantI S_ 32 8192#32),
    StableHlo.unary main_c_63 main_v241 (broadcastInDim S270336 ![] bcast_S_S270336 : (⟨S_, .i32⟩ : BufTy).Contents (Elt F) → (⟨S270336, .i32⟩ : BufTy).Contents (Elt F)),
    StableHlo.binary main_v226 main_v241 main_v242 (addi : (⟨S270336, .i32⟩ : BufTy).Contents (Elt F) → (⟨S270336, .i32⟩ : BufTy).Contents (Elt F) → (⟨S270336, .i32⟩ : BufTy).Contents (Elt F)),
    StableHlo.ternary main_v240 main_v242 main_v226 main_v243 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v243 main_v244 (broadcastInDim S270336x1 ![0] bcast_S270336_S270336x1_0 : (⟨S270336, .i32⟩ : BufTy).Contents (Elt F) → (⟨S270336x1, .i32⟩ : BufTy).Contents (Elt F)),
    StableHlo.binary main_v238 main_v244 main_v245 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.binary main_v245 main_v229 main_v246 (mulf : (⟨S270336, .f32⟩ : BufTy).Contents (Elt F) → (⟨S270336, .f32⟩ : BufTy).Contents (Elt F) → (⟨S270336, .f32⟩ : BufTy).Contents (Elt F)),
    StableHlo.nullary main_c_64 (constantI S_ 32 0#32),
    StableHlo.unary main_c_64 main_v247 (broadcastInDim S270336 ![] bcast_S_S270336 : (⟨S_, .i32⟩ : BufTy).Contents (Elt F) → (⟨S270336, .i32⟩ : BufTy).Contents (Elt F)),
    StableHlo.binary main_v227 main_v247 main_v248 (cmpi .slt : (⟨S270336, .i32⟩ : BufTy).Contents (Elt F) → (⟨S270336, .i32⟩ : BufTy).Contents (Elt F) → (⟨S270336, .i1⟩ : BufTy).Contents (Elt F)),
    StableHlo.nullary main_c_65 (constantI S_ 32 8192#32),
    StableHlo.unary main_c_65 main_v249 (broadcastInDim S270336 ![] bcast_S_S270336 : (⟨S_, .i32⟩ : BufTy).Contents (Elt F) → (⟨S270336, .i32⟩ : BufTy).Contents (Elt F)),
    StableHlo.binary main_v227 main_v249 main_v250 (addi : (⟨S270336, .i32⟩ : BufTy).Contents (Elt F) → (⟨S270336, .i32⟩ : BufTy).Contents (Elt F) → (⟨S270336, .i32⟩ : BufTy).Contents (Elt F)),
    StableHlo.ternary main_v248 main_v250 main_v227 main_v251 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v251 main_v252 (broadcastInDim S270336x1 ![0] bcast_S270336_S270336x1_0 : (⟨S270336, .i32⟩ : BufTy).Contents (Elt F) → (⟨S270336x1, .i32⟩ : BufTy).Contents (Elt F)),
    StableHlo.binary main_v238 main_v252 main_v253 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.binary main_v246 main_v253 main_v254 (mulf : (⟨S270336, .f32⟩ : BufTy).Contents (Elt F) → (⟨S270336, .f32⟩ : BufTy).Contents (Elt F) → (⟨S270336, .f32⟩ : BufTy).Contents (Elt F)) ]
/-- The references it writes, in order. -/
noncomputable def kwtail13 : List (Ref sig .tc) := [main_c_62, main_v239, main_v240, main_c_63, main_v241, main_v242, main_v243, main_v244, main_v245, main_v246, main_c_64, main_v247, main_v248, main_c_65, main_v249, main_v250, main_v251, main_v252, main_v253, main_v254]

/-- Stretch ktail14: operations 219 to 238 of this side of @main. -/
noncomputable abbrev ktail14 : List (HloOp τ sig (Elt F)) :=
  [ StableHlo.binary main_v223 main_arg15 main_v255 ((fun l r => Host.dotGeneral dot_S8192x110_S110x10_S8192x10_1_0_0_1_n_n none l r) : (⟨S8192x110, .f32⟩ : BufTy).Contents (Elt F) → (⟨S110x10, .f32⟩ : BufTy).Contents (Elt F) → (⟨S8192x10, .f32⟩ : BufTy).Contents (Elt F)),
    StableHlo.unary main_v254 main_v256 (broadcastInDim S270336x1 ![0] bcast_S270336_S270336x1_0 : (⟨S270336, .f32⟩ : BufTy).Contents (Elt F) → (⟨S270336x1, .f32⟩ : BufTy).Contents (Elt F)),
    StableHlo.nullary main_c_66 (constantI S_ 32 0#32),
    StableHlo.unary main_c_66 main_v257 (broadcastInDim S270336 ![] bcast_S_S270336 : (⟨S_, .i32⟩ : BufTy).Contents (Elt F) → (⟨S270336, .i32⟩ : BufTy).Contents (Elt F)),
    StableHlo.binary main_v226 main_v257 main_v258 (cmpi .slt : (⟨S270336, .i32⟩ : BufTy).Contents (Elt F) → (⟨S270336, .i32⟩ : BufTy).Contents (Elt F) → (⟨S270336, .i1⟩ : BufTy).Contents (Elt F)),
    StableHlo.nullary main_c_67 (constantI S_ 32 8192#32),
    StableHlo.unary main_c_67 main_v259 (broadcastInDim S270336 ![] bcast_S_S270336 : (⟨S_, .i32⟩ : BufTy).Contents (Elt F) → (⟨S270336, .i32⟩ : BufTy).Contents (Elt F)),
    StableHlo.binary main_v226 main_v259 main_v260 (addi : (⟨S270336, .i32⟩ : BufTy).Contents (Elt F) → (⟨S270336, .i32⟩ : BufTy).Contents (Elt F) → (⟨S270336, .i32⟩ : BufTy).Contents (Elt F)),
    StableHlo.ternary main_v258 main_v260 main_v226 main_v261 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v261 main_v262 (broadcastInDim S270336x1 ![0] bcast_S270336_S270336x1_0 : (⟨S270336, .i32⟩ : BufTy).Contents (Elt F) → (⟨S270336x1, .i32⟩ : BufTy).Contents (Elt F)),
    StableHlo.binary main_v255 main_v262 main_v263 ((fun x i => Host.gather gather_S8192x10_S270336x1_S270336x10_1_0_n_n_0_1_110 x i) : (⟨S8192x10, .f32⟩ : BufTy).Contents (Elt F) → (⟨S270336x1, .i32⟩ : BufTy).Contents (Elt F) → (⟨S270336x10, .f32⟩ : BufTy).Contents (Elt F)),
    StableHlo.unary main_v256 main_v264 (broadcastInDim S270336x10 ![0, 1] bcast_S270336x1_S270336x10_0_1 : (⟨S270336x1, .f32⟩ : BufTy).Contents (Elt F) → (⟨S270336x10, .f32⟩ : BufTy).Contents (Elt F)),
    StableHlo.binary main_v264 main_v263 main_v265 (mulf : (⟨S270336x10, .f32⟩ : BufTy).Contents (Elt F) → (⟨S270336x10, .f32⟩ : BufTy).Contents (Elt F) → (⟨S270336x10, .f32⟩ : BufTy).Contents (Elt F)),
    StableHlo.nullary main_cst_68 (constant S_ .f32 0x00000000#32),
    StableHlo.unary main_cst_68 main_v266 (broadcastInDim S8192x10 ![] bcast_S_S8192x10 : (⟨S_, .f32⟩ : BufTy).Contents (Elt F) → (⟨S8192x10, .f32⟩ : BufTy).Contents (Elt F)),
    StableHlo.unary main_v227 main_v267 (broadcastInDim S270336x1 ![0] bcast_S270336_S270336x1_0 : (⟨S270336, .i32⟩ : BufTy).Contents (Elt F) → (⟨S270336x1, .i32⟩ : BufTy).Contents (Elt F)),
    StableHlo.ternary main_v266 main_v267 main_v265 main_v268 ((fun x i u => Host.scatterAdd scatter_S8192x10_S270336x1_S270336x10_1_0_0_1 x i u) : (⟨S8192x10, .f32⟩ : BufTy).Contents (Elt F) → (⟨S270336x1, .i32⟩ : BufTy).Contents (Elt F) → (⟨S270336x10, .f32⟩ : BufTy).Contents (Elt F) → (⟨S8192x10, .f32⟩ : BufTy).Contents (Elt F)),
    StableHlo.unary main_arg16 main_v269 (broadcastInDim S1x10 ![1] bcast_S10_S1x10_1 : (⟨S10, .f32⟩ : BufTy).Contents (Elt F) → (⟨S1x10, .f32⟩ : BufTy).Contents (Elt F)),
    StableHlo.unary main_v269 main_v270 (broadcastInDim S8192x10 ![0, 1] bcast_S1x10_S8192x10_0_1 : (⟨S1x10, .f32⟩ : BufTy).Contents (Elt F) → (⟨S8192x10, .f32⟩ : BufTy).Contents (Elt F)),
    StableHlo.binary main_v268 main_v270 main_v271 (addf : (⟨S8192x10, .f32⟩ : BufTy).Contents (Elt F) → (⟨S8192x10, .f32⟩ : BufTy).Contents (Elt F) → (⟨S8192x10, .f32⟩ : BufTy).Contents (Elt F)) ]
/-- The references it writes, in order. -/
noncomputable def kwtail14 : List (Ref sig .tc) := [main_v255, main_v256, main_c_66, main_v257, main_v258, main_c_67, main_v259, main_v260, main_v261, main_v262, main_v263, main_v264, main_v265, main_cst_68, main_v266, main_v267, main_v268, main_v269, main_v270, main_v271]

/-- Stretch ktail15: operations 239 to 253 of this side of @main. -/
noncomputable abbrev ktail15 : List (HloOp τ sig (Elt F)) :=
  [ StableHlo.TRef.nullary (.of main_call11_cst : StableHlo.TRef sig ⟨S_, .f32⟩) (constant S_ .f32 0xFF800000#32),
    StableHlo.TRef.binary (.of main_v271 : StableHlo.TRef sig ⟨S8192x10, .f32⟩) (.of main_call11_cst : StableHlo.TRef sig ⟨S_, .f32⟩) (.of main_call11_v0 : StableHlo.TRef sig ⟨S8192, .f32⟩) (fun x v => Host.reduce FloatOps.maximumf x v reducesTo_S8192x10_S8192_d1 h_S_),
    StableHlo.TRef.nullary (.of main_call11_cst_0 : StableHlo.TRef sig ⟨S_, .f32⟩) (constant S_ .f32 0xFF800000#32),
    StableHlo.TRef.unary (.of main_call11_cst_0 : StableHlo.TRef sig ⟨S_, .f32⟩) (.of main_call11_v1 : StableHlo.TRef sig ⟨S8192, .f32⟩) (broadcastInDim S8192 ![] bcast_S_S8192),
    StableHlo.TRef.binary (.of main_call11_v1 : StableHlo.TRef sig ⟨S8192, .f32⟩) (.of main_call11_v0 : StableHlo.TRef sig ⟨S8192, .f32⟩) (.of main_call11_v2 : StableHlo.TRef sig ⟨S8192, .f32⟩) maximumf,
    StableHlo.TRef.unary (.of main_call11_v2 : StableHlo.TRef sig ⟨S8192, .f32⟩) (.of main_call11_v3 : StableHlo.TRef sig ⟨S8192x1, .f32⟩) (broadcastInDim S8192x1 ![0] bcast_S8192_S8192x1_0),
    StableHlo.TRef.unary (.of main_call11_v3 : StableHlo.TRef sig ⟨S8192x1, .f32⟩) (.of main_call11_v4 : StableHlo.TRef sig ⟨S8192x10, .f32⟩) (broadcastInDim S8192x10 ![0, 1] bcast_S8192x1_S8192x10_0_1),
    StableHlo.TRef.binary (.of main_v271 : StableHlo.TRef sig ⟨S8192x10, .f32⟩) (.of main_call11_v4 : StableHlo.TRef sig ⟨S8192x10, .f32⟩) (.of main_call11_v5 : StableHlo.TRef sig ⟨S8192x10, .f32⟩) subf,
    StableHlo.TRef.unary (.of main_call11_v5 : StableHlo.TRef sig ⟨S8192x10, .f32⟩) (.of main_call11_v6 : StableHlo.TRef sig ⟨S8192x10, .f32⟩) Host.exp,
    StableHlo.TRef.nullary (.of main_call11_cst_1 : StableHlo.TRef sig ⟨S_, .f32⟩) (constant S_ .f32 0x00000000#32),
    StableHlo.TRef.binary (.of main_call11_v6 : StableHlo.TRef sig ⟨S8192x10, .f32⟩) (.of main_call11_cst_1 : StableHlo.TRef sig ⟨S_, .f32⟩) (.of main_call11_v7 : StableHlo.TRef sig ⟨S8192, .f32⟩) (fun x v => Host.reduceAdd x v reducesTo_S8192x10_S8192_d1 h_S_),
    StableHlo.TRef.unary (.of main_call11_v7 : StableHlo.TRef sig ⟨S8192, .f32⟩) (.of main_call11_v8 : StableHlo.TRef sig ⟨S8192x1, .f32⟩) (broadcastInDim S8192x1 ![0] bcast_S8192_S8192x1_0),
    StableHlo.TRef.unary (.of main_call11_v8 : StableHlo.TRef sig ⟨S8192x1, .f32⟩) (.of main_call11_v9 : StableHlo.TRef sig ⟨S8192x1, .f32⟩) Host.log,
    StableHlo.TRef.unary (.of main_call11_v9 : StableHlo.TRef sig ⟨S8192x1, .f32⟩) (.of main_call11_v10 : StableHlo.TRef sig ⟨S8192x10, .f32⟩) (broadcastInDim S8192x10 ![0, 1] bcast_S8192x1_S8192x10_0_1),
    StableHlo.TRef.binary (.of main_call11_v5 : StableHlo.TRef sig ⟨S8192x10, .f32⟩) (.of main_call11_v10 : StableHlo.TRef sig ⟨S8192x10, .f32⟩) (.of main_v272 : StableHlo.TRef sig ⟨S8192x10, .f32⟩) subf ]
/-- The references it writes, in order. -/
noncomputable def kwtail15 : List (Ref sig .tc) := [main_call11_cst, main_call11_v0, main_call11_cst_0, main_call11_v1, main_call11_v2, main_call11_v3, main_call11_v4, main_call11_v5, main_call11_v6, main_call11_cst_1, main_call11_v7, main_call11_v8, main_call11_v9, main_call11_v10, main_v272]

/-- Stretch ktail16: operations 254 to 254 of this side of @main. -/
noncomputable abbrev ktail16 : List (HloOp τ sig (Elt F)) :=
  [ StableHlo.binary main_v120 main_v96 main_v273 (addf : (⟨S_, .f32⟩ : BufTy).Contents (Elt F) → (⟨S_, .f32⟩ : BufTy).Contents (Elt F) → (⟨S_, .f32⟩ : BufTy).Contents (Elt F)) ]
/-- The references it writes, in order. -/
noncomputable def kwtail16 : List (Ref sig .tc) := [main_v273]

/-- The stretches, in order. -/
noncomputable abbrev ktailOpss : List (List (HloOp τ sig (Elt F))) := [ktail0, ktail1, ktail2, ktail3, ktail4, ktail5, ktail6, ktail7, ktail8, ktail9, ktail10, ktail11, ktail12, ktail13, ktail14, ktail15, ktail16]

end Cert.KernelIdeal.Hand

end
-- ==== Proof.KI.Keeps.lean ====
import proofs.«401602_j3728031613303_3_alg».proof.Proof.KI.Ops
import Idealize.ShloMosaic.Lib.StableHlo.Run

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- Operations that write, in order, exactly the listed references leave every other reference as it was. -/
private theorem kkeep_of_writes {ops : List (HloOp τ sig (Elt F))} {W : List (Ref sig .tc)}
    (h : ops.map (·.writes) = W.map fun y => {Proc.devRef .tc y}) (X : Valuation τ sig (Elt F)) (r : Ref sig .tc)
    (hr : r ∉ W) : StableHlo.after ops X (Proc.devRef .tc r) = X (Proc.devRef .tc r) :=
  StableHlo.after_of_forall_not_mem ops X fun op hop hb => by
    have hm : op.writes ∈ ops.map (·.writes) := List.mem_map_of_mem hop
    rw [h] at hm
    obtain ⟨y, hy, he⟩ := List.mem_map.mp hm
    rw [← he, Finset.mem_singleton] at hb
    exact hr (Proc.devRef_injective _ hb ▸ hy)

theorem kkeeppre0 (X : Valuation τ sig (Elt F)) (r : Ref sig .tc) (hr : r ∉ kwpre0) :
    StableHlo.after kpre0 X (Proc.devRef .tc r) = X (Proc.devRef .tc r) := kkeep_of_writes rfl X r hr
theorem kkeeppre1 (X : Valuation τ sig (Elt F)) (r : Ref sig .tc) (hr : r ∉ kwpre1) :
    StableHlo.after kpre1 X (Proc.devRef .tc r) = X (Proc.devRef .tc r) := kkeep_of_writes rfl X r hr
theorem kkeeppre2 (X : Valuation τ sig (Elt F)) (r : Ref sig .tc) (hr : r ∉ kwpre2) :
    StableHlo.after kpre2 X (Proc.devRef .tc r) = X (Proc.devRef .tc r) := kkeep_of_writes rfl X r hr
theorem kkeeppre3 (X : Valuation τ sig (Elt F)) (r : Ref sig .tc) (hr : r ∉ kwpre3) :
    StableHlo.after kpre3 X (Proc.devRef .tc r) = X (Proc.devRef .tc r) := kkeep_of_writes rfl X r hr
theorem kkeeppre4 (X : Valuation τ sig (Elt F)) (r : Ref sig .tc) (hr : r ∉ kwpre4) :
    StableHlo.after kpre4 X (Proc.devRef .tc r) = X (Proc.devRef .tc r) := kkeep_of_writes rfl X r hr
theorem kkeeppre5 (X : Valuation τ sig (Elt F)) (r : Ref sig .tc) (hr : r ∉ kwpre5) :
    StableHlo.after kpre5 X (Proc.devRef .tc r) = X (Proc.devRef .tc r) := kkeep_of_writes rfl X r hr
theorem kkeeppre6 (X : Valuation τ sig (Elt F)) (r : Ref sig .tc) (hr : r ∉ kwpre6) :
    StableHlo.after kpre6 X (Proc.devRef .tc r) = X (Proc.devRef .tc r) := kkeep_of_writes rfl X r hr
theorem kkeeppre7 (X : Valuation τ sig (Elt F)) (r : Ref sig .tc) (hr : r ∉ kwpre7) :
    StableHlo.after kpre7 X (Proc.devRef .tc r) = X (Proc.devRef .tc r) := kkeep_of_writes rfl X r hr
theorem kkeeppre8 (X : Valuation τ sig (Elt F)) (r : Ref sig .tc) (hr : r ∉ kwpre8) :
    StableHlo.after kpre8 X (Proc.devRef .tc r) = X (Proc.devRef .tc r) := kkeep_of_writes rfl X r hr
theorem kkeeppre9 (X : Valuation τ sig (Elt F)) (r : Ref sig .tc) (hr : r ∉ kwpre9) :
    StableHlo.after kpre9 X (Proc.devRef .tc r) = X (Proc.devRef .tc r) := kkeep_of_writes rfl X r hr
theorem kkeeppre10 (X : Valuation τ sig (Elt F)) (r : Ref sig .tc) (hr : r ∉ kwpre10) :
    StableHlo.after kpre10 X (Proc.devRef .tc r) = X (Proc.devRef .tc r) := kkeep_of_writes rfl X r hr
theorem kkeeptail0 (X : Valuation τ sig (Elt F)) (r : Ref sig .tc) (hr : r ∉ kwtail0) :
    StableHlo.after ktail0 X (Proc.devRef .tc r) = X (Proc.devRef .tc r) := kkeep_of_writes rfl X r hr
theorem kkeeptail1 (X : Valuation τ sig (Elt F)) (r : Ref sig .tc) (hr : r ∉ kwtail1) :
    StableHlo.after ktail1 X (Proc.devRef .tc r) = X (Proc.devRef .tc r) := kkeep_of_writes rfl X r hr
theorem kkeeptail2 (X : Valuation τ sig (Elt F)) (r : Ref sig .tc) (hr : r ∉ kwtail2) :
    StableHlo.after ktail2 X (Proc.devRef .tc r) = X (Proc.devRef .tc r) := kkeep_of_writes rfl X r hr
theorem kkeeptail3 (X : Valuation τ sig (Elt F)) (r : Ref sig .tc) (hr : r ∉ kwtail3) :
    StableHlo.after ktail3 X (Proc.devRef .tc r) = X (Proc.devRef .tc r) := kkeep_of_writes rfl X r hr
theorem kkeeptail4 (X : Valuation τ sig (Elt F)) (r : Ref sig .tc) (hr : r ∉ kwtail4) :
    StableHlo.after ktail4 X (Proc.devRef .tc r) = X (Proc.devRef .tc r) := kkeep_of_writes rfl X r hr
theorem kkeeptail5 (X : Valuation τ sig (Elt F)) (r : Ref sig .tc) (hr : r ∉ kwtail5) :
    StableHlo.after ktail5 X (Proc.devRef .tc r) = X (Proc.devRef .tc r) := kkeep_of_writes rfl X r hr
theorem kkeeptail6 (X : Valuation τ sig (Elt F)) (r : Ref sig .tc) (hr : r ∉ kwtail6) :
    StableHlo.after ktail6 X (Proc.devRef .tc r) = X (Proc.devRef .tc r) := kkeep_of_writes rfl X r hr
theorem kkeeptail7 (X : Valuation τ sig (Elt F)) (r : Ref sig .tc) (hr : r ∉ kwtail7) :
    StableHlo.after ktail7 X (Proc.devRef .tc r) = X (Proc.devRef .tc r) := kkeep_of_writes rfl X r hr
theorem kkeeptail8 (X : Valuation τ sig (Elt F)) (r : Ref sig .tc) (hr : r ∉ kwtail8) :
    StableHlo.after ktail8 X (Proc.devRef .tc r) = X (Proc.devRef .tc r) := kkeep_of_writes rfl X r hr
theorem kkeeptail9 (X : Valuation τ sig (Elt F)) (r : Ref sig .tc) (hr : r ∉ kwtail9) :
    StableHlo.after ktail9 X (Proc.devRef .tc r) = X (Proc.devRef .tc r) := kkeep_of_writes rfl X r hr
theorem kkeeptail10 (X : Valuation τ sig (Elt F)) (r : Ref sig .tc) (hr : r ∉ kwtail10) :
    StableHlo.after ktail10 X (Proc.devRef .tc r) = X (Proc.devRef .tc r) := kkeep_of_writes rfl X r hr
theorem kkeeptail11 (X : Valuation τ sig (Elt F)) (r : Ref sig .tc) (hr : r ∉ kwtail11) :
    StableHlo.after ktail11 X (Proc.devRef .tc r) = X (Proc.devRef .tc r) := kkeep_of_writes rfl X r hr
theorem kkeeptail12 (X : Valuation τ sig (Elt F)) (r : Ref sig .tc) (hr : r ∉ kwtail12) :
    StableHlo.after ktail12 X (Proc.devRef .tc r) = X (Proc.devRef .tc r) := kkeep_of_writes rfl X r hr
theorem kkeeptail13 (X : Valuation τ sig (Elt F)) (r : Ref sig .tc) (hr : r ∉ kwtail13) :
    StableHlo.after ktail13 X (Proc.devRef .tc r) = X (Proc.devRef .tc r) := kkeep_of_writes rfl X r hr
theorem kkeeptail14 (X : Valuation τ sig (Elt F)) (r : Ref sig .tc) (hr : r ∉ kwtail14) :
    StableHlo.after ktail14 X (Proc.devRef .tc r) = X (Proc.devRef .tc r) := kkeep_of_writes rfl X r hr
theorem kkeeptail15 (X : Valuation τ sig (Elt F)) (r : Ref sig .tc) (hr : r ∉ kwtail15) :
    StableHlo.after ktail15 X (Proc.devRef .tc r) = X (Proc.devRef .tc r) := kkeep_of_writes rfl X r hr
theorem kkeeptail16 (X : Valuation τ sig (Elt F)) (r : Ref sig .tc) (hr : r ∉ kwtail16) :
    StableHlo.after ktail16 X (Proc.devRef .tc r) = X (Proc.devRef .tc r) := kkeep_of_writes rfl X r hr

end Cert.KernelIdeal.Hand

end
-- ==== Proof.KI.Flat.lean ====
import proofs.«401602_j3728031613303_3_alg».proof.Proof.KI.Data
import proofs.«401602_j3728031613303_3_alg».proof.Proof.KI.Ops

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

theorem kpre_flat : List.flatten (kpreOpss : List (List (HloOp τ sig (Elt F)))) = List.flatten preOpss := rfl

theorem ktail_flat : List.flatten (ktailOpss : List (List (HloOp τ sig (Elt F)))) = List.flatten tailOpss := rfl

end Cert.KernelIdeal.Hand

end
-- ==== Proof.KI.StagesK.lean ====
import proofs.«401602_j3728031613303_3_alg».proof.Proof.KI.Data
import proofs.«401602_j3728031613303_3_alg».proof.Proof.KI.Writes
import proofs.«401602_j3728031613303_3_alg».proof.Proof.KI.Ops
import proofs.«401602_j3728031613303_3_alg».proof.Proof.KI.Keeps
import proofs.«401602_j3728031613303_3_alg».proof.Proof.KI.Flat
import Idealize.ShloMosaic.Lib.Pipeline.Cells

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- References of one memory space are told apart by their numbers in it. -/
def rkey (r : Ref sig .tc) : Nat := r.idx.val

theorem not_mem_of_key_lt {L : List (Ref sig .tc)} {n : Nat} (hL : ∀ x ∈ L, n ≤ rkey x) {r : Ref sig .tc}
    (hr : rkey r < n) : r ∉ L :=
  fun hm => absurd (hL r hm) (Nat.not_le.mpr hr)

/-- The buffer contents after each stretch before the region, from the launch contents. -/
def PB0 (c : Dev nD) : Valuation τ sig (Elt F) := fun b => m (c, b)
def PB1 (c : Dev nD) : Valuation τ sig (Elt F) := StableHlo.after kpre0 (PB0 m c)
def PB2 (c : Dev nD) : Valuation τ sig (Elt F) := StableHlo.after kpre1 (PB1 m c)
def PB3 (c : Dev nD) : Valuation τ sig (Elt F) := StableHlo.after kpre2 (PB2 m c)
def PB4 (c : Dev nD) : Valuation τ sig (Elt F) := StableHlo.after kpre3 (PB3 m c)
def PB5 (c : Dev nD) : Valuation τ sig (Elt F) := StableHlo.after kpre4 (PB4 m c)
def PB6 (c : Dev nD) : Valuation τ sig (Elt F) := StableHlo.after kpre5 (PB5 m c)
def PB7 (c : Dev nD) : Valuation τ sig (Elt F) := StableHlo.after kpre6 (PB6 m c)
def PB8 (c : Dev nD) : Valuation τ sig (Elt F) := StableHlo.after kpre7 (PB7 m c)
def PB9 (c : Dev nD) : Valuation τ sig (Elt F) := StableHlo.after kpre8 (PB8 m c)
def PB10 (c : Dev nD) : Valuation τ sig (Elt F) := StableHlo.after kpre9 (PB9 m c)
def PB11 (c : Dev nD) : Valuation τ sig (Elt F) := StableHlo.after kpre10 (PB10 m c)

theorem V0_eq (c : Dev nD) : V0 m c = PB11 m c := by
  show StableHlo.after (List.flatten (preOpss : List (List (HloOp τ sig (Elt F))))) (fun b => m (c, b)) = PB11 m c
  rw [← kpre_flat]
  simp only [kpreOpss, List.flatten_cons, List.flatten_nil, List.append_nil, StableHlo.after_append]
  rfl

def arrs (c : Dev nD) (w : Fin 8) : Buf (Elt F) ((spec0 w).arr.view.loc (c.tc : Thread nD τ)) := (dats m 0 c).arrAt w cfg0.N
/-- The buffer contents after the region, then after each stretch that follows it. -/
def TB0 (c : Dev nD) : Valuation τ sig (Elt F) := Pipeline.withArrays spec0 c (V0 m c) (arrs m c)
def TB1 (c : Dev nD) : Valuation τ sig (Elt F) := StableHlo.after ktail0 (TB0 m c)
def TB2 (c : Dev nD) : Valuation τ sig (Elt F) := StableHlo.after ktail1 (TB1 m c)
def TB3 (c : Dev nD) : Valuation τ sig (Elt F) := StableHlo.after ktail2 (TB2 m c)
def TB4 (c : Dev nD) : Valuation τ sig (Elt F) := StableHlo.after ktail3 (TB3 m c)
def TB5 (c : Dev nD) : Valuation τ sig (Elt F) := StableHlo.after ktail4 (TB4 m c)
def TB6 (c : Dev nD) : Valuation τ sig (Elt F) := StableHlo.after ktail5 (TB5 m c)
def TB7 (c : Dev nD) : Valuation τ sig (Elt F) := StableHlo.after ktail6 (TB6 m c)
def TB8 (c : Dev nD) : Valuation τ sig (Elt F) := StableHlo.after ktail7 (TB7 m c)
def TB9 (c : Dev nD) : Valuation τ sig (Elt F) := StableHlo.after ktail8 (TB8 m c)
def TB10 (c : Dev nD) : Valuation τ sig (Elt F) := StableHlo.after ktail9 (TB9 m c)
def TB11 (c : Dev nD) : Valuation τ sig (Elt F) := StableHlo.after ktail10 (TB10 m c)
def TB12 (c : Dev nD) : Valuation τ sig (Elt F) := StableHlo.after ktail11 (TB11 m c)
def TB13 (c : Dev nD) : Valuation τ sig (Elt F) := StableHlo.after ktail12 (TB12 m c)
def TB14 (c : Dev nD) : Valuation τ sig (Elt F) := StableHlo.after ktail13 (TB13 m c)
def TB15 (c : Dev nD) : Valuation τ sig (Elt F) := StableHlo.after ktail14 (TB14 m c)
def TB16 (c : Dev nD) : Valuation τ sig (Elt F) := StableHlo.after ktail15 (TB15 m c)
def TB17 (c : Dev nD) : Valuation τ sig (Elt F) := StableHlo.after ktail16 (TB16 m c)
def KFin (c : Dev nD) : Valuation τ sig (Elt F) := TB17 m c

theorem KFin_eq_flat (c : Dev nD) :
    KFin m c = StableHlo.after (List.flatten (tailOpss : List (List (HloOp τ sig (Elt F))))) (TB0 m c) := by
  rw [← ktail_flat]
  simp only [ktailOpss, List.flatten_cons, List.flatten_nil, List.append_nil, StableHlo.after_append]
  rfl

theorem afterTail_eq (c : Dev nD) (b : Ref sig .tc) :
    Pipeline.afterTail₀ cfgs (dats m) 0 (V0 m) tailOpss c b = KFin m c (Proc.devRef .tc b) := by
  rw [KFin_eq_flat]
  rfl

theorem TB0_arr (c : Dev nD) (w : Fin 8) :
    TB0 m c (Proc.devRef .tc (Pipeline.arrRef spec0 w)) = (dats m 0 c).arrAt w cfg0.N :=
  Pipeline.withArrays_arr spec0 launch0.win.arr_inj c (V0 m c) (arrs m c) w

/-- A stretch writing the run of numbers from `n` on keeps a reference numbered below `n`: the two stages agree on it. -/
private theorem up {α : Sort _} {W : List (Ref sig .tc)} {n n' : Nat} {r : Ref sig .tc} {a a' b : α} (hr : rkey r < n) (k : Nat)
    (hk : r ∉ W → a' = a) (hW : W.map rkey = List.range' n k) (hn : n ≤ n') (h : rkey r < n' → a' = b) : a = b :=
  (hk fun hm => by
    have := List.mem_map_of_mem (f := rkey) hm
    rw [hW] at this
    exact absurd (List.mem_range'_1.mp this).1 (Nat.not_le.mpr hr)).symm.trans (h (Nat.lt_of_lt_of_le hr hn))

theorem tail_down16_k (c : Dev nD) (r : Ref sig .tc) (hr : rkey r < 407) :
    KFin m c (Proc.devRef .tc r) = StableHlo.after ktail16 (TB16 m c) (Proc.devRef .tc r) := rfl
theorem tail_up16_k (c : Dev nD) (r : Ref sig .tc) (hr : rkey r < 406) :
    TB16 m c (Proc.devRef .tc r) = KFin m c (Proc.devRef .tc r) :=
  up hr 1 (kkeeptail16 (TB16 m c) r) rfl (Nat.le_refl _) fun _ => rfl
theorem tail_down15_k (c : Dev nD) (r : Ref sig .tc) (hr : rkey r < 406) :
    KFin m c (Proc.devRef .tc r) = StableHlo.after ktail15 (TB15 m c) (Proc.devRef .tc r) := (tail_up16_k m c r hr).symm
theorem tail_up15_k (c : Dev nD) (r : Ref sig .tc) (hr : rkey r < 391) :
    TB15 m c (Proc.devRef .tc r) = KFin m c (Proc.devRef .tc r) :=
  up hr 15 (kkeeptail15 (TB15 m c) r) rfl (by decide) (tail_up16_k m c r)
theorem tail_down14_k (c : Dev nD) (r : Ref sig .tc) (hr : rkey r < 391) :
    KFin m c (Proc.devRef .tc r) = StableHlo.after ktail14 (TB14 m c) (Proc.devRef .tc r) := (tail_up15_k m c r hr).symm
theorem tail_up14_k (c : Dev nD) (r : Ref sig .tc) (hr : rkey r < 371) :
    TB14 m c (Proc.devRef .tc r) = KFin m c (Proc.devRef .tc r) :=
  up hr 20 (kkeeptail14 (TB14 m c) r) rfl (by decide) (tail_up15_k m c r)
theorem tail_down13_k (c : Dev nD) (r : Ref sig .tc) (hr : rkey r < 371) :
    KFin m c (Proc.devRef .tc r) = StableHlo.after ktail13 (TB13 m c) (Proc.devRef .tc r) := (tail_up14_k m c r hr).symm
theorem tail_up13_k (c : Dev nD) (r : Ref sig .tc) (hr : rkey r < 351) :
    TB13 m c (Proc.devRef .tc r) = KFin m c (Proc.devRef .tc r) :=
  up hr 20 (kkeeptail13 (TB13 m c) r) rfl (by decide) (tail_up14_k m c r)
theorem tail_down12_k (c : Dev nD) (r : Ref sig .tc) (hr : rkey r < 351) :
    KFin m c (Proc.devRef .tc r) = StableHlo.after ktail12 (TB12 m c) (Proc.devRef .tc r) := (tail_up13_k m c r hr).symm
theorem tail_up12_k (c : Dev nD) (r : Ref sig .tc) (hr : rkey r < 336) :
    TB12 m c (Proc.devRef .tc r) = KFin m c (Proc.devRef .tc r) :=
  up hr 15 (kkeeptail12 (TB12 m c) r) rfl (by decide) (tail_up13_k m c r)
theorem tail_down11_k (c : Dev nD) (r : Ref sig .tc) (hr : rkey r < 336) :
    KFin m c (Proc.devRef .tc r) = StableHlo.after ktail11 (TB11 m c) (Proc.devRef .tc r) := (tail_up12_k m c r hr).symm
theorem tail_up11_k (c : Dev nD) (r : Ref sig .tc) (hr : rkey r < 328) :
    TB11 m c (Proc.devRef .tc r) = KFin m c (Proc.devRef .tc r) :=
  up hr 8 (kkeeptail11 (TB11 m c) r) rfl (by decide) (tail_up12_k m c r)
theorem tail_down10_k (c : Dev nD) (r : Ref sig .tc) (hr : rkey r < 328) :
    KFin m c (Proc.devRef .tc r) = StableHlo.after ktail10 (TB10 m c) (Proc.devRef .tc r) := (tail_up11_k m c r hr).symm
theorem tail_up10_k (c : Dev nD) (r : Ref sig .tc) (hr : rkey r < 326) :
    TB10 m c (Proc.devRef .tc r) = KFin m c (Proc.devRef .tc r) :=
  up hr 2 (kkeeptail10 (TB10 m c) r) rfl (by decide) (tail_up11_k m c r)
theorem tail_down9_k (c : Dev nD) (r : Ref sig .tc) (hr : rkey r < 326) :
    KFin m c (Proc.devRef .tc r) = StableHlo.after ktail9 (TB9 m c) (Proc.devRef .tc r) := (tail_up10_k m c r hr).symm
theorem tail_up9_k (c : Dev nD) (r : Ref sig .tc) (hr : rkey r < 315) :
    TB9 m c (Proc.devRef .tc r) = KFin m c (Proc.devRef .tc r) :=
  up hr 11 (kkeeptail9 (TB9 m c) r) rfl (by decide) (tail_up10_k m c r)
theorem tail_down8_k (c : Dev nD) (r : Ref sig .tc) (hr : rkey r < 315) :
    KFin m c (Proc.devRef .tc r) = StableHlo.after ktail8 (TB8 m c) (Proc.devRef .tc r) := (tail_up9_k m c r hr).symm
theorem tail_up8_k (c : Dev nD) (r : Ref sig .tc) (hr : rkey r < 302) :
    TB8 m c (Proc.devRef .tc r) = KFin m c (Proc.devRef .tc r) :=
  up hr 13 (kkeeptail8 (TB8 m c) r) rfl (by decide) (tail_up9_k m c r)
theorem tail_down7_k (c : Dev nD) (r : Ref sig .tc) (hr : rkey r < 302) :
    KFin m c (Proc.devRef .tc r) = StableHlo.after ktail7 (TB7 m c) (Proc.devRef .tc r) := (tail_up8_k m c r hr).symm
theorem tail_up7_k (c : Dev nD) (r : Ref sig .tc) (hr : rkey r < 284) :
    TB7 m c (Proc.devRef .tc r) = KFin m c (Proc.devRef .tc r) :=
  up hr 18 (kkeeptail7 (TB7 m c) r) rfl (by decide) (tail_up8_k m c r)
theorem tail_down6_k (c : Dev nD) (r : Ref sig .tc) (hr : rkey r < 284) :
    KFin m c (Proc.devRef .tc r) = StableHlo.after ktail6 (TB6 m c) (Proc.devRef .tc r) := (tail_up7_k m c r hr).symm
theorem tail_up6_k (c : Dev nD) (r : Ref sig .tc) (hr : rkey r < 258) :
    TB6 m c (Proc.devRef .tc r) = KFin m c (Proc.devRef .tc r) :=
  up hr 26 (kkeeptail6 (TB6 m c) r) rfl (by decide) (tail_up7_k m c r)
theorem tail_down5_k (c : Dev nD) (r : Ref sig .tc) (hr : rkey r < 258) :
    KFin m c (Proc.devRef .tc r) = StableHlo.after ktail5 (TB5 m c) (Proc.devRef .tc r) := (tail_up6_k m c r hr).symm
theorem tail_up5_k (c : Dev nD) (r : Ref sig .tc) (hr : rkey r < 244) :
    TB5 m c (Proc.devRef .tc r) = KFin m c (Proc.devRef .tc r) :=
  up hr 14 (kkeeptail5 (TB5 m c) r) rfl (by decide) (tail_up6_k m c r)
theorem tail_down4_k (c : Dev nD) (r : Ref sig .tc) (hr : rkey r < 244) :
    KFin m c (Proc.devRef .tc r) = StableHlo.after ktail4 (TB4 m c) (Proc.devRef .tc r) := (tail_up5_k m c r hr).symm
theorem tail_up4_k (c : Dev nD) (r : Ref sig .tc) (hr : rkey r < 231) :
    TB4 m c (Proc.devRef .tc r) = KFin m c (Proc.devRef .tc r) :=
  up hr 13 (kkeeptail4 (TB4 m c) r) rfl (by decide) (tail_up5_k m c r)
theorem tail_down3_k (c : Dev nD) (r : Ref sig .tc) (hr : rkey r < 231) :
    KFin m c (Proc.devRef .tc r) = StableHlo.after ktail3 (TB3 m c) (Proc.devRef .tc r) := (tail_up4_k m c r hr).symm
theorem tail_up3_k (c : Dev nD) (r : Ref sig .tc) (hr : rkey r < 213) :
    TB3 m c (Proc.devRef .tc r) = KFin m c (Proc.devRef .tc r) :=
  up hr 18 (kkeeptail3 (TB3 m c) r) rfl (by decide) (tail_up4_k m c r)
theorem tail_down2_k (c : Dev nD) (r : Ref sig .tc) (hr : rkey r < 213) :
    KFin m c (Proc.devRef .tc r) = StableHlo.after ktail2 (TB2 m c) (Proc.devRef .tc r) := (tail_up3_k m c r hr).symm
theorem tail_up2_k (c : Dev nD) (r : Ref sig .tc) (hr : rkey r < 187) :
    TB2 m c (Proc.devRef .tc r) = KFin m c (Proc.devRef .tc r) :=
  up hr 26 (kkeeptail2 (TB2 m c) r) rfl (by decide) (tail_up3_k m c r)
theorem tail_down1_k (c : Dev nD) (r : Ref sig .tc) (hr : rkey r < 187) :
    KFin m c (Proc.devRef .tc r) = StableHlo.after ktail1 (TB1 m c) (Proc.devRef .tc r) := (tail_up2_k m c r hr).symm
theorem tail_up1_k (c : Dev nD) (r : Ref sig .tc) (hr : rkey r < 162) :
    TB1 m c (Proc.devRef .tc r) = KFin m c (Proc.devRef .tc r) :=
  up hr 25 (kkeeptail1 (TB1 m c) r) rfl (by decide) (tail_up2_k m c r)
theorem tail_down0_k (c : Dev nD) (r : Ref sig .tc) (hr : rkey r < 162) :
    KFin m c (Proc.devRef .tc r) = StableHlo.after ktail0 (TB0 m c) (Proc.devRef .tc r) := (tail_up1_k m c r hr).symm
theorem tail_up0_k (c : Dev nD) (r : Ref sig .tc) (hr : rkey r < 152) :
    TB0 m c (Proc.devRef .tc r) = KFin m c (Proc.devRef .tc r) :=
  up hr 10 (kkeeptail0 (TB0 m c) r) rfl (by decide) (tail_up1_k m c r)

/-- Across the region only the three output arrays, numbered from 149 on, change. -/
theorem TB0_eq_V0_k (c : Dev nD) (r : Ref sig .tc) (hr : rkey r < 149) :
    TB0 m c (Proc.devRef .tc r) = V0 m c (Proc.devRef .tc r) := by
  by_cases h : ∃ w, Pipeline.arrRef spec0 w = r
  · obtain ⟨w, rfl⟩ := h
    have hw : ∀ w : Fin 8, (cfg0.win w).isOut = false ∨ 149 ≤ rkey (Pipeline.arrRef spec0 w) := by decide
    exact (TB0_arr m c w).trans
      (((dats m 0 c).arrAt_in w ((hw w).resolve_right (Nat.not_le.mpr hr)) _).trans (A_eq m c w))
  · exact Pipeline.withArrays_of_ne spec0 c (V0 m c) (arrs m c) r fun w e => h ⟨w, e⟩

theorem KFin_PB11_k (c : Dev nD) (r : Ref sig .tc) (hr : rkey r < 149) :
    KFin m c (Proc.devRef .tc r) = PB11 m c (Proc.devRef .tc r) :=
  ((tail_up0_k m c r (Nat.lt_trans hr (by decide))).symm.trans (TB0_eq_V0_k m c r hr)).trans (congrFun (V0_eq m c) _)

theorem pre_down10_k (c : Dev nD) (r : Ref sig .tc) (hr : rkey r < 149) :
    KFin m c (Proc.devRef .tc r) = StableHlo.after kpre10 (PB10 m c) (Proc.devRef .tc r) := KFin_PB11_k m c r hr
theorem pre_up10_k (c : Dev nD) (r : Ref sig .tc) (hr : rkey r < 142) :
    PB10 m c (Proc.devRef .tc r) = KFin m c (Proc.devRef .tc r) :=
  up hr 7 (kkeeppre10 (PB10 m c) r) rfl (by decide) fun h => (KFin_PB11_k m c r h).symm
theorem pre_down9_k (c : Dev nD) (r : Ref sig .tc) (hr : rkey r < 142) :
    KFin m c (Proc.devRef .tc r) = StableHlo.after kpre9 (PB9 m c) (Proc.devRef .tc r) := (pre_up10_k m c r hr).symm
theorem pre_up9_k (c : Dev nD) (r : Ref sig .tc) (hr : rkey r < 130) :
    PB9 m c (Proc.devRef .tc r) = KFin m c (Proc.devRef .tc r) :=
  up hr 12 (kkeeppre9 (PB9 m c) r) rfl (by decide) (pre_up10_k m c r)
theorem pre_down8_k (c : Dev nD) (r : Ref sig .tc) (hr : rkey r < 130) :
    KFin m c (Proc.devRef .tc r) = StableHlo.after kpre8 (PB8 m c) (Proc.devRef .tc r) := (pre_up9_k m c r hr).symm
theorem pre_up8_k (c : Dev nD) (r : Ref sig .tc) (hr : rkey r < 112) :
    PB8 m c (Proc.devRef .tc r) = KFin m c (Proc.devRef .tc r) :=
  up hr 18 (kkeeppre8 (PB8 m c) r) rfl (by decide) (pre_up9_k m c r)
theorem pre_down7_k (c : Dev nD) (r : Ref sig .tc) (hr : rkey r < 112) :
    KFin m c (Proc.devRef .tc r) = StableHlo.after kpre7 (PB7 m c) (Proc.devRef .tc r) := (pre_up8_k m c r hr).symm
theorem pre_up7_k (c : Dev nD) (r : Ref sig .tc) (hr : rkey r < 92) :
    PB7 m c (Proc.devRef .tc r) = KFin m c (Proc.devRef .tc r) :=
  up hr 20 (kkeeppre7 (PB7 m c) r) rfl (by decide) (pre_up8_k m c r)
theorem pre_down6_k (c : Dev nD) (r : Ref sig .tc) (hr : rkey r < 92) :
    KFin m c (Proc.devRef .tc r) = StableHlo.after kpre6 (PB6 m c) (Proc.devRef .tc r) := (pre_up7_k m c r hr).symm
theorem pre_up6_k (c : Dev nD) (r : Ref sig .tc) (hr : rkey r < 89) :
    PB6 m c (Proc.devRef .tc r) = KFin m c (Proc.devRef .tc r) :=
  up hr 3 (kkeeppre6 (PB6 m c) r) rfl (by decide) (pre_up7_k m c r)
theorem pre_down5_k (c : Dev nD) (r : Ref sig .tc) (hr : rkey r < 89) :
    KFin m c (Proc.devRef .tc r) = StableHlo.after kpre5 (PB5 m c) (Proc.devRef .tc r) := (pre_up6_k m c r hr).symm
theorem pre_up5_k (c : Dev nD) (r : Ref sig .tc) (hr : rkey r < 88) :
    PB5 m c (Proc.devRef .tc r) = KFin m c (Proc.devRef .tc r) :=
  up hr 1 (kkeeppre5 (PB5 m c) r) rfl (by decide) (pre_up6_k m c r)
theorem pre_down4_k (c : Dev nD) (r : Ref sig .tc) (hr : rkey r < 88) :
    KFin m c (Proc.devRef .tc r) = StableHlo.after kpre4 (PB4 m c) (Proc.devRef .tc r) := (pre_up5_k m c r hr).symm
theorem pre_up4_k (c : Dev nD) (r : Ref sig .tc) (hr : rkey r < 85) :
    PB4 m c (Proc.devRef .tc r) = KFin m c (Proc.devRef .tc r) :=
  up hr 3 (kkeeppre4 (PB4 m c) r) rfl (by decide) (pre_up5_k m c r)
theorem pre_down3_k (c : Dev nD) (r : Ref sig .tc) (hr : rkey r < 85) :
    KFin m c (Proc.devRef .tc r) = StableHlo.after kpre3 (PB3 m c) (Proc.devRef .tc r) := (pre_up4_k m c r hr).symm
theorem pre_up3_k (c : Dev nD) (r : Ref sig .tc) (hr : rkey r < 62) :
    PB3 m c (Proc.devRef .tc r) = KFin m c (Proc.devRef .tc r) :=
  up hr 23 (kkeeppre3 (PB3 m c) r) rfl (by decide) (pre_up4_k m c r)
theorem pre_down2_k (c : Dev nD) (r : Ref sig .tc) (hr : rkey r < 62) :
    KFin m c (Proc.devRef .tc r) = StableHlo.after kpre2 (PB2 m c) (Proc.devRef .tc r) := (pre_up3_k m c r hr).symm
theorem pre_up2_k (c : Dev nD) (r : Ref sig .tc) (hr : rkey r < 42) :
    PB2 m c (Proc.devRef .tc r) = KFin m c (Proc.devRef .tc r) :=
  up hr 20 (kkeeppre2 (PB2 m c) r) rfl (by decide) (pre_up3_k m c r)
theorem pre_down1_k (c : Dev nD) (r : Ref sig .tc) (hr : rkey r < 42) :
    KFin m c (Proc.devRef .tc r) = StableHlo.after kpre1 (PB1 m c) (Proc.devRef .tc r) := (pre_up2_k m c r hr).symm
theorem pre_up1_k (c : Dev nD) (r : Ref sig .tc) (hr : rkey r < 27) :
    PB1 m c (Proc.devRef .tc r) = KFin m c (Proc.devRef .tc r) :=
  up hr 15 (kkeeppre1 (PB1 m c) r) rfl (by decide) (pre_up2_k m c r)
theorem pre_down0_k (c : Dev nD) (r : Ref sig .tc) (hr : rkey r < 27) :
    KFin m c (Proc.devRef .tc r) = StableHlo.after kpre0 (PB0 m c) (Proc.devRef .tc r) := (pre_up1_k m c r hr).symm
theorem pre_up0_k (c : Dev nD) (r : Ref sig .tc) (hr : rkey r < 17) :
    PB0 m c (Proc.devRef .tc r) = KFin m c (Proc.devRef .tc r) :=
  up hr 10 (kkeeppre0 (PB0 m c) r) rfl (by decide) (pre_up1_k m c r)

/-- The arguments have the numbers below 17, which nothing writes. -/
theorem KFin_arg (c : Dev nD) (r : Ref sig .tc) (hr : r ∈ argRefs) :
    KFin m c (Proc.devRef .tc r) = m ((c.tc : Thread nD τ).loc r) := by
  have h : argRefs.map rkey = List.range' 0 17 := rfl
  have := List.mem_map_of_mem (f := rkey) hr
  rw [h] at this
  exact (pre_up0_k m c r (List.mem_range'_1.mp this).2).symm

/-- The three output arrays, numbered below 152, end as the region leaves them. -/
theorem KFin_out5 (c : Dev nD) : KFin m c (Proc.devRef .tc main_v102_0) = (dats m 0 c).arrAt 5 cfg0.N :=
  (tail_up0_k m c main_v102_0 (by decide)).symm.trans (TB0_arr m c 5)
theorem KFin_out6 (c : Dev nD) : KFin m c (Proc.devRef .tc main_v102_1) = (dats m 0 c).arrAt 6 cfg0.N :=
  (tail_up0_k m c main_v102_1 (by decide)).symm.trans (TB0_arr m c 6)
theorem KFin_out7 (c : Dev nD) : KFin m c (Proc.devRef .tc main_v102_2) = (dats m 0 c).arrAt 7 cfg0.N :=
  (tail_up0_k m c main_v102_2 (by decide)).symm.trans (TB0_arr m c 7)

end Cert.KernelIdeal.Hand

end
-- ==== Proof.RI.Keeps.lean ====
import proofs.«401602_j3728031613303_3_alg».proof.Proof.RI.Ops
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- Operations whose written sets are the singletons of references of `W` all write inside `W`.
theorem writes_sub {ops : List (HloOp τ sig (Elt F))} {W : List (Ref sig .tc)}
    (h : ops.map (·.writes) = W.map fun y => {Proc.devRef .tc y}) :
    ops.Forall fun op => op.writes ⊆ (W.map (Proc.devRef (τ := τ) .tc)).toFinset :=
  List.forall_iff_forall_mem.mpr fun op hop => by
    obtain ⟨y, hy, e⟩ := List.mem_map.mp (h ▸ List.mem_map_of_mem hop)
    exact e ▸ Finset.singleton_subset_iff.mpr (List.mem_toFinset.mpr (List.mem_map_of_mem hy))

def rkey (r : Ref sig .tc) : Nat := r.idx.val

theorem not_mem_of_key_lt {L : List (Ref sig .tc)} {a : Nat} (hL : ∀ y ∈ L, a ≤ rkey y) {r : Ref sig .tc} (h : rkey r < a) : r ∉ L :=
  fun hm => absurd (hL r hm) (Nat.not_le.mpr h)

-- References whose indices are, in order, the `n` numbers from `a` on have their indices between `a` and `a + n - 1`.
theorem rng_of_range {L : List (Ref sig .tc)} {a b : Nat} (n : Nat) (hK : L.map rkey = List.range' a n) (hb : a + n = b + 1) :
    ∀ y ∈ L, a ≤ rkey y ∧ rkey y ≤ b := fun y hy =>
  have h := List.mem_range'_1.mp (hK ▸ List.mem_map_of_mem hy)
  ⟨h.1, Nat.le_of_lt_add_one (hb ▸ h.2)⟩

theorem rwr0_sub : (rops0 : List (HloOp τ sig (Elt F))).Forall fun op => op.writes ⊆ ((rwr0).map (Proc.devRef (τ := τ) .tc)).toFinset := writes_sub rfl
theorem rwr0_rng : ∀ y ∈ rwr0, 17 ≤ rkey y ∧ rkey y ≤ 26 := rng_of_range 10 rfl rfl
theorem rkeep0 (X : Valuation τ sig (Elt F)) (r : Ref sig .tc) (hr : r ∉ rwr0) :
    StableHlo.after rops0 X (Proc.devRef .tc r) = X (Proc.devRef .tc r) :=
  after_of_writes_sub _ X rwr0_sub hr

theorem rwr1_sub : (rops1 : List (HloOp τ sig (Elt F))).Forall fun op => op.writes ⊆ ((rwr1).map (Proc.devRef (τ := τ) .tc)).toFinset := writes_sub rfl
theorem rwr1_rng : ∀ y ∈ rwr1, 27 ≤ rkey y ∧ rkey y ≤ 41 := rng_of_range 15 rfl rfl
theorem rkeep1 (X : Valuation τ sig (Elt F)) (r : Ref sig .tc) (hr : r ∉ rwr1) :
    StableHlo.after rops1 X (Proc.devRef .tc r) = X (Proc.devRef .tc r) :=
  after_of_writes_sub _ X rwr1_sub hr

theorem rwr2_sub : (rops2 : List (HloOp τ sig (Elt F))).Forall fun op => op.writes ⊆ ((rwr2).map (Proc.devRef (τ := τ) .tc)).toFinset := writes_sub rfl
theorem rwr2_rng : ∀ y ∈ rwr2, 42 ≤ rkey y ∧ rkey y ≤ 61 := rng_of_range 20 rfl rfl
theorem rkeep2 (X : Valuation τ sig (Elt F)) (r : Ref sig .tc) (hr : r ∉ rwr2) :
    StableHlo.after rops2 X (Proc.devRef .tc r) = X (Proc.devRef .tc r) :=
  after_of_writes_sub _ X rwr2_sub hr

theorem rwr3_sub : (rops3 : List (HloOp τ sig (Elt F))).Forall fun op => op.writes ⊆ ((rwr3).map (Proc.devRef (τ := τ) .tc)).toFinset := writes_sub rfl
theorem rwr3_rng : ∀ y ∈ rwr3, 62 ≤ rkey y ∧ rkey y ≤ 81 := rng_of_range 20 rfl rfl
theorem rkeep3 (X : Valuation τ sig (Elt F)) (r : Ref sig .tc) (hr : r ∉ rwr3) :
    StableHlo.after rops3 X (Proc.devRef .tc r) = X (Proc.devRef .tc r) :=
  after_of_writes_sub _ X rwr3_sub hr

theorem rwr4_sub : (rops4 : List (HloOp τ sig (Elt F))).Forall fun op => op.writes ⊆ ((rwr4).map (Proc.devRef (τ := τ) .tc)).toFinset := writes_sub rfl
theorem rwr4_rng : ∀ y ∈ rwr4, 82 ≤ rkey y ∧ rkey y ≤ 84 := rng_of_range 3 rfl rfl
theorem rkeep4 (X : Valuation τ sig (Elt F)) (r : Ref sig .tc) (hr : r ∉ rwr4) :
    StableHlo.after rops4 X (Proc.devRef .tc r) = X (Proc.devRef .tc r) :=
  after_of_writes_sub _ X rwr4_sub hr

theorem rwr5_sub : (rops5 : List (HloOp τ sig (Elt F))).Forall fun op => op.writes ⊆ ((rwr5).map (Proc.devRef (τ := τ) .tc)).toFinset := writes_sub rfl
theorem rwr5_rng : ∀ y ∈ rwr5, 85 ≤ rkey y ∧ rkey y ≤ 90 := rng_of_range 6 rfl rfl
theorem rkeep5 (X : Valuation τ sig (Elt F)) (r : Ref sig .tc) (hr : r ∉ rwr5) :
    StableHlo.after rops5 X (Proc.devRef .tc r) = X (Proc.devRef .tc r) :=
  after_of_writes_sub _ X rwr5_sub hr

theorem rwr6_sub : (rops6 : List (HloOp τ sig (Elt F))).Forall fun op => op.writes ⊆ ((rwr6).map (Proc.devRef (τ := τ) .tc)).toFinset := writes_sub rfl
theorem rwr6_rng : ∀ y ∈ rwr6, 91 ≤ rkey y ∧ rkey y ≤ 105 := rng_of_range 15 rfl rfl
theorem rkeep6 (X : Valuation τ sig (Elt F)) (r : Ref sig .tc) (hr : r ∉ rwr6) :
    StableHlo.after rops6 X (Proc.devRef .tc r) = X (Proc.devRef .tc r) :=
  after_of_writes_sub _ X rwr6_sub hr

theorem rwr7_sub : (rops7 : List (HloOp τ sig (Elt F))).Forall fun op => op.writes ⊆ ((rwr7).map (Proc.devRef (τ := τ) .tc)).toFinset := writes_sub rfl
theorem rwr7_rng : ∀ y ∈ rwr7, 106 ≤ rkey y ∧ rkey y ≤ 125 := rng_of_range 20 rfl rfl
theorem rkeep7 (X : Valuation τ sig (Elt F)) (r : Ref sig .tc) (hr : r ∉ rwr7) :
    StableHlo.after rops7 X (Proc.devRef .tc r) = X (Proc.devRef .tc r) :=
  after_of_writes_sub _ X rwr7_sub hr

theorem rwr8_sub : (rops8 : List (HloOp τ sig (Elt F))).Forall fun op => op.writes ⊆ ((rwr8).map (Proc.devRef (τ := τ) .tc)).toFinset := writes_sub rfl
theorem rwr8_rng : ∀ y ∈ rwr8, 126 ≤ rkey y ∧ rkey y ≤ 145 := rng_of_range 20 rfl rfl
theorem rkeep8 (X : Valuation τ sig (Elt F)) (r : Ref sig .tc) (hr : r ∉ rwr8) :
    StableHlo.after rops8 X (Proc.devRef .tc r) = X (Proc.devRef .tc r) :=
  after_of_writes_sub _ X rwr8_sub hr

theorem rwr9_sub : (rops9 : List (HloOp τ sig (Elt F))).Forall fun op => op.writes ⊆ ((rwr9).map (Proc.devRef (τ := τ) .tc)).toFinset := writes_sub rfl
theorem rwr9_rng : ∀ y ∈ rwr9, 146 ≤ rkey y ∧ rkey y ≤ 151 := rng_of_range 6 rfl rfl
theorem rkeep9 (X : Valuation τ sig (Elt F)) (r : Ref sig .tc) (hr : r ∉ rwr9) :
    StableHlo.after rops9 X (Proc.devRef .tc r) = X (Proc.devRef .tc r) :=
  after_of_writes_sub _ X rwr9_sub hr

theorem rwr10_sub : (rops10 : List (HloOp τ sig (Elt F))).Forall fun op => op.writes ⊆ ((rwr10).map (Proc.devRef (τ := τ) .tc)).toFinset := writes_sub rfl
theorem rwr10_rng : ∀ y ∈ rwr10, 152 ≤ rkey y ∧ rkey y ≤ 166 := rng_of_range 15 rfl rfl
theorem rkeep10 (X : Valuation τ sig (Elt F)) (r : Ref sig .tc) (hr : r ∉ rwr10) :
    StableHlo.after rops10 X (Proc.devRef .tc r) = X (Proc.devRef .tc r) :=
  after_of_writes_sub _ X rwr10_sub hr

theorem rwr11_sub : (rops11 : List (HloOp τ sig (Elt F))).Forall fun op => op.writes ⊆ ((rwr11).map (Proc.devRef (τ := τ) .tc)).toFinset := writes_sub rfl
theorem rwr11_rng : ∀ y ∈ rwr11, 167 ≤ rkey y ∧ rkey y ≤ 186 := rng_of_range 20 rfl rfl
theorem rkeep11 (X : Valuation τ sig (Elt F)) (r : Ref sig .tc) (hr : r ∉ rwr11) :
    StableHlo.after rops11 X (Proc.devRef .tc r) = X (Proc.devRef .tc r) :=
  after_of_writes_sub _ X rwr11_sub hr

theorem rwr12_sub : (rops12 : List (HloOp τ sig (Elt F))).Forall fun op => op.writes ⊆ ((rwr12).map (Proc.devRef (τ := τ) .tc)).toFinset := writes_sub rfl
theorem rwr12_rng : ∀ y ∈ rwr12, 187 ≤ rkey y ∧ rkey y ≤ 206 := rng_of_range 20 rfl rfl
theorem rkeep12 (X : Valuation τ sig (Elt F)) (r : Ref sig .tc) (hr : r ∉ rwr12) :
    StableHlo.after rops12 X (Proc.devRef .tc r) = X (Proc.devRef .tc r) :=
  after_of_writes_sub _ X rwr12_sub hr

theorem rwr13_sub : (rops13 : List (HloOp τ sig (Elt F))).Forall fun op => op.writes ⊆ ((rwr13).map (Proc.devRef (τ := τ) .tc)).toFinset := writes_sub rfl
theorem rwr13_rng : ∀ y ∈ rwr13, 207 ≤ rkey y ∧ rkey y ≤ 209 := rng_of_range 3 rfl rfl
theorem rkeep13 (X : Valuation τ sig (Elt F)) (r : Ref sig .tc) (hr : r ∉ rwr13) :
    StableHlo.after rops13 X (Proc.devRef .tc r) = X (Proc.devRef .tc r) :=
  after_of_writes_sub _ X rwr13_sub hr

theorem rwr14_sub : (rops14 : List (HloOp τ sig (Elt F))).Forall fun op => op.writes ⊆ ((rwr14).map (Proc.devRef (τ := τ) .tc)).toFinset := writes_sub rfl
theorem rwr14_rng : ∀ y ∈ rwr14, 210 ≤ rkey y ∧ rkey y ≤ 229 := rng_of_range 20 rfl rfl
theorem rkeep14 (X : Valuation τ sig (Elt F)) (r : Ref sig .tc) (hr : r ∉ rwr14) :
    StableHlo.after rops14 X (Proc.devRef .tc r) = X (Proc.devRef .tc r) :=
  after_of_writes_sub _ X rwr14_sub hr

theorem rwr15_sub : (rops15 : List (HloOp τ sig (Elt F))).Forall fun op => op.writes ⊆ ((rwr15).map (Proc.devRef (τ := τ) .tc)).toFinset := writes_sub rfl
theorem rwr15_rng : ∀ y ∈ rwr15, 230 ≤ rkey y ∧ rkey y ≤ 231 := rng_of_range 2 rfl rfl
theorem rkeep15 (X : Valuation τ sig (Elt F)) (r : Ref sig .tc) (hr : r ∉ rwr15) :
    StableHlo.after rops15 X (Proc.devRef .tc r) = X (Proc.devRef .tc r) :=
  after_of_writes_sub _ X rwr15_sub hr

theorem rwr16_sub : (rops16 : List (HloOp τ sig (Elt F))).Forall fun op => op.writes ⊆ ((rwr16).map (Proc.devRef (τ := τ) .tc)).toFinset := writes_sub rfl
theorem rwr16_rng : ∀ y ∈ rwr16, 232 ≤ rkey y ∧ rkey y ≤ 234 := rng_of_range 3 rfl rfl
theorem rkeep16 (X : Valuation τ sig (Elt F)) (r : Ref sig .tc) (hr : r ∉ rwr16) :
    StableHlo.after rops16 X (Proc.devRef .tc r) = X (Proc.devRef .tc r) :=
  after_of_writes_sub _ X rwr16_sub hr

theorem rwr17_sub : (rops17 : List (HloOp τ sig (Elt F))).Forall fun op => op.writes ⊆ ((rwr17).map (Proc.devRef (τ := τ) .tc)).toFinset := writes_sub rfl
theorem rwr17_rng : ∀ y ∈ rwr17, 235 ≤ rkey y ∧ rkey y ≤ 243 := rng_of_range 9 rfl rfl
theorem rkeep17 (X : Valuation τ sig (Elt F)) (r : Ref sig .tc) (hr : r ∉ rwr17) :
    StableHlo.after rops17 X (Proc.devRef .tc r) = X (Proc.devRef .tc r) :=
  after_of_writes_sub _ X rwr17_sub hr

theorem rwr18_sub : (rops18 : List (HloOp τ sig (Elt F))).Forall fun op => op.writes ⊆ ((rwr18).map (Proc.devRef (τ := τ) .tc)).toFinset := writes_sub rfl
theorem rwr18_rng : ∀ y ∈ rwr18, 244 ≤ rkey y ∧ rkey y ≤ 255 := rng_of_range 12 rfl rfl
theorem rkeep18 (X : Valuation τ sig (Elt F)) (r : Ref sig .tc) (hr : r ∉ rwr18) :
    StableHlo.after rops18 X (Proc.devRef .tc r) = X (Proc.devRef .tc r) :=
  after_of_writes_sub _ X rwr18_sub hr

theorem rwr19_sub : (rops19 : List (HloOp τ sig (Elt F))).Forall fun op => op.writes ⊆ ((rwr19).map (Proc.devRef (τ := τ) .tc)).toFinset := writes_sub rfl
theorem rwr19_rng : ∀ y ∈ rwr19, 256 ≤ rkey y ∧ rkey y ≤ 281 := rng_of_range 26 rfl rfl
theorem rkeep19 (X : Valuation τ sig (Elt F)) (r : Ref sig .tc) (hr : r ∉ rwr19) :
    StableHlo.after rops19 X (Proc.devRef .tc r) = X (Proc.devRef .tc r) :=
  after_of_writes_sub _ X rwr19_sub hr

theorem rwr20_sub : (rops20 : List (HloOp τ sig (Elt F))).Forall fun op => op.writes ⊆ ((rwr20).map (Proc.devRef (τ := τ) .tc)).toFinset := writes_sub rfl
theorem rwr20_rng : ∀ y ∈ rwr20, 282 ≤ rkey y ∧ rkey y ≤ 299 := rng_of_range 18 rfl rfl
theorem rkeep20 (X : Valuation τ sig (Elt F)) (r : Ref sig .tc) (hr : r ∉ rwr20) :
    StableHlo.after rops20 X (Proc.devRef .tc r) = X (Proc.devRef .tc r) :=
  after_of_writes_sub _ X rwr20_sub hr

theorem rwr21_sub : (rops21 : List (HloOp τ sig (Elt F))).Forall fun op => op.writes ⊆ ((rwr21).map (Proc.devRef (τ := τ) .tc)).toFinset := writes_sub rfl
theorem rwr21_rng : ∀ y ∈ rwr21, 300 ≤ rkey y ∧ rkey y ≤ 312 := rng_of_range 13 rfl rfl
theorem rkeep21 (X : Valuation τ sig (Elt F)) (r : Ref sig .tc) (hr : r ∉ rwr21) :
    StableHlo.after rops21 X (Proc.devRef .tc r) = X (Proc.devRef .tc r) :=
  after_of_writes_sub _ X rwr21_sub hr

theorem rwr22_sub : (rops22 : List (HloOp τ sig (Elt F))).Forall fun op => op.writes ⊆ ((rwr22).map (Proc.devRef (τ := τ) .tc)).toFinset := writes_sub rfl
theorem rwr22_rng : ∀ y ∈ rwr22, 313 ≤ rkey y ∧ rkey y ≤ 326 := rng_of_range 14 rfl rfl
theorem rkeep22 (X : Valuation τ sig (Elt F)) (r : Ref sig .tc) (hr : r ∉ rwr22) :
    StableHlo.after rops22 X (Proc.devRef .tc r) = X (Proc.devRef .tc r) :=
  after_of_writes_sub _ X rwr22_sub hr

theorem rwr23_sub : (rops23 : List (HloOp τ sig (Elt F))).Forall fun op => op.writes ⊆ ((rwr23).map (Proc.devRef (τ := τ) .tc)).toFinset := writes_sub rfl
theorem rwr23_rng : ∀ y ∈ rwr23, 327 ≤ rkey y ∧ rkey y ≤ 352 := rng_of_range 26 rfl rfl
theorem rkeep23 (X : Valuation τ sig (Elt F)) (r : Ref sig .tc) (hr : r ∉ rwr23) :
    StableHlo.after rops23 X (Proc.devRef .tc r) = X (Proc.devRef .tc r) :=
  after_of_writes_sub _ X rwr23_sub hr

theorem rwr24_sub : (rops24 : List (HloOp τ sig (Elt F))).Forall fun op => op.writes ⊆ ((rwr24).map (Proc.devRef (τ := τ) .tc)).toFinset := writes_sub rfl
theorem rwr24_rng : ∀ y ∈ rwr24, 353 ≤ rkey y ∧ rkey y ≤ 370 := rng_of_range 18 rfl rfl
theorem rkeep24 (X : Valuation τ sig (Elt F)) (r : Ref sig .tc) (hr : r ∉ rwr24) :
    StableHlo.after rops24 X (Proc.devRef .tc r) = X (Proc.devRef .tc r) :=
  after_of_writes_sub _ X rwr24_sub hr

theorem rwr25_sub : (rops25 : List (HloOp τ sig (Elt F))).Forall fun op => op.writes ⊆ ((rwr25).map (Proc.devRef (τ := τ) .tc)).toFinset := writes_sub rfl
theorem rwr25_rng : ∀ y ∈ rwr25, 371 ≤ rkey y ∧ rkey y ≤ 383 := rng_of_range 13 rfl rfl
theorem rkeep25 (X : Valuation τ sig (Elt F)) (r : Ref sig .tc) (hr : r ∉ rwr25) :
    StableHlo.after rops25 X (Proc.devRef .tc r) = X (Proc.devRef .tc r) :=
  after_of_writes_sub _ X rwr25_sub hr

theorem rwr26_sub : (rops26 : List (HloOp τ sig (Elt F))).Forall fun op => op.writes ⊆ ((rwr26).map (Proc.devRef (τ := τ) .tc)).toFinset := writes_sub rfl
theorem rwr26_rng : ∀ y ∈ rwr26, 384 ≤ rkey y ∧ rkey y ≤ 394 := rng_of_range 11 rfl rfl
theorem rkeep26 (X : Valuation τ sig (Elt F)) (r : Ref sig .tc) (hr : r ∉ rwr26) :
    StableHlo.after rops26 X (Proc.devRef .tc r) = X (Proc.devRef .tc r) :=
  after_of_writes_sub _ X rwr26_sub hr

theorem rwr27_sub : (rops27 : List (HloOp τ sig (Elt F))).Forall fun op => op.writes ⊆ ((rwr27).map (Proc.devRef (τ := τ) .tc)).toFinset := writes_sub rfl
theorem rwr27_rng : ∀ y ∈ rwr27, 395 ≤ rkey y ∧ rkey y ≤ 396 := rng_of_range 2 rfl rfl
theorem rkeep27 (X : Valuation τ sig (Elt F)) (r : Ref sig .tc) (hr : r ∉ rwr27) :
    StableHlo.after rops27 X (Proc.devRef .tc r) = X (Proc.devRef .tc r) :=
  after_of_writes_sub _ X rwr27_sub hr

theorem rwr28_sub : (rops28 : List (HloOp τ sig (Elt F))).Forall fun op => op.writes ⊆ ((rwr28).map (Proc.devRef (τ := τ) .tc)).toFinset := writes_sub rfl
theorem rwr28_rng : ∀ y ∈ rwr28, 397 ≤ rkey y ∧ rkey y ≤ 404 := rng_of_range 8 rfl rfl
theorem rkeep28 (X : Valuation τ sig (Elt F)) (r : Ref sig .tc) (hr : r ∉ rwr28) :
    StableHlo.after rops28 X (Proc.devRef .tc r) = X (Proc.devRef .tc r) :=
  after_of_writes_sub _ X rwr28_sub hr

theorem rwr29_sub : (rops29 : List (HloOp τ sig (Elt F))).Forall fun op => op.writes ⊆ ((rwr29).map (Proc.devRef (τ := τ) .tc)).toFinset := writes_sub rfl
theorem rwr29_rng : ∀ y ∈ rwr29, 405 ≤ rkey y ∧ rkey y ≤ 419 := rng_of_range 15 rfl rfl
theorem rkeep29 (X : Valuation τ sig (Elt F)) (r : Ref sig .tc) (hr : r ∉ rwr29) :
    StableHlo.after rops29 X (Proc.devRef .tc r) = X (Proc.devRef .tc r) :=
  after_of_writes_sub _ X rwr29_sub hr

theorem rwr30_sub : (rops30 : List (HloOp τ sig (Elt F))).Forall fun op => op.writes ⊆ ((rwr30).map (Proc.devRef (τ := τ) .tc)).toFinset := writes_sub rfl
theorem rwr30_rng : ∀ y ∈ rwr30, 420 ≤ rkey y ∧ rkey y ≤ 439 := rng_of_range 20 rfl rfl
theorem rkeep30 (X : Valuation τ sig (Elt F)) (r : Ref sig .tc) (hr : r ∉ rwr30) :
    StableHlo.after rops30 X (Proc.devRef .tc r) = X (Proc.devRef .tc r) :=
  after_of_writes_sub _ X rwr30_sub hr

theorem rwr31_sub : (rops31 : List (HloOp τ sig (Elt F))).Forall fun op => op.writes ⊆ ((rwr31).map (Proc.devRef (τ := τ) .tc)).toFinset := writes_sub rfl
theorem rwr31_rng : ∀ y ∈ rwr31, 440 ≤ rkey y ∧ rkey y ≤ 459 := rng_of_range 20 rfl rfl
theorem rkeep31 (X : Valuation τ sig (Elt F)) (r : Ref sig .tc) (hr : r ∉ rwr31) :
    StableHlo.after rops31 X (Proc.devRef .tc r) = X (Proc.devRef .tc r) :=
  after_of_writes_sub _ X rwr31_sub hr

theorem rwr32_sub : (rops32 : List (HloOp τ sig (Elt F))).Forall fun op => op.writes ⊆ ((rwr32).map (Proc.devRef (τ := τ) .tc)).toFinset := writes_sub rfl
theorem rwr32_rng : ∀ y ∈ rwr32, 460 ≤ rkey y ∧ rkey y ≤ 474 := rng_of_range 15 rfl rfl
theorem rkeep32 (X : Valuation τ sig (Elt F)) (r : Ref sig .tc) (hr : r ∉ rwr32) :
    StableHlo.after rops32 X (Proc.devRef .tc r) = X (Proc.devRef .tc r) :=
  after_of_writes_sub _ X rwr32_sub hr

theorem rwr33_sub : (rops33 : List (HloOp τ sig (Elt F))).Forall fun op => op.writes ⊆ ((rwr33).map (Proc.devRef (τ := τ) .tc)).toFinset := writes_sub rfl
theorem rwr33_rng : ∀ y ∈ rwr33, 475 ≤ rkey y ∧ rkey y ≤ 475 := rng_of_range 1 rfl rfl
theorem rkeep33 (X : Valuation τ sig (Elt F)) (r : Ref sig .tc) (hr : r ∉ rwr33) :
    StableHlo.after rops33 X (Proc.devRef .tc r) = X (Proc.devRef .tc r) :=
  after_of_writes_sub _ X rwr33_sub hr

end Cert.ReferenceIdeal.Hand

end
-- ==== Proof.RI.Stages.lean ====
import proofs.«401602_j3728031613303_3_alg».proof.Proof.RI.Keeps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

def RB0 : Valuation τ sig (Elt F) := fun b => m (c, b)
def RB1 : Valuation τ sig (Elt F) := StableHlo.after rops0 (RB0 m c)
def RB2 : Valuation τ sig (Elt F) := StableHlo.after rops1 (RB1 m c)
def RB3 : Valuation τ sig (Elt F) := StableHlo.after rops2 (RB2 m c)
def RB4 : Valuation τ sig (Elt F) := StableHlo.after rops3 (RB3 m c)
def RB5 : Valuation τ sig (Elt F) := StableHlo.after rops4 (RB4 m c)
def RB6 : Valuation τ sig (Elt F) := StableHlo.after rops5 (RB5 m c)
def RB7 : Valuation τ sig (Elt F) := StableHlo.after rops6 (RB6 m c)
def RB8 : Valuation τ sig (Elt F) := StableHlo.after rops7 (RB7 m c)
def RB9 : Valuation τ sig (Elt F) := StableHlo.after rops8 (RB8 m c)
def RB10 : Valuation τ sig (Elt F) := StableHlo.after rops9 (RB9 m c)
def RB11 : Valuation τ sig (Elt F) := StableHlo.after rops10 (RB10 m c)
def RB12 : Valuation τ sig (Elt F) := StableHlo.after rops11 (RB11 m c)
def RB13 : Valuation τ sig (Elt F) := StableHlo.after rops12 (RB12 m c)
def RB14 : Valuation τ sig (Elt F) := StableHlo.after rops13 (RB13 m c)
def RB15 : Valuation τ sig (Elt F) := StableHlo.after rops14 (RB14 m c)
def RB16 : Valuation τ sig (Elt F) := StableHlo.after rops15 (RB15 m c)
def RB17 : Valuation τ sig (Elt F) := StableHlo.after rops16 (RB16 m c)
def RB18 : Valuation τ sig (Elt F) := StableHlo.after rops17 (RB17 m c)
def RB19 : Valuation τ sig (Elt F) := StableHlo.after rops18 (RB18 m c)
def RB20 : Valuation τ sig (Elt F) := StableHlo.after rops19 (RB19 m c)
def RB21 : Valuation τ sig (Elt F) := StableHlo.after rops20 (RB20 m c)
def RB22 : Valuation τ sig (Elt F) := StableHlo.after rops21 (RB21 m c)
def RB23 : Valuation τ sig (Elt F) := StableHlo.after rops22 (RB22 m c)
def RB24 : Valuation τ sig (Elt F) := StableHlo.after rops23 (RB23 m c)
def RB25 : Valuation τ sig (Elt F) := StableHlo.after rops24 (RB24 m c)
def RB26 : Valuation τ sig (Elt F) := StableHlo.after rops25 (RB25 m c)
def RB27 : Valuation τ sig (Elt F) := StableHlo.after rops26 (RB26 m c)
def RB28 : Valuation τ sig (Elt F) := StableHlo.after rops27 (RB27 m c)
def RB29 : Valuation τ sig (Elt F) := StableHlo.after rops28 (RB28 m c)
def RB30 : Valuation τ sig (Elt F) := StableHlo.after rops29 (RB29 m c)
def RB31 : Valuation τ sig (Elt F) := StableHlo.after rops30 (RB30 m c)
def RB32 : Valuation τ sig (Elt F) := StableHlo.after rops31 (RB31 m c)
def RB33 : Valuation τ sig (Elt F) := StableHlo.after rops32 (RB32 m c)
def RB34 : Valuation τ sig (Elt F) := StableHlo.after rops33 (RB33 m c)

def RFin' : Valuation τ sig (Elt F) := RB34 m c

/-- Running two lines in a row runs the second from what the first leaves. -/
theorem rafter_append : ∀ (l₁ l₂ : List (HloOp τ sig (Elt F))) (V : Valuation τ sig (Elt F)),
    StableHlo.after (l₁ ++ l₂) V = StableHlo.after l₂ (StableHlo.after l₁ V)
  | [], _, _ => rfl
  | _ :: l₁, l₂, _ => rafter_append l₁ l₂ _

theorem RFin'_eq : RFin' (F := F) m c = StableHlo.after (List.flatten ropss) (fun b => m (c, b)) := by
  simp only [ropss, List.flatten_cons, List.flatten_nil, List.append_nil, rafter_append]; rfl

/-- A stretch keeps what lies below the indices it writes, so agreement with `Z` after it gives agreement before it. -/
theorem rup_step {W : List (Ref sig .tc)} {a b a' : Nat} {X Y Z : Valuation τ sig (Elt F)}
    (hk : ∀ r, r ∉ W → Y (Proc.devRef .tc r) = X (Proc.devRef .tc r)) (hW : ∀ y ∈ W, a ≤ rkey y ∧ rkey y ≤ b)
    (hle : a ≤ a') (hn : ∀ r, rkey r < a' → Y (Proc.devRef .tc r) = Z (Proc.devRef .tc r))
    (r : Ref sig .tc) (hr : rkey r < a) : X (Proc.devRef .tc r) = Z (Proc.devRef .tc r) :=
  (hk r (not_mem_of_key_lt (fun y hy => (hW y hy).1) hr)).symm.trans (hn r (Nat.lt_of_lt_of_le hr hle))

theorem r_up33_k (r : Ref sig .tc) (hr : rkey r < 475) :
    RB33 (F := F) m c (Proc.devRef .tc r) = RFin' m c (Proc.devRef .tc r) :=
  rup_step (rkeep33 (RB33 m c)) rwr33_rng (Nat.le_refl _) (fun _ _ => rfl) r hr
theorem r_up32_k (r : Ref sig .tc) (hr : rkey r < 460) :
    RB32 (F := F) m c (Proc.devRef .tc r) = RFin' m c (Proc.devRef .tc r) :=
  rup_step (rkeep32 (RB32 m c)) rwr32_rng (by decide) (r_up33_k m c) r hr
theorem r_up31_k (r : Ref sig .tc) (hr : rkey r < 440) :
    RB31 (F := F) m c (Proc.devRef .tc r) = RFin' m c (Proc.devRef .tc r) :=
  rup_step (rkeep31 (RB31 m c)) rwr31_rng (by decide) (r_up32_k m c) r hr
theorem r_up30_k (r : Ref sig .tc) (hr : rkey r < 420) :
    RB30 (F := F) m c (Proc.devRef .tc r) = RFin' m c (Proc.devRef .tc r) :=
  rup_step (rkeep30 (RB30 m c)) rwr30_rng (by decide) (r_up31_k m c) r hr
theorem r_up29_k (r : Ref sig .tc) (hr : rkey r < 405) :
    RB29 (F := F) m c (Proc.devRef .tc r) = RFin' m c (Proc.devRef .tc r) :=
  rup_step (rkeep29 (RB29 m c)) rwr29_rng (by decide) (r_up30_k m c) r hr
theorem r_up28_k (r : Ref sig .tc) (hr : rkey r < 397) :
    RB28 (F := F) m c (Proc.devRef .tc r) = RFin' m c (Proc.devRef .tc r) :=
  rup_step (rkeep28 (RB28 m c)) rwr28_rng (by decide) (r_up29_k m c) r hr
theorem r_up27_k (r : Ref sig .tc) (hr : rkey r < 395) :
    RB27 (F := F) m c (Proc.devRef .tc r) = RFin' m c (Proc.devRef .tc r) :=
  rup_step (rkeep27 (RB27 m c)) rwr27_rng (by decide) (r_up28_k m c) r hr
theorem r_up26_k (r : Ref sig .tc) (hr : rkey r < 384) :
    RB26 (F := F) m c (Proc.devRef .tc r) = RFin' m c (Proc.devRef .tc r) :=
  rup_step (rkeep26 (RB26 m c)) rwr26_rng (by decide) (r_up27_k m c) r hr
theorem r_up25_k (r : Ref sig .tc) (hr : rkey r < 371) :
    RB25 (F := F) m c (Proc.devRef .tc r) = RFin' m c (Proc.devRef .tc r) :=
  rup_step (rkeep25 (RB25 m c)) rwr25_rng (by decide) (r_up26_k m c) r hr
theorem r_up24_k (r : Ref sig .tc) (hr : rkey r < 353) :
    RB24 (F := F) m c (Proc.devRef .tc r) = RFin' m c (Proc.devRef .tc r) :=
  rup_step (rkeep24 (RB24 m c)) rwr24_rng (by decide) (r_up25_k m c) r hr
theorem r_up23_k (r : Ref sig .tc) (hr : rkey r < 327) :
    RB23 (F := F) m c (Proc.devRef .tc r) = RFin' m c (Proc.devRef .tc r) :=
  rup_step (rkeep23 (RB23 m c)) rwr23_rng (by decide) (r_up24_k m c) r hr
theorem r_up22_k (r : Ref sig .tc) (hr : rkey r < 313) :
    RB22 (F := F) m c (Proc.devRef .tc r) = RFin' m c (Proc.devRef .tc r) :=
  rup_step (rkeep22 (RB22 m c)) rwr22_rng (by decide) (r_up23_k m c) r hr
theorem r_up21_k (r : Ref sig .tc) (hr : rkey r < 300) :
    RB21 (F := F) m c (Proc.devRef .tc r) = RFin' m c (Proc.devRef .tc r) :=
  rup_step (rkeep21 (RB21 m c)) rwr21_rng (by decide) (r_up22_k m c) r hr
theorem r_up20_k (r : Ref sig .tc) (hr : rkey r < 282) :
    RB20 (F := F) m c (Proc.devRef .tc r) = RFin' m c (Proc.devRef .tc r) :=
  rup_step (rkeep20 (RB20 m c)) rwr20_rng (by decide) (r_up21_k m c) r hr
theorem r_up19_k (r : Ref sig .tc) (hr : rkey r < 256) :
    RB19 (F := F) m c (Proc.devRef .tc r) = RFin' m c (Proc.devRef .tc r) :=
  rup_step (rkeep19 (RB19 m c)) rwr19_rng (by decide) (r_up20_k m c) r hr
theorem r_up18_k (r : Ref sig .tc) (hr : rkey r < 244) :
    RB18 (F := F) m c (Proc.devRef .tc r) = RFin' m c (Proc.devRef .tc r) :=
  rup_step (rkeep18 (RB18 m c)) rwr18_rng (by decide) (r_up19_k m c) r hr
theorem r_up17_k (r : Ref sig .tc) (hr : rkey r < 235) :
    RB17 (F := F) m c (Proc.devRef .tc r) = RFin' m c (Proc.devRef .tc r) :=
  rup_step (rkeep17 (RB17 m c)) rwr17_rng (by decide) (r_up18_k m c) r hr
theorem r_up16_k (r : Ref sig .tc) (hr : rkey r < 232) :
    RB16 (F := F) m c (Proc.devRef .tc r) = RFin' m c (Proc.devRef .tc r) :=
  rup_step (rkeep16 (RB16 m c)) rwr16_rng (by decide) (r_up17_k m c) r hr
theorem r_up15_k (r : Ref sig .tc) (hr : rkey r < 230) :
    RB15 (F := F) m c (Proc.devRef .tc r) = RFin' m c (Proc.devRef .tc r) :=
  rup_step (rkeep15 (RB15 m c)) rwr15_rng (by decide) (r_up16_k m c) r hr
theorem r_up14_k (r : Ref sig .tc) (hr : rkey r < 210) :
    RB14 (F := F) m c (Proc.devRef .tc r) = RFin' m c (Proc.devRef .tc r) :=
  rup_step (rkeep14 (RB14 m c)) rwr14_rng (by decide) (r_up15_k m c) r hr
theorem r_up13_k (r : Ref sig .tc) (hr : rkey r < 207) :
    RB13 (F := F) m c (Proc.devRef .tc r) = RFin' m c (Proc.devRef .tc r) :=
  rup_step (rkeep13 (RB13 m c)) rwr13_rng (by decide) (r_up14_k m c) r hr
theorem r_up12_k (r : Ref sig .tc) (hr : rkey r < 187) :
    RB12 (F := F) m c (Proc.devRef .tc r) = RFin' m c (Proc.devRef .tc r) :=
  rup_step (rkeep12 (RB12 m c)) rwr12_rng (by decide) (r_up13_k m c) r hr
theorem r_up11_k (r : Ref sig .tc) (hr : rkey r < 167) :
    RB11 (F := F) m c (Proc.devRef .tc r) = RFin' m c (Proc.devRef .tc r) :=
  rup_step (rkeep11 (RB11 m c)) rwr11_rng (by decide) (r_up12_k m c) r hr
theorem r_up10_k (r : Ref sig .tc) (hr : rkey r < 152) :
    RB10 (F := F) m c (Proc.devRef .tc r) = RFin' m c (Proc.devRef .tc r) :=
  rup_step (rkeep10 (RB10 m c)) rwr10_rng (by decide) (r_up11_k m c) r hr
theorem r_up9_k (r : Ref sig .tc) (hr : rkey r < 146) :
    RB9 (F := F) m c (Proc.devRef .tc r) = RFin' m c (Proc.devRef .tc r) :=
  rup_step (rkeep9 (RB9 m c)) rwr9_rng (by decide) (r_up10_k m c) r hr
theorem r_up8_k (r : Ref sig .tc) (hr : rkey r < 126) :
    RB8 (F := F) m c (Proc.devRef .tc r) = RFin' m c (Proc.devRef .tc r) :=
  rup_step (rkeep8 (RB8 m c)) rwr8_rng (by decide) (r_up9_k m c) r hr
theorem r_up7_k (r : Ref sig .tc) (hr : rkey r < 106) :
    RB7 (F := F) m c (Proc.devRef .tc r) = RFin' m c (Proc.devRef .tc r) :=
  rup_step (rkeep7 (RB7 m c)) rwr7_rng (by decide) (r_up8_k m c) r hr
theorem r_up6_k (r : Ref sig .tc) (hr : rkey r < 91) :
    RB6 (F := F) m c (Proc.devRef .tc r) = RFin' m c (Proc.devRef .tc r) :=
  rup_step (rkeep6 (RB6 m c)) rwr6_rng (by decide) (r_up7_k m c) r hr
theorem r_up5_k (r : Ref sig .tc) (hr : rkey r < 85) :
    RB5 (F := F) m c (Proc.devRef .tc r) = RFin' m c (Proc.devRef .tc r) :=
  rup_step (rkeep5 (RB5 m c)) rwr5_rng (by decide) (r_up6_k m c) r hr
theorem r_up4_k (r : Ref sig .tc) (hr : rkey r < 82) :
    RB4 (F := F) m c (Proc.devRef .tc r) = RFin' m c (Proc.devRef .tc r) :=
  rup_step (rkeep4 (RB4 m c)) rwr4_rng (by decide) (r_up5_k m c) r hr
theorem r_up3_k (r : Ref sig .tc) (hr : rkey r < 62) :
    RB3 (F := F) m c (Proc.devRef .tc r) = RFin' m c (Proc.devRef .tc r) :=
  rup_step (rkeep3 (RB3 m c)) rwr3_rng (by decide) (r_up4_k m c) r hr
theorem r_up2_k (r : Ref sig .tc) (hr : rkey r < 42) :
    RB2 (F := F) m c (Proc.devRef .tc r) = RFin' m c (Proc.devRef .tc r) :=
  rup_step (rkeep2 (RB2 m c)) rwr2_rng (by decide) (r_up3_k m c) r hr
theorem r_up1_k (r : Ref sig .tc) (hr : rkey r < 27) :
    RB1 (F := F) m c (Proc.devRef .tc r) = RFin' m c (Proc.devRef .tc r) :=
  rup_step (rkeep1 (RB1 m c)) rwr1_rng (by decide) (r_up2_k m c) r hr
theorem r_up0_k (r : Ref sig .tc) (hr : rkey r < 17) :
    RB0 (F := F) m c (Proc.devRef .tc r) = RFin' m c (Proc.devRef .tc r) :=
  rup_step (rkeep0 (RB0 m c)) rwr0_rng (by decide) (r_up1_k m c) r hr

theorem r_down0_k (r : Ref sig .tc) (hr : rkey r < 27) :
    RFin' (F := F) m c (Proc.devRef .tc r) = StableHlo.after rops0 (RB0 m c) (Proc.devRef .tc r) :=
  (r_up1_k m c r hr).symm
theorem r_down1_k (r : Ref sig .tc) (hr : rkey r < 42) :
    RFin' (F := F) m c (Proc.devRef .tc r) = StableHlo.after rops1 (RB1 m c) (Proc.devRef .tc r) :=
  (r_up2_k m c r hr).symm
theorem r_down2_k (r : Ref sig .tc) (hr : rkey r < 62) :
    RFin' (F := F) m c (Proc.devRef .tc r) = StableHlo.after rops2 (RB2 m c) (Proc.devRef .tc r) :=
  (r_up3_k m c r hr).symm
theorem r_down3_k (r : Ref sig .tc) (hr : rkey r < 82) :
    RFin' (F := F) m c (Proc.devRef .tc r) = StableHlo.after rops3 (RB3 m c) (Proc.devRef .tc r) :=
  (r_up4_k m c r hr).symm
theorem r_down4_k (r : Ref sig .tc) (hr : rkey r < 85) :
    RFin' (F := F) m c (Proc.devRef .tc r) = StableHlo.after rops4 (RB4 m c) (Proc.devRef .tc r) :=
  (r_up5_k m c r hr).symm
theorem r_down5_k (r : Ref sig .tc) (hr : rkey r < 91) :
    RFin' (F := F) m c (Proc.devRef .tc r) = StableHlo.after rops5 (RB5 m c) (Proc.devRef .tc r) :=
  (r_up6_k m c r hr).symm
theorem r_down6_k (r : Ref sig .tc) (hr : rkey r < 106) :
    RFin' (F := F) m c (Proc.devRef .tc r) = StableHlo.after rops6 (RB6 m c) (Proc.devRef .tc r) :=
  (r_up7_k m c r hr).symm
theorem r_down7_k (r : Ref sig .tc) (hr : rkey r < 126) :
    RFin' (F := F) m c (Proc.devRef .tc r) = StableHlo.after rops7 (RB7 m c) (Proc.devRef .tc r) :=
  (r_up8_k m c r hr).symm
theorem r_down8_k (r : Ref sig .tc) (hr : rkey r < 146) :
    RFin' (F := F) m c (Proc.devRef .tc r) = StableHlo.after rops8 (RB8 m c) (Proc.devRef .tc r) :=
  (r_up9_k m c r hr).symm
theorem r_down9_k (r : Ref sig .tc) (hr : rkey r < 152) :
    RFin' (F := F) m c (Proc.devRef .tc r) = StableHlo.after rops9 (RB9 m c) (Proc.devRef .tc r) :=
  (r_up10_k m c r hr).symm
theorem r_down10_k (r : Ref sig .tc) (hr : rkey r < 167) :
    RFin' (F := F) m c (Proc.devRef .tc r) = StableHlo.after rops10 (RB10 m c) (Proc.devRef .tc r) :=
  (r_up11_k m c r hr).symm
theorem r_down11_k (r : Ref sig .tc) (hr : rkey r < 187) :
    RFin' (F := F) m c (Proc.devRef .tc r) = StableHlo.after rops11 (RB11 m c) (Proc.devRef .tc r) :=
  (r_up12_k m c r hr).symm
theorem r_down12_k (r : Ref sig .tc) (hr : rkey r < 207) :
    RFin' (F := F) m c (Proc.devRef .tc r) = StableHlo.after rops12 (RB12 m c) (Proc.devRef .tc r) :=
  (r_up13_k m c r hr).symm
theorem r_down13_k (r : Ref sig .tc) (hr : rkey r < 210) :
    RFin' (F := F) m c (Proc.devRef .tc r) = StableHlo.after rops13 (RB13 m c) (Proc.devRef .tc r) :=
  (r_up14_k m c r hr).symm
theorem r_down14_k (r : Ref sig .tc) (hr : rkey r < 230) :
    RFin' (F := F) m c (Proc.devRef .tc r) = StableHlo.after rops14 (RB14 m c) (Proc.devRef .tc r) :=
  (r_up15_k m c r hr).symm
theorem r_down15_k (r : Ref sig .tc) (hr : rkey r < 232) :
    RFin' (F := F) m c (Proc.devRef .tc r) = StableHlo.after rops15 (RB15 m c) (Proc.devRef .tc r) :=
  (r_up16_k m c r hr).symm
theorem r_down16_k (r : Ref sig .tc) (hr : rkey r < 235) :
    RFin' (F := F) m c (Proc.devRef .tc r) = StableHlo.after rops16 (RB16 m c) (Proc.devRef .tc r) :=
  (r_up17_k m c r hr).symm
theorem r_down17_k (r : Ref sig .tc) (hr : rkey r < 244) :
    RFin' (F := F) m c (Proc.devRef .tc r) = StableHlo.after rops17 (RB17 m c) (Proc.devRef .tc r) :=
  (r_up18_k m c r hr).symm
theorem r_down18_k (r : Ref sig .tc) (hr : rkey r < 256) :
    RFin' (F := F) m c (Proc.devRef .tc r) = StableHlo.after rops18 (RB18 m c) (Proc.devRef .tc r) :=
  (r_up19_k m c r hr).symm
theorem r_down19_k (r : Ref sig .tc) (hr : rkey r < 282) :
    RFin' (F := F) m c (Proc.devRef .tc r) = StableHlo.after rops19 (RB19 m c) (Proc.devRef .tc r) :=
  (r_up20_k m c r hr).symm
theorem r_down20_k (r : Ref sig .tc) (hr : rkey r < 300) :
    RFin' (F := F) m c (Proc.devRef .tc r) = StableHlo.after rops20 (RB20 m c) (Proc.devRef .tc r) :=
  (r_up21_k m c r hr).symm
theorem r_down21_k (r : Ref sig .tc) (hr : rkey r < 313) :
    RFin' (F := F) m c (Proc.devRef .tc r) = StableHlo.after rops21 (RB21 m c) (Proc.devRef .tc r) :=
  (r_up22_k m c r hr).symm
theorem r_down22_k (r : Ref sig .tc) (hr : rkey r < 327) :
    RFin' (F := F) m c (Proc.devRef .tc r) = StableHlo.after rops22 (RB22 m c) (Proc.devRef .tc r) :=
  (r_up23_k m c r hr).symm
theorem r_down23_k (r : Ref sig .tc) (hr : rkey r < 353) :
    RFin' (F := F) m c (Proc.devRef .tc r) = StableHlo.after rops23 (RB23 m c) (Proc.devRef .tc r) :=
  (r_up24_k m c r hr).symm
theorem r_down24_k (r : Ref sig .tc) (hr : rkey r < 371) :
    RFin' (F := F) m c (Proc.devRef .tc r) = StableHlo.after rops24 (RB24 m c) (Proc.devRef .tc r) :=
  (r_up25_k m c r hr).symm
theorem r_down25_k (r : Ref sig .tc) (hr : rkey r < 384) :
    RFin' (F := F) m c (Proc.devRef .tc r) = StableHlo.after rops25 (RB25 m c) (Proc.devRef .tc r) :=
  (r_up26_k m c r hr).symm
theorem r_down26_k (r : Ref sig .tc) (hr : rkey r < 395) :
    RFin' (F := F) m c (Proc.devRef .tc r) = StableHlo.after rops26 (RB26 m c) (Proc.devRef .tc r) :=
  (r_up27_k m c r hr).symm
theorem r_down27_k (r : Ref sig .tc) (hr : rkey r < 397) :
    RFin' (F := F) m c (Proc.devRef .tc r) = StableHlo.after rops27 (RB27 m c) (Proc.devRef .tc r) :=
  (r_up28_k m c r hr).symm
theorem r_down28_k (r : Ref sig .tc) (hr : rkey r < 405) :
    RFin' (F := F) m c (Proc.devRef .tc r) = StableHlo.after rops28 (RB28 m c) (Proc.devRef .tc r) :=
  (r_up29_k m c r hr).symm
theorem r_down29_k (r : Ref sig .tc) (hr : rkey r < 420) :
    RFin' (F := F) m c (Proc.devRef .tc r) = StableHlo.after rops29 (RB29 m c) (Proc.devRef .tc r) :=
  (r_up30_k m c r hr).symm
theorem r_down30_k (r : Ref sig .tc) (hr : rkey r < 440) :
    RFin' (F := F) m c (Proc.devRef .tc r) = StableHlo.after rops30 (RB30 m c) (Proc.devRef .tc r) :=
  (r_up31_k m c r hr).symm
theorem r_down31_k (r : Ref sig .tc) (hr : rkey r < 460) :
    RFin' (F := F) m c (Proc.devRef .tc r) = StableHlo.after rops31 (RB31 m c) (Proc.devRef .tc r) :=
  (r_up32_k m c r hr).symm
theorem r_down32_k (r : Ref sig .tc) (hr : rkey r < 475) :
    RFin' (F := F) m c (Proc.devRef .tc r) = StableHlo.after rops32 (RB32 m c) (Proc.devRef .tc r) :=
  (r_up33_k m c r hr).symm
theorem r_down33_k (r : Ref sig .tc) (hr : rkey r < 476) :
    RFin' (F := F) m c (Proc.devRef .tc r) = StableHlo.after rops33 (RB33 m c) (Proc.devRef .tc r) :=
  rfl

end Cert.ReferenceIdeal.Hand

end
-- ==== Proof.Bridge.Base.lean ====
import proofs.«401602_j3728031613303_3_alg».proof.Proof.KI.StagesK
import proofs.«401602_j3728031613303_3_alg».proof.Proof.RI.Stages

noncomputable section

namespace Cert.Bridge

open Idealize.ShloMosaic Idealize.ShloMosaic.TcCoe Idealize.SL.Sem

variable {F : FTy → Type} [FloatOps F]

abbrev KMem (F : FTy → Type) : Type := (ℓ : Loc Cert.KernelIdeal.nD Cert.KernelIdeal.τ Cert.KernelIdeal.sig) → Buf (Elt F) ℓ

abbrev RMem (F : FTy → Type) : Type := (ℓ : Loc Cert.ReferenceIdeal.nD Cert.ReferenceIdeal.τ Cert.ReferenceIdeal.sig) → Buf (Elt F) ℓ

abbrev KV (m : KMem F) (c : Dev Cert.KernelIdeal.nD) (r : Ref Cert.KernelIdeal.sig .tc) :=
  Cert.KernelIdeal.Hand.KFin m c (Proc.devRef .tc r)

abbrev RV (m' : RMem F) (c : Dev Cert.ReferenceIdeal.nD) (r : Ref Cert.ReferenceIdeal.sig .tc) :=
  Cert.ReferenceIdeal.Hand.RFin' m' c (Proc.devRef .tc r)

def Agree (m : KMem F) (m' : RMem F) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧       m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧       m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧       m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧       m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧       m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧       m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

variable (m : KMem F) (m' : RMem F) (c : Dev Cert.KernelIdeal.nD)

/-- An argument's index is below every index either program writes, so both sides end at the launch contents. -/
theorem args_eq (ha : Agree m m') :
    KV m c Cert.KernelIdeal.main_arg0 = RV m' c Cert.ReferenceIdeal.main_arg0
    ∧ KV m c Cert.KernelIdeal.main_arg1 = RV m' c Cert.ReferenceIdeal.main_arg1
    ∧ KV m c Cert.KernelIdeal.main_arg2 = RV m' c Cert.ReferenceIdeal.main_arg2
    ∧ KV m c Cert.KernelIdeal.main_arg3 = RV m' c Cert.ReferenceIdeal.main_arg3
    ∧ KV m c Cert.KernelIdeal.main_arg4 = RV m' c Cert.ReferenceIdeal.main_arg4
    ∧ KV m c Cert.KernelIdeal.main_arg5 = RV m' c Cert.ReferenceIdeal.main_arg5
    ∧ KV m c Cert.KernelIdeal.main_arg6 = RV m' c Cert.ReferenceIdeal.main_arg6
    ∧ KV m c Cert.KernelIdeal.main_arg7 = RV m' c Cert.ReferenceIdeal.main_arg7
    ∧ KV m c Cert.KernelIdeal.main_arg8 = RV m' c Cert.ReferenceIdeal.main_arg8
    ∧ KV m c Cert.KernelIdeal.main_arg9 = RV m' c Cert.ReferenceIdeal.main_arg9
    ∧ KV m c Cert.KernelIdeal.main_arg10 = RV m' c Cert.ReferenceIdeal.main_arg10
    ∧ KV m c Cert.KernelIdeal.main_arg11 = RV m' c Cert.ReferenceIdeal.main_arg11
    ∧ KV m c Cert.KernelIdeal.main_arg12 = RV m' c Cert.ReferenceIdeal.main_arg12
    ∧ KV m c Cert.KernelIdeal.main_arg13 = RV m' c Cert.ReferenceIdeal.main_arg13
    ∧ KV m c Cert.KernelIdeal.main_arg14 = RV m' c Cert.ReferenceIdeal.main_arg14
    ∧ KV m c Cert.KernelIdeal.main_arg15 = RV m' c Cert.ReferenceIdeal.main_arg15
    ∧ KV m c Cert.KernelIdeal.main_arg16 = RV m' c Cert.ReferenceIdeal.main_arg16 :=
  match ha c with
  | ⟨h0, h1, h2, h3, h4, h5, h6, h7, h8, h9, h10, h11, h12, h13, h14, h15, h16⟩ => ⟨
    ((Cert.KernelIdeal.Hand.pre_up0_k m c _ (by decide)).symm.trans h0.symm).trans (Cert.ReferenceIdeal.Hand.r_up0_k m' c _ (by decide)),
    ((Cert.KernelIdeal.Hand.pre_up0_k m c _ (by decide)).symm.trans h1.symm).trans (Cert.ReferenceIdeal.Hand.r_up0_k m' c _ (by decide)),
    ((Cert.KernelIdeal.Hand.pre_up0_k m c _ (by decide)).symm.trans h2.symm).trans (Cert.ReferenceIdeal.Hand.r_up0_k m' c _ (by decide)),
    ((Cert.KernelIdeal.Hand.pre_up0_k m c _ (by decide)).symm.trans h3.symm).trans (Cert.ReferenceIdeal.Hand.r_up0_k m' c _ (by decide)),
    ((Cert.KernelIdeal.Hand.pre_up0_k m c _ (by decide)).symm.trans h4.symm).trans (Cert.ReferenceIdeal.Hand.r_up0_k m' c _ (by decide)),
    ((Cert.KernelIdeal.Hand.pre_up0_k m c _ (by decide)).symm.trans h5.symm).trans (Cert.ReferenceIdeal.Hand.r_up0_k m' c _ (by decide)),
    ((Cert.KernelIdeal.Hand.pre_up0_k m c _ (by decide)).symm.trans h6.symm).trans (Cert.ReferenceIdeal.Hand.r_up0_k m' c _ (by decide)),
    ((Cert.KernelIdeal.Hand.pre_up0_k m c _ (by decide)).symm.trans h7.symm).trans (Cert.ReferenceIdeal.Hand.r_up0_k m' c _ (by decide)),
    ((Cert.KernelIdeal.Hand.pre_up0_k m c _ (by decide)).symm.trans h8.symm).trans (Cert.ReferenceIdeal.Hand.r_up0_k m' c _ (by decide)),
    ((Cert.KernelIdeal.Hand.pre_up0_k m c _ (by decide)).symm.trans h9.symm).trans (Cert.ReferenceIdeal.Hand.r_up0_k m' c _ (by decide)),
    ((Cert.KernelIdeal.Hand.pre_up0_k m c _ (by decide)).symm.trans h10.symm).trans (Cert.ReferenceIdeal.Hand.r_up0_k m' c _ (by decide)),
    ((Cert.KernelIdeal.Hand.pre_up0_k m c _ (by decide)).symm.trans h11.symm).trans (Cert.ReferenceIdeal.Hand.r_up0_k m' c _ (by decide)),
    ((Cert.KernelIdeal.Hand.pre_up0_k m c _ (by decide)).symm.trans h12.symm).trans (Cert.ReferenceIdeal.Hand.r_up0_k m' c _ (by decide)),
    ((Cert.KernelIdeal.Hand.pre_up0_k m c _ (by decide)).symm.trans h13.symm).trans (Cert.ReferenceIdeal.Hand.r_up0_k m' c _ (by decide)),
    ((Cert.KernelIdeal.Hand.pre_up0_k m c _ (by decide)).symm.trans h14.symm).trans (Cert.ReferenceIdeal.Hand.r_up0_k m' c _ (by decide)),
    ((Cert.KernelIdeal.Hand.pre_up0_k m c _ (by decide)).symm.trans h15.symm).trans (Cert.ReferenceIdeal.Hand.r_up0_k m' c _ (by decide)),
    ((Cert.KernelIdeal.Hand.pre_up0_k m c _ (by decide)).symm.trans h16.symm).trans (Cert.ReferenceIdeal.Hand.r_up0_k m' c _ (by decide))⟩

end Cert.Bridge

end
-- ==== Proof.Bridge.SynPre.lean ====
import proofs.«401602_j3728031613303_3_alg».proof.Proof.Bridge.Base
import Idealize.ShloMosaic.Lib.StableHlo.Run

set_option maxRecDepth 16384

noncomputable section

namespace Cert.Bridge

open Idealize.ShloMosaic Idealize.ShloMosaic.TcCoe Idealize.SL.Sem Idealize.ShloMosaic.StableHlo

variable {F : FTy → Type} [FloatOps F]

variable (m : KMem F) (m' : RMem F) (c : Dev Cert.KernelIdeal.nD)

set_option maxHeartbeats 1000000 in
theorem syn_v1_v1 (h1 : KV m c Cert.KernelIdeal.main_arg1 = RV m' c Cert.ReferenceIdeal.main_arg1) :
    KV m c Cert.KernelIdeal.main_v1 = RV m' c Cert.ReferenceIdeal.main_v1 := by
  unfold KV RV at h1 ⊢
  rw [Cert.KernelIdeal.Hand.pre_down0_k m c _ (by decide), Cert.ReferenceIdeal.Hand.r_down0_k m' c _ (by decide)]
  after_results_simp
  rewrite [Cert.KernelIdeal.Hand.pre_up0_k m c Cert.KernelIdeal.main_arg1 (by decide),
    Cert.ReferenceIdeal.Hand.r_up0_k m' c Cert.ReferenceIdeal.main_arg1 (by decide)]
  rewrite [h1]
  rfl

set_option maxHeartbeats 1000000 in
theorem syn_v3_v3 (h1 : KV m c Cert.KernelIdeal.main_arg1 = RV m' c Cert.ReferenceIdeal.main_arg1) :
    KV m c Cert.KernelIdeal.main_v3 = RV m' c Cert.ReferenceIdeal.main_v3 := by
  unfold KV RV at h1 ⊢
  rw [Cert.KernelIdeal.Hand.pre_down0_k m c _ (by decide), Cert.ReferenceIdeal.Hand.r_down0_k m' c _ (by decide)]
  after_results_simp
  rewrite [Cert.KernelIdeal.Hand.pre_up0_k m c Cert.KernelIdeal.main_arg1 (by decide),
    Cert.ReferenceIdeal.Hand.r_up0_k m' c Cert.ReferenceIdeal.main_arg1 (by decide)]
  rewrite [h1]
  rfl

set_option maxHeartbeats 1000000 in
theorem syn_v5_v5 (h1 : KV m c Cert.KernelIdeal.main_arg1 = RV m' c Cert.ReferenceIdeal.main_arg1) :
    KV m c Cert.KernelIdeal.main_v5 = RV m' c Cert.ReferenceIdeal.main_v5 := by
  unfold KV RV at h1 ⊢
  rw [Cert.KernelIdeal.Hand.pre_down0_k m c _ (by decide), Cert.ReferenceIdeal.Hand.r_down0_k m' c _ (by decide)]
  after_results
  rewrite [Cert.KernelIdeal.Hand.pre_up0_k m c Cert.KernelIdeal.main_arg1 (by decide),
    Cert.ReferenceIdeal.Hand.r_up0_k m' c Cert.ReferenceIdeal.main_arg1 (by decide)]
  rewrite [h1]
  rfl

set_option maxHeartbeats 1000000 in
theorem syn_v6_v6 (h1 : KV m c Cert.KernelIdeal.main_arg1 = RV m' c Cert.ReferenceIdeal.main_arg1) :
    KV m c Cert.KernelIdeal.main_v6 = RV m' c Cert.ReferenceIdeal.main_v6 := by
  unfold KV RV at h1 ⊢
  rw [Cert.KernelIdeal.Hand.pre_down0_k m c _ (by decide), Cert.ReferenceIdeal.Hand.r_down0_k m' c _ (by decide)]
  after_results
  rewrite [Cert.KernelIdeal.Hand.pre_up0_k m c Cert.KernelIdeal.main_arg1 (by decide),
    Cert.ReferenceIdeal.Hand.r_up0_k m' c Cert.ReferenceIdeal.main_arg1 (by decide)]
  rewrite [h1]
  rfl

set_option maxHeartbeats 1000000 in
theorem syn_v8_v8 (h1 : KV m c Cert.KernelIdeal.main_arg2 = RV m' c Cert.ReferenceIdeal.main_arg2) :
    KV m c Cert.KernelIdeal.main_v8 = RV m' c Cert.ReferenceIdeal.main_v8 := by
  unfold KV RV at h1 ⊢
  rw [Cert.KernelIdeal.Hand.pre_down0_k m c _ (by decide), Cert.ReferenceIdeal.Hand.r_down0_k m' c _ (by decide)]
  after_results
  rewrite [Cert.KernelIdeal.Hand.pre_up0_k m c Cert.KernelIdeal.main_arg2 (by decide),
    Cert.ReferenceIdeal.Hand.r_up0_k m' c Cert.ReferenceIdeal.main_arg2 (by decide)]
  rewrite [h1]
  rfl

set_option maxHeartbeats 1000000 in
theorem syn_v5_v53 (h1 : KV m c Cert.KernelIdeal.main_arg1 = RV m' c Cert.ReferenceIdeal.main_arg1) :
    KV m c Cert.KernelIdeal.main_v5 = RV m' c Cert.ReferenceIdeal.main_v53 := by
  unfold KV RV at h1 ⊢
  rw [Cert.KernelIdeal.Hand.pre_down0_k m c _ (by decide), Cert.ReferenceIdeal.Hand.r_down5_k m' c _ (by decide)]
  after_results
  rewrite [Cert.KernelIdeal.Hand.pre_up0_k m c Cert.KernelIdeal.main_arg1 (by decide),
    Cert.ReferenceIdeal.Hand.r_up5_k m' c Cert.ReferenceIdeal.main_v1 (by decide)]
  rw [Cert.ReferenceIdeal.Hand.r_down0_k m' c Cert.ReferenceIdeal.main_v1 (by decide)]
  after_results
  rewrite [Cert.ReferenceIdeal.Hand.r_up0_k m' c Cert.ReferenceIdeal.main_arg1 (by decide)]
  rewrite [h1]
  rfl

set_option maxHeartbeats 1000000 in
theorem syn_v6_v54 (h1 : KV m c Cert.KernelIdeal.main_arg1 = RV m' c Cert.ReferenceIdeal.main_arg1) :
    KV m c Cert.KernelIdeal.main_v6 = RV m' c Cert.ReferenceIdeal.main_v54 := by
  unfold KV RV at h1 ⊢
  rw [Cert.KernelIdeal.Hand.pre_down0_k m c _ (by decide), Cert.ReferenceIdeal.Hand.r_down5_k m' c _ (by decide)]
  after_results
  rewrite [Cert.KernelIdeal.Hand.pre_up0_k m c Cert.KernelIdeal.main_arg1 (by decide),
    Cert.ReferenceIdeal.Hand.r_up5_k m' c Cert.ReferenceIdeal.main_v3 (by decide)]
  rw [Cert.ReferenceIdeal.Hand.r_down0_k m' c Cert.ReferenceIdeal.main_v3 (by decide)]
  after_results
  rewrite [Cert.ReferenceIdeal.Hand.r_up0_k m' c Cert.ReferenceIdeal.main_arg1 (by decide)]
  rewrite [h1]
  rfl

set_option maxHeartbeats 1000000 in
theorem syn_v8_v56 (h1 : KV m c Cert.KernelIdeal.main_arg2 = RV m' c Cert.ReferenceIdeal.main_arg2) :
    KV m c Cert.KernelIdeal.main_v8 = RV m' c Cert.ReferenceIdeal.main_v56 := by
  unfold KV RV at h1 ⊢
  rw [Cert.KernelIdeal.Hand.pre_down0_k m c _ (by decide), Cert.ReferenceIdeal.Hand.r_down5_k m' c _ (by decide)]
  after_results
  rewrite [Cert.KernelIdeal.Hand.pre_up0_k m c Cert.KernelIdeal.main_arg2 (by decide),
    Cert.ReferenceIdeal.Hand.r_up5_k m' c Cert.ReferenceIdeal.main_arg2 (by decide)]
  rewrite [h1]
  rfl

set_option maxHeartbeats 1000000 in
theorem syn_v5_v100 (h1 : KV m c Cert.KernelIdeal.main_arg1 = RV m' c Cert.ReferenceIdeal.main_arg1) :
    KV m c Cert.KernelIdeal.main_v5 = RV m' c Cert.ReferenceIdeal.main_v100 := by
  unfold KV RV at h1 ⊢
  rw [Cert.KernelIdeal.Hand.pre_down0_k m c _ (by decide), Cert.ReferenceIdeal.Hand.r_down9_k m' c _ (by decide)]
  after_results
  rewrite [Cert.KernelIdeal.Hand.pre_up0_k m c Cert.KernelIdeal.main_arg1 (by decide),
    Cert.ReferenceIdeal.Hand.r_up9_k m' c Cert.ReferenceIdeal.main_v1 (by decide)]
  rw [Cert.ReferenceIdeal.Hand.r_down0_k m' c Cert.ReferenceIdeal.main_v1 (by decide)]
  after_results
  rewrite [Cert.ReferenceIdeal.Hand.r_up0_k m' c Cert.ReferenceIdeal.main_arg1 (by decide)]
  rewrite [h1]
  rfl

set_option maxHeartbeats 1000000 in
theorem syn_v6_v101 (h1 : KV m c Cert.KernelIdeal.main_arg1 = RV m' c Cert.ReferenceIdeal.main_arg1) :
    KV m c Cert.KernelIdeal.main_v6 = RV m' c Cert.ReferenceIdeal.main_v101 := by
  unfold KV RV at h1 ⊢
  rw [Cert.KernelIdeal.Hand.pre_down0_k m c _ (by decide), Cert.ReferenceIdeal.Hand.r_down9_k m' c _ (by decide)]
  after_results
  rewrite [Cert.KernelIdeal.Hand.pre_up0_k m c Cert.KernelIdeal.main_arg1 (by decide),
    Cert.ReferenceIdeal.Hand.r_up9_k m' c Cert.ReferenceIdeal.main_v3 (by decide)]
  rw [Cert.ReferenceIdeal.Hand.r_down0_k m' c Cert.ReferenceIdeal.main_v3 (by decide)]
  after_results
  rewrite [Cert.ReferenceIdeal.Hand.r_up0_k m' c Cert.ReferenceIdeal.main_arg1 (by decide)]
  rewrite [h1]
  rfl

set_option maxHeartbeats 1000000 in
theorem syn_v8_v103 (h1 : KV m c Cert.KernelIdeal.main_arg2 = RV m' c Cert.ReferenceIdeal.main_arg2) :
    KV m c Cert.KernelIdeal.main_v8 = RV m' c Cert.ReferenceIdeal.main_v103 := by
  unfold KV RV at h1 ⊢
  rw [Cert.KernelIdeal.Hand.pre_down0_k m c _ (by decide), Cert.ReferenceIdeal.Hand.r_down9_k m' c _ (by decide)]
  after_results
  rewrite [Cert.KernelIdeal.Hand.pre_up0_k m c Cert.KernelIdeal.main_arg2 (by decide),
    Cert.ReferenceIdeal.Hand.r_up9_k m' c Cert.ReferenceIdeal.main_arg2 (by decide)]
  rewrite [h1]
  rfl

set_option maxHeartbeats 1000000 in
theorem syn_v17_v17 (h1 : KV m c Cert.KernelIdeal.main_v6 = RV m' c Cert.ReferenceIdeal.main_v6)
    (h2 : KV m c Cert.KernelIdeal.main_v8 = RV m' c Cert.ReferenceIdeal.main_v8) :
    KV m c Cert.KernelIdeal.main_v17 = RV m' c Cert.ReferenceIdeal.main_v17 := by
  unfold KV RV at h1 h2 ⊢
  rw [Cert.KernelIdeal.Hand.pre_down1_k m c _ (by decide), Cert.ReferenceIdeal.Hand.r_down1_k m' c _ (by decide)]
  after_results_simp
  rewrite [Cert.KernelIdeal.Hand.pre_up1_k m c Cert.KernelIdeal.main_v6 (by decide),
    Cert.KernelIdeal.Hand.pre_up1_k m c Cert.KernelIdeal.main_v8 (by decide),
    Cert.ReferenceIdeal.Hand.r_up1_k m' c Cert.ReferenceIdeal.main_v6 (by decide),
    Cert.ReferenceIdeal.Hand.r_up1_k m' c Cert.ReferenceIdeal.main_v8 (by decide)]
  rewrite [h1, h2]
  rfl

set_option maxHeartbeats 1000000 in
theorem syn_v17_v65 (h1 : KV m c Cert.KernelIdeal.main_v6 = RV m' c Cert.ReferenceIdeal.main_v54)
    (h2 : KV m c Cert.KernelIdeal.main_v8 = RV m' c Cert.ReferenceIdeal.main_v56) :
    KV m c Cert.KernelIdeal.main_v17 = RV m' c Cert.ReferenceIdeal.main_v65 := by
  unfold KV RV at h1 h2 ⊢
  rw [Cert.KernelIdeal.Hand.pre_down1_k m c _ (by decide), Cert.ReferenceIdeal.Hand.r_down6_k m' c _ (by decide)]
  after_results_simp
  rewrite [Cert.KernelIdeal.Hand.pre_up1_k m c Cert.KernelIdeal.main_v6 (by decide),
    Cert.KernelIdeal.Hand.pre_up1_k m c Cert.KernelIdeal.main_v8 (by decide),
    Cert.ReferenceIdeal.Hand.r_up6_k m' c Cert.ReferenceIdeal.main_v54 (by decide),
    Cert.ReferenceIdeal.Hand.r_up6_k m' c Cert.ReferenceIdeal.main_v56 (by decide)]
  rewrite [h1, h2]
  rfl

set_option maxHeartbeats 1000000 in
theorem syn_v17_v112 (h1 : KV m c Cert.KernelIdeal.main_v6 = RV m' c Cert.ReferenceIdeal.main_v101)
    (h2 : KV m c Cert.KernelIdeal.main_v8 = RV m' c Cert.ReferenceIdeal.main_v103) :
    KV m c Cert.KernelIdeal.main_v17 = RV m' c Cert.ReferenceIdeal.main_v112 := by
  unfold KV RV at h1 h2 ⊢
  rw [Cert.KernelIdeal.Hand.pre_down1_k m c _ (by decide), Cert.ReferenceIdeal.Hand.r_down10_k m' c _ (by decide)]
  after_results_simp
  rewrite [Cert.KernelIdeal.Hand.pre_up1_k m c Cert.KernelIdeal.main_v6 (by decide),
    Cert.KernelIdeal.Hand.pre_up1_k m c Cert.KernelIdeal.main_v8 (by decide),
    Cert.ReferenceIdeal.Hand.r_up10_k m' c Cert.ReferenceIdeal.main_v101 (by decide),
    Cert.ReferenceIdeal.Hand.r_up10_k m' c Cert.ReferenceIdeal.main_v103 (by decide)]
  rewrite [h1, h2]
  rfl

set_option maxHeartbeats 1000000 in
theorem syn_v33_v33 (h1 : KV m c Cert.KernelIdeal.main_v17 = RV m' c Cert.ReferenceIdeal.main_v17)
    (h2 : KV m c Cert.KernelIdeal.main_v5 = RV m' c Cert.ReferenceIdeal.main_v5)
    (h3 : KV m c Cert.KernelIdeal.main_v8 = RV m' c Cert.ReferenceIdeal.main_v8)
    (h4 : KV m c Cert.KernelIdeal.main_v6 = RV m' c Cert.ReferenceIdeal.main_v6) :
    KV m c Cert.KernelIdeal.main_v33 = RV m' c Cert.ReferenceIdeal.main_v33 := by
  unfold KV RV at h1 h2 h3 h4 ⊢
  rw [Cert.KernelIdeal.Hand.pre_down2_k m c _ (by decide), Cert.ReferenceIdeal.Hand.r_down2_k m' c _ (by decide)]
  after_results_simp
  rewrite [Cert.KernelIdeal.Hand.pre_up2_k m c Cert.KernelIdeal.main_v17 (by decide),
    Cert.KernelIdeal.Hand.pre_up2_k m c Cert.KernelIdeal.main_v5 (by decide),
    Cert.KernelIdeal.Hand.pre_up2_k m c Cert.KernelIdeal.main_v8 (by decide),
    Cert.KernelIdeal.Hand.pre_up2_k m c Cert.KernelIdeal.main_v6 (by decide),
    Cert.ReferenceIdeal.Hand.r_up2_k m' c Cert.ReferenceIdeal.main_v17 (by decide),
    Cert.ReferenceIdeal.Hand.r_up2_k m' c Cert.ReferenceIdeal.main_v5 (by decide),
    Cert.ReferenceIdeal.Hand.r_up2_k m' c Cert.ReferenceIdeal.main_v8 (by decide),
    Cert.ReferenceIdeal.Hand.r_up2_k m' c Cert.ReferenceIdeal.main_v6 (by decide)]
  rewrite [h1, h2, h3, h4]
  rfl

set_option maxHeartbeats 1000000 in
theorem syn_v33_v81 (h1 : KV m c Cert.KernelIdeal.main_v17 = RV m' c Cert.ReferenceIdeal.main_v65)
    (h2 : KV m c Cert.KernelIdeal.main_v5 = RV m' c Cert.ReferenceIdeal.main_v53)
    (h3 : KV m c Cert.KernelIdeal.main_v8 = RV m' c Cert.ReferenceIdeal.main_v56)
    (h4 : KV m c Cert.KernelIdeal.main_v6 = RV m' c Cert.ReferenceIdeal.main_v54) :
    KV m c Cert.KernelIdeal.main_v33 = RV m' c Cert.ReferenceIdeal.main_v81 := by
  unfold KV RV at h1 h2 h3 h4 ⊢
  rw [Cert.KernelIdeal.Hand.pre_down2_k m c _ (by decide), Cert.ReferenceIdeal.Hand.r_down7_k m' c _ (by decide)]
  after_results_simp
  rewrite [Cert.KernelIdeal.Hand.pre_up2_k m c Cert.KernelIdeal.main_v17 (by decide),
    Cert.KernelIdeal.Hand.pre_up2_k m c Cert.KernelIdeal.main_v5 (by decide),
    Cert.KernelIdeal.Hand.pre_up2_k m c Cert.KernelIdeal.main_v8 (by decide),
    Cert.KernelIdeal.Hand.pre_up2_k m c Cert.KernelIdeal.main_v6 (by decide),
    Cert.ReferenceIdeal.Hand.r_up7_k m' c Cert.ReferenceIdeal.main_v65 (by decide),
    Cert.ReferenceIdeal.Hand.r_up7_k m' c Cert.ReferenceIdeal.main_v53 (by decide),
    Cert.ReferenceIdeal.Hand.r_up7_k m' c Cert.ReferenceIdeal.main_v56 (by decide),
    Cert.ReferenceIdeal.Hand.r_up7_k m' c Cert.ReferenceIdeal.main_v54 (by decide)]
  rewrite [h1, h2, h3, h4]
  rfl

set_option maxHeartbeats 1000000 in
theorem syn_v33_v128 (h1 : KV m c Cert.KernelIdeal.main_v17 = RV m' c Cert.ReferenceIdeal.main_v112)
    (h2 : KV m c Cert.KernelIdeal.main_v5 = RV m' c Cert.ReferenceIdeal.main_v100)
    (h3 : KV m c Cert.KernelIdeal.main_v8 = RV m' c Cert.ReferenceIdeal.main_v103)
    (h4 : KV m c Cert.KernelIdeal.main_v6 = RV m' c Cert.ReferenceIdeal.main_v101) :
    KV m c Cert.KernelIdeal.main_v33 = RV m' c Cert.ReferenceIdeal.main_v128 := by
  unfold KV RV at h1 h2 h3 h4 ⊢
  rw [Cert.KernelIdeal.Hand.pre_down2_k m c _ (by decide), Cert.ReferenceIdeal.Hand.r_down11_k m' c _ (by decide)]
  after_results_simp
  rewrite [Cert.KernelIdeal.Hand.pre_up2_k m c Cert.KernelIdeal.main_v17 (by decide),
    Cert.KernelIdeal.Hand.pre_up2_k m c Cert.KernelIdeal.main_v5 (by decide),
    Cert.KernelIdeal.Hand.pre_up2_k m c Cert.KernelIdeal.main_v8 (by decide),
    Cert.KernelIdeal.Hand.pre_up2_k m c Cert.KernelIdeal.main_v6 (by decide),
    Cert.ReferenceIdeal.Hand.r_up11_k m' c Cert.ReferenceIdeal.main_v112 (by decide),
    Cert.ReferenceIdeal.Hand.r_up11_k m' c Cert.ReferenceIdeal.main_v100 (by decide),
    Cert.ReferenceIdeal.Hand.r_up11_k m' c Cert.ReferenceIdeal.main_v103 (by decide),
    Cert.ReferenceIdeal.Hand.r_up11_k m' c Cert.ReferenceIdeal.main_v101 (by decide)]
  rewrite [h1, h2, h3, h4]
  rfl

set_option maxHeartbeats 1000000 in
theorem syn_v54_v51 (h1 : KV m c Cert.KernelIdeal.main_v53 = RV m' c Cert.ReferenceIdeal.main_v50) :
    KV m c Cert.KernelIdeal.main_v54 = RV m' c Cert.ReferenceIdeal.main_v51 := by
  unfold KV RV at h1 ⊢
  rw [Cert.KernelIdeal.Hand.pre_down4_k m c _ (by decide), Cert.ReferenceIdeal.Hand.r_down4_k m' c _ (by decide)]
  after_results_simp
  rewrite [Cert.KernelIdeal.Hand.pre_up4_k m c Cert.KernelIdeal.main_v53 (by decide),
    Cert.ReferenceIdeal.Hand.r_up4_k m' c Cert.ReferenceIdeal.main_v50 (by decide)]
  rewrite [h1]
  rfl

set_option maxHeartbeats 1000000 in
theorem syn_v56_v146 (h1 : KV m c Cert.KernelIdeal.main_v55 = RV m' c Cert.ReferenceIdeal.main_v145) :
    KV m c Cert.KernelIdeal.main_v56 = RV m' c Cert.ReferenceIdeal.main_v146 := by
  unfold KV RV at h1 ⊢
  rw [Cert.KernelIdeal.Hand.pre_down6_k m c _ (by decide), Cert.ReferenceIdeal.Hand.r_down13_k m' c _ (by decide)]
  after_results_simp
  rewrite [Cert.KernelIdeal.Hand.pre_up6_k m c Cert.KernelIdeal.main_v55 (by decide),
    Cert.ReferenceIdeal.Hand.r_up13_k m' c Cert.ReferenceIdeal.main_v145 (by decide)]
  rewrite [h1]
  rfl

set_option maxHeartbeats 1000000 in
theorem syn_v73_v98 (h1 : KV m c Cert.KernelIdeal.main_v6 = RV m' c Cert.ReferenceIdeal.main_v54)
    (h2 : KV m c Cert.KernelIdeal.main_v33 = RV m' c Cert.ReferenceIdeal.main_v81)
    (h3 : KV m c Cert.KernelIdeal.main_v54 = RV m' c Cert.ReferenceIdeal.main_v51)
    (h4 : KV m c Cert.KernelIdeal.main_arg7 = RV m' c Cert.ReferenceIdeal.main_arg7)
    (h5 : KV m c Cert.KernelIdeal.main_v5 = RV m' c Cert.ReferenceIdeal.main_v53)
    (h6 : KV m c Cert.KernelIdeal.main_arg8 = RV m' c Cert.ReferenceIdeal.main_arg8) :
    KV m c Cert.KernelIdeal.main_v73 = RV m' c Cert.ReferenceIdeal.main_v98 := by
  unfold KV RV at h1 h2 h3 h4 h5 h6 ⊢
  rw [Cert.KernelIdeal.Hand.pre_down7_k m c _ (by decide), Cert.ReferenceIdeal.Hand.r_down8_k m' c _ (by decide)]
  after_results_simp
  rewrite [Cert.KernelIdeal.Hand.pre_up7_k m c Cert.KernelIdeal.main_v6 (by decide),
    Cert.KernelIdeal.Hand.pre_up7_k m c Cert.KernelIdeal.main_v33 (by decide),
    Cert.KernelIdeal.Hand.pre_up7_k m c Cert.KernelIdeal.main_v54 (by decide),
    Cert.KernelIdeal.Hand.pre_up7_k m c Cert.KernelIdeal.main_arg7 (by decide),
    Cert.KernelIdeal.Hand.pre_up7_k m c Cert.KernelIdeal.main_v5 (by decide),
    Cert.KernelIdeal.Hand.pre_up7_k m c Cert.KernelIdeal.main_arg8 (by decide),
    Cert.ReferenceIdeal.Hand.r_up8_k m' c Cert.ReferenceIdeal.main_v54 (by decide),
    Cert.ReferenceIdeal.Hand.r_up8_k m' c Cert.ReferenceIdeal.main_v81 (by decide),
    Cert.ReferenceIdeal.Hand.r_up8_k m' c Cert.ReferenceIdeal.main_v51 (by decide),
    Cert.ReferenceIdeal.Hand.r_up8_k m' c Cert.ReferenceIdeal.main_arg7 (by decide),
    Cert.ReferenceIdeal.Hand.r_up8_k m' c Cert.ReferenceIdeal.main_v53 (by decide),
    Cert.ReferenceIdeal.Hand.r_up8_k m' c Cert.ReferenceIdeal.main_arg8 (by decide)]
  rewrite [h1, h2, h3, h4, h5, h6]
  rfl

set_option maxHeartbeats 1000000 in
theorem syn_v88_v163 (h1 : KV m c Cert.KernelIdeal.main_v56 = RV m' c Cert.ReferenceIdeal.main_v146)
    (h2 : KV m c Cert.KernelIdeal.main_arg4 = RV m' c Cert.ReferenceIdeal.main_arg4) :
    KV m c Cert.KernelIdeal.main_v88 = RV m' c Cert.ReferenceIdeal.main_v163 := by
  unfold KV RV at h1 h2 ⊢
  rw [Cert.KernelIdeal.Hand.pre_down8_k m c _ (by decide), Cert.ReferenceIdeal.Hand.r_down14_k m' c _ (by decide)]
  after_results_simp
  rewrite [Cert.KernelIdeal.Hand.pre_up8_k m c Cert.KernelIdeal.main_v56 (by decide),
    Cert.KernelIdeal.Hand.pre_up8_k m c Cert.KernelIdeal.main_arg4 (by decide),
    Cert.ReferenceIdeal.Hand.r_up14_k m' c Cert.ReferenceIdeal.main_v146 (by decide),
    Cert.ReferenceIdeal.Hand.r_up14_k m' c Cert.ReferenceIdeal.main_arg4 (by decide)]
  rewrite [h1, h2]
  rfl

set_option maxHeartbeats 1000000 in
theorem syn_v96_v183 (h1 : KV m c Cert.KernelIdeal.main_v88 = RV m' c Cert.ReferenceIdeal.main_v163) :
    KV m c Cert.KernelIdeal.main_v96 = RV m' c Cert.ReferenceIdeal.main_v183 := by
  unfold KV RV at h1 ⊢
  rw [Cert.KernelIdeal.Hand.pre_down9_k m c _ (by decide), Cert.ReferenceIdeal.Hand.r_down18_k m' c _ (by decide)]
  after_results_simp
  rewrite [Cert.KernelIdeal.Hand.pre_up9_k m c Cert.KernelIdeal.main_v88 (by decide),
    Cert.ReferenceIdeal.Hand.r_up18_k m' c Cert.ReferenceIdeal.main_v163 (by decide)]
  rewrite [h1]
  rfl

set_option maxHeartbeats 1000000 in
theorem syn_v226_v289 (h1 : KV m c Cert.KernelIdeal.main_v1 = RV m' c Cert.ReferenceIdeal.main_v1) :
    KV m c Cert.KernelIdeal.main_v226 = RV m' c Cert.ReferenceIdeal.main_v289 := by
  unfold KV RV at h1 ⊢
  rw [Cert.KernelIdeal.Hand.tail_down11_k m c _ (by decide), Cert.ReferenceIdeal.Hand.r_down28_k m' c _ (by decide)]
  after_results
  rewrite [Cert.KernelIdeal.Hand.tail_up11_k m c Cert.KernelIdeal.main_v1 (by decide),
    Cert.ReferenceIdeal.Hand.r_up28_k m' c Cert.ReferenceIdeal.main_v1 (by decide)]
  rewrite [h1]
  rfl

set_option maxHeartbeats 1000000 in
theorem syn_v227_v290 (h1 : KV m c Cert.KernelIdeal.main_v3 = RV m' c Cert.ReferenceIdeal.main_v3) :
    KV m c Cert.KernelIdeal.main_v227 = RV m' c Cert.ReferenceIdeal.main_v290 := by
  unfold KV RV at h1 ⊢
  rw [Cert.KernelIdeal.Hand.tail_down11_k m c _ (by decide), Cert.ReferenceIdeal.Hand.r_down28_k m' c _ (by decide)]
  after_results
  rewrite [Cert.KernelIdeal.Hand.tail_up11_k m c Cert.KernelIdeal.main_v3 (by decide),
    Cert.ReferenceIdeal.Hand.r_up28_k m' c Cert.ReferenceIdeal.main_v3 (by decide)]
  rewrite [h1]
  rfl

set_option maxHeartbeats 1000000 in
theorem syn_v229_v292 :
    KV m c Cert.KernelIdeal.main_v229 = RV m' c Cert.ReferenceIdeal.main_v292 := by
  unfold KV RV at ⊢
  rw [Cert.KernelIdeal.Hand.tail_down11_k m c _ (by decide), Cert.ReferenceIdeal.Hand.r_down28_k m' c _ (by decide)]
  after_results
  first | done | rfl

set_option maxHeartbeats 1000000 in
theorem syn_v238_v301 (h1 : KV m c Cert.KernelIdeal.main_v227 = RV m' c Cert.ReferenceIdeal.main_v290)
    (h2 : KV m c Cert.KernelIdeal.main_v229 = RV m' c Cert.ReferenceIdeal.main_v292) :
    KV m c Cert.KernelIdeal.main_v238 = RV m' c Cert.ReferenceIdeal.main_v301 := by
  unfold KV RV at h1 h2 ⊢
  rw [Cert.KernelIdeal.Hand.tail_down12_k m c _ (by decide), Cert.ReferenceIdeal.Hand.r_down29_k m' c _ (by decide)]
  after_results_simp
  rewrite [Cert.KernelIdeal.Hand.tail_up12_k m c Cert.KernelIdeal.main_v227 (by decide),
    Cert.KernelIdeal.Hand.tail_up12_k m c Cert.KernelIdeal.main_v229 (by decide),
    Cert.ReferenceIdeal.Hand.r_up29_k m' c Cert.ReferenceIdeal.main_v290 (by decide),
    Cert.ReferenceIdeal.Hand.r_up29_k m' c Cert.ReferenceIdeal.main_v292 (by decide)]
  rewrite [h1, h2]
  rfl

set_option maxHeartbeats 1000000 in
theorem syn_v254_v317 (h1 : KV m c Cert.KernelIdeal.main_v238 = RV m' c Cert.ReferenceIdeal.main_v301)
    (h2 : KV m c Cert.KernelIdeal.main_v226 = RV m' c Cert.ReferenceIdeal.main_v289)
    (h3 : KV m c Cert.KernelIdeal.main_v229 = RV m' c Cert.ReferenceIdeal.main_v292)
    (h4 : KV m c Cert.KernelIdeal.main_v227 = RV m' c Cert.ReferenceIdeal.main_v290) :
    KV m c Cert.KernelIdeal.main_v254 = RV m' c Cert.ReferenceIdeal.main_v317 := by
  unfold KV RV at h1 h2 h3 h4 ⊢
  rw [Cert.KernelIdeal.Hand.tail_down13_k m c _ (by decide), Cert.ReferenceIdeal.Hand.r_down30_k m' c _ (by decide)]
  after_results_simp
  rewrite [Cert.KernelIdeal.Hand.tail_up13_k m c Cert.KernelIdeal.main_v238 (by decide),
    Cert.KernelIdeal.Hand.tail_up13_k m c Cert.KernelIdeal.main_v226 (by decide),
    Cert.KernelIdeal.Hand.tail_up13_k m c Cert.KernelIdeal.main_v229 (by decide),
    Cert.KernelIdeal.Hand.tail_up13_k m c Cert.KernelIdeal.main_v227 (by decide),
    Cert.ReferenceIdeal.Hand.r_up30_k m' c Cert.ReferenceIdeal.main_v301 (by decide),
    Cert.ReferenceIdeal.Hand.r_up30_k m' c Cert.ReferenceIdeal.main_v289 (by decide),
    Cert.ReferenceIdeal.Hand.r_up30_k m' c Cert.ReferenceIdeal.main_v292 (by decide),
    Cert.ReferenceIdeal.Hand.r_up30_k m' c Cert.ReferenceIdeal.main_v290 (by decide)]
  rewrite [h1, h2, h3, h4]
  rfl

set_option maxHeartbeats 1000000 in
theorem syn_v271_v334 (h1 : KV m c Cert.KernelIdeal.main_v227 = RV m' c Cert.ReferenceIdeal.main_v290)
    (h2 : KV m c Cert.KernelIdeal.main_v254 = RV m' c Cert.ReferenceIdeal.main_v317)
    (h3 : KV m c Cert.KernelIdeal.main_v223 = RV m' c Cert.ReferenceIdeal.main_v286)
    (h4 : KV m c Cert.KernelIdeal.main_arg15 = RV m' c Cert.ReferenceIdeal.main_arg15)
    (h5 : KV m c Cert.KernelIdeal.main_v226 = RV m' c Cert.ReferenceIdeal.main_v289)
    (h6 : KV m c Cert.KernelIdeal.main_arg16 = RV m' c Cert.ReferenceIdeal.main_arg16) :
    KV m c Cert.KernelIdeal.main_v271 = RV m' c Cert.ReferenceIdeal.main_v334 := by
  unfold KV RV at h1 h2 h3 h4 h5 h6 ⊢
  rw [Cert.KernelIdeal.Hand.tail_down14_k m c _ (by decide), Cert.ReferenceIdeal.Hand.r_down31_k m' c _ (by decide)]
  after_results_simp
  rewrite [Cert.KernelIdeal.Hand.tail_up14_k m c Cert.KernelIdeal.main_v227 (by decide),
    Cert.KernelIdeal.Hand.tail_up14_k m c Cert.KernelIdeal.main_v254 (by decide),
    Cert.KernelIdeal.Hand.tail_up14_k m c Cert.KernelIdeal.main_v223 (by decide),
    Cert.KernelIdeal.Hand.tail_up14_k m c Cert.KernelIdeal.main_arg15 (by decide),
    Cert.KernelIdeal.Hand.tail_up14_k m c Cert.KernelIdeal.main_v226 (by decide),
    Cert.KernelIdeal.Hand.tail_up14_k m c Cert.KernelIdeal.main_arg16 (by decide),
    Cert.ReferenceIdeal.Hand.r_up31_k m' c Cert.ReferenceIdeal.main_v290 (by decide),
    Cert.ReferenceIdeal.Hand.r_up31_k m' c Cert.ReferenceIdeal.main_v317 (by decide),
    Cert.ReferenceIdeal.Hand.r_up31_k m' c Cert.ReferenceIdeal.main_v286 (by decide),
    Cert.ReferenceIdeal.Hand.r_up31_k m' c Cert.ReferenceIdeal.main_arg15 (by decide),
    Cert.ReferenceIdeal.Hand.r_up31_k m' c Cert.ReferenceIdeal.main_v289 (by decide),
    Cert.ReferenceIdeal.Hand.r_up31_k m' c Cert.ReferenceIdeal.main_arg16 (by decide)]
  rewrite [h1, h2, h3, h4, h5, h6]
  rfl

set_option maxHeartbeats 1000000 in
theorem syn_v272_v335 (h1 : KV m c Cert.KernelIdeal.main_v271 = RV m' c Cert.ReferenceIdeal.main_v334) :
    KV m c Cert.KernelIdeal.main_v272 = RV m' c Cert.ReferenceIdeal.main_v335 := by
  unfold KV RV at h1 ⊢
  rw [Cert.KernelIdeal.Hand.tail_down15_k m c _ (by decide), Cert.ReferenceIdeal.Hand.r_down32_k m' c _ (by decide)]
  after_results_simp
  rewrite [Cert.KernelIdeal.Hand.tail_up15_k m c Cert.KernelIdeal.main_v271 (by decide),
    Cert.ReferenceIdeal.Hand.r_up32_k m' c Cert.ReferenceIdeal.main_v334 (by decide)]
  rewrite [h1]
  rfl

set_option maxHeartbeats 1000000 in
theorem syn_v273_v336 (h1 : KV m c Cert.KernelIdeal.main_v120 = RV m' c Cert.ReferenceIdeal.main_v175)
    (h2 : KV m c Cert.KernelIdeal.main_v96 = RV m' c Cert.ReferenceIdeal.main_v183) :
    KV m c Cert.KernelIdeal.main_v273 = RV m' c Cert.ReferenceIdeal.main_v336 := by
  unfold KV RV at h1 h2 ⊢
  rw [Cert.KernelIdeal.Hand.tail_down16_k m c _ (by decide), Cert.ReferenceIdeal.Hand.r_down33_k m' c _ (by decide)]
  after_results_simp
  rewrite [Cert.KernelIdeal.Hand.tail_up16_k m c Cert.KernelIdeal.main_v120 (by decide),
    Cert.KernelIdeal.Hand.tail_up16_k m c Cert.KernelIdeal.main_v96 (by decide),
    Cert.ReferenceIdeal.Hand.r_up33_k m' c Cert.ReferenceIdeal.main_v175 (by decide),
    Cert.ReferenceIdeal.Hand.r_up33_k m' c Cert.ReferenceIdeal.main_v183 (by decide)]
  rewrite [h1, h2]
  rfl

end Cert.Bridge

end
-- ==== Proof.Bridge.SynTail.lean ====
import proofs.«401602_j3728031613303_3_alg».proof.Proof.Bridge.Base

noncomputable section

namespace Cert.Bridge

open Idealize.ShloMosaic Idealize.ShloMosaic.TcCoe Idealize.SL.Sem Idealize.ShloMosaic.StableHlo

variable {F : FTy → Type} [FloatOps F]

section Generic

theorem syn_after_append {τ : Topo} {sig : RefSig} {Val : EltTy → Type} :
    ∀ (l₁ l₂ : List (HloOp τ sig Val)) (V : Valuation τ sig Val),
      StableHlo.after (l₁ ++ l₂) V = StableHlo.after l₂ (StableHlo.after l₁ V)
  | [], _, _ => rfl
  | op :: l₁, l₂, V => by rw [List.cons_append, StableHlo.after_cons, StableHlo.after_cons, syn_after_append l₁ l₂]

theorem syn_after_take_drop {τ : Topo} {sig : RefSig} {Val : EltTy → Type} (k : Nat) (l : List (HloOp τ sig Val))
    (V : Valuation τ sig Val) : StableHlo.after l V = StableHlo.after (l.drop k) (StableHlo.after (l.take k) V) := by
  rw [← syn_after_append, List.take_append_drop]

variable (X : Valuation Cert.KernelIdeal.τ Cert.KernelIdeal.sig (Elt F))
  (Y : Valuation Cert.ReferenceIdeal.τ Cert.ReferenceIdeal.sig (Elt F))

theorem syn2_v121 :
    (StableHlo.after Cert.KernelIdeal.Hand.ktail2 X (Proc.devRef .tc Cert.KernelIdeal.main_v121) : (⟨Cert.KernelIdeal.S100, .i32⟩ : BufTy).Contents (Elt F)) =
      StableHlo.after Cert.ReferenceIdeal.Hand.rops19 Y (Proc.devRef .tc Cert.ReferenceIdeal.main_v184) := by
  after_results_simp

theorem syn2_pre_v108
    (h1 : (X (Proc.devRef .tc Cert.KernelIdeal.main_v108) : (⟨Cert.KernelIdeal.S100x100, .f32⟩ : BufTy).Contents (Elt F)) = Y (Proc.devRef .tc Cert.ReferenceIdeal.main_v168)) :
    (StableHlo.after (List.take 17 Cert.KernelIdeal.Hand.ktail2) X (Proc.devRef .tc Cert.KernelIdeal.main_v108) : (⟨Cert.KernelIdeal.S100x100, .f32⟩ : BufTy).Contents (Elt F)) =
      StableHlo.after (List.take 17 Cert.ReferenceIdeal.Hand.rops19) Y (Proc.devRef .tc Cert.ReferenceIdeal.main_v168) := by
  simp only [List.take_succ_cons, List.take_zero]
  after_results_simp
  rw [h1] <;> rfl

theorem syn2_pre_v132 :
    (StableHlo.after (List.take 17 Cert.KernelIdeal.Hand.ktail2) X (Proc.devRef .tc Cert.KernelIdeal.main_v132) : (⟨Cert.KernelIdeal.S100x1, .i32⟩ : BufTy).Contents (Elt F)) =
      StableHlo.after (List.take 17 Cert.ReferenceIdeal.Hand.rops19) Y (Proc.devRef .tc Cert.ReferenceIdeal.main_v195) := by
  simp only [List.take_succ_cons, List.take_zero]
  after_results_simp

theorem syn2_pre_v133 :
    (StableHlo.after (List.take 17 Cert.KernelIdeal.Hand.ktail2) X (Proc.devRef .tc Cert.KernelIdeal.main_v133) : (⟨Cert.KernelIdeal.S100x1, .i32⟩ : BufTy).Contents (Elt F)) =
      StableHlo.after (List.take 17 Cert.ReferenceIdeal.Hand.rops19) Y (Proc.devRef .tc Cert.ReferenceIdeal.main_v196) := by
  simp only [List.take_succ_cons, List.take_zero]
  after_results_simp

theorem syn2_post_v138
    (e1 : (X (Proc.devRef .tc Cert.KernelIdeal.main_v108) : (⟨Cert.KernelIdeal.S100x100, .f32⟩ : BufTy).Contents (Elt F)) = Y (Proc.devRef .tc Cert.ReferenceIdeal.main_v168))
    (e2 : (X (Proc.devRef .tc Cert.KernelIdeal.main_v132) : (⟨Cert.KernelIdeal.S100x1, .i32⟩ : BufTy).Contents (Elt F)) = Y (Proc.devRef .tc Cert.ReferenceIdeal.main_v195))
    (e3 : (X (Proc.devRef .tc Cert.KernelIdeal.main_v133) : (⟨Cert.KernelIdeal.S100x1, .i32⟩ : BufTy).Contents (Elt F)) = Y (Proc.devRef .tc Cert.ReferenceIdeal.main_v196)) :
    (StableHlo.after (List.drop 17 Cert.KernelIdeal.Hand.ktail2) X (Proc.devRef .tc Cert.KernelIdeal.main_v138) : (⟨Cert.KernelIdeal.S100, .f32⟩ : BufTy).Contents (Elt F)) =
      StableHlo.after (List.drop 17 Cert.ReferenceIdeal.Hand.rops19) Y (Proc.devRef .tc Cert.ReferenceIdeal.main_v201) := by
  simp only [List.drop_succ_cons, List.drop_zero]
  after_results_simp
  rw [e1, e2, e3] <;> rfl

theorem syn2_v138
    (h1 : (X (Proc.devRef .tc Cert.KernelIdeal.main_v108) : (⟨Cert.KernelIdeal.S100x100, .f32⟩ : BufTy).Contents (Elt F)) = Y (Proc.devRef .tc Cert.ReferenceIdeal.main_v168)) :
    (StableHlo.after Cert.KernelIdeal.Hand.ktail2 X (Proc.devRef .tc Cert.KernelIdeal.main_v138) : (⟨Cert.KernelIdeal.S100, .f32⟩ : BufTy).Contents (Elt F)) =
      StableHlo.after Cert.ReferenceIdeal.Hand.rops19 Y (Proc.devRef .tc Cert.ReferenceIdeal.main_v201) := by
  rw [syn_after_take_drop 17 Cert.KernelIdeal.Hand.ktail2, syn_after_take_drop 17 Cert.ReferenceIdeal.Hand.rops19]
  exact syn2_post_v138 _ _
    (syn2_pre_v108 X Y h1)
    (syn2_pre_v132 X Y)
    (syn2_pre_v133 X Y)

theorem syn3_pre_v108
    (h1 : (X (Proc.devRef .tc Cert.KernelIdeal.main_v108) : (⟨Cert.KernelIdeal.S100x100, .f32⟩ : BufTy).Contents (Elt F)) = Y (Proc.devRef .tc Cert.ReferenceIdeal.main_v168)) :
    (StableHlo.after (List.take 16 Cert.KernelIdeal.Hand.ktail3) X (Proc.devRef .tc Cert.KernelIdeal.main_v108) : (⟨Cert.KernelIdeal.S100x100, .f32⟩ : BufTy).Contents (Elt F)) =
      StableHlo.after (List.take 16 Cert.ReferenceIdeal.Hand.rops20) Y (Proc.devRef .tc Cert.ReferenceIdeal.main_v168) := by
  simp only [List.take_succ_cons, List.take_zero]
  after_results_simp
  rw [h1] <;> rfl

theorem syn3_pre_v149
    (h1 : (X (Proc.devRef .tc Cert.KernelIdeal.main_v121) : (⟨Cert.KernelIdeal.S100, .i32⟩ : BufTy).Contents (Elt F)) = Y (Proc.devRef .tc Cert.ReferenceIdeal.main_v184)) :
    (StableHlo.after (List.take 16 Cert.KernelIdeal.Hand.ktail3) X (Proc.devRef .tc Cert.KernelIdeal.main_v149) : (⟨Cert.KernelIdeal.S100x1, .i32⟩ : BufTy).Contents (Elt F)) =
      StableHlo.after (List.take 16 Cert.ReferenceIdeal.Hand.rops20) Y (Proc.devRef .tc Cert.ReferenceIdeal.main_v212) := by
  simp only [List.take_succ_cons, List.take_zero]
  after_results_simp
  rw [h1] <;> rfl

theorem syn3_pre_v150
    (h1 : (X (Proc.devRef .tc Cert.KernelIdeal.main_v121) : (⟨Cert.KernelIdeal.S100, .i32⟩ : BufTy).Contents (Elt F)) = Y (Proc.devRef .tc Cert.ReferenceIdeal.main_v184)) :
    (StableHlo.after (List.take 16 Cert.KernelIdeal.Hand.ktail3) X (Proc.devRef .tc Cert.KernelIdeal.main_v150) : (⟨Cert.KernelIdeal.S100x1, .i32⟩ : BufTy).Contents (Elt F)) =
      StableHlo.after (List.take 16 Cert.ReferenceIdeal.Hand.rops20) Y (Proc.devRef .tc Cert.ReferenceIdeal.main_v213) := by
  simp only [List.take_succ_cons, List.take_zero]
  after_results_simp
  rw [h1] <;> rfl

theorem syn3_pre_v138
    (h1 : (X (Proc.devRef .tc Cert.KernelIdeal.main_v138) : (⟨Cert.KernelIdeal.S100, .f32⟩ : BufTy).Contents (Elt F)) = Y (Proc.devRef .tc Cert.ReferenceIdeal.main_v201)) :
    (StableHlo.after (List.take 16 Cert.KernelIdeal.Hand.ktail3) X (Proc.devRef .tc Cert.KernelIdeal.main_v138) : (⟨Cert.KernelIdeal.S100, .f32⟩ : BufTy).Contents (Elt F)) =
      StableHlo.after (List.take 16 Cert.ReferenceIdeal.Hand.rops20) Y (Proc.devRef .tc Cert.ReferenceIdeal.main_v201) := by
  simp only [List.take_succ_cons, List.take_zero]
  after_results_simp
  rw [h1] <;> rfl

theorem syn3_post_v152
    (e1 : (X (Proc.devRef .tc Cert.KernelIdeal.main_v108) : (⟨Cert.KernelIdeal.S100x100, .f32⟩ : BufTy).Contents (Elt F)) = Y (Proc.devRef .tc Cert.ReferenceIdeal.main_v168))
    (e2 : (X (Proc.devRef .tc Cert.KernelIdeal.main_v149) : (⟨Cert.KernelIdeal.S100x1, .i32⟩ : BufTy).Contents (Elt F)) = Y (Proc.devRef .tc Cert.ReferenceIdeal.main_v212))
    (e3 : (X (Proc.devRef .tc Cert.KernelIdeal.main_v150) : (⟨Cert.KernelIdeal.S100x1, .i32⟩ : BufTy).Contents (Elt F)) = Y (Proc.devRef .tc Cert.ReferenceIdeal.main_v213))
    (e4 : (X (Proc.devRef .tc Cert.KernelIdeal.main_v138) : (⟨Cert.KernelIdeal.S100, .f32⟩ : BufTy).Contents (Elt F)) = Y (Proc.devRef .tc Cert.ReferenceIdeal.main_v201)) :
    (StableHlo.after (List.drop 16 Cert.KernelIdeal.Hand.ktail3) X (Proc.devRef .tc Cert.KernelIdeal.main_v152) : (⟨Cert.KernelIdeal.S100x100, .f32⟩ : BufTy).Contents (Elt F)) =
      StableHlo.after (List.drop 16 Cert.ReferenceIdeal.Hand.rops20) Y (Proc.devRef .tc Cert.ReferenceIdeal.main_v215) := by
  simp only [List.drop_succ_cons, List.drop_zero]
  after_results_simp
  rw [e1, e2, e3, e4] <;> rfl

theorem syn3_v152
    (h1 : (X (Proc.devRef .tc Cert.KernelIdeal.main_v108) : (⟨Cert.KernelIdeal.S100x100, .f32⟩ : BufTy).Contents (Elt F)) = Y (Proc.devRef .tc Cert.ReferenceIdeal.main_v168))
    (h2 : (X (Proc.devRef .tc Cert.KernelIdeal.main_v121) : (⟨Cert.KernelIdeal.S100, .i32⟩ : BufTy).Contents (Elt F)) = Y (Proc.devRef .tc Cert.ReferenceIdeal.main_v184))
    (h3 : (X (Proc.devRef .tc Cert.KernelIdeal.main_v138) : (⟨Cert.KernelIdeal.S100, .f32⟩ : BufTy).Contents (Elt F)) = Y (Proc.devRef .tc Cert.ReferenceIdeal.main_v201)) :
    (StableHlo.after Cert.KernelIdeal.Hand.ktail3 X (Proc.devRef .tc Cert.KernelIdeal.main_v152) : (⟨Cert.KernelIdeal.S100x100, .f32⟩ : BufTy).Contents (Elt F)) =
      StableHlo.after Cert.ReferenceIdeal.Hand.rops20 Y (Proc.devRef .tc Cert.ReferenceIdeal.main_v215) := by
  rw [syn_after_take_drop 16 Cert.KernelIdeal.Hand.ktail3, syn_after_take_drop 16 Cert.ReferenceIdeal.Hand.rops20]
  exact syn3_post_v152 _ _
    (syn3_pre_v108 X Y h1)
    (syn3_pre_v149 X Y h2)
    (syn3_pre_v150 X Y h2)
    (syn3_pre_v138 X Y h3)

theorem syn4_v159
    (h1 : (X (Proc.devRef .tc Cert.KernelIdeal.main_v152) : (⟨Cert.KernelIdeal.S100x100, .f32⟩ : BufTy).Contents (Elt F)) = Y (Proc.devRef .tc Cert.ReferenceIdeal.main_v215)) :
    (StableHlo.after Cert.KernelIdeal.Hand.ktail4 X (Proc.devRef .tc Cert.KernelIdeal.main_v159) : (⟨Cert.KernelIdeal.S100, .f32⟩ : BufTy).Contents (Elt F)) =
      StableHlo.after Cert.ReferenceIdeal.Hand.rops21 Y (Proc.devRef .tc Cert.ReferenceIdeal.main_v222) := by
  after_results_simp
  rw [h1] <;> rfl

theorem syn5_v171
    (h1 : (X (Proc.devRef .tc Cert.KernelIdeal.main_v159) : (⟨Cert.KernelIdeal.S100, .f32⟩ : BufTy).Contents (Elt F)) = Y (Proc.devRef .tc Cert.ReferenceIdeal.main_v222))
    (h2 : (X (Proc.devRef .tc Cert.KernelIdeal.main_v152) : (⟨Cert.KernelIdeal.S100x100, .f32⟩ : BufTy).Contents (Elt F)) = Y (Proc.devRef .tc Cert.ReferenceIdeal.main_v215))
    (h3 : (X (Proc.devRef .tc Cert.KernelIdeal.main_v109) : (⟨Cert.KernelIdeal.S100x512, .f32⟩ : BufTy).Contents (Elt F)) = Y (Proc.devRef .tc Cert.ReferenceIdeal.main_v165))
    (h4 : (X (Proc.devRef .tc Cert.KernelIdeal.main_arg11) : (⟨Cert.KernelIdeal.S512x16, .f32⟩ : BufTy).Contents (Elt F)) = Y (Proc.devRef .tc Cert.ReferenceIdeal.main_arg11))
    (h5 : (X (Proc.devRef .tc Cert.KernelIdeal.main_arg12) : (⟨Cert.KernelIdeal.S16, .f32⟩ : BufTy).Contents (Elt F)) = Y (Proc.devRef .tc Cert.ReferenceIdeal.main_arg12)) :
    (StableHlo.after Cert.KernelIdeal.Hand.ktail5 X (Proc.devRef .tc Cert.KernelIdeal.main_v171) : (⟨Cert.KernelIdeal.S100x16, .f32⟩ : BufTy).Contents (Elt F)) =
      StableHlo.after Cert.ReferenceIdeal.Hand.rops22 Y (Proc.devRef .tc Cert.ReferenceIdeal.main_v234) := by
  after_results_simp
  rw [h1, h2, h3, h4, h5] <;> rfl

theorem syn6_v172 :
    (StableHlo.after Cert.KernelIdeal.Hand.ktail6 X (Proc.devRef .tc Cert.KernelIdeal.main_v172) : (⟨Cert.KernelIdeal.S100, .i32⟩ : BufTy).Contents (Elt F)) =
      StableHlo.after Cert.ReferenceIdeal.Hand.rops23 Y (Proc.devRef .tc Cert.ReferenceIdeal.main_v235) := by
  after_results_simp

theorem syn6_pre_v108
    (h1 : (X (Proc.devRef .tc Cert.KernelIdeal.main_v108) : (⟨Cert.KernelIdeal.S100x100, .f32⟩ : BufTy).Contents (Elt F)) = Y (Proc.devRef .tc Cert.ReferenceIdeal.main_v168)) :
    (StableHlo.after (List.take 17 Cert.KernelIdeal.Hand.ktail6) X (Proc.devRef .tc Cert.KernelIdeal.main_v108) : (⟨Cert.KernelIdeal.S100x100, .f32⟩ : BufTy).Contents (Elt F)) =
      StableHlo.after (List.take 17 Cert.ReferenceIdeal.Hand.rops23) Y (Proc.devRef .tc Cert.ReferenceIdeal.main_v168) := by
  simp only [List.take_succ_cons, List.take_zero]
  after_results_simp
  rw [h1] <;> rfl

theorem syn6_pre_v183 :
    (StableHlo.after (List.take 17 Cert.KernelIdeal.Hand.ktail6) X (Proc.devRef .tc Cert.KernelIdeal.main_v183) : (⟨Cert.KernelIdeal.S100x1, .i32⟩ : BufTy).Contents (Elt F)) =
      StableHlo.after (List.take 17 Cert.ReferenceIdeal.Hand.rops23) Y (Proc.devRef .tc Cert.ReferenceIdeal.main_v246) := by
  simp only [List.take_succ_cons, List.take_zero]
  after_results_simp

theorem syn6_pre_v184 :
    (StableHlo.after (List.take 17 Cert.KernelIdeal.Hand.ktail6) X (Proc.devRef .tc Cert.KernelIdeal.main_v184) : (⟨Cert.KernelIdeal.S100x1, .i32⟩ : BufTy).Contents (Elt F)) =
      StableHlo.after (List.take 17 Cert.ReferenceIdeal.Hand.rops23) Y (Proc.devRef .tc Cert.ReferenceIdeal.main_v247) := by
  simp only [List.take_succ_cons, List.take_zero]
  after_results_simp

theorem syn6_post_v189
    (e1 : (X (Proc.devRef .tc Cert.KernelIdeal.main_v108) : (⟨Cert.KernelIdeal.S100x100, .f32⟩ : BufTy).Contents (Elt F)) = Y (Proc.devRef .tc Cert.ReferenceIdeal.main_v168))
    (e2 : (X (Proc.devRef .tc Cert.KernelIdeal.main_v183) : (⟨Cert.KernelIdeal.S100x1, .i32⟩ : BufTy).Contents (Elt F)) = Y (Proc.devRef .tc Cert.ReferenceIdeal.main_v246))
    (e3 : (X (Proc.devRef .tc Cert.KernelIdeal.main_v184) : (⟨Cert.KernelIdeal.S100x1, .i32⟩ : BufTy).Contents (Elt F)) = Y (Proc.devRef .tc Cert.ReferenceIdeal.main_v247)) :
    (StableHlo.after (List.drop 17 Cert.KernelIdeal.Hand.ktail6) X (Proc.devRef .tc Cert.KernelIdeal.main_v189) : (⟨Cert.KernelIdeal.S100, .f32⟩ : BufTy).Contents (Elt F)) =
      StableHlo.after (List.drop 17 Cert.ReferenceIdeal.Hand.rops23) Y (Proc.devRef .tc Cert.ReferenceIdeal.main_v252) := by
  simp only [List.drop_succ_cons, List.drop_zero]
  after_results_simp
  rw [e1, e2, e3] <;> rfl

theorem syn6_v189
    (h1 : (X (Proc.devRef .tc Cert.KernelIdeal.main_v108) : (⟨Cert.KernelIdeal.S100x100, .f32⟩ : BufTy).Contents (Elt F)) = Y (Proc.devRef .tc Cert.ReferenceIdeal.main_v168)) :
    (StableHlo.after Cert.KernelIdeal.Hand.ktail6 X (Proc.devRef .tc Cert.KernelIdeal.main_v189) : (⟨Cert.KernelIdeal.S100, .f32⟩ : BufTy).Contents (Elt F)) =
      StableHlo.after Cert.ReferenceIdeal.Hand.rops23 Y (Proc.devRef .tc Cert.ReferenceIdeal.main_v252) := by
  rw [syn_after_take_drop 17 Cert.KernelIdeal.Hand.ktail6, syn_after_take_drop 17 Cert.ReferenceIdeal.Hand.rops23]
  exact syn6_post_v189 _ _
    (syn6_pre_v108 X Y h1)
    (syn6_pre_v183 X Y)
    (syn6_pre_v184 X Y)

theorem syn7_pre_v108
    (h1 : (X (Proc.devRef .tc Cert.KernelIdeal.main_v108) : (⟨Cert.KernelIdeal.S100x100, .f32⟩ : BufTy).Contents (Elt F)) = Y (Proc.devRef .tc Cert.ReferenceIdeal.main_v168)) :
    (StableHlo.after (List.take 16 Cert.KernelIdeal.Hand.ktail7) X (Proc.devRef .tc Cert.KernelIdeal.main_v108) : (⟨Cert.KernelIdeal.S100x100, .f32⟩ : BufTy).Contents (Elt F)) =
      StableHlo.after (List.take 16 Cert.ReferenceIdeal.Hand.rops24) Y (Proc.devRef .tc Cert.ReferenceIdeal.main_v168) := by
  simp only [List.take_succ_cons, List.take_zero]
  after_results_simp
  rw [h1] <;> rfl

theorem syn7_pre_v200
    (h1 : (X (Proc.devRef .tc Cert.KernelIdeal.main_v172) : (⟨Cert.KernelIdeal.S100, .i32⟩ : BufTy).Contents (Elt F)) = Y (Proc.devRef .tc Cert.ReferenceIdeal.main_v235)) :
    (StableHlo.after (List.take 16 Cert.KernelIdeal.Hand.ktail7) X (Proc.devRef .tc Cert.KernelIdeal.main_v200) : (⟨Cert.KernelIdeal.S100x1, .i32⟩ : BufTy).Contents (Elt F)) =
      StableHlo.after (List.take 16 Cert.ReferenceIdeal.Hand.rops24) Y (Proc.devRef .tc Cert.ReferenceIdeal.main_v263) := by
  simp only [List.take_succ_cons, List.take_zero]
  after_results_simp
  rw [h1] <;> rfl

theorem syn7_pre_v201
    (h1 : (X (Proc.devRef .tc Cert.KernelIdeal.main_v172) : (⟨Cert.KernelIdeal.S100, .i32⟩ : BufTy).Contents (Elt F)) = Y (Proc.devRef .tc Cert.ReferenceIdeal.main_v235)) :
    (StableHlo.after (List.take 16 Cert.KernelIdeal.Hand.ktail7) X (Proc.devRef .tc Cert.KernelIdeal.main_v201) : (⟨Cert.KernelIdeal.S100x1, .i32⟩ : BufTy).Contents (Elt F)) =
      StableHlo.after (List.take 16 Cert.ReferenceIdeal.Hand.rops24) Y (Proc.devRef .tc Cert.ReferenceIdeal.main_v264) := by
  simp only [List.take_succ_cons, List.take_zero]
  after_results_simp
  rw [h1] <;> rfl

theorem syn7_pre_v189
    (h1 : (X (Proc.devRef .tc Cert.KernelIdeal.main_v189) : (⟨Cert.KernelIdeal.S100, .f32⟩ : BufTy).Contents (Elt F)) = Y (Proc.devRef .tc Cert.ReferenceIdeal.main_v252)) :
    (StableHlo.after (List.take 16 Cert.KernelIdeal.Hand.ktail7) X (Proc.devRef .tc Cert.KernelIdeal.main_v189) : (⟨Cert.KernelIdeal.S100, .f32⟩ : BufTy).Contents (Elt F)) =
      StableHlo.after (List.take 16 Cert.ReferenceIdeal.Hand.rops24) Y (Proc.devRef .tc Cert.ReferenceIdeal.main_v252) := by
  simp only [List.take_succ_cons, List.take_zero]
  after_results_simp
  rw [h1] <;> rfl

theorem syn7_post_v203
    (e1 : (X (Proc.devRef .tc Cert.KernelIdeal.main_v108) : (⟨Cert.KernelIdeal.S100x100, .f32⟩ : BufTy).Contents (Elt F)) = Y (Proc.devRef .tc Cert.ReferenceIdeal.main_v168))
    (e2 : (X (Proc.devRef .tc Cert.KernelIdeal.main_v200) : (⟨Cert.KernelIdeal.S100x1, .i32⟩ : BufTy).Contents (Elt F)) = Y (Proc.devRef .tc Cert.ReferenceIdeal.main_v263))
    (e3 : (X (Proc.devRef .tc Cert.KernelIdeal.main_v201) : (⟨Cert.KernelIdeal.S100x1, .i32⟩ : BufTy).Contents (Elt F)) = Y (Proc.devRef .tc Cert.ReferenceIdeal.main_v264))
    (e4 : (X (Proc.devRef .tc Cert.KernelIdeal.main_v189) : (⟨Cert.KernelIdeal.S100, .f32⟩ : BufTy).Contents (Elt F)) = Y (Proc.devRef .tc Cert.ReferenceIdeal.main_v252)) :
    (StableHlo.after (List.drop 16 Cert.KernelIdeal.Hand.ktail7) X (Proc.devRef .tc Cert.KernelIdeal.main_v203) : (⟨Cert.KernelIdeal.S100x100, .f32⟩ : BufTy).Contents (Elt F)) =
      StableHlo.after (List.drop 16 Cert.ReferenceIdeal.Hand.rops24) Y (Proc.devRef .tc Cert.ReferenceIdeal.main_v266) := by
  simp only [List.drop_succ_cons, List.drop_zero]
  after_results_simp
  rw [e1, e2, e3, e4] <;> rfl

theorem syn7_v203
    (h1 : (X (Proc.devRef .tc Cert.KernelIdeal.main_v108) : (⟨Cert.KernelIdeal.S100x100, .f32⟩ : BufTy).Contents (Elt F)) = Y (Proc.devRef .tc Cert.ReferenceIdeal.main_v168))
    (h2 : (X (Proc.devRef .tc Cert.KernelIdeal.main_v172) : (⟨Cert.KernelIdeal.S100, .i32⟩ : BufTy).Contents (Elt F)) = Y (Proc.devRef .tc Cert.ReferenceIdeal.main_v235))
    (h3 : (X (Proc.devRef .tc Cert.KernelIdeal.main_v189) : (⟨Cert.KernelIdeal.S100, .f32⟩ : BufTy).Contents (Elt F)) = Y (Proc.devRef .tc Cert.ReferenceIdeal.main_v252)) :
    (StableHlo.after Cert.KernelIdeal.Hand.ktail7 X (Proc.devRef .tc Cert.KernelIdeal.main_v203) : (⟨Cert.KernelIdeal.S100x100, .f32⟩ : BufTy).Contents (Elt F)) =
      StableHlo.after Cert.ReferenceIdeal.Hand.rops24 Y (Proc.devRef .tc Cert.ReferenceIdeal.main_v266) := by
  rw [syn_after_take_drop 16 Cert.KernelIdeal.Hand.ktail7, syn_after_take_drop 16 Cert.ReferenceIdeal.Hand.rops24]
  exact syn7_post_v203 _ _
    (syn7_pre_v108 X Y h1)
    (syn7_pre_v200 X Y h2)
    (syn7_pre_v201 X Y h2)
    (syn7_pre_v189 X Y h3)

theorem syn8_v210
    (h1 : (X (Proc.devRef .tc Cert.KernelIdeal.main_v203) : (⟨Cert.KernelIdeal.S100x100, .f32⟩ : BufTy).Contents (Elt F)) = Y (Proc.devRef .tc Cert.ReferenceIdeal.main_v266)) :
    (StableHlo.after Cert.KernelIdeal.Hand.ktail8 X (Proc.devRef .tc Cert.KernelIdeal.main_v210) : (⟨Cert.KernelIdeal.S100, .f32⟩ : BufTy).Contents (Elt F)) =
      StableHlo.after Cert.ReferenceIdeal.Hand.rops25 Y (Proc.devRef .tc Cert.ReferenceIdeal.main_v273) := by
  after_results_simp
  rw [h1] <;> rfl

theorem syn9_v221
    (h1 : (X (Proc.devRef .tc Cert.KernelIdeal.main_v210) : (⟨Cert.KernelIdeal.S100, .f32⟩ : BufTy).Contents (Elt F)) = Y (Proc.devRef .tc Cert.ReferenceIdeal.main_v273))
    (h2 : (X (Proc.devRef .tc Cert.KernelIdeal.main_v203) : (⟨Cert.KernelIdeal.S100x100, .f32⟩ : BufTy).Contents (Elt F)) = Y (Proc.devRef .tc Cert.ReferenceIdeal.main_v266))
    (h3 : (X (Proc.devRef .tc Cert.KernelIdeal.main_v171) : (⟨Cert.KernelIdeal.S100x16, .f32⟩ : BufTy).Contents (Elt F)) = Y (Proc.devRef .tc Cert.ReferenceIdeal.main_v234))
    (h4 : (X (Proc.devRef .tc Cert.KernelIdeal.main_arg13) : (⟨Cert.KernelIdeal.S16x100, .f32⟩ : BufTy).Contents (Elt F)) = Y (Proc.devRef .tc Cert.ReferenceIdeal.main_arg13))
    (h5 : (X (Proc.devRef .tc Cert.KernelIdeal.main_arg14) : (⟨Cert.KernelIdeal.S100, .f32⟩ : BufTy).Contents (Elt F)) = Y (Proc.devRef .tc Cert.ReferenceIdeal.main_arg14)) :
    (StableHlo.after Cert.KernelIdeal.Hand.ktail9 X (Proc.devRef .tc Cert.KernelIdeal.main_v221) : (⟨Cert.KernelIdeal.S100x100, .f32⟩ : BufTy).Contents (Elt F)) =
      StableHlo.after Cert.ReferenceIdeal.Hand.rops26 Y (Proc.devRef .tc Cert.ReferenceIdeal.main_v284) := by
  after_results_simp
  rw [h1, h2, h3, h4, h5] <;> rfl

theorem syn10_pre_v73
    (h1 : (X (Proc.devRef .tc Cert.KernelIdeal.main_v73) : (⟨Cert.KernelIdeal.S8192x10, .f32⟩ : BufTy).Contents (Elt F)) = Y (Proc.devRef .tc Cert.ReferenceIdeal.main_v98)) :
    (StableHlo.after (List.take 1 Cert.KernelIdeal.Hand.ktail10) X (Proc.devRef .tc Cert.KernelIdeal.main_v73) : (⟨Cert.KernelIdeal.S8192x10, .f32⟩ : BufTy).Contents (Elt F)) =
      StableHlo.after (List.take 1 Cert.ReferenceIdeal.Hand.rops27) Y (Proc.devRef .tc Cert.ReferenceIdeal.main_v98) := by
  simp only [List.take_succ_cons, List.take_zero]
  after_results_simp
  rw [h1] <;> rfl

theorem syn10_pre_v222
    (h1 : (X (Proc.devRef .tc Cert.KernelIdeal.main_v56) : (⟨Cert.KernelIdeal.S8192x100, .f32⟩ : BufTy).Contents (Elt F)) = Y (Proc.devRef .tc Cert.ReferenceIdeal.main_v146))
    (h2 : (X (Proc.devRef .tc Cert.KernelIdeal.main_v221) : (⟨Cert.KernelIdeal.S100x100, .f32⟩ : BufTy).Contents (Elt F)) = Y (Proc.devRef .tc Cert.ReferenceIdeal.main_v284)) :
    (StableHlo.after (List.take 1 Cert.KernelIdeal.Hand.ktail10) X (Proc.devRef .tc Cert.KernelIdeal.main_v222) : (⟨Cert.KernelIdeal.S8192x100, .f32⟩ : BufTy).Contents (Elt F)) =
      StableHlo.after (List.take 1 Cert.ReferenceIdeal.Hand.rops27) Y (Proc.devRef .tc Cert.ReferenceIdeal.main_v285) := by
  simp only [List.take_succ_cons, List.take_zero]
  after_results_simp
  rw [h1, h2] <;> rfl

theorem syn10_post_v223
    (e1 : (X (Proc.devRef .tc Cert.KernelIdeal.main_v73) : (⟨Cert.KernelIdeal.S8192x10, .f32⟩ : BufTy).Contents (Elt F)) = Y (Proc.devRef .tc Cert.ReferenceIdeal.main_v98))
    (e2 : (X (Proc.devRef .tc Cert.KernelIdeal.main_v222) : (⟨Cert.KernelIdeal.S8192x100, .f32⟩ : BufTy).Contents (Elt F)) = Y (Proc.devRef .tc Cert.ReferenceIdeal.main_v285)) :
    (StableHlo.after (List.drop 1 Cert.KernelIdeal.Hand.ktail10) X (Proc.devRef .tc Cert.KernelIdeal.main_v223) : (⟨Cert.KernelIdeal.S8192x110, .f32⟩ : BufTy).Contents (Elt F)) =
      StableHlo.after (List.drop 1 Cert.ReferenceIdeal.Hand.rops27) Y (Proc.devRef .tc Cert.ReferenceIdeal.main_v286) := by
  simp only [List.drop_succ_cons, List.drop_zero]
  after_results_simp
  rw [e1, e2] <;> rfl

theorem syn10_v223
    (h1 : (X (Proc.devRef .tc Cert.KernelIdeal.main_v73) : (⟨Cert.KernelIdeal.S8192x10, .f32⟩ : BufTy).Contents (Elt F)) = Y (Proc.devRef .tc Cert.ReferenceIdeal.main_v98))
    (h2 : (X (Proc.devRef .tc Cert.KernelIdeal.main_v56) : (⟨Cert.KernelIdeal.S8192x100, .f32⟩ : BufTy).Contents (Elt F)) = Y (Proc.devRef .tc Cert.ReferenceIdeal.main_v146))
    (h3 : (X (Proc.devRef .tc Cert.KernelIdeal.main_v221) : (⟨Cert.KernelIdeal.S100x100, .f32⟩ : BufTy).Contents (Elt F)) = Y (Proc.devRef .tc Cert.ReferenceIdeal.main_v284)) :
    (StableHlo.after Cert.KernelIdeal.Hand.ktail10 X (Proc.devRef .tc Cert.KernelIdeal.main_v223) : (⟨Cert.KernelIdeal.S8192x110, .f32⟩ : BufTy).Contents (Elt F)) =
      StableHlo.after Cert.ReferenceIdeal.Hand.rops27 Y (Proc.devRef .tc Cert.ReferenceIdeal.main_v286) := by
  rw [syn_after_take_drop 1 Cert.KernelIdeal.Hand.ktail10, syn_after_take_drop 1 Cert.ReferenceIdeal.Hand.rops27]
  exact syn10_post_v223 _ _
    (syn10_pre_v73 X Y h1)
    (syn10_pre_v222 X Y h2 h3)

end Generic

variable (m : KMem F) (m' : RMem F) (c : Dev Cert.KernelIdeal.nD)

theorem syn_tail2_v121 :
    (KV m c Cert.KernelIdeal.main_v121 : (⟨Cert.KernelIdeal.S100, .i32⟩ : BufTy).Contents (Elt F)) = RV m' c Cert.ReferenceIdeal.main_v184 := by
  unfold KV RV
  rw [Cert.KernelIdeal.Hand.tail_down2_k m c _ (by decide), Cert.ReferenceIdeal.Hand.r_down19_k m' c _ (by decide)]
  exact syn2_v121 _ _

theorem syn_tail2_v138
    (h1 : (KV m c Cert.KernelIdeal.main_v108 : (⟨Cert.KernelIdeal.S100x100, .f32⟩ : BufTy).Contents (Elt F)) = RV m' c Cert.ReferenceIdeal.main_v168) :
    (KV m c Cert.KernelIdeal.main_v138 : (⟨Cert.KernelIdeal.S100, .f32⟩ : BufTy).Contents (Elt F)) = RV m' c Cert.ReferenceIdeal.main_v201 := by
  unfold KV RV
  rw [Cert.KernelIdeal.Hand.tail_down2_k m c _ (by decide), Cert.ReferenceIdeal.Hand.r_down19_k m' c _ (by decide)]
  refine syn2_v138 _ _ ?_
  · rw [Cert.KernelIdeal.Hand.tail_up2_k m c _ (by decide), Cert.ReferenceIdeal.Hand.r_up19_k m' c _ (by decide)]; exact h1

theorem syn_tail3_v152
    (h1 : (KV m c Cert.KernelIdeal.main_v121 : (⟨Cert.KernelIdeal.S100, .i32⟩ : BufTy).Contents (Elt F)) = RV m' c Cert.ReferenceIdeal.main_v184)
    (h2 : (KV m c Cert.KernelIdeal.main_v108 : (⟨Cert.KernelIdeal.S100x100, .f32⟩ : BufTy).Contents (Elt F)) = RV m' c Cert.ReferenceIdeal.main_v168)
    (h3 : (KV m c Cert.KernelIdeal.main_v138 : (⟨Cert.KernelIdeal.S100, .f32⟩ : BufTy).Contents (Elt F)) = RV m' c Cert.ReferenceIdeal.main_v201) :
    (KV m c Cert.KernelIdeal.main_v152 : (⟨Cert.KernelIdeal.S100x100, .f32⟩ : BufTy).Contents (Elt F)) = RV m' c Cert.ReferenceIdeal.main_v215 := by
  unfold KV RV
  rw [Cert.KernelIdeal.Hand.tail_down3_k m c _ (by decide), Cert.ReferenceIdeal.Hand.r_down20_k m' c _ (by decide)]
  refine syn3_v152 _ _ ?_ ?_ ?_
  · rw [Cert.KernelIdeal.Hand.tail_up3_k m c _ (by decide), Cert.ReferenceIdeal.Hand.r_up20_k m' c _ (by decide)]; exact h2
  · rw [Cert.KernelIdeal.Hand.tail_up3_k m c _ (by decide), Cert.ReferenceIdeal.Hand.r_up20_k m' c _ (by decide)]; exact h1
  · rw [Cert.KernelIdeal.Hand.tail_up3_k m c _ (by decide), Cert.ReferenceIdeal.Hand.r_up20_k m' c _ (by decide)]; exact h3

theorem syn_tail4_v159
    (h1 : (KV m c Cert.KernelIdeal.main_v152 : (⟨Cert.KernelIdeal.S100x100, .f32⟩ : BufTy).Contents (Elt F)) = RV m' c Cert.ReferenceIdeal.main_v215) :
    (KV m c Cert.KernelIdeal.main_v159 : (⟨Cert.KernelIdeal.S100, .f32⟩ : BufTy).Contents (Elt F)) = RV m' c Cert.ReferenceIdeal.main_v222 := by
  unfold KV RV
  rw [Cert.KernelIdeal.Hand.tail_down4_k m c _ (by decide), Cert.ReferenceIdeal.Hand.r_down21_k m' c _ (by decide)]
  refine syn4_v159 _ _ ?_
  · rw [Cert.KernelIdeal.Hand.tail_up4_k m c _ (by decide), Cert.ReferenceIdeal.Hand.r_up21_k m' c _ (by decide)]; exact h1

theorem syn_tail5_v171
    (h1 : (KV m c Cert.KernelIdeal.main_v159 : (⟨Cert.KernelIdeal.S100, .f32⟩ : BufTy).Contents (Elt F)) = RV m' c Cert.ReferenceIdeal.main_v222)
    (h2 : (KV m c Cert.KernelIdeal.main_v152 : (⟨Cert.KernelIdeal.S100x100, .f32⟩ : BufTy).Contents (Elt F)) = RV m' c Cert.ReferenceIdeal.main_v215)
    (h3 : (KV m c Cert.KernelIdeal.main_v109 : (⟨Cert.KernelIdeal.S100x512, .f32⟩ : BufTy).Contents (Elt F)) = RV m' c Cert.ReferenceIdeal.main_v165)
    (h4 : (KV m c Cert.KernelIdeal.main_arg11 : (⟨Cert.KernelIdeal.S512x16, .f32⟩ : BufTy).Contents (Elt F)) = RV m' c Cert.ReferenceIdeal.main_arg11)
    (h5 : (KV m c Cert.KernelIdeal.main_arg12 : (⟨Cert.KernelIdeal.S16, .f32⟩ : BufTy).Contents (Elt F)) = RV m' c Cert.ReferenceIdeal.main_arg12) :
    (KV m c Cert.KernelIdeal.main_v171 : (⟨Cert.KernelIdeal.S100x16, .f32⟩ : BufTy).Contents (Elt F)) = RV m' c Cert.ReferenceIdeal.main_v234 := by
  unfold KV RV
  rw [Cert.KernelIdeal.Hand.tail_down5_k m c _ (by decide), Cert.ReferenceIdeal.Hand.r_down22_k m' c _ (by decide)]
  refine syn5_v171 _ _ ?_ ?_ ?_ ?_ ?_
  · rw [Cert.KernelIdeal.Hand.tail_up5_k m c _ (by decide), Cert.ReferenceIdeal.Hand.r_up22_k m' c _ (by decide)]; exact h1
  · rw [Cert.KernelIdeal.Hand.tail_up5_k m c _ (by decide), Cert.ReferenceIdeal.Hand.r_up22_k m' c _ (by decide)]; exact h2
  · rw [Cert.KernelIdeal.Hand.tail_up5_k m c _ (by decide), Cert.ReferenceIdeal.Hand.r_up22_k m' c _ (by decide)]; exact h3
  · rw [Cert.KernelIdeal.Hand.tail_up5_k m c _ (by decide), Cert.ReferenceIdeal.Hand.r_up22_k m' c _ (by decide)]; exact h4
  · rw [Cert.KernelIdeal.Hand.tail_up5_k m c _ (by decide), Cert.ReferenceIdeal.Hand.r_up22_k m' c _ (by decide)]; exact h5

theorem syn_tail6_v172 :
    (KV m c Cert.KernelIdeal.main_v172 : (⟨Cert.KernelIdeal.S100, .i32⟩ : BufTy).Contents (Elt F)) = RV m' c Cert.ReferenceIdeal.main_v235 := by
  unfold KV RV
  rw [Cert.KernelIdeal.Hand.tail_down6_k m c _ (by decide), Cert.ReferenceIdeal.Hand.r_down23_k m' c _ (by decide)]
  exact syn6_v172 _ _

theorem syn_tail6_v189
    (h1 : (KV m c Cert.KernelIdeal.main_v108 : (⟨Cert.KernelIdeal.S100x100, .f32⟩ : BufTy).Contents (Elt F)) = RV m' c Cert.ReferenceIdeal.main_v168) :
    (KV m c Cert.KernelIdeal.main_v189 : (⟨Cert.KernelIdeal.S100, .f32⟩ : BufTy).Contents (Elt F)) = RV m' c Cert.ReferenceIdeal.main_v252 := by
  unfold KV RV
  rw [Cert.KernelIdeal.Hand.tail_down6_k m c _ (by decide), Cert.ReferenceIdeal.Hand.r_down23_k m' c _ (by decide)]
  refine syn6_v189 _ _ ?_
  · rw [Cert.KernelIdeal.Hand.tail_up6_k m c _ (by decide), Cert.ReferenceIdeal.Hand.r_up23_k m' c _ (by decide)]; exact h1

theorem syn_tail7_v203
    (h1 : (KV m c Cert.KernelIdeal.main_v172 : (⟨Cert.KernelIdeal.S100, .i32⟩ : BufTy).Contents (Elt F)) = RV m' c Cert.ReferenceIdeal.main_v235)
    (h2 : (KV m c Cert.KernelIdeal.main_v108 : (⟨Cert.KernelIdeal.S100x100, .f32⟩ : BufTy).Contents (Elt F)) = RV m' c Cert.ReferenceIdeal.main_v168)
    (h3 : (KV m c Cert.KernelIdeal.main_v189 : (⟨Cert.KernelIdeal.S100, .f32⟩ : BufTy).Contents (Elt F)) = RV m' c Cert.ReferenceIdeal.main_v252) :
    (KV m c Cert.KernelIdeal.main_v203 : (⟨Cert.KernelIdeal.S100x100, .f32⟩ : BufTy).Contents (Elt F)) = RV m' c Cert.ReferenceIdeal.main_v266 := by
  unfold KV RV
  rw [Cert.KernelIdeal.Hand.tail_down7_k m c _ (by decide), Cert.ReferenceIdeal.Hand.r_down24_k m' c _ (by decide)]
  refine syn7_v203 _ _ ?_ ?_ ?_
  · rw [Cert.KernelIdeal.Hand.tail_up7_k m c _ (by decide), Cert.ReferenceIdeal.Hand.r_up24_k m' c _ (by decide)]; exact h2
  · rw [Cert.KernelIdeal.Hand.tail_up7_k m c _ (by decide), Cert.ReferenceIdeal.Hand.r_up24_k m' c _ (by decide)]; exact h1
  · rw [Cert.KernelIdeal.Hand.tail_up7_k m c _ (by decide), Cert.ReferenceIdeal.Hand.r_up24_k m' c _ (by decide)]; exact h3

theorem syn_tail8_v210
    (h1 : (KV m c Cert.KernelIdeal.main_v203 : (⟨Cert.KernelIdeal.S100x100, .f32⟩ : BufTy).Contents (Elt F)) = RV m' c Cert.ReferenceIdeal.main_v266) :
    (KV m c Cert.KernelIdeal.main_v210 : (⟨Cert.KernelIdeal.S100, .f32⟩ : BufTy).Contents (Elt F)) = RV m' c Cert.ReferenceIdeal.main_v273 := by
  unfold KV RV
  rw [Cert.KernelIdeal.Hand.tail_down8_k m c _ (by decide), Cert.ReferenceIdeal.Hand.r_down25_k m' c _ (by decide)]
  refine syn8_v210 _ _ ?_
  · rw [Cert.KernelIdeal.Hand.tail_up8_k m c _ (by decide), Cert.ReferenceIdeal.Hand.r_up25_k m' c _ (by decide)]; exact h1

theorem syn_tail9_v221
    (h1 : (KV m c Cert.KernelIdeal.main_v210 : (⟨Cert.KernelIdeal.S100, .f32⟩ : BufTy).Contents (Elt F)) = RV m' c Cert.ReferenceIdeal.main_v273)
    (h2 : (KV m c Cert.KernelIdeal.main_v203 : (⟨Cert.KernelIdeal.S100x100, .f32⟩ : BufTy).Contents (Elt F)) = RV m' c Cert.ReferenceIdeal.main_v266)
    (h3 : (KV m c Cert.KernelIdeal.main_v171 : (⟨Cert.KernelIdeal.S100x16, .f32⟩ : BufTy).Contents (Elt F)) = RV m' c Cert.ReferenceIdeal.main_v234)
    (h4 : (KV m c Cert.KernelIdeal.main_arg13 : (⟨Cert.KernelIdeal.S16x100, .f32⟩ : BufTy).Contents (Elt F)) = RV m' c Cert.ReferenceIdeal.main_arg13)
    (h5 : (KV m c Cert.KernelIdeal.main_arg14 : (⟨Cert.KernelIdeal.S100, .f32⟩ : BufTy).Contents (Elt F)) = RV m' c Cert.ReferenceIdeal.main_arg14) :
    (KV m c Cert.KernelIdeal.main_v221 : (⟨Cert.KernelIdeal.S100x100, .f32⟩ : BufTy).Contents (Elt F)) = RV m' c Cert.ReferenceIdeal.main_v284 := by
  unfold KV RV
  rw [Cert.KernelIdeal.Hand.tail_down9_k m c _ (by decide), Cert.ReferenceIdeal.Hand.r_down26_k m' c _ (by decide)]
  refine syn9_v221 _ _ ?_ ?_ ?_ ?_ ?_
  · rw [Cert.KernelIdeal.Hand.tail_up9_k m c _ (by decide), Cert.ReferenceIdeal.Hand.r_up26_k m' c _ (by decide)]; exact h1
  · rw [Cert.KernelIdeal.Hand.tail_up9_k m c _ (by decide), Cert.ReferenceIdeal.Hand.r_up26_k m' c _ (by decide)]; exact h2
  · rw [Cert.KernelIdeal.Hand.tail_up9_k m c _ (by decide), Cert.ReferenceIdeal.Hand.r_up26_k m' c _ (by decide)]; exact h3
  · rw [Cert.KernelIdeal.Hand.tail_up9_k m c _ (by decide), Cert.ReferenceIdeal.Hand.r_up26_k m' c _ (by decide)]; exact h4
  · rw [Cert.KernelIdeal.Hand.tail_up9_k m c _ (by decide), Cert.ReferenceIdeal.Hand.r_up26_k m' c _ (by decide)]; exact h5

theorem syn_tail10_v223
    (h1 : (KV m c Cert.KernelIdeal.main_v56 : (⟨Cert.KernelIdeal.S8192x100, .f32⟩ : BufTy).Contents (Elt F)) = RV m' c Cert.ReferenceIdeal.main_v146)
    (h2 : (KV m c Cert.KernelIdeal.main_v221 : (⟨Cert.KernelIdeal.S100x100, .f32⟩ : BufTy).Contents (Elt F)) = RV m' c Cert.ReferenceIdeal.main_v284)
    (h3 : (KV m c Cert.KernelIdeal.main_v73 : (⟨Cert.KernelIdeal.S8192x10, .f32⟩ : BufTy).Contents (Elt F)) = RV m' c Cert.ReferenceIdeal.main_v98) :
    (KV m c Cert.KernelIdeal.main_v223 : (⟨Cert.KernelIdeal.S8192x110, .f32⟩ : BufTy).Contents (Elt F)) = RV m' c Cert.ReferenceIdeal.main_v286 := by
  unfold KV RV
  rw [Cert.KernelIdeal.Hand.tail_down10_k m c _ (by decide), Cert.ReferenceIdeal.Hand.r_down27_k m' c _ (by decide)]
  refine syn10_v223 _ _ ?_ ?_ ?_
  · rw [Cert.KernelIdeal.Hand.tail_up10_k m c _ (by decide), Cert.ReferenceIdeal.Hand.r_up27_k m' c _ (by decide)]; exact h3
  · rw [Cert.KernelIdeal.Hand.tail_up10_k m c _ (by decide), Cert.ReferenceIdeal.Hand.r_up27_k m' c _ (by decide)]; exact h1
  · rw [Cert.KernelIdeal.Hand.tail_up10_k m c _ (by decide), Cert.ReferenceIdeal.Hand.r_up27_k m' c _ (by decide)]; exact h2

end Cert.Bridge

end
-- ==== Proof.LibGS.lean ====
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

section Vec
variable {N E w : Nat} (wf : ScatterDims.WF ⟨1, ![N]⟩ ⟨2, ![E, 1]⟩ ⟨1, ![E]⟩ [] [0] [0] 1)

theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

section Rows
variable {N E C w : Nat} (wf : ScatterDims.WF ⟨2, ![N, C]⟩ ⟨2, ![E, 1]⟩ ⟨2, ![E, C]⟩ [1] [0] [0] 1)

theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.Bridge.Fused.lean ====
import proofs.«401602_j3728031613303_3_alg».proof.KernelIdeal
import proofs.«401602_j3728031613303_3_alg».proof.ReferenceIdeal
import proofs.«401602_j3728031613303_3_alg».proof.Proof.LibGS
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value

noncomputable section

open scoped BigOperators

namespace Cert.Bridge

open Idealize.ShloMosaic Idealize.ShloMosaic.ValueIdx Cert.LibGS

section Broadcasts
variable {α : Type}

theorem bcast_col_apply {E : Nat} (h : (⟨1, ![E]⟩ : Shape).BroadcastsInDim ⟨2, ![E, 1]⟩ ![0])
    (x : (⟨1, ![E]⟩ : Shape).Idx → α) (e : Fin E) (c : Fin 1) :
    broadcastInDim ⟨2, ![E, 1]⟩ ![0] h x (ix2 e c) = x (ix1 e) :=
  broadcastInDim_apply _ h x _ _ (fun a => by
    match a with
    | ⟨0, _⟩ =>
      show e.val = if E = 1 then 0 else e.val
      split
      · have := e.isLt; omega
      · rfl)

theorem bcast_cols_apply {E C : Nat} (h : (⟨2, ![E, 1]⟩ : Shape).BroadcastsInDim ⟨2, ![E, C]⟩ ![0, 1])
    (y : (⟨2, ![E, 1]⟩ : Shape).Idx → α) (e : Fin E) (j : Fin C) :
    broadcastInDim ⟨2, ![E, C]⟩ ![0, 1] h y (ix2 e j) = y (ix2 e 0) :=
  broadcastInDim_apply _ h y _ _ (fun a => by
    match a with
    | ⟨0, _⟩ =>
      show e.val = if E = 1 then 0 else e.val
      split
      · have := e.isLt; omega
      · rfl
    | ⟨1, _⟩ =>
      show (0 : ℕ) = if (1 : ℕ) = 1 then 0 else j.val
      rfl)

theorem bcast_row_apply {C : Nat} (h : (⟨1, ![C]⟩ : Shape).BroadcastsInDim ⟨2, ![1, C]⟩ ![1])
    (x : (⟨1, ![C]⟩ : Shape).Idx → α) (z : Fin 1) (j : Fin C) :
    broadcastInDim ⟨2, ![1, C]⟩ ![1] h x (ix2 z j) = x (ix1 j) :=
  broadcastInDim_apply _ h x _ _ (fun a => by
    match a with
    | ⟨0, _⟩ =>
      show j.val = if C = 1 then 0 else j.val
      split
      · have := j.isLt; omega
      · rfl)

theorem bcast_rows_apply {N C : Nat} (h : (⟨2, ![1, C]⟩ : Shape).BroadcastsInDim ⟨2, ![N, C]⟩ ![0, 1])
    (y : (⟨2, ![1, C]⟩ : Shape).Idx → α) (n : Fin N) (j : Fin C) :
    broadcastInDim ⟨2, ![N, C]⟩ ![0, 1] h y (ix2 n j) = y (ix2 0 j) :=
  broadcastInDim_apply _ h y _ _ (fun a => by
    match a with
    | ⟨0, _⟩ =>
      show (0 : ℕ) = if (1 : ℕ) = 1 then 0 else n.val
      rfl
    | ⟨1, _⟩ =>
      show j.val = if C = 1 then 0 else j.val
      split
      · have := j.isLt; omega
      · rfl)

end Broadcasts

theorem hostScatterAdd_eq {s si u : Shape} {w : Nat} (d : ScatterDims s si u) (x : FVec Ideal s .f32) (idx : IVec si w)
    (upd : FVec Ideal u .f32) : Host.scatterAdd (F := Ideal) d x idx upd = Ideal.hostScatterAdd d x idx upd := rfl

theorem layer_apply {N E C : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (h0 : (⟨0, ![]⟩ : Shape).BroadcastsInDim ⟨2, ![N, C]⟩ ![])
    (hE : (⟨1, ![E]⟩ : Shape).BroadcastsInDim ⟨2, ![E, 1]⟩ ![0])
    (hEC : (⟨2, ![E, 1]⟩ : Shape).BroadcastsInDim ⟨2, ![E, C]⟩ ![0, 1])
    (hC : (⟨1, ![C]⟩ : Shape).BroadcastsInDim ⟨2, ![1, C]⟩ ![1])
    (hNC : (⟨2, ![1, C]⟩ : Shape).BroadcastsInDim ⟨2, ![N, C]⟩ ![0, 1])
    (Y : FVec Ideal ⟨2, ![N, C]⟩ .f32) (b : FVec Ideal ⟨1, ![C]⟩ .f32) (nrm : FVec Ideal ⟨1, ![E]⟩ .f32)
    (r d2 : IVec ⟨1, ![E]⟩ 32) (n : Fin N) (j : Fin C) :
    addf
        (Host.scatterAdd (F := Ideal) (rowScatterDims N E C wfS)
          (broadcastInDim ⟨2, ![N, C]⟩ ![] h0 (constant (F := Ideal) ⟨0, ![]⟩ .f32 0#32))
          (broadcastInDim ⟨2, ![E, 1]⟩ ![0] hE d2)
          (mulf (broadcastInDim ⟨2, ![E, C]⟩ ![0, 1] hEC (broadcastInDim ⟨2, ![E, 1]⟩ ![0] hE nrm))
            (Host.gather (rowGatherDims N E C wfG) Y (broadcastInDim ⟨2, ![E, 1]⟩ ![0] hE r))))
        (broadcastInDim ⟨2, ![N, C]⟩ ![0, 1] hNC (broadcastInDim ⟨2, ![1, C]⟩ ![1] hC b)) (ix2 n j)
      = (0 + ∑ e ∈ Finset.univ.filter (fun e : Fin E => (d2 (ix1 e)).toInt = (n.val : ℤ)),
            nrm (ix1 e) * Y (ix2 ⟨min (r (ix1 e)).toInt.toNat (N - 1), by omega⟩ j)) + b (ix1 j) := by
  rw [addf_apply, hostScatterAdd_eq, scatterAdd_rows_apply wfS, bcast_rows_apply, bcast_row_apply]
  congr 1
  congr 1
  · show Ideal.ofBits .f32 0x00000000#32 = 0
    exact Ideal.ofBits_zero_f32
  · have hd : ∀ e : Fin E, broadcastInDim ⟨2, ![E, 1]⟩ ![0] hE d2 (ix2 e 0) = d2 (ix1 e) := fun e => bcast_col_apply hE d2 e 0
    simp only [hd]
    refine Finset.sum_congr rfl fun e _ => ?_
    have hr : broadcastInDim ⟨2, ![E, 1]⟩ ![0] hE r (ix2 e 0) = r (ix1 e) := bcast_col_apply hE r e 0
    rw [mulf_apply, bcast_cols_apply, bcast_col_apply, gather_rows_apply hN wfG]
    simp only [hr]

section Fused
variable [Cert.KernelIdeal.Facts₀] [Cert.ReferenceIdeal.Facts₀]

set_option maxRecDepth 16384 in
theorem fused_left (x : FVec Ideal Cert.KernelIdeal.S8192x512 .f32) (Wa : FVec Ideal Cert.KernelIdeal.S512x16 .f32)
    (Wb : FVec Ideal Cert.KernelIdeal.S512x100 .f32) (ba : FVec Ideal Cert.KernelIdeal.S16 .f32) (bb : FVec Ideal Cert.KernelIdeal.S100 .f32)
    (nrm : FVec Ideal Cert.KernelIdeal.S270336 .f32) (s2 d2 : IVec Cert.KernelIdeal.S270336 32) :
    extractStridedSlice Cert.KernelIdeal.S8192x16 ![0, 0]
      ((addf
        (Host.scatterAdd (F := Ideal) Cert.KernelIdeal.scatter_S8192x116_S270336x1_S270336x116_1_0_0_1
          (broadcastInDim Cert.KernelIdeal.S8192x116 ![] Cert.KernelIdeal.Facts₀.bcast_S_S8192x116 (constant (F := Ideal) Cert.KernelIdeal.S_ FTy.f32 0#32))
          (broadcastInDim Cert.KernelIdeal.S270336x1 ![0] Cert.KernelIdeal.Facts₀.bcast_S270336_S270336x1_0 (d2))
          (mulf
            (broadcastInDim Cert.KernelIdeal.S270336x116 ![0, 1] Cert.KernelIdeal.Facts₀.bcast_S270336x1_S270336x116_0_1
              (broadcastInDim Cert.KernelIdeal.S270336x1 ![0] Cert.KernelIdeal.Facts₀.bcast_S270336_S270336x1_0 (nrm)))
            (Host.gather Cert.KernelIdeal.gather_S8192x116_S270336x1_S270336x116_1_0_n_n_0_1_1116
              (Host.dotGeneral (F := Ideal) Cert.KernelIdeal.dot_S8192x512_S512x116_S8192x116_1_0_0_1_n_n none (x)
                (concatenate Cert.KernelIdeal.S512x116 1
                  [⟨Cert.KernelIdeal.S512x16, Wa⟩, ⟨Cert.KernelIdeal.S512x100, Wb⟩]
                  Cert.KernelIdeal.Facts₀.concatenates_S512x16_S512x100_S512x116_d1))
              (broadcastInDim Cert.KernelIdeal.S270336x1 ![0] Cert.KernelIdeal.Facts₀.bcast_S270336_S270336x1_0
                (select
                  (cmpi CmpIPredicate.slt (s2)
                    (broadcastInDim Cert.KernelIdeal.S270336 ![] Cert.KernelIdeal.Facts₀.bcast_S_S270336 (constantI Cert.KernelIdeal.S_ 32 0#32)))
                  (addi (s2)
                    (broadcastInDim Cert.KernelIdeal.S270336 ![] Cert.KernelIdeal.Facts₀.bcast_S_S270336 (constantI Cert.KernelIdeal.S_ 32 8192#32)))
                  (s2))))))
        (broadcastInDim Cert.KernelIdeal.S8192x116 ![0, 1] Cert.KernelIdeal.Facts₀.bcast_S1x116_S8192x116_0_1
          (broadcastInDim Cert.KernelIdeal.S1x116 ![1] Cert.KernelIdeal.Facts₀.bcast_S116_S1x116_1
            (concatenate Cert.KernelIdeal.S116 0 [⟨Cert.KernelIdeal.S16, ba⟩, ⟨Cert.KernelIdeal.S100, bb⟩]
              Cert.KernelIdeal.Facts₀.concatenates_S16_S100_S116_d0)))))
      Cert.KernelIdeal.Facts₀.slices_S8192x116_S8192x16_0_0
    = addf
      (Host.scatterAdd (F := Ideal) Cert.ReferenceIdeal.scatter_S8192x16_S270336x1_S270336x16_1_0_0_1
        (broadcastInDim Cert.ReferenceIdeal.S8192x16 ![] Cert.ReferenceIdeal.Facts₀.bcast_S_S8192x16 (constant (F := Ideal) Cert.ReferenceIdeal.S_ FTy.f32 0#32))
        (broadcastInDim Cert.ReferenceIdeal.S270336x1 ![0] Cert.ReferenceIdeal.Facts₀.bcast_S270336_S270336x1_0 (d2))
        (mulf
          (broadcastInDim Cert.ReferenceIdeal.S270336x16 ![0, 1] Cert.ReferenceIdeal.Facts₀.bcast_S270336x1_S270336x16_0_1
            (broadcastInDim Cert.ReferenceIdeal.S270336x1 ![0] Cert.ReferenceIdeal.Facts₀.bcast_S270336_S270336x1_0 (nrm)))
          (Host.gather Cert.ReferenceIdeal.gather_S8192x16_S270336x1_S270336x16_1_0_n_n_0_1_116
            (Host.dotGeneral (F := Ideal) Cert.ReferenceIdeal.dot_S8192x512_S512x16_S8192x16_1_0_0_1_n_n none (x)
              (Wa))
            (broadcastInDim Cert.ReferenceIdeal.S270336x1 ![0] Cert.ReferenceIdeal.Facts₀.bcast_S270336_S270336x1_0
              (select
                (cmpi CmpIPredicate.slt (s2)
                  (broadcastInDim Cert.ReferenceIdeal.S270336 ![] Cert.ReferenceIdeal.Facts₀.bcast_S_S270336 (constantI Cert.ReferenceIdeal.S_ 32 0#32)))
                (addi (s2)
                  (broadcastInDim Cert.ReferenceIdeal.S270336 ![] Cert.ReferenceIdeal.Facts₀.bcast_S_S270336 (constantI Cert.ReferenceIdeal.S_ 32 8192#32)))
                (s2))))))
      (broadcastInDim Cert.ReferenceIdeal.S8192x16 ![0, 1] Cert.ReferenceIdeal.Facts₀.bcast_S1x16_S8192x16_0_1
        (broadcastInDim Cert.ReferenceIdeal.S1x16 ![1] Cert.ReferenceIdeal.Facts₀.bcast_S16_S1x16_1 (ba))) := by
  funext i
  obtain ⟨n, j, rfl⟩ : ∃ (n : Fin 8192) (j : Fin 16), i = ix2 n j := ⟨i 0, i 1, eq_ix2 i⟩
  have hj := j.isLt
  refine (slice2_axis1_apply 0 _ _ n j (⟨j.val, by omega⟩ : Fin 116) (by simp)).trans ?_
  refine (layer_apply (N := 8192) (E := 270336) (C := 116) (by norm_num) _ _ _ _ _ _ _ _ _ _ _ _ n _).trans ?_
  refine Eq.trans ?_ (layer_apply (N := 8192) (E := 270336) (C := 16) (by norm_num) _ _ _ _ _ _ _ _ _ _ _ _ n j).symm
  refine congrArg₂ (· + ·) (congrArg (0 + ·) (Finset.sum_congr rfl fun e _ => congrArg (nrm (ix1 e) * ·) ?_)) ?_
  · show Host.dotGeneral (F := Ideal) (DotDims.plain 8192 512 116) none x _ (ix2 _ _)
      = Host.dotGeneral (F := Ideal) (DotDims.plain 8192 512 16) none x Wa (ix2 _ _)
    rw [StackMember.dotGeneral_plain_apply, StackMember.dotGeneral_plain_apply]
    refine Finset.sum_congr rfl fun c _ => congrArg₂ (· * ·) rfl ?_
    exact concatenate_pair_apply_left (t := Cert.KernelIdeal.S512x116) (a := 1) Wa Wb _ _ rfl (ix2 c j) (fun b => by
      match b with
      | ⟨0, _⟩ => rfl
      | ⟨1, _⟩ => rfl)
  · exact concatenate_pair_apply_left (t := Cert.KernelIdeal.S116) (a := 0) ba bb _ _ rfl (ix1 j) (fun b => by
      match b with
      | ⟨0, _⟩ => rfl)

set_option maxRecDepth 16384 in
theorem fused_right (x : FVec Ideal Cert.KernelIdeal.S8192x512 .f32) (Wa : FVec Ideal Cert.KernelIdeal.S512x16 .f32)
    (Wb : FVec Ideal Cert.KernelIdeal.S512x100 .f32) (ba : FVec Ideal Cert.KernelIdeal.S16 .f32) (bb : FVec Ideal Cert.KernelIdeal.S100 .f32)
    (nrm : FVec Ideal Cert.KernelIdeal.S270336 .f32) (s2 d2 : IVec Cert.KernelIdeal.S270336 32) :
    extractStridedSlice Cert.KernelIdeal.S8192x100 ![0, 16]
      ((addf
        (Host.scatterAdd (F := Ideal) Cert.KernelIdeal.scatter_S8192x116_S270336x1_S270336x116_1_0_0_1
          (broadcastInDim Cert.KernelIdeal.S8192x116 ![] Cert.KernelIdeal.Facts₀.bcast_S_S8192x116 (constant (F := Ideal) Cert.KernelIdeal.S_ FTy.f32 0#32))
          (broadcastInDim Cert.KernelIdeal.S270336x1 ![0] Cert.KernelIdeal.Facts₀.bcast_S270336_S270336x1_0 (d2))
          (mulf
            (broadcastInDim Cert.KernelIdeal.S270336x116 ![0, 1] Cert.KernelIdeal.Facts₀.bcast_S270336x1_S270336x116_0_1
              (broadcastInDim Cert.KernelIdeal.S270336x1 ![0] Cert.KernelIdeal.Facts₀.bcast_S270336_S270336x1_0 (nrm)))
            (Host.gather Cert.KernelIdeal.gather_S8192x116_S270336x1_S270336x116_1_0_n_n_0_1_1116
              (Host.dotGeneral (F := Ideal) Cert.KernelIdeal.dot_S8192x512_S512x116_S8192x116_1_0_0_1_n_n none (x)
                (concatenate Cert.KernelIdeal.S512x116 1
                  [⟨Cert.KernelIdeal.S512x16, Wa⟩, ⟨Cert.KernelIdeal.S512x100, Wb⟩]
                  Cert.KernelIdeal.Facts₀.concatenates_S512x16_S512x100_S512x116_d1))
              (broadcastInDim Cert.KernelIdeal.S270336x1 ![0] Cert.KernelIdeal.Facts₀.bcast_S270336_S270336x1_0
                (select
                  (cmpi CmpIPredicate.slt (s2)
                    (broadcastInDim Cert.KernelIdeal.S270336 ![] Cert.KernelIdeal.Facts₀.bcast_S_S270336 (constantI Cert.KernelIdeal.S_ 32 0#32)))
                  (addi (s2)
                    (broadcastInDim Cert.KernelIdeal.S270336 ![] Cert.KernelIdeal.Facts₀.bcast_S_S270336 (constantI Cert.KernelIdeal.S_ 32 8192#32)))
                  (s2))))))
        (broadcastInDim Cert.KernelIdeal.S8192x116 ![0, 1] Cert.KernelIdeal.Facts₀.bcast_S1x116_S8192x116_0_1
          (broadcastInDim Cert.KernelIdeal.S1x116 ![1] Cert.KernelIdeal.Facts₀.bcast_S116_S1x116_1
            (concatenate Cert.KernelIdeal.S116 0 [⟨Cert.KernelIdeal.S16, ba⟩, ⟨Cert.KernelIdeal.S100, bb⟩]
              Cert.KernelIdeal.Facts₀.concatenates_S16_S100_S116_d0)))))
      Cert.KernelIdeal.Facts₀.slices_S8192x116_S8192x100_0_16
    = addf
      (Host.scatterAdd (F := Ideal) Cert.ReferenceIdeal.scatter_S8192x100_S270336x1_S270336x100_1_0_0_1
        (broadcastInDim Cert.ReferenceIdeal.S8192x100 ![] Cert.ReferenceIdeal.Facts₀.bcast_S_S8192x100 (constant (F := Ideal) Cert.ReferenceIdeal.S_ FTy.f32 0#32))
        (broadcastInDim Cert.ReferenceIdeal.S270336x1 ![0] Cert.ReferenceIdeal.Facts₀.bcast_S270336_S270336x1_0 (d2))
        (mulf
          (broadcastInDim Cert.ReferenceIdeal.S270336x100 ![0, 1] Cert.ReferenceIdeal.Facts₀.bcast_S270336x1_S270336x100_0_1
            (broadcastInDim Cert.ReferenceIdeal.S270336x1 ![0] Cert.ReferenceIdeal.Facts₀.bcast_S270336_S270336x1_0 (nrm)))
          (Host.gather Cert.ReferenceIdeal.gather_S8192x100_S270336x1_S270336x100_1_0_n_n_0_1_1100
            (Host.dotGeneral (F := Ideal) Cert.ReferenceIdeal.dot_S8192x512_S512x100_S8192x100_1_0_0_1_n_n none (x)
              (Wb))
            (broadcastInDim Cert.ReferenceIdeal.S270336x1 ![0] Cert.ReferenceIdeal.Facts₀.bcast_S270336_S270336x1_0
              (select
                (cmpi CmpIPredicate.slt (s2)
                  (broadcastInDim Cert.ReferenceIdeal.S270336 ![] Cert.ReferenceIdeal.Facts₀.bcast_S_S270336 (constantI Cert.ReferenceIdeal.S_ 32 0#32)))
                (addi (s2)
                  (broadcastInDim Cert.ReferenceIdeal.S270336 ![] Cert.ReferenceIdeal.Facts₀.bcast_S_S270336 (constantI Cert.ReferenceIdeal.S_ 32 8192#32)))
                (s2))))))
      (broadcastInDim Cert.ReferenceIdeal.S8192x100 ![0, 1] Cert.ReferenceIdeal.Facts₀.bcast_S1x100_S8192x100_0_1
        (broadcastInDim Cert.ReferenceIdeal.S1x100 ![1] Cert.ReferenceIdeal.Facts₀.bcast_S100_S1x100_1 (bb))) := by
  funext i
  obtain ⟨n, j, rfl⟩ : ∃ (n : Fin 8192) (j : Fin 100), i = ix2 n j := ⟨i 0, i 1, eq_ix2 i⟩
  have hj := j.isLt
  refine (slice2_axis1_apply 16 _ _ n j (⟨16 + j.val, by omega⟩ : Fin 116) rfl).trans ?_
  refine (layer_apply (N := 8192) (E := 270336) (C := 116) (by norm_num) _ _ _ _ _ _ _ _ _ _ _ _ n _).trans ?_
  refine Eq.trans ?_ (layer_apply (N := 8192) (E := 270336) (C := 100) (by norm_num) _ _ _ _ _ _ _ _ _ _ _ _ n j).symm
  refine congrArg₂ (· + ·) (congrArg (0 + ·) (Finset.sum_congr rfl fun e _ => congrArg (nrm (ix1 e) * ·) ?_)) ?_
  · show Host.dotGeneral (F := Ideal) (DotDims.plain 8192 512 116) none x _ (ix2 _ _)
      = Host.dotGeneral (F := Ideal) (DotDims.plain 8192 512 100) none x Wb (ix2 _ _)
    rw [StackMember.dotGeneral_plain_apply, StackMember.dotGeneral_plain_apply]
    refine Finset.sum_congr rfl fun c _ => congrArg₂ (· * ·) rfl ?_
    exact concatenate_pair_apply_right (t := Cert.KernelIdeal.S512x116) (a := 1) Wa Wb _ _ rfl rfl (ix2 c j) (fun b hb => by
      match b with
      | ⟨0, _⟩ => rfl
      | ⟨1, _⟩ => exact absurd rfl hb) (by
      show j.val + 16 = 16 + j.val
      omega)
  · exact concatenate_pair_apply_right (t := Cert.KernelIdeal.S116) (a := 0) ba bb _ _ rfl rfl (ix1 j) (fun b hb => by
      match b with
      | ⟨0, _⟩ => exact absurd rfl hb) (by
      show j.val + 16 = 16 + j.val
      omega)

end Fused

end Cert.Bridge

end
-- ==== Proof.Bridge.FusedStage.lean ====
import proofs.«401602_j3728031613303_3_alg».proof.Proof.Bridge.Base
import proofs.«401602_j3728031613303_3_alg».proof.Proof.Bridge.Fused
import Idealize.ShloMosaic.Lib.StableHlo.Run

set_option maxRecDepth 16384

noncomputable section

namespace Cert.Bridge

open Idealize.ShloMosaic Idealize.ShloMosaic.TcCoe Idealize.SL.Sem Idealize.ShloMosaic.StableHlo

variable (m : KMem Ideal) (m' : RMem Ideal) (c : Dev Cert.KernelIdeal.nD)
set_option maxHeartbeats 4000000 in
theorem v53_eq (hx : KV m c Cert.KernelIdeal.main_arg0 = RV m' c Cert.ReferenceIdeal.main_arg0)
    (hWa : KV m c Cert.KernelIdeal.main_arg5 = RV m' c Cert.ReferenceIdeal.main_arg5)
    (hWb : KV m c Cert.KernelIdeal.main_arg9 = RV m' c Cert.ReferenceIdeal.main_arg9)
    (hba : KV m c Cert.KernelIdeal.main_arg6 = RV m' c Cert.ReferenceIdeal.main_arg6)
    (hbb : KV m c Cert.KernelIdeal.main_arg10 = RV m' c Cert.ReferenceIdeal.main_arg10)
    (hn : KV m c Cert.KernelIdeal.main_v33 = RV m' c Cert.ReferenceIdeal.main_v33)
    (h5 : KV m c Cert.KernelIdeal.main_v5 = RV m' c Cert.ReferenceIdeal.main_v5)
    (h6 : KV m c Cert.KernelIdeal.main_v6 = RV m' c Cert.ReferenceIdeal.main_v6) :
    (KV m c Cert.KernelIdeal.main_v53 : FVec Ideal Cert.KernelIdeal.S8192x16 .f32) = RV m' c Cert.ReferenceIdeal.main_v50 := by
  have ex : Cert.KernelIdeal.Hand.KFin m c (Proc.devRef .tc Cert.KernelIdeal.main_arg0) = Cert.ReferenceIdeal.Hand.RFin' m' c (Proc.devRef .tc Cert.ReferenceIdeal.main_arg0) := hx
  have eWa : Cert.KernelIdeal.Hand.KFin m c (Proc.devRef .tc Cert.KernelIdeal.main_arg5) = Cert.ReferenceIdeal.Hand.RFin' m' c (Proc.devRef .tc Cert.ReferenceIdeal.main_arg5) := hWa
  have eWb : Cert.KernelIdeal.Hand.KFin m c (Proc.devRef .tc Cert.KernelIdeal.main_arg9) = Cert.ReferenceIdeal.Hand.RFin' m' c (Proc.devRef .tc Cert.ReferenceIdeal.main_arg9) := hWb
  have eba : Cert.KernelIdeal.Hand.KFin m c (Proc.devRef .tc Cert.KernelIdeal.main_arg6) = Cert.ReferenceIdeal.Hand.RFin' m' c (Proc.devRef .tc Cert.ReferenceIdeal.main_arg6) := hba
  have ebb : Cert.KernelIdeal.Hand.KFin m c (Proc.devRef .tc Cert.KernelIdeal.main_arg10) = Cert.ReferenceIdeal.Hand.RFin' m' c (Proc.devRef .tc Cert.ReferenceIdeal.main_arg10) := hbb
  have en : Cert.KernelIdeal.Hand.KFin m c (Proc.devRef .tc Cert.KernelIdeal.main_v33) = Cert.ReferenceIdeal.Hand.RFin' m' c (Proc.devRef .tc Cert.ReferenceIdeal.main_v33) := hn
  have e5 : Cert.KernelIdeal.Hand.KFin m c (Proc.devRef .tc Cert.KernelIdeal.main_v5) = Cert.ReferenceIdeal.Hand.RFin' m' c (Proc.devRef .tc Cert.ReferenceIdeal.main_v5) := h5
  have e6 : Cert.KernelIdeal.Hand.KFin m c (Proc.devRef .tc Cert.KernelIdeal.main_v6) = Cert.ReferenceIdeal.Hand.RFin' m' c (Proc.devRef .tc Cert.ReferenceIdeal.main_v6) := h6
  show Cert.KernelIdeal.Hand.KFin m c (Proc.devRef .tc Cert.KernelIdeal.main_v53) = Cert.ReferenceIdeal.Hand.RFin' m' c (Proc.devRef .tc Cert.ReferenceIdeal.main_v50)
  rw [Cert.KernelIdeal.Hand.pre_down3_k m c Cert.KernelIdeal.main_v53 (by decide),
    Cert.ReferenceIdeal.Hand.r_down3_k m' c Cert.ReferenceIdeal.main_v50 (by decide)]
  after_results_simp
  rw [binary_result_ne (h := by decide), binary_result_ne (h := by decide)]
  rw [Cert.KernelIdeal.Hand.pre_up3_k m c Cert.KernelIdeal.main_v6 (by decide),
    Cert.KernelIdeal.Hand.pre_up3_k m c Cert.KernelIdeal.main_v33 (by decide),
    Cert.KernelIdeal.Hand.pre_up3_k m c Cert.KernelIdeal.main_arg0 (by decide),
    Cert.KernelIdeal.Hand.pre_up3_k m c Cert.KernelIdeal.main_arg5 (by decide),
    Cert.KernelIdeal.Hand.pre_up3_k m c Cert.KernelIdeal.main_arg9 (by decide),
    Cert.KernelIdeal.Hand.pre_up3_k m c Cert.KernelIdeal.main_v5 (by decide),
    Cert.KernelIdeal.Hand.pre_up3_k m c Cert.KernelIdeal.main_arg6 (by decide),
    Cert.KernelIdeal.Hand.pre_up3_k m c Cert.KernelIdeal.main_arg10 (by decide)]
  rw [Cert.ReferenceIdeal.Hand.r_up3_k m' c Cert.ReferenceIdeal.main_v6 (by decide),
    Cert.ReferenceIdeal.Hand.r_up3_k m' c Cert.ReferenceIdeal.main_v33 (by decide),
    Cert.ReferenceIdeal.Hand.r_up3_k m' c Cert.ReferenceIdeal.main_arg0 (by decide),
    Cert.ReferenceIdeal.Hand.r_up3_k m' c Cert.ReferenceIdeal.main_arg5 (by decide),
    Cert.ReferenceIdeal.Hand.r_up3_k m' c Cert.ReferenceIdeal.main_v5 (by decide),
    Cert.ReferenceIdeal.Hand.r_up3_k m' c Cert.ReferenceIdeal.main_arg6 (by decide)]
  rw [ex, eWa, eWb, eba, ebb, en, e5, e6]
  exact fused_left _ _ _ _ _ _ _ _

set_option maxHeartbeats 4000000 in
theorem v55_eq (hx : KV m c Cert.KernelIdeal.main_arg0 = RV m' c Cert.ReferenceIdeal.main_arg0)
    (hWa : KV m c Cert.KernelIdeal.main_arg5 = RV m' c Cert.ReferenceIdeal.main_arg5)
    (hWb : KV m c Cert.KernelIdeal.main_arg9 = RV m' c Cert.ReferenceIdeal.main_arg9)
    (hba : KV m c Cert.KernelIdeal.main_arg6 = RV m' c Cert.ReferenceIdeal.main_arg6)
    (hbb : KV m c Cert.KernelIdeal.main_arg10 = RV m' c Cert.ReferenceIdeal.main_arg10)
    (hn : KV m c Cert.KernelIdeal.main_v33 = RV m' c Cert.ReferenceIdeal.main_v128)
    (h5 : KV m c Cert.KernelIdeal.main_v5 = RV m' c Cert.ReferenceIdeal.main_v100)
    (h6 : KV m c Cert.KernelIdeal.main_v6 = RV m' c Cert.ReferenceIdeal.main_v101) :
    (KV m c Cert.KernelIdeal.main_v55 : FVec Ideal Cert.KernelIdeal.S8192x100 .f32) = RV m' c Cert.ReferenceIdeal.main_v145 := by
  have ex : Cert.KernelIdeal.Hand.KFin m c (Proc.devRef .tc Cert.KernelIdeal.main_arg0) = Cert.ReferenceIdeal.Hand.RFin' m' c (Proc.devRef .tc Cert.ReferenceIdeal.main_arg0) := hx
  have eWa : Cert.KernelIdeal.Hand.KFin m c (Proc.devRef .tc Cert.KernelIdeal.main_arg5) = Cert.ReferenceIdeal.Hand.RFin' m' c (Proc.devRef .tc Cert.ReferenceIdeal.main_arg5) := hWa
  have eWb : Cert.KernelIdeal.Hand.KFin m c (Proc.devRef .tc Cert.KernelIdeal.main_arg9) = Cert.ReferenceIdeal.Hand.RFin' m' c (Proc.devRef .tc Cert.ReferenceIdeal.main_arg9) := hWb
  have eba : Cert.KernelIdeal.Hand.KFin m c (Proc.devRef .tc Cert.KernelIdeal.main_arg6) = Cert.ReferenceIdeal.Hand.RFin' m' c (Proc.devRef .tc Cert.ReferenceIdeal.main_arg6) := hba
  have ebb : Cert.KernelIdeal.Hand.KFin m c (Proc.devRef .tc Cert.KernelIdeal.main_arg10) = Cert.ReferenceIdeal.Hand.RFin' m' c (Proc.devRef .tc Cert.ReferenceIdeal.main_arg10) := hbb
  have en : Cert.KernelIdeal.Hand.KFin m c (Proc.devRef .tc Cert.KernelIdeal.main_v33) = Cert.ReferenceIdeal.Hand.RFin' m' c (Proc.devRef .tc Cert.ReferenceIdeal.main_v128) := hn
  have e5 : Cert.KernelIdeal.Hand.KFin m c (Proc.devRef .tc Cert.KernelIdeal.main_v5) = Cert.ReferenceIdeal.Hand.RFin' m' c (Proc.devRef .tc Cert.ReferenceIdeal.main_v100) := h5
  have e6 : Cert.KernelIdeal.Hand.KFin m c (Proc.devRef .tc Cert.KernelIdeal.main_v6) = Cert.ReferenceIdeal.Hand.RFin' m' c (Proc.devRef .tc Cert.ReferenceIdeal.main_v101) := h6
  show Cert.KernelIdeal.Hand.KFin m c (Proc.devRef .tc Cert.KernelIdeal.main_v55) = Cert.ReferenceIdeal.Hand.RFin' m' c (Proc.devRef .tc Cert.ReferenceIdeal.main_v145)
  rw [Cert.KernelIdeal.Hand.pre_down5_k m c Cert.KernelIdeal.main_v55 (by decide),
    Cert.ReferenceIdeal.Hand.r_down12_k m' c Cert.ReferenceIdeal.main_v145 (by decide)]
  after_results_simp
  rw [Cert.KernelIdeal.Hand.pre_up5_k m c Cert.KernelIdeal.main_v52 (by decide),
    Cert.KernelIdeal.Hand.pre_down3_k m c Cert.KernelIdeal.main_v52 (by decide)]
  after_results_simp
  rw [binary_result_ne (h := by decide), binary_result_ne (h := by decide)]
  rw [Cert.KernelIdeal.Hand.pre_up3_k m c Cert.KernelIdeal.main_v6 (by decide),
    Cert.KernelIdeal.Hand.pre_up3_k m c Cert.KernelIdeal.main_v33 (by decide),
    Cert.KernelIdeal.Hand.pre_up3_k m c Cert.KernelIdeal.main_arg0 (by decide),
    Cert.KernelIdeal.Hand.pre_up3_k m c Cert.KernelIdeal.main_arg5 (by decide),
    Cert.KernelIdeal.Hand.pre_up3_k m c Cert.KernelIdeal.main_arg9 (by decide),
    Cert.KernelIdeal.Hand.pre_up3_k m c Cert.KernelIdeal.main_v5 (by decide),
    Cert.KernelIdeal.Hand.pre_up3_k m c Cert.KernelIdeal.main_arg6 (by decide),
    Cert.KernelIdeal.Hand.pre_up3_k m c Cert.KernelIdeal.main_arg10 (by decide)]
  rw [Cert.ReferenceIdeal.Hand.r_up12_k m' c Cert.ReferenceIdeal.main_v101 (by decide),
    Cert.ReferenceIdeal.Hand.r_up12_k m' c Cert.ReferenceIdeal.main_v128 (by decide),
    Cert.ReferenceIdeal.Hand.r_up12_k m' c Cert.ReferenceIdeal.main_arg0 (by decide),
    Cert.ReferenceIdeal.Hand.r_up12_k m' c Cert.ReferenceIdeal.main_arg9 (by decide),
    Cert.ReferenceIdeal.Hand.r_up12_k m' c Cert.ReferenceIdeal.main_v100 (by decide),
    Cert.ReferenceIdeal.Hand.r_up12_k m' c Cert.ReferenceIdeal.main_arg10 (by decide)]
  rw [ex, eWa, eWb, eba, ebb, en, e5, e6]
  exact fused_right _ _ _ _ _ _ _ _

end Cert.Bridge

end
-- ==== Proof.LibAlg.lean ====
import Mathlib.Data.EReal.Basic
import Mathlib.Data.EReal.Operations
import Mathlib.Algebra.BigOperators.Fin
import Mathlib.Algebra.BigOperators.Ring.Finset
import Mathlib.Algebra.BigOperators.Group.Finset.Basic
import Mathlib.Algebra.Order.BigOperators.Group.Finset
import Mathlib.Logic.Equiv.Fin.Basic
import Mathlib.Tactic.Ring
import Mathlib.Tactic.Linarith

namespace Cert.LibAlg

open Finset

theorem coe_sum {ι : Type*} (t : Finset ι) (f : ι → ℝ) :
    (∑ i ∈ t, ((f i : ℝ) : EReal)) = ((∑ i ∈ t, f i : ℝ) : EReal) := by
  classical
  refine Finset.induction_on t ?_ ?_
  · simp
  · intro a s ha ih
    rw [Finset.sum_insert ha, Finset.sum_insert ha, ih, EReal.coe_add]

theorem coe_sum_univ {ι : Type*} [Fintype ι] (f : ι → ℝ) :
    (∑ i, ((f i : ℝ) : EReal)) = ((∑ i, f i : ℝ) : EReal) :=
  coe_sum Finset.univ f

theorem sub_self_coe (a : ℝ) : (a : EReal) - (a : EReal) = 0 := by
  rw [← EReal.coe_sub, sub_self, EReal.coe_zero]

theorem coe_two : ((2 : ℝ) : EReal) = 2 := by norm_cast

theorem exists_real_of_ne {x : EReal} (h1 : x ≠ ⊤) (h2 : x ≠ ⊥) : ∃ r : ℝ, x = r :=
  ⟨x.toReal, (EReal.coe_toReal h1 h2).symm⟩

theorem exists_real_fun {ι : Type*} (f : ι → EReal) (h : ∀ i, f i ≠ ⊤ ∧ f i ≠ ⊥) :
    ∃ g : ι → ℝ, ∀ i, f i = g i :=
  ⟨fun i => (f i).toReal, fun i => (EReal.coe_toReal (h i).1 (h i).2).symm⟩

theorem exists_real_fun2 {ι κ : Type*} (f : ι → κ → EReal)
    (h : ∀ i k, f i k ≠ ⊤ ∧ f i k ≠ ⊥) :
    ∃ g : ι → κ → ℝ, ∀ i k, f i k = g i k :=
  ⟨fun i k => (f i k).toReal, fun i k => (EReal.coe_toReal (h i k).1 (h i k).2).symm⟩

def IsReal (x : EReal) : Prop := x ≠ ⊤ ∧ x ≠ ⊥

theorem isReal_coe (r : ℝ) : IsReal (r : EReal) :=
  ⟨EReal.coe_ne_top r, EReal.coe_ne_bot r⟩

theorem isReal_iff_exists {x : EReal} : IsReal x ↔ ∃ r : ℝ, x = r := by
  constructor
  · intro h
    exact exists_real_of_ne h.1 h.2
  · rintro ⟨r, rfl⟩
    exact isReal_coe r

theorem isReal_zero : IsReal (0 : EReal) := by
  rw [← EReal.coe_zero]; exact isReal_coe 0

theorem IsReal.add {x y : EReal} (hx : IsReal x) (hy : IsReal y) : IsReal (x + y) := by
  obtain ⟨a, rfl⟩ := isReal_iff_exists.1 hx
  obtain ⟨b, rfl⟩ := isReal_iff_exists.1 hy
  rw [← EReal.coe_add]; exact isReal_coe _

theorem IsReal.mul {x y : EReal} (hx : IsReal x) (hy : IsReal y) : IsReal (x * y) := by
  obtain ⟨a, rfl⟩ := isReal_iff_exists.1 hx
  obtain ⟨b, rfl⟩ := isReal_iff_exists.1 hy
  rw [← EReal.coe_mul]; exact isReal_coe _

theorem IsReal.neg {x : EReal} (hx : IsReal x) : IsReal (-x) := by
  obtain ⟨a, rfl⟩ := isReal_iff_exists.1 hx
  rw [← EReal.coe_neg]; exact isReal_coe _

theorem IsReal.sub {x y : EReal} (hx : IsReal x) (hy : IsReal y) : IsReal (x - y) := by
  obtain ⟨a, rfl⟩ := isReal_iff_exists.1 hx
  obtain ⟨b, rfl⟩ := isReal_iff_exists.1 hy
  rw [← EReal.coe_sub]; exact isReal_coe _

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

theorem isReal_sum {ι : Type*} (t : Finset ι) (f : ι → EReal)
    (h : ∀ i ∈ t, IsReal (f i)) : IsReal (∑ i ∈ t, f i) := by
  classical
  revert h
  refine Finset.induction_on t ?_ ?_
  · intro _
    simpa using isReal_zero
  · intro a s ha ih h
    rw [Finset.sum_insert ha]
    exact (h a (Finset.mem_insert_self a s)).add
      (ih (fun i hi => h i (Finset.mem_insert_of_mem hi)))

theorem isReal_sum_univ {ι : Type*} [Fintype ι] (f : ι → EReal)
    (h : ∀ i, IsReal (f i)) : IsReal (∑ i, f i) :=
  isReal_sum Finset.univ f (fun i _ => h i)

section Real

variable {ι κ γ : Type*} [Fintype ι] [Fintype κ] [Fintype γ]

theorem triple_assoc_real (s : ι → ℝ) (a : ι → κ → ℝ) (t : κ → ℝ) :
    ∑ n, s n * ∑ k, a n k * t k = ∑ k, (∑ n, s n * a n k) * t k := by
  simp only [Finset.mul_sum, Finset.sum_mul]
  rw [Finset.sum_comm]
  refine Finset.sum_congr rfl fun k _ => Finset.sum_congr rfl fun n _ => ?_
  ring

theorem sum4_perm {M : Type*} [AddCommMonoid M] {α β μ ν : Type*}
    [Fintype α] [Fintype β] [Fintype μ] [Fintype ν] (f : α → β → μ → ν → M) :
    ∑ a, ∑ b, ∑ n, ∑ m, f a b n m = ∑ n, ∑ m, ∑ a, ∑ b, f a b n m :=
  calc ∑ a, ∑ b, ∑ n, ∑ m, f a b n m
      = ∑ a, ∑ n, ∑ b, ∑ m, f a b n m := by
        refine Finset.sum_congr rfl fun a _ => ?_
        exact Finset.sum_comm
    _ = ∑ n, ∑ a, ∑ b, ∑ m, f a b n m := Finset.sum_comm
    _ = ∑ n, ∑ a, ∑ m, ∑ b, f a b n m := by
        refine Finset.sum_congr rfl fun n _ => Finset.sum_congr rfl fun a _ => ?_
        exact Finset.sum_comm
    _ = ∑ n, ∑ m, ∑ a, ∑ b, f a b n m := by
        refine Finset.sum_congr rfl fun n _ => ?_
        exact Finset.sum_comm

theorem sq_expand_sum (A G : ι → κ → ℝ) :
    ∑ n, ∑ k, (A n k - G n k) * (A n k - G n k)
      = (∑ n, ∑ k, A n k * A n k) - 2 * (∑ n, ∑ k, A n k * G n k)
        + ∑ n, ∑ k, G n k * G n k := by
  simp only [Finset.mul_sum, ← Finset.sum_sub_distrib, ← Finset.sum_add_distrib]
  refine Finset.sum_congr rfl fun n _ => Finset.sum_congr rfl fun k _ => ?_
  ring

theorem cross_real (A : ι → ι → ℝ) (s : ι → γ → ℝ) :
    ∑ n, ∑ k, A n k * ∑ c, s n c * s k c = ∑ a, ∑ n, s n a * ∑ k, A n k * s k a := by
  calc ∑ n, ∑ k, A n k * ∑ c, s n c * s k c
      = ∑ n, ∑ k, ∑ c, A n k * (s n c * s k c) := by simp only [Finset.mul_sum]
    _ = ∑ n, ∑ c, ∑ k, A n k * (s n c * s k c) := by
        refine Finset.sum_congr rfl fun n _ => ?_
        exact Finset.sum_comm
    _ = ∑ c, ∑ n, ∑ k, A n k * (s n c * s k c) := Finset.sum_comm
    _ = ∑ a, ∑ n, ∑ k, s n a * (A n k * s k a) := by
        refine Finset.sum_congr rfl fun a _ => Finset.sum_congr rfl fun n _ =>
          Finset.sum_congr rfl fun k _ => ?_
        ring
    _ = ∑ a, ∑ n, s n a * ∑ k, A n k * s k a := by simp only [Finset.mul_sum]

theorem gram_real (s : ι → γ → ℝ) :
    ∑ n, ∑ k, (∑ c, s n c * s k c) * (∑ c, s n c * s k c)
      = ∑ a, ∑ b, (∑ n, s n a * s n b) * (∑ n, s n a * s n b) := by
  simp only [Finset.sum_mul_sum]
  refine Eq.trans ?_ (sum4_perm (fun n m a b => s n a * s n b * (s m a * s m b)))
  refine Finset.sum_congr rfl fun n _ => Finset.sum_congr rfl fun k _ =>
    Finset.sum_congr rfl fun c _ => Finset.sum_congr rfl fun d _ => ?_
  ring

theorem frob_real (A : ι → ι → ℝ) (s : ι → γ → ℝ) :
    ∑ n, ∑ k, (A n k - ∑ c, s n c * s k c) * (A n k - ∑ c, s n c * s k c)
      = (∑ n, ∑ k, A n k * A n k) - 2 * (∑ a, ∑ n, s n a * ∑ k, A n k * s k a)
        + ∑ a, ∑ b, (∑ n, s n a * s n b) * (∑ n, s n a * s n b) := by
  rw [← cross_real A s, ← gram_real s]
  exact sq_expand_sum A (fun n k => ∑ c, s n c * s k c)

theorem frob_nonneg_real (A : ι → ι → ℝ) (s : ι → γ → ℝ) :
    0 ≤ ∑ n, ∑ k, (A n k - ∑ c, s n c * s k c) * (A n k - ∑ c, s n c * s k c) :=
  Finset.sum_nonneg fun n _ => Finset.sum_nonneg fun k _ => mul_self_nonneg _

end Real

section EReal

variable {ι κ γ : Type*} [Fintype ι] [Fintype κ] [Fintype γ]

theorem triple_assoc_ereal (s : ι → ℝ) (a : ι → κ → ℝ) (t : κ → ℝ) :
    ∑ n, (s n : EReal) * ∑ k, (a n k : EReal) * (t k : EReal)
      = ∑ k, (∑ n, (s n : EReal) * (a n k : EReal)) * (t k : EReal) := by
  have h := congrArg (fun x : ℝ => (x : EReal)) (triple_assoc_real s a t)
  simpa only [← coe_sum_univ, EReal.coe_mul] using h

theorem frob_ereal (A : ι → ι → ℝ) (s : ι → γ → ℝ) :
    ∑ n, ∑ k, ((A n k : EReal) - ∑ c, (s n c : EReal) * (s k c : EReal))
        * ((A n k : EReal) - ∑ c, (s n c : EReal) * (s k c : EReal))
      = (∑ n, ∑ k, (A n k : EReal) * (A n k : EReal))
        - ((2 : ℝ) : EReal)
          * (∑ a, ∑ n, (s n a : EReal) * ∑ k, (A n k : EReal) * (s k a : EReal))
        + ∑ a, ∑ b, (∑ n, (s n a : EReal) * (s n b : EReal))
            * (∑ n, (s n a : EReal) * (s n b : EReal)) := by
  have h := congrArg (fun x : ℝ => (x : EReal)) (frob_real A s)
  simpa only [← coe_sum_univ, EReal.coe_mul, EReal.coe_add, EReal.coe_sub] using h

theorem frob_ereal_nonneg (A : ι → ι → ℝ) (s : ι → γ → ℝ) :
    (0 : EReal) ≤ ∑ n, ∑ k, ((A n k : EReal) - ∑ c, (s n c : EReal) * (s k c : EReal))
        * ((A n k : EReal) - ∑ c, (s n c : EReal) * (s k c : EReal)) := by
  have h : (0 : EReal) ≤ ((∑ n, ∑ k, (A n k - ∑ c, s n c * s k c)
      * (A n k - ∑ c, s n c * s k c) : ℝ) : EReal) :=
    EReal.coe_nonneg.2 (frob_nonneg_real A s)
  simpa only [← coe_sum_univ, EReal.coe_mul, EReal.coe_sub] using h

theorem frob_ereal_max (A : ι → ι → ℝ) (s : ι → γ → ℝ) :
    max ((∑ n, ∑ k, (A n k : EReal) * (A n k : EReal))
        - ((2 : ℝ) : EReal)
          * (∑ a, ∑ n, (s n a : EReal) * ∑ k, (A n k : EReal) * (s k a : EReal))
        + ∑ a, ∑ b, (∑ n, (s n a : EReal) * (s n b : EReal))
            * (∑ n, (s n a : EReal) * (s n b : EReal))) 0
      = ∑ n, ∑ k, ((A n k : EReal) - ∑ c, (s n c : EReal) * (s k c : EReal))
        * ((A n k : EReal) - ∑ c, (s n c : EReal) * (s k c : EReal)) := by
  rw [← frob_ereal A s]
  exact max_eq_left (frob_ereal_nonneg A s)

end EReal

section Index

theorem sum_fin_pad_gen {M : Type*} [AddCommMonoid M] (f : Fin 128 → M)
    (h : ∀ a : Fin 128, 100 ≤ a.val → f a = 0) :
    ∑ a : Fin 128, f a = ∑ a : Fin 100, f ⟨a.val, by omega⟩ := by
  have e := Fin.sum_trunc (a := 100) (b := 28) (fun i : Fin (100 + 28) => f i)
    (fun j => h _ (Nat.le_add_right 100 j.val))
  exact e

theorem sum_fin_pad_ereal (f : Fin 128 → EReal)
    (h : ∀ a : Fin 128, 100 ≤ a.val → f a = 0) :
    ∑ a : Fin 128, f a = ∑ a : Fin 100, f ⟨a.val, by omega⟩ :=
  sum_fin_pad_gen f h

theorem block_bound {m k a b : ℕ} (ha : a < m) (hb : b < k) : a * k + b < m * k :=
  calc a * k + b < a * k + k := Nat.add_lt_add_left hb _
    _ = (a + 1) * k := (Nat.succ_mul a k).symm
    _ ≤ m * k := Nat.mul_le_mul_right k ha

theorem sum_fin_mul {M : Type*} [AddCommMonoid M] (m k : ℕ) (f : Fin (m * k) → M) :
    ∑ n, f n = ∑ a : Fin m, ∑ b : Fin k, f ⟨a.val * k + b.val, block_bound a.isLt b.isLt⟩ := by
  rw [← Fintype.sum_prod_type']
  refine (Fintype.sum_equiv finProdFinEquiv _ _ ?_).symm
  rintro ⟨a, b⟩
  refine congrArg f (Fin.ext ?_)
  show a.val * k + b.val = b.val + k * a.val
  rw [Nat.mul_comm, Nat.add_comm]

theorem sum_blocks {M : Type*} [AddCommMonoid M] (P T R : ℕ) (f : Fin (P * T * R) → M) :
    ∑ n, f n = ∑ p : Fin P, ∑ i : Fin T, ∑ r : Fin R,
      f ⟨(p.val * T + i.val) * R + r.val,
        block_bound (block_bound p.isLt i.isLt) r.isLt⟩ :=
  (sum_fin_mul (P * T) R f).trans
    (sum_fin_mul P T (fun a : Fin (P * T) =>
      ∑ r : Fin R, f ⟨a.val * R + r.val, block_bound a.isLt r.isLt⟩))

theorem sum_rows_8192 {M : Type*} [AddCommMonoid M] (f : Fin 8192 → M) :
    ∑ n, f n = ∑ p : Fin 2, ∑ i : Fin 16, ∑ r : Fin 256,
      f ⟨(p.val * 16 + i.val) * 256 + r.val, by omega⟩ :=
  sum_blocks 2 16 256 f

end Index

end Cert.LibAlg
-- ==== Proof.Bridge.PoolRead.lean ====
import proofs.«401602_j3728031613303_3_alg».proof.Proof.Gen.ReferenceIdeal
import proofs.«401602_j3728031613303_3_alg».proof.Proof.Gen.KernelIdeal
import Idealize.ShloMosaic.Lib.StackMember
import Idealize.ShloMosaic.Lib.Pipeline.Value
import Idealize.ShloMosaic.Lib.IdealHost
import Idealize.ShloMosaic.Lib.ValueIdx
import proofs.«401602_j3728031613303_3_alg».proof.Proof.LibAlg

set_option maxRecDepth 16384

noncomputable section

namespace Cert.Bridge

open Idealize.ShloMosaic Idealize.ShloMosaic.ValueIdx Idealize.ShloMosaic.StackMember
open scoped BigOperators

namespace Ref

open Cert.ReferenceIdeal Cert.ReferenceIdeal.Gen

theorem transposeS_apply (s : FVec Ideal S8192x100 .f32) (a : Fin 100) (n : Fin 8192) :
    transpose S100x8192 [1, 0] s transposes_S8192x100_S100x8192_1_0 (ix2 a n) = s (ix2 n a) :=
  Idealize.ShloMosaic.transpose_apply [1, 0] s transposes_S8192x100_S100x8192_1_0 (ix2 a n) (ix2 n a)
    (fun b => match b with | ⟨0, _⟩ => rfl | ⟨1, _⟩ => rfl)

theorem dotX_apply (l : FVec Ideal S100x8192 .f32) (r : FVec Ideal S8192x512 .f32) (a : Fin 100) (f : Fin 512) :
    Host.dotGeneral dot_S100x8192_S8192x512_S100x512_1_0_0_1_n_n none l r (ix2 a f)
      = ∑ n : Fin 8192, l (ix2 a n) * r (ix2 n f) :=
  dotGeneral_plain_apply (m := 100) (n := 512) (k := 8192) none l r a f

theorem dotA_apply (l : FVec Ideal S100x8192 .f32) (r : FVec Ideal S8192x8192 .f32) (a : Fin 100) (k : Fin 8192) :
    Host.dotGeneral dot_S100x8192_S8192x8192_S100x8192_1_0_0_1_n_n none l r (ix2 a k)
      = ∑ n : Fin 8192, l (ix2 a n) * r (ix2 n k) :=
  dotGeneral_plain_apply (m := 100) (n := 8192) (k := 8192) none l r a k

theorem dotS_apply (l : FVec Ideal S100x8192 .f32) (r : FVec Ideal S8192x100 .f32) (a b : Fin 100) :
    Host.dotGeneral dot_S100x8192_S8192x100_S100x100_1_0_0_1_n_n none l r (ix2 a b)
      = ∑ k : Fin 8192, l (ix2 a k) * r (ix2 k b) :=
  dotGeneral_plain_apply (m := 100) (n := 100) (k := 8192) none l r a b

theorem dotG_apply (l : FVec Ideal S8192x100 .f32) (r : FVec Ideal S100x8192 .f32) (n k : Fin 8192) :
    Host.dotGeneral dot_S8192x100_S100x8192_S8192x8192_1_0_0_1_n_n none l r (ix2 n k)
      = ∑ c : Fin 100, l (ix2 n c) * r (ix2 c k) :=
  dotGeneral_plain_apply (m := 8192) (n := 8192) (k := 100) none l r n k

def poolX (s : FVec Ideal S8192x100 .f32) (x : FVec Ideal S8192x512 .f32) : FVec Ideal S100x512 .f32 :=
  Host.dotGeneral dot_S100x8192_S8192x512_S100x512_1_0_0_1_n_n none
    (transpose S100x8192 [1, 0] s transposes_S8192x100_S100x8192_1_0) x

theorem poolX_apply (s : FVec Ideal S8192x100 .f32) (x : FVec Ideal S8192x512 .f32) (a : Fin 100) (f : Fin 512) :
    poolX s x (ix2 a f) = ∑ n : Fin 8192, s (ix2 n a) * x (ix2 n f) := by
  unfold poolX
  rw [dotX_apply]
  exact Finset.sum_congr rfl fun n _ => by rw [transposeS_apply]

def poolA (s : FVec Ideal S8192x100 .f32) (A : FVec Ideal S8192x8192 .f32) : FVec Ideal S100x100 .f32 :=
  Host.dotGeneral dot_S100x8192_S8192x100_S100x100_1_0_0_1_n_n none
    (Host.dotGeneral dot_S100x8192_S8192x8192_S100x8192_1_0_0_1_n_n none
      (transpose S100x8192 [1, 0] s transposes_S8192x100_S100x8192_1_0) A) s

theorem poolA_apply (s : FVec Ideal S8192x100 .f32) (A : FVec Ideal S8192x8192 .f32) (a b : Fin 100) :
    poolA s A (ix2 a b) = ∑ k : Fin 8192, (∑ n : Fin 8192, s (ix2 n a) * A (ix2 n k)) * s (ix2 k b) := by
  unfold poolA
  rw [dotS_apply]
  refine Finset.sum_congr rfl fun k _ => ?_
  rw [dotA_apply]
  exact congrArg (· * s (ix2 k b)) (Finset.sum_congr rfl fun n _ => by rw [transposeS_apply])

end Ref

namespace Ref

open Cert.ReferenceIdeal Cert.ReferenceIdeal.Gen

def linkLoss (s : FVec Ideal S8192x100 .f32) (A : FVec Ideal S8192x8192 .f32) : FVec Ideal S_ .f32 :=
  Host.divf
    (Host.sqrt (Host.reduceAdd
      (mulf
        (subf A (Host.dotGeneral dot_S8192x100_S100x8192_S8192x8192_1_0_0_1_n_n none s
          (transpose S100x8192 [1, 0] s transposes_S8192x100_S100x8192_1_0)))
        (subf A (Host.dotGeneral dot_S8192x100_S100x8192_S8192x8192_1_0_0_1_n_n none s
          (transpose S100x8192 [1, 0] s transposes_S8192x100_S100x8192_1_0))))
      (constant (F := Ideal) S_ .f32 0x00000000#32) reducesTo_S8192x8192_S_d0_1 h_S_))
    (constant (F := Ideal) S_ .f32 0x4C800000#32)

theorem linkLoss_apply (s : FVec Ideal S8192x100 .f32) (A : FVec Ideal S8192x8192 .f32) (j : S_.Idx) :
    linkLoss s A j
      = Ideal.div (Ideal.sqrt (∑ n : Fin 8192, ∑ k : Fin 8192,
          (A (ix2 n k) - ∑ c : Fin 100, s (ix2 n c) * s (ix2 k c))
            * (A (ix2 n k) - ∑ c : Fin 100, s (ix2 n c) * s (ix2 k c))))
          (Ideal.ofBits .f32 0x4C800000#32) := by
  have hsum : Host.reduceAdd
      (mulf
        (subf A (Host.dotGeneral dot_S8192x100_S100x8192_S8192x8192_1_0_0_1_n_n none s
          (transpose S100x8192 [1, 0] s transposes_S8192x100_S100x8192_1_0)))
        (subf A (Host.dotGeneral dot_S8192x100_S100x8192_S8192x8192_1_0_0_1_n_n none s
          (transpose S100x8192 [1, 0] s transposes_S8192x100_S100x8192_1_0))))
      (constant (F := Ideal) S_ .f32 0x00000000#32) reducesTo_S8192x8192_S_d0_1 h_S_ j
      = ∑ n : Fin 8192, ∑ k : Fin 8192,
          (A (ix2 n k) - ∑ c : Fin 100, s (ix2 n c) * s (ix2 k c))
            * (A (ix2 n k) - ∑ c : Fin 100, s (ix2 n c) * s (ix2 k c)) := by
    rw [hostReduceAdd_apply, Ideal.hostReduceAdd_total _ (fun b => b.elim0), sum_idx2]
    show Ideal.ofBits .f32 0x00000000#32 + _ = _
    rw [Ideal.ofBits_zero_f32, zero_add]
    refine Finset.sum_congr rfl fun n _ => Finset.sum_congr rfl fun k _ => ?_
    show (A (ix2 n k) - Host.dotGeneral dot_S8192x100_S100x8192_S8192x8192_1_0_0_1_n_n none s
          (transpose S100x8192 [1, 0] s transposes_S8192x100_S100x8192_1_0) (ix2 n k))
        * (A (ix2 n k) - Host.dotGeneral dot_S8192x100_S100x8192_S8192x8192_1_0_0_1_n_n none s
          (transpose S100x8192 [1, 0] s transposes_S8192x100_S100x8192_1_0) (ix2 n k)) = _
    rw [dotG_apply]
    have e : ∑ c : Fin 100, s (ix2 n c) * transpose S100x8192 [1, 0] s transposes_S8192x100_S100x8192_1_0 (ix2 c k)
        = ∑ c : Fin 100, s (ix2 n c) * s (ix2 k c) :=
      Finset.sum_congr rfl fun c _ => by rw [transposeS_apply]
    rw [e]
  exact congrArg (fun z => Ideal.div (Ideal.sqrt z) (Ideal.ofBits .f32 0x4C800000#32)) hsum

def mk (g : IVec S8192 1) (n : Fin 8192) : EReal := (((g (ix1 n)).toNat : ℝ) : EReal)

theorem bit_mul_self (b : BitVec 1) : (((b.toNat : ℝ) : EReal)) * ((b.toNat : ℝ) : EReal) = ((b.toNat : ℝ) : EReal) := by
  have h : b.toNat = 0 ∨ b.toNat = 1 := by have := b.isLt; omega
  rcases h with h | h <;> rw [h] <;> simp

theorem mk_mul_self (g : IVec S8192 1) (n : Fin 8192) : mk g n * mk g n = mk g n := bit_mul_self _

theorem maskS_apply (g : IVec S8192 1) (n : Fin 8192) (a : Fin 100) :
    broadcastInDim S8192x100 ![0, 1] bcast_S8192x1_S8192x100_0_1
      (broadcastInDim S8192x1 ![0] bcast_S8192_S8192x1_0 (uitofp (F := Ideal) .f32 g)) (ix2 n a) = mk g n :=
  (broadcastInDim_apply _ _ _ (ix2 n a) (ix2 n (0 : Fin 1)) (fun d => match d with
      | ⟨0, _⟩ => (if_neg (by show ¬((8192 : ℕ) = 1); decide)).symm
      | ⟨1, _⟩ => (if_pos rfl).symm)).trans
    ((broadcastInDim_apply _ _ _ (ix2 n (0 : Fin 1)) (ix1 n) (fun d => match d with
      | ⟨0, _⟩ => (if_neg (by show ¬((8192 : ℕ) = 1); decide)).symm)).trans rfl)

theorem maskX_apply (g : IVec S8192 1) (n : Fin 8192) (f : Fin 512) :
    broadcastInDim S8192x512 ![0, 1] bcast_S8192x1_S8192x512_0_1
      (broadcastInDim S8192x1 ![0] bcast_S8192_S8192x1_0 (uitofp (F := Ideal) .f32 g)) (ix2 n f) = mk g n :=
  (broadcastInDim_apply _ _ _ (ix2 n f) (ix2 n (0 : Fin 1)) (fun d => match d with
      | ⟨0, _⟩ => (if_neg (by show ¬((8192 : ℕ) = 1); decide)).symm
      | ⟨1, _⟩ => (if_pos rfl).symm)).trans
    ((broadcastInDim_apply _ _ _ (ix2 n (0 : Fin 1)) (ix1 n) (fun d => match d with
      | ⟨0, _⟩ => (if_neg (by show ¬((8192 : ℕ) = 1); decide)).symm)).trans rfl)

def maskedS (q : FVec Ideal S8192x100 .f32) (g : IVec S8192 1) : FVec Ideal S8192x100 .f32 :=
  mulf q (broadcastInDim S8192x100 ![0, 1] bcast_S8192x1_S8192x100_0_1
    (broadcastInDim S8192x1 ![0] bcast_S8192_S8192x1_0 (uitofp (F := Ideal) .f32 g)))

def maskedX (x : FVec Ideal S8192x512 .f32) (g : IVec S8192 1) : FVec Ideal S8192x512 .f32 :=
  mulf x (broadcastInDim S8192x512 ![0, 1] bcast_S8192x1_S8192x512_0_1
    (broadcastInDim S8192x1 ![0] bcast_S8192_S8192x1_0 (uitofp (F := Ideal) .f32 g)))

theorem maskedS_apply (q : FVec Ideal S8192x100 .f32) (g : IVec S8192 1) (n : Fin 8192) (a : Fin 100) :
    maskedS q g (ix2 n a) = q (ix2 n a) * mk g n :=
  congrArg (q (ix2 n a) * ·) (maskS_apply g n a)

theorem maskedX_apply (x : FVec Ideal S8192x512 .f32) (g : IVec S8192 1) (n : Fin 8192) (f : Fin 512) :
    maskedX x g (ix2 n f) = x (ix2 n f) * mk g n :=
  congrArg (x (ix2 n f) * ·) (maskX_apply g n f)

theorem poolX_masked (q : FVec Ideal S8192x100 .f32) (x : FVec Ideal S8192x512 .f32) (g : IVec S8192 1)
    (a : Fin 100) (f : Fin 512) :
    poolX (maskedS q g) (maskedX x g) (ix2 a f) = ∑ n : Fin 8192, maskedS q g (ix2 n a) * x (ix2 n f) := by
  rw [poolX_apply]
  refine Finset.sum_congr rfl fun n _ => ?_
  rw [maskedX_apply, maskedS_apply, mul_mul_mul_comm, mk_mul_self, mul_right_comm]

end Ref

namespace Ker

open Cert.KernelIdeal Cert.KernelIdeal.Gen

theorem transposeS_apply (s : FVec Ideal S8192x100 .f32) (a : Fin 100) (n : Fin 8192) :
    transpose S100x8192 [1, 0] s transposes_S8192x100_S100x8192_1_0 (ix2 a n) = s (ix2 n a) :=
  Idealize.ShloMosaic.transpose_apply [1, 0] s transposes_S8192x100_S100x8192_1_0 (ix2 a n) (ix2 n a)
    (fun b => match b with | ⟨0, _⟩ => rfl | ⟨1, _⟩ => rfl)

theorem dotS_apply (l : FVec Ideal S100x8192 .f32) (r : FVec Ideal S8192x100 .f32) (a b : Fin 100) :
    Host.dotGeneral dot_S100x8192_S8192x100_S100x100_1_0_0_1_n_n none l r (ix2 a b)
      = ∑ k : Fin 8192, l (ix2 a k) * r (ix2 k b) :=
  dotGeneral_plain_apply (m := 100) (n := 100) (k := 8192) none l r a b

theorem ofBits_two_f32 : Ideal.ofBits .f32 0x40000000#32 = 2 := by
  rw [show (2 : EReal) = ((2 : ℝ) : EReal) by norm_cast]
  simp [Ideal.ofBits, Ideal.ieee, -EReal.coe_mul]; norm_num

def gramSq (s : FVec Ideal S8192x100 .f32) : FVec Ideal S_ .f32 :=
  Host.reduceAdd
    (mulf
      (Host.dotGeneral dot_S100x8192_S8192x100_S100x100_1_0_0_1_n_n none
        (transpose S100x8192 [1, 0] s transposes_S8192x100_S100x8192_1_0) s)
      (Host.dotGeneral dot_S100x8192_S8192x100_S100x100_1_0_0_1_n_n none
        (transpose S100x8192 [1, 0] s transposes_S8192x100_S100x8192_1_0) s))
    (constant (F := Ideal) S_ .f32 0x00000000#32) reducesTo_S100x100_S_d0_1 h_S_

theorem gramSq_apply (s : FVec Ideal S8192x100 .f32) (j : S_.Idx) :
    gramSq s j = ∑ a : Fin 100, ∑ b : Fin 100,
      (∑ n : Fin 8192, s (ix2 n a) * s (ix2 n b)) * (∑ n : Fin 8192, s (ix2 n a) * s (ix2 n b)) := by
  unfold gramSq
  rw [hostReduceAdd_apply, Ideal.hostReduceAdd_total _ (fun b => b.elim0), sum_idx2]
  show Ideal.ofBits .f32 0x00000000#32 + _ = _
  rw [Ideal.ofBits_zero_f32, zero_add]
  refine Finset.sum_congr rfl fun a _ => Finset.sum_congr rfl fun b _ => ?_
  show Host.dotGeneral dot_S100x8192_S8192x100_S100x100_1_0_0_1_n_n none
        (transpose S100x8192 [1, 0] s transposes_S8192x100_S100x8192_1_0) s (ix2 a b)
      * Host.dotGeneral dot_S100x8192_S8192x100_S100x100_1_0_0_1_n_n none
        (transpose S100x8192 [1, 0] s transposes_S8192x100_S100x8192_1_0) s (ix2 a b) = _
  rw [dotS_apply]
  have e : ∑ n : Fin 8192, transpose S100x8192 [1, 0] s transposes_S8192x100_S100x8192_1_0 (ix2 a n) * s (ix2 n b)
      = ∑ n : Fin 8192, s (ix2 n a) * s (ix2 n b) :=
    Finset.sum_congr rfl fun n _ => by rw [transposeS_apply]
  rw [e]

theorem ofBool_beq_eq_one {w : ℕ} (x y : BitVec w) : BitVec.ofBool (x == y) = (1 : BitVec 1) ↔ x = y := by
  by_cases h : x = y
  · subst h; simp
  · constructor
    · intro h'
      have hb : (x == y) = false := beq_eq_false_iff_ne.mpr h
      rw [hb] at h'
      exact absurd h' (by decide)
    · intro h'; exact absurd h' h

theorem diag_bit (a b : Fin 128) :
    IntOp.cmpi .eq (IntOp.addi (BitVec.ofNat 32 a.val) 0#32) (BitVec.ofNat 32 b.val) = (1 : BitVec 1) ↔ a = b := by
  have ha := a.isLt
  have hb := b.isLt
  have key : (BitVec.ofNat 32 a.val + 0#32 = BitVec.ofNat 32 b.val) ↔ a = b := by
    rw [BitVec.add_zero]
    constructor
    · intro h2
      have h3 := congrArg BitVec.toNat h2
      simp only [BitVec.toNat_ofNat] at h3
      exact Fin.ext (by omega)
    · rintro rfl; rfl
  show BitVec.ofBool (BitVec.ofNat 32 a.val + 0#32 == BitVec.ofNat 32 b.val) = 1 ↔ a = b
  rw [ofBool_beq_eq_one]
  exact key

def trace128 (v : FVec Ideal S128x128 .f32) : FVec Ideal S_ .f32 :=
  Host.reduceAdd
    (select
      (cmpi .eq
        (addi (iotaInDim S128x128 32 0) (broadcastInDim S128x128 ![] bcast_S_S128x128 (constantI S_ 32 0#32)))
        (iotaInDim S128x128 32 1))
      v
      (broadcastInDim S128x128 ![] bcast_S_S128x128 (constant (F := Ideal) S_ .f32 0x00000000#32)))
    (constant (F := Ideal) S_ .f32 0x00000000#32) reducesTo_S128x128_S_d0_1 h_S_

theorem trace128_apply (v : FVec Ideal S128x128 .f32) (j : S_.Idx) :
    trace128 v j = ∑ a : Fin 128, v (ix2 a a) := by
  unfold trace128
  rw [hostReduceAdd_apply, Ideal.hostReduceAdd_total _ (fun b => b.elim0), sum_idx2]
  show Ideal.ofBits .f32 0x00000000#32 + _ = _
  rw [Ideal.ofBits_zero_f32, zero_add]
  refine Finset.sum_congr rfl fun a _ => ?_
  have hterm : ∀ b : Fin 128,
      select
        (cmpi .eq
          (addi (iotaInDim S128x128 32 0) (broadcastInDim S128x128 ![] bcast_S_S128x128 (constantI S_ 32 0#32)))
          (iotaInDim S128x128 32 1))
        v
        (broadcastInDim S128x128 ![] bcast_S_S128x128 (constant (F := Ideal) S_ .f32 0x00000000#32)) (ix2 a b)
      = if a = b then v (ix2 a b) else 0 := by
    intro b
    show Scalar.select (IntOp.cmpi .eq (IntOp.addi (BitVec.ofNat 32 a.val) 0#32) (BitVec.ofNat 32 b.val))
      (v (ix2 a b)) (Ideal.ofBits .f32 0x00000000#32) = _
    unfold Scalar.select
    by_cases hab : a = b
    · rw [if_pos ((diag_bit a b).mpr hab), if_pos hab]
    · rw [if_neg (fun h => hab ((diag_bit a b).mp h)), if_neg hab, Ideal.ofBits_zero_f32]
  rw [Finset.sum_congr rfl fun b _ => hterm b, Finset.sum_ite_eq]
  simp

def linkLoss (t : FVec Ideal S128x128 .f32) (e : FVec Ideal S_ .f32) (s : FVec Ideal S8192x100 .f32) :
    FVec Ideal S_ .f32 :=
  Host.divf
    (Host.sqrt (maximumf
      (addf (subf e (mulf (constant (F := Ideal) S_ .f32 0x40000000#32) (trace128 t))) (gramSq s))
      (constant (F := Ideal) S_ .f32 0x00000000#32)))
    (constant (F := Ideal) S_ .f32 0x4C800000#32)

theorem linkLoss_apply (t : FVec Ideal S128x128 .f32) (e : FVec Ideal S_ .f32) (s : FVec Ideal S8192x100 .f32)
    (j : S_.Idx) :
    linkLoss t e s j
      = Ideal.div (Ideal.sqrt (max
          (e j - 2 * (∑ a : Fin 128, t (ix2 a a))
            + ∑ a : Fin 100, ∑ b : Fin 100,
                (∑ n : Fin 8192, s (ix2 n a) * s (ix2 n b)) * (∑ n : Fin 8192, s (ix2 n a) * s (ix2 n b))) 0))
          (Ideal.ofBits .f32 0x4C800000#32) := by
  show Ideal.div (Ideal.sqrt (max (e j - Ideal.ofBits .f32 0x40000000#32 * trace128 t j + gramSq s j)
      (Ideal.ofBits .f32 0x00000000#32))) (Ideal.ofBits .f32 0x4C800000#32) = _
  rw [trace128_apply, gramSq_apply, ofBits_two_f32, Ideal.ofBits_zero_f32]

end Ker

namespace Alg

open Cert.LibAlg

theorem adj_assoc (s : Fin 8192 → Fin 100 → EReal) (A : Fin 8192 → Fin 8192 → EReal)
    (hs : ∀ n a, IsReal (s n a)) (hA : ∀ n k, IsReal (A n k)) (a b : Fin 100) :
    ∑ n : Fin 8192, s n a * ∑ k : Fin 8192, A n k * s k b
      = ∑ k : Fin 8192, (∑ n : Fin 8192, s n a * A n k) * s k b := by
  obtain ⟨sr, hsr⟩ := exists_real_fun2 s hs
  obtain ⟨Ar, hAr⟩ := exists_real_fun2 A hA
  simp only [hsr, hAr]
  exact triple_assoc_ereal (fun n => sr n a) Ar (fun k => sr k b)

theorem trace_pad (Sp : Fin 8192 → Fin 128 → EReal) (s : Fin 8192 → Fin 100 → EReal) (A : Fin 8192 → Fin 8192 → EReal)
    (hSp1 : ∀ (n : Fin 8192) (a : Fin 100), Sp n ⟨a.val, by omega⟩ = s n a)
    (hSp0 : ∀ (n : Fin 8192) (a : Fin 128), 100 ≤ a.val → Sp n a = 0) :
    ∑ a : Fin 128, ∑ n : Fin 8192, Sp n a * ∑ k : Fin 8192, A n k * Sp k a
      = ∑ a : Fin 100, ∑ n : Fin 8192, s n a * ∑ k : Fin 8192, A n k * s k a := by
  rw [sum_fin_pad_ereal _ (fun a ha => Finset.sum_eq_zero fun n _ => by rw [hSp0 n a ha, zero_mul])]
  refine Finset.sum_congr rfl fun a _ => Finset.sum_congr rfl fun n _ => ?_
  rw [hSp1 n a]
  exact congrArg (s n a * ·) (Finset.sum_congr rfl fun k _ => by rw [hSp1 k a])

theorem frob_max (s : Fin 8192 → Fin 100 → EReal) (A : Fin 8192 → Fin 8192 → EReal)
    (hs : ∀ n a, IsReal (s n a)) (hA : ∀ n k, IsReal (A n k)) :
    max ((∑ n : Fin 8192, ∑ k : Fin 8192, A n k * A n k)
        - 2 * (∑ a : Fin 100, ∑ n : Fin 8192, s n a * ∑ k : Fin 8192, A n k * s k a)
        + ∑ a : Fin 100, ∑ b : Fin 100, (∑ n : Fin 8192, s n a * s n b) * (∑ n : Fin 8192, s n a * s n b)) 0
      = ∑ n : Fin 8192, ∑ k : Fin 8192,
          (A n k - ∑ c : Fin 100, s n c * s k c) * (A n k - ∑ c : Fin 100, s n c * s k c) := by
  obtain ⟨sr, hsr⟩ := exists_real_fun2 s hs
  obtain ⟨Ar, hAr⟩ := exists_real_fun2 A hA
  simp only [hsr, hAr]
  rw [← coe_two]
  exact frob_ereal_max Ar sr

end Alg

namespace Join

open Cert.LibAlg

theorem adj (s : FVec Ideal Cert.ReferenceIdeal.S8192x100 .f32) (A : FVec Ideal Cert.ReferenceIdeal.S8192x8192 .f32)
    (hs : ∀ i, IsReal (s i)) (hA : ∀ i, IsReal (A i)) (a b : Fin 100) :
    ∑ n : Fin 8192, s (ix2 n a) * ∑ k : Fin 8192, A (ix2 n k) * s (ix2 k b) = Ref.poolA s A (ix2 a b) := by
  rw [Ref.poolA_apply]
  exact Alg.adj_assoc (fun n a => s (ix2 n a)) (fun n k => A (ix2 n k)) (fun n a => hs _) (fun n k => hA _) a b

theorem link (s : FVec Ideal Cert.ReferenceIdeal.S8192x100 .f32) (A : FVec Ideal Cert.ReferenceIdeal.S8192x8192 .f32)
    (hs : ∀ i, IsReal (s i)) (hA : ∀ i, IsReal (A i))
    (t : FVec Ideal Cert.KernelIdeal.S128x128 .f32) (e : FVec Ideal Cert.KernelIdeal.S_ .f32)
    (Sp : Fin 8192 → Fin 128 → EReal)
    (hSp1 : ∀ (n : Fin 8192) (a : Fin 100), Sp n ⟨a.val, by omega⟩ = s (ix2 n a))
    (hSp0 : ∀ (n : Fin 8192) (a : Fin 128), 100 ≤ a.val → Sp n a = 0)
    (ht : ∀ a : Fin 128, t (ix2 a a) = ∑ n : Fin 8192, Sp n a * ∑ k : Fin 8192, A (ix2 n k) * Sp k a)
    (he : ∀ j, e j = ∑ n : Fin 8192, ∑ k : Fin 8192, A (ix2 n k) * A (ix2 n k)) (j : Cert.KernelIdeal.S_.Idx) :
    Ker.linkLoss t e s j = Ref.linkLoss s A j := by
  rw [Ker.linkLoss_apply, Ref.linkLoss_apply, he j, Finset.sum_congr rfl fun a _ => ht a,
    Alg.trace_pad Sp (fun n a => s (ix2 n a)) (fun n k => A (ix2 n k)) hSp1 hSp0,
    Alg.frob_max (fun n a => s (ix2 n a)) (fun n k => A (ix2 n k)) (fun n a => hs _) (fun n k => hA _)]

end Join

end Cert.Bridge

end
-- ==== Proof.KI.PayIdx.lean ====
import proofs.«401602_j3728031613303_3_alg».proof.Proof.KI.Data
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx
open Cert.KernelIdeal Cert.KernelIdeal.Gen
open scoped BigOperators

theorem reset5_apply (j : S1x128x128.Idx) : (k0_pay3 (F := Ideal)) j = 0 := by
  obtain ⟨u, a, b, rfl⟩ : ∃ (u : Fin 1) (a : Fin 128) (b : Fin 128), j = ix3 u a b := ⟨j 0, j 1, j 2, eq_ix3 j⟩
  unfold k0_pay3
  refine (shapeCast_ab_1ab_apply _ _ u a b).trans ?_
  exact Ideal.ofBits_zero_f32

theorem reset6_apply (j : S1x8x128.Idx) : (k0_pay4 (F := Ideal)) j = 0 := by
  obtain ⟨u, a, b, rfl⟩ : ∃ (u : Fin 1) (a : Fin 8) (b : Fin 128), j = ix3 u a b := ⟨j 0, j 1, j 2, eq_ix3 j⟩
  unfold k0_pay4
  refine (shapeCast_ab_1ab_apply _ _ u a b).trans ?_
  exact Ideal.ofBits_zero_f32

theorem reset7_apply (j : S1x128x512.Idx) : (k0_pay5 (F := Ideal)) j = 0 := by
  obtain ⟨u, a, b, rfl⟩ : ∃ (u : Fin 1) (a : Fin 128) (b : Fin 512), j = ix3 u a b := ⟨j 0, j 1, j 2, eq_ix3 j⟩
  unfold k0_pay5
  refine (shapeCast_ab_1ab_apply _ _ u a b).trans ?_
  exact Ideal.ofBits_zero_f32

theorem lhs_tt128_0 (j : S128x128.Idx) (k : dot_S256x128_S256x128_S128x128_0_0_1_1_n_n.contr.Idx) :
    (dot_S256x128_S256x128_S128x128_0_0_1_1_n_n.lhsIdx j k 0).val = (k ⟨0, by decide⟩).val :=
  DotDims.lhsIdx_val_of_single _ rfl j k

theorem lhs_tt128_1 (j : S128x128.Idx) (k : dot_S256x128_S256x128_S128x128_0_0_1_1_n_n.contr.Idx) :
    (dot_S256x128_S256x128_S128x128_0_0_1_1_n_n.lhsIdx j k 1).val = (j 0).val := rfl

theorem rhs_tt128_0 (j : S128x128.Idx) (k : dot_S256x128_S256x128_S128x128_0_0_1_1_n_n.contr.Idx) :
    (dot_S256x128_S256x128_S128x128_0_0_1_1_n_n.rhsIdx j k 0).val = (k ⟨0, by decide⟩).val :=
  DotDims.rhsIdx_val_of_single _ rfl j k

theorem rhs_tt128_1 (j : S128x128.Idx) (k : dot_S256x128_S256x128_S128x128_0_0_1_1_n_n.contr.Idx) :
    (dot_S256x128_S256x128_S128x128_0_0_1_1_n_n.rhsIdx j k 1).val = (j 1).val := rfl

theorem matmul_tt128_apply (x y : FVec Ideal S256x128 .f32) (a b : Fin 128) :
    matmul dot_S256x128_S256x128_S128x128_0_0_1_1_n_n none x y (constant S128x128 .f32 0x00000000#32) (ix2 a b)
      = ∑ r : Fin 256, x (ix2 r a) * y (ix2 r b) := by
  refine (Ideal.matmul_constant_zero_apply dot_S256x128_S256x128_S128x128_0_0_1_1_n_n none x y (ix2 a b)).trans ?_
  refine (Equiv.sum_comp (contrEquiv1 dot_S256x128_S256x128_S128x128_0_0_1_1_n_n 256 rfl rfl).symm _).symm.trans ?_
  refine Finset.sum_congr rfl fun r _ => ?_
  have hk := contrEquiv1_symm_val dot_S256x128_S256x128_S128x128_0_0_1_1_n_n 256 rfl rfl r
  have hl : dot_S256x128_S256x128_S128x128_0_0_1_1_n_n.lhsIdx (ix2 a b)
      ((contrEquiv1 dot_S256x128_S256x128_S128x128_0_0_1_1_n_n 256 rfl rfl).symm r) = ix2 r a := by
    funext c; refine Fin.ext ?_
    match c with
    | ⟨0, _⟩ => exact (lhs_tt128_0 _ _).trans hk
    | ⟨1, _⟩ => exact lhs_tt128_1 _ _
  have hr : dot_S256x128_S256x128_S128x128_0_0_1_1_n_n.rhsIdx (ix2 a b)
      ((contrEquiv1 dot_S256x128_S256x128_S128x128_0_0_1_1_n_n 256 rfl rfl).symm r) = ix2 r b := by
    funext c; refine Fin.ext ?_
    match c with
    | ⟨0, _⟩ => exact (rhs_tt128_0 _ _).trans hk
    | ⟨1, _⟩ => exact rhs_tt128_1 _ _
  rw [hl, hr]

theorem lhs_tt512_0 (j : S128x512.Idx) (k : dot_S256x128_S256x512_S128x512_0_0_1_1_n_n.contr.Idx) :
    (dot_S256x128_S256x512_S128x512_0_0_1_1_n_n.lhsIdx j k 0).val = (k ⟨0, by decide⟩).val :=
  DotDims.lhsIdx_val_of_single _ rfl j k

theorem lhs_tt512_1 (j : S128x512.Idx) (k : dot_S256x128_S256x512_S128x512_0_0_1_1_n_n.contr.Idx) :
    (dot_S256x128_S256x512_S128x512_0_0_1_1_n_n.lhsIdx j k 1).val = (j 0).val := rfl

theorem rhs_tt512_0 (j : S128x512.Idx) (k : dot_S256x128_S256x512_S128x512_0_0_1_1_n_n.contr.Idx) :
    (dot_S256x128_S256x512_S128x512_0_0_1_1_n_n.rhsIdx j k 0).val = (k ⟨0, by decide⟩).val :=
  DotDims.rhsIdx_val_of_single _ rfl j k

theorem rhs_tt512_1 (j : S128x512.Idx) (k : dot_S256x128_S256x512_S128x512_0_0_1_1_n_n.contr.Idx) :
    (dot_S256x128_S256x512_S128x512_0_0_1_1_n_n.rhsIdx j k 1).val = (j 1).val := rfl

theorem matmul_tt512_apply (x : FVec Ideal S256x128 .f32) (y : FVec Ideal S256x512 .f32) (a : Fin 128) (f : Fin 512) :
    matmul dot_S256x128_S256x512_S128x512_0_0_1_1_n_n none x y (constant S128x512 .f32 0x00000000#32) (ix2 a f)
      = ∑ r : Fin 256, x (ix2 r a) * y (ix2 r f) := by
  refine (Ideal.matmul_constant_zero_apply dot_S256x128_S256x512_S128x512_0_0_1_1_n_n none x y (ix2 a f)).trans ?_
  refine (Equiv.sum_comp (contrEquiv1 dot_S256x128_S256x512_S128x512_0_0_1_1_n_n 256 rfl rfl).symm _).symm.trans ?_
  refine Finset.sum_congr rfl fun r _ => ?_
  have hk := contrEquiv1_symm_val dot_S256x128_S256x512_S128x512_0_0_1_1_n_n 256 rfl rfl r
  have hl : dot_S256x128_S256x512_S128x512_0_0_1_1_n_n.lhsIdx (ix2 a f)
      ((contrEquiv1 dot_S256x128_S256x512_S128x512_0_0_1_1_n_n 256 rfl rfl).symm r) = ix2 r a := by
    funext c; refine Fin.ext ?_
    match c with
    | ⟨0, _⟩ => exact (lhs_tt512_0 _ _).trans hk
    | ⟨1, _⟩ => exact lhs_tt512_1 _ _
  have hr : dot_S256x128_S256x512_S128x512_0_0_1_1_n_n.rhsIdx (ix2 a f)
      ((contrEquiv1 dot_S256x128_S256x512_S128x512_0_0_1_1_n_n 256 rfl rfl).symm r) = ix2 r f := by
    funext c; refine Fin.ext ?_
    match c with
    | ⟨0, _⟩ => exact (rhs_tt512_0 _ _).trans hk
    | ⟨1, _⟩ => exact rhs_tt512_1 _ _
  rw [hl, hr]

theorem lhs_rc_0 (j : S256x128.Idx) (k : dot_S256x8192_S8192x128_S256x128_1_0_0_1_n_n.contr.Idx) :
    (dot_S256x8192_S8192x128_S256x128_1_0_0_1_n_n.lhsIdx j k 0).val = (j 0).val := rfl

theorem lhs_rc_1 (j : S256x128.Idx) (k : dot_S256x8192_S8192x128_S256x128_1_0_0_1_n_n.contr.Idx) :
    (dot_S256x8192_S8192x128_S256x128_1_0_0_1_n_n.lhsIdx j k 1).val = (k ⟨0, by decide⟩).val :=
  DotDims.lhsIdx_val_of_single _ rfl j k

theorem rhs_rc_0 (j : S256x128.Idx) (k : dot_S256x8192_S8192x128_S256x128_1_0_0_1_n_n.contr.Idx) :
    (dot_S256x8192_S8192x128_S256x128_1_0_0_1_n_n.rhsIdx j k 0).val = (k ⟨0, by decide⟩).val :=
  DotDims.rhsIdx_val_of_single _ rfl j k

theorem rhs_rc_1 (j : S256x128.Idx) (k : dot_S256x8192_S8192x128_S256x128_1_0_0_1_n_n.contr.Idx) :
    (dot_S256x8192_S8192x128_S256x128_1_0_0_1_n_n.rhsIdx j k 1).val = (j 1).val := rfl

theorem matmul_rc_apply (x : FVec Ideal S256x8192 .bf16) (y : FVec Ideal S8192x128 .bf16) (r : Fin 256) (b : Fin 128) :
    matmul dot_S256x8192_S8192x128_S256x128_1_0_0_1_n_n none x y (constant S256x128 .f32 0x00000000#32) (ix2 r b)
      = ∑ k : Fin 8192, x (ix2 r k) * y (ix2 k b) := by
  refine (Ideal.matmul_constant_zero_apply dot_S256x8192_S8192x128_S256x128_1_0_0_1_n_n none x y (ix2 r b)).trans ?_
  refine (Equiv.sum_comp (contrEquiv1 dot_S256x8192_S8192x128_S256x128_1_0_0_1_n_n 8192 rfl rfl).symm _).symm.trans ?_
  refine Finset.sum_congr rfl fun k _ => ?_
  have hk := contrEquiv1_symm_val dot_S256x8192_S8192x128_S256x128_1_0_0_1_n_n 8192 rfl rfl k
  have hl : dot_S256x8192_S8192x128_S256x128_1_0_0_1_n_n.lhsIdx (ix2 r b)
      ((contrEquiv1 dot_S256x8192_S8192x128_S256x128_1_0_0_1_n_n 8192 rfl rfl).symm k) = ix2 r k := by
    funext c; refine Fin.ext ?_
    match c with
    | ⟨0, _⟩ => exact lhs_rc_0 _ _
    | ⟨1, _⟩ => exact (lhs_rc_1 _ _).trans hk
  have hr : dot_S256x8192_S8192x128_S256x128_1_0_0_1_n_n.rhsIdx (ix2 r b)
      ((contrEquiv1 dot_S256x8192_S8192x128_S256x128_1_0_0_1_n_n 8192 rfl rfl).symm k) = ix2 k b := by
    funext c; refine Fin.ext ?_
    match c with
    | ⟨0, _⟩ => exact (rhs_rc_0 _ _).trans hk
    | ⟨1, _⟩ => exact rhs_rc_1 _ _
  rw [hl, hr]

theorem step5_apply (x0 : Vec Ideal S256x8192 .f32) (x1 : Vec Ideal S256x128 .f32) (x2 x3 : Vec Ideal S8192x128 .bf16)
    (p5 : Vec Ideal S1x128x128 .f32) (a b : Fin 128) :
    k0_pay7 x0 x1 x2 x3 p5 (ix3 (0 : Fin 1) a b)
      = p5 (ix3 (0 : Fin 1) a b) + ∑ r : Fin 256, x1 (ix2 r a) *
          ((∑ k : Fin 8192, (x0 (ix2 r k) : EReal) * (x2 (ix2 k b) : EReal)
              + ∑ k : Fin 8192, (x0 (ix2 r k) : EReal) * (x3 (ix2 k b) : EReal))
            + ∑ k : Fin 8192, ((x0 (ix2 r k) : EReal) - (x0 (ix2 r k) : EReal)) * (x2 (ix2 k b) : EReal)) := by
  unfold k0_pay7 k0_pay6
  refine (shapeCast_ab_1ab_apply _ _ (0 : Fin 1) a b).trans ?_
  refine (addf_apply _ _ _).trans ?_
  refine congrArg₂ (· + ·) ?_ ?_
  · exact shapeCast_1ab_ab_apply p5 _ a b
  · refine (matmul_tt128_apply _ _ a b).trans ?_
    refine Finset.sum_congr rfl fun r _ => ?_
    refine congrArg₂ (· * ·) ?_ ?_
    · rw [shapeCast_self]
    · refine (addf_apply _ _ _).trans ?_
      refine congrArg₂ (· + ·) ?_ ?_
      · refine (addf_apply _ _ _).trans ?_
        refine congrArg₂ (· + ·) ?_ ?_
        · refine (matmul_rc_apply _ _ r b).trans ?_
          rw [shapeCast_self]; rfl
        · refine (matmul_rc_apply _ _ r b).trans ?_
          rw [shapeCast_self]; rfl
      · refine (matmul_rc_apply _ _ r b).trans ?_
        rw [shapeCast_self]; rfl

theorem step6_apply (x0 : Vec Ideal S256x8192 .f32) (p6 : Vec Ideal S1x8x128 .f32) (u : Fin 8) (v : Fin 128) :
    k0_pay2 x0 p6 (ix3 (0 : Fin 1) u v)
      = p6 (ix3 (0 : Fin 1) u v) + ∑ r : Fin 256, ∑ k : Fin 8192, x0 (ix2 r k) * x0 (ix2 r k) := by
  unfold k0_pay2
  refine (shapeCast_ab_1ab_apply _ _ (0 : Fin 1) u v).trans ?_
  refine (addf_apply _ _ _).trans ?_
  refine congrArg₂ (· + ·) ?_ ?_
  · exact shapeCast_1ab_ab_apply p6 _ u v
  · refine (broadcastTo_apply _ broadcasts_S1x1_S8x128 (ix2 u v) (ix2 (0 : Fin 1) (0 : Fin 1)) fun ax => ?_).trans ?_
    · match ax with
      | ⟨0, _⟩ => rfl
      | ⟨1, _⟩ => rfl
    rw [shapeCast_self]
    refine (broadcast_apply _ _).trans ?_
    refine (shapeCast_apply _ shapeCasts_S1_S1x1x1 _ (ix1 (0 : Fin 1)) ?_).trans ?_
    · rw [Shape.rowMajor_val_one, Shape.rowMajor_val_three]; rfl
    refine (Ideal.multiReduction_add_total _ _ reduces_S1x256x8192_S1 (fun b => ?_) (.inl rfl) rfl _).trans ?_
    · match b with
      | ⟨0, _⟩ => rfl
    refine (Equiv.sum_comp (Shape.reshapeEquiv shapeCasts_S256x8192_S1x256x8192) (fun i => (x0 i : EReal) * (x0 i : EReal))).trans ?_
    exact sum_idx2 _

theorem step7_apply (x1 : Vec Ideal S256x128 .f32) (x4 : Vec Ideal S256x512 .f32) (p7 : Vec Ideal S1x128x512 .f32)
    (a : Fin 128) (f : Fin 512) :
    k0_pay1 (k0_pay8 p7) (k0_pay9 x1 x4) (ix3 (0 : Fin 1) a f)
      = p7 (ix3 (0 : Fin 1) a f) + ∑ r : Fin 256, x1 (ix2 r a) * x4 (ix2 r f) := by
  unfold k0_pay1 k0_pay8 k0_pay9 k0_pay6
  refine (shapeCast_ab_1ab_apply _ _ (0 : Fin 1) a f).trans ?_
  refine (addf_apply _ _ _).trans ?_
  refine congrArg₂ (· + ·) ?_ ?_
  · exact shapeCast_1ab_ab_apply p7 _ a f
  · rw [shapeCast_self]
    exact matmul_tt512_apply x1 x4 a f

end Cert.KernelIdeal.Hand

end
-- ==== Proof.KI.RegionArr.lean ====
import proofs.«401602_j3728031613303_3_alg».proof.Proof.KI.Data
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

theorem N32 : cfg0.N = 32 := N_0

theorem last_lt (p : Fin 2) : 16 * p.val + 15 < cfg0.N := by
  have := p.isLt; have := N32; omega

theorem idx_out : ∀ t : Fin cfg0.N,
    win0_5.index t (0 : Fin 3) = t.val / 16 ∧ win0_5.index t (1 : Fin 3) = 0 ∧ win0_5.index t (2 : Fin 3) = 0
    ∧ win0_6.index t (0 : Fin 3) = t.val / 16 ∧ win0_6.index t (1 : Fin 3) = 0 ∧ win0_6.index t (2 : Fin 3) = 0
    ∧ win0_7.index t (0 : Fin 3) = t.val / 16 ∧ win0_7.index t (1 : Fin 3) = 0 ∧ win0_7.index t (2 : Fin 3) = 0 :=
  (by decide +kernel : ∀ t : Fin grid0.N, _)

theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem row_lt (t : Fin cfg0.N) (r : Fin 256) : 256 * t.val + r.val < 8192 := by
  have := t.isLt; have := N32; have := r.isLt; omega

theorem iblk0_apply (c : Dev nD) (t : Fin cfg0.N) (r : Fin 256) (k : Fin 8192) :
    (iblk m c 0 t : Vec F S256x8192 .f32) (ix2 r k)
      = (V m c main_arg3 : Vec F S8192x8192 .f32) (ix2 ⟨256 * t.val + r.val, row_lt t r⟩ k) := by
  obtain ⟨e00, e01, e10, e11, e20, e21, e30, e31, e40, e41⟩ := idx_in t
  unfold iblk
  rw [View.read_apply]
  show (V m c main_arg3 : Vec F S8192x8192 .f32) _ = (V m c main_arg3 : Vec F S8192x8192 .f32) _
  refine congrArg (V m c main_arg3 : Vec F S8192x8192 .f32) (funext fun d => Fin.ext ?_)
  match d with
  | ⟨0, _⟩ => show win0_0.index t (0 : Fin 2) * 256 + 1 * r.val = 256 * t.val + r.val; rw [e00]; omega
  | ⟨1, _⟩ => show win0_0.index t (1 : Fin 2) * 8192 + 1 * k.val = k.val; rw [e01]; omega

theorem iblk1_apply (c : Dev nD) (t : Fin cfg0.N) (r : Fin 256) (a : Fin 128) :
    (iblk m c 1 t : Vec F S256x128 .f32) (ix2 r a)
      = (V m c main_v97 : Vec F S8192x128 .f32) (ix2 ⟨256 * t.val + r.val, row_lt t r⟩ a) := by
  obtain ⟨e00, e01, e10, e11, e20, e21, e30, e31, e40, e41⟩ := idx_in t
  unfold iblk
  rw [View.read_apply]
  show (V m c main_v97 : Vec F S8192x128 .f32) _ = (V m c main_v97 : Vec F S8192x128 .f32) _
  refine congrArg (V m c main_v97 : Vec F S8192x128 .f32) (funext fun d => Fin.ext ?_)
  match d with
  | ⟨0, _⟩ => show win0_1.index t (0 : Fin 2) * 256 + 1 * r.val = 256 * t.val + r.val; rw [e10]; omega
  | ⟨1, _⟩ => show win0_1.index t (1 : Fin 2) * 128 + 1 * a.val = a.val; rw [e11]; omega

theorem iblk2_eq (c : Dev nD) (t : Fin cfg0.N) :
    (iblk m c 2 t : Vec F S8192x128 .bf16) = (V m c main_v98 : Vec F S8192x128 .bf16) := by
  obtain ⟨e00, e01, e10, e11, e20, e21, e30, e31, e40, e41⟩ := idx_in t
  funext y
  unfold iblk
  rw [View.read_apply]
  show (V m c main_v98 : Vec F S8192x128 .bf16) _ = (V m c main_v98 : Vec F S8192x128 .bf16) y
  refine congrArg (V m c main_v98 : Vec F S8192x128 .bf16) (funext fun a => Fin.ext ?_)
  match a with
  | ⟨0, _⟩ => show win0_2.index t (0 : Fin 2) * 8192 + 1 * (y 0).val = (y 0).val; rw [e20]; omega
  | ⟨1, _⟩ => show win0_2.index t (1 : Fin 2) * 128 + 1 * (y 1).val = (y 1).val; rw [e21]; omega

theorem iblk2_apply (c : Dev nD) (t : Fin cfg0.N) (k : Fin 8192) (b : Fin 128) :
    (iblk m c 2 t : Vec F S8192x128 .bf16) (ix2 k b) = (V m c main_v98 : Vec F S8192x128 .bf16) (ix2 k b) :=
  congrFun (iblk2_eq m c t) (ix2 k b)

theorem iblk3_eq (c : Dev nD) (t : Fin cfg0.N) :
    (iblk m c 3 t : Vec F S8192x128 .bf16) = (V m c main_v101 : Vec F S8192x128 .bf16) := by
  obtain ⟨e00, e01, e10, e11, e20, e21, e30, e31, e40, e41⟩ := idx_in t
  funext y
  unfold iblk
  rw [View.read_apply]
  show (V m c main_v101 : Vec F S8192x128 .bf16) _ = (V m c main_v101 : Vec F S8192x128 .bf16) y
  refine congrArg (V m c main_v101 : Vec F S8192x128 .bf16) (funext fun a => Fin.ext ?_)
  match a with
  | ⟨0, _⟩ => show win0_3.index t (0 : Fin 2) * 8192 + 1 * (y 0).val = (y 0).val; rw [e30]; omega
  | ⟨1, _⟩ => show win0_3.index t (1 : Fin 2) * 128 + 1 * (y 1).val = (y 1).val; rw [e31]; omega

theorem iblk3_apply (c : Dev nD) (t : Fin cfg0.N) (k : Fin 8192) (b : Fin 128) :
    (iblk m c 3 t : Vec F S8192x128 .bf16) (ix2 k b) = (V m c main_v101 : Vec F S8192x128 .bf16) (ix2 k b) :=
  congrFun (iblk3_eq m c t) (ix2 k b)

theorem iblk4_apply (c : Dev nD) (t : Fin cfg0.N) (r : Fin 256) (f : Fin 512) :
    (iblk m c 4 t : Vec F S256x512 .f32) (ix2 r f)
      = (V m c main_arg0 : Vec F S8192x512 .f32) (ix2 ⟨256 * t.val + r.val, row_lt t r⟩ f) := by
  obtain ⟨e00, e01, e10, e11, e20, e21, e30, e31, e40, e41⟩ := idx_in t
  unfold iblk
  rw [View.read_apply]
  show (V m c main_arg0 : Vec F S8192x512 .f32) _ = (V m c main_arg0 : Vec F S8192x512 .f32) _
  refine congrArg (V m c main_arg0 : Vec F S8192x512 .f32) (funext fun d => Fin.ext ?_)
  match d with
  | ⟨0, _⟩ => show win0_4.index t (0 : Fin 2) * 256 + 1 * r.val = 256 * t.val + r.val; rw [e40]; omega
  | ⟨1, _⟩ => show win0_4.index t (1 : Fin 2) * 512 + 1 * f.val = f.val; rw [e41]; omega

theorem tile_lt (p : Fin 2) (j : ℕ) (hj : j < 16) : 16 * p.val + j < cfg0.N := by
  have := p.isLt; have := N32; omega

theorem outsAt_half_zero (c : Dev nD) (p : Fin 2) (h : 16 * p.val + 0 < cfg0.N) :
    outsAt m c (16 * p.val + 0) h
      = stepOut (iblk m c 0 ⟨16 * p.val + 0, h⟩) (iblk m c 1 ⟨16 * p.val + 0, h⟩) (iblk m c 2 ⟨16 * p.val + 0, h⟩)
          (iblk m c 3 ⟨16 * p.val + 0, h⟩) (iblk m c 4 ⟨16 * p.val + 0, h⟩) resetOut :=
  outsAt_first m c ⟨16 * p.val + 0, h⟩ (by show (16 * p.val + 0) % 16 = 0; omega)

theorem outsAt_half_succ (c : Dev nD) (p : Fin 2) (j : ℕ) (hj : j + 1 < 16) (h : 16 * p.val + (j + 1) < cfg0.N) :
    outsAt m c (16 * p.val + (j + 1)) h
      = stepOut (iblk m c 0 ⟨16 * p.val + (j + 1), h⟩) (iblk m c 1 ⟨16 * p.val + (j + 1), h⟩)
          (iblk m c 2 ⟨16 * p.val + (j + 1), h⟩) (iblk m c 3 ⟨16 * p.val + (j + 1), h⟩)
          (iblk m c 4 ⟨16 * p.val + (j + 1), h⟩) (outsAt m c (16 * p.val + j) (Nat.lt_of_succ_lt h)) := by
  have hne : ¬(16 * p.val + j + 1) % 16 = 0 := by omega
  exact congrArg (stepOut _ _ _ _ _) (if_neg hne)

def arr5 (c : Dev nD) : Vec F S2x128x128 .f32 := fun i =>
  (outsAt m c (16 * (i 0).val + 15) (by have h : (i 0).val < 2 := (i 0).isLt; have := N32; omega)).1
    (ix3 (0 : Fin 1) (i 1) (i 2))

theorem flushed5_eq (c : Dev nD) (t : Fin cfg0.N) (hf : (cfg0.win 5).flush t = true) :
    (dats m 0 c).flushed 5 t = ((cfg0.win 5).blk t).view.read (Elt F) (arr5 m c) := by
  have h15 : t.val % 16 = 15 := (flush0_5 t).mp hf
  obtain ⟨e50, e51, e52, e60, e61, e62, e70, e71, e72⟩ := idx_out t
  show (cfg0.win 5).cut (grid0.coords t) ((dats m 0 c).after 5 t) = _
  rw [after0_5]
  funext y
  have hy0 : (y 0).val < 1 := (y 0).isLt
  have c0 : ((((cfg0.win 5).blk t).view.emb y) 0).val = t.val / 16 := by
    show win0_5.index t (0 : Fin 3) * 1 + 1 * (y 0).val = _
    rw [e50]; omega
  have c1 : ((((cfg0.win 5).blk t).view.emb y) 1).val = (y 1).val := by
    show win0_5.index t (1 : Fin 3) * 128 + 1 * (y 1).val = _
    rw [e51]; omega
  have c2 : ((((cfg0.win 5).blk t).view.emb y) 2).val = (y 2).val := by
    show win0_5.index t (2 : Fin 3) * 128 + 1 * (y 2).val = _
    rw [e52]; omega
  have key : ∀ (n : ℕ) (hn : n < cfg0.N) (j j' : S1x128x128.Idx), n = t.val → j = j' →
      (outsAt m c t.val t.isLt).1 j = (outsAt m c n hn).1 j' := by
    intro n hn j j' en ej; subst en; subst ej; rfl
  show (outsAt m c t.val t.isLt).1 ((cfg0.win 5).xinj (grid0.coords t) y) = arr5 m c (((cfg0.win 5).blk t).view.emb y)
  unfold arr5
  refine key _ _ _ _ (by rw [c0]; omega) (funext fun a => Fin.ext ?_)
  match a with
  | ⟨0, _⟩ => show (y 0).val = 0; omega
  | ⟨1, _⟩ => exact c1.symm
  | ⟨2, _⟩ => exact c2.symm

theorem mem_blk5 (t : Fin cfg0.N) (i : S2x128x128.Idx) :
    i ∈ ((cfg0.win 5).blk t).view.set ↔ ∀ a : Fin 3, win0_5.index t a * S1x128x128.size a ≤ (i a).val
      ∧ (i a).val < win0_5.index t a * S1x128x128.size a + S1x128x128.size a := by
  show i ∈ ((View.whole main_v102_0).slice (win0_5.rect t)).set ↔ _
  rw [View.set_slice_whole, Rect.mem_set_unit]
  exact Iff.rfl

theorem cover5 (i : S2x128x128.Idx) :
    ∃ t : Fin cfg0.N, (cfg0.win 5).flush t = true ∧ i ∈ ((cfg0.win 5).blk t).view.set := by
  have h0 : (i 0).val < 2 := (i 0).isLt
  have h1 : (i 1).val < 128 := (i 1).isLt
  have h2 : (i 2).val < 128 := (i 2).isLt
  have hN := N32
  obtain ⟨t, ht⟩ : ∃ t : Fin cfg0.N, t.val = 16 * (i 0).val + 15 := ⟨⟨16 * (i 0).val + 15, by omega⟩, rfl⟩
  refine ⟨t, (flush0_5 t).mpr (by omega), ?_⟩
  rw [mem_blk5]
  obtain ⟨e50, e51, e52, e60, e61, e62, e70, e71, e72⟩ := idx_out t
  intro a
  match a with
  | ⟨0, _⟩ =>
    show win0_5.index t (0 : Fin 3) * 1 ≤ (i 0).val ∧ (i 0).val < win0_5.index t (0 : Fin 3) * 1 + 1
    rw [e50]; omega
  | ⟨1, _⟩ =>
    show win0_5.index t (1 : Fin 3) * 128 ≤ (i 1).val ∧ (i 1).val < win0_5.index t (1 : Fin 3) * 128 + 128
    rw [e51]; omega
  | ⟨2, _⟩ =>
    show win0_5.index t (2 : Fin 3) * 128 ≤ (i 2).val ∧ (i 2).val < win0_5.index t (2 : Fin 3) * 128 + 128
    rw [e52]; omega

theorem final5 (c : Dev nD) : (dats m 0 c).arrAt 5 cfg0.N = arr5 m c :=
  (dats m 0 c).arrAt_eq_of_cover 5 (arr5 m c) (flushed5_eq m c) cover5

theorem arr5_apply (c : Dev nD) (p : Fin 2) (a : Fin 128) (b : Fin 128) :
    ((dats m 0 c).arrAt 5 cfg0.N : Vec F S2x128x128 .f32) (ix3 p a b)
      = (outsAt m c (16 * p.val + 15) (last_lt p)).1 (ix3 (0 : Fin 1) a b) :=
  congrFun (final5 m c) (ix3 p a b)

def arr6 (c : Dev nD) : Vec F S2x8x128 .f32 := fun i =>
  (outsAt m c (16 * (i 0).val + 15) (by have h : (i 0).val < 2 := (i 0).isLt; have := N32; omega)).2.1
    (ix3 (0 : Fin 1) (i 1) (i 2))

theorem flushed6_eq (c : Dev nD) (t : Fin cfg0.N) (hf : (cfg0.win 6).flush t = true) :
    (dats m 0 c).flushed 6 t = ((cfg0.win 6).blk t).view.read (Elt F) (arr6 m c) := by
  have h15 : t.val % 16 = 15 := (flush0_6 t).mp hf
  obtain ⟨e50, e51, e52, e60, e61, e62, e70, e71, e72⟩ := idx_out t
  show (cfg0.win 6).cut (grid0.coords t) ((dats m 0 c).after 6 t) = _
  rw [after0_6]
  funext y
  have hy0 : (y 0).val < 1 := (y 0).isLt
  have c0 : ((((cfg0.win 6).blk t).view.emb y) 0).val = t.val / 16 := by
    show win0_6.index t (0 : Fin 3) * 1 + 1 * (y 0).val = _
    rw [e60]; omega
  have c1 : ((((cfg0.win 6).blk t).view.emb y) 1).val = (y 1).val := by
    show win0_6.index t (1 : Fin 3) * 8 + 1 * (y 1).val = _
    rw [e61]; omega
  have c2 : ((((cfg0.win 6).blk t).view.emb y) 2).val = (y 2).val := by
    show win0_6.index t (2 : Fin 3) * 128 + 1 * (y 2).val = _
    rw [e62]; omega
  have key : ∀ (n : ℕ) (hn : n < cfg0.N) (j j' : S1x8x128.Idx), n = t.val → j = j' →
      (outsAt m c t.val t.isLt).2.1 j = (outsAt m c n hn).2.1 j' := by
    intro n hn j j' en ej; subst en; subst ej; rfl
  show (outsAt m c t.val t.isLt).2.1 ((cfg0.win 6).xinj (grid0.coords t) y) = arr6 m c (((cfg0.win 6).blk t).view.emb y)
  unfold arr6
  refine key _ _ _ _ (by rw [c0]; omega) (funext fun a => Fin.ext ?_)
  match a with
  | ⟨0, _⟩ => show (y 0).val = 0; omega
  | ⟨1, _⟩ => exact c1.symm
  | ⟨2, _⟩ => exact c2.symm

theorem mem_blk6 (t : Fin cfg0.N) (i : S2x8x128.Idx) :
    i ∈ ((cfg0.win 6).blk t).view.set ↔ ∀ a : Fin 3, win0_6.index t a * S1x8x128.size a ≤ (i a).val
      ∧ (i a).val < win0_6.index t a * S1x8x128.size a + S1x8x128.size a := by
  show i ∈ ((View.whole main_v102_1).slice (win0_6.rect t)).set ↔ _
  rw [View.set_slice_whole, Rect.mem_set_unit]
  exact Iff.rfl

theorem cover6 (i : S2x8x128.Idx) :
    ∃ t : Fin cfg0.N, (cfg0.win 6).flush t = true ∧ i ∈ ((cfg0.win 6).blk t).view.set := by
  have h0 : (i 0).val < 2 := (i 0).isLt
  have h1 : (i 1).val < 8 := (i 1).isLt
  have h2 : (i 2).val < 128 := (i 2).isLt
  have hN := N32
  obtain ⟨t, ht⟩ : ∃ t : Fin cfg0.N, t.val = 16 * (i 0).val + 15 := ⟨⟨16 * (i 0).val + 15, by omega⟩, rfl⟩
  refine ⟨t, (flush0_6 t).mpr (by omega), ?_⟩
  rw [mem_blk6]
  obtain ⟨e50, e51, e52, e60, e61, e62, e70, e71, e72⟩ := idx_out t
  intro a
  match a with
  | ⟨0, _⟩ =>
    show win0_6.index t (0 : Fin 3) * 1 ≤ (i 0).val ∧ (i 0).val < win0_6.index t (0 : Fin 3) * 1 + 1
    rw [e60]; omega
  | ⟨1, _⟩ =>
    show win0_6.index t (1 : Fin 3) * 8 ≤ (i 1).val ∧ (i 1).val < win0_6.index t (1 : Fin 3) * 8 + 8
    rw [e61]; omega
  | ⟨2, _⟩ =>
    show win0_6.index t (2 : Fin 3) * 128 ≤ (i 2).val ∧ (i 2).val < win0_6.index t (2 : Fin 3) * 128 + 128
    rw [e62]; omega

theorem final6 (c : Dev nD) : (dats m 0 c).arrAt 6 cfg0.N = arr6 m c :=
  (dats m 0 c).arrAt_eq_of_cover 6 (arr6 m c) (flushed6_eq m c) cover6

theorem arr6_apply (c : Dev nD) (p : Fin 2) (u : Fin 8) (v : Fin 128) :
    ((dats m 0 c).arrAt 6 cfg0.N : Vec F S2x8x128 .f32) (ix3 p u v)
      = (outsAt m c (16 * p.val + 15) (last_lt p)).2.1 (ix3 (0 : Fin 1) u v) :=
  congrFun (final6 m c) (ix3 p u v)

def arr7 (c : Dev nD) : Vec F S2x128x512 .f32 := fun i =>
  (outsAt m c (16 * (i 0).val + 15) (by have h : (i 0).val < 2 := (i 0).isLt; have := N32; omega)).2.2
    (ix3 (0 : Fin 1) (i 1) (i 2))

theorem flushed7_eq (c : Dev nD) (t : Fin cfg0.N) (hf : (cfg0.win 7).flush t = true) :
    (dats m 0 c).flushed 7 t = ((cfg0.win 7).blk t).view.read (Elt F) (arr7 m c) := by
  have h15 : t.val % 16 = 15 := (flush0_7 t).mp hf
  obtain ⟨e50, e51, e52, e60, e61, e62, e70, e71, e72⟩ := idx_out t
  show (cfg0.win 7).cut (grid0.coords t) ((dats m 0 c).after 7 t) = _
  rw [after0_7]
  funext y
  have hy0 : (y 0).val < 1 := (y 0).isLt
  have c0 : ((((cfg0.win 7).blk t).view.emb y) 0).val = t.val / 16 := by
    show win0_7.index t (0 : Fin 3) * 1 + 1 * (y 0).val = _
    rw [e70]; omega
  have c1 : ((((cfg0.win 7).blk t).view.emb y) 1).val = (y 1).val := by
    show win0_7.index t (1 : Fin 3) * 128 + 1 * (y 1).val = _
    rw [e71]; omega
  have c2 : ((((cfg0.win 7).blk t).view.emb y) 2).val = (y 2).val := by
    show win0_7.index t (2 : Fin 3) * 512 + 1 * (y 2).val = _
    rw [e72]; omega
  have key : ∀ (n : ℕ) (hn : n < cfg0.N) (j j' : S1x128x512.Idx), n = t.val → j = j' →
      (outsAt m c t.val t.isLt).2.2 j = (outsAt m c n hn).2.2 j' := by
    intro n hn j j' en ej; subst en; subst ej; rfl
  show (outsAt m c t.val t.isLt).2.2 ((cfg0.win 7).xinj (grid0.coords t) y) = arr7 m c (((cfg0.win 7).blk t).view.emb y)
  unfold arr7
  refine key _ _ _ _ (by rw [c0]; omega) (funext fun a => Fin.ext ?_)
  match a with
  | ⟨0, _⟩ => show (y 0).val = 0; omega
  | ⟨1, _⟩ => exact c1.symm
  | ⟨2, _⟩ => exact c2.symm

theorem mem_blk7 (t : Fin cfg0.N) (i : S2x128x512.Idx) :
    i ∈ ((cfg0.win 7).blk t).view.set ↔ ∀ a : Fin 3, win0_7.index t a * S1x128x512.size a ≤ (i a).val
      ∧ (i a).val < win0_7.index t a * S1x128x512.size a + S1x128x512.size a := by
  show i ∈ ((View.whole main_v102_2).slice (win0_7.rect t)).set ↔ _
  rw [View.set_slice_whole, Rect.mem_set_unit]
  exact Iff.rfl

theorem cover7 (i : S2x128x512.Idx) :
    ∃ t : Fin cfg0.N, (cfg0.win 7).flush t = true ∧ i ∈ ((cfg0.win 7).blk t).view.set := by
  have h0 : (i 0).val < 2 := (i 0).isLt
  have h1 : (i 1).val < 128 := (i 1).isLt
  have h2 : (i 2).val < 512 := (i 2).isLt
  have hN := N32
  obtain ⟨t, ht⟩ : ∃ t : Fin cfg0.N, t.val = 16 * (i 0).val + 15 := ⟨⟨16 * (i 0).val + 15, by omega⟩, rfl⟩
  refine ⟨t, (flush0_7 t).mpr (by omega), ?_⟩
  rw [mem_blk7]
  obtain ⟨e50, e51, e52, e60, e61, e62, e70, e71, e72⟩ := idx_out t
  intro a
  match a with
  | ⟨0, _⟩ =>
    show win0_7.index t (0 : Fin 3) * 1 ≤ (i 0).val ∧ (i 0).val < win0_7.index t (0 : Fin 3) * 1 + 1
    rw [e70]; omega
  | ⟨1, _⟩ =>
    show win0_7.index t (1 : Fin 3) * 128 ≤ (i 1).val ∧ (i 1).val < win0_7.index t (1 : Fin 3) * 128 + 128
    rw [e71]; omega
  | ⟨2, _⟩ =>
    show win0_7.index t (2 : Fin 3) * 512 ≤ (i 2).val ∧ (i 2).val < win0_7.index t (2 : Fin 3) * 512 + 512
    rw [e72]; omega

theorem final7 (c : Dev nD) : (dats m 0 c).arrAt 7 cfg0.N = arr7 m c :=
  (dats m 0 c).arrAt_eq_of_cover 7 (arr7 m c) (flushed7_eq m c) cover7

theorem arr7_apply (c : Dev nD) (p : Fin 2) (a : Fin 128) (f : Fin 512) :
    ((dats m 0 c).arrAt 7 cfg0.N : Vec F S2x128x512 .f32) (ix3 p a f)
      = (outsAt m c (16 * p.val + 15) (last_lt p)).2.2 (ix3 (0 : Fin 1) a f) :=
  congrFun (final7 m c) (ix3 p a f)

end Cert.KernelIdeal.Hand

end
-- ==== Proof.KI.RegionSum.lean ====
import proofs.«401602_j3728031613303_3_alg».proof.Proof.KI.PayIdx
import proofs.«401602_j3728031613303_3_alg».proof.Proof.KI.RegionArr
import Mathlib.Algebra.BigOperators.Fin

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (m : (ℓ : Loc nD τ sig) → Buf (Elt Ideal) ℓ)

abbrev inA (c : Dev nD) : Vec Ideal S8192x8192 .f32 := V m c main_arg3

abbrev inS (c : Dev nD) : Vec Ideal S8192x128 .f32 := V m c main_v97

abbrev inH (c : Dev nD) : Vec Ideal S8192x128 .bf16 := V m c main_v98

abbrev inL (c : Dev nD) : Vec Ideal S8192x128 .bf16 := V m c main_v101

abbrev inX (c : Dev nD) : Vec Ideal S8192x512 .f32 := V m c main_arg0

abbrev row (p : Fin 2) (i : Fin 16) (r : Fin 256) : Fin 8192 := ⟨(p.val * 16 + i.val) * 256 + r.val, by omega⟩

theorem row_eq (p : Fin 2) (i : Fin 16) (t : Fin cfg0.N) (ht : t.val = 16 * p.val + i.val) (r : Fin 256) :
    (⟨256 * t.val + r.val, row_lt t r⟩ : Fin 8192) = row p i r :=
  Fin.ext (by show 256 * t.val + r.val = (p.val * 16 + i.val) * 256 + r.val; omega)

theorem sum_of_steps {M : Type*} [AddCommMonoid M] (o : (j : ℕ) → j < 16 → M) (g : Fin 16 → M)
    (h0 : o 0 (by omega) = g 0)
    (hs : ∀ (j : ℕ) (hj : j + 1 < 16), o (j + 1) hj = o j (by omega) + g ⟨j + 1, hj⟩) :
    o 15 (by omega) = ∑ i : Fin 16, g i := by
  have key : ∀ (j : ℕ) (hj : j < 16), o j hj = ∑ i : Fin (j + 1), g ⟨i.val, by omega⟩ := by
    intro j
    induction j with
    | zero => intro hj; rw [Fin.sum_univ_one]; exact h0
    | succ j ih => intro hj; rw [Fin.sum_univ_castSucc, hs j hj, ih (by omega)]; rfl
  exact (key 15 (by omega)).trans (Finset.sum_congr rfl fun i _ => rfl)

theorem step5_tile (c : Dev nD) (p : Fin 2) (i : Fin 16) (t : Fin cfg0.N) (ht : t.val = 16 * p.val + i.val)
    (o : Outs Ideal) (a b : Fin 128) :
    (stepOut (iblk m c 0 t) (iblk m c 1 t) (iblk m c 2 t) (iblk m c 3 t) (iblk m c 4 t) o).1 (ix3 (0 : Fin 1) a b)
      = o.1 (ix3 (0 : Fin 1) a b) + ∑ r : Fin 256, inS m c (ix2 (row p i r) a) *
          ((∑ k : Fin 8192, (inA m c (ix2 (row p i r) k) : EReal) * (inH m c (ix2 k b) : EReal)
              + ∑ k : Fin 8192, (inA m c (ix2 (row p i r) k) : EReal) * (inL m c (ix2 k b) : EReal))
            + ∑ k : Fin 8192, ((inA m c (ix2 (row p i r) k) : EReal) - (inA m c (ix2 (row p i r) k) : EReal))
                * (inH m c (ix2 k b) : EReal)) := by
  have e0 : ∀ (r : Fin 256) (k : Fin 8192), (iblk m c 0 t : Vec Ideal S256x8192 .f32) (ix2 r k) = inA m c (ix2 (row p i r) k) :=
    fun r k => (iblk0_apply m c t r k).trans (congrArg (fun q : Fin 8192 => inA m c (ix2 q k)) (row_eq p i t ht r))
  have e1 : ∀ (r : Fin 256) (a : Fin 128), (iblk m c 1 t : Vec Ideal S256x128 .f32) (ix2 r a) = inS m c (ix2 (row p i r) a) :=
    fun r a => (iblk1_apply m c t r a).trans (congrArg (fun q : Fin 8192 => inS m c (ix2 q a)) (row_eq p i t ht r))
  show k0_pay7 (iblk m c 0 t) (iblk m c 1 t) (iblk m c 2 t) (iblk m c 3 t) o.1 (ix3 (0 : Fin 1) a b) = _
  refine (step5_apply (iblk m c 0 t) (iblk m c 1 t) (iblk m c 2 t) (iblk m c 3 t) o.1 a b).trans ?_
  refine congrArg (fun z : EReal => o.1 (ix3 (0 : Fin 1) a b) + z) ?_
  refine Finset.sum_congr rfl fun r _ => ?_
  refine congrArg₂ (fun x y : EReal => x * y) (e1 r a) ?_
  refine congrArg₂ (fun x y : EReal => x + y) (congrArg₂ (fun x y : EReal => x + y) ?_ ?_) ?_
  · exact Finset.sum_congr rfl fun k _ => congrArg₂ (fun x y : EReal => x * y) (e0 r k) (iblk2_apply m c t k b)
  · exact Finset.sum_congr rfl fun k _ => congrArg₂ (fun x y : EReal => x * y) (e0 r k) (iblk3_apply m c t k b)
  · exact Finset.sum_congr rfl fun k _ => congrArg₂ (fun x y : EReal => x * y)
      (congrArg₂ (fun x y : EReal => x - y) (e0 r k) (e0 r k)) (iblk2_apply m c t k b)

theorem step6_tile (c : Dev nD) (p : Fin 2) (i : Fin 16) (t : Fin cfg0.N) (ht : t.val = 16 * p.val + i.val)
    (o : Outs Ideal) (u : Fin 8) (v : Fin 128) :
    (stepOut (iblk m c 0 t) (iblk m c 1 t) (iblk m c 2 t) (iblk m c 3 t) (iblk m c 4 t) o).2.1 (ix3 (0 : Fin 1) u v)
      = o.2.1 (ix3 (0 : Fin 1) u v)
        + ∑ r : Fin 256, ∑ k : Fin 8192, inA m c (ix2 (row p i r) k) * inA m c (ix2 (row p i r) k) := by
  have e0 : ∀ (r : Fin 256) (k : Fin 8192), (iblk m c 0 t : Vec Ideal S256x8192 .f32) (ix2 r k) = inA m c (ix2 (row p i r) k) :=
    fun r k => (iblk0_apply m c t r k).trans (congrArg (fun q : Fin 8192 => inA m c (ix2 q k)) (row_eq p i t ht r))
  show k0_pay2 (iblk m c 0 t) o.2.1 (ix3 (0 : Fin 1) u v) = _
  refine (step6_apply (iblk m c 0 t) o.2.1 u v).trans ?_
  refine congrArg (fun z : EReal => o.2.1 (ix3 (0 : Fin 1) u v) + z) ?_
  exact Finset.sum_congr rfl fun r _ => Finset.sum_congr rfl fun k _ =>
    congrArg₂ (fun x y : EReal => x * y) (e0 r k) (e0 r k)

theorem step7_tile (c : Dev nD) (p : Fin 2) (i : Fin 16) (t : Fin cfg0.N) (ht : t.val = 16 * p.val + i.val)
    (o : Outs Ideal) (a : Fin 128) (f : Fin 512) :
    (stepOut (iblk m c 0 t) (iblk m c 1 t) (iblk m c 2 t) (iblk m c 3 t) (iblk m c 4 t) o).2.2 (ix3 (0 : Fin 1) a f)
      = o.2.2 (ix3 (0 : Fin 1) a f) + ∑ r : Fin 256, inS m c (ix2 (row p i r) a) * inX m c (ix2 (row p i r) f) := by
  have e1 : ∀ (r : Fin 256) (a : Fin 128), (iblk m c 1 t : Vec Ideal S256x128 .f32) (ix2 r a) = inS m c (ix2 (row p i r) a) :=
    fun r a => (iblk1_apply m c t r a).trans (congrArg (fun q : Fin 8192 => inS m c (ix2 q a)) (row_eq p i t ht r))
  have e4 : ∀ (r : Fin 256) (f : Fin 512), (iblk m c 4 t : Vec Ideal S256x512 .f32) (ix2 r f) = inX m c (ix2 (row p i r) f) :=
    fun r f => (iblk4_apply m c t r f).trans (congrArg (fun q : Fin 8192 => inX m c (ix2 q f)) (row_eq p i t ht r))
  show k0_pay1 (k0_pay8 o.2.2) (k0_pay9 (iblk m c 1 t) (iblk m c 4 t)) (ix3 (0 : Fin 1) a f) = _
  refine (step7_apply (iblk m c 1 t) (iblk m c 4 t) o.2.2 a f).trans ?_
  refine congrArg (fun z : EReal => o.2.2 (ix3 (0 : Fin 1) a f) + z) ?_
  exact Finset.sum_congr rfl fun r _ => congrArg₂ (fun x y : EReal => x * y) (e1 r a) (e4 r f)

theorem out5_sum (c : Dev nD) (p : Fin 2) (a b : Fin 128) :
    ((dats m 0 c).arrAt 5 cfg0.N : Vec Ideal S2x128x128 .f32) (ix3 p a b)
      = ∑ i : Fin 16, ∑ r : Fin 256, inS m c (ix2 (row p i r) a) *
          ((∑ k : Fin 8192, (inA m c (ix2 (row p i r) k) : EReal) * (inH m c (ix2 k b) : EReal)
              + ∑ k : Fin 8192, (inA m c (ix2 (row p i r) k) : EReal) * (inL m c (ix2 k b) : EReal))
            + ∑ k : Fin 8192, ((inA m c (ix2 (row p i r) k) : EReal) - (inA m c (ix2 (row p i r) k) : EReal))
                * (inH m c (ix2 k b) : EReal)) := by
  refine (arr5_apply m c p a b).trans ?_
  refine sum_of_steps (fun j hj => (outsAt m c (16 * p.val + j) (tile_lt p j hj)).1 (ix3 (0 : Fin 1) a b)) _ ?_ ?_
  · show (outsAt m c (16 * p.val + 0) (tile_lt p 0 (by omega))).1 (ix3 (0 : Fin 1) a b) = _
    rw [outsAt_half_zero m c p (tile_lt p 0 (by omega))]
    refine (step5_tile m c p 0 ⟨16 * p.val + 0, tile_lt p 0 (by omega)⟩ rfl resetOut a b).trans ?_
    refine (congrArg (fun z : EReal => z + _) (reset5_apply (ix3 (0 : Fin 1) a b))).trans ?_
    exact zero_add _
  · intro j hj
    show (outsAt m c (16 * p.val + (j + 1)) (tile_lt p (j + 1) hj)).1 (ix3 (0 : Fin 1) a b) = _
    rw [outsAt_half_succ m c p j hj (tile_lt p (j + 1) hj)]
    exact step5_tile m c p ⟨j + 1, hj⟩ ⟨16 * p.val + (j + 1), tile_lt p (j + 1) hj⟩ rfl _ a b

theorem out6_sum (c : Dev nD) (p : Fin 2) (u : Fin 8) (v : Fin 128) :
    ((dats m 0 c).arrAt 6 cfg0.N : Vec Ideal S2x8x128 .f32) (ix3 p u v)
      = ∑ i : Fin 16, ∑ r : Fin 256, ∑ k : Fin 8192, inA m c (ix2 (row p i r) k) * inA m c (ix2 (row p i r) k) := by
  refine (arr6_apply m c p u v).trans ?_
  refine sum_of_steps (fun j hj => (outsAt m c (16 * p.val + j) (tile_lt p j hj)).2.1 (ix3 (0 : Fin 1) u v)) _ ?_ ?_
  · show (outsAt m c (16 * p.val + 0) (tile_lt p 0 (by omega))).2.1 (ix3 (0 : Fin 1) u v) = _
    rw [outsAt_half_zero m c p (tile_lt p 0 (by omega))]
    refine (step6_tile m c p 0 ⟨16 * p.val + 0, tile_lt p 0 (by omega)⟩ rfl resetOut u v).trans ?_
    refine (congrArg (fun z : EReal => z + _) (reset6_apply (ix3 (0 : Fin 1) u v))).trans ?_
    exact zero_add _
  · intro j hj
    show (outsAt m c (16 * p.val + (j + 1)) (tile_lt p (j + 1) hj)).2.1 (ix3 (0 : Fin 1) u v) = _
    rw [outsAt_half_succ m c p j hj (tile_lt p (j + 1) hj)]
    exact step6_tile m c p ⟨j + 1, hj⟩ ⟨16 * p.val + (j + 1), tile_lt p (j + 1) hj⟩ rfl _ u v

theorem out7_sum (c : Dev nD) (p : Fin 2) (a : Fin 128) (f : Fin 512) :
    ((dats m 0 c).arrAt 7 cfg0.N : Vec Ideal S2x128x512 .f32) (ix3 p a f)
      = ∑ i : Fin 16, ∑ r : Fin 256, inS m c (ix2 (row p i r) a) * inX m c (ix2 (row p i r) f) := by
  refine (arr7_apply m c p a f).trans ?_
  refine sum_of_steps (fun j hj => (outsAt m c (16 * p.val + j) (tile_lt p j hj)).2.2 (ix3 (0 : Fin 1) a f)) _ ?_ ?_
  · show (outsAt m c (16 * p.val + 0) (tile_lt p 0 (by omega))).2.2 (ix3 (0 : Fin 1) a f) = _
    rw [outsAt_half_zero m c p (tile_lt p 0 (by omega))]
    refine (step7_tile m c p 0 ⟨16 * p.val + 0, tile_lt p 0 (by omega)⟩ rfl resetOut a f).trans ?_
    refine (congrArg (fun z : EReal => z + _) (reset7_apply (ix3 (0 : Fin 1) a f))).trans ?_
    exact zero_add _
  · intro j hj
    show (outsAt m c (16 * p.val + (j + 1)) (tile_lt p (j + 1) hj)).2.2 (ix3 (0 : Fin 1) a f) = _
    rw [outsAt_half_succ m c p j hj (tile_lt p (j + 1) hj)]
    exact step7_tile m c p ⟨j + 1, hj⟩ ⟨16 * p.val + (j + 1), tile_lt p (j + 1) hj⟩ rfl _ a f

end Cert.KernelIdeal.Hand

end
-- ==== Proof.Bridge.KPool.lean ====
import proofs.«401602_j3728031613303_3_alg».proof.Proof.KI.StagesK
import proofs.«401602_j3728031613303_3_alg».proof.Proof.KI.RegionSum
import proofs.«401602_j3728031613303_3_alg».proof.Proof.LibAlg
import Idealize.ShloMosaic.Lib.StableHlo.Run
import Idealize.ShloMosaic.Lib.KernelVsHost
import Idealize.ShloMosaic.Lib.ValueIdx
import Idealize.ShloMosaic.Lib.ValueIdxRank1
import Idealize.ShloMosaic.Lib.IdealHost
import Idealize.ShloMosaic.PureOps.Ideal.Laws

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Hand
open Cert.LibAlg
open scoped BigOperators

theorem pad_lt (x : FVec Ideal S8192x100 .f32) (v : FVec Ideal S_ .f32) (n : Fin 8192) (a : Fin 128)
    (h : a.val < 100) :
    pad S8192x128 ![0, 0] ![0, 28] ![0, 0] x v pads_S8192x100_S8192x128_000_0280 h_S_ (ix2 n a)
      = x (ix2 n ⟨a.val, h⟩) :=
  pad_apply_of_inside _ _ _ x v _ _ (ix2 n a) (ix2 n ⟨a.val, h⟩) (fun ax => by
    match ax with
    | ⟨0, _⟩ => show n.val = 0 + n.val * (0 + 1); omega
    | ⟨1, _⟩ => show a.val = 0 + a.val * (0 + 1); omega)

theorem pad_ge (x : FVec Ideal S8192x100 .f32) (v : FVec Ideal S_ .f32) (n : Fin 8192) (a : Fin 128)
    (h : 100 ≤ a.val) :
    pad S8192x128 ![0, 0] ![0, 28] ![0, 0] x v pads_S8192x100_S8192x128_000_0280 h_S_ (ix2 n a)
      = v ix0 := by
  refine (pad_apply_of_not_inside _ _ _ x v _ _ (ix2 n a) (1 : Fin 2) ?_).trans ?_
  · show ¬(0 ≤ a.val ∧ (a.val - 0) % (0 + 1) = 0 ∧ (a.val - 0) / (0 + 1) < 100)
    omega
  · exact congrArg v (funext fun b => b.elim0)

theorem red_2x128x128 : S2x128x128.Reduces [0] S128x128 := by decide

theorem red_2x128x512 : S2x128x512.Reduces [0] S128x512 := by decide

theorem reduce_2x128x128_apply (x : FVec Ideal S2x128x128 .f32) (v : FVec Ideal S_ .f32) (a b : Fin 128) :
    Host.reduceAdd x v reducesTo_S2x128x128_S128x128_d0 h_S_ (ix2 a b)
      = v (Shape.Idx.first h_S_) + ∑ p : Fin 2, x (ix3 p a b) := by
  rw [hostReduceAdd_apply, Ideal.hostReduceAdd_single _ red_2x128x128]
  refine congrArg _ (Finset.sum_congr rfl fun p _ => congrArg x ?_)
  funext ax
  match ax with
  | ⟨0, _⟩ => rfl
  | ⟨1, _⟩ => rfl
  | ⟨2, _⟩ => rfl

theorem reduce_2x128x512_apply (x : FVec Ideal S2x128x512 .f32) (v : FVec Ideal S_ .f32) (a : Fin 128) (f : Fin 512) :
    Host.reduceAdd x v reducesTo_S2x128x512_S128x512_d0 h_S_ (ix2 a f)
      = v (Shape.Idx.first h_S_) + ∑ p : Fin 2, x (ix3 p a f) := by
  rw [hostReduceAdd_apply, Ideal.hostReduceAdd_single _ red_2x128x512]
  refine congrArg _ (Finset.sum_congr rfl fun p _ => congrArg x ?_)
  funext ax
  match ax with
  | ⟨0, _⟩ => rfl
  | ⟨1, _⟩ => rfl
  | ⟨2, _⟩ => rfl

theorem sum2_apply (y : FVec Ideal S2x8x128 .f32) (v : FVec Ideal S_ .f32) (j : S_.Idx) :
    Host.reduceAdd (shapeCast S2 (extractStridedSlice S2x1x1 ![0, 0, 0] y slices_S2x8x128_S2x1x1_0_0_0)
        shapeCasts_S2x1x1_S2) v reducesTo_S2_S_d0 h_S_ j
      = v (Shape.Idx.first h_S_) + ∑ p : Fin 2, y (ix3 p 0 0) := by
  rw [hostReduceAdd_apply, Ideal.hostReduceAdd_total _ (fun b => b.elim0)]
  refine congrArg _ ?_
  rw [← Equiv.sum_comp (idxEquiv1 (n := 2)).symm]
  refine Finset.sum_congr rfl fun p _ => ?_
  refine (shapeCast_apply _ _ (ix1 p) (ix3 p 0 0) ?_).trans ?_
  · rw [Shape.rowMajor_val_three, Shape.rowMajor_val_one]
    show (p.val * 1 + 0) * 1 + 0 = p.val
    omega
  · refine extractStridedSlice_apply _ _ _ (ix3 p 0 0) (ix3 p 0 0) (fun ax => ?_)
    match ax with
    | ⟨0, _⟩ => exact (Nat.zero_add _).symm
    | ⟨1, _⟩ => rfl
    | ⟨2, _⟩ => rfl

theorem corner_100x100_apply (x : FVec Ideal S128x128 .f32) (a b : Fin 100) :
    extractStridedSlice S100x100 ![0, 0] x slices_S128x128_S100x100_0_0 (ix2 a b)
      = x (ix2 ⟨a.val, by omega⟩ ⟨b.val, by omega⟩) :=
  extractStridedSlice_apply _ _ _ _ _ (fun ax => by
    match ax with
    | ⟨0, _⟩ => exact (Nat.zero_add _).symm
    | ⟨1, _⟩ => exact (Nat.zero_add _).symm)

theorem rows_100x512_apply (x : FVec Ideal S128x512 .f32) (a : Fin 100) (f : Fin 512) :
    extractStridedSlice S100x512 ![0, 0] x slices_S128x512_S100x512_0_0 (ix2 a f)
      = x (ix2 ⟨a.val, by omega⟩ f) :=
  extractStridedSlice_apply _ _ _ _ _ (fun ax => by
    match ax with
    | ⟨0, _⟩ => exact (Nat.zero_add _).symm
    | ⟨1, _⟩ => exact (Nat.zero_add _).symm)

section Algebra

theorem pool5_alg (Sp : FVec Ideal S8192x128 .f32) (A : FVec Ideal S8192x8192 .f32) (H L : FVec Ideal S8192x128 .bf16)
    (hA : ∀ i, IsReal (A i)) (hH : ∀ i, (H i : EReal) = Sp i) (hL : ∀ i, (L i : EReal) = 0) (a b : Fin 128) :
    (0 : EReal) + ∑ p : Fin 2, ∑ i : Fin 16, ∑ r : Fin 256, (Sp (ix2 (row p i r) a) : EReal) *
          ((∑ k : Fin 8192, (A (ix2 (row p i r) k) : EReal) * (H (ix2 k b) : EReal)
              + ∑ k : Fin 8192, (A (ix2 (row p i r) k) : EReal) * (L (ix2 k b) : EReal))
            + ∑ k : Fin 8192, ((A (ix2 (row p i r) k) : EReal) - (A (ix2 (row p i r) k) : EReal))
                * (H (ix2 k b) : EReal))
      = ∑ n : Fin 8192, (Sp (ix2 n a) : EReal) * ∑ k : Fin 8192, (A (ix2 n k) : EReal) * (Sp (ix2 k b) : EReal) := by
  rw [zero_add]
  refine Eq.trans ?_ (sum_rows_8192 (fun n : Fin 8192 =>
    (Sp (ix2 n a) : EReal) * ∑ k : Fin 8192, (A (ix2 n k) : EReal) * (Sp (ix2 k b) : EReal))).symm
  refine Finset.sum_congr rfl fun p _ => Finset.sum_congr rfl fun i _ => Finset.sum_congr rfl fun r _ => ?_
  have h2 : ∑ k : Fin 8192, (A (ix2 (row p i r) k) : EReal) * (L (ix2 k b) : EReal) = 0 :=
    Finset.sum_eq_zero fun k _ => by rw [hL, mul_zero]
  have h3 : ∑ k : Fin 8192, ((A (ix2 (row p i r) k) : EReal) - (A (ix2 (row p i r) k) : EReal))
      * (H (ix2 k b) : EReal) = 0 :=
    Finset.sum_eq_zero fun k _ => by
      obtain ⟨x, hx⟩ := isReal_iff_exists.1 (hA (ix2 (row p i r) k))
      rw [hx, sub_self_coe, zero_mul]
  rw [h2, h3, add_zero, add_zero]
  exact congrArg _ (Finset.sum_congr rfl fun k _ => by rw [hH])

theorem pool6_alg (A : FVec Ideal S8192x8192 .f32) :
    (0 : EReal) + ∑ p : Fin 2, ∑ i : Fin 16, ∑ r : Fin 256, ∑ k : Fin 8192,
        (A (ix2 (row p i r) k) : EReal) * (A (ix2 (row p i r) k) : EReal)
      = ∑ n : Fin 8192, ∑ k : Fin 8192, (A (ix2 n k) : EReal) * (A (ix2 n k) : EReal) := by
  rw [zero_add]
  exact (sum_rows_8192 (fun n : Fin 8192 => ∑ k : Fin 8192, (A (ix2 n k) : EReal) * (A (ix2 n k) : EReal))).symm

theorem pool7_alg (Sp : FVec Ideal S8192x128 .f32) (X : FVec Ideal S8192x512 .f32) (a : Fin 128) (f : Fin 512) :
    (0 : EReal) + ∑ p : Fin 2, ∑ i : Fin 16, ∑ r : Fin 256,
        (Sp (ix2 (row p i r) a) : EReal) * (X (ix2 (row p i r) f) : EReal)
      = ∑ n : Fin 8192, (Sp (ix2 n a) : EReal) * (X (ix2 n f) : EReal) := by
  rw [zero_add]
  exact (sum_rows_8192 (fun n : Fin 8192 => (Sp (ix2 n a) : EReal) * (X (ix2 n f) : EReal))).symm

end Algebra

section Stage

variable (m : (ℓ : Loc nD τ sig) → Buf (Elt Ideal) ℓ) (c : Dev nD)

abbrev kvS : FVec Ideal S8192x100 .f32 := KFin m c (Proc.devRef .tc main_v88)

abbrev kvSp : FVec Ideal S8192x128 .f32 := KFin m c (Proc.devRef .tc main_v97)

abbrev kvH : FVec Ideal S8192x128 .bf16 := KFin m c (Proc.devRef .tc main_v98)

abbrev kvL : FVec Ideal S8192x128 .bf16 := KFin m c (Proc.devRef .tc main_v101)

abbrev kvA : FVec Ideal S8192x8192 .f32 := KFin m c (Proc.devRef .tc main_arg3)

abbrev kvX : FVec Ideal S8192x512 .f32 := KFin m c (Proc.devRef .tc main_arg0)

abbrev kvO5 : FVec Ideal S2x128x128 .f32 := KFin m c (Proc.devRef .tc main_v102_0)
abbrev kvO6 : FVec Ideal S2x8x128 .f32 := KFin m c (Proc.devRef .tc main_v102_1)
abbrev kvO7 : FVec Ideal S2x128x512 .f32 := KFin m c (Proc.devRef .tc main_v102_2)

theorem v97_op : kvSp m c = pad S8192x128 ![0, 0] ![0, 28] ![0, 0] (kvS m c)
      (sitofp .f32 (constantI S_ 32 0#32)) pads_S8192x100_S8192x128_000_0280 h_S_ := by
  show KFin m c (Proc.devRef .tc main_v97) = _
  rw [pre_down10_k m c main_v97 (by decide)]
  after_results_simp
  rw [pre_up10_k m c main_v88 (by decide)]
  rfl

theorem v98_op : kvH m c = truncf .bf16 (kvSp m c) bitsLt_bf16_f32 := by
  rw [v97_op m c]
  show KFin m c (Proc.devRef .tc main_v98) = _
  rw [pre_down10_k m c main_v98 (by decide)]
  after_results_simp
  rw [pre_up10_k m c main_v88 (by decide)]
  rfl

theorem v101_op : kvL m c = truncf .bf16 (subf (kvSp m c)
      (extf .f32 (truncf .bf16 (kvSp m c) bitsLt_bf16_f32) bitsLt_bf16_f32)) bitsLt_bf16_f32 := by
  rw [v97_op m c]
  show KFin m c (Proc.devRef .tc main_v101) = _
  rw [pre_down10_k m c main_v101 (by decide)]
  after_results_simp
  rw [pre_up10_k m c main_v88 (by decide)]
  rfl

theorem v103_op : (KFin m c (Proc.devRef .tc main_v103) : FVec Ideal S128x128 .f32)
      = Host.reduceAdd (kvO5 m c) (constant S_ .f32 0x00000000#32) reducesTo_S2x128x128_S128x128_d0 h_S_ := by
  rw [tail_down0_k m c main_v103 (by decide)]
  after_results_simp
  rw [tail_up0_k m c main_v102_0 (by decide)]

theorem v106_op : (KFin m c (Proc.devRef .tc main_v106) : FVec Ideal S_ .f32)
      = Host.reduceAdd (shapeCast S2 (extractStridedSlice S2x1x1 ![0, 0, 0] (kvO6 m c) slices_S2x8x128_S2x1x1_0_0_0)
          shapeCasts_S2x1x1_S2) (constant S_ .f32 0x00000000#32) reducesTo_S2_S_d0 h_S_ := by
  rw [tail_down0_k m c main_v106 (by decide)]
  after_results_simp
  rw [tail_up0_k m c main_v102_1 (by decide)]
  rfl

theorem v107_op : (KFin m c (Proc.devRef .tc main_v107) : FVec Ideal S128x512 .f32)
      = Host.reduceAdd (kvO7 m c) (constant S_ .f32 0x00000000#32) reducesTo_S2x128x512_S128x512_d0 h_S_ := by
  rw [tail_down0_k m c main_v107 (by decide)]
  after_results_simp
  rw [tail_up0_k m c main_v102_2 (by decide)]

theorem v108_op : (KFin m c (Proc.devRef .tc main_v108) : FVec Ideal S100x100 .f32)
      = extractStridedSlice S100x100 ![0, 0] (KFin m c (Proc.devRef .tc main_v103) : FVec Ideal S128x128 .f32)
          slices_S128x128_S100x100_0_0 := by
  rw [v103_op m c, tail_down0_k m c main_v108 (by decide)]
  after_results_simp
  rw [tail_up0_k m c main_v102_0 (by decide)]

theorem v109_op : (KFin m c (Proc.devRef .tc main_v109) : FVec Ideal S100x512 .f32)
      = extractStridedSlice S100x512 ![0, 0] (KFin m c (Proc.devRef .tc main_v107) : FVec Ideal S128x512 .f32)
          slices_S128x512_S100x512_0_0 := by
  rw [v107_op m c, tail_down0_k m c main_v109 (by decide)]
  after_results_simp
  rw [tail_up0_k m c main_v102_2 (by decide)]

theorem V_eq_KFin (r : Ref sig .tc) (hr : rkey r < 149) : V m c r = KFin m c (Proc.devRef .tc r) :=
  ((KFin_PB11_k m c r hr).trans (congrFun (V0_eq m c) _).symm).symm

theorem Sp_lt (n : Fin 8192) (a : Fin 128) (h : a.val < 100) :
    kvSp m c (ix2 n a) = kvS m c (ix2 n ⟨a.val, h⟩) := by
  rw [v97_op m c]
  exact pad_lt _ _ n a h

theorem Sp_ge (n : Fin 8192) (a : Fin 128) (h : 100 ≤ a.val) : (kvSp m c (ix2 n a) : EReal) = 0 := by
  rw [v97_op m c]
  refine (pad_ge _ _ n a h).trans ?_
  show ((((0#32 : BitVec 32).toInt : ℤ) : ℝ) : EReal) = 0
  simp

theorem H_eq (i : S8192x128.Idx) : (kvH m c i : EReal) = kvSp m c i := by
  rw [v98_op m c]
  rfl

theorem Sp_real (hs : ∀ i, IsReal (kvS m c i : EReal)) (i : S8192x128.Idx) : IsReal (kvSp m c i : EReal) := by
  obtain ⟨n, a, rfl⟩ : ∃ (n : Fin 8192) (a : Fin 128), i = ix2 n a := ⟨i 0, i 1, eq_ix2 i⟩
  by_cases h : a.val < 100
  · rw [Sp_lt m c n a h]
    exact hs _
  · rw [Sp_ge m c n a (by omega)]
    exact isReal_zero

theorem L_eq (hs : ∀ i, IsReal (kvS m c i : EReal)) (i : S8192x128.Idx) : (kvL m c i : EReal) = 0 := by
  rw [v101_op m c]
  show (kvSp m c i : EReal) - (kvSp m c i : EReal) = 0
  obtain ⟨x, hx⟩ := isReal_iff_exists.1 (Sp_real m c hs i)
  rw [hx]
  exact sub_self_coe x

theorem out5_kv (p : Fin 2) (a b : Fin 128) :
    (kvO5 m c (ix3 p a b) : EReal)
      = ∑ i : Fin 16, ∑ r : Fin 256, (kvSp m c (ix2 (row p i r) a) : EReal) *
          ((∑ k : Fin 8192, (kvA m c (ix2 (row p i r) k) : EReal) * (kvH m c (ix2 k b) : EReal)
              + ∑ k : Fin 8192, (kvA m c (ix2 (row p i r) k) : EReal) * (kvL m c (ix2 k b) : EReal))
            + ∑ k : Fin 8192, ((kvA m c (ix2 (row p i r) k) : EReal) - (kvA m c (ix2 (row p i r) k) : EReal))
                * (kvH m c (ix2 k b) : EReal)) := by
  have eS : inS m c = kvSp m c := V_eq_KFin m c main_v97 (by decide)
  have eA : inA m c = kvA m c := V_eq_KFin m c main_arg3 (by decide)
  have eH : inH m c = kvH m c := V_eq_KFin m c main_v98 (by decide)
  have eL : inL m c = kvL m c := V_eq_KFin m c main_v101 (by decide)
  have e := out5_sum m c p a b
  rw [eS, eA, eH, eL] at e
  exact (congrArg (fun z : FVec Ideal S2x128x128 .f32 => z (ix3 p a b)) (KFin_out5 m c)).trans e

theorem out6_kv (p : Fin 2) (u : Fin 8) (v : Fin 128) :
    (kvO6 m c (ix3 p u v) : EReal)
      = ∑ i : Fin 16, ∑ r : Fin 256, ∑ k : Fin 8192,
          (kvA m c (ix2 (row p i r) k) : EReal) * (kvA m c (ix2 (row p i r) k) : EReal) := by
  have eA : inA m c = kvA m c := V_eq_KFin m c main_arg3 (by decide)
  have e := out6_sum m c p u v
  rw [eA] at e
  exact (congrArg (fun z : FVec Ideal S2x8x128 .f32 => z (ix3 p u v)) (KFin_out6 m c)).trans e

theorem out7_kv (p : Fin 2) (a : Fin 128) (f : Fin 512) :
    (kvO7 m c (ix3 p a f) : EReal)
      = ∑ i : Fin 16, ∑ r : Fin 256, (kvSp m c (ix2 (row p i r) a) : EReal) * (kvX m c (ix2 (row p i r) f) : EReal) := by
  have eS : inS m c = kvSp m c := V_eq_KFin m c main_v97 (by decide)
  have eX : inX m c = kvX m c := V_eq_KFin m c main_arg0 (by decide)
  have e := out7_sum m c p a f
  rw [eS, eX] at e
  exact (congrArg (fun z : FVec Ideal S2x128x512 .f32 => z (ix3 p a f)) (KFin_out7 m c)).trans e

theorem v103_apply (hs : ∀ i, IsReal (kvS m c i : EReal)) (hA : ∀ i, IsReal (kvA m c i : EReal)) (a b : Fin 128) :
    @Eq EReal ((KFin m c (Proc.devRef .tc main_v103) : FVec Ideal S128x128 .f32) (ix2 a b))
      (∑ n : Fin 8192, (kvSp m c (ix2 n a) : EReal)
          * ∑ k : Fin 8192, (kvA m c (ix2 n k) : EReal) * (kvSp m c (ix2 k b) : EReal)) := by
  rw [v103_op m c, reduce_2x128x128_apply, constant_apply, Ideal.ofBits_zero_f32]
  refine (congrArg (fun z : EReal => 0 + z) (Finset.sum_congr rfl fun p _ => out5_kv m c p a b)).trans ?_
  exact pool5_alg (kvSp m c) (kvA m c) (kvH m c) (kvL m c) hA (H_eq m c) (L_eq m c hs) a b

theorem v106_eq :
    @Eq EReal ((KFin m c (Proc.devRef .tc main_v106) : FVec Ideal S_ .f32) ix0)
      (∑ n : Fin 8192, ∑ k : Fin 8192, (kvA m c (ix2 n k) : EReal) * (kvA m c (ix2 n k) : EReal)) := by
  rw [v106_op m c, sum2_apply, constant_apply, Ideal.ofBits_zero_f32]
  refine (congrArg (fun z : EReal => 0 + z) (Finset.sum_congr rfl fun p _ => out6_kv m c p 0 0)).trans ?_
  exact pool6_alg (kvA m c)

theorem v107_apply (a : Fin 128) (f : Fin 512) :
    @Eq EReal ((KFin m c (Proc.devRef .tc main_v107) : FVec Ideal S128x512 .f32) (ix2 a f))
      (∑ n : Fin 8192, (kvSp m c (ix2 n a) : EReal) * (kvX m c (ix2 n f) : EReal)) := by
  rw [v107_op m c, reduce_2x128x512_apply, constant_apply, Ideal.ofBits_zero_f32]
  refine (congrArg (fun z : EReal => 0 + z) (Finset.sum_congr rfl fun p _ => out7_kv m c p a f)).trans ?_
  exact pool7_alg (kvSp m c) (kvX m c) a f

theorem v108_slice (a b : Fin 100) :
    @Eq EReal ((KFin m c (Proc.devRef .tc main_v108) : FVec Ideal S100x100 .f32) (ix2 a b))
      ((KFin m c (Proc.devRef .tc main_v103) : FVec Ideal S128x128 .f32)
          (ix2 ⟨a.val, by omega⟩ ⟨b.val, by omega⟩)) := by
  rw [v108_op m c]
  exact corner_100x100_apply _ a b

theorem v109_slice (a : Fin 100) (f : Fin 512) :
    @Eq EReal ((KFin m c (Proc.devRef .tc main_v109) : FVec Ideal S100x512 .f32) (ix2 a f))
      ((KFin m c (Proc.devRef .tc main_v107) : FVec Ideal S128x512 .f32) (ix2 ⟨a.val, by omega⟩ f)) := by
  rw [v109_op m c]
  exact rows_100x512_apply _ a f

theorem v108_apply (hs : ∀ i, IsReal (kvS m c i : EReal)) (hA : ∀ i, IsReal (kvA m c i : EReal)) (a b : Fin 100) :
    @Eq EReal ((KFin m c (Proc.devRef .tc main_v108) : FVec Ideal S100x100 .f32) (ix2 a b))
      (∑ n : Fin 8192, (kvS m c (ix2 n a) : EReal)
          * ∑ k : Fin 8192, (kvA m c (ix2 n k) : EReal) * (kvS m c (ix2 k b) : EReal)) := by
  refine (v108_slice m c a b).trans ((v103_apply m c hs hA _ _).trans ?_)
  refine Finset.sum_congr (M := EReal) rfl fun n _ => ?_
  refine congrArg₂ (fun x y : EReal => x * y) (Sp_lt m c n ⟨a.val, by omega⟩ a.isLt) ?_
  refine Finset.sum_congr (M := EReal) rfl fun k _ => ?_
  exact congrArg (fun y : EReal => (kvA m c (ix2 n k) : EReal) * y) (Sp_lt m c k ⟨b.val, by omega⟩ b.isLt)

theorem v109_apply (a : Fin 100) (f : Fin 512) :
    @Eq EReal ((KFin m c (Proc.devRef .tc main_v109) : FVec Ideal S100x512 .f32) (ix2 a f))
      (∑ n : Fin 8192, (kvS m c (ix2 n a) : EReal) * (kvX m c (ix2 n f) : EReal)) := by
  refine (v109_slice m c a f).trans ((v107_apply m c _ _).trans ?_)
  refine Finset.sum_congr (M := EReal) rfl fun n _ => ?_
  exact congrArg (fun x : EReal => x * (kvX m c (ix2 n f) : EReal)) (Sp_lt m c n ⟨a.val, by omega⟩ a.isLt)

end Stage

end Cert.Bridge

end
-- ==== Proof.Bridge.Pool.lean ====
import proofs.«401602_j3728031613303_3_alg».proof.Proof.Bridge.Base
import proofs.«401602_j3728031613303_3_alg».proof.Proof.Bridge.PoolRead
import proofs.«401602_j3728031613303_3_alg».proof.Proof.Bridge.KPool

set_option maxRecDepth 16384

noncomputable section

namespace Cert.Bridge

open Idealize.ShloMosaic Idealize.ShloMosaic.TcCoe Idealize.SL.Sem Idealize.ShloMosaic.ValueIdx
open Idealize.ShloMosaic.StableHlo
open Cert.LibAlg (IsReal)
open scoped BigOperators

variable (m : KMem Ideal) (m' : RMem Ideal) (c : Dev Cert.KernelIdeal.nD)

abbrev kS : FVec Ideal Cert.KernelIdeal.S8192x100 .f32 := KV m c Cert.KernelIdeal.main_v88

abbrev kA : FVec Ideal Cert.KernelIdeal.S8192x8192 .f32 := KV m c Cert.KernelIdeal.main_arg3

abbrev kX : FVec Ideal Cert.KernelIdeal.S8192x512 .f32 := KV m c Cert.KernelIdeal.main_arg0

abbrev k103 : FVec Ideal Cert.KernelIdeal.S128x128 .f32 := KV m c Cert.KernelIdeal.main_v103

abbrev k106 : FVec Ideal Cert.KernelIdeal.S_ .f32 := KV m c Cert.KernelIdeal.main_v106

abbrev k108 : FVec Ideal Cert.KernelIdeal.S100x100 .f32 := KV m c Cert.KernelIdeal.main_v108

abbrev k109 : FVec Ideal Cert.KernelIdeal.S100x512 .f32 := KV m c Cert.KernelIdeal.main_v109

abbrev k120 : FVec Ideal Cert.KernelIdeal.S_ .f32 := KV m c Cert.KernelIdeal.main_v120

abbrev rQ : FVec Ideal Cert.ReferenceIdeal.S8192x100 .f32 := RV m' c Cert.ReferenceIdeal.main_v157

abbrev rG : IVec Cert.ReferenceIdeal.S8192 1 := RV m' c Cert.ReferenceIdeal.main_arg4

abbrev rS : FVec Ideal Cert.ReferenceIdeal.S8192x100 .f32 := RV m' c Cert.ReferenceIdeal.main_v163

abbrev rA : FVec Ideal Cert.ReferenceIdeal.S8192x8192 .f32 := RV m' c Cert.ReferenceIdeal.main_arg3

abbrev rX : FVec Ideal Cert.ReferenceIdeal.S8192x512 .f32 := RV m' c Cert.ReferenceIdeal.main_arg0

abbrev rXm : FVec Ideal Cert.ReferenceIdeal.S8192x512 .f32 := RV m' c Cert.ReferenceIdeal.main_v161

abbrev r165 : FVec Ideal Cert.ReferenceIdeal.S100x512 .f32 := RV m' c Cert.ReferenceIdeal.main_v165

abbrev r168 : FVec Ideal Cert.ReferenceIdeal.S100x100 .f32 := RV m' c Cert.ReferenceIdeal.main_v168

abbrev r175 : FVec Ideal Cert.ReferenceIdeal.S_ .f32 := RV m' c Cert.ReferenceIdeal.main_v175

theorem rXm_eq : rXm m' c = Ref.maskedX (rX m' c) (rG m' c) := by
  show Cert.ReferenceIdeal.Hand.RFin' m' c (Proc.devRef .tc Cert.ReferenceIdeal.main_v161)
    = Ref.maskedX (Cert.ReferenceIdeal.Hand.RFin' m' c (Proc.devRef .tc Cert.ReferenceIdeal.main_arg0)) (Cert.ReferenceIdeal.Hand.RFin' m' c (Proc.devRef .tc Cert.ReferenceIdeal.main_arg4))
  rw [Cert.ReferenceIdeal.Hand.r_down14_k m' c Cert.ReferenceIdeal.main_v161 (by decide),
    ← Cert.ReferenceIdeal.Hand.r_up14_k m' c Cert.ReferenceIdeal.main_arg0 (by decide),
    ← Cert.ReferenceIdeal.Hand.r_up14_k m' c Cert.ReferenceIdeal.main_arg4 (by decide)]
  after_results_simp
  rfl

theorem rS_eq : rS m' c = Ref.maskedS (rQ m' c) (rG m' c) := by
  show Cert.ReferenceIdeal.Hand.RFin' m' c (Proc.devRef .tc Cert.ReferenceIdeal.main_v163)
    = Ref.maskedS (Cert.ReferenceIdeal.Hand.RFin' m' c (Proc.devRef .tc Cert.ReferenceIdeal.main_v157)) (Cert.ReferenceIdeal.Hand.RFin' m' c (Proc.devRef .tc Cert.ReferenceIdeal.main_arg4))
  rw [Cert.ReferenceIdeal.Hand.r_down14_k m' c Cert.ReferenceIdeal.main_v163 (by decide),
    Cert.ReferenceIdeal.Hand.r_down14_k m' c Cert.ReferenceIdeal.main_v157 (by decide),
    ← Cert.ReferenceIdeal.Hand.r_up14_k m' c Cert.ReferenceIdeal.main_arg4 (by decide)]
  after_results_simp
  rfl

theorem r165_eq : r165 m' c = Ref.poolX (rS m' c) (rXm m' c) := by
  show Cert.ReferenceIdeal.Hand.RFin' m' c (Proc.devRef .tc Cert.ReferenceIdeal.main_v165)
    = Ref.poolX (Cert.ReferenceIdeal.Hand.RFin' m' c (Proc.devRef .tc Cert.ReferenceIdeal.main_v163)) (Cert.ReferenceIdeal.Hand.RFin' m' c (Proc.devRef .tc Cert.ReferenceIdeal.main_v161))
  rw [Cert.ReferenceIdeal.Hand.r_down15_k m' c Cert.ReferenceIdeal.main_v165 (by decide),
    ← Cert.ReferenceIdeal.Hand.r_up15_k m' c Cert.ReferenceIdeal.main_v163 (by decide),
    ← Cert.ReferenceIdeal.Hand.r_up15_k m' c Cert.ReferenceIdeal.main_v161 (by decide)]
  after_results_simp
  rfl

theorem r168_eq : r168 m' c = Ref.poolA (rS m' c) (rA m' c) := by
  show Cert.ReferenceIdeal.Hand.RFin' m' c (Proc.devRef .tc Cert.ReferenceIdeal.main_v168)
    = Ref.poolA (Cert.ReferenceIdeal.Hand.RFin' m' c (Proc.devRef .tc Cert.ReferenceIdeal.main_v163)) (Cert.ReferenceIdeal.Hand.RFin' m' c (Proc.devRef .tc Cert.ReferenceIdeal.main_arg3))
  rw [Cert.ReferenceIdeal.Hand.r_down16_k m' c Cert.ReferenceIdeal.main_v168 (by decide),
    ← Cert.ReferenceIdeal.Hand.r_up16_k m' c Cert.ReferenceIdeal.main_v163 (by decide),
    ← Cert.ReferenceIdeal.Hand.r_up16_k m' c Cert.ReferenceIdeal.main_arg3 (by decide)]
  after_results_simp
  rfl

theorem r175_eq : r175 m' c = Ref.linkLoss (rS m' c) (rA m' c) := by
  show Cert.ReferenceIdeal.Hand.RFin' m' c (Proc.devRef .tc Cert.ReferenceIdeal.main_v175)
    = Ref.linkLoss (Cert.ReferenceIdeal.Hand.RFin' m' c (Proc.devRef .tc Cert.ReferenceIdeal.main_v163)) (Cert.ReferenceIdeal.Hand.RFin' m' c (Proc.devRef .tc Cert.ReferenceIdeal.main_arg3))
  rw [Cert.ReferenceIdeal.Hand.r_down17_k m' c Cert.ReferenceIdeal.main_v175 (by decide),
    ← Cert.ReferenceIdeal.Hand.r_up17_k m' c Cert.ReferenceIdeal.main_v163 (by decide),
    ← Cert.ReferenceIdeal.Hand.r_up17_k m' c Cert.ReferenceIdeal.main_arg3 (by decide)]
  after_results_simp
  rfl

theorem k120_eq : k120 m c = Ker.linkLoss (k103 m c) (k106 m c) (kS m c) := by
  show Cert.KernelIdeal.Hand.KFin m c (Proc.devRef .tc Cert.KernelIdeal.main_v120)
    = Ker.linkLoss (Cert.KernelIdeal.Hand.KFin m c (Proc.devRef .tc Cert.KernelIdeal.main_v103)) (Cert.KernelIdeal.Hand.KFin m c (Proc.devRef .tc Cert.KernelIdeal.main_v106)) (Cert.KernelIdeal.Hand.KFin m c (Proc.devRef .tc Cert.KernelIdeal.main_v88))
  rw [Cert.KernelIdeal.Hand.tail_down1_k m c Cert.KernelIdeal.main_v120 (by decide),
    ← Cert.KernelIdeal.Hand.tail_up1_k m c Cert.KernelIdeal.main_v103 (by decide),
    ← Cert.KernelIdeal.Hand.tail_up1_k m c Cert.KernelIdeal.main_v106 (by decide),
    ← Cert.KernelIdeal.Hand.tail_up1_k m c Cert.KernelIdeal.main_v88 (by decide)]
  after_results_simp
  rfl

theorem adj1_eq_of (hs : kS m c = rS m' c) (hA : kA m c = rA m' c)
    (hsr : ∀ i, IsReal (rS m' c i)) (hAr : ∀ i, IsReal (rA m' c i))
    (h108 : ∀ a b : Fin 100, k108 m c (ix2 a b)
      = ∑ n : Fin 8192, kS m c (ix2 n a) * ∑ k : Fin 8192, kA m c (ix2 n k) * kS m c (ix2 k b)) :
    k108 m c = r168 m' c := by
  funext i
  obtain ⟨a, b, rfl⟩ : ∃ (a b : Fin 100), i = ix2 a b := ⟨i 0, i 1, eq_ix2 i⟩
  rw [h108 a b, hs, hA, r168_eq]
  exact Join.adj _ _ hsr hAr a b

theorem x1p_eq_of (hs : kS m c = rS m' c) (hX : kX m c = rX m' c)
    (h109 : ∀ (a : Fin 100) (f : Fin 512), k109 m c (ix2 a f)
      = ∑ n : Fin 8192, kS m c (ix2 n a) * kX m c (ix2 n f)) :
    k109 m c = r165 m' c := by
  funext i
  obtain ⟨a, f, rfl⟩ : ∃ (a : Fin 100) (f : Fin 512), i = ix2 a f := ⟨i 0, i 1, eq_ix2 i⟩
  rw [h109 a f, hs, hX, r165_eq, rS_eq, rXm_eq]
  exact (Ref.poolX_masked _ _ _ a f).symm

theorem l1_eq_of (hs : kS m c = rS m' c) (hA : kA m c = rA m' c)
    (hsr : ∀ i, IsReal (rS m' c i)) (hAr : ∀ i, IsReal (rA m' c i))
    (Sp : Fin 8192 → Fin 128 → EReal)
    (hSp1 : ∀ (n : Fin 8192) (a : Fin 100), Sp n ⟨a.val, by omega⟩ = kS m c (ix2 n a))
    (hSp0 : ∀ (n : Fin 8192) (a : Fin 128), 100 ≤ a.val → Sp n a = 0)
    (h103 : ∀ a : Fin 128, k103 m c (ix2 a a)
      = ∑ n : Fin 8192, Sp n a * ∑ k : Fin 8192, kA m c (ix2 n k) * Sp k a)
    (h106 : k106 m c ix0 = ∑ n : Fin 8192, ∑ k : Fin 8192, kA m c (ix2 n k) * kA m c (ix2 n k)) :
    k120 m c = r175 m' c := by
  funext j
  rw [k120_eq, r175_eq, hs]
  exact Join.link _ _ hsr hAr _ _ Sp (fun n a => by rw [hSp1 n a, hs]) hSp0
    (fun a => by rw [h103 a, hA]) (fun j' => by rw [eq_ix0 j', h106, hA]) j

theorem kvS_real (hs : kS m c = rS m' c) (hsr : ∀ i, IsReal (rS m' c i)) : ∀ i, IsReal (kvS m c i : EReal) :=
  fun i => (congrArg (fun z : EReal => IsReal z) (congrFun hs i)).mpr (hsr i)

theorem kvA_real (hA : kA m c = rA m' c) (hAr : ∀ i, IsReal (rA m' c i)) : ∀ i, IsReal (kvA m c i : EReal) :=
  fun i => (congrArg (fun z : EReal => IsReal z) (congrFun hA i)).mpr (hAr i)

theorem adj1_eq (hs : kS m c = rS m' c) (hA : kA m c = rA m' c)
    (hsr : ∀ i, IsReal (rS m' c i)) (hAr : ∀ i, IsReal (rA m' c i)) : k108 m c = r168 m' c :=
  adj1_eq_of m m' c hs hA hsr hAr
    (fun a b => v108_apply m c (kvS_real m m' c hs hsr) (kvA_real m m' c hA hAr) a b)

theorem x1p_eq (hs : kS m c = rS m' c) (hX : kX m c = rX m' c) : k109 m c = r165 m' c :=
  x1p_eq_of m m' c hs hX (fun a f => v109_apply m c a f)

theorem l1_eq (hs : kS m c = rS m' c) (hA : kA m c = rA m' c)
    (hsr : ∀ i, IsReal (rS m' c i)) (hAr : ∀ i, IsReal (rA m' c i)) : k120 m c = r175 m' c :=
  l1_eq_of m m' c hs hA hsr hAr (fun n a => (kvSp m c (ix2 n a) : EReal))
    (fun n a => Sp_lt m c n ⟨a.val, by omega⟩ a.isLt)
    (fun n a h => Sp_ge m c n a h)
    (fun a => v103_apply m c (kvS_real m m' c hs hsr) (kvA_real m m' c hA hAr) a a)
    (v106_eq m c)

end Cert.Bridge

end
-- ==== Proof.Bridge.Finite.lean ====
import Idealize.ShloMosaic.PureOps.Ideal
import Idealize.ShloMosaic.PureOps.Ideal.Laws
import Idealize.ShloMosaic.PureOps.Reduce
import Idealize.ShloMosaic.Lib.ReduceAll
import Idealize.ShloMosaic.Lib.ValueIdx
import proofs.«401602_j3728031613303_3_alg».proof.Defs
import proofs.«401602_j3728031613303_3_alg».proof.Proof.LibAlg

noncomputable section

namespace Cert.Bridge

open Idealize.ShloMosaic Cert.LibAlg

def AllReal {ι : Type} (x : ι → EReal) : Prop := ∀ i, IsReal (x i)

theorem isReal_exp {a : EReal} (h : IsReal a) : IsReal (Ideal.exp a) := by
  obtain ⟨r, rfl⟩ := isReal_iff_exists.1 h
  exact isReal_coe (Real.exp r)

theorem exp_pos_of_isReal {a : EReal} (h : IsReal a) : 0 < Ideal.exp a := by
  obtain ⟨r, rfl⟩ := isReal_iff_exists.1 h
  exact EReal.coe_pos.2 (Real.exp_pos r)

theorem isReal_rsqrt_of_pos {a : EReal} (h : 0 < a) : IsReal (Ideal.rsqrt a) := by
  induction a using EReal.rec with
  | bot => exact absurd h (by simp)
  | top => rw [Ideal.rsqrt_top]; exact isReal_zero
  | coe r =>
    have hr : 0 < r := EReal.coe_pos.1 h
    rw [Ideal.rsqrt_coe, if_neg (not_lt.2 hr.le), if_neg hr.ne']
    exact isReal_coe _

theorem isReal_div {a b : EReal} (ha : IsReal a) (hb : IsReal b) (h0 : b ≠ 0) : IsReal (Ideal.div a b) := by
  obtain ⟨r, rfl⟩ := isReal_iff_exists.1 hb
  have hr : r ≠ 0 := fun e => h0 (by rw [e, EReal.coe_zero])
  rw [Ideal.div_coe hr]
  exact ha.mul (isReal_coe _)

theorem isReal_max_of_ne_top {a b : EReal} (ha : a ≠ ⊤) (hb : IsReal b) : IsReal (max a b) := by
  rcases le_total a b with h | h
  · rw [max_eq_right h]; exact hb
  · rw [max_eq_left h]; exact ⟨ha, fun e => hb.2 (le_bot_iff.1 (e ▸ h))⟩

theorem max_pos_of_right {a b : EReal} (hb : 0 < b) : 0 < max a b := lt_max_of_lt_right hb

theorem isReal_of_abs_lt_top {a : EReal} (h : max a (-a) < ⊤) : IsReal a := by
  induction a using EReal.rec with
  | bot => exact absurd h (by simp)
  | top => exact absurd h (by simp)
  | coe r => exact isReal_coe r

theorem ofBits_pos_inf : Ideal.ofBits .f32 0x7F800000#32 = ⊤ := by simp [Ideal.ofBits, Ideal.ieee]

theorem ofBits_neg_inf : Ideal.ofBits .f32 0xFF800000#32 = ⊥ := by simp [Ideal.ofBits, Ideal.ieee]

theorem ofBits_zero : Ideal.ofBits .f32 0x00000000#32 = 0 := by simp [Ideal.ofBits, Ideal.ieee]

theorem isReal_ofBits_one : IsReal (Ideal.ofBits .f32 0x3F800000#32) := by
  show Ideal.ofBits .f32 0x3F800000#32 ≠ ⊤ ∧ Ideal.ofBits .f32 0x3F800000#32 ≠ ⊥
  simp [Ideal.ofBits, Ideal.ieee, -EReal.coe_mul]

theorem ofBits_eps_pos : 0 < Ideal.ofBits .f32 0x2B8CBCCC#32 := by
  simp [Ideal.ofBits, Ideal.ieee, -EReal.coe_mul]

section Pointwise

variable {s : Shape} {φ : FTy}

theorem allReal_addf {x y : FVec Ideal s φ} (hx : AllReal x) (hy : AllReal y) : AllReal (addf x y) :=
  fun i => (hx i).add (hy i)

theorem allReal_subf {x y : FVec Ideal s φ} (hx : AllReal x) (hy : AllReal y) : AllReal (subf x y) :=
  fun i => (hx i).sub (hy i)

theorem allReal_mulf {x y : FVec Ideal s φ} (hx : AllReal x) (hy : AllReal y) : AllReal (mulf x y) :=
  fun i => (hx i).mul (hy i)

theorem allReal_maximumf {x y : FVec Ideal s φ} (hx : AllReal x) (hy : AllReal y) : AllReal (maximumf x y) :=
  fun i => (hx i).max (hy i)

theorem allReal_maximumf_of_ne_top {x y : FVec Ideal s φ} (hx : ∀ i, x i ≠ ⊤) (hy : AllReal y) :
    AllReal (maximumf x y) :=
  fun i => isReal_max_of_ne_top (hx i) (hy i)

theorem allReal_select {c : IVec s 1} {a b : s.Idx → EReal} (ha : AllReal a) (hb : AllReal b) :
    AllReal (select c a b) := by
  intro i
  show IsReal (if c i = 1 then a i else b i)
  split
  exacts [ha i, hb i]

theorem allReal_hostExp {x : FVec Ideal s φ} (hx : AllReal x) : AllReal (Host.exp x) :=
  fun i => isReal_exp (hx i)

theorem hostExp_pos {x : FVec Ideal s φ} (hx : AllReal x) (i : s.Idx) : 0 < Host.exp x i :=
  exp_pos_of_isReal (hx i)

theorem allReal_hostRsqrt {x : FVec Ideal s φ} (hx : ∀ i, 0 < x i) : AllReal (Host.rsqrt x) :=
  fun i => isReal_rsqrt_of_pos (hx i)

theorem allReal_hostDivf {x y : FVec Ideal s φ} (hx : AllReal x) (hy : AllReal y) (h0 : ∀ i, y i ≠ 0) :
    AllReal (Host.divf x y) :=
  fun i => isReal_div (hx i) (hy i) (h0 i)

theorem allReal_uitofp {w : Nat} (x : IVec s w) : AllReal (uitofp (F := Ideal) φ x) :=
  fun i => isReal_coe _

theorem allReal_sitofp {w : Nat} (x : IVec s w) : AllReal (sitofp (F := Ideal) φ x) :=
  fun i => isReal_coe _

theorem allReal_constant {b : BitVec φ.bits} (h : IsReal (Ideal.ofBits φ b)) : AllReal (constant (F := Ideal) s φ b) :=
  fun _ => h

end Pointwise

section Layout

variable {s t : Shape}

theorem allReal_broadcastInDim (dims : Fin s.rank → Fin t.rank) (h : s.BroadcastsInDim t dims) {x : s.Idx → EReal}
    (hx : AllReal x) : AllReal (broadcastInDim t dims h x) :=
  fun _ => hx _

theorem allReal_extractStridedSlice (off : Fin s.rank → Nat) {x : s.Idx → EReal} (h : s.Slices off t) (hx : AllReal x) :
    AllReal (extractStridedSlice t off x h) :=
  fun _ => hx _

theorem allReal_gather {si : Shape} {w : Nat} (d : GatherDims s si t) {x : s.Idx → EReal} (idx : IVec si w)
    (hx : AllReal x) : AllReal (Host.gather d x idx) :=
  fun _ => hx _

theorem allReal_concatenate (a : Fin t.rank) (xs : List ((s : Shape) × (s.Idx → EReal)))
    (h : Shape.Concatenates (xs.map (·.1)) t a) (hxs : ∀ p ∈ xs, AllReal p.2) : AllReal (concatenate t a xs h) := by
  intro j
  exact hxs _ (List.getElem_mem _) _

theorem allReal_concatenate2 (a : Fin t.rank) {s₁ s₂ : Shape} {x : s₁.Idx → EReal} {y : s₂.Idx → EReal}
    (h : Shape.Concatenates [s₁, s₂] t a) (hx : AllReal x) (hy : AllReal y) :
    AllReal (concatenate t a ([⟨s₁, x⟩, ⟨s₂, y⟩] : List ((s : Shape) × (s.Idx → EReal))) h) := by
  refine allReal_concatenate a [⟨s₁, x⟩, ⟨s₂, y⟩] h fun p hp => ?_
  rcases List.mem_cons.1 hp with rfl | hp
  · exact hx
  · rcases List.mem_cons.1 hp with rfl | hp
    · exact hy
    · exact absurd hp (List.not_mem_nil)

theorem allReal_pad (lo hi interior : Fin s.rank → Nat) {x : s.Idx → EReal} {u : Shape} {v : u.Idx → EReal}
    (h : s.Pads lo hi interior t) (hu : 0 < u.numel) (hx : AllReal x) (hv : AllReal v) :
    AllReal (pad t lo hi interior x v h hu) := by
  intro j
  unfold pad
  split
  exacts [hx _, hv _]

end Layout

section Sums

variable {s t u : Shape} {φ : FTy}

theorem allReal_scatterAdd {si su : Shape} {w : Nat} (d : ScatterDims s si su) {x : FVec Ideal s φ} (idx : IVec si w)
    {upd : FVec Ideal su φ} (hx : AllReal x) (hupd : AllReal upd) : AllReal (Host.scatterAdd d x idx upd) :=
  fun i => (hx i).add (isReal_sum _ _ fun j _ => hupd j)

theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := by
  intro j
  have e := Ideal.dotGeneral_apply d prec .single lhs rhs j
  show IsReal (FloatOps.dotGeneral d prec .single lhs rhs j)
  rw [e]
  exact isReal_sum_univ _ fun k => (hl _).mul (hr _)

theorem allReal_reduceAdd {axes : List (Fin s.rank)} {x : FVec Ideal s φ} {init : u.Idx → Ideal φ}
    (h : s.ReducesTo axes t) (hu : 0 < u.numel) (hx : AllReal x) (hi : AllReal init) :
    AllReal (Host.reduceAdd x init h hu) :=
  fun _ => (hi _).add (isReal_sum _ _ fun i _ => hx i)

theorem reduceAdd_pos {a : Fin s.rank} {x : FVec Ideal s φ} {init : u.Idx → Ideal φ}
    (h' : s.ReducesTo [a] t) (h : s.Reduces [a] t) (hu : 0 < u.numel) (ha : 0 < s.size a)
    (hx : AllReal x) (hpos : ∀ i, 0 < x i) (hi : ∀ k, 0 ≤ init k) (j : t.Idx) :
    0 < Host.reduceAdd x init h' hu j := by
  show 0 < Ideal.hostReduceAdd h' x (init _) j
  rw [Ideal.hostReduceAdd_single h' h]
  obtain ⟨g, hg⟩ := exists_real_fun x hx
  have hgpos : ∀ i, 0 < g i := fun i => EReal.coe_pos.1 (hg i ▸ hpos i)
  have e : ∑ k : Fin (s.size a), x (h.lift j k) = ((∑ k : Fin (s.size a), g (h.lift j k) : ℝ) : EReal) := by
    rw [← coe_sum]
    exact Finset.sum_congr rfl fun k _ => hg _
  have hs : 0 < ∑ k : Fin (s.size a), g (h.lift j k) :=
    Finset.sum_pos (fun k _ => hgpos _) ⟨⟨0, ha⟩, Finset.mem_univ _⟩
  rw [e]
  exact lt_of_lt_of_le (EReal.coe_pos.2 hs) (le_add_of_nonneg_left (hi _))

theorem allReal_reduceMax {axes : List (Fin s.rank)} {x : FVec Ideal s φ} {init : u.Idx → Ideal φ}
    (h : s.ReducesTo axes t) (hu : 0 < u.numel) (hx : AllReal x) (hi : ∀ k, init k ≠ ⊤)
    (hne : ∀ j, ∃ i, h.drop i = j) :
    AllReal (Host.reduce (FloatOps.maximumf (F := Ideal) (φ := φ)) x init h hu) := by
  intro j
  rw [Host.reduce_eq_fold]
  change IsReal ((Finset.univ.filter fun i => h.drop i = j).fold max (init _) x)
  constructor
  · exact ne_of_lt ((Finset.fold_max_lt _).2 ⟨lt_top_iff_ne_top.2 (hi _), fun i _ => lt_top_iff_ne_top.2 (hx i).1⟩)
  · obtain ⟨i, hi'⟩ := hne j
    exact ne_of_gt ((Finset.lt_fold_max _).2
      (Or.inr ⟨i, Finset.mem_filter.2 ⟨Finset.mem_univ _, hi'⟩, bot_lt_iff_ne_bot.2 (hx i).2⟩))

theorem exists_drop_eq {a : Fin s.rank} (h' : s.ReducesTo [a] t) (h : s.Reduces [a] t) (ha : 0 < s.size a) (j : t.Idx) :
    ∃ i, h'.drop i = j :=
  ⟨h.lift j ⟨0, ha⟩, by rw [Shape.ReducesTo.drop_eq_drop h' h]; exact h.drop_lift j _⟩

end Sums

section Pre

open Cert.Pre_finite_inputs

instance subsingleton_scalar_idx : Subsingleton (⟨0, ![]⟩ : Shape).Idx := ⟨fun _ _ => funext fun d => d.elim0⟩

theorem allReal_of_all_finite {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
        (constantI S_ 1 1#1) hr hu ValueIdx.ix0 = 1#1) : AllReal x := by
  intro i
  have h1 := Host.reduce_andi_all _ _ hr hu ValueIdx.ix0 e i
  have h2 : Ideal.cmp .olt (max (x i) (-(x i))) (Ideal.ofBits .f32 0x7F800000#32) = 1#1 := h1
  rw [ofBits_pos_inf] at h2
  refine isReal_of_abs_lt_top ?_
  by_contra hlt
  have h4 : Ideal.cmp .olt (max (x i) (-(x i))) ⊤ = BitVec.ofBool (decide (max (x i) (-(x i)) < ⊤)) := rfl
  rw [h4, decide_eq_false hlt] at h2
  exact absurd h2 (by decide)

variable [Cert.Pre_finite_inputs.Facts]

theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (m ((c.tc : Thread Cert.KernelIdeal.nD Cert.KernelIdeal.τ).loc Cert.KernelIdeal.main_arg0) : FVec Ideal S8192x512 .f32)
    ∧ AllReal (m ((c.tc : Thread Cert.KernelIdeal.nD Cert.KernelIdeal.τ).loc Cert.KernelIdeal.main_arg2) : FVec Ideal S262144 .f32)
    ∧ AllReal (m ((c.tc : Thread Cert.KernelIdeal.nD Cert.KernelIdeal.τ).loc Cert.KernelIdeal.main_arg3) : FVec Ideal S8192x8192 .f32)
    ∧ AllReal (m ((c.tc : Thread Cert.KernelIdeal.nD Cert.KernelIdeal.τ).loc Cert.KernelIdeal.main_arg5) : FVec Ideal S512x16 .f32)
    ∧ AllReal (m ((c.tc : Thread Cert.KernelIdeal.nD Cert.KernelIdeal.τ).loc Cert.KernelIdeal.main_arg6) : FVec Ideal S16 .f32)
    ∧ AllReal (m ((c.tc : Thread Cert.KernelIdeal.nD Cert.KernelIdeal.τ).loc Cert.KernelIdeal.main_arg7) : FVec Ideal S16x10 .f32)
    ∧ AllReal (m ((c.tc : Thread Cert.KernelIdeal.nD Cert.KernelIdeal.τ).loc Cert.KernelIdeal.main_arg8) : FVec Ideal S10 .f32)
    ∧ AllReal (m ((c.tc : Thread Cert.KernelIdeal.nD Cert.KernelIdeal.τ).loc Cert.KernelIdeal.main_arg9) : FVec Ideal S512x100 .f32)
    ∧ AllReal (m ((c.tc : Thread Cert.KernelIdeal.nD Cert.KernelIdeal.τ).loc Cert.KernelIdeal.main_arg10) : FVec Ideal S100 .f32)
    ∧ AllReal (m ((c.tc : Thread Cert.KernelIdeal.nD Cert.KernelIdeal.τ).loc Cert.KernelIdeal.main_arg11) : FVec Ideal S512x16 .f32)
    ∧ AllReal (m ((c.tc : Thread Cert.KernelIdeal.nD Cert.KernelIdeal.τ).loc Cert.KernelIdeal.main_arg12) : FVec Ideal S16 .f32)
    ∧ AllReal (m ((c.tc : Thread Cert.KernelIdeal.nD Cert.KernelIdeal.τ).loc Cert.KernelIdeal.main_arg13) : FVec Ideal S16x100 .f32)
    ∧ AllReal (m ((c.tc : Thread Cert.KernelIdeal.nD Cert.KernelIdeal.τ).loc Cert.KernelIdeal.main_arg14) : FVec Ideal S100 .f32)
    ∧ AllReal (m ((c.tc : Thread Cert.KernelIdeal.nD Cert.KernelIdeal.τ).loc Cert.KernelIdeal.main_arg15) : FVec Ideal S110x10 .f32)
    ∧ AllReal (m ((c.tc : Thread Cert.KernelIdeal.nD Cert.KernelIdeal.τ).loc Cert.KernelIdeal.main_arg16) : FVec Ideal S10 .f32) := by
  have h := congrFun (hpre c) ValueIdx.ix0
  obtain ⟨h, k16⟩ := IntOp.andi_eq_one.1 h
  obtain ⟨h, k15⟩ := IntOp.andi_eq_one.1 h
  obtain ⟨h, k14⟩ := IntOp.andi_eq_one.1 h
  obtain ⟨h, k13⟩ := IntOp.andi_eq_one.1 h
  obtain ⟨h, k12⟩ := IntOp.andi_eq_one.1 h
  obtain ⟨h, k11⟩ := IntOp.andi_eq_one.1 h
  obtain ⟨h, k10⟩ := IntOp.andi_eq_one.1 h
  obtain ⟨h, k9⟩ := IntOp.andi_eq_one.1 h
  obtain ⟨h, k8⟩ := IntOp.andi_eq_one.1 h
  obtain ⟨h, k7⟩ := IntOp.andi_eq_one.1 h
  obtain ⟨h, k6⟩ := IntOp.andi_eq_one.1 h
  obtain ⟨h, k5⟩ := IntOp.andi_eq_one.1 h
  obtain ⟨h, k3⟩ := IntOp.andi_eq_one.1 h
  obtain ⟨k0, k2⟩ := IntOp.andi_eq_one.1 h
  exact ⟨allReal_of_all_finite _ _ _ _ k0, allReal_of_all_finite _ _ _ _ k2, allReal_of_all_finite _ _ _ _ k3,
    allReal_of_all_finite _ _ _ _ k5, allReal_of_all_finite _ _ _ _ k6, allReal_of_all_finite _ _ _ _ k7,
    allReal_of_all_finite _ _ _ _ k8, allReal_of_all_finite _ _ _ _ k9, allReal_of_all_finite _ _ _ _ k10,
    allReal_of_all_finite _ _ _ _ k11, allReal_of_all_finite _ _ _ _ k12, allReal_of_all_finite _ _ _ _ k13,
    allReal_of_all_finite _ _ _ _ k14, allReal_of_all_finite _ _ _ _ k15, allReal_of_all_finite _ _ _ _ k16⟩

end Pre

end Cert.Bridge
-- ==== Proof.Bridge.FiniteK.lean ====
import proofs.«401602_j3728031613303_3_alg».proof.Proof.KI.StagesK
import proofs.«401602_j3728031613303_3_alg».proof.Proof.Bridge.Finite

set_option maxRecDepth 16384

noncomputable section

namespace Cert.Bridge

open Idealize.ShloMosaic Idealize.ShloMosaic.TcCoe Idealize.SL.Sem Cert.LibAlg
open Cert.KernelIdeal Cert.KernelIdeal.Gen Cert.KernelIdeal.Hand

theorem allReal_of_eq {ι : Type} {x y : ι → EReal} (e : x = y) (h : AllReal y) : AllReal x := e ▸ h

section Stages

variable (V : Valuation τ sig (Elt Ideal))

theorem stage0_v8 (h2 : AllReal (V (Proc.devRef .tc main_arg2) : FVec Ideal S262144 .f32)) :
    AllReal (StableHlo.after (kpre0 (F := Ideal)) V (Proc.devRef .tc main_v8) : FVec Ideal S270336 .f32) := by
  after_results_simp
  refine allReal_concatenate2 _ _ ?_ ?_
  · after_results_simp
    exact h2
  · after_results_simp
    exact allReal_broadcastInDim _ _ (allReal_constant isReal_ofBits_one)

theorem stage1_v11 (h8 : AllReal (V (Proc.devRef .tc main_v8) : FVec Ideal S270336 .f32)) :
    AllReal (StableHlo.after (kpre1 (F := Ideal)) V (Proc.devRef .tc main_v11) : FVec Ideal S8192 .f32) := by
  after_results_simp
  refine allReal_scatterAdd _ _ (allReal_broadcastInDim _ _ (allReal_constant ?_)) h8
  rw [ofBits_zero]; exact isReal_zero

theorem stage1_v17 :
    AllReal (StableHlo.after (kpre1 (F := Ideal)) V (Proc.devRef .tc main_v17) : FVec Ideal S8192 .f32) := by
  after_results_simp
  simp only [StableHlo.TRef.toBuf, StableHlo.TRef.ofBuf, cast_eq, id]
  refine allReal_select (allReal_hostRsqrt fun i => max_pos_of_right ofBits_eps_pos)
    (allReal_broadcastInDim _ _ (allReal_constant ?_))
  rw [ofBits_zero]; exact isReal_zero

theorem stage2_v33 (h17 : AllReal (V (Proc.devRef .tc main_v17) : FVec Ideal S8192 .f32))
    (h8 : AllReal (V (Proc.devRef .tc main_v8) : FVec Ideal S270336 .f32)) :
    AllReal (StableHlo.after (kpre2 (F := Ideal)) V (Proc.devRef .tc main_v33) : FVec Ideal S270336 .f32) := by
  after_results_simp
  exact allReal_mulf (allReal_mulf (allReal_gather _ _ h17) h8) (allReal_gather _ _ h17)

end Stages

section Final

variable [Cert.Pre_finite_inputs.Facts] (m : (ℓ : Loc nD τ sig) → Buf (Elt Ideal) ℓ) (c : Dev nD)

theorem real_args (hpre : Cert.Pre_KernelIdeal m) :
    AllReal (KFin m c (Proc.devRef .tc main_arg0) : FVec Ideal S8192x512 .f32)
    ∧ AllReal (KFin m c (Proc.devRef .tc main_arg2) : FVec Ideal S262144 .f32)
    ∧ AllReal (KFin m c (Proc.devRef .tc main_arg3) : FVec Ideal S8192x8192 .f32)
    ∧ AllReal (KFin m c (Proc.devRef .tc main_arg5) : FVec Ideal S512x16 .f32)
    ∧ AllReal (KFin m c (Proc.devRef .tc main_arg6) : FVec Ideal S16 .f32)
    ∧ AllReal (KFin m c (Proc.devRef .tc main_arg7) : FVec Ideal S16x10 .f32)
    ∧ AllReal (KFin m c (Proc.devRef .tc main_arg8) : FVec Ideal S10 .f32)
    ∧ AllReal (KFin m c (Proc.devRef .tc main_arg9) : FVec Ideal S512x100 .f32)
    ∧ AllReal (KFin m c (Proc.devRef .tc main_arg10) : FVec Ideal S100 .f32)
    ∧ AllReal (KFin m c (Proc.devRef .tc main_arg11) : FVec Ideal S512x16 .f32)
    ∧ AllReal (KFin m c (Proc.devRef .tc main_arg12) : FVec Ideal S16 .f32)
    ∧ AllReal (KFin m c (Proc.devRef .tc main_arg13) : FVec Ideal S16x100 .f32)
    ∧ AllReal (KFin m c (Proc.devRef .tc main_arg14) : FVec Ideal S100 .f32)
    ∧ AllReal (KFin m c (Proc.devRef .tc main_arg15) : FVec Ideal S110x10 .f32)
    ∧ AllReal (KFin m c (Proc.devRef .tc main_arg16) : FVec Ideal S10 .f32) := by
  obtain ⟨h0, h2, h3, h5, h6, h7, h8, h9, h10, h11, h12, h13, h14, h15, h16⟩ := args_real m hpre c
  exact ⟨allReal_of_eq (KFin_arg m c main_arg0 (by decide)) h0, allReal_of_eq (KFin_arg m c main_arg2 (by decide)) h2,
    allReal_of_eq (KFin_arg m c main_arg3 (by decide)) h3, allReal_of_eq (KFin_arg m c main_arg5 (by decide)) h5,
    allReal_of_eq (KFin_arg m c main_arg6 (by decide)) h6, allReal_of_eq (KFin_arg m c main_arg7 (by decide)) h7,
    allReal_of_eq (KFin_arg m c main_arg8 (by decide)) h8, allReal_of_eq (KFin_arg m c main_arg9 (by decide)) h9,
    allReal_of_eq (KFin_arg m c main_arg10 (by decide)) h10, allReal_of_eq (KFin_arg m c main_arg11 (by decide)) h11,
    allReal_of_eq (KFin_arg m c main_arg12 (by decide)) h12, allReal_of_eq (KFin_arg m c main_arg13 (by decide)) h13,
    allReal_of_eq (KFin_arg m c main_arg14 (by decide)) h14, allReal_of_eq (KFin_arg m c main_arg15 (by decide)) h15,
    allReal_of_eq (KFin_arg m c main_arg16 (by decide)) h16⟩

theorem real_arg3 (hpre : Cert.Pre_KernelIdeal m) :
    AllReal (KFin m c (Proc.devRef .tc main_arg3) : FVec Ideal S8192x8192 .f32) :=
  (real_args m c hpre).2.2.1

theorem real_v8 (hpre : Cert.Pre_KernelIdeal m) :
    AllReal (KFin m c (Proc.devRef .tc main_v8) : FVec Ideal S270336 .f32) :=
  allReal_of_eq (pre_down0_k m c main_v8 (by decide))
    (stage0_v8 (PB0 m c) (allReal_of_eq (pre_up0_k m c main_arg2 (by decide)) (real_args m c hpre).2.1))

theorem real_v17 : AllReal (KFin m c (Proc.devRef .tc main_v17) : FVec Ideal S8192 .f32) :=
  allReal_of_eq (pre_down1_k m c main_v17 (by decide)) (stage1_v17 (PB1 m c))

theorem real_v33 (hpre : Cert.Pre_KernelIdeal m) :
    AllReal (KFin m c (Proc.devRef .tc main_v33) : FVec Ideal S270336 .f32) :=
  allReal_of_eq (pre_down2_k m c main_v33 (by decide))
    (stage2_v33 (PB2 m c) (allReal_of_eq (pre_up2_k m c main_v17 (by decide)) (real_v17 m c))
      (allReal_of_eq (pre_up2_k m c main_v8 (by decide)) (real_v8 m c hpre)))

end Final

end Cert.Bridge
-- ==== Proof.Bridge.FiniteK2.lean ====
import proofs.«401602_j3728031613303_3_alg».proof.Proof.KI.StagesK
import proofs.«401602_j3728031613303_3_alg».proof.Proof.Bridge.Finite
import Idealize.ShloMosaic.Lib.StableHlo.Run

set_option maxRecDepth 16384

noncomputable section

namespace Cert.Bridge

open Idealize.ShloMosaic Idealize.ShloMosaic.TcCoe
open Idealize.SL Idealize.SL.Sem
open Cert.KernelIdeal Cert.KernelIdeal.Gen Cert.KernelIdeal.Hand
open Cert.LibAlg

namespace Softmax

theorem isReal_zero_bits : IsReal (Ideal.ofBits .f32 0x00000000#32) := by
  rw [ofBits_zero]; exact isReal_zero

theorem reduces_rows : S8192x100.Reduces [1] S8192 := by decide

abbrev rowMax (x : FVec Ideal S8192x100 .f32) : FVec Ideal S8192 .f32 :=
  maximumf (broadcastInDim S8192 ![] bcast_S_S8192 (constant S_ .f32 0xFF800000#32))
    (Host.reduce FloatOps.maximumf x (constant S_ .f32 0xFF800000#32) reducesTo_S8192x100_S8192_d1 h_S_)

abbrev rowBc (v : FVec Ideal S8192 .f32) : FVec Ideal S8192x100 .f32 :=
  broadcastInDim S8192x100 ![0, 1] bcast_S8192x1_S8192x100_0_1 (broadcastInDim S8192x1 ![0] bcast_S8192_S8192x1_0 v)

abbrev expShift (x : FVec Ideal S8192x100 .f32) : FVec Ideal S8192x100 .f32 :=
  Host.exp (subf x (rowBc (rowMax x)))

abbrev rowSum (e : FVec Ideal S8192x100 .f32) : FVec Ideal S8192 .f32 :=
  Host.reduceAdd e (constant S_ .f32 0x00000000#32) reducesTo_S8192x100_S8192_d1 h_S_

abbrev softmaxRows (x : FVec Ideal S8192x100 .f32) : FVec Ideal S8192x100 .f32 :=
  Host.divf (expShift x) (rowBc (rowSum (expShift x)))

theorem allReal_rowBc {v : FVec Ideal S8192 .f32} (hv : AllReal v) : AllReal (rowBc v) :=
  allReal_broadcastInDim _ _ (allReal_broadcastInDim _ _ hv)

theorem allReal_rowMax {x : FVec Ideal S8192x100 .f32} (hx : AllReal x) : AllReal (rowMax x) :=
  allReal_maximumf_of_ne_top
    (fun _ => by show Ideal.ofBits .f32 0xFF800000#32 ≠ ⊤; rw [ofBits_neg_inf]; exact bot_ne_top)
    (allReal_reduceMax reducesTo_S8192x100_S8192_d1 h_S_ hx
      (fun _ => by show Ideal.ofBits .f32 0xFF800000#32 ≠ ⊤; rw [ofBits_neg_inf]; exact bot_ne_top)
      (exists_drop_eq reducesTo_S8192x100_S8192_d1 reduces_rows (by decide)))

theorem allReal_shift {x : FVec Ideal S8192x100 .f32} (hx : AllReal x) : AllReal (subf x (rowBc (rowMax x))) :=
  allReal_subf hx (allReal_rowBc (allReal_rowMax hx))

theorem allReal_expShift {x : FVec Ideal S8192x100 .f32} (hx : AllReal x) : AllReal (expShift x) :=
  allReal_hostExp (allReal_shift hx)

theorem expShift_pos {x : FVec Ideal S8192x100 .f32} (hx : AllReal x) (i : S8192x100.Idx) : 0 < expShift x i :=
  hostExp_pos (allReal_shift hx) i

theorem allReal_rowSum {e : FVec Ideal S8192x100 .f32} (he : AllReal e) : AllReal (rowSum e) :=
  allReal_reduceAdd _ _ he (allReal_constant isReal_zero_bits)

theorem rowSum_pos {e : FVec Ideal S8192x100 .f32} (he : AllReal e) (hpos : ∀ i, 0 < e i) (j : S8192.Idx) :
    0 < rowSum e j :=
  reduceAdd_pos reducesTo_S8192x100_S8192_d1 reduces_rows h_S_ (by decide) he hpos
    (fun _ => by show (0 : EReal) ≤ Ideal.ofBits .f32 0x00000000#32; rw [ofBits_zero]) j

theorem allReal_softmaxRows {x : FVec Ideal S8192x100 .f32} (hx : AllReal x) : AllReal (softmaxRows x) :=
  allReal_hostDivf (allReal_expShift hx) (allReal_rowBc (allReal_rowSum (allReal_expShift hx)))
    (fun _ => ne_of_gt (rowSum_pos (allReal_expShift hx) (expShift_pos hx) _))

end Softmax

section Stages

variable (V : Valuation τ sig (Elt Ideal))

theorem stage3_v52
    (h33 : AllReal (V (Proc.devRef .tc main_v33) : FVec Ideal S270336 .f32))
    (h0 : AllReal (V (Proc.devRef .tc main_arg0) : FVec Ideal S8192x512 .f32))
    (h5 : AllReal (V (Proc.devRef .tc main_arg5) : FVec Ideal S512x16 .f32))
    (h9 : AllReal (V (Proc.devRef .tc main_arg9) : FVec Ideal S512x100 .f32))
    (h6 : AllReal (V (Proc.devRef .tc main_arg6) : FVec Ideal S16 .f32))
    (h10 : AllReal (V (Proc.devRef .tc main_arg10) : FVec Ideal S100 .f32)) :
    AllReal (StableHlo.after (kpre3 (F := Ideal)) V (Proc.devRef .tc main_v52) : FVec Ideal S8192x116 .f32) := by
  after_results_simp
  rw [StableHlo.binary_result_ne (h := show main_arg6 ≠ main_v34 by decide),
    StableHlo.binary_result_ne (h := show main_arg10 ≠ main_v34 by decide)]
  exact allReal_addf
    (allReal_scatterAdd _ _
      (allReal_broadcastInDim _ _ (allReal_constant Softmax.isReal_zero_bits))
      (allReal_mulf (allReal_broadcastInDim _ _ (allReal_broadcastInDim _ _ h33))
        (allReal_gather _ _ (allReal_dotGeneral _ _ h0 (allReal_concatenate2 _ _ h5 h9)))))
    (allReal_broadcastInDim _ _ (allReal_broadcastInDim _ _ (allReal_concatenate2 _ _ h6 h10)))

theorem stage5_v55 (h52 : AllReal (V (Proc.devRef .tc main_v52) : FVec Ideal S8192x116 .f32)) :
    AllReal (StableHlo.after (kpre5 (F := Ideal)) V (Proc.devRef .tc main_v55) : FVec Ideal S8192x100 .f32) := by
  after_results_simp
  exact allReal_extractStridedSlice _ _ h52

theorem stage6_v56 (h55 : AllReal (V (Proc.devRef .tc main_v55) : FVec Ideal S8192x100 .f32)) :
    AllReal (StableHlo.after (kpre6 (F := Ideal)) V (Proc.devRef .tc main_v56) : FVec Ideal S8192x100 .f32) := by
  after_results_simp
  show AllReal (maximumf (F := Ideal) (V (Proc.devRef .tc main_v55) : FVec Ideal S8192x100 .f32)
    (broadcastInDim S8192x100 ![] bcast_S_S8192x100 (constant S_ .f32 0x00000000#32)))
  exact allReal_maximumf h55 (allReal_broadcastInDim _ _ (allReal_constant Softmax.isReal_zero_bits))

theorem stage8_v88 (h56 : AllReal (V (Proc.devRef .tc main_v56) : FVec Ideal S8192x100 .f32)) :
    AllReal (StableHlo.after (kpre8 (F := Ideal)) V (Proc.devRef .tc main_v88) : FVec Ideal S8192x100 .f32) := by
  after_results_simp
  exact allReal_mulf (Softmax.allReal_softmaxRows h56) (Softmax.allReal_rowBc (allReal_uitofp _))

theorem stage10_v97 (h88 : AllReal (V (Proc.devRef .tc main_v88) : FVec Ideal S8192x100 .f32)) :
    AllReal (StableHlo.after (kpre10 (F := Ideal)) V (Proc.devRef .tc main_v97) : FVec Ideal S8192x128 .f32) := by
  after_results_simp
  show AllReal (pad S8192x128 ![0, 0] ![0, 28] ![0, 0] (V (Proc.devRef .tc main_v88) : FVec Ideal S8192x100 .f32)
    (sitofp (F := Ideal) .f32 (constantI S_ 32 0#32)) pads_S8192x100_S8192x128_000_0280 h_S_)
  exact allReal_pad _ _ _ _ _ h88 (allReal_sitofp _)

end Stages

section Placed

variable (m : (ℓ : Loc nD τ sig) → Buf (Elt Ideal) ℓ) (c : Dev nD)

theorem real_v52_of
    (h33 : AllReal (KFin m c (Proc.devRef .tc main_v33) : FVec Ideal S270336 .f32))
    (h0 : AllReal (KFin m c (Proc.devRef .tc main_arg0) : FVec Ideal S8192x512 .f32))
    (h5 : AllReal (KFin m c (Proc.devRef .tc main_arg5) : FVec Ideal S512x16 .f32))
    (h9 : AllReal (KFin m c (Proc.devRef .tc main_arg9) : FVec Ideal S512x100 .f32))
    (h6 : AllReal (KFin m c (Proc.devRef .tc main_arg6) : FVec Ideal S16 .f32))
    (h10 : AllReal (KFin m c (Proc.devRef .tc main_arg10) : FVec Ideal S100 .f32)) :
    AllReal (KFin m c (Proc.devRef .tc main_v52) : FVec Ideal S8192x116 .f32) := by
  rw [pre_down3_k m c main_v52 (by decide)]
  refine stage3_v52 (PB3 m c) ?_ ?_ ?_ ?_ ?_ ?_
  · rw [pre_up3_k m c main_v33 (by decide)]; exact h33
  · rw [pre_up3_k m c main_arg0 (by decide)]; exact h0
  · rw [pre_up3_k m c main_arg5 (by decide)]; exact h5
  · rw [pre_up3_k m c main_arg9 (by decide)]; exact h9
  · rw [pre_up3_k m c main_arg6 (by decide)]; exact h6
  · rw [pre_up3_k m c main_arg10 (by decide)]; exact h10

theorem real_v55_of (h52 : AllReal (KFin m c (Proc.devRef .tc main_v52) : FVec Ideal S8192x116 .f32)) :
    AllReal (KFin m c (Proc.devRef .tc main_v55) : FVec Ideal S8192x100 .f32) := by
  rw [pre_down5_k m c main_v55 (by decide)]
  refine stage5_v55 (PB5 m c) ?_
  rw [pre_up5_k m c main_v52 (by decide)]; exact h52

theorem real_v56_of (h55 : AllReal (KFin m c (Proc.devRef .tc main_v55) : FVec Ideal S8192x100 .f32)) :
    AllReal (KFin m c (Proc.devRef .tc main_v56) : FVec Ideal S8192x100 .f32) := by
  rw [pre_down6_k m c main_v56 (by decide)]
  refine stage6_v56 (PB6 m c) ?_
  rw [pre_up6_k m c main_v55 (by decide)]; exact h55

theorem real_v88_of (h56 : AllReal (KFin m c (Proc.devRef .tc main_v56) : FVec Ideal S8192x100 .f32)) :
    AllReal (KFin m c (Proc.devRef .tc main_v88) : FVec Ideal S8192x100 .f32) := by
  rw [pre_down8_k m c main_v88 (by decide)]
  refine stage8_v88 (PB8 m c) ?_
  rw [pre_up8_k m c main_v56 (by decide)]; exact h56

theorem real_v97_of (h88 : AllReal (KFin m c (Proc.devRef .tc main_v88) : FVec Ideal S8192x100 .f32)) :
    AllReal (KFin m c (Proc.devRef .tc main_v97) : FVec Ideal S8192x128 .f32) := by
  rw [pre_down10_k m c main_v97 (by decide)]
  refine stage10_v97 (PB10 m c) ?_
  rw [pre_up10_k m c main_v88 (by decide)]; exact h88

section Chain

variable [Cert.Pre_finite_inputs.Facts]

theorem real_args_layer (hpre : Cert.Pre_KernelIdeal m) :
    AllReal (KFin m c (Proc.devRef .tc main_arg0) : FVec Ideal S8192x512 .f32)
    ∧ AllReal (KFin m c (Proc.devRef .tc main_arg5) : FVec Ideal S512x16 .f32)
    ∧ AllReal (KFin m c (Proc.devRef .tc main_arg9) : FVec Ideal S512x100 .f32)
    ∧ AllReal (KFin m c (Proc.devRef .tc main_arg6) : FVec Ideal S16 .f32)
    ∧ AllReal (KFin m c (Proc.devRef .tc main_arg10) : FVec Ideal S100 .f32) := by
  obtain ⟨h0, h2, h3, h5, h6, h7, h8, h9, h10, hrest⟩ := args_real m hpre c
  refine ⟨?_, ?_, ?_, ?_, ?_⟩
  · rw [KFin_arg m c main_arg0 (by decide)]; exact h0
  · rw [KFin_arg m c main_arg5 (by decide)]; exact h5
  · rw [KFin_arg m c main_arg9 (by decide)]; exact h9
  · rw [KFin_arg m c main_arg6 (by decide)]; exact h6
  · rw [KFin_arg m c main_arg10 (by decide)]; exact h10

variable (hpre : Cert.Pre_KernelIdeal m)
  (h33 : AllReal (KFin m c (Proc.devRef .tc main_v33) : FVec Ideal S270336 .f32))
include hpre h33

theorem real_v52 : AllReal (KFin m c (Proc.devRef .tc main_v52) : FVec Ideal S8192x116 .f32) := by
  obtain ⟨h0, h5, h9, h6, h10⟩ := real_args_layer m c hpre
  exact real_v52_of m c h33 h0 h5 h9 h6 h10

theorem real_v55 : AllReal (KFin m c (Proc.devRef .tc main_v55) : FVec Ideal S8192x100 .f32) :=
  real_v55_of m c (real_v52 m c hpre h33)

theorem real_v56 : AllReal (KFin m c (Proc.devRef .tc main_v56) : FVec Ideal S8192x100 .f32) :=
  real_v56_of m c (real_v55 m c hpre h33)

theorem real_v88 : AllReal (KFin m c (Proc.devRef .tc main_v88) : FVec Ideal S8192x100 .f32) :=
  real_v88_of m c (real_v56 m c hpre h33)

end Chain

end Placed

end Cert.Bridge

end
-- ==== Proof.Bridge.Final.lean ====
import proofs.«401602_j3728031613303_3_alg».proof.Proof.Bridge.SynPre
import proofs.«401602_j3728031613303_3_alg».proof.Proof.Bridge.SynTail
import proofs.«401602_j3728031613303_3_alg».proof.Proof.Bridge.FusedStage
import proofs.«401602_j3728031613303_3_alg».proof.Proof.Bridge.Pool
import proofs.«401602_j3728031613303_3_alg».proof.Proof.Bridge.FiniteK
import proofs.«401602_j3728031613303_3_alg».proof.Proof.Bridge.FiniteK2

set_option maxRecDepth 16384

noncomputable section

namespace Cert.Bridge

open Idealize.ShloMosaic Idealize.ShloMosaic.TcCoe Idealize.SL.Sem Cert.LibAlg

variable [Cert.Pre_finite_inputs.Facts] (m : KMem Ideal) (m' : RMem Ideal) (c : Dev Cert.KernelIdeal.nD)

theorem results (hpre : Cert.Pre_KernelIdeal m) (ha : Agree m m') :
    KV m c Cert.KernelIdeal.main_v272 = RV m' c Cert.ReferenceIdeal.main_v335
    ∧ KV m c Cert.KernelIdeal.main_v56 = RV m' c Cert.ReferenceIdeal.main_v146
    ∧ KV m c Cert.KernelIdeal.main_v273 = RV m' c Cert.ReferenceIdeal.main_v336
    ∧ KV m c Cert.KernelIdeal.main_v108 = RV m' c Cert.ReferenceIdeal.main_v168 := by

  obtain ⟨a0, a1, a2, a3, a4, a5, a6, a7, a8, a9, a10, a11, a12, a13, a14, a15, a16⟩ := args_eq m m' c ha

  have e1 := syn_v1_v1 m m' c a1
  have e3 := syn_v3_v3 m m' c a1
  have e5 := syn_v5_v5 m m' c a1
  have e6 := syn_v6_v6 m m' c a1
  have e8 := syn_v8_v8 m m' c a2
  have e5b := syn_v5_v53 m m' c a1
  have e6b := syn_v6_v54 m m' c a1
  have e8b := syn_v8_v56 m m' c a2
  have e5c := syn_v5_v100 m m' c a1
  have e6c := syn_v6_v101 m m' c a1
  have e8c := syn_v8_v103 m m' c a2

  have d17 := syn_v17_v17 m m' c e6 e8
  have d17b := syn_v17_v65 m m' c e6b e8b
  have d17c := syn_v17_v112 m m' c e6c e8c
  have n33 := syn_v33_v33 m m' c d17 e5 e8 e6
  have n33b := syn_v33_v81 m m' c d17b e5b e8b e6b
  have n33c := syn_v33_v128 m m' c d17c e5c e8c e6c

  have f53 := v53_eq m m' c a0 a5 a9 a6 a10 n33 e5 e6
  have f55 := v55_eq m m' c a0 a5 a9 a6 a10 n33c e5c e6c
  have h54 := syn_v54_v51 m m' c f53
  have s56 := syn_v56_v146 m m' c f55

  have x73 := syn_v73_v98 m m' c e6b n33b h54 a7 e5b a8

  have s88 := syn_v88_v163 m m' c s56 a4
  have e96 := syn_v96_v183 m m' c s88

  have r33 := real_v33 m c hpre
  have r88 := real_v88 m c hpre r33
  have hsr : ∀ i, IsReal ((RV m' c Cert.ReferenceIdeal.main_v163 : FVec Ideal Cert.ReferenceIdeal.S8192x100 .f32) i) := by
    intro i
    have e := congrFun s88 i
    unfold KV at e
    rw [← e]; exact r88 i
  have hAr : ∀ i, IsReal ((RV m' c Cert.ReferenceIdeal.main_arg3 : FVec Ideal Cert.ReferenceIdeal.S8192x8192 .f32) i) := by
    intro i
    have e := congrFun a3 i
    unfold KV at e
    rw [← e]; exact real_arg3 m c hpre i

  have p108 := adj1_eq m m' c s88 a3 hsr hAr
  have p109 := x1p_eq m m' c s88 a0
  have p120 := l1_eq m m' c s88 a3 hsr hAr

  have t121 := syn_tail2_v121 m m' c
  have t138 := syn_tail2_v138 m m' c p108
  have t152 := syn_tail3_v152 m m' c t121 p108 t138
  have t159 := syn_tail4_v159 m m' c t152
  have t171 := syn_tail5_v171 m m' c t159 t152 p109 a11 a12
  have t172 := syn_tail6_v172 m m' c
  have t189 := syn_tail6_v189 m m' c p108
  have t203 := syn_tail7_v203 m m' c t172 p108 t189
  have t210 := syn_tail8_v210 m m' c t203
  have t221 := syn_tail9_v221 m m' c t210 t203 t171 a13 a14
  have t223 := syn_tail10_v223 m m' c s56 t221 x73

  have u226 := syn_v226_v289 m m' c e1
  have u227 := syn_v227_v290 m m' c e3
  have u229 := syn_v229_v292 m m' c
  have u238 := syn_v238_v301 m m' c u227 u229
  have u254 := syn_v254_v317 m m' c u238 u226 u229 u227
  have u271 := syn_v271_v334 m m' c u227 u254 t223 a15 u226 a16
  have u272 := syn_v272_v335 m m' c u271
  have u273 := syn_v273_v336 m m' c p120 e96
  exact ⟨u272, s56, u273, p108⟩

end Cert.Bridge

end
-- ==== Proof.lean ====
import proofs.«401602_j3728031613303_3_alg».proof.Defs
import proofs.«401602_j3728031613303_3_alg».proof.Proof.Gen.Kernel
import proofs.«401602_j3728031613303_3_alg».proof.Proof.Gen.KernelIdeal
import proofs.«401602_j3728031613303_3_alg».proof.Proof.Gen.ReferenceIdeal
import proofs.«401602_j3728031613303_3_alg».proof.Proof.Gen.Pre_finite_inputs
import proofs.«401602_j3728031613303_3_alg».proof.Proof.KI.Frame
import proofs.«401602_j3728031613303_3_alg».proof.Proof.K.Frame
import proofs.«401602_j3728031613303_3_alg».proof.Proof.RI.Run
import proofs.«401602_j3728031613303_3_alg».proof.Proof.Bridge.Final

noncomputable section

namespace Cert.Proof

open Idealize.ShloMosaic Idealize.ShloMosaic.TcCoe Idealize.SL.Sem
open Cert.Bridge

theorem frame_k : Cert.frame_Kernel := fun m ρ _ => Cert.Kernel.Hand.frame m ρ

theorem frame_ki : Cert.frame_KernelIdeal := fun m ρ _ => Cert.KernelIdeal.Hand.frame m ρ

/-- In a final state of the reference's run every buffer holds its final contents. -/
theorem ref_fin (m' : RMem Ideal) (r : PUnit × MemSt Cert.ReferenceIdeal.nD Cert.ReferenceIdeal.τ Cert.ReferenceIdeal.sig (Elt Ideal))
    (hr : ∀ (c : Dev Cert.ReferenceIdeal.nD) (b : Ref Cert.ReferenceIdeal.sig .tc), r.2.mem ((c.tc : Thread Cert.ReferenceIdeal.nD Cert.ReferenceIdeal.τ).loc b) = Cert.ReferenceIdeal.Hand.RFin m' c (Proc.devRef .tc b))
    (c : Dev Cert.ReferenceIdeal.nD) (b : Ref Cert.ReferenceIdeal.sig .tc) : r.2.mem ((c.tc : Thread Cert.ReferenceIdeal.nD Cert.ReferenceIdeal.τ).loc b) = RV m' c b :=
  (hr c b).trans (congrFun (Cert.ReferenceIdeal.Hand.RFin'_eq m' c).symm _)

/-- No operation of the reference writes a reference of index below 17, and the arguments are those. -/
theorem ref_kept (m' : RMem Ideal) (r : PUnit × MemSt Cert.ReferenceIdeal.nD Cert.ReferenceIdeal.τ Cert.ReferenceIdeal.sig (Elt Ideal))
    (hr : ∀ (c : Dev Cert.ReferenceIdeal.nD) (b : Ref Cert.ReferenceIdeal.sig .tc), r.2.mem ((c.tc : Thread Cert.ReferenceIdeal.nD Cert.ReferenceIdeal.τ).loc b) = Cert.ReferenceIdeal.Hand.RFin m' c (Proc.devRef .tc b))
    (c : Dev Cert.ReferenceIdeal.nD) (b : Ref Cert.ReferenceIdeal.sig .tc) (hb : Cert.ReferenceIdeal.Hand.rkey b < 17) : r.2.mem ((c.tc : Thread Cert.ReferenceIdeal.nD Cert.ReferenceIdeal.τ).loc b) = m' ((c.tc : Thread Cert.ReferenceIdeal.nD Cert.ReferenceIdeal.τ).loc b) :=
  (ref_fin m' r hr c b).trans (Cert.ReferenceIdeal.Hand.r_up0_k m' c b hb).symm

theorem frame_ri : Cert.frame_ReferenceIdeal := fun m ρ _ =>
  (θ_run _ _ _).mono (fun r h c =>
    have A := ref_kept m r h c
    ⟨A _ (by decide), A _ (by decide), A _ (by decide), A _ (by decide), A _ (by decide), A _ (by decide), A _ (by decide), A _ (by decide), A _ (by decide), A _ (by decide), A _ (by decide), A _ (by decide), A _ (by decide), A _ (by decide), A _ (by decide), A _ (by decide), A _ (by decide)⟩) (Cert.ReferenceIdeal.Hand.run m ρ)

theorem preserves : Cert.preserves_Kernel_KernelIdeal := IdealRules.truncf_extf.statement _ .f32 .bf16

/-- The common results are the kernel program's final contents; the reference's final contents equal them. -/
theorem algebraic : Cert.algebraic_KernelIdeal_ReferenceIdeal := fun m ρ m' ρ' hpre hagree =>
  ⟨fun c => KV m c Cert.KernelIdeal.main_v272, fun c => KV m c Cert.KernelIdeal.main_v56, fun c => KV m c Cert.KernelIdeal.main_v273, fun c => KV m c Cert.KernelIdeal.main_v108,
    (θ_run _ _ _).mono (fun r hr c =>
      ⟨(Cert.KernelIdeal.Hand.rest_of_post m r hr c _ Cert.KernelIdeal.Hand.main_v272_rest).trans (Cert.KernelIdeal.Hand.afterTail_eq m c _),
        (Cert.KernelIdeal.Hand.rest_of_post m r hr c _ Cert.KernelIdeal.Hand.main_v56_rest).trans (Cert.KernelIdeal.Hand.afterTail_eq m c _),
        (Cert.KernelIdeal.Hand.rest_of_post m r hr c _ Cert.KernelIdeal.Hand.main_v273_rest).trans (Cert.KernelIdeal.Hand.afterTail_eq m c _),
        (Cert.KernelIdeal.Hand.rest_of_post m r hr c _ Cert.KernelIdeal.Hand.main_v108_rest).trans (Cert.KernelIdeal.Hand.afterTail_eq m c _),
        Cert.KernelIdeal.Hand.args_of_post m r hr c⟩) (Cert.KernelIdeal.Hand.run_main m ρ),
    (θ_run _ _ _).mono (fun r hr c =>
      have E := Cert.Bridge.results m m' c hpre hagree
      have A := ref_fin m' r hr c
      have B := ref_kept m' r hr c
      ⟨(A _).trans E.1.symm, (A _).trans E.2.1.symm, (A _).trans E.2.2.1.symm, (A _).trans E.2.2.2.symm,
        B _ (by decide), B _ (by decide), B _ (by decide), B _ (by decide), B _ (by decide), B _ (by decide), B _ (by decide), B _ (by decide), B _ (by decide), B _ (by decide), B _ (by decide), B _ (by decide), B _ (by decide), B _ (by decide), B _ (by decide), B _ (by decide), B _ (by decide)⟩) (Cert.ReferenceIdeal.Hand.run m' ρ')⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
